-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v165)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v165) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v204) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S400000x7 : Shape := ⟨2, ![400000, 7]⟩
abbrev S2x2500000 : Shape := ⟨2, ![2, 2500000]⟩
abbrev S2500000 : Shape := ⟨1, ![2500000]⟩
abbrev S400000 : Shape := ⟨1, ![400000]⟩
abbrev S7x32 : Shape := ⟨2, ![7, 32]⟩
abbrev S32 : Shape := ⟨1, ![32]⟩
abbrev S32x32 : Shape := ⟨2, ![32, 32]⟩
abbrev S3x32 : Shape := ⟨2, ![3, 32]⟩
abbrev S32x2 : Shape := ⟨2, ![32, 2]⟩
abbrev S2 : Shape := ⟨1, ![2]⟩
abbrev S_ : Shape := ⟨0, ![]⟩

class Facts : Prop where
  bcast_S_S400000x7 : S_.BroadcastsInDim S400000x7 (![] : Fin 0 → Fin S400000x7.rank)
  reducesTo_S400000x7_S_d0_1 : S400000x7.ReducesTo [0, 1] S_
  h_S_ : 0 < S_.numel
  bcast_S_S2500000 : S_.BroadcastsInDim S2500000 (![] : Fin 0 → Fin S2500000.rank)
  reducesTo_S2500000_S_d0 : S2500000.ReducesTo [0] S_
  bcast_S_S7x32 : S_.BroadcastsInDim S7x32 (![] : Fin 0 → Fin S7x32.rank)
  reducesTo_S7x32_S_d0_1 : S7x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S3x32 : S_.BroadcastsInDim S3x32 (![] : Fin 0 → Fin S3x32.rank)
  reducesTo_S3x32_S_d0_1 : S3x32.ReducesTo [0, 1] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part5 {F : FTy → Type} [FloatOps F] (main_v83 : IVec S_ 1) (main_v84 : FVec F S2 .f32) (main_cst_32 : FVec F S_ .f32) : IVec S_ 1 :=
  let main_v85 : FVec F S2 .f32 := broadcastInDim S2 ![] bcast_S_S2 main_cst_32
  let main_v86 : IVec S2 1 := cmpf .olt main_v84 main_v85
  let main_c_33 : IVec S_ 1 := constantI S_ 1 1#1
  let main_v87 : IVec S_ 1 := (fun x v => Host.reduce IntOp.andi x v reducesTo_S2_S_d0 h_S_) main_v86 main_c_33
  let main_v88 : IVec S_ 1 := andi main_v83 main_v87
  main_v88

def fn_part4 {F : FTy → Type} [FloatOps F] (main_arg16 : FVec F S32 .f32) (main_arg17 : FVec F S32 .f32) (main_arg18 : FVec F S32x2 .f32) (main_arg19 : FVec F S2 .f32) (main_v63 : IVec S_ 1) (main_v67 : IVec S_ 1) : IVec S_ 1 :=
  let main_v68 : IVec S_ 1 := andi main_v63 main_v67
  let main_v69 : FVec F S32 .f32 := Host.absf main_arg16
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S32 .f32 := Host.absf main_arg17
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  let main_v79 : FVec F S32x2 .f32 := Host.absf main_arg18
  let main_cst_30 : FVec F S_ .f32 := constant S_ .f32 0x7F800000#32
  let main_v80 : FVec F S32x2 .f32 := broadcastInDim S32x2 ![] bcast_S_S32x2 main_cst_30
  let main_v81 : IVec S32x2 1 := cmpf .olt main_v79 main_v80
  let main_c_31 : IVec S_ 1 := constantI S_ 1 1#1
  let main_v82 : IVec S_ 1 := (fun x v => Host.reduce IntOp.andi x v reducesTo_S32x2_S_d0_1 h_S_) main_v81 main_c_31
  let main_v83 : IVec S_ 1 := andi main_v78 main_v82
  let main_v84 : FVec F S2 .f32 := Host.absf main_arg19
  let main_cst_32 : FVec F S_ .f32 := constant S_ .f32 0x7F800000#32
  fn_part5 (F := F) main_v83 main_v84 main_cst_32

def fn_part3 {F : FTy → Type} [FloatOps F] (main_arg13 : FVec F S3x32 .f32) (main_arg14 : FVec F S32x32 .f32) (main_arg15 : FVec F S32 .f32) (main_arg16 : FVec F S32 .f32) (main_arg17 : FVec F S32 .f32) (main_arg18 : FVec F S32x2 .f32) (main_arg19 : FVec F S2 .f32) (main_v48 : IVec S_ 1) (main_v49 : FVec F S3x32 .f32) (main_v50 : FVec F S3x32 .f32) : IVec S_ 1 :=
  let main_v51 : IVec S3x32 1 := cmpf .olt main_v49 main_v50
  let main_c_19 : IVec S_ 1 := constantI S_ 1 1#1
  let main_v52 : IVec S_ 1 := (fun x v => Host.reduce IntOp.andi x v reducesTo_S3x32_S_d0_1 h_S_) main_v51 main_c_19
  let main_v53 : IVec S_ 1 := andi main_v48 main_v52
  let main_v54 : FVec F S3x32 .f32 := Host.absf main_arg13
  let main_cst_20 : FVec F S_ .f32 := constant S_ .f32 0x7F800000#32
  let main_v55 : FVec F S3x32 .f32 := broadcastInDim S3x32 ![] bcast_S_S3x32 main_cst_20
  let main_v56 : IVec S3x32 1 := cmpf .olt main_v54 main_v55
  let main_c_21 : IVec S_ 1 := constantI S_ 1 1#1
  let main_v57 : IVec S_ 1 := (fun x v => Host.reduce IntOp.andi x v reducesTo_S3x32_S_d0_1 h_S_) main_v56 main_c_21
  let main_v58 : IVec S_ 1 := andi main_v53 main_v57
  let main_v59 : FVec F S32x32 .f32 := Host.absf main_arg14
  let main_cst_22 : FVec F S_ .f32 := constant S_ .f32 0x7F800000#32
  let main_v60 : FVec F S32x32 .f32 := broadcastInDim S32x32 ![] bcast_S_S32x32 main_cst_22
  let main_v61 : IVec S32x32 1 := cmpf .olt main_v59 main_v60
  let main_c_23 : IVec S_ 1 := constantI S_ 1 1#1
  let main_v62 : IVec S_ 1 := (fun x v => Host.reduce IntOp.andi x v reducesTo_S32x32_S_d0_1 h_S_) main_v61 main_c_23
  let main_v63 : IVec S_ 1 := andi main_v58 main_v62
  let main_v64 : FVec F S32 .f32 := Host.absf main_arg15
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg16 main_arg17 main_arg18 main_arg19 main_v63 main_v67

def fn_part2 {F : FTy → Type} [FloatOps F] (main_arg9 : FVec F S32 .f32) (main_arg10 : FVec F S32x32 .f32) (main_arg11 : FVec F S32 .f32) (main_arg12 : FVec F S3x32 .f32) (main_arg13 : FVec F S3x32 .f32) (main_arg14 : FVec F S32x32 .f32) (main_arg15 : FVec F S32 .f32) (main_arg16 : FVec F S32 .f32) (main_arg17 : FVec F S32 .f32) (main_arg18 : FVec F S32x2 .f32) (main_arg19 : FVec F S2 .f32) (main_v33 : IVec S_ 1) : IVec S_ 1 :=
  let main_v34 : FVec F S32 .f32 := Host.absf main_arg9
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x32 .f32 := Host.absf main_arg10
  let main_cst_14 : FVec F S_ .f32 := constant S_ .f32 0x7F800000#32
  let main_v40 : FVec F S32x32 .f32 := broadcastInDim S32x32 ![] bcast_S_S32x32 main_cst_14
  let main_v41 : IVec S32x32 1 := cmpf .olt main_v39 main_v40
  let main_c_15 : IVec S_ 1 := constantI S_ 1 1#1
  let main_v42 : IVec S_ 1 := (fun x v => Host.reduce IntOp.andi x v reducesTo_S32x32_S_d0_1 h_S_) main_v41 main_c_15
  let main_v43 : IVec S_ 1 := andi main_v38 main_v42
  let main_v44 : FVec F S32 .f32 := Host.absf main_arg11
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S3x32 .f32 := Host.absf main_arg12
  let main_cst_18 : FVec F S_ .f32 := constant S_ .f32 0x7F800000#32
  let main_v50 : FVec F S3x32 .f32 := broadcastInDim S3x32 ![] bcast_S_S3x32 main_cst_18
  fn_part3 (F := F) main_arg13 main_arg14 main_arg15 main_arg16 main_arg17 main_arg18 main_arg19 main_v48 main_v49 main_v50

def fn_part1 {F : FTy → Type} [FloatOps F] (main_arg6 : FVec F S32x32 .f32) (main_arg7 : FVec F S32 .f32) (main_arg8 : FVec F S32x32 .f32) (main_arg9 : FVec F S32 .f32) (main_arg10 : FVec F S32x32 .f32) (main_arg11 : FVec F S32 .f32) (main_arg12 : FVec F S3x32 .f32) (main_arg13 : FVec F S3x32 .f32) (main_arg14 : FVec F S32x32 .f32) (main_arg15 : FVec F S32 .f32) (main_arg16 : FVec F S32 .f32) (main_arg17 : FVec F S32 .f32) (main_arg18 : FVec F S32x2 .f32) (main_arg19 : FVec F S2 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg6
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg7
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x32 .f32 := Host.absf main_arg8
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_v33

def fn {F : FTy → Type} [FloatOps F] (main_arg0 : FVec F S400000x7 .f32) (main_arg1 : IVec S2x2500000 32) (main_arg2 : FVec F S2500000 .f32) (main_arg3 : IVec S400000 32) (main_arg4 : FVec F S7x32 .f32) (main_arg5 : FVec F S32 .f32) (main_arg6 : FVec F S32x32 .f32) (main_arg7 : FVec F S32 .f32) (main_arg8 : FVec F S32x32 .f32) (main_arg9 : FVec F S32 .f32) (main_arg10 : FVec F S32x32 .f32) (main_arg11 : FVec F S32 .f32) (main_arg12 : FVec F S3x32 .f32) (main_arg13 : FVec F S3x32 .f32) (main_arg14 : FVec F S32x32 .f32) (main_arg15 : FVec F S32 .f32) (main_arg16 : FVec F S32 .f32) (main_arg17 : FVec F S32 .f32) (main_arg18 : FVec F S32x2 .f32) (main_arg19 : FVec F S2 .f32) : IVec S_ 1 :=
  let main_v0 : FVec F S400000x7 .f32 := Host.absf main_arg0
  let main_cst : FVec F S_ .f32 := constant S_ .f32 0x7F800000#32
  let main_v1 : FVec F S400000x7 .f32 := broadcastInDim S400000x7 ![] bcast_S_S400000x7 main_cst
  let main_v2 : IVec S400000x7 1 := cmpf .olt main_v0 main_v1
  let main_c : IVec S_ 1 := constantI S_ 1 1#1
  let main_v3 : IVec S_ 1 := (fun x v => Host.reduce IntOp.andi x v reducesTo_S400000x7_S_d0_1 h_S_) main_v2 main_c
  let main_v4 : FVec F S2500000 .f32 := Host.absf main_arg2
  let main_cst_0 : FVec F S_ .f32 := constant S_ .f32 0x7F800000#32
  let main_v5 : FVec F S2500000 .f32 := broadcastInDim S2500000 ![] bcast_S_S2500000 main_cst_0
  let main_v6 : IVec S2500000 1 := cmpf .olt main_v4 main_v5
  let main_c_1 : IVec S_ 1 := constantI S_ 1 1#1
  let main_v7 : IVec S_ 1 := (fun x v => Host.reduce IntOp.andi x v reducesTo_S2500000_S_d0 h_S_) main_v6 main_c_1
  let main_v8 : IVec S_ 1 := andi main_v3 main_v7
  let main_v9 : FVec F S7x32 .f32 := Host.absf main_arg4
  let main_cst_2 : FVec F S_ .f32 := constant S_ .f32 0x7F800000#32
  let main_v10 : FVec F S7x32 .f32 := broadcastInDim S7x32 ![] bcast_S_S7x32 main_cst_2
  let main_v11 : IVec S7x32 1 := cmpf .olt main_v9 main_v10
  let main_c_3 : IVec S_ 1 := constantI S_ 1 1#1
  let main_v12 : IVec S_ 1 := (fun x v => Host.reduce IntOp.andi x v reducesTo_S7x32_S_d0_1 h_S_) main_v11 main_c_3
  let main_v13 : IVec S_ 1 := andi main_v8 main_v12
  let main_v14 : FVec F S32 .f32 := Host.absf main_arg5
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg6 main_arg7 main_arg8 main_arg9 main_arg10 main_arg11 main_arg12 main_arg13 main_arg14 main_arg15 main_arg16 main_arg17 main_arg18 main_arg19 main_v13 main_v16
-- ==== Kernel.lean ====
abbrev S400000x7 : Shape := ⟨2, ![400000, 7]⟩
abbrev S2x2500000 : Shape := ⟨2, ![2, 2500000]⟩
abbrev S2500000 : Shape := ⟨1, ![2500000]⟩
abbrev S400000 : Shape := ⟨1, ![400000]⟩
abbrev S7x32 : Shape := ⟨2, ![7, 32]⟩
abbrev S32 : Shape := ⟨1, ![32]⟩
abbrev S32x32 : Shape := ⟨2, ![32, 32]⟩
abbrev S3x32 : Shape := ⟨2, ![3, 32]⟩
abbrev S32x2 : Shape := ⟨2, ![32, 2]⟩
abbrev S2 : Shape := ⟨1, ![2]⟩
abbrev S1x2500000 : Shape := ⟨2, ![1, 2500000]⟩
abbrev S2900000 : Shape := ⟨1, ![2900000]⟩
abbrev S_ : Shape := ⟨0, ![]⟩
abbrev S2900000x1 : Shape := ⟨2, ![2900000, 1]⟩
abbrev S400000x32 : Shape := ⟨2, ![400000, 32]⟩
abbrev S20000x7 : Shape := ⟨2, ![20000, 7]⟩
abbrev S20000x32 : Shape := ⟨2, ![20000, 32]⟩
abbrev S2900000x32 : Shape := ⟨2, ![2900000, 32]⟩
abbrev S1x32 : Shape := ⟨2, ![1, 32]⟩
abbrev S400000x1 : Shape := ⟨2, ![400000, 1]⟩
abbrev S512x32 : Shape := ⟨2, ![512, 32]⟩
abbrev S8000x32 : Shape := ⟨2, ![8000, 32]⟩
abbrev S8000x1 : Shape := ⟨2, ![8000, 1]⟩
abbrev S8000x512 : Shape := ⟨2, ![8000, 512]⟩
abbrev S1x2 : Shape := ⟨2, ![1, 2]⟩
abbrev S512x2 : Shape := ⟨2, ![512, 2]⟩

abbrev nBuf : Space → Nat
  | .hbm => 224
  | .vmem => 76
  | .smem => 0
  | _ => 0

abbrev hbmTy0_0 (i : Nat) : BufTy := match i % 128 with
  | 0 => ⟨S400000x7, .f32⟩
  | 1 => ⟨S2x2500000, .i32⟩
  | 2 => ⟨S2500000, .f32⟩
  | 3 => ⟨S400000, .i32⟩
  | 4 => ⟨S7x32, .f32⟩
  | 5 => ⟨S32, .f32⟩
  | 6 => ⟨S32x32, .f32⟩
  | 7 => ⟨S32, .f32⟩
  | 8 => ⟨S32x32, .f32⟩
  | 9 => ⟨S32, .f32⟩
  | 10 => ⟨S32x32, .f32⟩
  | 11 => ⟨S32, .f32⟩
  | 12 => ⟨S3x32, .f32⟩
  | 13 => ⟨S3x32, .f32⟩
  | 14 => ⟨S32x32, .f32⟩
  | 15 => ⟨S32, .f32⟩
  | 16 => ⟨S32, .f32⟩
  | 17 => ⟨S32, .f32⟩
  | 18 => ⟨S32x2, .f32⟩
  | 19 => ⟨S2, .f32⟩
  | 20 => ⟨S1x2500000, .i32⟩
  | 21 => ⟨S2500000, .i32⟩
  | 22 => ⟨S1x2500000, .i32⟩
  | 23 => ⟨S2500000, .i32⟩
  | 24 => ⟨S400000, .i32⟩
  | 25 => ⟨S2900000, .i32⟩
  | 26 => ⟨S2900000, .i32⟩
  | 27 => ⟨S_, .f32⟩
  | 28 => ⟨S400000, .f32⟩
  | 29 => ⟨S2900000, .f32⟩
  | 30 => ⟨S_, .f32⟩
  | 31 => ⟨S400000, .f32⟩
  | 32 => ⟨S2900000x1, .i32⟩
  | 33 => ⟨S400000, .f32⟩
  | 34 => ⟨S_, .f32⟩
  | 35 => ⟨S400000, .f32⟩
  | 36 => ⟨S400000, .i1⟩
  | 37 => ⟨S_, .f32⟩
  | 38 => ⟨S400000, .f32⟩
  | 39 => ⟨S400000, .f32⟩
  | 40 => ⟨S400000, .f32⟩
  | 41 => ⟨S_, .f32⟩
  | 42 => ⟨S_, .f32⟩
  | 43 => ⟨S400000, .f32⟩
  | 44 => ⟨S400000, .f32⟩
  | 45 => ⟨S_, .i32⟩
  | 46 => ⟨S2900000, .i32⟩
  | 47 => ⟨S2900000, .i1⟩
  | 48 => ⟨S_, .i32⟩
  | 49 => ⟨S2900000, .i32⟩
  | 50 => ⟨S2900000, .i32⟩
  | 51 => ⟨S2900000, .i32⟩
  | 52 => ⟨S2900000x1, .i32⟩
  | 53 => ⟨S2900000, .f32⟩
  | 54 => ⟨S2900000, .f32⟩
  | 55 => ⟨S_, .i32⟩
  | 56 => ⟨S2900000, .i32⟩
  | 57 => ⟨S2900000, .i1⟩
  | 58 => ⟨S_, .i32⟩
  | 59 => ⟨S2900000, .i32⟩
  | 60 => ⟨S2900000, .i32⟩
  | 61 => ⟨S2900000, .i32⟩
  | 62 => ⟨S2900000x1, .i32⟩
  | 63 => ⟨S2900000, .f32⟩
  | 64 => ⟨S2900000, .f32⟩
  | 65 => ⟨S400000x32, .f32⟩
  | 66 => ⟨S2900000x1, .f32⟩
  | 67 => ⟨S_, .i32⟩
  | 68 => ⟨S2900000, .i32⟩
  | 69 => ⟨S2900000, .i1⟩
  | 70 => ⟨S_, .i32⟩
  | 71 => ⟨S2900000, .i32⟩
  | 72 => ⟨S2900000, .i32⟩
  | 73 => ⟨S2900000, .i32⟩
  | 74 => ⟨S2900000x1, .i32⟩
  | 75 => ⟨S2900000x32, .f32⟩
  | 76 => ⟨S2900000x32, .f32⟩
  | 77 => ⟨S2900000x32, .f32⟩
  | 78 => ⟨S_, .f32⟩
  | 79 => ⟨S400000x32, .f32⟩
  | 80 => ⟨S2900000x1, .i32⟩
  | 81 => ⟨S400000x32, .f32⟩
  | 82 => ⟨S1x32, .f32⟩
  | 83 => ⟨S400000x32, .f32⟩
  | 84 => ⟨S400000x32, .f32⟩
  | 85 => ⟨S1x32, .f32⟩
  | 86 => ⟨S32, .f32⟩
  | 87 => ⟨S1x32, .f32⟩
  | 88 => ⟨S32, .f32⟩
  | 89 => ⟨S1x32, .f32⟩
  | 90 => ⟨S1x32, .f32⟩
  | 91 => ⟨S_, .f32⟩
  | 92 => ⟨S1x32, .f32⟩
  | 93 => ⟨S1x32, .f32⟩
  | 94 => ⟨S_, .f32⟩
  | 95 => ⟨S1x32, .f32⟩
  | 96 => ⟨S1x32, .f32⟩
  | 97 => ⟨S1x32, .f32⟩
  | 98 => ⟨S1x32, .f32⟩
  | 99 => ⟨S_, .f32⟩
  | 100 => ⟨S1x32, .f32⟩
  | 101 => ⟨S1x32, .f32⟩
  | 102 => ⟨S_, .f32⟩
  | 103 => ⟨S1x32, .f32⟩
  | 104 => ⟨S1x32, .f32⟩
  | 105 => ⟨S1x32, .f32⟩
  | 106 => ⟨S1x32, .f32⟩
  | 107 => ⟨S1x32, .f32⟩
  | 108 => ⟨S400000x32, .f32⟩
  | 109 => ⟨S400000x32, .f32⟩
  | 110 => ⟨S2900000x1, .f32⟩
  | 111 => ⟨S_, .i32⟩
  | 112 => ⟨S2900000, .i32⟩
  | 113 => ⟨S2900000, .i1⟩
  | 114 => ⟨S_, .i32⟩
  | 115 => ⟨S2900000, .i32⟩
  | 116 => ⟨S2900000, .i32⟩
  | 117 => ⟨S2900000, .i32⟩
  | 118 => ⟨S2900000x1, .i32⟩
  | 119 => ⟨S2900000x32, .f32⟩
  | 120 => ⟨S2900000x32, .f32⟩
  | 121 => ⟨S2900000x32, .f32⟩
  | 122 => ⟨S_, .f32⟩
  | 123 => ⟨S400000x32, .f32⟩
  | 124 => ⟨S2900000x1, .i32⟩
  | 125 => ⟨S400000x32, .f32⟩
  | 126 => ⟨S1x32, .f32⟩
  | 127 => ⟨S400000x32, .f32⟩
  | _ => ⟨S400000x7, .f32⟩

abbrev hbmTy0_1 (i : Nat) : BufTy := match i % 128 with
  | 0 => ⟨S400000x32, .f32⟩
  | 1 => ⟨S1x32, .f32⟩
  | 2 => ⟨S32, .f32⟩
  | 3 => ⟨S1x32, .f32⟩
  | 4 => ⟨S32, .f32⟩
  | 5 => ⟨S1x32, .f32⟩
  | 6 => ⟨S1x32, .f32⟩
  | 7 => ⟨S_, .f32⟩
  | 8 => ⟨S1x32, .f32⟩
  | 9 => ⟨S1x32, .f32⟩
  | 10 => ⟨S_, .f32⟩
  | 11 => ⟨S1x32, .f32⟩
  | 12 => ⟨S1x32, .f32⟩
  | 13 => ⟨S1x32, .f32⟩
  | 14 => ⟨S1x32, .f32⟩
  | 15 => ⟨S_, .f32⟩
  | 16 => ⟨S1x32, .f32⟩
  | 17 => ⟨S1x32, .f32⟩
  | 18 => ⟨S_, .f32⟩
  | 19 => ⟨S1x32, .f32⟩
  | 20 => ⟨S1x32, .f32⟩
  | 21 => ⟨S1x32, .f32⟩
  | 22 => ⟨S1x32, .f32⟩
  | 23 => ⟨S1x32, .f32⟩
  | 24 => ⟨S400000x32, .f32⟩
  | 25 => ⟨S400000x32, .f32⟩
  | 26 => ⟨S2900000x1, .f32⟩
  | 27 => ⟨S_, .i32⟩
  | 28 => ⟨S2900000, .i32⟩
  | 29 => ⟨S2900000, .i1⟩
  | 30 => ⟨S_, .i32⟩
  | 31 => ⟨S2900000, .i32⟩
  | 32 => ⟨S2900000, .i32⟩
  | 33 => ⟨S2900000, .i32⟩
  | 34 => ⟨S2900000x1, .i32⟩
  | 35 => ⟨S2900000x32, .f32⟩
  | 36 => ⟨S2900000x32, .f32⟩
  | 37 => ⟨S2900000x32, .f32⟩
  | 38 => ⟨S_, .f32⟩
  | 39 => ⟨S400000x32, .f32⟩
  | 40 => ⟨S2900000x1, .i32⟩
  | 41 => ⟨S400000x32, .f32⟩
  | 42 => ⟨S1x32, .f32⟩
  | 43 => ⟨S400000x32, .f32⟩
  | 44 => ⟨S400000x32, .f32⟩
  | 45 => ⟨S1x32, .f32⟩
  | 46 => ⟨S32, .f32⟩
  | 47 => ⟨S1x32, .f32⟩
  | 48 => ⟨S32, .f32⟩
  | 49 => ⟨S1x32, .f32⟩
  | 50 => ⟨S1x32, .f32⟩
  | 51 => ⟨S_, .f32⟩
  | 52 => ⟨S1x32, .f32⟩
  | 53 => ⟨S1x32, .f32⟩
  | 54 => ⟨S_, .f32⟩
  | 55 => ⟨S1x32, .f32⟩
  | 56 => ⟨S1x32, .f32⟩
  | 57 => ⟨S1x32, .f32⟩
  | 58 => ⟨S1x32, .f32⟩
  | 59 => ⟨S_, .f32⟩
  | 60 => ⟨S1x32, .f32⟩
  | 61 => ⟨S1x32, .f32⟩
  | 62 => ⟨S_, .f32⟩
  | 63 => ⟨S1x32, .f32⟩
  | 64 => ⟨S1x32, .f32⟩
  | 65 => ⟨S1x32, .f32⟩
  | 66 => ⟨S1x32, .f32⟩
  | 67 => ⟨S1x32, .f32⟩
  | 68 => ⟨S400000x32, .f32⟩
  | 69 => ⟨S400000x32, .f32⟩
  | 70 => ⟨S2900000x1, .f32⟩
  | 71 => ⟨S_, .i32⟩
  | 72 => ⟨S2900000, .i32⟩
  | 73 => ⟨S2900000, .i1⟩
  | 74 => ⟨S_, .i32⟩
  | 75 => ⟨S2900000, .i32⟩
  | 76 => ⟨S2900000, .i32⟩
  | 77 => ⟨S2900000, .i32⟩
  | 78 => ⟨S2900000x1, .i32⟩
  | 79 => ⟨S2900000x32, .f32⟩
  | 80 => ⟨S2900000x32, .f32⟩
  | 81 => ⟨S2900000x32, .f32⟩
  | 82 => ⟨S_, .f32⟩
  | 83 => ⟨S400000x32, .f32⟩
  | 84 => ⟨S2900000x1, .i32⟩
  | 85 => ⟨S400000x32, .f32⟩
  | 86 => ⟨S1x32, .f32⟩
  | 87 => ⟨S400000x32, .f32⟩
  | 88 => ⟨S400000x32, .f32⟩
  | 89 => ⟨S400000x1, .i32⟩
  | 90 => ⟨S512x32, .f32⟩
  | 91 => ⟨S1x32, .f32⟩
  | 92 => ⟨S1x32, .f32⟩
  | 93 => ⟨S1x32, .f32⟩
  | 94 => ⟨S1x2, .f32⟩
  | 95 => ⟨S512x2, .f32⟩
  | _ => ⟨S400000x7, .f32⟩

abbrev hbmTy (i : Nat) : BufTy := match i / 128 with
  | 0 => hbmTy0_0 i
  | 1 => hbmTy0_1 i
  | _ => ⟨S400000x7, .f32⟩

abbrev bufTy : (tb : Table) → Fin (tcTables nBuf tb) → BufTy
  | .hbm, ⟨i, _⟩ => hbmTy i
  | .local _ .vmem, ⟨0, _⟩ => ⟨S20000x7, .f32⟩
  | .local _ .vmem, ⟨1, _⟩ => ⟨S20000x7, .f32⟩
  | .local _ .vmem, ⟨2, _⟩ => ⟨S7x32, .f32⟩
  | .local _ .vmem, ⟨3, _⟩ => ⟨S20000x32, .f32⟩
  | .local _ .vmem, ⟨4, _⟩ => ⟨S20000x32, .f32⟩
  | .local _ .vmem, ⟨5, _⟩ => ⟨S20000x32, .f32⟩
  | .local _ .vmem, ⟨6, _⟩ => ⟨S20000x32, .f32⟩
  | .local _ .vmem, ⟨7, _⟩ => ⟨S1x32, .f32⟩
  | .local _ .vmem, ⟨8, _⟩ => ⟨S1x32, .f32⟩
  | .local _ .vmem, ⟨9, _⟩ => ⟨S1x32, .f32⟩
  | .local _ .vmem, ⟨10, _⟩ => ⟨S1x32, .f32⟩
  | .local _ .vmem, ⟨11, _⟩ => ⟨S20000x32, .f32⟩
  | .local _ .vmem, ⟨12, _⟩ => ⟨S20000x32, .f32⟩
  | .local _ .vmem, ⟨13, _⟩ => ⟨S1x32, .f32⟩
  | .local _ .vmem, ⟨14, _⟩ => ⟨S1x32, .f32⟩
  | .local _ .vmem, ⟨15, _⟩ => ⟨S1x32, .f32⟩
  | .local _ .vmem, ⟨16, _⟩ => ⟨S1x32, .f32⟩
  | .local _ .vmem, ⟨17, _⟩ => ⟨S20000x32, .f32⟩
  | .local _ .vmem, ⟨18, _⟩ => ⟨S20000x32, .f32⟩
  | .local _ .vmem, ⟨19, _⟩ => ⟨S20000x32, .f32⟩
  | .local _ .vmem, ⟨20, _⟩ => ⟨S20000x32, .f32⟩
  | .local _ .vmem, ⟨21, _⟩ => ⟨S32x32, .f32⟩
  | .local _ .vmem, ⟨22, _⟩ => ⟨S20000x32, .f32⟩
  | .local _ .vmem, ⟨23, _⟩ => ⟨S20000x32, .f32⟩
  | .local _ .vmem, ⟨24, _⟩ => ⟨S20000x32, .f32⟩
  | .local _ .vmem, ⟨25, _⟩ => ⟨S20000x32, .f32⟩
  | .local _ .vmem, ⟨26, _⟩ => ⟨S1x32, .f32⟩
  | .local _ .vmem, ⟨27, _⟩ => ⟨S1x32, .f32⟩
  | .local _ .vmem, ⟨28, _⟩ => ⟨S1x32, .f32⟩
  | .local _ .vmem, ⟨29, _⟩ => ⟨S1x32, .f32⟩
  | .local _ .vmem, ⟨30, _⟩ => ⟨S20000x32, .f32⟩
  | .local _ .vmem, ⟨31, _⟩ => ⟨S20000x32, .f32⟩
  | .local _ .vmem, ⟨32, _⟩ => ⟨S1x32, .f32⟩
  | .local _ .vmem, ⟨33, _⟩ => ⟨S1x32, .f32⟩
  | .local _ .vmem, ⟨34, _⟩ => ⟨S1x32, .f32⟩
  | .local _ .vmem, ⟨35, _⟩ => ⟨S1x32, .f32⟩
  | .local _ .vmem, ⟨36, _⟩ => ⟨S20000x32, .f32⟩
  | .local _ .vmem, ⟨37, _⟩ => ⟨S20000x32, .f32⟩
  | .local _ .vmem, ⟨38, _⟩ => ⟨S20000x32, .f32⟩
  | .local _ .vmem, ⟨39, _⟩ => ⟨S20000x32, .f32⟩
  | .local _ .vmem, ⟨40, _⟩ => ⟨S32x32, .f32⟩
  | .local _ .vmem, ⟨41, _⟩ => ⟨S20000x32, .f32⟩
  | .local _ .vmem, ⟨42, _⟩ => ⟨S20000x32, .f32⟩
  | .local _ .vmem, ⟨43, _⟩ => ⟨S20000x32, .f32⟩
  | .local _ .vmem, ⟨44, _⟩ => ⟨S20000x32, .f32⟩
  | .local _ .vmem, ⟨45, _⟩ => ⟨S1x32, .f32⟩
  | .local _ .vmem, ⟨46, _⟩ => ⟨S1x32, .f32⟩
  | .local _ .vmem, ⟨47, _⟩ => ⟨S1x32, .f32⟩
  | .local _ .vmem, ⟨48, _⟩ => ⟨S1x32, .f32⟩
  | .local _ .vmem, ⟨49, _⟩ => ⟨S20000x32, .f32⟩
  | .local _ .vmem, ⟨50, _⟩ => ⟨S20000x32, .f32⟩
  | .local _ .vmem, ⟨51, _⟩ => ⟨S1x32, .f32⟩
  | .local _ .vmem, ⟨52, _⟩ => ⟨S1x32, .f32⟩
  | .local _ .vmem, ⟨53, _⟩ => ⟨S1x32, .f32⟩
  | .local _ .vmem, ⟨54, _⟩ => ⟨S1x32, .f32⟩
  | .local _ .vmem, ⟨55, _⟩ => ⟨S20000x32, .f32⟩
  | .local _ .vmem, ⟨56, _⟩ => ⟨S20000x32, .f32⟩
  | .local _ .vmem, ⟨57, _⟩ => ⟨S20000x32, .f32⟩
  | .local _ .vmem, ⟨58, _⟩ => ⟨S20000x32, .f32⟩
  | .local _ .vmem, ⟨59, _⟩ => ⟨S32x32, .f32⟩
  | .local _ .vmem, ⟨60, _⟩ => ⟨S20000x32, .f32⟩
  | .local _ .vmem, ⟨61, _⟩ => ⟨S20000x32, .f32⟩
  | .local _ .vmem, ⟨62, _⟩ => ⟨S8000x32, .f32⟩
  | .local _ .vmem, ⟨63, _⟩ => ⟨S8000x32, .f32⟩
  | .local _ .vmem, ⟨64, _⟩ => ⟨S8000x1, .i32⟩
  | .local _ .vmem, ⟨65, _⟩ => ⟨S8000x1, .i32⟩
  | .local _ .vmem, ⟨66, _⟩ => ⟨S512x32, .f32⟩
  | .local _ .vmem, ⟨67, _⟩ => ⟨S512x32, .f32⟩
  | .local _ .vmem, ⟨68, _⟩ => ⟨S512x32, .f32⟩
  | .local _ .vmem, ⟨69, _⟩ => ⟨S32x32, .f32⟩
  | .local _ .vmem, ⟨70, _⟩ => ⟨S1x32, .f32⟩
  | .local _ .vmem, ⟨71, _⟩ => ⟨S1x32, .f32⟩
  | .local _ .vmem, ⟨72, _⟩ => ⟨S1x32, .f32⟩
  | .local _ .vmem, ⟨73, _⟩ => ⟨S32x2, .f32⟩
  | .local _ .vmem, ⟨74, _⟩ => ⟨S1x2, .f32⟩
  | .local _ .vmem, ⟨75, _⟩ => ⟨S512x2, .f32⟩
  | _, _ => ⟨S400000x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | _, _ => false

abbrev semScoped : Fin 0 → Bool
  | ⟨_, h⟩ => absurd h (Nat.not_lt_zero _)

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  ofTc nBuf bufTy 0 69 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_v8 : Ref sig .tc := ⟨.hbm, 29, rfl⟩
abbrev main_cst_0 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst_1 : Ref sig .tc := ⟨.hbm, 34, rfl⟩
abbrev main_v12 : Ref sig .tc := ⟨.hbm, 35, rfl⟩
abbrev main_v13 : Ref sig .tc := ⟨.hbm, 36, rfl⟩
abbrev main_cst_2 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_cst_3 : Ref sig .tc := ⟨.hbm, 41, rfl⟩
abbrev main_call0_v0 : Ref sig .tc := ⟨.hbm, 42, rfl⟩
abbrev main_call0_v1 : Ref sig .tc := ⟨.hbm, 43, rfl⟩
abbrev main_v17 : Ref sig .tc := ⟨.hbm, 44, rfl⟩
abbrev main_c : Ref sig .tc := ⟨.hbm, 45, rfl⟩
abbrev main_v18 : Ref sig .tc := ⟨.hbm, 46, rfl⟩
abbrev main_v19 : Ref sig .tc := ⟨.hbm, 47, rfl⟩
abbrev main_c_4 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_c_5 : Ref sig .tc := ⟨.hbm, 55, rfl⟩
abbrev main_v26 : Ref sig .tc := ⟨.hbm, 56, rfl⟩
abbrev main_v27 : Ref sig .tc := ⟨.hbm, 57, rfl⟩
abbrev main_c_6 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_c_7 : Ref sig .tc := ⟨.hbm, 67, rfl⟩
abbrev main_v36 : Ref sig .tc := ⟨.hbm, 68, rfl⟩
abbrev main_v37 : Ref sig .tc := ⟨.hbm, 69, rfl⟩
abbrev main_c_8 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_cst_9 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55_0 : Ref sig .tc := ⟨.hbm, 89, rfl⟩
abbrev main_v55_1 : Ref sig .tc := ⟨.hbm, 90, rfl⟩
abbrev main_cst_10 : Ref sig .tc := ⟨.hbm, 91, rfl⟩
abbrev main_v56 : Ref sig .tc := ⟨.hbm, 92, rfl⟩
abbrev main_v57 : Ref sig .tc := ⟨.hbm, 93, rfl⟩
abbrev main_cst_11 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_cst_12 : Ref sig .tc := ⟨.hbm, 99, rfl⟩
abbrev main_v62 : Ref sig .tc := ⟨.hbm, 100, rfl⟩
abbrev main_v63 : Ref sig .tc := ⟨.hbm, 101, rfl⟩
abbrev main_cst_13 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_c_14 : Ref sig .tc := ⟨.hbm, 111, rfl⟩
abbrev main_v72 : Ref sig .tc := ⟨.hbm, 112, rfl⟩
abbrev main_v73 : Ref sig .tc := ⟨.hbm, 113, rfl⟩
abbrev main_c_15 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_cst_16 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91_0 : Ref sig .tc := ⟨.hbm, 133, rfl⟩
abbrev main_v91_1 : Ref sig .tc := ⟨.hbm, 134, rfl⟩
abbrev main_cst_17 : Ref sig .tc := ⟨.hbm, 135, rfl⟩
abbrev main_v92 : Ref sig .tc := ⟨.hbm, 136, rfl⟩
abbrev main_v93 : Ref sig .tc := ⟨.hbm, 137, rfl⟩
abbrev main_cst_18 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_cst_19 : Ref sig .tc := ⟨.hbm, 143, rfl⟩
abbrev main_v98 : Ref sig .tc := ⟨.hbm, 144, rfl⟩
abbrev main_v99 : Ref sig .tc := ⟨.hbm, 145, rfl⟩
abbrev main_cst_20 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_c_21 : Ref sig .tc := ⟨.hbm, 155, rfl⟩
abbrev main_v108 : Ref sig .tc := ⟨.hbm, 156, rfl⟩
abbrev main_v109 : Ref sig .tc := ⟨.hbm, 157, rfl⟩
abbrev main_c_22 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_cst_23 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127_0 : Ref sig .tc := ⟨.hbm, 177, rfl⟩
abbrev main_v127_1 : Ref sig .tc := ⟨.hbm, 178, rfl⟩
abbrev main_cst_24 : Ref sig .tc := ⟨.hbm, 179, rfl⟩
abbrev main_v128 : Ref sig .tc := ⟨.hbm, 180, rfl⟩
abbrev main_v129 : Ref sig .tc := ⟨.hbm, 181, rfl⟩
abbrev main_cst_25 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_cst_26 : Ref sig .tc := ⟨.hbm, 187, rfl⟩
abbrev main_v134 : Ref sig .tc := ⟨.hbm, 188, rfl⟩
abbrev main_v135 : Ref sig .tc := ⟨.hbm, 189, rfl⟩
abbrev main_cst_27 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_c_28 : Ref sig .tc := ⟨.hbm, 199, rfl⟩
abbrev main_v144 : Ref sig .tc := ⟨.hbm, 200, rfl⟩
abbrev main_v145 : Ref sig .tc := ⟨.hbm, 201, rfl⟩
abbrev main_c_29 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_cst_30 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_scratch0 : Ref sig .tc := ⟨.vmem, 9, rfl⟩
abbrev cc1_scratch1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg5_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_scratch0 : Ref sig .tc := ⟨.vmem, 28, rfl⟩
abbrev cc4_scratch1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg4_0 : Ref sig .tc := ⟨.vmem, 35, rfl⟩
abbrev cc5_stg5_0 : Ref sig .tc := ⟨.vmem, 36, rfl⟩
abbrev cc5_stg5_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg2_0 : Ref sig .tc := ⟨.vmem, 41, rfl⟩
abbrev cc6_stg2_1 : Ref sig .tc := ⟨.vmem, 42, rfl⟩
abbrev cc7_stg0_0 : Ref sig .tc := ⟨.vmem, 43, rfl⟩
abbrev cc7_stg0_1 : Ref sig .tc := ⟨.vmem, 44, rfl⟩
abbrev cc7_stg1_0 : Ref sig .tc := ⟨.vmem, 45, rfl⟩
abbrev cc7_stg2_0 : Ref sig .tc := ⟨.vmem, 46, rfl⟩
abbrev cc7_scratch0 : Ref sig .tc := ⟨.vmem, 47, rfl⟩
abbrev cc7_scratch1 : Ref sig .tc := ⟨.vmem, 48, rfl⟩
abbrev cc8_stg0_0 : Ref sig .tc := ⟨.vmem, 49, rfl⟩
abbrev cc8_stg0_1 : Ref sig .tc := ⟨.vmem, 50, rfl⟩
abbrev cc8_stg1_0 : Ref sig .tc := ⟨.vmem, 51, rfl⟩
abbrev cc8_stg2_0 : Ref sig .tc := ⟨.vmem, 52, rfl⟩
abbrev cc8_stg3_0 : Ref sig .tc := ⟨.vmem, 53, rfl⟩
abbrev cc8_stg4_0 : Ref sig .tc := ⟨.vmem, 54, rfl⟩
abbrev cc8_stg5_0 : Ref sig .tc := ⟨.vmem, 55, rfl⟩
abbrev cc8_stg5_1 : Ref sig .tc := ⟨.vmem, 56, rfl⟩
abbrev cc9_stg0_0 : Ref sig .tc := ⟨.vmem, 57, rfl⟩
abbrev cc9_stg0_1 : Ref sig .tc := ⟨.vmem, 58, rfl⟩
abbrev cc9_stg1_0 : Ref sig .tc := ⟨.vmem, 59, rfl⟩
abbrev cc9_stg2_0 : Ref sig .tc := ⟨.vmem, 60, rfl⟩
abbrev cc9_stg2_1 : Ref sig .tc := ⟨.vmem, 61, rfl⟩
abbrev cc10_stg0_0 : Ref sig .tc := ⟨.vmem, 62, rfl⟩
abbrev cc10_stg0_1 : Ref sig .tc := ⟨.vmem, 63, rfl⟩
abbrev cc10_stg1_0 : Ref sig .tc := ⟨.vmem, 64, rfl⟩
abbrev cc10_stg1_1 : Ref sig .tc := ⟨.vmem, 65, rfl⟩
abbrev cc10_stg2_0 : Ref sig .tc := ⟨.vmem, 66, rfl⟩
abbrev cc10_scratch0 : Ref sig .tc := ⟨.vmem, 67, rfl⟩
abbrev cc11_stg0_0 : Ref sig .tc := ⟨.vmem, 68, rfl⟩
abbrev cc11_stg1_0 : Ref sig .tc := ⟨.vmem, 69, rfl⟩
abbrev cc11_stg2_0 : Ref sig .tc := ⟨.vmem, 70, rfl⟩
abbrev cc11_stg3_0 : Ref sig .tc := ⟨.vmem, 71, rfl⟩
abbrev cc11_stg4_0 : Ref sig .tc := ⟨.vmem, 72, rfl⟩
abbrev cc11_stg5_0 : Ref sig .tc := ⟨.vmem, 73, rfl⟩
abbrev cc11_stg6_0 : Ref sig .tc := ⟨.vmem, 74, rfl⟩
abbrev cc11_stg7_0 : Ref sig .tc := ⟨.vmem, 75, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem5_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc5_sem0_0 : DmaSem sig := 26
abbrev cc5_sem0_1 : DmaSem sig := 27
abbrev cc5_sem1_0 : DmaSem sig := 28
abbrev cc5_sem2_0 : DmaSem sig := 29
abbrev cc5_sem3_0 : DmaSem sig := 30
abbrev cc5_sem4_0 : DmaSem sig := 31
abbrev cc5_sem5_0 : DmaSem sig := 32
abbrev cc5_sem5_1 : DmaSem sig := 33
abbrev cc6_sem0_0 : DmaSem sig := 34
abbrev cc6_sem0_1 : DmaSem sig := 35
abbrev cc6_sem1_0 : DmaSem sig := 36
abbrev cc6_sem2_0 : DmaSem sig := 37
abbrev cc6_sem2_1 : DmaSem sig := 38
abbrev cc7_sem0_0 : DmaSem sig := 39
abbrev cc7_sem0_1 : DmaSem sig := 40
abbrev cc7_sem1_0 : DmaSem sig := 41
abbrev cc7_sem2_0 : DmaSem sig := 42
abbrev cc8_sem0_0 : DmaSem sig := 43
abbrev cc8_sem0_1 : DmaSem sig := 44
abbrev cc8_sem1_0 : DmaSem sig := 45
abbrev cc8_sem2_0 : DmaSem sig := 46
abbrev cc8_sem3_0 : DmaSem sig := 47
abbrev cc8_sem4_0 : DmaSem sig := 48
abbrev cc8_sem5_0 : DmaSem sig := 49
abbrev cc8_sem5_1 : DmaSem sig := 50
abbrev cc9_sem0_0 : DmaSem sig := 51
abbrev cc9_sem0_1 : DmaSem sig := 52
abbrev cc9_sem1_0 : DmaSem sig := 53
abbrev cc9_sem2_0 : DmaSem sig := 54
abbrev cc9_sem2_1 : DmaSem sig := 55
abbrev cc10_sem0_0 : DmaSem sig := 56
abbrev cc10_sem0_1 : DmaSem sig := 57
abbrev cc10_sem1_0 : DmaSem sig := 58
abbrev cc10_sem1_1 : DmaSem sig := 59
abbrev cc10_sem2_0 : DmaSem sig := 60
abbrev cc11_sem0_0 : DmaSem sig := 61
abbrev cc11_sem1_0 : DmaSem sig := 62
abbrev cc11_sem2_0 : DmaSem sig := 63
abbrev cc11_sem3_0 : DmaSem sig := 64
abbrev cc11_sem4_0 : DmaSem sig := 65
abbrev cc11_sem5_0 : DmaSem sig := 66
abbrev cc11_sem6_0 : DmaSem sig := 67
abbrev cc11_sem7_0 : DmaSem sig := 68

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S20000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def k1_cond2 (i : grid1.Coords) : BitVec 1 :=
  let arg0 : BitVec 32 := BitVec.ofNat 32 (i 0).val
  let c19_i32 : BitVec 32 := 19#32
  let v20 : BitVec 1 := Scalar.cmpi .eq arg0 c19_i32
  let v21 : BitVec 32 := Scalar.extui v20
  let c0_i32_11 : BitVec 32 := 0#32
  let v22 : BitVec 1 := Scalar.cmpi .ne v21 c0_i32_11
  v22

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S20000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S20000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S20000x32 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S20000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S32x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S20000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def k4_cond2 (i : grid4.Coords) : BitVec 1 :=
  let arg0 : BitVec 32 := BitVec.ofNat 32 (i 0).val
  let c19_i32 : BitVec 32 := 19#32
  let v20 : BitVec 1 := Scalar.cmpi .eq arg0 c19_i32
  let v21 : BitVec 32 := Scalar.extui v20
  let c0_i32_11 : BitVec 32 := 0#32
  let v22 : BitVec 1 := Scalar.cmpi .ne v21 c0_i32_11
  v22

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S20000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S20000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x32 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x32 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S20000x32 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S20000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S32x32 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S20000x32 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def k7_cond2 (i : grid7.Coords) : BitVec 1 :=
  let arg0 : BitVec 32 := BitVec.ofNat 32 (i 0).val
  let c19_i32 : BitVec 32 := 19#32
  let v20 : BitVec 1 := Scalar.cmpi .eq arg0 c19_i32
  let v21 : BitVec 32 := Scalar.extui v20
  let c0_i32_11 : BitVec 32 := 0#32
  let v22 : BitVec 1 := Scalar.cmpi .ne v21 c0_i32_11
  v22

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S20000x32 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x32 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x32 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S20000x32 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x32 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x32 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x32 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x32 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S20000x32 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S20000x32 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S32x32 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S20000x32 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![50], ![false]⟩

def k10_cond2 (i : grid10.Coords) : BitVec 1 :=
  let arg0 : BitVec 32 := BitVec.ofNat 32 (i 0).val
  let c49_i32 : BitVec 32 := 49#32
  let v20 : BitVec 1 := Scalar.cmpi .eq arg0 c49_i32
  let v21 : BitVec 32 := Scalar.extui v20
  let c0_i32_8 : BitVec 32 := 0#32
  let v22 : BitVec 1 := Scalar.cmpi .ne v21 c0_i32_8
  v22

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S8000x32 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S8000x1 .i32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S512x32 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev grid11 : Pipeline.Grid := ⟨1, ![1], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_7 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage11_0 : Fin 1 → Memref sig .tc .vmem S512x32 .f32 := fun | 0 => Memref.whole cc11_stg0_0 | ⟨_ + 1, h⟩ => absurd h (Nat.not_lt.2 (Nat.le_add_left _ _))
abbrev sem11_0 : Fin 1 → DmaSem sig := fun | 0 => cc11_sem0_0 | ⟨_ + 1, h⟩ => absurd h (Nat.not_lt.2 (Nat.le_add_left _ _))
abbrev reads11_0 : Fin grid11.rank → Bool := ![false]

abbrev stage11_1 : Fin 1 → Memref sig .tc .vmem S32x32 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x32 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x32 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x32 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S32x2 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 1 → Memref sig .tc .vmem S1x2 .f32 := fun | 0 => Memref.whole cc11_stg6_0 | ⟨_ + 1, h⟩ => absurd h (Nat.not_lt.2 (Nat.le_add_left _ _))
abbrev sem11_6 : Fin 1 → DmaSem sig := fun | 0 => cc11_sem6_0 | ⟨_ + 1, h⟩ => absurd h (Nat.not_lt.2 (Nat.le_add_left _ _))
abbrev reads11_6 : Fin grid11.rank → Bool := ![false]

abbrev stage11_7 : Fin 1 → Memref sig .tc .vmem S512x2 .f32 := fun | 0 => Memref.whole cc11_stg7_0 | ⟨_ + 1, h⟩ => absurd h (Nat.not_lt.2 (Nat.le_add_left _ _))
abbrev sem11_7 : Fin 1 → DmaSem sig := fun | 0 => cc11_sem7_0 | ⟨_ + 1, h⟩ => absurd h (Nat.not_lt.2 (Nat.le_add_left _ _))
abbrev reads11_7 : Fin grid11.rank → Bool := ![false]

class Facts₀ : Prop where
  slices_S2x2500000_S1x2500000_0_0 : S2x2500000.Slices ![0, 0] S1x2500000
  shapeCasts_S1x2500000_S2500000 : S1x2500000.ShapeCasts S2500000
  slices_S2x2500000_S1x2500000_1_0 : S2x2500000.Slices ![1, 0] S1x2500000
  concatenates_S2500000_S400000_S2900000_d0 : Shape.Concatenates [S2500000, S400000] S2900000 0
  bcast_S_S400000 : S_.BroadcastsInDim S400000 (![] : Fin 0 → Fin S400000.rank)
  bcast_S2900000_S2900000x1_0 : S2900000.BroadcastsInDim S2900000x1 (![0] : Fin 1 → Fin S2900000x1.rank)
  bcast_S_S2900000 : S_.BroadcastsInDim S2900000 (![] : Fin 0 → Fin S2900000.rank)
  inb_S20000x7_S20000x7_0_0 : ∀ a, (![0, 0] : Fin 2 → Nat) a + S20000x7.size a ≤ S20000x7.size a
  h_S20000x7 : 0 < S20000x7.numel
  bitsLt_bf16_f32 : FTy.bits .bf16 < FTy.bits .f32
  inb_S7x32_S7x32_0_0 : ∀ a, (![0, 0] : Fin 2 → Nat) a + S7x32.size a ≤ S7x32.size a
  h_S7x32 : 0 < S7x32.numel
  inb_S20000x32_S20000x32_0_0 : ∀ a, (![0, 0] : Fin 2 → Nat) a + S20000x32.size a ≤ S20000x32.size a
  h_S20000x32 : 0 < S20000x32.numel
  bcast_S2900000x1_S2900000x32_0_1 : S2900000x1.BroadcastsInDim S2900000x32 (![0, 1] : Fin 2 → Fin S2900000x32.rank)
  bcast_S_S400000x32 : S_.BroadcastsInDim S400000x32 (![] : Fin 0 → Fin S400000x32.rank)
  bcast_S32_S1x32_1 : S32.BroadcastsInDim S1x32 (![1] : Fin 1 → Fin S1x32.rank)
  bcast_S1x32_S400000x32_0_1 : S1x32.BroadcastsInDim S400000x32 (![0, 1] : Fin 2 → Fin S400000x32.rank)
  slices_S3x32_S1x32_0_0 : S3x32.Slices ![0, 0] S1x32
  shapeCasts_S1x32_S32 : S1x32.ShapeCasts S32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  shapeCasts_S20000x32_S20000x32 : S20000x32.ShapeCasts S20000x32
  reduces_S20000x32_S32 : S20000x32.Reduces [0] S32
  shapeCasts_S32_S1x32 : S32.ShapeCasts S1x32
  bcast_S_S1x32 : S_.BroadcastsInDim S1x32 (![] : Fin 0 → Fin S1x32.rank)
  broadcasts_S1x32_S20000x32 : S1x32.Broadcasts S20000x32
  inb_S32x32_S32x32_0_0 : ∀ a, (![0, 0] : Fin 2 → Nat) a + S32x32.size a ≤ S32x32.size a
  h_S32x32 : 0 < S32x32.numel
  slices_S3x32_S1x32_1_0 : S3x32.Slices ![1, 0] S1x32
  slices_S3x32_S1x32_2_0 : S3x32.Slices ![2, 0] S1x32
  shapeCasts_S400000_S400000x1 : S400000.ShapeCasts S400000x1
  inb_S512x32_S512x32_0_0 : ∀ a, (![0, 0] : Fin 2 → Nat) a + S512x32.size a ≤ S512x32.size a
  h_S512x32 : 0 < S512x32.numel
  shapeCasts_S512x32_S512x32 : S512x32.ShapeCasts S512x32
  iota_S8000x512_d1_w32 : S8000x512.Iotas .tc 32 [1]
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x512 : S8000x1.Broadcasts S8000x512
  natLt_1_32 : 1 < 32
  inb_S8000x32_S8000x32_0_0 : ∀ a, (![0, 0] : Fin 2 → Nat) a + S8000x32.size a ≤ S8000x32.size a
  h_S8000x32 : 0 < S8000x32.numel
  shapeCasts_S8000x32_S8000x32 : S8000x32.ShapeCasts S8000x32
  shapeCasts_S2_S1x2 : S2.ShapeCasts S1x2
  broadcasts_S1x32_S512x32 : S1x32.Broadcasts S512x32
  reduces_S512x32_S32 : S512x32.Reduces [0] S32
  inb_S32x2_S32x2_0_0 : ∀ a, (![0, 0] : Fin 2 → Nat) a + S32x2.size a ≤ S32x2.size a
  h_S32x2 : 0 < S32x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S512x2 : S1x2.Broadcasts S512x2
  inb_S512x2_S512x2_0_0 : ∀ a, (![0, 0] : Fin 2 → Nat) a + S512x2.size a ≤ S512x2.size a
  h_S512x2 : 0 < S512x2.numel
  scatter_S400000_S2900000x1_S2900000_n_0_0_1_wf : ScatterDims.WF S400000 S2900000x1 S2900000 [] [0] [0] 1
  gather_S400000_S2900000x1_S2900000_n_0_n_n_0_1_1_wf : GatherDims.WF S400000 S2900000x1 S2900000 [] [0] [] [0] [] 1 ![1]
  dot_S20000x7_S7x32_S20000x32_1_0_0_1_n_n_wf : DotDims.WF S20000x7 S7x32 S20000x32 [1] [0] [0] [1] [] []
  gather_S400000x32_S2900000x1_S2900000x32_1_0_n_n_0_1_132_wf : GatherDims.WF S400000x32 S2900000x1 S2900000x32 [1] [0] [] [0] [] 1 ![1, 32]
  scatter_S400000x32_S2900000x1_S2900000x32_1_0_0_1_wf : ScatterDims.WF S400000x32 S2900000x1 S2900000x32 [1] [0] [0] 1
  dot_S20000x32_S32x32_S20000x32_1_0_0_1_n_n_wf : DotDims.WF S20000x32 S32x32 S20000x32 [1] [0] [0] [1] [] []
  dot_S8000x512_S8000x32_S512x32_0_0_1_1_n_n_wf : DotDims.WF S8000x512 S8000x32 S512x32 [0] [0] [1] [1] [] []
  dot_S512x32_S32x32_S512x32_1_0_0_1_n_n_wf : DotDims.WF S512x32 S32x32 S512x32 [1] [0] [0] [1] [] []
  dot_S512x32_S32x2_S512x2_1_0_0_1_n_n_wf : DotDims.WF S512x32 S32x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x7.size a ≤ S400000x7.size a
  hwx0_0 : ∀ i : grid0.Coords, EltTy.bits .f32 = 32 ∨ (Rect.block (s := S400000x7) S20000x7.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S7x32.size a ≤ S7x32.size a
  hwx0_1 : ∀ i : grid0.Coords, EltTy.bits .f32 = 32 ∨ (Rect.block (s := S7x32) S7x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S20000x32.size a ≤ S400000x32.size a
  hwx0_2 : ∀ i : grid0.Coords, EltTy.bits .f32 = 32 ∨ (Rect.block (s := S400000x32) S20000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x32.size a ≤ S400000x32.size a
  hwx1_0 : ∀ i : grid1.Coords, EltTy.bits .f32 = 32 ∨ (Rect.block (s := S400000x32) S20000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20000x32.size a ≤ S400000x32.size a
  hwx2_0 : ∀ i : grid2.Coords, EltTy.bits .f32 = 32 ∨ (Rect.block (s := S400000x32) S20000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x32.size a ≤ S1x32.size a
  hwx2_1 : ∀ i : grid2.Coords, EltTy.bits .f32 = 32 ∨ (Rect.block (s := S1x32) S1x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S20000x32.size a ≤ S400000x32.size a
  hwx2_5 : ∀ i : grid2.Coords, EltTy.bits .f32 = 32 ∨ (Rect.block (s := S400000x32) S20000x32.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S20000x32.size a ≤ S400000x32.size a
  hwx3_0 : ∀ i : grid3.Coords, EltTy.bits .f32 = 32 ∨ (Rect.block (s := S400000x32) S20000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S32x32.size a ≤ S32x32.size a
  hwx3_1 : ∀ i : grid3.Coords, EltTy.bits .f32 = 32 ∨ (Rect.block (s := S32x32) S32x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S20000x32.size a ≤ S400000x32.size a
  hwx3_2 : ∀ i : grid3.Coords, EltTy.bits .f32 = 32 ∨ (Rect.block (s := S400000x32) S20000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S20000x32.size a ≤ S400000x32.size a
  hwx4_0 : ∀ i : grid4.Coords, EltTy.bits .f32 = 32 ∨ (Rect.block (s := S400000x32) S20000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x32.size a ≤ S1x32.size a
  hwx4_1 : ∀ i : grid4.Coords, EltTy.bits .f32 = 32 ∨ (Rect.block (s := S1x32) S1x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x32.size a ≤ S1x32.size a
  hwx4_2 : ∀ i : grid4.Coords, EltTy.bits .f32 = 32 ∨ (Rect.block (s := S1x32) S1x32.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S20000x32.size a ≤ S400000x32.size a
  hwx5_0 : ∀ i : grid5.Coords, EltTy.bits .f32 = 32 ∨ (Rect.block (s := S400000x32) S20000x32.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x32.size a ≤ S1x32.size a
  hwx5_1 : ∀ i : grid5.Coords, EltTy.bits .f32 = 32 ∨ (Rect.block (s := S1x32) S1x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x32.size a ≤ S1x32.size a
  hwx5_2 : ∀ i : grid5.Coords, EltTy.bits .f32 = 32 ∨ (Rect.block (s := S1x32) S1x32.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x32.size a ≤ S1x32.size a
  hwx5_3 : ∀ i : grid5.Coords, EltTy.bits .f32 = 32 ∨ (Rect.block (s := S1x32) S1x32.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x32.size a ≤ S1x32.size a
  hwx5_4 : ∀ i : grid5.Coords, EltTy.bits .f32 = 32 ∨ (Rect.block (s := S1x32) S1x32.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S20000x32.size a ≤ S400000x32.size a
  hwx5_5 : ∀ i : grid5.Coords, EltTy.bits .f32 = 32 ∨ (Rect.block (s := S400000x32) S20000x32.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S20000x32.size a ≤ S400000x32.size a
  hwx6_0 : ∀ i : grid6.Coords, EltTy.bits .f32 = 32 ∨ (Rect.block (s := S400000x32) S20000x32.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S32x32.size a ≤ S32x32.size a
  hwx6_1 : ∀ i : grid6.Coords, EltTy.bits .f32 = 32 ∨ (Rect.block (s := S32x32) S32x32.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S20000x32.size a ≤ S400000x32.size a
  hwx6_2 : ∀ i : grid6.Coords, EltTy.bits .f32 = 32 ∨ (Rect.block (s := S400000x32) S20000x32.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S20000x32.size a ≤ S400000x32.size a
  hwx7_0 : ∀ i : grid7.Coords, EltTy.bits .f32 = 32 ∨ (Rect.block (s := S400000x32) S20000x32.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x32.size a ≤ S1x32.size a
  hwx7_1 : ∀ i : grid7.Coords, EltTy.bits .f32 = 32 ∨ (Rect.block (s := S1x32) S1x32.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x32.size a ≤ S1x32.size a
  hwx7_2 : ∀ i : grid7.Coords, EltTy.bits .f32 = 32 ∨ (Rect.block (s := S1x32) S1x32.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S20000x32.size a ≤ S400000x32.size a
  hwx8_0 : ∀ i : grid8.Coords, EltTy.bits .f32 = 32 ∨ (Rect.block (s := S400000x32) S20000x32.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x32.size a ≤ S1x32.size a
  hwx8_1 : ∀ i : grid8.Coords, EltTy.bits .f32 = 32 ∨ (Rect.block (s := S1x32) S1x32.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x32.size a ≤ S1x32.size a
  hwx8_2 : ∀ i : grid8.Coords, EltTy.bits .f32 = 32 ∨ (Rect.block (s := S1x32) S1x32.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x32.size a ≤ S1x32.size a
  hwx8_3 : ∀ i : grid8.Coords, EltTy.bits .f32 = 32 ∨ (Rect.block (s := S1x32) S1x32.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x32.size a ≤ S1x32.size a
  hwx8_4 : ∀ i : grid8.Coords, EltTy.bits .f32 = 32 ∨ (Rect.block (s := S1x32) S1x32.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S20000x32.size a ≤ S400000x32.size a
  hwx8_5 : ∀ i : grid8.Coords, EltTy.bits .f32 = 32 ∨ (Rect.block (s := S400000x32) S20000x32.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S20000x32.size a ≤ S400000x32.size a
  hwx9_0 : ∀ i : grid9.Coords, EltTy.bits .f32 = 32 ∨ (Rect.block (s := S400000x32) S20000x32.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S32x32.size a ≤ S32x32.size a
  hwx9_1 : ∀ i : grid9.Coords, EltTy.bits .f32 = 32 ∨ (Rect.block (s := S32x32) S32x32.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S20000x32.size a ≤ S400000x32.size a
  hwx9_2 : ∀ i : grid9.Coords, EltTy.bits .f32 = 32 ∨ (Rect.block (s := S400000x32) S20000x32.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S8000x32.size a ≤ S400000x32.size a
  hwx10_0 : ∀ i : grid10.Coords, EltTy.bits .f32 = 32 ∨ (Rect.block (s := S400000x32) S8000x32.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S8000x1.size a ≤ S400000x1.size a
  hwx10_1 : ∀ i : grid10.Coords, EltTy.bits .i32 = 32 ∨ (Rect.block (s := S400000x1) S8000x1.size (cc10_transform_1 i) (hinb10_1 i)).WholeWords (EltTy.packing .i32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S512x32.size a ≤ S512x32.size a
  hwx10_2 : ∀ i : grid10.Coords, EltTy.bits .f32 = 32 ∨ (Rect.block (s := S512x32) S512x32.size (cc10_transform_2 i) (hinb10_2 i)).WholeWords (EltTy.packing .f32)
  hrank11 : 0 < grid11.rank
  hstage11_0 : ∀ j, (stage11_0 j).IsWhole
  nbuf11_0 : grid11.bufCount reads11_0 true = 1
  hreads11_0 : ∀ i i' : grid11.Coords, (∀ a, reads11_0 a = true → i a = i' a) → cc11_transform_0 i = cc11_transform_0 i'
  hinb11_0 : ∀ (i : grid11.Coords) a, (cc11_transform_0 i a + 1) * S512x32.size a ≤ S512x32.size a
  hwx11_0 : ∀ i : grid11.Coords, EltTy.bits .f32 = 32 ∨ (Rect.block (s := S512x32) S512x32.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S32x32.size a ≤ S32x32.size a
  hwx11_1 : ∀ i : grid11.Coords, EltTy.bits .f32 = 32 ∨ (Rect.block (s := S32x32) S32x32.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x32.size a ≤ S1x32.size a
  hwx11_2 : ∀ i : grid11.Coords, EltTy.bits .f32 = 32 ∨ (Rect.block (s := S1x32) S1x32.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x32.size a ≤ S1x32.size a
  hwx11_3 : ∀ i : grid11.Coords, EltTy.bits .f32 = 32 ∨ (Rect.block (s := S1x32) S1x32.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x32.size a ≤ S1x32.size a
  hwx11_4 : ∀ i : grid11.Coords, EltTy.bits .f32 = 32 ∨ (Rect.block (s := S1x32) S1x32.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S32x2.size a ≤ S32x2.size a
  hwx11_5 : ∀ i : grid11.Coords, EltTy.bits .f32 = 32 ∨ (Rect.block (s := S32x2) S32x2.size (cc11_transform_5 i) (hinb11_5 i)).WholeWords (EltTy.packing .f32)
  hstage11_6 : ∀ j, (stage11_6 j).IsWhole
  nbuf11_6 : grid11.bufCount reads11_6 true = 1
  hreads11_6 : ∀ i i' : grid11.Coords, (∀ a, reads11_6 a = true → i a = i' a) → cc11_transform_6 i = cc11_transform_6 i'
  hinb11_6 : ∀ (i : grid11.Coords) a, (cc11_transform_6 i a + 1) * S1x2.size a ≤ S1x2.size a
  hwx11_6 : ∀ i : grid11.Coords, EltTy.bits .f32 = 32 ∨ (Rect.block (s := S1x2) S1x2.size (cc11_transform_6 i) (hinb11_6 i)).WholeWords (EltTy.packing .f32)
  hstage11_7 : ∀ j, (stage11_7 j).IsWhole
  nbuf11_7 : grid11.bufCount reads11_7 true = 1
  hreads11_7 : ∀ i i' : grid11.Coords, (∀ a, reads11_7 a = true → i a = i' a) → cc11_transform_7 i = cc11_transform_7 i'
  hinb11_7 : ∀ (i : grid11.Coords) a, (cc11_transform_7 i a + 1) * S512x2.size a ≤ S512x2.size a
  hwx11_7 : ∀ i : grid11.Coords, EltTy.bits .f32 = 32 ∨ (Rect.block (s := S512x2) S512x2.size (cc11_transform_7 i) (hinb11_7 i)).WholeWords (EltTy.packing .f32)

variable [Facts₀]

def scatter_S400000_S2900000x1_S2900000_n_0_0_1 : ScatterDims S400000 S2900000x1 S2900000 where
  updateWindowDims := []
  insertedWindowDims := [0]
  scatterDimsToOperandDims := [0]
  indexVectorDim := 1
  wf := scatter_S400000_S2900000x1_S2900000_n_0_0_1_wf
def gather_S400000_S2900000x1_S2900000_n_0_n_n_0_1_1 : GatherDims S400000 S2900000x1 S2900000 where
  offsetDims := []
  collapsedSliceDims := [0]
  operandBatchingDims := []
  startIndicesBatchingDims := []
  startIndexMap := [0]
  indexVectorDim := 1
  sliceSizes := ![1]
  wf := gather_S400000_S2900000x1_S2900000_n_0_n_n_0_1_1_wf
def dot_S20000x7_S7x32_S20000x32_1_0_0_1_n_n : DotDims S20000x7 S7x32 S20000x32 where
  lhsContracting := [1]
  rhsContracting := [0]
  lhsNonContracting := [0]
  rhsNonContracting := [1]
  lhsBatch := []
  rhsBatch := []
  wf := dot_S20000x7_S7x32_S20000x32_1_0_0_1_n_n_wf
def gather_S400000x32_S2900000x1_S2900000x32_1_0_n_n_0_1_132 : GatherDims S400000x32 S2900000x1 S2900000x32 where
  offsetDims := [1]
  collapsedSliceDims := [0]
  operandBatchingDims := []
  startIndicesBatchingDims := []
  startIndexMap := [0]
  indexVectorDim := 1
  sliceSizes := ![1, 32]
  wf := gather_S400000x32_S2900000x1_S2900000x32_1_0_n_n_0_1_132_wf
def scatter_S400000x32_S2900000x1_S2900000x32_1_0_0_1 : ScatterDims S400000x32 S2900000x1 S2900000x32 where
  updateWindowDims := [1]
  insertedWindowDims := [0]
  scatterDimsToOperandDims := [0]
  indexVectorDim := 1
  wf := scatter_S400000x32_S2900000x1_S2900000x32_1_0_0_1_wf
def dot_S20000x32_S32x32_S20000x32_1_0_0_1_n_n : DotDims S20000x32 S32x32 S20000x32 where
  lhsContracting := [1]
  rhsContracting := [0]
  lhsNonContracting := [0]
  rhsNonContracting := [1]
  lhsBatch := []
  rhsBatch := []
  wf := dot_S20000x32_S32x32_S20000x32_1_0_0_1_n_n_wf
def dot_S8000x512_S8000x32_S512x32_0_0_1_1_n_n : DotDims S8000x512 S8000x32 S512x32 where
  lhsContracting := [0]
  rhsContracting := [0]
  lhsNonContracting := [1]
  rhsNonContracting := [1]
  lhsBatch := []
  rhsBatch := []
  wf := dot_S8000x512_S8000x32_S512x32_0_0_1_1_n_n_wf
def dot_S512x32_S32x32_S512x32_1_0_0_1_n_n : DotDims S512x32 S32x32 S512x32 where
  lhsContracting := [1]
  rhsContracting := [0]
  lhsNonContracting := [0]
  rhsNonContracting := [1]
  lhsBatch := []
  rhsBatch := []
  wf := dot_S512x32_S32x32_S512x32_1_0_0_1_n_n_wf
def dot_S512x32_S32x2_S512x2_1_0_0_1_n_n : DotDims S512x32 S32x2 S512x2 where
  lhsContracting := [1]
  rhsContracting := [0]
  lhsNonContracting := [0]
  rhsNonContracting := [1]
  lhsBatch := []
  rhsBatch := []
  wf := dot_S512x32_S32x2_S512x2_1_0_0_1_n_n_wf

abbrev win0_0 : Pipeline.Window sig grid0 :=
  Pipeline.Window.ofSpec (Memref.whole main_arg0) S20000x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S7x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S20000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v50) S20000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v55_0) S1x32.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v55_1) S1x32.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun i => !(k1_cond2 i == 1#1) | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v50) S20000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S1x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v66) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v67) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v68) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v69) S20000x32.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v69) S20000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S32x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v70) S20000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v86) S20000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v91_0) S1x32.size cc4_transform_1 reads4_1 true true 1 stage4_1 sem4_1
    hrank4 hreads4_1 hinb4_1 nbuf4_1 (Memref.isWhole_whole _) hwx4_1 hstage4_1

abbrev win4_2 : Pipeline.Window sig grid4 :=
  Pipeline.Window.ofSpec (Memref.whole main_v91_1) S1x32.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun i => !(k4_cond2 i == 1#1) | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v86) S20000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v93) S1x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v102) S1x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v103) S1x32.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v104) S1x32.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v105) S20000x32.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v105) S20000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S32x32.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v106) S20000x32.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v122) S20000x32.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v127_0) S1x32.size cc7_transform_1 reads7_1 true true 1 stage7_1 sem7_1
    hrank7 hreads7_1 hinb7_1 nbuf7_1 (Memref.isWhole_whole _) hwx7_1 hstage7_1

abbrev win7_2 : Pipeline.Window sig grid7 :=
  Pipeline.Window.ofSpec (Memref.whole main_v127_1) S1x32.size cc7_transform_2 reads7_2 true true 1 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev idle7 : Fin 3 → grid7.Coords → Bool := fun | 0 => fun _ => false | 1 => fun i => !(k7_cond2 i == 1#1) | 2 => fun i => !(k7_cond2 i == 1#1) | ⟨_ + 3, h⟩ => absurd h (Nat.not_lt.2 (Nat.le_add_left _ _))

abbrev win8_0 : Pipeline.Window sig grid8 :=
  Pipeline.Window.ofSpec (Memref.whole main_v122) S20000x32.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v129) S1x32.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v138) S1x32.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v139) S1x32.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v140) S1x32.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v141) S20000x32.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v141) S20000x32.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg10) S32x32.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v142) S20000x32.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v158) S8000x32.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v159) S8000x1.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v160) S512x32.size cc10_transform_2 reads10_2 true true 1 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev idle10 : Fin 3 → grid10.Coords → Bool := fun | 0 => fun _ => false | 1 => fun _ => false | 2 => fun i => !(k10_cond2 i == 1#1) | ⟨_ + 3, h⟩ => absurd h (Nat.not_lt.2 (Nat.le_add_left _ _))

abbrev win11_0 : Pipeline.Window sig grid11 :=
  Pipeline.Window.ofSpec (Memref.whole main_v160) S512x32.size cc11_transform_0 reads11_0 false true 1 stage11_0 sem11_0
    hrank11 hreads11_0 hinb11_0 nbuf11_0 (Memref.isWhole_whole _) hwx11_0 hstage11_0

abbrev win11_1 : Pipeline.Window sig grid11 :=
  Pipeline.Window.ofSpec (Memref.whole main_arg14) S32x32.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v161) S1x32.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v162) S1x32.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v163) S1x32.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_arg18) S32x2.size cc11_transform_5 reads11_5 false true 1 stage11_5 sem11_5
    hrank11 hreads11_5 hinb11_5 nbuf11_5 (Memref.isWhole_whole _) hwx11_5 hstage11_5

abbrev win11_6 : Pipeline.Window sig grid11 :=
  Pipeline.Window.ofSpec (Memref.whole main_v164) S1x2.size cc11_transform_6 reads11_6 false true 1 stage11_6 sem11_6
    hrank11 hreads11_6 hinb11_6 nbuf11_6 (Memref.isWhole_whole _) hwx11_6 hstage11_6

abbrev win11_7 : Pipeline.Window sig grid11 :=
  Pipeline.Window.ofSpec (Memref.whole main_v165) S512x2.size cc11_transform_7 reads11_7 true true 1 stage11_7 sem11_7
    hrank11 hreads11_7 hinb11_7 nbuf11_7 (Memref.isWhole_whole _) hwx11_7 hstage11_7

abbrev win11 : Fin 8 → Pipeline.Window sig grid11 := fun | 0 => win11_0 | 1 => win11_1 | 2 => win11_2 | 3 => win11_3 | 4 => win11_4 | 5 => win11_5 | 6 => win11_6 | 7 => win11_7 | ⟨_ + 8, h⟩ => absurd h (Nat.not_lt.2 (Nat.le_add_left _ _))
abbrev spec11 : Fin 8 → Pipeline.WinSpec sig grid11.rank := fun w => (win11 w).toWinSpec

class Facts : Prop extends Facts₀ where

variable [Facts]
-- ==== ReferenceIdeal.lean ====
abbrev S400000x7 : Shape := ⟨2, ![400000, 7]⟩
abbrev S2x2500000 : Shape := ⟨2, ![2, 2500000]⟩
abbrev S2500000 : Shape := ⟨1, ![2500000]⟩
abbrev S400000 : Shape := ⟨1, ![400000]⟩
abbrev S7x32 : Shape := ⟨2, ![7, 32]⟩
abbrev S32 : Shape := ⟨1, ![32]⟩
abbrev S32x32 : Shape := ⟨2, ![32, 32]⟩
abbrev S3x32 : Shape := ⟨2, ![3, 32]⟩
abbrev S32x2 : Shape := ⟨2, ![32, 2]⟩
abbrev S2 : Shape := ⟨1, ![2]⟩
abbrev S1x2500000 : Shape := ⟨2, ![1, 2500000]⟩
abbrev S2900000 : Shape := ⟨1, ![2900000]⟩
abbrev S_ : Shape := ⟨0, ![]⟩
abbrev S2900000x1 : Shape := ⟨2, ![2900000, 1]⟩
abbrev S400000x32 : Shape := ⟨2, ![400000, 32]⟩
abbrev S2900000x32 : Shape := ⟨2, ![2900000, 32]⟩
abbrev S1x32 : Shape := ⟨2, ![1, 32]⟩
abbrev S512x32 : Shape := ⟨2, ![512, 32]⟩
abbrev S400000x1 : Shape := ⟨2, ![400000, 1]⟩
abbrev S512x2 : Shape := ⟨2, ![512, 2]⟩
abbrev S1x2 : Shape := ⟨2, ![1, 2]⟩

abbrev nBuf : Space → Nat
  | .hbm => 357
  | .vmem => 0
  | .smem => 0
  | _ => 0

abbrev hbmTy0_0 (i : Nat) : BufTy := match i % 128 with
  | 0 => ⟨S400000x7, .f32⟩
  | 1 => ⟨S2x2500000, .i32⟩
  | 2 => ⟨S2500000, .f32⟩
  | 3 => ⟨S400000, .i32⟩
  | 4 => ⟨S7x32, .f32⟩
  | 5 => ⟨S32, .f32⟩
  | 6 => ⟨S32x32, .f32⟩
  | 7 => ⟨S32, .f32⟩
  | 8 => ⟨S32x32, .f32⟩
  | 9 => ⟨S32, .f32⟩
  | 10 => ⟨S32x32, .f32⟩
  | 11 => ⟨S32, .f32⟩
  | 12 => ⟨S3x32, .f32⟩
  | 13 => ⟨S3x32, .f32⟩
  | 14 => ⟨S32x32, .f32⟩
  | 15 => ⟨S32, .f32⟩
  | 16 => ⟨S32, .f32⟩
  | 17 => ⟨S32, .f32⟩
  | 18 => ⟨S32x2, .f32⟩
  | 19 => ⟨S2, .f32⟩
  | 20 => ⟨S1x2500000, .i32⟩
  | 21 => ⟨S2500000, .i32⟩
  | 22 => ⟨S1x2500000, .i32⟩
  | 23 => ⟨S2500000, .i32⟩
  | 24 => ⟨S400000, .i32⟩
  | 25 => ⟨S2900000, .i32⟩
  | 26 => ⟨S2900000, .i32⟩
  | 27 => ⟨S_, .f32⟩
  | 28 => ⟨S400000, .f32⟩
  | 29 => ⟨S2900000, .f32⟩
  | 30 => ⟨S_, .f32⟩
  | 31 => ⟨S400000, .f32⟩
  | 32 => ⟨S2900000x1, .i32⟩
  | 33 => ⟨S400000, .f32⟩
  | 34 => ⟨S_, .f32⟩
  | 35 => ⟨S400000, .f32⟩
  | 36 => ⟨S400000, .i1⟩
  | 37 => ⟨S_, .f32⟩
  | 38 => ⟨S400000, .f32⟩
  | 39 => ⟨S400000, .f32⟩
  | 40 => ⟨S400000, .f32⟩
  | 41 => ⟨S_, .f32⟩
  | 42 => ⟨S_, .f32⟩
  | 43 => ⟨S400000, .f32⟩
  | 44 => ⟨S400000, .f32⟩
  | 45 => ⟨S_, .i32⟩
  | 46 => ⟨S2900000, .i32⟩
  | 47 => ⟨S2900000, .i1⟩
  | 48 => ⟨S_, .i32⟩
  | 49 => ⟨S2900000, .i32⟩
  | 50 => ⟨S2900000, .i32⟩
  | 51 => ⟨S2900000, .i32⟩
  | 52 => ⟨S2900000x1, .i32⟩
  | 53 => ⟨S2900000, .f32⟩
  | 54 => ⟨S2900000, .f32⟩
  | 55 => ⟨S_, .i32⟩
  | 56 => ⟨S2900000, .i32⟩
  | 57 => ⟨S2900000, .i1⟩
  | 58 => ⟨S_, .i32⟩
  | 59 => ⟨S2900000, .i32⟩
  | 60 => ⟨S2900000, .i32⟩
  | 61 => ⟨S2900000, .i32⟩
  | 62 => ⟨S2900000x1, .i32⟩
  | 63 => ⟨S2900000, .f32⟩
  | 64 => ⟨S2900000, .f32⟩
  | 65 => ⟨S400000x32, .f32⟩
  | 66 => ⟨S2900000x1, .f32⟩
  | 67 => ⟨S_, .i32⟩
  | 68 => ⟨S2900000, .i32⟩
  | 69 => ⟨S2900000, .i1⟩
  | 70 => ⟨S_, .i32⟩
  | 71 => ⟨S2900000, .i32⟩
  | 72 => ⟨S2900000, .i32⟩
  | 73 => ⟨S2900000, .i32⟩
  | 74 => ⟨S2900000x1, .i32⟩
  | 75 => ⟨S2900000x32, .f32⟩
  | 76 => ⟨S2900000x32, .f32⟩
  | 77 => ⟨S2900000x32, .f32⟩
  | 78 => ⟨S_, .f32⟩
  | 79 => ⟨S400000x32, .f32⟩
  | 80 => ⟨S2900000x1, .i32⟩
  | 81 => ⟨S400000x32, .f32⟩
  | 82 => ⟨S1x32, .f32⟩
  | 83 => ⟨S400000x32, .f32⟩
  | 84 => ⟨S400000x32, .f32⟩
  | 85 => ⟨S1x32, .f32⟩
  | 86 => ⟨S32, .f32⟩
  | 87 => ⟨S1x32, .f32⟩
  | 88 => ⟨S32, .f32⟩
  | 89 => ⟨S_, .f32⟩
  | 90 => ⟨S32, .f32⟩
  | 91 => ⟨S_, .f32⟩
  | 92 => ⟨S32, .f32⟩
  | 93 => ⟨S32, .f32⟩
  | 94 => ⟨S_, .i32⟩
  | 95 => ⟨S_, .f32⟩
  | 96 => ⟨S32, .f32⟩
  | 97 => ⟨S1x32, .f32⟩
  | 98 => ⟨S_, .f32⟩
  | 99 => ⟨S1x32, .f32⟩
  | 100 => ⟨S1x32, .f32⟩
  | 101 => ⟨S400000x32, .f32⟩
  | 102 => ⟨S400000x32, .f32⟩
  | 103 => ⟨S400000x32, .f32⟩
  | 104 => ⟨S_, .f32⟩
  | 105 => ⟨S_, .f32⟩
  | 106 => ⟨S_, .f32⟩
  | 107 => ⟨S_, .f32⟩
  | 108 => ⟨S32, .f32⟩
  | 109 => ⟨S32, .f32⟩
  | 110 => ⟨S32, .f32⟩
  | 111 => ⟨S_, .f32⟩
  | 112 => ⟨S_, .i1⟩
  | 113 => ⟨S_, .f32⟩
  | 114 => ⟨S_, .f32⟩
  | 115 => ⟨S32, .f32⟩
  | 116 => ⟨S32, .f32⟩
  | 117 => ⟨S1x32, .f32⟩
  | 118 => ⟨S400000x32, .f32⟩
  | 119 => ⟨S400000x32, .f32⟩
  | 120 => ⟨S_, .f32⟩
  | 121 => ⟨S32, .f32⟩
  | 122 => ⟨S32, .f32⟩
  | 123 => ⟨S32, .f32⟩
  | 124 => ⟨S1x32, .f32⟩
  | 125 => ⟨S400000x32, .f32⟩
  | 126 => ⟨S400000x32, .f32⟩
  | 127 => ⟨S1x32, .f32⟩
  | _ => ⟨S400000x7, .f32⟩

abbrev hbmTy0_1 (i : Nat) : BufTy := match i % 128 with
  | 0 => ⟨S400000x32, .f32⟩
  | 1 => ⟨S400000x32, .f32⟩
  | 2 => ⟨S1x32, .f32⟩
  | 3 => ⟨S400000x32, .f32⟩
  | 4 => ⟨S400000x32, .f32⟩
  | 5 => ⟨S_, .f32⟩
  | 6 => ⟨S400000x32, .f32⟩
  | 7 => ⟨S400000x32, .f32⟩
  | 8 => ⟨S400000x32, .f32⟩
  | 9 => ⟨S2900000x1, .f32⟩
  | 10 => ⟨S_, .i32⟩
  | 11 => ⟨S2900000, .i32⟩
  | 12 => ⟨S2900000, .i1⟩
  | 13 => ⟨S_, .i32⟩
  | 14 => ⟨S2900000, .i32⟩
  | 15 => ⟨S2900000, .i32⟩
  | 16 => ⟨S2900000, .i32⟩
  | 17 => ⟨S2900000x1, .i32⟩
  | 18 => ⟨S2900000x32, .f32⟩
  | 19 => ⟨S2900000x32, .f32⟩
  | 20 => ⟨S2900000x32, .f32⟩
  | 21 => ⟨S_, .f32⟩
  | 22 => ⟨S400000x32, .f32⟩
  | 23 => ⟨S2900000x1, .i32⟩
  | 24 => ⟨S400000x32, .f32⟩
  | 25 => ⟨S1x32, .f32⟩
  | 26 => ⟨S400000x32, .f32⟩
  | 27 => ⟨S400000x32, .f32⟩
  | 28 => ⟨S1x32, .f32⟩
  | 29 => ⟨S32, .f32⟩
  | 30 => ⟨S1x32, .f32⟩
  | 31 => ⟨S32, .f32⟩
  | 32 => ⟨S_, .f32⟩
  | 33 => ⟨S32, .f32⟩
  | 34 => ⟨S_, .f32⟩
  | 35 => ⟨S32, .f32⟩
  | 36 => ⟨S32, .f32⟩
  | 37 => ⟨S_, .i32⟩
  | 38 => ⟨S_, .f32⟩
  | 39 => ⟨S32, .f32⟩
  | 40 => ⟨S1x32, .f32⟩
  | 41 => ⟨S_, .f32⟩
  | 42 => ⟨S1x32, .f32⟩
  | 43 => ⟨S1x32, .f32⟩
  | 44 => ⟨S400000x32, .f32⟩
  | 45 => ⟨S400000x32, .f32⟩
  | 46 => ⟨S400000x32, .f32⟩
  | 47 => ⟨S_, .f32⟩
  | 48 => ⟨S_, .f32⟩
  | 49 => ⟨S_, .f32⟩
  | 50 => ⟨S_, .f32⟩
  | 51 => ⟨S32, .f32⟩
  | 52 => ⟨S32, .f32⟩
  | 53 => ⟨S32, .f32⟩
  | 54 => ⟨S_, .f32⟩
  | 55 => ⟨S_, .i1⟩
  | 56 => ⟨S_, .f32⟩
  | 57 => ⟨S_, .f32⟩
  | 58 => ⟨S32, .f32⟩
  | 59 => ⟨S32, .f32⟩
  | 60 => ⟨S1x32, .f32⟩
  | 61 => ⟨S400000x32, .f32⟩
  | 62 => ⟨S400000x32, .f32⟩
  | 63 => ⟨S_, .f32⟩
  | 64 => ⟨S32, .f32⟩
  | 65 => ⟨S32, .f32⟩
  | 66 => ⟨S32, .f32⟩
  | 67 => ⟨S1x32, .f32⟩
  | 68 => ⟨S400000x32, .f32⟩
  | 69 => ⟨S400000x32, .f32⟩
  | 70 => ⟨S1x32, .f32⟩
  | 71 => ⟨S400000x32, .f32⟩
  | 72 => ⟨S400000x32, .f32⟩
  | 73 => ⟨S1x32, .f32⟩
  | 74 => ⟨S400000x32, .f32⟩
  | 75 => ⟨S400000x32, .f32⟩
  | 76 => ⟨S_, .f32⟩
  | 77 => ⟨S400000x32, .f32⟩
  | 78 => ⟨S400000x32, .f32⟩
  | 79 => ⟨S400000x32, .f32⟩
  | 80 => ⟨S2900000x1, .f32⟩
  | 81 => ⟨S_, .i32⟩
  | 82 => ⟨S2900000, .i32⟩
  | 83 => ⟨S2900000, .i1⟩
  | 84 => ⟨S_, .i32⟩
  | 85 => ⟨S2900000, .i32⟩
  | 86 => ⟨S2900000, .i32⟩
  | 87 => ⟨S2900000, .i32⟩
  | 88 => ⟨S2900000x1, .i32⟩
  | 89 => ⟨S2900000x32, .f32⟩
  | 90 => ⟨S2900000x32, .f32⟩
  | 91 => ⟨S2900000x32, .f32⟩
  | 92 => ⟨S_, .f32⟩
  | 93 => ⟨S400000x32, .f32⟩
  | 94 => ⟨S2900000x1, .i32⟩
  | 95 => ⟨S400000x32, .f32⟩
  | 96 => ⟨S1x32, .f32⟩
  | 97 => ⟨S400000x32, .f32⟩
  | 98 => ⟨S400000x32, .f32⟩
  | 99 => ⟨S1x32, .f32⟩
  | 100 => ⟨S32, .f32⟩
  | 101 => ⟨S1x32, .f32⟩
  | 102 => ⟨S32, .f32⟩
  | 103 => ⟨S_, .f32⟩
  | 104 => ⟨S32, .f32⟩
  | 105 => ⟨S_, .f32⟩
  | 106 => ⟨S32, .f32⟩
  | 107 => ⟨S32, .f32⟩
  | 108 => ⟨S_, .i32⟩
  | 109 => ⟨S_, .f32⟩
  | 110 => ⟨S32, .f32⟩
  | 111 => ⟨S1x32, .f32⟩
  | 112 => ⟨S_, .f32⟩
  | 113 => ⟨S1x32, .f32⟩
  | 114 => ⟨S1x32, .f32⟩
  | 115 => ⟨S400000x32, .f32⟩
  | 116 => ⟨S400000x32, .f32⟩
  | 117 => ⟨S400000x32, .f32⟩
  | 118 => ⟨S_, .f32⟩
  | 119 => ⟨S_, .f32⟩
  | 120 => ⟨S_, .f32⟩
  | 121 => ⟨S_, .f32⟩
  | 122 => ⟨S32, .f32⟩
  | 123 => ⟨S32, .f32⟩
  | 124 => ⟨S32, .f32⟩
  | 125 => ⟨S_, .f32⟩
  | 126 => ⟨S_, .i1⟩
  | 127 => ⟨S_, .f32⟩
  | _ => ⟨S400000x7, .f32⟩

abbrev hbmTy0_2 (i : Nat) : BufTy := match i % 128 with
  | 0 => ⟨S_, .f32⟩
  | 1 => ⟨S32, .f32⟩
  | 2 => ⟨S32, .f32⟩
  | 3 => ⟨S1x32, .f32⟩
  | 4 => ⟨S400000x32, .f32⟩
  | 5 => ⟨S400000x32, .f32⟩
  | 6 => ⟨S_, .f32⟩
  | 7 => ⟨S32, .f32⟩
  | 8 => ⟨S32, .f32⟩
  | 9 => ⟨S32, .f32⟩
  | 10 => ⟨S1x32, .f32⟩
  | 11 => ⟨S400000x32, .f32⟩
  | 12 => ⟨S400000x32, .f32⟩
  | 13 => ⟨S1x32, .f32⟩
  | 14 => ⟨S400000x32, .f32⟩
  | 15 => ⟨S400000x32, .f32⟩
  | 16 => ⟨S1x32, .f32⟩
  | 17 => ⟨S400000x32, .f32⟩
  | 18 => ⟨S400000x32, .f32⟩
  | 19 => ⟨S_, .f32⟩
  | 20 => ⟨S400000x32, .f32⟩
  | 21 => ⟨S400000x32, .f32⟩
  | 22 => ⟨S400000x32, .f32⟩
  | 23 => ⟨S2900000x1, .f32⟩
  | 24 => ⟨S_, .i32⟩
  | 25 => ⟨S2900000, .i32⟩
  | 26 => ⟨S2900000, .i1⟩
  | 27 => ⟨S_, .i32⟩
  | 28 => ⟨S2900000, .i32⟩
  | 29 => ⟨S2900000, .i32⟩
  | 30 => ⟨S2900000, .i32⟩
  | 31 => ⟨S2900000x1, .i32⟩
  | 32 => ⟨S2900000x32, .f32⟩
  | 33 => ⟨S2900000x32, .f32⟩
  | 34 => ⟨S2900000x32, .f32⟩
  | 35 => ⟨S_, .f32⟩
  | 36 => ⟨S400000x32, .f32⟩
  | 37 => ⟨S2900000x1, .i32⟩
  | 38 => ⟨S400000x32, .f32⟩
  | 39 => ⟨S1x32, .f32⟩
  | 40 => ⟨S400000x32, .f32⟩
  | 41 => ⟨S400000x32, .f32⟩
  | 42 => ⟨S_, .f32⟩
  | 43 => ⟨S512x32, .f32⟩
  | 44 => ⟨S400000x1, .i32⟩
  | 45 => ⟨S512x32, .f32⟩
  | 46 => ⟨S512x32, .f32⟩
  | 47 => ⟨S1x32, .f32⟩
  | 48 => ⟨S512x32, .f32⟩
  | 49 => ⟨S512x32, .f32⟩
  | 50 => ⟨S_, .f32⟩
  | 51 => ⟨S32, .f32⟩
  | 52 => ⟨S_, .f32⟩
  | 53 => ⟨S32, .f32⟩
  | 54 => ⟨S32, .f32⟩
  | 55 => ⟨S_, .i32⟩
  | 56 => ⟨S_, .f32⟩
  | 57 => ⟨S32, .f32⟩
  | 58 => ⟨S1x32, .f32⟩
  | 59 => ⟨S_, .f32⟩
  | 60 => ⟨S1x32, .f32⟩
  | 61 => ⟨S1x32, .f32⟩
  | 62 => ⟨S512x32, .f32⟩
  | 63 => ⟨S512x32, .f32⟩
  | 64 => ⟨S512x32, .f32⟩
  | 65 => ⟨S_, .f32⟩
  | 66 => ⟨S_, .f32⟩
  | 67 => ⟨S_, .f32⟩
  | 68 => ⟨S_, .f32⟩
  | 69 => ⟨S32, .f32⟩
  | 70 => ⟨S32, .f32⟩
  | 71 => ⟨S32, .f32⟩
  | 72 => ⟨S_, .f32⟩
  | 73 => ⟨S_, .i1⟩
  | 74 => ⟨S_, .f32⟩
  | 75 => ⟨S_, .f32⟩
  | 76 => ⟨S32, .f32⟩
  | 77 => ⟨S32, .f32⟩
  | 78 => ⟨S1x32, .f32⟩
  | 79 => ⟨S512x32, .f32⟩
  | 80 => ⟨S512x32, .f32⟩
  | 81 => ⟨S_, .f32⟩
  | 82 => ⟨S32, .f32⟩
  | 83 => ⟨S32, .f32⟩
  | 84 => ⟨S32, .f32⟩
  | 85 => ⟨S1x32, .f32⟩
  | 86 => ⟨S512x32, .f32⟩
  | 87 => ⟨S512x32, .f32⟩
  | 88 => ⟨S1x32, .f32⟩
  | 89 => ⟨S512x32, .f32⟩
  | 90 => ⟨S512x32, .f32⟩
  | 91 => ⟨S1x32, .f32⟩
  | 92 => ⟨S512x32, .f32⟩
  | 93 => ⟨S512x32, .f32⟩
  | 94 => ⟨S_, .f32⟩
  | 95 => ⟨S512x32, .f32⟩
  | 96 => ⟨S512x32, .f32⟩
  | 97 => ⟨S512x2, .f32⟩
  | 98 => ⟨S1x2, .f32⟩
  | 99 => ⟨S512x2, .f32⟩
  | 100 => ⟨S512x2, .f32⟩
  | _ => ⟨S400000x7, .f32⟩

abbrev hbmTy (i : Nat) : BufTy := match i / 128 with
  | 0 => hbmTy0_0 i
  | 1 => hbmTy0_1 i
  | 2 => hbmTy0_2 i
  | _ => ⟨S400000x7, .f32⟩

abbrev bufTy : (tb : Table) → Fin (tcTables nBuf tb) → BufTy
  | .hbm, ⟨i, _⟩ => hbmTy i
  | _, _ => ⟨S400000x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_v8 : Ref sig .tc := ⟨.hbm, 29, rfl⟩
abbrev main_cst_0 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst_1 : Ref sig .tc := ⟨.hbm, 34, rfl⟩
abbrev main_v12 : Ref sig .tc := ⟨.hbm, 35, rfl⟩
abbrev main_v13 : Ref sig .tc := ⟨.hbm, 36, rfl⟩
abbrev main_cst_2 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_cst_3 : Ref sig .tc := ⟨.hbm, 41, rfl⟩
abbrev main_call0_v0 : Ref sig .tc := ⟨.hbm, 42, rfl⟩
abbrev main_call0_v1 : Ref sig .tc := ⟨.hbm, 43, rfl⟩
abbrev main_v17 : Ref sig .tc := ⟨.hbm, 44, rfl⟩
abbrev main_c : Ref sig .tc := ⟨.hbm, 45, rfl⟩
abbrev main_v18 : Ref sig .tc := ⟨.hbm, 46, rfl⟩
abbrev main_v19 : Ref sig .tc := ⟨.hbm, 47, rfl⟩
abbrev main_c_4 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_c_5 : Ref sig .tc := ⟨.hbm, 55, rfl⟩
abbrev main_v26 : Ref sig .tc := ⟨.hbm, 56, rfl⟩
abbrev main_v27 : Ref sig .tc := ⟨.hbm, 57, rfl⟩
abbrev main_c_6 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_c_7 : Ref sig .tc := ⟨.hbm, 67, rfl⟩
abbrev main_v36 : Ref sig .tc := ⟨.hbm, 68, rfl⟩
abbrev main_v37 : Ref sig .tc := ⟨.hbm, 69, rfl⟩
abbrev main_c_8 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_cst_9 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_cst_10 : Ref sig .tc := ⟨.hbm, 89, rfl⟩
abbrev main_v55 : Ref sig .tc := ⟨.hbm, 90, rfl⟩
abbrev main_cst_11 : Ref sig .tc := ⟨.hbm, 91, rfl⟩
abbrev main_v56 : Ref sig .tc := ⟨.hbm, 92, rfl⟩
abbrev main_v57 : Ref sig .tc := ⟨.hbm, 93, rfl⟩
abbrev main_c_12 : Ref sig .tc := ⟨.hbm, 94, rfl⟩
abbrev main_call1_cst : Ref sig .tc := ⟨.hbm, 95, rfl⟩
abbrev main_call1_v0 : Ref sig .tc := ⟨.hbm, 96, rfl⟩
abbrev main_call1_v1 : Ref sig .tc := ⟨.hbm, 97, rfl⟩
abbrev main_call1_cst_0 : Ref sig .tc := ⟨.hbm, 98, rfl⟩
abbrev main_call1_v2 : Ref sig .tc := ⟨.hbm, 99, rfl⟩
abbrev main_call1_v3 : Ref sig .tc := ⟨.hbm, 100, rfl⟩
abbrev main_call1_v4 : Ref sig .tc := ⟨.hbm, 101, rfl⟩
abbrev main_call1_v5 : Ref sig .tc := ⟨.hbm, 102, rfl⟩
abbrev main_call1_v6 : Ref sig .tc := ⟨.hbm, 103, rfl⟩
abbrev main_call1_v7 : Ref sig .tc := ⟨.hbm, 104, rfl⟩
abbrev main_call1_cst_1 : Ref sig .tc := ⟨.hbm, 105, rfl⟩
abbrev main_call1_v8 : Ref sig .tc := ⟨.hbm, 106, rfl⟩
abbrev main_call1_cst_2 : Ref sig .tc := ⟨.hbm, 107, rfl⟩
abbrev main_call1_v9 : Ref sig .tc := ⟨.hbm, 108, rfl⟩
abbrev main_call1_v10 : Ref sig .tc := ⟨.hbm, 109, rfl⟩
abbrev main_call1_v11 : Ref sig .tc := ⟨.hbm, 110, rfl⟩
abbrev main_call1_cst_3 : Ref sig .tc := ⟨.hbm, 111, rfl⟩
abbrev main_call1_v12 : Ref sig .tc := ⟨.hbm, 112, rfl⟩
abbrev main_call1_cst_4 : Ref sig .tc := ⟨.hbm, 113, rfl⟩
abbrev main_call1_call0_v0 : Ref sig .tc := ⟨.hbm, 114, rfl⟩
abbrev main_call1_call0_v1 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_cst_13 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_call2_cst : Ref sig .tc := ⟨.hbm, 133, rfl⟩
abbrev main_call2_v0 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_c_14 : Ref sig .tc := ⟨.hbm, 138, rfl⟩
abbrev main_v77 : Ref sig .tc := ⟨.hbm, 139, rfl⟩
abbrev main_v78 : Ref sig .tc := ⟨.hbm, 140, rfl⟩
abbrev main_c_15 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_cst_16 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_cst_17 : Ref sig .tc := ⟨.hbm, 160, rfl⟩
abbrev main_v96 : Ref sig .tc := ⟨.hbm, 161, rfl⟩
abbrev main_cst_18 : Ref sig .tc := ⟨.hbm, 162, rfl⟩
abbrev main_v97 : Ref sig .tc := ⟨.hbm, 163, rfl⟩
abbrev main_v98 : Ref sig .tc := ⟨.hbm, 164, rfl⟩
abbrev main_c_19 : Ref sig .tc := ⟨.hbm, 165, rfl⟩
abbrev main_call3_cst : Ref sig .tc := ⟨.hbm, 166, rfl⟩
abbrev main_call3_v0 : Ref sig .tc := ⟨.hbm, 167, rfl⟩
abbrev main_call3_v1 : Ref sig .tc := ⟨.hbm, 168, rfl⟩
abbrev main_call3_cst_0 : Ref sig .tc := ⟨.hbm, 169, rfl⟩
abbrev main_call3_v2 : Ref sig .tc := ⟨.hbm, 170, rfl⟩
abbrev main_call3_v3 : Ref sig .tc := ⟨.hbm, 171, rfl⟩
abbrev main_call3_v4 : Ref sig .tc := ⟨.hbm, 172, rfl⟩
abbrev main_call3_v5 : Ref sig .tc := ⟨.hbm, 173, rfl⟩
abbrev main_call3_v6 : Ref sig .tc := ⟨.hbm, 174, rfl⟩
abbrev main_call3_v7 : Ref sig .tc := ⟨.hbm, 175, rfl⟩
abbrev main_call3_cst_1 : Ref sig .tc := ⟨.hbm, 176, rfl⟩
abbrev main_call3_v8 : Ref sig .tc := ⟨.hbm, 177, rfl⟩
abbrev main_call3_cst_2 : Ref sig .tc := ⟨.hbm, 178, rfl⟩
abbrev main_call3_v9 : Ref sig .tc := ⟨.hbm, 179, rfl⟩
abbrev main_call3_v10 : Ref sig .tc := ⟨.hbm, 180, rfl⟩
abbrev main_call3_v11 : Ref sig .tc := ⟨.hbm, 181, rfl⟩
abbrev main_call3_cst_3 : Ref sig .tc := ⟨.hbm, 182, rfl⟩
abbrev main_call3_v12 : Ref sig .tc := ⟨.hbm, 183, rfl⟩
abbrev main_call3_cst_4 : Ref sig .tc := ⟨.hbm, 184, rfl⟩
abbrev main_call3_call0_v0 : Ref sig .tc := ⟨.hbm, 185, rfl⟩
abbrev main_call3_call0_v1 : Ref sig .tc := ⟨.hbm, 186, rfl⟩
abbrev main_v99 : Ref sig .tc := ⟨.hbm, 187, rfl⟩
abbrev main_v100 : Ref sig .tc := ⟨.hbm, 188, rfl⟩
abbrev main_v101 : Ref sig .tc := ⟨.hbm, 189, rfl⟩
abbrev main_v102 : Ref sig .tc := ⟨.hbm, 190, rfl⟩
abbrev main_cst_20 : Ref sig .tc := ⟨.hbm, 191, rfl⟩
abbrev main_v103 : Ref sig .tc := ⟨.hbm, 192, rfl⟩
abbrev main_v104 : Ref sig .tc := ⟨.hbm, 193, rfl⟩
abbrev main_v105 : Ref sig .tc := ⟨.hbm, 194, rfl⟩
abbrev main_v106 : Ref sig .tc := ⟨.hbm, 195, rfl⟩
abbrev main_v107 : Ref sig .tc := ⟨.hbm, 196, rfl⟩
abbrev main_v108 : Ref sig .tc := ⟨.hbm, 197, rfl⟩
abbrev main_v109 : Ref sig .tc := ⟨.hbm, 198, rfl⟩
abbrev main_v110 : Ref sig .tc := ⟨.hbm, 199, rfl⟩
abbrev main_v111 : Ref sig .tc := ⟨.hbm, 200, rfl⟩
abbrev main_v112 : Ref sig .tc := ⟨.hbm, 201, rfl⟩
abbrev main_v113 : Ref sig .tc := ⟨.hbm, 202, rfl⟩
abbrev main_v114 : Ref sig .tc := ⟨.hbm, 203, rfl⟩
abbrev main_call4_cst : Ref sig .tc := ⟨.hbm, 204, rfl⟩
abbrev main_call4_v0 : Ref sig .tc := ⟨.hbm, 205, rfl⟩
abbrev main_v115 : Ref sig .tc := ⟨.hbm, 206, rfl⟩
abbrev main_v116 : Ref sig .tc := ⟨.hbm, 207, rfl⟩
abbrev main_v117 : Ref sig .tc := ⟨.hbm, 208, rfl⟩
abbrev main_c_21 : Ref sig .tc := ⟨.hbm, 209, rfl⟩
abbrev main_v118 : Ref sig .tc := ⟨.hbm, 210, rfl⟩
abbrev main_v119 : Ref sig .tc := ⟨.hbm, 211, rfl⟩
abbrev main_c_22 : Ref sig .tc := ⟨.hbm, 212, rfl⟩
abbrev main_v120 : Ref sig .tc := ⟨.hbm, 213, rfl⟩
abbrev main_v121 : Ref sig .tc := ⟨.hbm, 214, rfl⟩
abbrev main_v122 : Ref sig .tc := ⟨.hbm, 215, rfl⟩
abbrev main_v123 : Ref sig .tc := ⟨.hbm, 216, rfl⟩
abbrev main_v124 : Ref sig .tc := ⟨.hbm, 217, rfl⟩
abbrev main_v125 : Ref sig .tc := ⟨.hbm, 218, rfl⟩
abbrev main_v126 : Ref sig .tc := ⟨.hbm, 219, rfl⟩
abbrev main_cst_23 : Ref sig .tc := ⟨.hbm, 220, rfl⟩
abbrev main_v127 : Ref sig .tc := ⟨.hbm, 221, rfl⟩
abbrev main_v128 : Ref sig .tc := ⟨.hbm, 222, rfl⟩
abbrev main_v129 : Ref sig .tc := ⟨.hbm, 223, rfl⟩
abbrev main_v130 : Ref sig .tc := ⟨.hbm, 224, rfl⟩
abbrev main_v131 : Ref sig .tc := ⟨.hbm, 225, rfl⟩
abbrev main_v132 : Ref sig .tc := ⟨.hbm, 226, rfl⟩
abbrev main_v133 : Ref sig .tc := ⟨.hbm, 227, rfl⟩
abbrev main_v134 : Ref sig .tc := ⟨.hbm, 228, rfl⟩
abbrev main_v135 : Ref sig .tc := ⟨.hbm, 229, rfl⟩
abbrev main_v136 : Ref sig .tc := ⟨.hbm, 230, rfl⟩
abbrev main_cst_24 : Ref sig .tc := ⟨.hbm, 231, rfl⟩
abbrev main_v137 : Ref sig .tc := ⟨.hbm, 232, rfl⟩
abbrev main_cst_25 : Ref sig .tc := ⟨.hbm, 233, rfl⟩
abbrev main_v138 : Ref sig .tc := ⟨.hbm, 234, rfl⟩
abbrev main_v139 : Ref sig .tc := ⟨.hbm, 235, rfl⟩
abbrev main_c_26 : Ref sig .tc := ⟨.hbm, 236, rfl⟩
abbrev main_call5_cst : Ref sig .tc := ⟨.hbm, 237, rfl⟩
abbrev main_call5_v0 : Ref sig .tc := ⟨.hbm, 238, rfl⟩
abbrev main_call5_v1 : Ref sig .tc := ⟨.hbm, 239, rfl⟩
abbrev main_call5_cst_0 : Ref sig .tc := ⟨.hbm, 240, rfl⟩
abbrev main_call5_v2 : Ref sig .tc := ⟨.hbm, 241, rfl⟩
abbrev main_call5_v3 : Ref sig .tc := ⟨.hbm, 242, rfl⟩
abbrev main_call5_v4 : Ref sig .tc := ⟨.hbm, 243, rfl⟩
abbrev main_call5_v5 : Ref sig .tc := ⟨.hbm, 244, rfl⟩
abbrev main_call5_v6 : Ref sig .tc := ⟨.hbm, 245, rfl⟩
abbrev main_call5_v7 : Ref sig .tc := ⟨.hbm, 246, rfl⟩
abbrev main_call5_cst_1 : Ref sig .tc := ⟨.hbm, 247, rfl⟩
abbrev main_call5_v8 : Ref sig .tc := ⟨.hbm, 248, rfl⟩
abbrev main_call5_cst_2 : Ref sig .tc := ⟨.hbm, 249, rfl⟩
abbrev main_call5_v9 : Ref sig .tc := ⟨.hbm, 250, rfl⟩
abbrev main_call5_v10 : Ref sig .tc := ⟨.hbm, 251, rfl⟩
abbrev main_call5_v11 : Ref sig .tc := ⟨.hbm, 252, rfl⟩
abbrev main_call5_cst_3 : Ref sig .tc := ⟨.hbm, 253, rfl⟩
abbrev main_call5_v12 : Ref sig .tc := ⟨.hbm, 254, rfl⟩
abbrev main_call5_cst_4 : Ref sig .tc := ⟨.hbm, 255, rfl⟩
abbrev main_call5_call0_v0 : Ref sig .tc := ⟨.hbm, 256, rfl⟩
abbrev main_call5_call0_v1 : Ref sig .tc := ⟨.hbm, 257, rfl⟩
abbrev main_v140 : Ref sig .tc := ⟨.hbm, 258, rfl⟩
abbrev main_v141 : Ref sig .tc := ⟨.hbm, 259, rfl⟩
abbrev main_v142 : Ref sig .tc := ⟨.hbm, 260, rfl⟩
abbrev main_v143 : Ref sig .tc := ⟨.hbm, 261, rfl⟩
abbrev main_cst_27 : Ref sig .tc := ⟨.hbm, 262, rfl⟩
abbrev main_v144 : Ref sig .tc := ⟨.hbm, 263, rfl⟩
abbrev main_v145 : Ref sig .tc := ⟨.hbm, 264, rfl⟩
abbrev main_v146 : Ref sig .tc := ⟨.hbm, 265, rfl⟩
abbrev main_v147 : Ref sig .tc := ⟨.hbm, 266, rfl⟩
abbrev main_v148 : Ref sig .tc := ⟨.hbm, 267, rfl⟩
abbrev main_v149 : Ref sig .tc := ⟨.hbm, 268, rfl⟩
abbrev main_v150 : Ref sig .tc := ⟨.hbm, 269, rfl⟩
abbrev main_v151 : Ref sig .tc := ⟨.hbm, 270, rfl⟩
abbrev main_v152 : Ref sig .tc := ⟨.hbm, 271, rfl⟩
abbrev main_v153 : Ref sig .tc := ⟨.hbm, 272, rfl⟩
abbrev main_v154 : Ref sig .tc := ⟨.hbm, 273, rfl⟩
abbrev main_v155 : Ref sig .tc := ⟨.hbm, 274, rfl⟩
abbrev main_call6_cst : Ref sig .tc := ⟨.hbm, 275, rfl⟩
abbrev main_call6_v0 : Ref sig .tc := ⟨.hbm, 276, rfl⟩
abbrev main_v156 : Ref sig .tc := ⟨.hbm, 277, rfl⟩
abbrev main_v157 : Ref sig .tc := ⟨.hbm, 278, rfl⟩
abbrev main_v158 : Ref sig .tc := ⟨.hbm, 279, rfl⟩
abbrev main_c_28 : Ref sig .tc := ⟨.hbm, 280, rfl⟩
abbrev main_v159 : Ref sig .tc := ⟨.hbm, 281, rfl⟩
abbrev main_v160 : Ref sig .tc := ⟨.hbm, 282, rfl⟩
abbrev main_c_29 : Ref sig .tc := ⟨.hbm, 283, rfl⟩
abbrev main_v161 : Ref sig .tc := ⟨.hbm, 284, rfl⟩
abbrev main_v162 : Ref sig .tc := ⟨.hbm, 285, rfl⟩
abbrev main_v163 : Ref sig .tc := ⟨.hbm, 286, rfl⟩
abbrev main_v164 : Ref sig .tc := ⟨.hbm, 287, rfl⟩
abbrev main_v165 : Ref sig .tc := ⟨.hbm, 288, rfl⟩
abbrev main_v166 : Ref sig .tc := ⟨.hbm, 289, rfl⟩
abbrev main_v167 : Ref sig .tc := ⟨.hbm, 290, rfl⟩
abbrev main_cst_30 : Ref sig .tc := ⟨.hbm, 291, rfl⟩
abbrev main_v168 : Ref sig .tc := ⟨.hbm, 292, rfl⟩
abbrev main_v169 : Ref sig .tc := ⟨.hbm, 293, rfl⟩
abbrev main_v170 : Ref sig .tc := ⟨.hbm, 294, rfl⟩
abbrev main_v171 : Ref sig .tc := ⟨.hbm, 295, rfl⟩
abbrev main_v172 : Ref sig .tc := ⟨.hbm, 296, rfl⟩
abbrev main_v173 : Ref sig .tc := ⟨.hbm, 297, rfl⟩
abbrev main_cst_31 : Ref sig .tc := ⟨.hbm, 298, rfl⟩
abbrev main_v174 : Ref sig .tc := ⟨.hbm, 299, rfl⟩
abbrev main_v175 : Ref sig .tc := ⟨.hbm, 300, rfl⟩
abbrev main_v176 : Ref sig .tc := ⟨.hbm, 301, rfl⟩
abbrev main_v177 : Ref sig .tc := ⟨.hbm, 302, rfl⟩
abbrev main_v178 : Ref sig .tc := ⟨.hbm, 303, rfl⟩
abbrev main_v179 : Ref sig .tc := ⟨.hbm, 304, rfl⟩
abbrev main_v180 : Ref sig .tc := ⟨.hbm, 305, rfl⟩
abbrev main_cst_32 : Ref sig .tc := ⟨.hbm, 306, rfl⟩
abbrev main_v181 : Ref sig .tc := ⟨.hbm, 307, rfl⟩
abbrev main_cst_33 : Ref sig .tc := ⟨.hbm, 308, rfl⟩
abbrev main_v182 : Ref sig .tc := ⟨.hbm, 309, rfl⟩
abbrev main_v183 : Ref sig .tc := ⟨.hbm, 310, rfl⟩
abbrev main_c_34 : Ref sig .tc := ⟨.hbm, 311, rfl⟩
abbrev main_call7_cst : Ref sig .tc := ⟨.hbm, 312, rfl⟩
abbrev main_call7_v0 : Ref sig .tc := ⟨.hbm, 313, rfl⟩
abbrev main_call7_v1 : Ref sig .tc := ⟨.hbm, 314, rfl⟩
abbrev main_call7_cst_0 : Ref sig .tc := ⟨.hbm, 315, rfl⟩
abbrev main_call7_v2 : Ref sig .tc := ⟨.hbm, 316, rfl⟩
abbrev main_call7_v3 : Ref sig .tc := ⟨.hbm, 317, rfl⟩
abbrev main_call7_v4 : Ref sig .tc := ⟨.hbm, 318, rfl⟩
abbrev main_call7_v5 : Ref sig .tc := ⟨.hbm, 319, rfl⟩
abbrev main_call7_v6 : Ref sig .tc := ⟨.hbm, 320, rfl⟩
abbrev main_call7_v7 : Ref sig .tc := ⟨.hbm, 321, rfl⟩
abbrev main_call7_cst_1 : Ref sig .tc := ⟨.hbm, 322, rfl⟩
abbrev main_call7_v8 : Ref sig .tc := ⟨.hbm, 323, rfl⟩
abbrev main_call7_cst_2 : Ref sig .tc := ⟨.hbm, 324, rfl⟩
abbrev main_call7_v9 : Ref sig .tc := ⟨.hbm, 325, rfl⟩
abbrev main_call7_v10 : Ref sig .tc := ⟨.hbm, 326, rfl⟩
abbrev main_call7_v11 : Ref sig .tc := ⟨.hbm, 327, rfl⟩
abbrev main_call7_cst_3 : Ref sig .tc := ⟨.hbm, 328, rfl⟩
abbrev main_call7_v12 : Ref sig .tc := ⟨.hbm, 329, rfl⟩
abbrev main_call7_cst_4 : Ref sig .tc := ⟨.hbm, 330, rfl⟩
abbrev main_call7_call0_v0 : Ref sig .tc := ⟨.hbm, 331, rfl⟩
abbrev main_call7_call0_v1 : Ref sig .tc := ⟨.hbm, 332, rfl⟩
abbrev main_v184 : Ref sig .tc := ⟨.hbm, 333, rfl⟩
abbrev main_v185 : Ref sig .tc := ⟨.hbm, 334, rfl⟩
abbrev main_v186 : Ref sig .tc := ⟨.hbm, 335, rfl⟩
abbrev main_v187 : Ref sig .tc := ⟨.hbm, 336, rfl⟩
abbrev main_cst_35 : Ref sig .tc := ⟨.hbm, 337, rfl⟩
abbrev main_v188 : Ref sig .tc := ⟨.hbm, 338, rfl⟩
abbrev main_v189 : Ref sig .tc := ⟨.hbm, 339, rfl⟩
abbrev main_v190 : Ref sig .tc := ⟨.hbm, 340, rfl⟩
abbrev main_v191 : Ref sig .tc := ⟨.hbm, 341, rfl⟩
abbrev main_v192 : Ref sig .tc := ⟨.hbm, 342, rfl⟩
abbrev main_v193 : Ref sig .tc := ⟨.hbm, 343, rfl⟩
abbrev main_v194 : Ref sig .tc := ⟨.hbm, 344, rfl⟩
abbrev main_v195 : Ref sig .tc := ⟨.hbm, 345, rfl⟩
abbrev main_v196 : Ref sig .tc := ⟨.hbm, 346, rfl⟩
abbrev main_v197 : Ref sig .tc := ⟨.hbm, 347, rfl⟩
abbrev main_v198 : Ref sig .tc := ⟨.hbm, 348, rfl⟩
abbrev main_v199 : Ref sig .tc := ⟨.hbm, 349, rfl⟩
abbrev main_call8_cst : Ref sig .tc := ⟨.hbm, 350, rfl⟩
abbrev main_call8_v0 : Ref sig .tc := ⟨.hbm, 351, rfl⟩
abbrev main_v200 : Ref sig .tc := ⟨.hbm, 352, rfl⟩
abbrev main_v201 : Ref sig .tc := ⟨.hbm, 353, rfl⟩
abbrev main_v202 : Ref sig .tc := ⟨.hbm, 354, rfl⟩
abbrev main_v203 : Ref sig .tc := ⟨.hbm, 355, rfl⟩
abbrev main_v204 : Ref sig .tc := ⟨.hbm, 356, rfl⟩

abbrev nD : Nat := 1
abbrev τ : Topo := Topo.v7x

variable {F : FTy → Type} [FloatOps F]

class Facts₀ : Prop where
  slices_S2x2500000_S1x2500000_0_0 : S2x2500000.Slices ![0, 0] S1x2500000
  shapeCasts_S1x2500000_S2500000 : S1x2500000.ShapeCasts S2500000
  slices_S2x2500000_S1x2500000_1_0 : S2x2500000.Slices ![1, 0] S1x2500000
  concatenates_S2500000_S400000_S2900000_d0 : Shape.Concatenates [S2500000, S400000] S2900000 0
  bcast_S_S400000 : S_.BroadcastsInDim S400000 (![] : Fin 0 → Fin S400000.rank)
  bcast_S2900000_S2900000x1_0 : S2900000.BroadcastsInDim S2900000x1 (![0] : Fin 1 → Fin S2900000x1.rank)
  bcast_S_S2900000 : S_.BroadcastsInDim S2900000 (![] : Fin 0 → Fin S2900000.rank)
  bcast_S2900000x1_S2900000x32_0_1 : S2900000x1.BroadcastsInDim S2900000x32 (![0, 1] : Fin 2 → Fin S2900000x32.rank)
  bcast_S_S400000x32 : S_.BroadcastsInDim S400000x32 (![] : Fin 0 → Fin S400000x32.rank)
  bcast_S32_S1x32_1 : S32.BroadcastsInDim S1x32 (![1] : Fin 1 → Fin S1x32.rank)
  bcast_S1x32_S400000x32_0_1 : S1x32.BroadcastsInDim S400000x32 (![0, 1] : Fin 2 → Fin S400000x32.rank)
  slices_S3x32_S1x32_0_0 : S3x32.Slices ![0, 0] S1x32
  shapeCasts_S1x32_S32 : S1x32.ShapeCasts S32
  reducesTo_S400000x32_S32_d0 : S400000x32.ReducesTo [0] S32
  h_S_ : 0 < S_.numel
  bcast_S_S32 : S_.BroadcastsInDim S32 (![] : Fin 0 → Fin S32.rank)
  bcast_S_S1x32 : S_.BroadcastsInDim S1x32 (![] : Fin 0 → Fin S1x32.rank)
  slices_S3x32_S1x32_1_0 : S3x32.Slices ![1, 0] S1x32
  slices_S3x32_S1x32_2_0 : S3x32.Slices ![2, 0] S1x32
  bcast_S_S512x32 : S_.BroadcastsInDim S512x32 (![] : Fin 0 → Fin S512x32.rank)
  bcast_S400000_S400000x1_0 : S400000.BroadcastsInDim S400000x1 (![0] : Fin 1 → Fin S400000x1.rank)
  bcast_S1x32_S512x32_0_1 : S1x32.BroadcastsInDim S512x32 (![0, 1] : Fin 2 → Fin S512x32.rank)
  reducesTo_S512x32_S32_d0 : S512x32.ReducesTo [0] S32
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  scatter_S400000_S2900000x1_S2900000_n_0_0_1_wf : ScatterDims.WF S400000 S2900000x1 S2900000 [] [0] [0] 1
  gather_S400000_S2900000x1_S2900000_n_0_n_n_0_1_1_wf : GatherDims.WF S400000 S2900000x1 S2900000 [] [0] [] [0] [] 1 ![1]
  dot_S400000x7_S7x32_S400000x32_1_0_0_1_n_n_wf : DotDims.WF S400000x7 S7x32 S400000x32 [1] [0] [0] [1] [] []
  gather_S400000x32_S2900000x1_S2900000x32_1_0_n_n_0_1_132_wf : GatherDims.WF S400000x32 S2900000x1 S2900000x32 [1] [0] [] [0] [] 1 ![1, 32]
  scatter_S400000x32_S2900000x1_S2900000x32_1_0_0_1_wf : ScatterDims.WF S400000x32 S2900000x1 S2900000x32 [1] [0] [0] 1
  dot_S400000x32_S32x32_S400000x32_1_0_0_1_n_n_wf : DotDims.WF S400000x32 S32x32 S400000x32 [1] [0] [0] [1] [] []
  scatter_S512x32_S400000x1_S400000x32_1_0_0_1_wf : ScatterDims.WF S512x32 S400000x1 S400000x32 [1] [0] [0] 1
  dot_S512x32_S32x32_S512x32_1_0_0_1_n_n_wf : DotDims.WF S512x32 S32x32 S512x32 [1] [0] [0] [1] [] []
  dot_S512x32_S32x2_S512x2_1_0_0_1_n_n_wf : DotDims.WF S512x32 S32x2 S512x2 [1] [0] [0] [1] [] []

variable [Facts₀]

def scatter_S400000_S2900000x1_S2900000_n_0_0_1 : ScatterDims S400000 S2900000x1 S2900000 where
  updateWindowDims := []
  insertedWindowDims := [0]
  scatterDimsToOperandDims := [0]
  indexVectorDim := 1
  wf := scatter_S400000_S2900000x1_S2900000_n_0_0_1_wf
def gather_S400000_S2900000x1_S2900000_n_0_n_n_0_1_1 : GatherDims S400000 S2900000x1 S2900000 where
  offsetDims := []
  collapsedSliceDims := [0]
  operandBatchingDims := []
  startIndicesBatchingDims := []
  startIndexMap := [0]
  indexVectorDim := 1
  sliceSizes := ![1]
  wf := gather_S400000_S2900000x1_S2900000_n_0_n_n_0_1_1_wf
def dot_S400000x7_S7x32_S400000x32_1_0_0_1_n_n : DotDims S400000x7 S7x32 S400000x32 where
  lhsContracting := [1]
  rhsContracting := [0]
  lhsNonContracting := [0]
  rhsNonContracting := [1]
  lhsBatch := []
  rhsBatch := []
  wf := dot_S400000x7_S7x32_S400000x32_1_0_0_1_n_n_wf
def gather_S400000x32_S2900000x1_S2900000x32_1_0_n_n_0_1_132 : GatherDims S400000x32 S2900000x1 S2900000x32 where
  offsetDims := [1]
  collapsedSliceDims := [0]
  operandBatchingDims := []
  startIndicesBatchingDims := []
  startIndexMap := [0]
  indexVectorDim := 1
  sliceSizes := ![1, 32]
  wf := gather_S400000x32_S2900000x1_S2900000x32_1_0_n_n_0_1_132_wf
def scatter_S400000x32_S2900000x1_S2900000x32_1_0_0_1 : ScatterDims S400000x32 S2900000x1 S2900000x32 where
  updateWindowDims := [1]
  insertedWindowDims := [0]
  scatterDimsToOperandDims := [0]
  indexVectorDim := 1
  wf := scatter_S400000x32_S2900000x1_S2900000x32_1_0_0_1_wf
def dot_S400000x32_S32x32_S400000x32_1_0_0_1_n_n : DotDims S400000x32 S32x32 S400000x32 where
  lhsContracting := [1]
  rhsContracting := [0]
  lhsNonContracting := [0]
  rhsNonContracting := [1]
  lhsBatch := []
  rhsBatch := []
  wf := dot_S400000x32_S32x32_S400000x32_1_0_0_1_n_n_wf
def scatter_S512x32_S400000x1_S400000x32_1_0_0_1 : ScatterDims S512x32 S400000x1 S400000x32 where
  updateWindowDims := [1]
  insertedWindowDims := [0]
  scatterDimsToOperandDims := [0]
  indexVectorDim := 1
  wf := scatter_S512x32_S400000x1_S400000x32_1_0_0_1_wf
def dot_S512x32_S32x32_S512x32_1_0_0_1_n_n : DotDims S512x32 S32x32 S512x32 where
  lhsContracting := [1]
  rhsContracting := [0]
  lhsNonContracting := [0]
  rhsNonContracting := [1]
  lhsBatch := []
  rhsBatch := []
  wf := dot_S512x32_S32x32_S512x32_1_0_0_1_n_n_wf
def dot_S512x32_S32x2_S512x2_1_0_0_1_n_n : DotDims S512x32 S32x2 S512x2 where
  lhsContracting := [1]
  rhsContracting := [0]
  lhsNonContracting := [0]
  rhsNonContracting := [1]
  lhsBatch := []
  rhsBatch := []
  wf := dot_S512x32_S32x2_S512x2_1_0_0_1_n_n_wf

class Facts : Prop extends Facts₀ where

variable [Facts]
-- ==== Proof.BReg0.lean ====
import proofs.«419458_j79517024518684_2_alg».proof.Proof.Gen.Kernel.Launch
import proofs.«419458_j79517024518684_2_alg».proof.Proof.Gen.Kernel.Skeleton
import proofs.«419458_j79517024518684_2_alg».proof.Proof.Gen.Kernel.Points
import Idealize.ShloMosaic.Lib.Pipeline.FrameBody
import Idealize.ShloMosaic.Lib.Tactic

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def out0_2 (x0 : Vec F S20000x7 .f32) (x1 : Vec F S7x32 .f32) : Vec F S20000x32 .f32 :=
  View.canon [⟨Rect.unit (s := S20000x32) ![0, 0] S20000x32.size inb_S20000x32_S20000x32_0_0,
    k0_pay1 (View.ld x0 (Rect.unit (s := S20000x7) ![0, 0] S20000x7.size inb_S20000x7_S20000x7_0_0))
      (View.ld x1 (Rect.unit (s := S7x32) ![0, 0] S7x32.size inb_S7x32_S7x32_0_0))⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := rfl

theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d

-- the body leaves the product of the two input blocks in the output tile and keeps everything else as it was
theorem sound_kernel0 (c : Dev nD) {i : grid0.Coords} {arg1 : Memref sig .tc .vmem S20000x7 .f32} {harg1 : arg1.IsWhole}
    {arg2 : Memref sig .tc .vmem S7x32 .f32} {harg2 : arg2.IsWhole} {arg3 : Memref sig .tc .vmem S20000x32 .f32} {harg3 : arg3.IsWhole}
    {x0 : Vec F S20000x7 .f32} {x1 : Vec F S7x32 .f32} {R S : sProp 𝕄} {D0 D1 D2 : Type} {b0 : D0 → Vec F S20000x7 .f32}
    {b1 : D1 → Vec F S7x32 .f32} {b2 : D2 → Vec F S20000x32 .f32} (h0 : ∀ d, b0 d = x0) (h1 : ∀ d, b1 d = x1) :
    iprop(R ∗ S ∗ (∃ d, owns c arg1 fullShare (b0 d)) ∗ (∃ d, owns c arg2 fullShare (b1 d)) ∗ ∃ d, owns c arg3 fullShare (b2 d))
      ⊢ wp frame (wpE (defs₀ (F := F)) Variants.none c none) Set.univ (cc0__linear_kernel i arg1 harg1 arg2 harg2 arg3 harg3) fun _ =>
        iprop(R ∗ S ∗ owns c arg1 fullShare x0 ∗ owns c arg2 fullShare x1 ∗ owns c arg3 fullShare (out0_2 x0 x1)) := by
  simp only [h0, h1, cc0__linear_kernel_eq_skeleton]; unfold cc0__linear_kernel_skel owns
  iintro ⟨HR, HS, ⟨%d0, %f0, %hf0, H0⟩, ⟨%d1, %f1, %hf1, H1⟩, ⟨%d2, %f2, -, H2⟩⟩
  subst hf0 hf1
  sl_exec
  sl_step
  iframe HR HS
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S20000x32.size (by rfl))

theorem body_obligation0 (c : Dev nD) : BodyObligation (dat0 (F := F) V c) (defs₀ (F := F)) Variants.none () Set.univ := fun t => by
  rw [bigSep_W0, bigSep_W0]
  dsimp only [dat0]
  exact (sound_kernel0 c (before0_0 V c t) (before0_1 V c t) : _ ⊢ wp _ _ _ (bodyAt0 t) _)

end Cert.Kernel.Hand

end
-- ==== Proof.BReg1Runs.lean ====
import proofs.«419458_j79517024518684_2_alg».proof.Proof.Gen.Kernel.Launch
import proofs.«419458_j79517024518684_2_alg».proof.Proof.Gen.Kernel.Skeleton
import proofs.«419458_j79517024518684_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI Idealize.SL.BI.BIBase Idealize.SL.ProofMode Idealize.SL.Sem

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 0).val) 0#32)) 0#32) = 1#1

/-- On the 20-point grid the first test holds at point 0 only. -/
theorem hcond1_0 : ∀ t : Fin cfg1.N, cond1_0 (grid1.coords t) ↔ t.val = 0 := by decide +kernel

abbrev cond1_1 (i : grid1.Coords) : Prop := k1_cond2 i = 1#1

/-- The second test holds at point 19 only. -/
theorem hcond1_1 : ∀ t : Fin cfg1.N, cond1_1 (grid1.coords t) ↔ t.val = 19 := by decide +kernel

theorem liveAt1_0 : ∀ t : Fin cfg1.N, cfg1.idle 0 (grid1.coords t) = false := by decide +kernel

theorem idleAt1_1 : ∀ t : Fin cfg1.N, ¬cond1_1 (grid1.coords t) → cfg1.idle 1 (grid1.coords t) = true := by decide +kernel

theorem noFlush1_1 : ∀ t : Fin cfg1.N, ¬cond1_1 (grid1.coords t) → (cfg1.win 1).flush t = false := by decide +kernel

theorem liveAt1_1 : ∀ t : Fin cfg1.N, cond1_1 (grid1.coords t) → cfg1.idle 1 (grid1.coords t) = false := by decide +kernel

theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

abbrev VO1_1 : View sig .tc .vmem S1x32 .f32 := (Memref.whole cc1_stg1_0 : Memref sig .tc .vmem S1x32 .f32).view
abbrev VO1_2 : View sig .tc .vmem S1x32 .f32 := (Memref.whole cc1_stg2_0 : Memref sig .tc .vmem S1x32 .f32).view

abbrev ms1_0 (t : Fin cfg1.N) : Memref sig .tc .vmem S20000x32 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x32 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x32 .f32 := win1_2.stage (cfg1.slots t 2)
abbrev hs1_2 (t : Fin cfg1.N) : (ms1_2 t).IsWhole := hstage1_2 ((cfg1.slots t 2).cast nbuf1_2)

abbrev scM1_0 : Memref sig .tc .vmem S1x32 .f32 := Memref.whole cc1_scratch0
abbrev scM1_1 : Memref sig .tc .vmem S1x32 .f32 := Memref.whole cc1_scratch1

abbrev VS1_0 : View sig .tc .vmem S1x32 .f32 := scM1_0.view
abbrev VS1_1 : View sig .tc .vmem S1x32 .f32 := scM1_1.view

abbrev rest1 (c : Dev nD) : sProp 𝕄 :=
  Pipeline.scopedRestBut (Ix := Unit) (Name := ℕ) (U := UR sig nD τ) (Lvl := ℕ) (Val := Elt F) spec1 c [cc1_scratch0, cc1_scratch1]

theorem PhiA1_eq (c : Dev nD) :
    (Pipeline.ΦA spec1 c : sProp 𝕄)
      = iprop(iprop(iprop((∃ d, owns c scM1_0 fullShare d) ∗ (∃ d, owns c scM1_1 fullShare d)) ∗ rest1 c) ∗ (∃ r, prngReg c r)) := by
  unfold Pipeline.ΦA; rw [scopedRest1_split]; simp only [scM1_0, scM1_1, owns_whole]; try rfl

variable (c : Dev nD) (i : grid1.Coords) (arg1 : Memref sig .tc .vmem S20000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S1x32 .f32) (harg5 : arg5.IsWhole)

set_option maxHeartbeats 1000000 in
/-- The body run whole at the first point: the accumulators end at the pieces the run stored into them. -/
def kernelRun1_A (hc0 : cond1_0 i) (hc1 : ¬cond1_1 i) (x0 : Vec F S20000x32 .f32) :
    Σ' (LS0 : List (View.Piece (Elt F) S1x32 .f32)), { LS1 : List (View.Piece (Elt F) S1x32 .f32) //
      ∀ (xi1 xi2 : Vec F S1x32 .f32) (E : Set ℕ) (K : PUnit → sProp 𝕄),
        iprop(owns c arg1 fullShare x0 ∗ owns c arg2 fullShare xi1 ∗ owns c arg3 fullShare xi2
            ∗ (∃ d, owns c arg4 fullShare d) ∗ (∃ d, owns c arg5 fullShare d)
            ∗ (iprop(owns c arg1 fullShare x0 ∗ owns c arg2 fullShare xi1 ∗ owns c arg3 fullShare xi2
                ∗ (∃ f, arg4.view.loc c ↦[arg4.view.set]{fullShare} arg4.view.writes (Elt F) f LS0)
                ∗ (∃ f, arg5.view.loc c ↦[arg5.view.set]{fullShare} arg5.view.writes (Elt F) f LS1)) -∗ K ⟨⟩))
          ⊢ wp frame (wpE (defs₀ (F := F)) Variants.none c none) E (cc1__bn_stats_kernel i arg1 harg1 arg2 harg2 arg3 harg3 arg4 harg4 arg5 harg5) K } := by
  refine ⟨?_, ?_, fun xi1 xi2 E K => ?run⟩
  case run =>
    simp only [cc1__bn_stats_kernel_eq_skeleton]; unfold cc1__bn_stats_kernel_skel
    unfold owns
    iintro ⟨⟨%f0, %hf0, H0⟩, H1, H2, ⟨%ds0, %fs0, -, HS0⟩, ⟨%ds1, %fs1, -, HS1⟩, Hk⟩
    obtain rfl := harg1.eq_unread hf0
    sl_exec (disch := first | exact hc0 | exact hc1)
    sl_step
    iapply Hk
    iframe H1 H2
    isplitl [H0]
    · iexists _; isplitr; · ipureintro; exact harg1.read_unread _
      iexact H0
    isplitl [HS0]; · iexists _; iexact HS0
    iexists _; iexact HS1

set_option maxHeartbeats 1000000 in
/-- The same at a middle point, the accumulators coming in at given contents. -/
def kernelRun1_B (hc0 : ¬cond1_0 i) (hc1 : ¬cond1_1 i) (x0 : Vec F S20000x32 .f32) (xs0 xs1 : Vec F S1x32 .f32) :
    Σ' (LS0 : List (View.Piece (Elt F) S1x32 .f32)), { LS1 : List (View.Piece (Elt F) S1x32 .f32) //
      ∀ (xi1 xi2 : Vec F S1x32 .f32) (E : Set ℕ) (K : PUnit → sProp 𝕄),
        iprop(owns c arg1 fullShare x0 ∗ owns c arg2 fullShare xi1 ∗ owns c arg3 fullShare xi2
            ∗ owns c arg4 fullShare xs0 ∗ owns c arg5 fullShare xs1
            ∗ (iprop(owns c arg1 fullShare x0 ∗ owns c arg2 fullShare xi1 ∗ owns c arg3 fullShare xi2
                ∗ (∃ f, arg4.view.loc c ↦[arg4.view.set]{fullShare} arg4.view.writes (Elt F) f LS0)
                ∗ (∃ f, arg5.view.loc c ↦[arg5.view.set]{fullShare} arg5.view.writes (Elt F) f LS1)) -∗ K ⟨⟩))
          ⊢ wp frame (wpE (defs₀ (F := F)) Variants.none c none) E (cc1__bn_stats_kernel i arg1 harg1 arg2 harg2 arg3 harg3 arg4 harg4 arg5 harg5) K } := by
  refine ⟨?_, ?_, fun xi1 xi2 E K => ?run⟩
  case run =>
    simp only [cc1__bn_stats_kernel_eq_skeleton]; unfold cc1__bn_stats_kernel_skel
    unfold owns
    iintro ⟨⟨%f0, %hf0, H0⟩, H1, H2, ⟨%fs0, %hfs0, HS0⟩, ⟨%fs1, %hfs1, HS1⟩, Hk⟩
    obtain rfl := harg1.eq_unread hf0; obtain rfl := harg4.eq_unread hfs0; obtain rfl := harg5.eq_unread hfs1
    sl_exec (disch := first | exact hc0 | exact hc1)
    sl_step
    iapply Hk
    iframe H1 H2
    isplitl [H0]
    · iexists _; isplitr; · ipureintro; exact harg1.read_unread _
      iexact H0
    isplitl [HS0]; · iexists _; iexact HS0
    iexists _; iexact HS1

set_option maxHeartbeats 1000000 in
/-- The same at the last point, where the two outputs are stored too. -/
def kernelRun1_C (hc0 : ¬cond1_0 i) (hc1 : cond1_1 i) (x0 : Vec F S20000x32 .f32) (xs0 xs1 : Vec F S1x32 .f32) :
    Σ' (L1 : List (View.Piece (Elt F) S1x32 .f32)) (L2 : List (View.Piece (Elt F) S1x32 .f32)) (LS0 : List (View.Piece (Elt F) S1x32 .f32)), { LS1 : List (View.Piece (Elt F) S1x32 .f32) //
      ∀ (E : Set ℕ) (K : PUnit → sProp 𝕄),
        iprop(owns c arg1 fullShare x0 ∗ (∃ d, owns c arg2 fullShare d) ∗ (∃ d, owns c arg3 fullShare d)
            ∗ owns c arg4 fullShare xs0 ∗ owns c arg5 fullShare xs1
            ∗ (iprop(owns c arg1 fullShare x0
                ∗ (∃ f, arg2.view.loc c ↦[arg2.view.set]{fullShare} arg2.view.writes (Elt F) f L1)
                ∗ (∃ f, arg3.view.loc c ↦[arg3.view.set]{fullShare} arg3.view.writes (Elt F) f L2)
                ∗ (∃ f, arg4.view.loc c ↦[arg4.view.set]{fullShare} arg4.view.writes (Elt F) f LS0)
                ∗ (∃ f, arg5.view.loc c ↦[arg5.view.set]{fullShare} arg5.view.writes (Elt F) f LS1)) -∗ K ⟨⟩))
          ⊢ wp frame (wpE (defs₀ (F := F)) Variants.none c none) E (cc1__bn_stats_kernel i arg1 harg1 arg2 harg2 arg3 harg3 arg4 harg4 arg5 harg5) K } := by
  refine ⟨?_, ?_, ?_, ?_, fun E K => ?run⟩
  case run =>
    simp only [cc1__bn_stats_kernel_eq_skeleton]; unfold cc1__bn_stats_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg1.eq_unread hf0; obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]; · iexists _; iexact H1
    isplitl [H2]; · iexists _; iexact H2
    isplitl [HS0]; · iexists _; iexact HS0
    iexists _; iexact HS1

end Cert.Kernel.Hand

end
-- ==== Proof.BReg1.lean ====
import proofs.«419458_j79517024518684_2_alg».proof.Proof.BReg1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

section
variable (c : Dev nD) (i : grid1.Coords) (arg1 : Memref sig .tc .vmem S20000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S1x32 .f32) (harg5 : arg5.IsWhole)

section
variable (hc0 : cond1_0 i) (hc1 : ¬cond1_1 i) (x0 : Vec F S20000x32 .f32)
/-- The pieces a case stores tile the shape, so every index lies in one of them. -/
theorem scover1_A_0 (y : S1x32.Idx) : ∃ pc ∈ (kernelRun1_A c i arg1 harg1 arg2 harg2 arg3 harg3 arg4 harg4 arg5 harg5 hc0 hc1 x0).1, y ∈ pc.1.set :=
  View.cover_of_tiledL _ S1x32.size (by sl_kernel_rfl) y
def sout1_A_0 : Vec F S1x32 .f32 := VS1_0.read (Elt F) (VS1_0.writes (Elt F) VS1_0.junk (kernelRun1_A c i arg1 harg1 arg2 harg2 arg3 harg3 arg4 harg4 arg5 harg5 hc0 hc1 x0).1)
theorem scover1_A_1 (y : S1x32.Idx) : ∃ pc ∈ (kernelRun1_A c i arg1 harg1 arg2 harg2 arg3 harg3 arg4 harg4 arg5 harg5 hc0 hc1 x0).2.1, y ∈ pc.1.set :=
  View.cover_of_tiledL _ S1x32.size (by sl_kernel_rfl) y
def sout1_A_1 : Vec F S1x32 .f32 := VS1_1.read (Elt F) (VS1_1.writes (Elt F) VS1_1.junk (kernelRun1_A c i arg1 harg1 arg2 harg2 arg3 harg3 arg4 harg4 arg5 harg5 hc0 hc1 x0).2.1)
end

section
variable (hc0 : ¬cond1_0 i) (hc1 : ¬cond1_1 i) (x0 : Vec F S20000x32 .f32) (xs0 xs1 : Vec F S1x32 .f32)
theorem scover1_B_0 (y : S1x32.Idx) : ∃ pc ∈ (kernelRun1_B c i arg1 harg1 arg2 harg2 arg3 harg3 arg4 harg4 arg5 harg5 hc0 hc1 x0 xs0 xs1).1, y ∈ pc.1.set :=
  View.cover_of_tiledL _ S1x32.size (by sl_kernel_rfl) y
def sout1_B_0 : Vec F S1x32 .f32 := VS1_0.read (Elt F) (VS1_0.writes (Elt F) VS1_0.junk (kernelRun1_B c i arg1 harg1 arg2 harg2 arg3 harg3 arg4 harg4 arg5 harg5 hc0 hc1 x0 xs0 xs1).1)
theorem scover1_B_1 (y : S1x32.Idx) : ∃ pc ∈ (kernelRun1_B c i arg1 harg1 arg2 harg2 arg3 harg3 arg4 harg4 arg5 harg5 hc0 hc1 x0 xs0 xs1).2.1, y ∈ pc.1.set :=
  View.cover_of_tiledL _ S1x32.size (by sl_kernel_rfl) y
def sout1_B_1 : Vec F S1x32 .f32 := VS1_1.read (Elt F) (VS1_1.writes (Elt F) VS1_1.junk (kernelRun1_B c i arg1 harg1 arg2 harg2 arg3 harg3 arg4 harg4 arg5 harg5 hc0 hc1 x0 xs0 xs1).2.1)
end

section
variable (hc0 : ¬cond1_0 i) (hc1 : cond1_1 i) (x0 : Vec F S20000x32 .f32) (xs0 xs1 : Vec F S1x32 .f32)
theorem cover1_C_1 (y : S1x32.Idx) : ∃ pc ∈ (kernelRun1_C c i arg1 harg1 arg2 harg2 arg3 harg3 arg4 harg4 arg5 harg5 hc0 hc1 x0 xs0 xs1).1, y ∈ pc.1.set :=
  View.cover_of_tiledL _ S1x32.size (by sl_kernel_rfl) y
def out1_C_1 : Vec F S1x32 .f32 := VO1_1.read (Elt F) (VO1_1.writes (Elt F) VO1_1.junk (kernelRun1_C c i arg1 harg1 arg2 harg2 arg3 harg3 arg4 harg4 arg5 harg5 hc0 hc1 x0 xs0 xs1).1)
theorem cover1_C_2 (y : S1x32.Idx) : ∃ pc ∈ (kernelRun1_C c i arg1 harg1 arg2 harg2 arg3 harg3 arg4 harg4 arg5 harg5 hc0 hc1 x0 xs0 xs1).2.1, y ∈ pc.1.set :=
  View.cover_of_tiledL _ S1x32.size (by sl_kernel_rfl) y
def out1_C_2 : Vec F S1x32 .f32 := VO1_2.read (Elt F) (VO1_2.writes (Elt F) VO1_2.junk (kernelRun1_C c i arg1 harg1 arg2 harg2 arg3 harg3 arg4 harg4 arg5 harg5 hc0 hc1 x0 xs0 xs1).2.1)
theorem scover1_C_0 (y : S1x32.Idx) : ∃ pc ∈ (kernelRun1_C c i arg1 harg1 arg2 harg2 arg3 harg3 arg4 harg4 arg5 harg5 hc0 hc1 x0 xs0 xs1).2.2.1, y ∈ pc.1.set :=
  View.cover_of_tiledL _ S1x32.size (by sl_kernel_rfl) y
def sout1_C_0 : Vec F S1x32 .f32 := VS1_0.read (Elt F) (VS1_0.writes (Elt F) VS1_0.junk (kernelRun1_C c i arg1 harg1 arg2 harg2 arg3 harg3 arg4 harg4 arg5 harg5 hc0 hc1 x0 xs0 xs1).2.2.1)
theorem scover1_C_1 (y : S1x32.Idx) : ∃ pc ∈ (kernelRun1_C c i arg1 harg1 arg2 harg2 arg3 harg3 arg4 harg4 arg5 harg5 hc0 hc1 x0 xs0 xs1).2.2.2.1, y ∈ pc.1.set :=
  View.cover_of_tiledL _ S1x32.size (by sl_kernel_rfl) y
def sout1_C_1 : Vec F S1x32 .f32 := VS1_1.read (Elt F) (VS1_1.writes (Elt F) VS1_1.junk (kernelRun1_C c i arg1 harg1 arg2 harg2 arg3 harg3 arg4 harg4 arg5 harg5 hc0 hc1 x0 xs0 xs1).2.2.2.1)
end

end

def idle1_1 : Vec F S1x32 .f32 := VO1_1.read (Elt F) VO1_1.junk
def idle1_2 : Vec F S1x32 .f32 := VO1_2.read (Elt F) VO1_2.junk

/-- Pieces read back through a view, over arbitrary earlier contents. -/
def out1_read (v : View sig .tc .vmem S1x32 .f32) (L : List (View.Piece (Elt F) S1x32 .f32)) : Vec F S1x32 .f32 :=
  v.read (Elt F) (v.writes (Elt F) v.junk L)

/-- Outputs and accumulators after point `n`: the point's case on its tile and on the accumulators the point before left. -/
def outsAt1 (c : Dev nD) : (n : ℕ) → n < cfg1.N → Vec F S1x32 .f32 × Vec F S1x32 .f32 × Vec F S1x32 .f32 × Vec F S1x32 .f32
  | 0, hn =>
    let t : Fin cfg1.N := ⟨0, hn⟩
    let r := kernelRun1_A c (grid1.coords t) (ms1_0 t) (hs1_0 t) (ms1_1 t) (hs1_1 t) (ms1_2 t) (hs1_2 t) scM1_0 (Memref.isWhole_whole _) scM1_1 (Memref.isWhole_whole _) ((hcond1_0 t).mpr rfl) (mt (hcond1_1 t).mp (by decide : 0 ≠ 19)) (iblk1 V c 0 t)
    (idle1_1, idle1_2, out1_read VS1_0 r.1, out1_read VS1_1 r.2.1)
  | n + 1, hn =>
    let t : Fin cfg1.N := ⟨n + 1, hn⟩
    let p := outsAt1 c n (Nat.lt_of_succ_lt hn)
    have h0 : ¬cond1_0 (grid1.coords t) := mt (hcond1_0 t).mp (Nat.succ_ne_zero n)
    if h1 : n + 1 = 19 then
      let r := kernelRun1_C c (grid1.coords t) (ms1_0 t) (hs1_0 t) (ms1_1 t) (hs1_1 t) (ms1_2 t) (hs1_2 t) scM1_0 (Memref.isWhole_whole _) scM1_1 (Memref.isWhole_whole _) h0 ((hcond1_1 t).mpr h1) (iblk1 V c 0 t) p.2.2.1 p.2.2.2
      (out1_read VO1_1 r.1, out1_read VO1_2 r.2.1, out1_read VS1_0 r.2.2.1, out1_read VS1_1 r.2.2.2.1)
    else
      let r := kernelRun1_B c (grid1.coords t) (ms1_0 t) (hs1_0 t) (ms1_1 t) (hs1_1 t) (ms1_2 t) (hs1_2 t) scM1_0 (Memref.isWhole_whole _) scM1_1 (Memref.isWhole_whole _) h0 (mt (hcond1_1 t).mp h1) (iblk1 V c 0 t) p.2.2.1 p.2.2.2
      (idle1_1, idle1_2, out1_read VS1_0 r.1, out1_read VS1_1 r.2.1)

theorem before1_lt (t : Fin cfg1.N) : t.val - 1 < cfg1.N := Nat.lt_of_le_of_lt (Nat.sub_le _ _) t.isLt

theorem outsAt1_A (c : Dev nD) (t : Fin cfg1.N) (h0 : t.val = 0) :
    outsAt1 V c t.val t.isLt = (idle1_1, idle1_2, sout1_A_0 c (grid1.coords t) (ms1_0 t) (hs1_0 t) (ms1_1 t) (hs1_1 t) (ms1_2 t) (hs1_2 t) scM1_0 (Memref.isWhole_whole _) scM1_1 (Memref.isWhole_whole _) ((hcond1_0 t).mpr h0) (mt (hcond1_1 t).mp (by omega)) (iblk1 V c 0 t), sout1_A_1 c (grid1.coords t) (ms1_0 t) (hs1_0 t) (ms1_1 t) (hs1_1 t) (ms1_2 t) (hs1_2 t) scM1_0 (Memref.isWhole_whole _) scM1_1 (Memref.isWhole_whole _) ((hcond1_0 t).mpr h0) (mt (hcond1_1 t).mp (by omega)) (iblk1 V c 0 t)) := by
  obtain ⟨_ | n, hn⟩ := t
  exacts [rfl, absurd h0 (Nat.succ_ne_zero n)]

theorem outsAt1_B (c : Dev nD) (t : Fin cfg1.N) (h0 : ¬t.val = 0) (h1 : ¬t.val = 19) :
    outsAt1 V c t.val t.isLt = (idle1_1, idle1_2, sout1_B_0 c (grid1.coords t) (ms1_0 t) (hs1_0 t) (ms1_1 t) (hs1_1 t) (ms1_2 t) (hs1_2 t) scM1_0 (Memref.isWhole_whole _) scM1_1 (Memref.isWhole_whole _) (mt (hcond1_0 t).mp h0) (mt (hcond1_1 t).mp h1) (iblk1 V c 0 t) (outsAt1 V c (t.val - 1) (before1_lt t)).2.2.1 (outsAt1 V c (t.val - 1) (before1_lt t)).2.2.2, sout1_B_1 c (grid1.coords t) (ms1_0 t) (hs1_0 t) (ms1_1 t) (hs1_1 t) (ms1_2 t) (hs1_2 t) scM1_0 (Memref.isWhole_whole _) scM1_1 (Memref.isWhole_whole _) (mt (hcond1_0 t).mp h0) (mt (hcond1_1 t).mp h1) (iblk1 V c 0 t) (outsAt1 V c (t.val - 1) (before1_lt t)).2.2.1 (outsAt1 V c (t.val - 1) (before1_lt t)).2.2.2) := by
  obtain ⟨_ | n, hn⟩ := t
  exacts [absurd rfl h0, (dif_neg h1).trans rfl]

theorem outsAt1_C (c : Dev nD) (t : Fin cfg1.N) (h0 : ¬t.val = 0) (h1 : t.val = 19) :
    outsAt1 V c t.val t.isLt = (out1_C_1 c (grid1.coords t) (ms1_0 t) (hs1_0 t) (ms1_1 t) (hs1_1 t) (ms1_2 t) (hs1_2 t) scM1_0 (Memref.isWhole_whole _) scM1_1 (Memref.isWhole_whole _) (mt (hcond1_0 t).mp h0) ((hcond1_1 t).mpr h1) (iblk1 V c 0 t) (outsAt1 V c (t.val - 1) (before1_lt t)).2.2.1 (outsAt1 V c (t.val - 1) (before1_lt t)).2.2.2, out1_C_2 c (grid1.coords t) (ms1_0 t) (hs1_0 t) (ms1_1 t) (hs1_1 t) (ms1_2 t) (hs1_2 t) scM1_0 (Memref.isWhole_whole _) scM1_1 (Memref.isWhole_whole _) (mt (hcond1_0 t).mp h0) ((hcond1_1 t).mpr h1) (iblk1 V c 0 t) (outsAt1 V c (t.val - 1) (before1_lt t)).2.2.1 (outsAt1 V c (t.val - 1) (before1_lt t)).2.2.2, sout1_C_0 c (grid1.coords t) (ms1_0 t) (hs1_0 t) (ms1_1 t) (hs1_1 t) (ms1_2 t) (hs1_2 t) scM1_0 (Memref.isWhole_whole _) scM1_1 (Memref.isWhole_whole _) (mt (hcond1_0 t).mp h0) ((hcond1_1 t).mpr h1) (iblk1 V c 0 t) (outsAt1 V c (t.val - 1) (before1_lt t)).2.2.1 (outsAt1 V c (t.val - 1) (before1_lt t)).2.2.2, sout1_C_1 c (grid1.coords t) (ms1_0 t) (hs1_0 t) (ms1_1 t) (hs1_1 t) (ms1_2 t) (hs1_2 t) scM1_0 (Memref.isWhole_whole _) scM1_1 (Memref.isWhole_whole _) (mt (hcond1_0 t).mp h0) ((hcond1_1 t).mpr h1) (iblk1 V c 0 t) (outsAt1 V c (t.val - 1) (before1_lt t)).2.2.1 (outsAt1 V c (t.val - 1) (before1_lt t)).2.2.2) := by
  obtain ⟨_ | n, hn⟩ := t
  exacts [absurd rfl h0, (dif_pos h1).trans rfl]

/-- The loop invariant: the entry invariant before the first point, afterwards the same with the accumulators at what the point before left. -/
def PhiS1 (c : Dev nD) (n : ℕ) (h : n ≤ cfg1.N) : sProp 𝕄 :=
  if hz : n = 0 then Pipeline.ΦA spec1 c else
    iprop(iprop(iprop(owns c scM1_0 fullShare (outsAt1 V c (n - 1) (by omega)).2.2.1 ∗ owns c scM1_1 fullShare (outsAt1 V c (n - 1) (by omega)).2.2.2) ∗ rest1 c) ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt).1
    | ⟨2, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := rfl

theorem after1_0 (c : Dev nD) (t : Fin cfg1.N) : (dat1 V c).after 0 t = iblk1 V c 0 t := rfl
theorem after1_1 (c : Dev nD) (t : Fin cfg1.N) : (dat1 V c).after 1 t = (outsAt1 V c t.val t.isLt).1 := rfl
theorem after1_2 (c : Dev nD) (t : Fin cfg1.N) : (dat1 V c).after 2 t = (outsAt1 V c t.val t.isLt).2.1 := rfl

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns c (ms1_0 t) fullShare ((dat1 V c).before 0 t d))
    ∗ (∃ d, owns c (ms1_1 t) fullShare ((dat1 V c).before 1 t d))
    ∗ (∃ d, owns c (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

/-- Pieces that cover the shape fix every element, so what is read back depends neither on the view nor on the earlier contents. -/
theorem cover1_owns {c : Dev nD} {M : Memref sig .tc .vmem S1x32 .f32} (v : View sig .tc .vmem S1x32 .f32) {L : List (View.Piece (Elt F) S1x32 .f32)}
    (h : ∀ y, ∃ pc ∈ L, y ∈ pc.1.set) :
    (∃ f, M.view.loc c ↦[M.view.set]{fullShare} M.view.writes (Elt F) f L : sProp 𝕄)
      ⊢ owns c M fullShare (v.read (Elt F) (v.writes (Elt F) v.junk L)) := by
  unfold owns; iintro ⟨%f, H⟩; iexists M.view.writes (Elt F) f L; isplitr
  · ipureintro; exact View.read_writes_of_cover _ _ _ _ _ h
  iexact H

/- At every point the case's run takes the tile and the carried accumulators and leaves what `outsAt1` says; its stores cover what they fill. -/
set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl,
    show (dat1 V c).Φ t.succ = PhiS1 V c (t.val + 1) t.isLt from rfl, PhiS1, dif_neg (Nat.add_one_ne_zero _),
    show (dat1 V c).leavesExact 0 t = owns c (ms1_0 t) fullShare ((dat1 V c).after 0 t) from by
      unfold Dat.leavesExact; rw [liveAt1_0 t], after1_0,
    show (dat1 V c).Φ t.castSucc = PhiS1 V c t.val (Nat.le_of_lt t.isLt) from rfl, PhiS1]
  simp only [Nat.add_sub_cancel]
  by_cases h1 : t.val = 19
  · have h0 : ¬t.val = 0 := by omega
    have hc1 : cond1_1 (grid1.coords t) := (hcond1_1 t).mpr h1
    rw [dif_neg h0, show (dat1 V c).leavesExact 1 t = owns c (ms1_1 t) fullShare ((dat1 V c).after 1 t) from by
        unfold Dat.leavesExact; rw [liveAt1_1 t hc1], after1_1,
      show (dat1 V c).leavesExact 2 t = owns c (ms1_2 t) fullShare ((dat1 V c).after 2 t) from by
        unfold Dat.leavesExact; rw [liveAt1_2 t hc1], after1_2, outsAt1_C V c t h0 h1]
    unfold out1_C_1 out1_C_2 sout1_C_0 sout1_C_1; (try dsimp only)
    iintro ⟨⟨⟨⟨HS0, HS1⟩, Hr⟩, Hg⟩, Ho, ⟨%d0, H0⟩, ⟨%d1, H1⟩, ⟨%d2, H2⟩⟩
    iapply ((kernelRun1_C c (grid1.coords t) _ _ _ _ _ _ _ _ _ _ (mt (hcond1_0 t).mp h0) hc1 (iblk1 V c 0 t) _ _).2.2.2.2 Set.univ _)
    iframe H0 HS0 HS1
    isplitl [H1]; · iexists _; iexact H1
    isplitl [H2]; · iexists _; iexact H2
    iintro ⟨H0, H1, H2, HS0, HS1⟩
    iframe Hr Hg Ho H0
    isplitl [HS0 HS1]
    · isplitl [HS0]
      · iapply cover1_owns _ (fun _ => scover1_C_0 ..); iexact HS0
      iapply cover1_owns _ (fun _ => scover1_C_1 ..); iexact HS1
    isplitl [H1]
    · iapply cover1_owns _ (fun _ => cover1_C_1 ..); iexact H1
    iapply cover1_owns _ (fun _ => cover1_C_2 ..); iexact H2
  have hc1 : ¬cond1_1 (grid1.coords t) := mt (hcond1_1 t).mp h1
  rw [Dat.leavesExact_idle _ 1 t (idleAt1_1 t hc1) (noFlush1_1 t hc1), Dat.leavesExact_idle _ 2 t (idleAt1_2 t hc1) (noFlush1_2 t hc1)]
  by_cases h0 : t.val = 0
  · rw [dif_pos h0, PhiA1_eq, outsAt1_A V c t h0]
    unfold sout1_A_0 sout1_A_1; (try dsimp only)
    iintro ⟨⟨⟨⟨HS0, HS1⟩, Hr⟩, Hg⟩, Ho, ⟨%d0, H0⟩, ⟨%d1, H1⟩, ⟨%d2, H2⟩⟩
    iapply ((kernelRun1_A c (grid1.coords t) _ _ _ _ _ _ _ _ _ _ ((hcond1_0 t).mpr h0) hc1 (iblk1 V c 0 t)).2.2 _ _ Set.univ _)
    iframe H0 H1 H2 HS0 HS1
    iintro ⟨H0, H1, H2, HS0, HS1⟩
    iframe Hr Hg Ho H0
    isplitl [HS0 HS1]
    · isplitl [HS0]
      · iapply cover1_owns _ (fun _ => scover1_A_0 ..); iexact HS0
      iapply cover1_owns _ (fun _ => scover1_A_1 ..); iexact HS1
    isplitl [H1]; · iexists _; iexact H1
    iexists _; iexact H2
  rw [dif_neg h0, outsAt1_B V c t h0 h1]
  unfold sout1_B_0 sout1_B_1; (try dsimp only)
  iintro ⟨⟨⟨⟨HS0, HS1⟩, Hr⟩, Hg⟩, Ho, ⟨%d0, H0⟩, ⟨%d1, H1⟩, ⟨%d2, H2⟩⟩
  iapply ((kernelRun1_B c (grid1.coords t) _ _ _ _ _ _ _ _ _ _ (mt (hcond1_0 t).mp h0) hc1 (iblk1 V c 0 t) _ _).2.2 _ _ Set.univ _)
  iframe H0 H1 H2 HS0 HS1
  iintro ⟨H0, H1, H2, HS0, HS1⟩
  iframe Hr Hg Ho H0
  isplitl [HS0 HS1]
  · isplitl [HS0]
    · iapply cover1_owns _ (fun _ => scover1_B_0 ..); iexact HS0
    iapply cover1_owns _ (fun _ => scover1_B_1 ..); iexact HS1
  isplitl [H1]; · iexists _; iexact H1
  iexists _; iexact H2

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1, dif_pos rfl]

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1, dif_neg ht, PhiA1_eq]
  iintro ⟨⟨⟨HS0, HS1⟩, Hr⟩, Hg⟩
  iframe Hr Hg
  isplitl [HS0]; · iexists _; iexact HS0
  iexists _; iexact HS1

theorem hout1 (c : Dev nD) : (dat1 V c).Φ (Fin.last cfg1.N) ⊢ Pipeline.ΦA spec1 c :=
  Phi_out1 V c _ (by rw [Fin.val_last]; have : cfg1.N = 20 := N_1; omega)

end Cert.Kernel.Hand

end
-- ==== Proof.BReg2.lean ====
import proofs.«419458_j79517024518684_2_alg».proof.Proof.Gen.Kernel.Launch
import proofs.«419458_j79517024518684_2_alg».proof.Proof.Gen.Kernel.Skeleton
import proofs.«419458_j79517024518684_2_alg».proof.Proof.Gen.Kernel.Points
import Idealize.ShloMosaic.Lib.Pipeline.FrameBody
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_t : Rect S20000x32 := Rect.unit (s := S20000x32) ![0, 0] S20000x32.size inb_S20000x32_S20000x32_0_0
abbrev r2_r : Rect S1x32 := Rect.unit (s := S1x32) ![0, 0] S1x32.size inb_S1x32_S1x32_0_0

def out2_5 (x0 : Vec F S20000x32 .f32) (x1 x2 x3 x4 : Vec F S1x32 .f32) : Vec F S20000x32 .f32 :=
  View.canon [⟨r2_t, k2_pay1 (View.ld x0 r2_t) (View.ld x1 r2_r) (View.ld x2 r2_r) (View.ld x3 r2_r) (View.ld x4 r2_r)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := rfl

theorem after2_5 (c : Dev nD) (t : Fin cfg2.N) : (dat2 V c).after 5 t = out2_5 ((dat2 V c).after 0 t) ((dat2 V c).after 1 t) ((dat2 V c).after 2 t) ((dat2 V c).after 3 t) ((dat2 V c).after 4 t) := by dsimp only [dat2]

-- The body writes none of its five inputs.
theorem before2 (c : Dev nD) (t : Fin cfg2.N) : ∀ w : Fin cfg2.W, (cfg2.win w).isOut = false → ∀ d, (dat2 V c).before w t d = (dat2 V c).after w t
  | 0, h | 1, h | 2, h | 3, h | 4, h => (dat2 V c).before_in_eq_fetched _ h (fun _ => rfl) (fun _ _ _ => rfl) (fun _ => rfl) t
  | 5, h => nomatch h

-- At every point the body loads its five inputs, which hold their blocks, and stores the mapped tile over the whole output tile.
theorem body_obligation2 (c : Dev nD) : BodyObligation (dat2 (F := F) V c) (defs₀ (F := F)) Variants.none () Set.univ := fun t => by
  rw [bigSep_W2, bigSep_W2]
  show _ ⊢ wp frame _ _ (bodyAt2 t) _
  have hb := before2 V c t
  simp only [hb 0 rfl, hb 1 rfl, hb 2 rfl, hb 3 rfl, hb 4 rfl, show ∀ w i, cfg2.idle w i = false from fun _ _ => rfl]
  rw [show (dat2 V c).Φ t.succ = (dat2 V c).Φ t.castSucc from rfl, show (dat2 V c).owesAt () t.succ = (dat2 V c).owesAt () t.castSucc from rfl]
  unfold bodyAt2
  simp only [cc2_kernel_eq_skeleton]; unfold cc2_kernel_skel owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩⟩
  sl_exec
  sl_step
  iframe HΦ Ho
  isplitl [H0]; · iexists f0; iframe H0; ipureintro; exact hf0
  isplitl [H1]; · iexists f1; iframe H1; ipureintro; exact hf1
  isplitl [H2]; · iexists f2; iframe H2; ipureintro; exact hf2
  isplitl [H3]; · iexists f3; iframe H3; ipureintro; exact hf3
  isplitl [H4]; · iexists f4; iframe H4; ipureintro; exact hf4
  iexists _; iframe H5; ipureintro
  rw [after2_5, ← hf0, ← hf1, ← hf2, ← hf3, ← hf4]
  exact View.read_writes_eq_canon _ _ _ (View.cover_of_tiled _ S20000x32.size (by rfl))

end Cert.Kernel.Hand

end
-- ==== Proof.BReg3.lean ====
import proofs.«419458_j79517024518684_2_alg».proof.Proof.Gen.Kernel.Launch
import proofs.«419458_j79517024518684_2_alg».proof.Proof.Gen.Kernel.Skeleton
import proofs.«419458_j79517024518684_2_alg».proof.Proof.Gen.Kernel.Points
import Idealize.ShloMosaic.Lib.Pipeline.FrameBody
import Idealize.ShloMosaic.Lib.Tactic

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def out3_2 (x0 : Vec F S20000x32 .f32) (x1 : Vec F S32x32 .f32) : Vec F S20000x32 .f32 :=
  View.canon [⟨Rect.unit (s := S20000x32) ![0, 0] S20000x32.size inb_S20000x32_S20000x32_0_0,
    k3_pay1 (View.ld x0 (Rect.unit (s := S20000x32) ![0, 0] S20000x32.size inb_S20000x32_S20000x32_0_0))
      (View.ld x1 (Rect.unit (s := S32x32) ![0, 0] S32x32.size inb_S32x32_S32x32_0_0))⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := rfl

theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d

-- the body leaves the product of the two input blocks in the output tile and keeps everything else as it was
theorem sound_kernel3 (c : Dev nD) {i : grid3.Coords} {arg1 : Memref sig .tc .vmem S20000x32 .f32} {harg1 : arg1.IsWhole}
    {arg2 : Memref sig .tc .vmem S32x32 .f32} {harg2 : arg2.IsWhole} {arg3 : Memref sig .tc .vmem S20000x32 .f32} {harg3 : arg3.IsWhole}
    {x0 : Vec F S20000x32 .f32} {x1 : Vec F S32x32 .f32} {R S : sProp 𝕄} {D0 D1 D2 : Type} {b0 : D0 → Vec F S20000x32 .f32}
    {b1 : D1 → Vec F S32x32 .f32} {b2 : D2 → Vec F S20000x32 .f32} (h0 : ∀ d, b0 d = x0) (h1 : ∀ d, b1 d = x1) :
    iprop(R ∗ S ∗ (∃ d, owns c arg1 fullShare (b0 d)) ∗ (∃ d, owns c arg2 fullShare (b1 d)) ∗ ∃ d, owns c arg3 fullShare (b2 d))
      ⊢ wp frame (wpE (defs₀ (F := F)) Variants.none c none) Set.univ (cc3__linear_kernel i arg1 harg1 arg2 harg2 arg3 harg3) fun _ =>
        iprop(R ∗ S ∗ owns c arg1 fullShare x0 ∗ owns c arg2 fullShare x1 ∗ owns c arg3 fullShare (out3_2 x0 x1)) := by
  simp only [h0, h1, cc3__linear_kernel_eq_skeleton]; unfold cc3__linear_kernel_skel owns
  iintro ⟨HR, HS, ⟨%d0, %f0, %hf0, H0⟩, ⟨%d1, %f1, %hf1, H1⟩, ⟨%d2, %f2, -, H2⟩⟩
  subst hf0 hf1
  sl_exec
  sl_step
  iframe HR HS
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S20000x32.size (by rfl))

theorem body_obligation3 (c : Dev nD) : BodyObligation (dat3 (F := F) V c) (defs₀ (F := F)) Variants.none () Set.univ := fun t => by
  rw [bigSep_W3, bigSep_W3]
  dsimp only [dat3]
  exact (sound_kernel3 c (before3_0 V c t) (before3_1 V c t) : _ ⊢ wp _ _ _ (bodyAt3 t) _)

end Cert.Kernel.Hand

end
-- ==== Proof.BReg4Runs.lean ====
import proofs.«419458_j79517024518684_2_alg».proof.Proof.Gen.Kernel.Launch
import proofs.«419458_j79517024518684_2_alg».proof.Proof.Gen.Kernel.Skeleton
import proofs.«419458_j79517024518684_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI Idealize.SL.BI.BIBase Idealize.SL.ProofMode Idealize.SL.Sem

variable {F : FTy → Type} [FloatOps F]

local notation "𝕄" => MT nD τ sig Unit (Elt F) ℕ (UR sig nD τ) ℕ

abbrev cond4_0 (i : grid4.Coords) : Prop := (Scalar.cmpi .ne (Scalar.extui (Scalar.cmpi .eq (BitVec.ofNat 32 (i 0).val) 0#32)) 0#32) = 1#1

/-- On the 20-point grid the first test holds at point 0 only. -/
theorem hcond4_0 : ∀ t : Fin cfg4.N, cond4_0 (grid4.coords t) ↔ t.val = 0 := by decide +kernel

abbrev cond4_1 (i : grid4.Coords) : Prop := k4_cond2 i = 1#1

/-- The second test holds at point 19 only. -/
theorem hcond4_1 : ∀ t : Fin cfg4.N, cond4_1 (grid4.coords t) ↔ t.val = 19 := by decide +kernel

theorem liveAt4_0 : ∀ t : Fin cfg4.N, cfg4.idle 0 (grid4.coords t) = false := by decide +kernel

theorem idleAt4_1 : ∀ t : Fin cfg4.N, ¬cond4_1 (grid4.coords t) → cfg4.idle 1 (grid4.coords t) = true := by decide +kernel

theorem noFlush4_1 : ∀ t : Fin cfg4.N, ¬cond4_1 (grid4.coords t) → (cfg4.win 1).flush t = false := by decide +kernel

theorem liveAt4_1 : ∀ t : Fin cfg4.N, cond4_1 (grid4.coords t) → cfg4.idle 1 (grid4.coords t) = false := by decide +kernel

theorem idleAt4_2 : ∀ t : Fin cfg4.N, ¬cond4_1 (grid4.coords t) → cfg4.idle 2 (grid4.coords t) = true := by decide +kernel
theorem noFlush4_2 : ∀ t : Fin cfg4.N, ¬cond4_1 (grid4.coords t) → (cfg4.win 2).flush t = false := by decide +kernel
theorem liveAt4_2 : ∀ t : Fin cfg4.N, cond4_1 (grid4.coords t) → cfg4.idle 2 (grid4.coords t) = false := by decide +kernel

abbrev VO4_1 : View sig .tc .vmem S1x32 .f32 := (Memref.whole cc4_stg1_0 : Memref sig .tc .vmem S1x32 .f32).view
abbrev VO4_2 : View sig .tc .vmem S1x32 .f32 := (Memref.whole cc4_stg2_0 : Memref sig .tc .vmem S1x32 .f32).view

abbrev ms4_0 (t : Fin cfg4.N) : Memref sig .tc .vmem S20000x32 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x32 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x32 .f32 := win4_2.stage (cfg4.slots t 2)
abbrev hs4_2 (t : Fin cfg4.N) : (ms4_2 t).IsWhole := hstage4_2 ((cfg4.slots t 2).cast nbuf4_2)

abbrev scM4_0 : Memref sig .tc .vmem S1x32 .f32 := Memref.whole cc4_scratch0
abbrev scM4_1 : Memref sig .tc .vmem S1x32 .f32 := Memref.whole cc4_scratch1

abbrev VS4_0 : View sig .tc .vmem S1x32 .f32 := scM4_0.view
abbrev VS4_1 : View sig .tc .vmem S1x32 .f32 := scM4_1.view

abbrev rest4 (c : Dev nD) : sProp 𝕄 :=
  Pipeline.scopedRestBut (Ix := Unit) (Name := ℕ) (U := UR sig nD τ) (Lvl := ℕ) (Val := Elt F) spec4 c [cc4_scratch0, cc4_scratch1]

theorem PhiA4_eq (c : Dev nD) :
    (Pipeline.ΦA spec4 c : sProp 𝕄)
      = iprop(iprop(iprop((∃ d, owns c scM4_0 fullShare d) ∗ (∃ d, owns c scM4_1 fullShare d)) ∗ rest4 c) ∗ (∃ r, prngReg c r)) := by
  unfold Pipeline.ΦA; rw [scopedRest4_split]; simp only [scM4_0, scM4_1, owns_whole]; try rfl

variable (c : Dev nD) (i : grid4.Coords) (arg1 : Memref sig .tc .vmem S20000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S1x32 .f32) (harg5 : arg5.IsWhole)

set_option maxHeartbeats 1000000 in
/-- The body run whole at the first point: the accumulators end at the pieces the run stored into them. -/
def kernelRun4_A (hc0 : cond4_0 i) (hc1 : ¬cond4_1 i) (x0 : Vec F S20000x32 .f32) :
    Σ' (LS0 : List (View.Piece (Elt F) S1x32 .f32)), { LS1 : List (View.Piece (Elt F) S1x32 .f32) //
      ∀ (xi1 xi2 : Vec F S1x32 .f32) (E : Set ℕ) (K : PUnit → sProp 𝕄),
        iprop(owns c arg1 fullShare x0 ∗ owns c arg2 fullShare xi1 ∗ owns c arg3 fullShare xi2
            ∗ (∃ d, owns c arg4 fullShare d) ∗ (∃ d, owns c arg5 fullShare d)
            ∗ (iprop(owns c arg1 fullShare x0 ∗ owns c arg2 fullShare xi1 ∗ owns c arg3 fullShare xi2
                ∗ (∃ f, arg4.view.loc c ↦[arg4.view.set]{fullShare} arg4.view.writes (Elt F) f LS0)
                ∗ (∃ f, arg5.view.loc c ↦[arg5.view.set]{fullShare} arg5.view.writes (Elt F) f LS1)) -∗ K ⟨⟩))
          ⊢ wp frame (wpE (defs₀ (F := F)) Variants.none c none) E (cc4__bn_stats_kernel i arg1 harg1 arg2 harg2 arg3 harg3 arg4 harg4 arg5 harg5) K } := by
  refine ⟨?_, ?_, fun xi1 xi2 E K => ?run⟩
  case run =>
    simp only [cc4__bn_stats_kernel_eq_skeleton]; unfold cc4__bn_stats_kernel_skel
    unfold owns
    iintro ⟨⟨%f0, %hf0, H0⟩, H1, H2, ⟨%ds0, %fs0, -, HS0⟩, ⟨%ds1, %fs1, -, HS1⟩, Hk⟩
    obtain rfl := harg1.eq_unread hf0
    sl_exec (disch := first | exact hc0 | exact hc1)
    sl_step
    iapply Hk
    iframe H1 H2
    isplitl [H0]
    · iexists _; isplitr; · ipureintro; exact harg1.read_unread _
      iexact H0
    isplitl [HS0]; · iexists _; iexact HS0
    iexists _; iexact HS1

set_option maxHeartbeats 1000000 in
/-- The same at a middle point, the accumulators coming in at given contents. -/
def kernelRun4_B (hc0 : ¬cond4_0 i) (hc1 : ¬cond4_1 i) (x0 : Vec F S20000x32 .f32) (xs0 xs1 : Vec F S1x32 .f32) :
    Σ' (LS0 : List (View.Piece (Elt F) S1x32 .f32)), { LS1 : List (View.Piece (Elt F) S1x32 .f32) //
      ∀ (xi1 xi2 : Vec F S1x32 .f32) (E : Set ℕ) (K : PUnit → sProp 𝕄),
        iprop(owns c arg1 fullShare x0 ∗ owns c arg2 fullShare xi1 ∗ owns c arg3 fullShare xi2
            ∗ owns c arg4 fullShare xs0 ∗ owns c arg5 fullShare xs1
            ∗ (iprop(owns c arg1 fullShare x0 ∗ owns c arg2 fullShare xi1 ∗ owns c arg3 fullShare xi2
                ∗ (∃ f, arg4.view.loc c ↦[arg4.view.set]{fullShare} arg4.view.writes (Elt F) f LS0)
                ∗ (∃ f, arg5.view.loc c ↦[arg5.view.set]{fullShare} arg5.view.writes (Elt F) f LS1)) -∗ K ⟨⟩))
          ⊢ wp frame (wpE (defs₀ (F := F)) Variants.none c none) E (cc4__bn_stats_kernel i arg1 harg1 arg2 harg2 arg3 harg3 arg4 harg4 arg5 harg5) K } := by
  refine ⟨?_, ?_, fun xi1 xi2 E K => ?run⟩
  case run =>
    simp only [cc4__bn_stats_kernel_eq_skeleton]; unfold cc4__bn_stats_kernel_skel
    unfold owns
    iintro ⟨⟨%f0, %hf0, H0⟩, H1, H2, ⟨%fs0, %hfs0, HS0⟩, ⟨%fs1, %hfs1, HS1⟩, Hk⟩
    obtain rfl := harg1.eq_unread hf0; obtain rfl := harg4.eq_unread hfs0; obtain rfl := harg5.eq_unread hfs1
    sl_exec (disch := first | exact hc0 | exact hc1)
    sl_step
    iapply Hk
    iframe H1 H2
    isplitl [H0]
    · iexists _; isplitr; · ipureintro; exact harg1.read_unread _
      iexact H0
    isplitl [HS0]; · iexists _; iexact HS0
    iexists _; iexact HS1

set_option maxHeartbeats 1000000 in
/-- The same at the last point, where the two outputs are stored too. -/
def kernelRun4_C (hc0 : ¬cond4_0 i) (hc1 : cond4_1 i) (x0 : Vec F S20000x32 .f32) (xs0 xs1 : Vec F S1x32 .f32) :
    Σ' (L1 : List (View.Piece (Elt F) S1x32 .f32)) (L2 : List (View.Piece (Elt F) S1x32 .f32)) (LS0 : List (View.Piece (Elt F) S1x32 .f32)), { LS1 : List (View.Piece (Elt F) S1x32 .f32) //
      ∀ (E : Set ℕ) (K : PUnit → sProp 𝕄),
        iprop(owns c arg1 fullShare x0 ∗ (∃ d, owns c arg2 fullShare d) ∗ (∃ d, owns c arg3 fullShare d)
            ∗ owns c arg4 fullShare xs0 ∗ owns c arg5 fullShare xs1
            ∗ (iprop(owns c arg1 fullShare x0
                ∗ (∃ f, arg2.view.loc c ↦[arg2.view.set]{fullShare} arg2.view.writes (Elt F) f L1)
                ∗ (∃ f, arg3.view.loc c ↦[arg3.view.set]{fullShare} arg3.view.writes (Elt F) f L2)
                ∗ (∃ f, arg4.view.loc c ↦[arg4.view.set]{fullShare} arg4.view.writes (Elt F) f LS0)
                ∗ (∃ f, arg5.view.loc c ↦[arg5.view.set]{fullShare} arg5.view.writes (Elt F) f LS1)) -∗ K ⟨⟩))
          ⊢ wp frame (wpE (defs₀ (F := F)) Variants.none c none) E (cc4__bn_stats_kernel i arg1 harg1 arg2 harg2 arg3 harg3 arg4 harg4 arg5 harg5) K } := by
  refine ⟨?_, ?_, ?_, ?_, fun E K => ?run⟩
  case run =>
    simp only [cc4__bn_stats_kernel_eq_skeleton]; unfold cc4__bn_stats_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg1.eq_unread hf0; obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]; · iexists _; iexact H1
    isplitl [H2]; · iexists _; iexact H2
    isplitl [HS0]; · iexists _; iexact HS0
    iexists _; iexact HS1

end Cert.Kernel.Hand

end
-- ==== Proof.BReg4.lean ====
import proofs.«419458_j79517024518684_2_alg».proof.Proof.BReg4Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

section
variable (c : Dev nD) (i : grid4.Coords) (arg1 : Memref sig .tc .vmem S20000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S1x32 .f32) (harg5 : arg5.IsWhole)

section
variable (hc0 : cond4_0 i) (hc1 : ¬cond4_1 i) (x0 : Vec F S20000x32 .f32)
/-- The pieces a case stores tile the shape, so every index lies in one of them. -/
theorem scover4_A_0 (y : S1x32.Idx) : ∃ pc ∈ (kernelRun4_A c i arg1 harg1 arg2 harg2 arg3 harg3 arg4 harg4 arg5 harg5 hc0 hc1 x0).1, y ∈ pc.1.set :=
  View.cover_of_tiledL _ S1x32.size (by sl_kernel_rfl) y
def sout4_A_0 : Vec F S1x32 .f32 := VS4_0.read (Elt F) (VS4_0.writes (Elt F) VS4_0.junk (kernelRun4_A c i arg1 harg1 arg2 harg2 arg3 harg3 arg4 harg4 arg5 harg5 hc0 hc1 x0).1)
theorem scover4_A_1 (y : S1x32.Idx) : ∃ pc ∈ (kernelRun4_A c i arg1 harg1 arg2 harg2 arg3 harg3 arg4 harg4 arg5 harg5 hc0 hc1 x0).2.1, y ∈ pc.1.set :=
  View.cover_of_tiledL _ S1x32.size (by sl_kernel_rfl) y
def sout4_A_1 : Vec F S1x32 .f32 := VS4_1.read (Elt F) (VS4_1.writes (Elt F) VS4_1.junk (kernelRun4_A c i arg1 harg1 arg2 harg2 arg3 harg3 arg4 harg4 arg5 harg5 hc0 hc1 x0).2.1)
end

section
variable (hc0 : ¬cond4_0 i) (hc1 : ¬cond4_1 i) (x0 : Vec F S20000x32 .f32) (xs0 xs1 : Vec F S1x32 .f32)
theorem scover4_B_0 (y : S1x32.Idx) : ∃ pc ∈ (kernelRun4_B c i arg1 harg1 arg2 harg2 arg3 harg3 arg4 harg4 arg5 harg5 hc0 hc1 x0 xs0 xs1).1, y ∈ pc.1.set :=
  View.cover_of_tiledL _ S1x32.size (by sl_kernel_rfl) y
def sout4_B_0 : Vec F S1x32 .f32 := VS4_0.read (Elt F) (VS4_0.writes (Elt F) VS4_0.junk (kernelRun4_B c i arg1 harg1 arg2 harg2 arg3 harg3 arg4 harg4 arg5 harg5 hc0 hc1 x0 xs0 xs1).1)
theorem scover4_B_1 (y : S1x32.Idx) : ∃ pc ∈ (kernelRun4_B c i arg1 harg1 arg2 harg2 arg3 harg3 arg4 harg4 arg5 harg5 hc0 hc1 x0 xs0 xs1).2.1, y ∈ pc.1.set :=
  View.cover_of_tiledL _ S1x32.size (by sl_kernel_rfl) y
def sout4_B_1 : Vec F S1x32 .f32 := VS4_1.read (Elt F) (VS4_1.writes (Elt F) VS4_1.junk (kernelRun4_B c i arg1 harg1 arg2 harg2 arg3 harg3 arg4 harg4 arg5 harg5 hc0 hc1 x0 xs0 xs1).2.1)
end

section
variable (hc0 : ¬cond4_0 i) (hc1 : cond4_1 i) (x0 : Vec F S20000x32 .f32) (xs0 xs1 : Vec F S1x32 .f32)
theorem cover4_C_1 (y : S1x32.Idx) : ∃ pc ∈ (kernelRun4_C c i arg1 harg1 arg2 harg2 arg3 harg3 arg4 harg4 arg5 harg5 hc0 hc1 x0 xs0 xs1).1, y ∈ pc.1.set :=
  View.cover_of_tiledL _ S1x32.size (by sl_kernel_rfl) y
def out4_C_1 : Vec F S1x32 .f32 := VO4_1.read (Elt F) (VO4_1.writes (Elt F) VO4_1.junk (kernelRun4_C c i arg1 harg1 arg2 harg2 arg3 harg3 arg4 harg4 arg5 harg5 hc0 hc1 x0 xs0 xs1).1)
theorem cover4_C_2 (y : S1x32.Idx) : ∃ pc ∈ (kernelRun4_C c i arg1 harg1 arg2 harg2 arg3 harg3 arg4 harg4 arg5 harg5 hc0 hc1 x0 xs0 xs1).2.1, y ∈ pc.1.set :=
  View.cover_of_tiledL _ S1x32.size (by sl_kernel_rfl) y
def out4_C_2 : Vec F S1x32 .f32 := VO4_2.read (Elt F) (VO4_2.writes (Elt F) VO4_2.junk (kernelRun4_C c i arg1 harg1 arg2 harg2 arg3 harg3 arg4 harg4 arg5 harg5 hc0 hc1 x0 xs0 xs1).2.1)
theorem scover4_C_0 (y : S1x32.Idx) : ∃ pc ∈ (kernelRun4_C c i arg1 harg1 arg2 harg2 arg3 harg3 arg4 harg4 arg5 harg5 hc0 hc1 x0 xs0 xs1).2.2.1, y ∈ pc.1.set :=
  View.cover_of_tiledL _ S1x32.size (by sl_kernel_rfl) y
def sout4_C_0 : Vec F S1x32 .f32 := VS4_0.read (Elt F) (VS4_0.writes (Elt F) VS4_0.junk (kernelRun4_C c i arg1 harg1 arg2 harg2 arg3 harg3 arg4 harg4 arg5 harg5 hc0 hc1 x0 xs0 xs1).2.2.1)
theorem scover4_C_1 (y : S1x32.Idx) : ∃ pc ∈ (kernelRun4_C c i arg1 harg1 arg2 harg2 arg3 harg3 arg4 harg4 arg5 harg5 hc0 hc1 x0 xs0 xs1).2.2.2.1, y ∈ pc.1.set :=
  View.cover_of_tiledL _ S1x32.size (by sl_kernel_rfl) y
def sout4_C_1 : Vec F S1x32 .f32 := VS4_1.read (Elt F) (VS4_1.writes (Elt F) VS4_1.junk (kernelRun4_C c i arg1 harg1 arg2 harg2 arg3 harg3 arg4 harg4 arg5 harg5 hc0 hc1 x0 xs0 xs1).2.2.2.1)
end

end

def idle4_1 : Vec F S1x32 .f32 := VO4_1.read (Elt F) VO4_1.junk
def idle4_2 : Vec F S1x32 .f32 := VO4_2.read (Elt F) VO4_2.junk

/-- Pieces read back through a view, over arbitrary earlier contents. -/
def out4_read (v : View sig .tc .vmem S1x32 .f32) (L : List (View.Piece (Elt F) S1x32 .f32)) : Vec F S1x32 .f32 :=
  v.read (Elt F) (v.writes (Elt F) v.junk L)

/-- Outputs and accumulators after point `n`: the point's case on its tile and on the accumulators the point before left. -/
def outsAt4 (c : Dev nD) : (n : ℕ) → n < cfg4.N → Vec F S1x32 .f32 × Vec F S1x32 .f32 × Vec F S1x32 .f32 × Vec F S1x32 .f32
  | 0, hn =>
    let t : Fin cfg4.N := ⟨0, hn⟩
    let r := kernelRun4_A c (grid4.coords t) (ms4_0 t) (hs4_0 t) (ms4_1 t) (hs4_1 t) (ms4_2 t) (hs4_2 t) scM4_0 (Memref.isWhole_whole _) scM4_1 (Memref.isWhole_whole _) ((hcond4_0 t).mpr rfl) (mt (hcond4_1 t).mp (by decide : 0 ≠ 19)) (iblk4 V c 0 t)
    (idle4_1, idle4_2, out4_read VS4_0 r.1, out4_read VS4_1 r.2.1)
  | n + 1, hn =>
    let t : Fin cfg4.N := ⟨n + 1, hn⟩
    let p := outsAt4 c n (Nat.lt_of_succ_lt hn)
    have h0 : ¬cond4_0 (grid4.coords t) := mt (hcond4_0 t).mp (Nat.succ_ne_zero n)
    if h1 : n + 1 = 19 then
      let r := kernelRun4_C c (grid4.coords t) (ms4_0 t) (hs4_0 t) (ms4_1 t) (hs4_1 t) (ms4_2 t) (hs4_2 t) scM4_0 (Memref.isWhole_whole _) scM4_1 (Memref.isWhole_whole _) h0 ((hcond4_1 t).mpr h1) (iblk4 V c 0 t) p.2.2.1 p.2.2.2
      (out4_read VO4_1 r.1, out4_read VO4_2 r.2.1, out4_read VS4_0 r.2.2.1, out4_read VS4_1 r.2.2.2.1)
    else
      let r := kernelRun4_B c (grid4.coords t) (ms4_0 t) (hs4_0 t) (ms4_1 t) (hs4_1 t) (ms4_2 t) (hs4_2 t) scM4_0 (Memref.isWhole_whole _) scM4_1 (Memref.isWhole_whole _) h0 (mt (hcond4_1 t).mp h1) (iblk4 V c 0 t) p.2.2.1 p.2.2.2
      (idle4_1, idle4_2, out4_read VS4_0 r.1, out4_read VS4_1 r.2.1)

theorem before4_lt (t : Fin cfg4.N) : t.val - 1 < cfg4.N := Nat.lt_of_le_of_lt (Nat.sub_le _ _) t.isLt

theorem outsAt4_A (c : Dev nD) (t : Fin cfg4.N) (h0 : t.val = 0) :
    outsAt4 V c t.val t.isLt = (idle4_1, idle4_2, sout4_A_0 c (grid4.coords t) (ms4_0 t) (hs4_0 t) (ms4_1 t) (hs4_1 t) (ms4_2 t) (hs4_2 t) scM4_0 (Memref.isWhole_whole _) scM4_1 (Memref.isWhole_whole _) ((hcond4_0 t).mpr h0) (mt (hcond4_1 t).mp (by omega)) (iblk4 V c 0 t), sout4_A_1 c (grid4.coords t) (ms4_0 t) (hs4_0 t) (ms4_1 t) (hs4_1 t) (ms4_2 t) (hs4_2 t) scM4_0 (Memref.isWhole_whole _) scM4_1 (Memref.isWhole_whole _) ((hcond4_0 t).mpr h0) (mt (hcond4_1 t).mp (by omega)) (iblk4 V c 0 t)) := by
  obtain ⟨_ | n, hn⟩ := t
  exacts [rfl, absurd h0 (Nat.succ_ne_zero n)]

theorem outsAt4_B (c : Dev nD) (t : Fin cfg4.N) (h0 : ¬t.val = 0) (h1 : ¬t.val = 19) :
    outsAt4 V c t.val t.isLt = (idle4_1, idle4_2, sout4_B_0 c (grid4.coords t) (ms4_0 t) (hs4_0 t) (ms4_1 t) (hs4_1 t) (ms4_2 t) (hs4_2 t) scM4_0 (Memref.isWhole_whole _) scM4_1 (Memref.isWhole_whole _) (mt (hcond4_0 t).mp h0) (mt (hcond4_1 t).mp h1) (iblk4 V c 0 t) (outsAt4 V c (t.val - 1) (before4_lt t)).2.2.1 (outsAt4 V c (t.val - 1) (before4_lt t)).2.2.2, sout4_B_1 c (grid4.coords t) (ms4_0 t) (hs4_0 t) (ms4_1 t) (hs4_1 t) (ms4_2 t) (hs4_2 t) scM4_0 (Memref.isWhole_whole _) scM4_1 (Memref.isWhole_whole _) (mt (hcond4_0 t).mp h0) (mt (hcond4_1 t).mp h1) (iblk4 V c 0 t) (outsAt4 V c (t.val - 1) (before4_lt t)).2.2.1 (outsAt4 V c (t.val - 1) (before4_lt t)).2.2.2) := by
  obtain ⟨_ | n, hn⟩ := t
  exacts [absurd rfl h0, (dif_neg h1).trans rfl]

theorem outsAt4_C (c : Dev nD) (t : Fin cfg4.N) (h0 : ¬t.val = 0) (h1 : t.val = 19) :
    outsAt4 V c t.val t.isLt = (out4_C_1 c (grid4.coords t) (ms4_0 t) (hs4_0 t) (ms4_1 t) (hs4_1 t) (ms4_2 t) (hs4_2 t) scM4_0 (Memref.isWhole_whole _) scM4_1 (Memref.isWhole_whole _) (mt (hcond4_0 t).mp h0) ((hcond4_1 t).mpr h1) (iblk4 V c 0 t) (outsAt4 V c (t.val - 1) (before4_lt t)).2.2.1 (outsAt4 V c (t.val - 1) (before4_lt t)).2.2.2, out4_C_2 c (grid4.coords t) (ms4_0 t) (hs4_0 t) (ms4_1 t) (hs4_1 t) (ms4_2 t) (hs4_2 t) scM4_0 (Memref.isWhole_whole _) scM4_1 (Memref.isWhole_whole _) (mt (hcond4_0 t).mp h0) ((hcond4_1 t).mpr h1) (iblk4 V c 0 t) (outsAt4 V c (t.val - 1) (before4_lt t)).2.2.1 (outsAt4 V c (t.val - 1) (before4_lt t)).2.2.2, sout4_C_0 c (grid4.coords t) (ms4_0 t) (hs4_0 t) (ms4_1 t) (hs4_1 t) (ms4_2 t) (hs4_2 t) scM4_0 (Memref.isWhole_whole _) scM4_1 (Memref.isWhole_whole _) (mt (hcond4_0 t).mp h0) ((hcond4_1 t).mpr h1) (iblk4 V c 0 t) (outsAt4 V c (t.val - 1) (before4_lt t)).2.2.1 (outsAt4 V c (t.val - 1) (before4_lt t)).2.2.2, sout4_C_1 c (grid4.coords t) (ms4_0 t) (hs4_0 t) (ms4_1 t) (hs4_1 t) (ms4_2 t) (hs4_2 t) scM4_0 (Memref.isWhole_whole _) scM4_1 (Memref.isWhole_whole _) (mt (hcond4_0 t).mp h0) ((hcond4_1 t).mpr h1) (iblk4 V c 0 t) (outsAt4 V c (t.val - 1) (before4_lt t)).2.2.1 (outsAt4 V c (t.val - 1) (before4_lt t)).2.2.2) := by
  obtain ⟨_ | n, hn⟩ := t
  exacts [absurd rfl h0, (dif_pos h1).trans rfl]

/-- The loop invariant: the entry invariant before the first point, afterwards the same with the accumulators at what the point before left. -/
def PhiS4 (c : Dev nD) (n : ℕ) (h : n ≤ cfg4.N) : sProp 𝕄 :=
  if hz : n = 0 then Pipeline.ΦA spec4 c else
    iprop(iprop(iprop(owns c scM4_0 fullShare (outsAt4 V c (n - 1) (by omega)).2.2.1 ∗ owns c scM4_1 fullShare (outsAt4 V c (n - 1) (by omega)).2.2.2) ∗ rest4 c) ∗ (∃ r, prngReg c r))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => (outsAt4 V c t.val t.isLt).1
    | ⟨2, _⟩ => (outsAt4 V c t.val t.isLt).2.1
  Φ t := PhiS4 V c t.val (Nat.le_of_lt_succ t.isLt)
  q _ := fullShare
  owed _ := 0

theorem A_eq4 (c : Dev nD) (w : Fin cfg4.W) : (dat4 V c).A w = V c (Pipeline.arrRef spec4 w) := rfl

theorem after4_0 (c : Dev nD) (t : Fin cfg4.N) : (dat4 V c).after 0 t = iblk4 V c 0 t := rfl
theorem after4_1 (c : Dev nD) (t : Fin cfg4.N) : (dat4 V c).after 1 t = (outsAt4 V c t.val t.isLt).1 := rfl
theorem after4_2 (c : Dev nD) (t : Fin cfg4.N) : (dat4 V c).after 2 t = (outsAt4 V c t.val t.isLt).2.1 := rfl

theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)

def bodyPre4 (c : Dev nD) (t : Fin cfg4.N) : sProp 𝕄 :=
  iprop((dat4 V c).Φ t.castSucc ∗ (dat4 V c).owesAt () t.castSucc
    ∗ (∃ d, owns c (ms4_0 t) fullShare ((dat4 V c).before 0 t d))
    ∗ (∃ d, owns c (ms4_1 t) fullShare ((dat4 V c).before 1 t d))
    ∗ (∃ d, owns c (ms4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

/-- Pieces that cover the shape fix every element, so what is read back depends neither on the view nor on the earlier contents. -/
theorem cover4_owns {c : Dev nD} {M : Memref sig .tc .vmem S1x32 .f32} (v : View sig .tc .vmem S1x32 .f32) {L : List (View.Piece (Elt F) S1x32 .f32)}
    (h : ∀ y, ∃ pc ∈ L, y ∈ pc.1.set) :
    (∃ f, M.view.loc c ↦[M.view.set]{fullShare} M.view.writes (Elt F) f L : sProp 𝕄)
      ⊢ owns c M fullShare (v.read (Elt F) (v.writes (Elt F) v.junk L)) := by
  unfold owns; iintro ⟨%f, H⟩; iexists M.view.writes (Elt F) f L; isplitr
  · ipureintro; exact View.read_writes_of_cover _ _ _ _ _ h
  iexact H

/- At every point the case's run takes the tile and the carried accumulators and leaves what `outsAt4` says; its stores cover what they fill. -/
set_option maxHeartbeats 4800000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).owesAt () t.succ = (dat4 V c).owesAt () t.castSucc from rfl,
    show (dat4 V c).Φ t.succ = PhiS4 V c (t.val + 1) t.isLt from rfl, PhiS4, dif_neg (Nat.add_one_ne_zero _),
    show (dat4 V c).leavesExact 0 t = owns c (ms4_0 t) fullShare ((dat4 V c).after 0 t) from by
      unfold Dat.leavesExact; rw [liveAt4_0 t], after4_0,
    show (dat4 V c).Φ t.castSucc = PhiS4 V c t.val (Nat.le_of_lt t.isLt) from rfl, PhiS4]
  simp only [Nat.add_sub_cancel]
  by_cases h1 : t.val = 19
  · have h0 : ¬t.val = 0 := by omega
    have hc1 : cond4_1 (grid4.coords t) := (hcond4_1 t).mpr h1
    rw [dif_neg h0, show (dat4 V c).leavesExact 1 t = owns c (ms4_1 t) fullShare ((dat4 V c).after 1 t) from by
        unfold Dat.leavesExact; rw [liveAt4_1 t hc1], after4_1,
      show (dat4 V c).leavesExact 2 t = owns c (ms4_2 t) fullShare ((dat4 V c).after 2 t) from by
        unfold Dat.leavesExact; rw [liveAt4_2 t hc1], after4_2, outsAt4_C V c t h0 h1]
    unfold out4_C_1 out4_C_2 sout4_C_0 sout4_C_1; (try dsimp only)
    iintro ⟨⟨⟨⟨HS0, HS1⟩, Hr⟩, Hg⟩, Ho, ⟨%d0, H0⟩, ⟨%d1, H1⟩, ⟨%d2, H2⟩⟩
    iapply ((kernelRun4_C c (grid4.coords t) _ _ _ _ _ _ _ _ _ _ (mt (hcond4_0 t).mp h0) hc1 (iblk4 V c 0 t) _ _).2.2.2.2 Set.univ _)
    iframe H0 HS0 HS1
    isplitl [H1]; · iexists _; iexact H1
    isplitl [H2]; · iexists _; iexact H2
    iintro ⟨H0, H1, H2, HS0, HS1⟩
    iframe Hr Hg Ho H0
    isplitl [HS0 HS1]
    · isplitl [HS0]
      · iapply cover4_owns _ (fun _ => scover4_C_0 ..); iexact HS0
      iapply cover4_owns _ (fun _ => scover4_C_1 ..); iexact HS1
    isplitl [H1]
    · iapply cover4_owns _ (fun _ => cover4_C_1 ..); iexact H1
    iapply cover4_owns _ (fun _ => cover4_C_2 ..); iexact H2
  have hc1 : ¬cond4_1 (grid4.coords t) := mt (hcond4_1 t).mp h1
  rw [Dat.leavesExact_idle _ 1 t (idleAt4_1 t hc1) (noFlush4_1 t hc1), Dat.leavesExact_idle _ 2 t (idleAt4_2 t hc1) (noFlush4_2 t hc1)]
  by_cases h0 : t.val = 0
  · rw [dif_pos h0, PhiA4_eq, outsAt4_A V c t h0]
    unfold sout4_A_0 sout4_A_1; (try dsimp only)
    iintro ⟨⟨⟨⟨HS0, HS1⟩, Hr⟩, Hg⟩, Ho, ⟨%d0, H0⟩, ⟨%d1, H1⟩, ⟨%d2, H2⟩⟩
    iapply ((kernelRun4_A c (grid4.coords t) _ _ _ _ _ _ _ _ _ _ ((hcond4_0 t).mpr h0) hc1 (iblk4 V c 0 t)).2.2 _ _ Set.univ _)
    iframe H0 H1 H2 HS0 HS1
    iintro ⟨H0, H1, H2, HS0, HS1⟩
    iframe Hr Hg Ho H0
    isplitl [HS0 HS1]
    · isplitl [HS0]
      · iapply cover4_owns _ (fun _ => scover4_A_0 ..); iexact HS0
      iapply cover4_owns _ (fun _ => scover4_A_1 ..); iexact HS1
    isplitl [H1]; · iexists _; iexact H1
    iexists _; iexact H2
  rw [dif_neg h0, outsAt4_B V c t h0 h1]
  unfold sout4_B_0 sout4_B_1; (try dsimp only)
  iintro ⟨⟨⟨⟨HS0, HS1⟩, Hr⟩, Hg⟩, Ho, ⟨%d0, H0⟩, ⟨%d1, H1⟩, ⟨%d2, H2⟩⟩
  iapply ((kernelRun4_B c (grid4.coords t) _ _ _ _ _ _ _ _ _ _ (mt (hcond4_0 t).mp h0) hc1 (iblk4 V c 0 t) _ _).2.2 _ _ Set.univ _)
  iframe H0 H1 H2 HS0 HS1
  iintro ⟨H0, H1, H2, HS0, HS1⟩
  iframe Hr Hg Ho H0
  isplitl [HS0 HS1]
  · isplitl [HS0]
    · iapply cover4_owns _ (fun _ => scover4_B_0 ..); iexact HS0
    iapply cover4_owns _ (fun _ => scover4_B_1 ..); iexact HS1
  isplitl [H1]; · iexists _; iexact H1
  iexists _; iexact H2

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiS4 V c 0 (Nat.zero_le _) from rfl, PhiS4, dif_pos rfl]

theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4, dif_neg ht, PhiA4_eq]
  iintro ⟨⟨⟨HS0, HS1⟩, Hr⟩, Hg⟩
  iframe Hr Hg
  isplitl [HS0]; · iexists _; iexact HS0
  iexists _; iexact HS1

theorem hout4 (c : Dev nD) : (dat4 V c).Φ (Fin.last cfg4.N) ⊢ Pipeline.ΦA spec4 c :=
  Phi_out4 V c _ (by rw [Fin.val_last]; have : cfg4.N = 20 := N_4; omega)

end Cert.Kernel.Hand

end
-- ==== Proof.BReg5.lean ====
import proofs.«419458_j79517024518684_2_alg».proof.Proof.Gen.Kernel.Launch
import proofs.«419458_j79517024518684_2_alg».proof.Proof.Gen.Kernel.Skeleton
import proofs.«419458_j79517024518684_2_alg».proof.Proof.Gen.Kernel.Points
import Idealize.ShloMosaic.Lib.Pipeline.FrameBody
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_t : Rect S20000x32 := Rect.unit (s := S20000x32) ![0, 0] S20000x32.size inb_S20000x32_S20000x32_0_0
abbrev r5_r : Rect S1x32 := Rect.unit (s := S1x32) ![0, 0] S1x32.size inb_S1x32_S1x32_0_0

def out5_5 (x0 : Vec F S20000x32 .f32) (x1 x2 x3 x4 : Vec F S1x32 .f32) : Vec F S20000x32 .f32 :=
  View.canon [⟨r5_t, k5_pay1 (View.ld x0 r5_t) (View.ld x1 r5_r) (View.ld x2 r5_r) (View.ld x3 r5_r) (View.ld x4 r5_r)⟩]

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := rfl

theorem after5_5 (c : Dev nD) (t : Fin cfg5.N) : (dat5 V c).after 5 t = out5_5 ((dat5 V c).after 0 t) ((dat5 V c).after 1 t) ((dat5 V c).after 2 t) ((dat5 V c).after 3 t) ((dat5 V c).after 4 t) := by dsimp only [dat5]

-- The body writes none of its five inputs.
theorem before5 (c : Dev nD) (t : Fin cfg5.N) : ∀ w : Fin cfg5.W, (cfg5.win w).isOut = false → ∀ d, (dat5 V c).before w t d = (dat5 V c).after w t
  | 0, h | 1, h | 2, h | 3, h | 4, h => (dat5 V c).before_in_eq_fetched _ h (fun _ => rfl) (fun _ _ _ => rfl) (fun _ => rfl) t
  | 5, h => nomatch h

-- At every point the body loads its five inputs, which hold their blocks, and stores the mapped tile over the whole output tile.
theorem body_obligation5 (c : Dev nD) : BodyObligation (dat5 (F := F) V c) (defs₀ (F := F)) Variants.none () Set.univ := fun t => by
  rw [bigSep_W5, bigSep_W5]
  show _ ⊢ wp frame _ _ (bodyAt5 t) _
  have hb := before5 V c t
  simp only [hb 0 rfl, hb 1 rfl, hb 2 rfl, hb 3 rfl, hb 4 rfl, show ∀ w i, cfg5.idle w i = false from fun _ _ => rfl]
  rw [show (dat5 V c).Φ t.succ = (dat5 V c).Φ t.castSucc from rfl, show (dat5 V c).owesAt () t.succ = (dat5 V c).owesAt () t.castSucc from rfl]
  unfold bodyAt5
  simp only [cc5_kernel_eq_skeleton]; unfold cc5_kernel_skel owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩⟩
  sl_exec
  sl_step
  iframe HΦ Ho
  isplitl [H0]; · iexists f0; iframe H0; ipureintro; exact hf0
  isplitl [H1]; · iexists f1; iframe H1; ipureintro; exact hf1
  isplitl [H2]; · iexists f2; iframe H2; ipureintro; exact hf2
  isplitl [H3]; · iexists f3; iframe H3; ipureintro; exact hf3
  isplitl [H4]; · iexists f4; iframe H4; ipureintro; exact hf4
  iexists _; iframe H5; ipureintro
  rw [after5_5, ← hf0, ← hf1, ← hf2, ← hf3, ← hf4]
  exact View.read_writes_eq_canon _ _ _ (View.cover_of_tiled _ S20000x32.size (by rfl))

end Cert.Kernel.Hand

end
-- ==== Proof.BReg6.lean ====
import proofs.«419458_j79517024518684_2_alg».proof.Proof.Gen.Kernel.Launch
import proofs.«419458_j79517024518684_2_alg».proof.Proof.Gen.Kernel.Skeleton
import proofs.«419458_j79517024518684_2_alg».proof.Proof.Gen.Kernel.Points
import Idealize.ShloMosaic.Lib.Pipeline.FrameBody
import Idealize.ShloMosaic.Lib.Tactic

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def out6_2 (x0 : Vec F S20000x32 .f32) (x1 : Vec F S32x32 .f32) : Vec F S20000x32 .f32 :=
  View.canon [⟨Rect.unit (s := S20000x32) ![0, 0] S20000x32.size inb_S20000x32_S20000x32_0_0,
    k6_pay1 (View.ld x0 (Rect.unit (s := S20000x32) ![0, 0] S20000x32.size inb_S20000x32_S20000x32_0_0))
      (View.ld x1 (Rect.unit (s := S32x32) ![0, 0] S32x32.size inb_S32x32_S32x32_0_0))⟩]

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := rfl

theorem after6_2 (c : Dev nD) (t : Fin cfg6.N) : (dat6 V c).after 2 t = out6_2 (iblk6 V c 0 t) (iblk6 V c 1 t) := by dsimp only [dat6]

theorem before6_0 (c : Dev nD) (t : Fin cfg6.N) (d) : (dat6 V c).before 0 t d = iblk6 V c 0 t :=
  (dat6 V c).before_in_eq_fetched 0 rfl (fun _ => rfl) (fun _ _ _ => rfl) (fun _ => rfl) t d
theorem before6_1 (c : Dev nD) (t : Fin cfg6.N) (d) : (dat6 V c).before 1 t d = iblk6 V c 1 t :=
  (dat6 V c).before_in_eq_fetched 1 rfl (fun _ => rfl) (fun _ _ _ => rfl) (fun _ => rfl) t d

-- the body leaves the product of the two input blocks in the output tile and keeps everything else as it was
theorem sound_kernel6 (c : Dev nD) {i : grid6.Coords} {arg1 : Memref sig .tc .vmem S20000x32 .f32} {harg1 : arg1.IsWhole}
    {arg2 : Memref sig .tc .vmem S32x32 .f32} {harg2 : arg2.IsWhole} {arg3 : Memref sig .tc .vmem S20000x32 .f32} {harg3 : arg3.IsWhole}
    {x0 : Vec F S20000x32 .f32} {x1 : Vec F S32x32 .f32} {R S : sProp 𝕄} {D0 D1 D2 : Type} {b0 : D0 → Vec F S20000x32 .f32}
    {b1 : D1 → Vec F S32x32 .f32} {b2 : D2 → Vec F S20000x32 .f32} (h0 : ∀ d, b0 d = x0) (h1 : ∀ d, b1 d = x1) :
    iprop(R ∗ S ∗ (∃ d, owns c arg1 fullShare (b0 d)) ∗ (∃ d, owns c arg2 fullShare (b1 d)) ∗ ∃ d, owns c arg3 fullShare (b2 d))
      ⊢ wp frame (wpE (defs₀ (F := F)) Variants.none c none) Set.univ (cc6__linear_kernel i arg1 harg1 arg2 harg2 arg3 harg3) fun _ =>
        iprop(R ∗ S ∗ owns c arg1 fullShare x0 ∗ owns c arg2 fullShare x1 ∗ owns c arg3 fullShare (out6_2 x0 x1)) := by
  simp only [h0, h1, cc6__linear_kernel_eq_skeleton]; unfold cc6__linear_kernel_skel owns
  iintro ⟨HR, HS, ⟨%d0, %f0, %hf0, H0⟩, ⟨%d1, %f1, %hf1, H1⟩, ⟨%d2, %f2, -, H2⟩⟩
  subst hf0 hf1
  sl_exec
  sl_step
  iframe HR HS
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S20000x32.size (by rfl))

theorem body_obligation6 (c : Dev nD) : BodyObligation (dat6 (F := F) V c) (defs₀ (F := F)) Variants.none () Set.univ := fun t => by
  rw [bigSep_W6, bigSep_W6]
  dsimp only [dat6]
  exact (sound_kernel6 c (before6_0 V c t) (before6_1 V c t) : _ ⊢ wp _ _ _ (bodyAt6 t) _)

end Cert.Kernel.Hand

end
-- ==== Proof.BReg7Runs.lean ====
import proofs.«419458_j79517024518684_2_alg».proof.Proof.Gen.Kernel.Launch
import proofs.«419458_j79517024518684_2_alg».proof.Proof.Gen.Kernel.Skeleton
import proofs.«419458_j79517024518684_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI Idealize.SL.BI.BIBase Idealize.SL.ProofMode Idealize.SL.Sem

variable {F : FTy → Type} [FloatOps F]

local notation "𝕄" => MT nD τ sig Unit (Elt F) ℕ (UR sig nD τ) ℕ

abbrev cond7_0 (i : grid7.Coords) : Prop := (Scalar.cmpi .ne (Scalar.extui (Scalar.cmpi .eq (BitVec.ofNat 32 (i 0).val) 0#32)) 0#32) = 1#1

/-- On the 20-point grid the first test holds at point 0 only. -/
theorem hcond7_0 : ∀ t : Fin cfg7.N, cond7_0 (grid7.coords t) ↔ t.val = 0 := by decide +kernel

abbrev cond7_1 (i : grid7.Coords) : Prop := k7_cond2 i = 1#1

/-- The second test holds at point 19 only. -/
theorem hcond7_1 : ∀ t : Fin cfg7.N, cond7_1 (grid7.coords t) ↔ t.val = 19 := by decide +kernel

theorem liveAt7_0 : ∀ t : Fin cfg7.N, cfg7.idle 0 (grid7.coords t) = false := by decide +kernel

theorem idleAt7_1 : ∀ t : Fin cfg7.N, ¬cond7_1 (grid7.coords t) → cfg7.idle 1 (grid7.coords t) = true := by decide +kernel

theorem noFlush7_1 : ∀ t : Fin cfg7.N, ¬cond7_1 (grid7.coords t) → (cfg7.win 1).flush t = false := by decide +kernel

theorem liveAt7_1 : ∀ t : Fin cfg7.N, cond7_1 (grid7.coords t) → cfg7.idle 1 (grid7.coords t) = false := by decide +kernel

theorem idleAt7_2 : ∀ t : Fin cfg7.N, ¬cond7_1 (grid7.coords t) → cfg7.idle 2 (grid7.coords t) = true := by decide +kernel
theorem noFlush7_2 : ∀ t : Fin cfg7.N, ¬cond7_1 (grid7.coords t) → (cfg7.win 2).flush t = false := by decide +kernel
theorem liveAt7_2 : ∀ t : Fin cfg7.N, cond7_1 (grid7.coords t) → cfg7.idle 2 (grid7.coords t) = false := by decide +kernel

abbrev VO7_1 : View sig .tc .vmem S1x32 .f32 := (Memref.whole cc7_stg1_0 : Memref sig .tc .vmem S1x32 .f32).view
abbrev VO7_2 : View sig .tc .vmem S1x32 .f32 := (Memref.whole cc7_stg2_0 : Memref sig .tc .vmem S1x32 .f32).view

abbrev ms7_0 (t : Fin cfg7.N) : Memref sig .tc .vmem S20000x32 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S1x32 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1x32 .f32 := win7_2.stage (cfg7.slots t 2)
abbrev hs7_2 (t : Fin cfg7.N) : (ms7_2 t).IsWhole := hstage7_2 ((cfg7.slots t 2).cast nbuf7_2)

abbrev scM7_0 : Memref sig .tc .vmem S1x32 .f32 := Memref.whole cc7_scratch0
abbrev scM7_1 : Memref sig .tc .vmem S1x32 .f32 := Memref.whole cc7_scratch1

abbrev VS7_0 : View sig .tc .vmem S1x32 .f32 := scM7_0.view
abbrev VS7_1 : View sig .tc .vmem S1x32 .f32 := scM7_1.view

abbrev rest7 (c : Dev nD) : sProp 𝕄 :=
  Pipeline.scopedRestBut (Ix := Unit) (Name := ℕ) (U := UR sig nD τ) (Lvl := ℕ) (Val := Elt F) spec7 c [cc7_scratch0, cc7_scratch1]

theorem PhiA7_eq (c : Dev nD) :
    (Pipeline.ΦA spec7 c : sProp 𝕄)
      = iprop(iprop(iprop((∃ d, owns c scM7_0 fullShare d) ∗ (∃ d, owns c scM7_1 fullShare d)) ∗ rest7 c) ∗ (∃ r, prngReg c r)) := by
  unfold Pipeline.ΦA; rw [scopedRest7_split]; simp only [scM7_0, scM7_1, owns_whole]; try rfl

variable (c : Dev nD) (i : grid7.Coords) (arg1 : Memref sig .tc .vmem S20000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S1x32 .f32) (harg5 : arg5.IsWhole)

set_option maxHeartbeats 1000000 in
/-- The body run whole at the first point: the accumulators end at the pieces the run stored into them. -/
def kernelRun7_A (hc0 : cond7_0 i) (hc1 : ¬cond7_1 i) (x0 : Vec F S20000x32 .f32) :
    Σ' (LS0 : List (View.Piece (Elt F) S1x32 .f32)), { LS1 : List (View.Piece (Elt F) S1x32 .f32) //
      ∀ (xi1 xi2 : Vec F S1x32 .f32) (E : Set ℕ) (K : PUnit → sProp 𝕄),
        iprop(owns c arg1 fullShare x0 ∗ owns c arg2 fullShare xi1 ∗ owns c arg3 fullShare xi2
            ∗ (∃ d, owns c arg4 fullShare d) ∗ (∃ d, owns c arg5 fullShare d)
            ∗ (iprop(owns c arg1 fullShare x0 ∗ owns c arg2 fullShare xi1 ∗ owns c arg3 fullShare xi2
                ∗ (∃ f, arg4.view.loc c ↦[arg4.view.set]{fullShare} arg4.view.writes (Elt F) f LS0)
                ∗ (∃ f, arg5.view.loc c ↦[arg5.view.set]{fullShare} arg5.view.writes (Elt F) f LS1)) -∗ K ⟨⟩))
          ⊢ wp frame (wpE (defs₀ (F := F)) Variants.none c none) E (cc7__bn_stats_kernel i arg1 harg1 arg2 harg2 arg3 harg3 arg4 harg4 arg5 harg5) K } := by
  refine ⟨?_, ?_, fun xi1 xi2 E K => ?run⟩
  case run =>
    simp only [cc7__bn_stats_kernel_eq_skeleton]; unfold cc7__bn_stats_kernel_skel
    unfold owns
    iintro ⟨⟨%f0, %hf0, H0⟩, H1, H2, ⟨%ds0, %fs0, -, HS0⟩, ⟨%ds1, %fs1, -, HS1⟩, Hk⟩
    obtain rfl := harg1.eq_unread hf0
    sl_exec (disch := first | exact hc0 | exact hc1)
    sl_step
    iapply Hk
    iframe H1 H2
    isplitl [H0]
    · iexists _; isplitr; · ipureintro; exact harg1.read_unread _
      iexact H0
    isplitl [HS0]; · iexists _; iexact HS0
    iexists _; iexact HS1

set_option maxHeartbeats 1000000 in
/-- The same at a middle point, the accumulators coming in at given contents. -/
def kernelRun7_B (hc0 : ¬cond7_0 i) (hc1 : ¬cond7_1 i) (x0 : Vec F S20000x32 .f32) (xs0 xs1 : Vec F S1x32 .f32) :
    Σ' (LS0 : List (View.Piece (Elt F) S1x32 .f32)), { LS1 : List (View.Piece (Elt F) S1x32 .f32) //
      ∀ (xi1 xi2 : Vec F S1x32 .f32) (E : Set ℕ) (K : PUnit → sProp 𝕄),
        iprop(owns c arg1 fullShare x0 ∗ owns c arg2 fullShare xi1 ∗ owns c arg3 fullShare xi2
            ∗ owns c arg4 fullShare xs0 ∗ owns c arg5 fullShare xs1
            ∗ (iprop(owns c arg1 fullShare x0 ∗ owns c arg2 fullShare xi1 ∗ owns c arg3 fullShare xi2
                ∗ (∃ f, arg4.view.loc c ↦[arg4.view.set]{fullShare} arg4.view.writes (Elt F) f LS0)
                ∗ (∃ f, arg5.view.loc c ↦[arg5.view.set]{fullShare} arg5.view.writes (Elt F) f LS1)) -∗ K ⟨⟩))
          ⊢ wp frame (wpE (defs₀ (F := F)) Variants.none c none) E (cc7__bn_stats_kernel i arg1 harg1 arg2 harg2 arg3 harg3 arg4 harg4 arg5 harg5) K } := by
  refine ⟨?_, ?_, fun xi1 xi2 E K => ?run⟩
  case run =>
    simp only [cc7__bn_stats_kernel_eq_skeleton]; unfold cc7__bn_stats_kernel_skel
    unfold owns
    iintro ⟨⟨%f0, %hf0, H0⟩, H1, H2, ⟨%fs0, %hfs0, HS0⟩, ⟨%fs1, %hfs1, HS1⟩, Hk⟩
    obtain rfl := harg1.eq_unread hf0; obtain rfl := harg4.eq_unread hfs0; obtain rfl := harg5.eq_unread hfs1
    sl_exec (disch := first | exact hc0 | exact hc1)
    sl_step
    iapply Hk
    iframe H1 H2
    isplitl [H0]
    · iexists _; isplitr; · ipureintro; exact harg1.read_unread _
      iexact H0
    isplitl [HS0]; · iexists _; iexact HS0
    iexists _; iexact HS1

set_option maxHeartbeats 1000000 in
/-- The same at the last point, where the two outputs are stored too. -/
def kernelRun7_C (hc0 : ¬cond7_0 i) (hc1 : cond7_1 i) (x0 : Vec F S20000x32 .f32) (xs0 xs1 : Vec F S1x32 .f32) :
    Σ' (L1 : List (View.Piece (Elt F) S1x32 .f32)) (L2 : List (View.Piece (Elt F) S1x32 .f32)) (LS0 : List (View.Piece (Elt F) S1x32 .f32)), { LS1 : List (View.Piece (Elt F) S1x32 .f32) //
      ∀ (E : Set ℕ) (K : PUnit → sProp 𝕄),
        iprop(owns c arg1 fullShare x0 ∗ (∃ d, owns c arg2 fullShare d) ∗ (∃ d, owns c arg3 fullShare d)
            ∗ owns c arg4 fullShare xs0 ∗ owns c arg5 fullShare xs1
            ∗ (iprop(owns c arg1 fullShare x0
                ∗ (∃ f, arg2.view.loc c ↦[arg2.view.set]{fullShare} arg2.view.writes (Elt F) f L1)
                ∗ (∃ f, arg3.view.loc c ↦[arg3.view.set]{fullShare} arg3.view.writes (Elt F) f L2)
                ∗ (∃ f, arg4.view.loc c ↦[arg4.view.set]{fullShare} arg4.view.writes (Elt F) f LS0)
                ∗ (∃ f, arg5.view.loc c ↦[arg5.view.set]{fullShare} arg5.view.writes (Elt F) f LS1)) -∗ K ⟨⟩))
          ⊢ wp frame (wpE (defs₀ (F := F)) Variants.none c none) E (cc7__bn_stats_kernel i arg1 harg1 arg2 harg2 arg3 harg3 arg4 harg4 arg5 harg5) K } := by
  refine ⟨?_, ?_, ?_, ?_, fun E K => ?run⟩
  case run =>
    simp only [cc7__bn_stats_kernel_eq_skeleton]; unfold cc7__bn_stats_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg1.eq_unread hf0; obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]; · iexists _; iexact H1
    isplitl [H2]; · iexists _; iexact H2
    isplitl [HS0]; · iexists _; iexact HS0
    iexists _; iexact HS1

end Cert.Kernel.Hand

end
-- ==== Proof.BReg7.lean ====
import proofs.«419458_j79517024518684_2_alg».proof.Proof.BReg7Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

section
variable (c : Dev nD) (i : grid7.Coords) (arg1 : Memref sig .tc .vmem S20000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S1x32 .f32) (harg5 : arg5.IsWhole)

section
variable (hc0 : cond7_0 i) (hc1 : ¬cond7_1 i) (x0 : Vec F S20000x32 .f32)
/-- The pieces a case stores tile the shape, so every index lies in one of them. -/
theorem scover7_A_0 (y : S1x32.Idx) : ∃ pc ∈ (kernelRun7_A c i arg1 harg1 arg2 harg2 arg3 harg3 arg4 harg4 arg5 harg5 hc0 hc1 x0).1, y ∈ pc.1.set :=
  View.cover_of_tiledL _ S1x32.size (by sl_kernel_rfl) y
def sout7_A_0 : Vec F S1x32 .f32 := VS7_0.read (Elt F) (VS7_0.writes (Elt F) VS7_0.junk (kernelRun7_A c i arg1 harg1 arg2 harg2 arg3 harg3 arg4 harg4 arg5 harg5 hc0 hc1 x0).1)
theorem scover7_A_1 (y : S1x32.Idx) : ∃ pc ∈ (kernelRun7_A c i arg1 harg1 arg2 harg2 arg3 harg3 arg4 harg4 arg5 harg5 hc0 hc1 x0).2.1, y ∈ pc.1.set :=
  View.cover_of_tiledL _ S1x32.size (by sl_kernel_rfl) y
def sout7_A_1 : Vec F S1x32 .f32 := VS7_1.read (Elt F) (VS7_1.writes (Elt F) VS7_1.junk (kernelRun7_A c i arg1 harg1 arg2 harg2 arg3 harg3 arg4 harg4 arg5 harg5 hc0 hc1 x0).2.1)
end

section
variable (hc0 : ¬cond7_0 i) (hc1 : ¬cond7_1 i) (x0 : Vec F S20000x32 .f32) (xs0 xs1 : Vec F S1x32 .f32)
theorem scover7_B_0 (y : S1x32.Idx) : ∃ pc ∈ (kernelRun7_B c i arg1 harg1 arg2 harg2 arg3 harg3 arg4 harg4 arg5 harg5 hc0 hc1 x0 xs0 xs1).1, y ∈ pc.1.set :=
  View.cover_of_tiledL _ S1x32.size (by sl_kernel_rfl) y
def sout7_B_0 : Vec F S1x32 .f32 := VS7_0.read (Elt F) (VS7_0.writes (Elt F) VS7_0.junk (kernelRun7_B c i arg1 harg1 arg2 harg2 arg3 harg3 arg4 harg4 arg5 harg5 hc0 hc1 x0 xs0 xs1).1)
theorem scover7_B_1 (y : S1x32.Idx) : ∃ pc ∈ (kernelRun7_B c i arg1 harg1 arg2 harg2 arg3 harg3 arg4 harg4 arg5 harg5 hc0 hc1 x0 xs0 xs1).2.1, y ∈ pc.1.set :=
  View.cover_of_tiledL _ S1x32.size (by sl_kernel_rfl) y
def sout7_B_1 : Vec F S1x32 .f32 := VS7_1.read (Elt F) (VS7_1.writes (Elt F) VS7_1.junk (kernelRun7_B c i arg1 harg1 arg2 harg2 arg3 harg3 arg4 harg4 arg5 harg5 hc0 hc1 x0 xs0 xs1).2.1)
end

section
variable (hc0 : ¬cond7_0 i) (hc1 : cond7_1 i) (x0 : Vec F S20000x32 .f32) (xs0 xs1 : Vec F S1x32 .f32)
theorem cover7_C_1 (y : S1x32.Idx) : ∃ pc ∈ (kernelRun7_C c i arg1 harg1 arg2 harg2 arg3 harg3 arg4 harg4 arg5 harg5 hc0 hc1 x0 xs0 xs1).1, y ∈ pc.1.set :=
  View.cover_of_tiledL _ S1x32.size (by sl_kernel_rfl) y
def out7_C_1 : Vec F S1x32 .f32 := VO7_1.read (Elt F) (VO7_1.writes (Elt F) VO7_1.junk (kernelRun7_C c i arg1 harg1 arg2 harg2 arg3 harg3 arg4 harg4 arg5 harg5 hc0 hc1 x0 xs0 xs1).1)
theorem cover7_C_2 (y : S1x32.Idx) : ∃ pc ∈ (kernelRun7_C c i arg1 harg1 arg2 harg2 arg3 harg3 arg4 harg4 arg5 harg5 hc0 hc1 x0 xs0 xs1).2.1, y ∈ pc.1.set :=
  View.cover_of_tiledL _ S1x32.size (by sl_kernel_rfl) y
def out7_C_2 : Vec F S1x32 .f32 := VO7_2.read (Elt F) (VO7_2.writes (Elt F) VO7_2.junk (kernelRun7_C c i arg1 harg1 arg2 harg2 arg3 harg3 arg4 harg4 arg5 harg5 hc0 hc1 x0 xs0 xs1).2.1)
theorem scover7_C_0 (y : S1x32.Idx) : ∃ pc ∈ (kernelRun7_C c i arg1 harg1 arg2 harg2 arg3 harg3 arg4 harg4 arg5 harg5 hc0 hc1 x0 xs0 xs1).2.2.1, y ∈ pc.1.set :=
  View.cover_of_tiledL _ S1x32.size (by sl_kernel_rfl) y
def sout7_C_0 : Vec F S1x32 .f32 := VS7_0.read (Elt F) (VS7_0.writes (Elt F) VS7_0.junk (kernelRun7_C c i arg1 harg1 arg2 harg2 arg3 harg3 arg4 harg4 arg5 harg5 hc0 hc1 x0 xs0 xs1).2.2.1)
theorem scover7_C_1 (y : S1x32.Idx) : ∃ pc ∈ (kernelRun7_C c i arg1 harg1 arg2 harg2 arg3 harg3 arg4 harg4 arg5 harg5 hc0 hc1 x0 xs0 xs1).2.2.2.1, y ∈ pc.1.set :=
  View.cover_of_tiledL _ S1x32.size (by sl_kernel_rfl) y
def sout7_C_1 : Vec F S1x32 .f32 := VS7_1.read (Elt F) (VS7_1.writes (Elt F) VS7_1.junk (kernelRun7_C c i arg1 harg1 arg2 harg2 arg3 harg3 arg4 harg4 arg5 harg5 hc0 hc1 x0 xs0 xs1).2.2.2.1)
end

end

def idle7_1 : Vec F S1x32 .f32 := VO7_1.read (Elt F) VO7_1.junk
def idle7_2 : Vec F S1x32 .f32 := VO7_2.read (Elt F) VO7_2.junk

/-- Pieces read back through a view, over arbitrary earlier contents. -/
def out7_read (v : View sig .tc .vmem S1x32 .f32) (L : List (View.Piece (Elt F) S1x32 .f32)) : Vec F S1x32 .f32 :=
  v.read (Elt F) (v.writes (Elt F) v.junk L)

/-- Outputs and accumulators after point `n`: the point's case on its tile and on the accumulators the point before left. -/
def outsAt7 (c : Dev nD) : (n : ℕ) → n < cfg7.N → Vec F S1x32 .f32 × Vec F S1x32 .f32 × Vec F S1x32 .f32 × Vec F S1x32 .f32
  | 0, hn =>
    let t : Fin cfg7.N := ⟨0, hn⟩
    let r := kernelRun7_A c (grid7.coords t) (ms7_0 t) (hs7_0 t) (ms7_1 t) (hs7_1 t) (ms7_2 t) (hs7_2 t) scM7_0 (Memref.isWhole_whole _) scM7_1 (Memref.isWhole_whole _) ((hcond7_0 t).mpr rfl) (mt (hcond7_1 t).mp (by decide : 0 ≠ 19)) (iblk7 V c 0 t)
    (idle7_1, idle7_2, out7_read VS7_0 r.1, out7_read VS7_1 r.2.1)
  | n + 1, hn =>
    let t : Fin cfg7.N := ⟨n + 1, hn⟩
    let p := outsAt7 c n (Nat.lt_of_succ_lt hn)
    have h0 : ¬cond7_0 (grid7.coords t) := mt (hcond7_0 t).mp (Nat.succ_ne_zero n)
    if h1 : n + 1 = 19 then
      let r := kernelRun7_C c (grid7.coords t) (ms7_0 t) (hs7_0 t) (ms7_1 t) (hs7_1 t) (ms7_2 t) (hs7_2 t) scM7_0 (Memref.isWhole_whole _) scM7_1 (Memref.isWhole_whole _) h0 ((hcond7_1 t).mpr h1) (iblk7 V c 0 t) p.2.2.1 p.2.2.2
      (out7_read VO7_1 r.1, out7_read VO7_2 r.2.1, out7_read VS7_0 r.2.2.1, out7_read VS7_1 r.2.2.2.1)
    else
      let r := kernelRun7_B c (grid7.coords t) (ms7_0 t) (hs7_0 t) (ms7_1 t) (hs7_1 t) (ms7_2 t) (hs7_2 t) scM7_0 (Memref.isWhole_whole _) scM7_1 (Memref.isWhole_whole _) h0 (mt (hcond7_1 t).mp h1) (iblk7 V c 0 t) p.2.2.1 p.2.2.2
      (idle7_1, idle7_2, out7_read VS7_0 r.1, out7_read VS7_1 r.2.1)

theorem before7_lt (t : Fin cfg7.N) : t.val - 1 < cfg7.N := Nat.lt_of_le_of_lt (Nat.sub_le _ _) t.isLt

theorem outsAt7_A (c : Dev nD) (t : Fin cfg7.N) (h0 : t.val = 0) :
    outsAt7 V c t.val t.isLt = (idle7_1, idle7_2, sout7_A_0 c (grid7.coords t) (ms7_0 t) (hs7_0 t) (ms7_1 t) (hs7_1 t) (ms7_2 t) (hs7_2 t) scM7_0 (Memref.isWhole_whole _) scM7_1 (Memref.isWhole_whole _) ((hcond7_0 t).mpr h0) (mt (hcond7_1 t).mp (by omega)) (iblk7 V c 0 t), sout7_A_1 c (grid7.coords t) (ms7_0 t) (hs7_0 t) (ms7_1 t) (hs7_1 t) (ms7_2 t) (hs7_2 t) scM7_0 (Memref.isWhole_whole _) scM7_1 (Memref.isWhole_whole _) ((hcond7_0 t).mpr h0) (mt (hcond7_1 t).mp (by omega)) (iblk7 V c 0 t)) := by
  obtain ⟨_ | n, hn⟩ := t
  exacts [rfl, absurd h0 (Nat.succ_ne_zero n)]

theorem outsAt7_B (c : Dev nD) (t : Fin cfg7.N) (h0 : ¬t.val = 0) (h1 : ¬t.val = 19) :
    outsAt7 V c t.val t.isLt = (idle7_1, idle7_2, sout7_B_0 c (grid7.coords t) (ms7_0 t) (hs7_0 t) (ms7_1 t) (hs7_1 t) (ms7_2 t) (hs7_2 t) scM7_0 (Memref.isWhole_whole _) scM7_1 (Memref.isWhole_whole _) (mt (hcond7_0 t).mp h0) (mt (hcond7_1 t).mp h1) (iblk7 V c 0 t) (outsAt7 V c (t.val - 1) (before7_lt t)).2.2.1 (outsAt7 V c (t.val - 1) (before7_lt t)).2.2.2, sout7_B_1 c (grid7.coords t) (ms7_0 t) (hs7_0 t) (ms7_1 t) (hs7_1 t) (ms7_2 t) (hs7_2 t) scM7_0 (Memref.isWhole_whole _) scM7_1 (Memref.isWhole_whole _) (mt (hcond7_0 t).mp h0) (mt (hcond7_1 t).mp h1) (iblk7 V c 0 t) (outsAt7 V c (t.val - 1) (before7_lt t)).2.2.1 (outsAt7 V c (t.val - 1) (before7_lt t)).2.2.2) := by
  obtain ⟨_ | n, hn⟩ := t
  exacts [absurd rfl h0, (dif_neg h1).trans rfl]

theorem outsAt7_C (c : Dev nD) (t : Fin cfg7.N) (h0 : ¬t.val = 0) (h1 : t.val = 19) :
    outsAt7 V c t.val t.isLt = (out7_C_1 c (grid7.coords t) (ms7_0 t) (hs7_0 t) (ms7_1 t) (hs7_1 t) (ms7_2 t) (hs7_2 t) scM7_0 (Memref.isWhole_whole _) scM7_1 (Memref.isWhole_whole _) (mt (hcond7_0 t).mp h0) ((hcond7_1 t).mpr h1) (iblk7 V c 0 t) (outsAt7 V c (t.val - 1) (before7_lt t)).2.2.1 (outsAt7 V c (t.val - 1) (before7_lt t)).2.2.2, out7_C_2 c (grid7.coords t) (ms7_0 t) (hs7_0 t) (ms7_1 t) (hs7_1 t) (ms7_2 t) (hs7_2 t) scM7_0 (Memref.isWhole_whole _) scM7_1 (Memref.isWhole_whole _) (mt (hcond7_0 t).mp h0) ((hcond7_1 t).mpr h1) (iblk7 V c 0 t) (outsAt7 V c (t.val - 1) (before7_lt t)).2.2.1 (outsAt7 V c (t.val - 1) (before7_lt t)).2.2.2, sout7_C_0 c (grid7.coords t) (ms7_0 t) (hs7_0 t) (ms7_1 t) (hs7_1 t) (ms7_2 t) (hs7_2 t) scM7_0 (Memref.isWhole_whole _) scM7_1 (Memref.isWhole_whole _) (mt (hcond7_0 t).mp h0) ((hcond7_1 t).mpr h1) (iblk7 V c 0 t) (outsAt7 V c (t.val - 1) (before7_lt t)).2.2.1 (outsAt7 V c (t.val - 1) (before7_lt t)).2.2.2, sout7_C_1 c (grid7.coords t) (ms7_0 t) (hs7_0 t) (ms7_1 t) (hs7_1 t) (ms7_2 t) (hs7_2 t) scM7_0 (Memref.isWhole_whole _) scM7_1 (Memref.isWhole_whole _) (mt (hcond7_0 t).mp h0) ((hcond7_1 t).mpr h1) (iblk7 V c 0 t) (outsAt7 V c (t.val - 1) (before7_lt t)).2.2.1 (outsAt7 V c (t.val - 1) (before7_lt t)).2.2.2) := by
  obtain ⟨_ | n, hn⟩ := t
  exacts [absurd rfl h0, (dif_pos h1).trans rfl]

/-- The loop invariant: the entry invariant before the first point, afterwards the same with the accumulators at what the point before left. -/
def PhiS7 (c : Dev nD) (n : ℕ) (h : n ≤ cfg7.N) : sProp 𝕄 :=
  if hz : n = 0 then Pipeline.ΦA spec7 c else
    iprop(iprop(iprop(owns c scM7_0 fullShare (outsAt7 V c (n - 1) (by omega)).2.2.1 ∗ owns c scM7_1 fullShare (outsAt7 V c (n - 1) (by omega)).2.2.2) ∗ rest7 c) ∗ (∃ r, prngReg c r))

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => (outsAt7 V c t.val t.isLt).1
    | ⟨2, _⟩ => (outsAt7 V c t.val t.isLt).2.1
  Φ t := PhiS7 V c t.val (Nat.le_of_lt_succ t.isLt)
  q _ := fullShare
  owed _ := 0

theorem A_eq7 (c : Dev nD) (w : Fin cfg7.W) : (dat7 V c).A w = V c (Pipeline.arrRef spec7 w) := rfl

theorem after7_0 (c : Dev nD) (t : Fin cfg7.N) : (dat7 V c).after 0 t = iblk7 V c 0 t := rfl
theorem after7_1 (c : Dev nD) (t : Fin cfg7.N) : (dat7 V c).after 1 t = (outsAt7 V c t.val t.isLt).1 := rfl
theorem after7_2 (c : Dev nD) (t : Fin cfg7.N) : (dat7 V c).after 2 t = (outsAt7 V c t.val t.isLt).2.1 := rfl

theorem before7_0 (c : Dev nD) (t : Fin cfg7.N) (d) : (dat7 V c).before 0 t d = iblk7 V c 0 t :=
  ((dat7 V c).before_in_eq_fetched 0 rfl (fun _ => rfl) (fun _ _ _ => rfl) (fun t => by rw [after7_0]; unfold Dat.blockOf iblk7; rw [A_eq7]; try rfl) t d).trans
    (by unfold Dat.fetched Dat.blockOf iblk7; rw [A_eq7]; try rfl)

def bodyPre7 (c : Dev nD) (t : Fin cfg7.N) : sProp 𝕄 :=
  iprop((dat7 V c).Φ t.castSucc ∗ (dat7 V c).owesAt () t.castSucc
    ∗ (∃ d, owns c (ms7_0 t) fullShare ((dat7 V c).before 0 t d))
    ∗ (∃ d, owns c (ms7_1 t) fullShare ((dat7 V c).before 1 t d))
    ∗ (∃ d, owns c (ms7_2 t) fullShare ((dat7 V c).before 2 t d)))

def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t)

/-- Pieces that cover the shape fix every element, so what is read back depends neither on the view nor on the earlier contents. -/
theorem cover7_owns {c : Dev nD} {M : Memref sig .tc .vmem S1x32 .f32} (v : View sig .tc .vmem S1x32 .f32) {L : List (View.Piece (Elt F) S1x32 .f32)}
    (h : ∀ y, ∃ pc ∈ L, y ∈ pc.1.set) :
    (∃ f, M.view.loc c ↦[M.view.set]{fullShare} M.view.writes (Elt F) f L : sProp 𝕄)
      ⊢ owns c M fullShare (v.read (Elt F) (v.writes (Elt F) v.junk L)) := by
  unfold owns; iintro ⟨%f, H⟩; iexists M.view.writes (Elt F) f L; isplitr
  · ipureintro; exact View.read_writes_of_cover _ _ _ _ _ h
  iexact H

/- At every point the case's run takes the tile and the carried accumulators and leaves what `outsAt7` says; its stores cover what they fill. -/
set_option maxHeartbeats 4800000 in
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0]
  rw [show (dat7 V c).owesAt () t.succ = (dat7 V c).owesAt () t.castSucc from rfl,
    show (dat7 V c).Φ t.succ = PhiS7 V c (t.val + 1) t.isLt from rfl, PhiS7, dif_neg (Nat.add_one_ne_zero _),
    show (dat7 V c).leavesExact 0 t = owns c (ms7_0 t) fullShare ((dat7 V c).after 0 t) from by
      unfold Dat.leavesExact; rw [liveAt7_0 t], after7_0,
    show (dat7 V c).Φ t.castSucc = PhiS7 V c t.val (Nat.le_of_lt t.isLt) from rfl, PhiS7]
  simp only [Nat.add_sub_cancel]
  by_cases h1 : t.val = 19
  · have h0 : ¬t.val = 0 := by omega
    have hc1 : cond7_1 (grid7.coords t) := (hcond7_1 t).mpr h1
    rw [dif_neg h0, show (dat7 V c).leavesExact 1 t = owns c (ms7_1 t) fullShare ((dat7 V c).after 1 t) from by
        unfold Dat.leavesExact; rw [liveAt7_1 t hc1], after7_1,
      show (dat7 V c).leavesExact 2 t = owns c (ms7_2 t) fullShare ((dat7 V c).after 2 t) from by
        unfold Dat.leavesExact; rw [liveAt7_2 t hc1], after7_2, outsAt7_C V c t h0 h1]
    unfold out7_C_1 out7_C_2 sout7_C_0 sout7_C_1; (try dsimp only)
    iintro ⟨⟨⟨⟨HS0, HS1⟩, Hr⟩, Hg⟩, Ho, ⟨%d0, H0⟩, ⟨%d1, H1⟩, ⟨%d2, H2⟩⟩
    iapply ((kernelRun7_C c (grid7.coords t) _ _ _ _ _ _ _ _ _ _ (mt (hcond7_0 t).mp h0) hc1 (iblk7 V c 0 t) _ _).2.2.2.2 Set.univ _)
    iframe H0 HS0 HS1
    isplitl [H1]; · iexists _; iexact H1
    isplitl [H2]; · iexists _; iexact H2
    iintro ⟨H0, H1, H2, HS0, HS1⟩
    iframe Hr Hg Ho H0
    isplitl [HS0 HS1]
    · isplitl [HS0]
      · iapply cover7_owns _ (fun _ => scover7_C_0 ..); iexact HS0
      iapply cover7_owns _ (fun _ => scover7_C_1 ..); iexact HS1
    isplitl [H1]
    · iapply cover7_owns _ (fun _ => cover7_C_1 ..); iexact H1
    iapply cover7_owns _ (fun _ => cover7_C_2 ..); iexact H2
  have hc1 : ¬cond7_1 (grid7.coords t) := mt (hcond7_1 t).mp h1
  rw [Dat.leavesExact_idle _ 1 t (idleAt7_1 t hc1) (noFlush7_1 t hc1), Dat.leavesExact_idle _ 2 t (idleAt7_2 t hc1) (noFlush7_2 t hc1)]
  by_cases h0 : t.val = 0
  · rw [dif_pos h0, PhiA7_eq, outsAt7_A V c t h0]
    unfold sout7_A_0 sout7_A_1; (try dsimp only)
    iintro ⟨⟨⟨⟨HS0, HS1⟩, Hr⟩, Hg⟩, Ho, ⟨%d0, H0⟩, ⟨%d1, H1⟩, ⟨%d2, H2⟩⟩
    iapply ((kernelRun7_A c (grid7.coords t) _ _ _ _ _ _ _ _ _ _ ((hcond7_0 t).mpr h0) hc1 (iblk7 V c 0 t)).2.2 _ _ Set.univ _)
    iframe H0 H1 H2 HS0 HS1
    iintro ⟨H0, H1, H2, HS0, HS1⟩
    iframe Hr Hg Ho H0
    isplitl [HS0 HS1]
    · isplitl [HS0]
      · iapply cover7_owns _ (fun _ => scover7_A_0 ..); iexact HS0
      iapply cover7_owns _ (fun _ => scover7_A_1 ..); iexact HS1
    isplitl [H1]; · iexists _; iexact H1
    iexists _; iexact H2
  rw [dif_neg h0, outsAt7_B V c t h0 h1]
  unfold sout7_B_0 sout7_B_1; (try dsimp only)
  iintro ⟨⟨⟨⟨HS0, HS1⟩, Hr⟩, Hg⟩, Ho, ⟨%d0, H0⟩, ⟨%d1, H1⟩, ⟨%d2, H2⟩⟩
  iapply ((kernelRun7_B c (grid7.coords t) _ _ _ _ _ _ _ _ _ _ (mt (hcond7_0 t).mp h0) hc1 (iblk7 V c 0 t) _ _).2.2 _ _ Set.univ _)
  iframe H0 H1 H2 HS0 HS1
  iintro ⟨H0, H1, H2, HS0, HS1⟩
  iframe Hr Hg Ho H0
  isplitl [HS0 HS1]
  · isplitl [HS0]
    · iapply cover7_owns _ (fun _ => scover7_B_0 ..); iexact HS0
    iapply cover7_owns _ (fun _ => scover7_B_1 ..); iexact HS1
  isplitl [H1]; · iexists _; iexact H1
  iexists _; iexact H2

theorem body_obligation7 (c : Dev nD) : BodyObligation (dat7 (F := F) V c) (defs₀ (F := F)) Variants.none () Set.univ := fun t => by
  rw [bigSep_W7, bigSep_W7]
  exact sound_body7 V c t

theorem hin7 (c : Dev nD) : Pipeline.ΦA spec7 c ⊢ (dat7 V c).Φ 0 := by
  rw [show (dat7 V c).Φ 0 = PhiS7 V c 0 (Nat.zero_le _) from rfl, PhiS7, dif_pos rfl]

theorem Phi_out7 (c : Dev nD) (t : Fin (cfg7.N + 1)) (ht : t.val ≠ 0) : (dat7 V c).Φ t ⊢ Pipeline.ΦA spec7 c := by
  rw [show (dat7 V c).Φ t = PhiS7 V c t.val (Nat.le_of_lt_succ t.isLt) from rfl, PhiS7, dif_neg ht, PhiA7_eq]
  iintro ⟨⟨⟨HS0, HS1⟩, Hr⟩, Hg⟩
  iframe Hr Hg
  isplitl [HS0]; · iexists _; iexact HS0
  iexists _; iexact HS1

theorem hout7 (c : Dev nD) : (dat7 V c).Φ (Fin.last cfg7.N) ⊢ Pipeline.ΦA spec7 c :=
  Phi_out7 V c _ (by rw [Fin.val_last]; have : cfg7.N = 20 := N_7; omega)

end Cert.Kernel.Hand

end
-- ==== Proof.BReg8.lean ====
import proofs.«419458_j79517024518684_2_alg».proof.Proof.Gen.Kernel.Launch
import proofs.«419458_j79517024518684_2_alg».proof.Proof.Gen.Kernel.Skeleton
import proofs.«419458_j79517024518684_2_alg».proof.Proof.Gen.Kernel.Points
import Idealize.ShloMosaic.Lib.Pipeline.FrameBody
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev r8_t : Rect S20000x32 := Rect.unit (s := S20000x32) ![0, 0] S20000x32.size inb_S20000x32_S20000x32_0_0
abbrev r8_r : Rect S1x32 := Rect.unit (s := S1x32) ![0, 0] S1x32.size inb_S1x32_S1x32_0_0

def out8_5 (x0 : Vec F S20000x32 .f32) (x1 x2 x3 x4 : Vec F S1x32 .f32) : Vec F S20000x32 .f32 :=
  View.canon [⟨r8_t, k8_pay1 (View.ld x0 r8_t) (View.ld x1 r8_r) (View.ld x2 r8_r) (View.ld x3 r8_r) (View.ld x4 r8_r)⟩]

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

theorem A_eq8 (c : Dev nD) (w : Fin cfg8.W) : (dat8 V c).A w = V c (Pipeline.arrRef spec8 w) := rfl

theorem after8_5 (c : Dev nD) (t : Fin cfg8.N) : (dat8 V c).after 5 t = out8_5 ((dat8 V c).after 0 t) ((dat8 V c).after 1 t) ((dat8 V c).after 2 t) ((dat8 V c).after 3 t) ((dat8 V c).after 4 t) := by dsimp only [dat8]

-- The body writes none of its five inputs.
theorem before8 (c : Dev nD) (t : Fin cfg8.N) : ∀ w : Fin cfg8.W, (cfg8.win w).isOut = false → ∀ d, (dat8 V c).before w t d = (dat8 V c).after w t
  | 0, h | 1, h | 2, h | 3, h | 4, h => (dat8 V c).before_in_eq_fetched _ h (fun _ => rfl) (fun _ _ _ => rfl) (fun _ => rfl) t
  | 5, h => nomatch h

-- At every point the body loads its five inputs, which hold their blocks, and stores the mapped tile over the whole output tile.
theorem body_obligation8 (c : Dev nD) : BodyObligation (dat8 (F := F) V c) (defs₀ (F := F)) Variants.none () Set.univ := fun t => by
  rw [bigSep_W8, bigSep_W8]
  show _ ⊢ wp frame _ _ (bodyAt8 t) _
  have hb := before8 V c t
  simp only [hb 0 rfl, hb 1 rfl, hb 2 rfl, hb 3 rfl, hb 4 rfl, show ∀ w i, cfg8.idle w i = false from fun _ _ => rfl]
  rw [show (dat8 V c).Φ t.succ = (dat8 V c).Φ t.castSucc from rfl, show (dat8 V c).owesAt () t.succ = (dat8 V c).owesAt () t.castSucc from rfl]
  unfold bodyAt8
  simp only [cc8_kernel_eq_skeleton]; unfold cc8_kernel_skel owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩⟩
  sl_exec
  sl_step
  iframe HΦ Ho
  isplitl [H0]; · iexists f0; iframe H0; ipureintro; exact hf0
  isplitl [H1]; · iexists f1; iframe H1; ipureintro; exact hf1
  isplitl [H2]; · iexists f2; iframe H2; ipureintro; exact hf2
  isplitl [H3]; · iexists f3; iframe H3; ipureintro; exact hf3
  isplitl [H4]; · iexists f4; iframe H4; ipureintro; exact hf4
  iexists _; iframe H5; ipureintro
  rw [after8_5, ← hf0, ← hf1, ← hf2, ← hf3, ← hf4]
  exact View.read_writes_eq_canon _ _ _ (View.cover_of_tiled _ S20000x32.size (by rfl))

end Cert.Kernel.Hand

end
-- ==== Proof.BReg9.lean ====
import proofs.«419458_j79517024518684_2_alg».proof.Proof.Gen.Kernel.Launch
import proofs.«419458_j79517024518684_2_alg».proof.Proof.Gen.Kernel.Skeleton
import proofs.«419458_j79517024518684_2_alg».proof.Proof.Gen.Kernel.Points
import Idealize.ShloMosaic.Lib.Pipeline.FrameBody
import Idealize.ShloMosaic.Lib.Tactic

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

def out9_2 (x0 : Vec F S20000x32 .f32) (x1 : Vec F S32x32 .f32) : Vec F S20000x32 .f32 :=
  View.canon [⟨Rect.unit (s := S20000x32) ![0, 0] S20000x32.size inb_S20000x32_S20000x32_0_0,
    k9_pay1 (View.ld x0 (Rect.unit (s := S20000x32) ![0, 0] S20000x32.size inb_S20000x32_S20000x32_0_0))
      (View.ld x1 (Rect.unit (s := S32x32) ![0, 0] S32x32.size inb_S32x32_S32x32_0_0))⟩]

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => out9_2 (iblk9 V c 0 t) (iblk9 V c 1 t)
  Φ _ := Pipeline.ΦA spec9 c
  q _ := fullShare
  owed _ := 0

theorem A_eq9 (c : Dev nD) (w : Fin cfg9.W) : (dat9 V c).A w = V c (Pipeline.arrRef spec9 w) := rfl

theorem after9_2 (c : Dev nD) (t : Fin cfg9.N) : (dat9 V c).after 2 t = out9_2 (iblk9 V c 0 t) (iblk9 V c 1 t) := by dsimp only [dat9]

theorem before9_0 (c : Dev nD) (t : Fin cfg9.N) (d) : (dat9 V c).before 0 t d = iblk9 V c 0 t :=
  (dat9 V c).before_in_eq_fetched 0 rfl (fun _ => rfl) (fun _ _ _ => rfl) (fun _ => rfl) t d
theorem before9_1 (c : Dev nD) (t : Fin cfg9.N) (d) : (dat9 V c).before 1 t d = iblk9 V c 1 t :=
  (dat9 V c).before_in_eq_fetched 1 rfl (fun _ => rfl) (fun _ _ _ => rfl) (fun _ => rfl) t d

-- the body leaves the product of the two input blocks in the output tile and keeps everything else as it was
theorem sound_kernel9 (c : Dev nD) {i : grid9.Coords} {arg1 : Memref sig .tc .vmem S20000x32 .f32} {harg1 : arg1.IsWhole}
    {arg2 : Memref sig .tc .vmem S32x32 .f32} {harg2 : arg2.IsWhole} {arg3 : Memref sig .tc .vmem S20000x32 .f32} {harg3 : arg3.IsWhole}
    {x0 : Vec F S20000x32 .f32} {x1 : Vec F S32x32 .f32} {R S : sProp 𝕄} {D0 D1 D2 : Type} {b0 : D0 → Vec F S20000x32 .f32}
    {b1 : D1 → Vec F S32x32 .f32} {b2 : D2 → Vec F S20000x32 .f32} (h0 : ∀ d, b0 d = x0) (h1 : ∀ d, b1 d = x1) :
    iprop(R ∗ S ∗ (∃ d, owns c arg1 fullShare (b0 d)) ∗ (∃ d, owns c arg2 fullShare (b1 d)) ∗ ∃ d, owns c arg3 fullShare (b2 d))
      ⊢ wp frame (wpE (defs₀ (F := F)) Variants.none c none) Set.univ (cc9__linear_kernel i arg1 harg1 arg2 harg2 arg3 harg3) fun _ =>
        iprop(R ∗ S ∗ owns c arg1 fullShare x0 ∗ owns c arg2 fullShare x1 ∗ owns c arg3 fullShare (out9_2 x0 x1)) := by
  simp only [h0, h1, cc9__linear_kernel_eq_skeleton]; unfold cc9__linear_kernel_skel owns
  iintro ⟨HR, HS, ⟨%d0, %f0, %hf0, H0⟩, ⟨%d1, %f1, %hf1, H1⟩, ⟨%d2, %f2, -, H2⟩⟩
  subst hf0 hf1
  sl_exec
  sl_step
  iframe HR HS
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S20000x32.size (by rfl))

theorem body_obligation9 (c : Dev nD) : BodyObligation (dat9 (F := F) V c) (defs₀ (F := F)) Variants.none () Set.univ := fun t => by
  rw [bigSep_W9, bigSep_W9]
  dsimp only [dat9]
  exact (sound_kernel9 c (before9_0 V c t) (before9_1 V c t) : _ ⊢ wp _ _ _ (bodyAt9 t) _)

end Cert.Kernel.Hand

end
-- ==== Proof.BReg10Runs.lean ====
import proofs.«419458_j79517024518684_2_alg».proof.Proof.Gen.Kernel.Launch
import proofs.«419458_j79517024518684_2_alg».proof.Proof.Gen.Kernel.Skeleton
import proofs.«419458_j79517024518684_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off the array the region finds. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

abbrev cond10_0 (i : grid10.Coords) : Prop := (Scalar.cmpi .ne (Scalar.extui (Scalar.cmpi .eq (BitVec.ofNat 32 (i 0).val) 0#32)) 0#32) = 1#1

/-- The first condition holds at the first point only, the second at the last point only. -/
theorem hcond10_0 : ∀ t : Fin cfg10.N, cond10_0 (grid10.coords t) ↔ t.val = 0 :=
  (by decide +kernel : ∀ t : Fin grid10.N, cond10_0 (grid10.coords t) ↔ t.val = 0)

abbrev cond10_1 (i : grid10.Coords) : Prop := k10_cond2 i = 1#1

theorem hcond10_1 : ∀ t : Fin cfg10.N, cond10_1 (grid10.coords t) ↔ t.val = 49 :=
  (by decide +kernel : ∀ t : Fin grid10.N, cond10_1 (grid10.coords t) ↔ t.val = 49)

theorem idleAt10_2 : ∀ t : Fin cfg10.N, ¬cond10_1 (grid10.coords t) → cfg10.idle 2 (grid10.coords t) = true := by decide +kernel

theorem noFlush10_2 : ∀ t : Fin cfg10.N, ¬cond10_1 (grid10.coords t) → (cfg10.win 2).flush t = false := by decide +kernel

theorem liveAt10_2 : ∀ t : Fin cfg10.N, cond10_1 (grid10.coords t) → cfg10.idle 2 (grid10.coords t) = false := by decide +kernel

abbrev ms10_0 (t : Fin cfg10.N) : Memref sig .tc .vmem S8000x32 .f32 := win10_0.stage (cfg10.slots t 0)
abbrev ms10_1 (t : Fin cfg10.N) : Memref sig .tc .vmem S8000x1 .i32 := win10_1.stage (cfg10.slots t 1)
abbrev ms10_2 (t : Fin cfg10.N) : Memref sig .tc .vmem S512x32 .f32 := win10_2.stage (cfg10.slots t 2)

abbrev scM10_0 : Memref sig .tc .vmem S512x32 .f32 := Memref.whole cc10_scratch0

abbrev rest10 (c : Dev nD) : sProp 𝕄 :=
  Pipeline.scopedRestBut (Ix := Unit) (Name := ℕ) (U := UR sig nD τ) (Lvl := ℕ) (Val := Elt F) spec10 c [cc10_scratch0]

/-- The region's invariant with the accumulator split off, owned at some contents. -/
theorem PhiA10_eq (c : Dev nD) :
    (Pipeline.ΦA spec10 c : sProp 𝕄)
      = iprop(iprop(iprop((∃ d, owns (c : Thread nD τ) scM10_0 fullShare d)) ∗ rest10 c) ∗ (∃ r, prngReg c r)) := by
  unfold Pipeline.ΦA; rw [scopedRest10_split]; simp only [scM10_0, owns_whole]; try rfl

theorem hz10 : (![0, 0] : Fin 2 → Nat) = fun _ => 0 := funext fun a => by fin_cases a <;> rfl

/-- One point's update of the accumulator: the tile's one-hot product added to what it held. -/
abbrev step10 (x0 : Vec F S8000x32 .f32) (x1 : Vec F S8000x1 .i32) (xs : Vec F S512x32 .f32) : Vec F S512x32 .f32 :=
  k10_pay2 x1 x0 xs

variable (c : Dev nD) (i : grid10.Coords) (arg1 : Memref sig .tc .vmem S8000x32 .f32) (harg1 : arg1.IsWhole) (arg2 : Memref sig .tc .vmem S8000x1 .i32) (harg2 : arg2.IsWhole)
  (arg3 : Memref sig .tc .vmem S512x32 .f32) (harg3 : arg3.IsWhole) (arg4 : Memref sig .tc .vmem S512x32 .f32) (harg4 : arg4.IsWhole)
  (x0 : Vec F S8000x32 .f32) (x1 : Vec F S8000x1 .i32)

/-- First point: the accumulator, found at anything, is zeroed and ends at the update of the zero block; a covering store reads back as its payload. -/
theorem kernelRun10_A (hc0 : cond10_0 i) (hc1 : ¬cond10_1 i) (xi2 : Vec F S512x32 .f32) (E : Set ℕ) (K : PUnit → sProp 𝕄) :
    iprop(owns (c : Thread nD τ) arg1 fullShare x0 ∗ owns (c : Thread nD τ) arg2 fullShare x1 ∗ owns (c : Thread nD τ) arg3 fullShare xi2 ∗ (∃ d, owns (c : Thread nD τ) arg4 fullShare d)
        ∗ (iprop(owns (c : Thread nD τ) arg1 fullShare x0 ∗ owns (c : Thread nD τ) arg2 fullShare x1 ∗ owns (c : Thread nD τ) arg3 fullShare xi2 ∗ owns (c : Thread nD τ) arg4 fullShare (step10 x0 x1 (k10_pay1 (F := F)))) -∗ K ⟨⟩))
      ⊢ wp frame (wpE (defs₀ (F := F)) Variants.none c none) E (cc10__pool_kernel i arg1 harg1 arg2 harg2 arg3 harg3 arg4 harg4) K := by
  simp only [cc10__pool_kernel_eq_skeleton]; unfold cc10__pool_kernel_skel
  unfold owns
  iintro ⟨⟨%f0, %hf0, H0⟩, ⟨%f1, %hf1, H1⟩, ⟨%f2, %hf2, H2⟩, ⟨%ds0, %fs0, -, HS0⟩, Hk⟩
  obtain rfl := harg1.eq_unread hf0; obtain rfl := harg2.eq_unread hf1; obtain rfl := harg3.eq_unread hf2
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact HS0
  ipureintro
  refine (View.read_writes_eq_canon _ _ _ (View.cover_of_tiledL _ S512x32.size ?_)).trans ?_
  · sl_kernel_rfl
  sl_unfold_words
  rw [View.canon_cons_unit_zero (S := S512x32) hz10, View.readCov_unit_zero (S := S512x32) _ hz10]
  simp only [View.readAt_eq_ld, harg1.read_unread, harg2.read_unread, View.ld_unit_zero (S := S8000x32) hz10, View.ld_unit_zero (S := S8000x1) hz10]

/-- A middle point: the accumulator ends at the update of what it held. -/
theorem kernelRun10_B (hc0 : ¬cond10_0 i) (hc1 : ¬cond10_1 i) (xs0 xi2 : Vec F S512x32 .f32) (E : Set ℕ) (K : PUnit → sProp 𝕄) :
    iprop(owns (c : Thread nD τ) arg1 fullShare x0 ∗ owns (c : Thread nD τ) arg2 fullShare x1 ∗ owns (c : Thread nD τ) arg3 fullShare xi2 ∗ owns (c : Thread nD τ) arg4 fullShare xs0
        ∗ (iprop(owns (c : Thread nD τ) arg1 fullShare x0 ∗ owns (c : Thread nD τ) arg2 fullShare x1 ∗ owns (c : Thread nD τ) arg3 fullShare xi2 ∗ owns (c : Thread nD τ) arg4 fullShare (step10 x0 x1 xs0)) -∗ K ⟨⟩))
      ⊢ wp frame (wpE (defs₀ (F := F)) Variants.none c none) E (cc10__pool_kernel i arg1 harg1 arg2 harg2 arg3 harg3 arg4 harg4) K := by
  simp only [cc10__pool_kernel_eq_skeleton]; unfold cc10__pool_kernel_skel
  unfold owns
  iintro ⟨⟨%f0, %hf0, H0⟩, ⟨%f1, %hf1, H1⟩, ⟨%f2, %hf2, H2⟩, ⟨%fs0, %hfs0, HS0⟩, Hk⟩
  obtain rfl := harg1.eq_unread hf0; obtain rfl := harg2.eq_unread hf1; obtain rfl := harg3.eq_unread hf2; obtain rfl := harg4.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact HS0
  ipureintro
  refine (View.read_writes_eq_canon _ _ _ (View.cover_of_tiledL _ S512x32.size ?_)).trans ?_
  · sl_kernel_rfl
  try sl_unfold_words
  rw [View.canon_unit_zero hz10]
  simp only [View.readAt_eq_ld, harg1.read_unread, harg2.read_unread, harg4.read_unread, View.ld_unit_zero (S := S8000x32) hz10, View.ld_unit_zero (S := S8000x1) hz10, View.ld_unit_zero (S := S512x32) hz10]

/-- Last point: as at a middle point, and the output window ends at the same contents. -/
theorem kernelRun10_C (hc0 : ¬cond10_0 i) (hc1 : cond10_1 i) (xs0 : Vec F S512x32 .f32) (E : Set ℕ) (K : PUnit → sProp 𝕄) :
    iprop(owns (c : Thread nD τ) arg1 fullShare x0 ∗ owns (c : Thread nD τ) arg2 fullShare x1 ∗ (∃ d, owns (c : Thread nD τ) arg3 fullShare d) ∗ owns (c : Thread nD τ) arg4 fullShare xs0
        ∗ (iprop(owns (c : Thread nD τ) arg1 fullShare x0 ∗ owns (c : Thread nD τ) arg2 fullShare x1 ∗ owns (c : Thread nD τ) arg3 fullShare (step10 x0 x1 xs0) ∗ owns (c : Thread nD τ) arg4 fullShare (step10 x0 x1 xs0)) -∗ K ⟨⟩))
      ⊢ wp frame (wpE (defs₀ (F := F)) Variants.none c none) E (cc10__pool_kernel i arg1 harg1 arg2 harg2 arg3 harg3 arg4 harg4) K := by
  simp only [cc10__pool_kernel_eq_skeleton]; unfold cc10__pool_kernel_skel
  unfold owns
  iintro ⟨⟨%f0, %hf0, H0⟩, ⟨%f1, %hf1, H1⟩, ⟨%d2, %f2, -, H2⟩, ⟨%fs0, %hfs0, HS0⟩, Hk⟩
  obtain rfl := harg1.eq_unread hf0; obtain rfl := harg2.eq_unread hf1; obtain rfl := harg4.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    refine (View.read_writes_eq_canon _ _ _ (View.cover_of_tiledL _ S512x32.size ?_)).trans ?_
    · sl_kernel_rfl
    sl_unfold_words
    rw [View.canon_unit_zero hz10, View.readCov_unit_zero (S := S512x32) _ hz10]
    simp only [View.readAt_eq_ld, harg1.read_unread, harg2.read_unread, harg4.read_unread, View.ld_unit_zero (S := S8000x32) hz10, View.ld_unit_zero (S := S8000x1) hz10, View.ld_unit_zero (S := S512x32) hz10]
  iexists _; isplitr
  swap; · iexact HS0
  ipureintro
  refine (View.read_writes_eq_canon _ _ _ (View.cover_of_tiledL _ S512x32.size ?_)).trans ?_
  · sl_kernel_rfl
  try sl_unfold_words
  rw [View.canon_unit_zero hz10]
  simp only [View.readAt_eq_ld, harg1.read_unread, harg2.read_unread, harg4.read_unread, View.ld_unit_zero (S := S8000x32) hz10, View.ld_unit_zero (S := S8000x1) hz10, View.ld_unit_zero (S := S512x32) hz10]

end Cert.Kernel.Hand

end
-- ==== Proof.BReg10.lean ====
import proofs.«419458_j79517024518684_2_alg».proof.Proof.BReg10Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The accumulator after point `n`: the first tile's update of the zero block, then each tile's update of what the point before left. -/
def acc10 (c : Dev nD) : (n : ℕ) → n < cfg10.N → Vec F S512x32 .f32
  | 0, hn => step10 (iblk10 V c 0 ⟨0, hn⟩) (iblk10 V c 1 ⟨0, hn⟩) (k10_pay1 (F := F))
  | n + 1, hn => step10 (iblk10 V c 0 ⟨n + 1, hn⟩) (iblk10 V c 1 ⟨n + 1, hn⟩) (acc10 c n (Nat.lt_of_succ_lt hn))

theorem acc10_zero (c : Dev nD) (t : Fin cfg10.N) (h0 : t.val = 0) :
    acc10 V c t.val t.isLt = step10 (iblk10 V c 0 t) (iblk10 V c 1 t) (k10_pay1 (F := F)) := by
  obtain ⟨n, hn⟩ := t
  cases n with
  | zero => rfl
  | succ n => exact absurd h0 (Nat.succ_ne_zero n)

theorem acc10_pos (c : Dev nD) (t : Fin cfg10.N) (h0 : t.val ≠ 0) :
    acc10 V c t.val t.isLt = step10 (iblk10 V c 0 t) (iblk10 V c 1 t) (acc10 V c (t.val - 1) (Nat.lt_of_le_of_lt (Nat.sub_le _ _) t.isLt)) := by
  obtain ⟨n, hn⟩ := t
  cases n with
  | zero => exact absurd rfl h0
  | succ n => rfl

/-- Before the first point the accumulator is at anything; afterwards the invariant keeps it at what the point before left. -/
def PhiS10 (c : Dev nD) (n : ℕ) (h : n ≤ cfg10.N) : sProp 𝕄 :=
  if hz : n = 0 then Pipeline.ΦA spec10 c
  else iprop(iprop(owns (c : Thread nD τ) scM10_0 fullShare (acc10 V c (n - 1) (by omega)) ∗ rest10 c) ∗ (∃ r, prngReg c r))

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => acc10 V c t.val t.isLt
  Φ t := PhiS10 V c t.val (Nat.le_of_lt_succ t.isLt)
  q _ := fullShare
  owed _ := 0

theorem A_eq10 (c : Dev nD) (w : Fin cfg10.W) : (dat10 V c).A w = V c (Pipeline.arrRef spec10 w) := by
  dsimp only [dat10]

theorem after10_2 (c : Dev nD) (t : Fin cfg10.N) : (dat10 V c).after 2 t = acc10 V c t.val t.isLt := by dsimp only [dat10]

theorem before10 (c : Dev nD) (t : Fin cfg10.N) : ∀ w : Fin cfg10.W, w ≠ 2 → ∀ d, (dat10 V c).before w t d = (dat10 V c).fetched w t d := by
  intro w; fin_cases w <;> intro hw d
  on_goal 3 => exact absurd rfl hw
  all_goals exact (dat10 V c).before_in_eq_fetched _ rfl (fun _ => rfl) (fun _ _ _ => rfl) (fun _ => rfl) t d

/-- The point is the last, the first or a middle one, and that case's run applies; the invariant hands the accumulator over and takes it back at this point's contents. -/
theorem sound_body10 (c : Dev nD) (t : Fin cfg10.N) :
    iprop(PhiS10 V c t.val (Nat.le_of_lt t.isLt) ∗ (dat10 V c).owesAt () t.castSucc
      ∗ (∃ d, owns (c : Thread nD τ) (ms10_0 t) fullShare ((dat10 V c).before 0 t d))
      ∗ (∃ d, owns (c : Thread nD τ) (ms10_1 t) fullShare ((dat10 V c).before 1 t d))
      ∗ (∃ d, owns (c : Thread nD τ) (ms10_2 t) fullShare ((dat10 V c).before 2 t d)))
    ⊢ wp frame (wpE (defs₀ (F := F)) Variants.none c none) Set.univ (bodyAt10 t) (fun _ =>
      iprop(iprop(iprop(owns (c : Thread nD τ) scM10_0 fullShare (acc10 V c t.val t.isLt) ∗ rest10 c) ∗ (∃ r, prngReg c r)) ∗ (dat10 V c).owesAt () t.castSucc
        ∗ owns (c : Thread nD τ) (ms10_0 t) fullShare (iblk10 V c 0 t)
        ∗ owns (c : Thread nD τ) (ms10_1 t) fullShare (iblk10 V c 1 t)
        ∗ (dat10 V c).leavesExact 2 t)) := by
  unfold bodyAt10
  simp (disch := decide) only [before10 V c t]
  by_cases h1 : t.val = 49
  · have h0 : t.val ≠ 0 := by omega
    have hc1 := (hcond10_1 t).mpr h1
    rw [show (dat10 V c).leavesExact 2 t = owns (c : Thread nD τ) (ms10_2 t) fullShare ((dat10 V c).after 2 t) from by
      unfold Dat.leavesExact; rw [liveAt10_2 t hc1], after10_2, acc10_pos V c t h0, PhiS10, dif_neg h0]
    iintro ⟨⟨⟨HS0, Hr⟩, Hg⟩, Ho, ⟨%d0, H0⟩, ⟨%d1, H1⟩, ⟨%d2, H2⟩⟩
    iapply (kernelRun10_C c (grid10.coords t) _ _ _ _ _ _ _ _ (iblk10 V c 0 t) (iblk10 V c 1 t) (mt (hcond10_0 t).mp h0) hc1 _ Set.univ _)
    isplitl [H0]; · iexact H0
    isplitl [H1]; · iexact H1
    isplitl [H2]; · iexists _; iexact H2
    isplitl [HS0]; · iexact HS0
    iintro ⟨H0, H1, H2, HS0⟩
    iframe
  have hc1 := mt (hcond10_1 t).mp h1
  rw [Dat.leavesExact_idle (dat10 V c) 2 t (idleAt10_2 t hc1) (noFlush10_2 t hc1)]
  by_cases h0 : t.val = 0
  on_goal 1 => rw [acc10_zero V c t h0, PhiS10, dif_pos h0, PhiA10_eq]
  on_goal 2 => rw [acc10_pos V c t h0, PhiS10, dif_neg h0]
  all_goals
    iintro ⟨⟨⟨HS0, Hr⟩, Hg⟩, Ho, ⟨%d0, H0⟩, ⟨%d1, H1⟩, ⟨%d2, H2⟩⟩
    first
      | iapply (kernelRun10_A c (grid10.coords t) _ _ _ _ _ _ _ _ (iblk10 V c 0 t) (iblk10 V c 1 t) ((hcond10_0 t).mpr h0) hc1 _ Set.univ _)
      | iapply (kernelRun10_B c (grid10.coords t) _ _ _ _ _ _ _ _ (iblk10 V c 0 t) (iblk10 V c 1 t) (mt (hcond10_0 t).mp h0) hc1 _ _ Set.univ _)
    isplitl [H0]; · iexact H0
    isplitl [H1]; · iexact H1
    isplitl [H2]; · iexact H2
    isplitl [HS0]; · iexact HS0
    iintro ⟨H0, H1, H2, HS0⟩
    iframe HS0 Hr Hg Ho H0 H1
    iexists _; iexact H2

theorem body_obligation10 (c : Dev nD) : BodyObligation (dat10 (F := F) V c) (defs₀ (F := F)) Variants.none () Set.univ := fun t => by
  rw [bigSep_W10, bigSep_W10]
  exact sound_body10 V c t

theorem hin10 (c : Dev nD) : Pipeline.ΦA spec10 c ⊢ (dat10 V c).Φ 0 := Idealize.SL.BI.Entails.refl _

/-- After the last point the accumulator's contents are forgotten. -/
theorem hout10 (c : Dev nD) : (dat10 V c).Φ (Fin.last cfg10.N) ⊢ Pipeline.ΦA spec10 c := by
  rw [show (dat10 V c).Φ (Fin.last cfg10.N) = PhiS10 V c cfg10.N (Nat.le_refl _) from rfl, PhiS10, dif_neg (by decide), PhiA10_eq]
  iintro ⟨⟨HS0, Hr⟩, Hg⟩
  iframe Hr Hg
  iexists _; iexact HS0

end Cert.Kernel.Hand

end
-- ==== Proof.BReg11.lean ====
import proofs.«419458_j79517024518684_2_alg».proof.Proof.Gen.Kernel.Launch
import proofs.«419458_j79517024518684_2_alg».proof.Proof.Gen.Kernel.Skeleton
import proofs.«419458_j79517024518684_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off the array the region finds. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

theorem hz11 : (![0, 0] : Fin 2 → Nat) = fun _ => 0 := funext fun a => by fin_cases a <;> rfl

/-- The head's result: the payload applied to the seven inputs. -/
def out11_7 (x0 : Vec F S512x32 .f32) (x1 : Vec F S32x32 .f32) (x2 : Vec F S1x32 .f32) (x3 : Vec F S1x32 .f32) (x4 : Vec F S1x32 .f32) (x5 : Vec F S32x2 .f32) (x6 : Vec F S1x2 .f32) : Vec F S512x2 .f32 :=
  k11_pay1 (k11_pay2 x0 x1 x2 x3 x4) (k11_pay3 x5) (constant S512x2 .f32 0x00000000#32) x6

/-- The body leaves every input as found and the output at `out11_7` of them: one covering store reads back as its payload, and a load of a whole array is the array. -/
theorem sound_kernel11 (c : Dev nD) (E : Set ℕ) (i : grid11.Coords)
    (arg1 : Memref sig .tc .vmem S512x32 .f32) (harg1 : arg1.IsWhole)
    (arg2 : Memref sig .tc .vmem S32x32 .f32) (harg2 : arg2.IsWhole)
    (arg3 : Memref sig .tc .vmem S1x32 .f32) (harg3 : arg3.IsWhole)
    (arg4 : Memref sig .tc .vmem S1x32 .f32) (harg4 : arg4.IsWhole)
    (arg5 : Memref sig .tc .vmem S1x32 .f32) (harg5 : arg5.IsWhole)
    (arg6 : Memref sig .tc .vmem S32x2 .f32) (harg6 : arg6.IsWhole)
    (arg7 : Memref sig .tc .vmem S1x2 .f32) (harg7 : arg7.IsWhole)
    (arg8 : Memref sig .tc .vmem S512x2 .f32) (harg8 : arg8.IsWhole)
    (x0 : Vec F S512x32 .f32) (x1 : Vec F S32x32 .f32) (x2 : Vec F S1x32 .f32) (x3 : Vec F S1x32 .f32) (x4 : Vec F S1x32 .f32) (x5 : Vec F S32x2 .f32) (x6 : Vec F S1x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out11_7 x0 x1 x2 x3 x4 x5 x6)) -∗ K ⟨⟩))
      ⊢ wp frame (wpE (defs₀ (F := F)) Variants.none c none) E (cc11__mlp_head_kernel i arg1 harg1 arg2 harg2 arg3 harg3 arg4 harg4 arg5 harg5 arg6 harg6 arg7 harg7 arg8 harg8) K := by
  simp only [cc11__mlp_head_kernel_eq_skeleton]; unfold cc11__mlp_head_kernel_skel
  simp only [k11_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  refine (View.read_writes_eq_canon _ _ _ (View.cover_of_tiled _ S512x2.size (by rfl))).trans ?_
  sl_unfold_words
  rw [View.canon_unit_zero hz11]
  simp only [out11_7, View.readAt_eq_ld, View.ld_unit_zero (S := S512x32) hz11, View.ld_unit_zero (S := S32x32) hz11,
    View.ld_unit_zero (S := S1x32) hz11, View.ld_unit_zero (S := S32x2) hz11, View.ld_unit_zero (S := S1x2) hz11]

def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => iblk11 V c 5 t
    | ⟨6, _⟩ => iblk11 V c 6 t
    | ⟨7, _⟩ => out11_7 (iblk11 V c 0 t) (iblk11 V c 1 t) (iblk11 V c 2 t) (iblk11 V c 3 t) (iblk11 V c 4 t) (iblk11 V c 5 t) (iblk11 V c 6 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_7 (c : Dev nD) (t : Fin cfg11.N) :
    (dat11 V c).after 7 t = out11_7 (iblk11 V c 0 t) (iblk11 V c 1 t) (iblk11 V c 2 t) (iblk11 V c 3 t) (iblk11 V c 4 t) (iblk11 V c 5 t) (iblk11 V c 6 t) := by dsimp only [dat11]

theorem before11 (c : Dev nD) (t : Fin cfg11.N) : ∀ w : Fin cfg11.W, w ≠ 7 → ∀ d, (dat11 V c).before w t d = (dat11 V c).fetched w t d := by
  intro w; fin_cases w <;> intro hw d
  on_goal 8 => exact absurd rfl hw
  all_goals exact (dat11 V c).before_in_eq_fetched _ rfl (fun _ => rfl) (fun _ _ _ => rfl) (fun _ => rfl) t d

theorem sound_body11 (c : Dev nD) (t : Fin cfg11.N) :
    iprop((dat11 V c).Φ t.castSucc ∗ (dat11 V c).owesAt () t.castSucc
      ∗ (∃ d, owns (c : Thread nD τ) (st11_0 t) fullShare ((dat11 V c).before 0 t d))
      ∗ (∃ d, owns (c : Thread nD τ) (st11_1 t) fullShare ((dat11 V c).before 1 t d))
      ∗ (∃ d, owns (c : Thread nD τ) (st11_2 t) fullShare ((dat11 V c).before 2 t d))
      ∗ (∃ d, owns (c : Thread nD τ) (st11_3 t) fullShare ((dat11 V c).before 3 t d))
      ∗ (∃ d, owns (c : Thread nD τ) (st11_4 t) fullShare ((dat11 V c).before 4 t d))
      ∗ (∃ d, owns (c : Thread nD τ) (st11_5 t) fullShare ((dat11 V c).before 5 t d))
      ∗ (∃ d, owns (c : Thread nD τ) (st11_6 t) fullShare ((dat11 V c).before 6 t d))
      ∗ (∃ d, owns (c : Thread nD τ) (st11_7 t) fullShare ((dat11 V c).before 7 t d)))
    ⊢ wp frame (wpE (defs₀ (F := F)) Variants.none c none) Set.univ (bodyAt11 t) (fun _ => iprop((dat11 V c).Φ t.castSucc ∗ (dat11 V c).owesAt () t.castSucc
      ∗ owns (c : Thread nD τ) (st11_0 t) fullShare (iblk11 V c 0 t)
      ∗ owns (c : Thread nD τ) (st11_1 t) fullShare (iblk11 V c 1 t)
      ∗ owns (c : Thread nD τ) (st11_2 t) fullShare (iblk11 V c 2 t)
      ∗ owns (c : Thread nD τ) (st11_3 t) fullShare (iblk11 V c 3 t)
      ∗ owns (c : Thread nD τ) (st11_4 t) fullShare (iblk11 V c 4 t)
      ∗ owns (c : Thread nD τ) (st11_5 t) fullShare (iblk11 V c 5 t)
      ∗ owns (c : Thread nD τ) (st11_6 t) fullShare (iblk11 V c 6 t)
      ∗ owns (c : Thread nD τ) (st11_7 t) fullShare ((dat11 V c).after 7 t))) := by
  unfold bodyAt11
  simp (disch := decide) only [before11 V c t]
  rw [after11_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel11 c Set.univ _ _ _ _ _ _ _ _ _ _ _ _ _ _ _ _ _ (iblk11 V c 0 t) (iblk11 V c 1 t) (iblk11 V c 2 t) (iblk11 V c 3 t) (iblk11 V c 4 t) (iblk11 V c 5 t) (iblk11 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  iframe

theorem body_obligation11 (c : Dev nD) : BodyObligation (dat11 (F := F) V c) (defs₀ (F := F)) Variants.none () Set.univ := fun t => by
  rw [bigSep_W11, bigSep_W11]
  exact sound_body11 V c t

end Cert.Kernel.Hand

end
-- ==== Proof.BKRun.lean ====
import proofs.«419458_j79517024518684_2_alg».proof.Proof.Gen.Kernel.Regions
import proofs.«419458_j79517024518684_2_alg».proof.Proof.BReg0
import proofs.«419458_j79517024518684_2_alg».proof.Proof.BReg1
import proofs.«419458_j79517024518684_2_alg».proof.Proof.BReg2
import proofs.«419458_j79517024518684_2_alg».proof.Proof.BReg3
import proofs.«419458_j79517024518684_2_alg».proof.Proof.BReg4
import proofs.«419458_j79517024518684_2_alg».proof.Proof.BReg5
import proofs.«419458_j79517024518684_2_alg».proof.Proof.BReg6
import proofs.«419458_j79517024518684_2_alg».proof.Proof.BReg7
import proofs.«419458_j79517024518684_2_alg».proof.Proof.BReg8
import proofs.«419458_j79517024518684_2_alg».proof.Proof.BReg9
import proofs.«419458_j79517024518684_2_alg».proof.Proof.BReg10
import proofs.«419458_j79517024518684_2_alg».proof.Proof.BReg11
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Mathlib.Tactic.IntervalCases

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev Ve0 : (c : Dev nD) → (b : Ref sig .tc) → Buf (Elt F) ((c : Thread nD τ).loc b) := fun c b => V3 m c b

def X0 (c : Dev nD) : Valuation τ sig (Elt F) :=
  Pipeline.withArrays spec0 c (V3 m c) fun w => (dat0 (Ve0 m) c).arrAt w cfg0.N

theorem X0_arr (c : Dev nD) (w : Fin cfg0.W) :
    X0 m c (Proc.devRef .tc (Pipeline.arrRef spec0 w)) = (dat0 (Ve0 m) c).arrAt w cfg0.N :=
  Pipeline.withArrays_arr spec0 launch0.win.arr_inj c _ _ w

def o4 : Outs (F := F) := fun J r c => match J with | 4 => X0 m c r | _ => m ((c : Thread nD τ).loc r)

abbrev Ve1 : (c : Dev nD) → (b : Ref sig .tc) → Buf (Elt F) ((c : Thread nD τ).loc b) := fun c b => V5 m (o4 m) c b

def X1 (c : Dev nD) : Valuation τ sig (Elt F) :=
  Pipeline.withArrays spec1 c (V5 m (o4 m) c) fun w => (dat1 (Ve1 m) c).arrAt w cfg1.N

theorem X1_arr (c : Dev nD) (w : Fin cfg1.W) :
    X1 m c (Proc.devRef .tc (Pipeline.arrRef spec1 w)) = (dat1 (Ve1 m) c).arrAt w cfg1.N :=
  Pipeline.withArrays_arr spec1 launch1.win.arr_inj c _ _ w

def o6 : Outs (F := F) := fun J r c => match J with | 6 => X1 m c r | _ => o4 m J r c

abbrev Ve2 : (c : Dev nD) → (b : Ref sig .tc) → Buf (Elt F) ((c : Thread nD τ).loc b) := fun c b => V7 m (o6 m) c b

def X2 (c : Dev nD) : Valuation τ sig (Elt F) :=
  Pipeline.withArrays spec2 c (V7 m (o6 m) c) fun w => (dat2 (Ve2 m) c).arrAt w cfg2.N

theorem X2_arr (c : Dev nD) (w : Fin cfg2.W) :
    X2 m c (Proc.devRef .tc (Pipeline.arrRef spec2 w)) = (dat2 (Ve2 m) c).arrAt w cfg2.N :=
  Pipeline.withArrays_arr spec2 launch2.win.arr_inj c _ _ w

def o8 : Outs (F := F) := fun J r c => match J with | 8 => X2 m c r | _ => o6 m J r c

abbrev Ve3 : (c : Dev nD) → (b : Ref sig .tc) → Buf (Elt F) ((c : Thread nD τ).loc b) := fun c b => V8 m (o8 m) c b

def X3 (c : Dev nD) : Valuation τ sig (Elt F) :=
  Pipeline.withArrays spec3 c (V8 m (o8 m) c) fun w => (dat3 (Ve3 m) c).arrAt w cfg3.N

theorem X3_arr (c : Dev nD) (w : Fin cfg3.W) :
    X3 m c (Proc.devRef .tc (Pipeline.arrRef spec3 w)) = (dat3 (Ve3 m) c).arrAt w cfg3.N :=
  Pipeline.withArrays_arr spec3 launch3.win.arr_inj c _ _ w

def o9 : Outs (F := F) := fun J r c => match J with | 9 => X3 m c r | _ => o8 m J r c

abbrev Ve4 : (c : Dev nD) → (b : Ref sig .tc) → Buf (Elt F) ((c : Thread nD τ).loc b) := fun c b => V10 m (o9 m) c b

def X4 (c : Dev nD) : Valuation τ sig (Elt F) :=
  Pipeline.withArrays spec4 c (V10 m (o9 m) c) fun w => (dat4 (Ve4 m) c).arrAt w cfg4.N

theorem X4_arr (c : Dev nD) (w : Fin cfg4.W) :
    X4 m c (Proc.devRef .tc (Pipeline.arrRef spec4 w)) = (dat4 (Ve4 m) c).arrAt w cfg4.N :=
  Pipeline.withArrays_arr spec4 launch4.win.arr_inj c _ _ w

def o11 : Outs (F := F) := fun J r c => match J with | 11 => X4 m c r | _ => o9 m J r c

abbrev Ve5 : (c : Dev nD) → (b : Ref sig .tc) → Buf (Elt F) ((c : Thread nD τ).loc b) := fun c b => V12 m (o11 m) c b

def X5 (c : Dev nD) : Valuation τ sig (Elt F) :=
  Pipeline.withArrays spec5 c (V12 m (o11 m) c) fun w => (dat5 (Ve5 m) c).arrAt w cfg5.N

theorem X5_arr (c : Dev nD) (w : Fin cfg5.W) :
    X5 m c (Proc.devRef .tc (Pipeline.arrRef spec5 w)) = (dat5 (Ve5 m) c).arrAt w cfg5.N :=
  Pipeline.withArrays_arr spec5 launch5.win.arr_inj c _ _ w

def o13 : Outs (F := F) := fun J r c => match J with | 13 => X5 m c r | _ => o11 m J r c

abbrev Ve6 : (c : Dev nD) → (b : Ref sig .tc) → Buf (Elt F) ((c : Thread nD τ).loc b) := fun c b => V13 m (o13 m) c b

def X6 (c : Dev nD) : Valuation τ sig (Elt F) :=
  Pipeline.withArrays spec6 c (V13 m (o13 m) c) fun w => (dat6 (Ve6 m) c).arrAt w cfg6.N

theorem X6_arr (c : Dev nD) (w : Fin cfg6.W) :
    X6 m c (Proc.devRef .tc (Pipeline.arrRef spec6 w)) = (dat6 (Ve6 m) c).arrAt w cfg6.N :=
  Pipeline.withArrays_arr spec6 launch6.win.arr_inj c _ _ w

def o14 : Outs (F := F) := fun J r c => match J with | 14 => X6 m c r | _ => o13 m J r c

abbrev Ve7 : (c : Dev nD) → (b : Ref sig .tc) → Buf (Elt F) ((c : Thread nD τ).loc b) := fun c b => V15 m (o14 m) c b

def X7 (c : Dev nD) : Valuation τ sig (Elt F) :=
  Pipeline.withArrays spec7 c (V15 m (o14 m) c) fun w => (dat7 (Ve7 m) c).arrAt w cfg7.N

theorem X7_arr (c : Dev nD) (w : Fin cfg7.W) :
    X7 m c (Proc.devRef .tc (Pipeline.arrRef spec7 w)) = (dat7 (Ve7 m) c).arrAt w cfg7.N :=
  Pipeline.withArrays_arr spec7 launch7.win.arr_inj c _ _ w

def o16 : Outs (F := F) := fun J r c => match J with | 16 => X7 m c r | _ => o14 m J r c

abbrev Ve8 : (c : Dev nD) → (b : Ref sig .tc) → Buf (Elt F) ((c : Thread nD τ).loc b) := fun c b => V17 m (o16 m) c b

def X8 (c : Dev nD) : Valuation τ sig (Elt F) :=
  Pipeline.withArrays spec8 c (V17 m (o16 m) c) fun w => (dat8 (Ve8 m) c).arrAt w cfg8.N

theorem X8_arr (c : Dev nD) (w : Fin cfg8.W) :
    X8 m c (Proc.devRef .tc (Pipeline.arrRef spec8 w)) = (dat8 (Ve8 m) c).arrAt w cfg8.N :=
  Pipeline.withArrays_arr spec8 launch8.win.arr_inj c _ _ w

def o18 : Outs (F := F) := fun J r c => match J with | 18 => X8 m c r | _ => o16 m J r c

abbrev Ve9 : (c : Dev nD) → (b : Ref sig .tc) → Buf (Elt F) ((c : Thread nD τ).loc b) := fun c b => V18 m (o18 m) c b

def X9 (c : Dev nD) : Valuation τ sig (Elt F) :=
  Pipeline.withArrays spec9 c (V18 m (o18 m) c) fun w => (dat9 (Ve9 m) c).arrAt w cfg9.N

theorem X9_arr (c : Dev nD) (w : Fin cfg9.W) :
    X9 m c (Proc.devRef .tc (Pipeline.arrRef spec9 w)) = (dat9 (Ve9 m) c).arrAt w cfg9.N :=
  Pipeline.withArrays_arr spec9 launch9.win.arr_inj c _ _ w

def o19 : Outs (F := F) := fun J r c => match J with | 19 => X9 m c r | _ => o18 m J r c

abbrev Ve10 : (c : Dev nD) → (b : Ref sig .tc) → Buf (Elt F) ((c : Thread nD τ).loc b) := fun c b => V20 m (o19 m) c b

def X10 (c : Dev nD) : Valuation τ sig (Elt F) :=
  Pipeline.withArrays spec10 c (V20 m (o19 m) c) fun w => (dat10 (Ve10 m) c).arrAt w cfg10.N

theorem X10_arr (c : Dev nD) (w : Fin cfg10.W) :
    X10 m c (Proc.devRef .tc (Pipeline.arrRef spec10 w)) = (dat10 (Ve10 m) c).arrAt w cfg10.N :=
  Pipeline.withArrays_arr spec10 launch10.win.arr_inj c _ _ w

def o21 : Outs (F := F) := fun J r c => match J with | 21 => X10 m c r | _ => o19 m J r c

abbrev Ve11 : (c : Dev nD) → (b : Ref sig .tc) → Buf (Elt F) ((c : Thread nD τ).loc b) := fun c b => V22 m (o21 m) c b

def X11 (c : Dev nD) : Valuation τ sig (Elt F) :=
  Pipeline.withArrays spec11 c (V22 m (o21 m) c) fun w => (dat11 (Ve11 m) c).arrAt w cfg11.N

theorem X11_arr (c : Dev nD) (w : Fin cfg11.W) :
    X11 m c (Proc.devRef .tc (Pipeline.arrRef spec11 w)) = (dat11 (Ve11 m) c).arrAt w cfg11.N :=
  Pipeline.withArrays_arr spec11 launch11.win.arr_inj c _ _ w

def o23 : Outs (F := F) := fun J r c => match J with | 23 => X11 m c r | _ => o21 m J r c

def pdats : (p : Fin 12) → (c : Dev nD) → Dat τ (Elt F) Unit ℕ (UR sig nD τ) ℕ (cfgs p) c
  | ⟨0, _⟩ => fun c => dat0 (Ve0 m) c
  | ⟨1, _⟩ => fun c => dat1 (Ve1 m) c
  | ⟨2, _⟩ => fun c => dat2 (Ve2 m) c
  | ⟨3, _⟩ => fun c => dat3 (Ve3 m) c
  | ⟨4, _⟩ => fun c => dat4 (Ve4 m) c
  | ⟨5, _⟩ => fun c => dat5 (Ve5 m) c
  | ⟨6, _⟩ => fun c => dat6 (Ve6 m) c
  | ⟨7, _⟩ => fun c => dat7 (Ve7 m) c
  | ⟨8, _⟩ => fun c => dat8 (Ve8 m) c
  | ⟨9, _⟩ => fun c => dat9 (Ve9 m) c
  | ⟨10, _⟩ => fun c => dat10 (Ve10 m) c
  | ⟨11, _⟩ => fun c => dat11 (Ve11 m) c

theorem pdats_facts (p : Fin 12) (c : Dev nD) : (∀ w, (pdats m p c).q w = fullShare) ∧ (∀ t, (pdats m p c).owed t = 0)
    ∧ (pdats m p c).recorded 0 = Set.univ := by
  fin_cases p <;> exact ⟨fun _ => rfl, fun _ => rfl, rfl⟩

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

theorem perm_in (c : Dev nD) (P Q : sProp 𝕄) : iprop((∃ r, prngReg c r) ∗ P ∗ Q) ⊢ iprop(Q ∗ ∃ r, prngReg c r) := by
  iintro ⟨Hp, -, Hr⟩
  isplitl [Hr]; · iexact Hr
  iexact Hp

theorem perm_out (c : Dev nD) (Q : sProp 𝕄) : iprop(Q ∗ ∃ r, prngReg c r) ⊢ iprop((∃ r, prngReg c r) ∗ BI.emp ∗ Q) := by
  iintro ⟨Hr, Hp⟩
  isplitl [Hp]; · iexact Hp
  isplitr; · iempintro
  iexact Hr

-- Setting a valuation to `X` along a list of references gives `X` on the list and leaves the rest.
theorem foldl_update (X : Valuation τ sig (Elt F)) (b : Ref sig .tc) (O : List (Ref sig .tc)) : ∀ V : Valuation τ sig (Elt F),
    (b ∈ O → O.foldl (fun V r => Function.update V r (X r)) V b = X b)
      ∧ (b ∉ O → O.foldl (fun V r => Function.update V r (X r)) V b = V b) := by
  induction O with
  | nil => exact fun V => ⟨fun h => absurd h List.not_mem_nil, fun _ => rfl⟩
  | cons r O ih =>
    intro V
    obtain ⟨h1, h2⟩ := ih (Function.update V r (X r))
    by_cases hb : b ∈ O
    · exact ⟨fun _ => h1 hb, fun h => absurd (List.mem_cons_of_mem _ hb) h⟩
    · refine ⟨fun h => ?_, fun h => (h2 hb).trans (Function.update_of_ne (StableHlo.devRef_ne_of_ne fun e => h (List.mem_cons.mpr (Or.inl e))) ..)⟩
      obtain rfl : b = r := (List.mem_cons.mp h).resolve_right hb
      exact (h2 hb).trans (Function.update_self ..)

set_option backward.isDefEq.respectTransparency.types false in
-- A region as a segment between the thread states at contents `Vi` and `Vo`, when `Vo` is `Vi` with the output arrays set to their final contents: an input array's final contents are its initial ones.
def regOf (p : Fin 12)
    (lf : Pipeline.LaunchFacts (nD := nD) (τ := τ) cfgs p) (Vi Vo : Dev nD → Valuation τ sig (Elt F)) (O : List (Ref sig .tc))
    (hbody : ∀ c, Pipeline.BodyObligationLoose (pdats m p c) defs₀ 𝒱₀ () Set.univ)
    (hin : ∀ c, Pipeline.ΦA (cfgs p).spec c ⊢ (pdats m p c).Φ 0)
    (hout : ∀ c, (pdats m p c).Φ (Fin.last _) ⊢ Pipeline.ΦA (cfgs p).spec c)
    (hA : ∀ c w, (pdats m p c).A w = Vi c (Pipeline.arrRef (cfgs p).spec w) := by exact fun _ _ => rfl)
    (hVo : ∀ c, Vo c = O.foldl (fun V r => Function.update V r
      (Pipeline.withArrays (cfgs p).spec c (Vi c) (fun w => (pdats m p c).arrAt w (cfgs p).N) r)) (Vi c) := by exact fun _ => rfl)
    (hO : (∀ w, Pipeline.arrRef (cfgs p).spec w ∈ O ∨ ((cfgs p).win w).isOut = false)
      ∧ ∀ b ∈ O, ∃ w, Pipeline.arrRef (cfgs p).spec w = b := by decide) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L lv p fun c => (pdats_facts m p c).2.1
  pre c := iprop(StableHlo.held (c : Thread nD τ) (Pipeline.ucRefs τ sig) (Vi c) ∗ R c)
  post c := iprop(StableHlo.held (c : Thread nD τ) (Pipeline.ucRefs τ sig) (Vo c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Vi c b)
  hentry c := by
    rw [Pipeline.ownSems0_none]
    have hsplit := Pipeline.arrays_of_unscopedBufs (p := p) (pcfgs (F := F)) adm (pdats m) lf.win lf.arr_whole c
      ((pdats m p c).share_full (pdats_facts m p c).1) (fun b => Vi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [(pdats_facts m p c).2.1 0]
      icases HO with ⟨%W, HO⟩; iexists W; isplitr; · ipureintro; exact fun _ _ => Or.inl ((pdats_facts m p c).2.2 ▸ trivial)
      iexact HO
    isplitl [Hp]; · iexact Hp
    iexact Hrest
  hin c := (perm_in c _ _).trans (hin c)
  hout c := by
    rw [Pipeline.ownSems0_none]
    exact (hout c).trans (perm_out c _)
  hexit c := by
    have hV := fun b : Ref sig .tc => foldl_update (Pipeline.withArrays (cfgs p).spec c (Vi c) fun w => (pdats m p c).arrAt w (cfgs p).N) b O (Vi c)
    have hjoin := Pipeline.unscopedBufs_of_arrays (p := p) (pcfgs (F := F)) adm (Ix := Unit) (Name := ℕ) (U := UR sig nD τ) (Lvl := ℕ)
      lf.win lf.arr_whole c (pdats m) ((pdats m p c).share_full (pdats_facts m p c).1)
      (fun b => Vi c b) (fun b => Vo c b) ((pdats m p c).arrAt · (cfgs p).N)
      (fun w => by
        rw [hVo c]
        by_cases h : Pipeline.arrRef (cfgs p).spec w ∈ O
        · exact (((hV _).1 h).trans (Pipeline.withArrays_arr _ lf.win.arr_inj c _ _ w)).symm
        · exact ((pdats m p c).arrAt_in w ((hO.1 w).resolve_left h) _).trans ((hA c w).trans ((hV _).2 h).symm))
      (fun b hb => by rw [hVo c]; exact (hV b).2 fun h => hb (Finset.mem_image.mpr ((hO.2 b h).imp fun _ e => ⟨Finset.mem_univ _, e⟩)))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [(pdats_facts m p c).2.1 (Fin.last _)]
    icases HO with ⟨%W, -, HO⟩; iexists W; iexact HO

def reg0 : Pipeline.RegionSeg (pcfgs (F := F)) adm (pdats m) () defs₀ 𝒱₀ L lv 0 :=
  regOf m 0 launch0 (V3 m) (V4 m (o4 m)) [main_v34]
    (fun c => (body_obligation0 (Ve0 m) c).loose) (fun _ => .rfl) (fun _ => .rfl)

def reg1 : Pipeline.RegionSeg (pcfgs (F := F)) adm (pdats m) () defs₀ 𝒱₀ L lv 1 :=
  regOf m 1 launch1 (V5 m (o4 m)) (V6 m (o6 m)) [main_v55_0, main_v55_1]
    (fun c => (body_obligation1 (Ve1 m) c).loose) (hin1 (Ve1 m)) (hout1 (Ve1 m))

def reg2 : Pipeline.RegionSeg (pcfgs (F := F)) adm (pdats m) () defs₀ 𝒱₀ L lv 2 :=
  regOf m 2 launch2 (V7 m (o6 m)) (V8 m (o8 m)) [main_v69]
    (fun c => (body_obligation2 (Ve2 m) c).loose) (fun _ => .rfl) (fun _ => .rfl)

def reg3 : Pipeline.RegionSeg (pcfgs (F := F)) adm (pdats m) () defs₀ 𝒱₀ L lv 3 :=
  regOf m 3 launch3 (V8 m (o8 m)) (V9 m (o9 m)) [main_v70]
    (fun c => (body_obligation3 (Ve3 m) c).loose) (fun _ => .rfl) (fun _ => .rfl)

def reg4 : Pipeline.RegionSeg (pcfgs (F := F)) adm (pdats m) () defs₀ 𝒱₀ L lv 4 :=
  regOf m 4 launch4 (V10 m (o9 m)) (V11 m (o11 m)) [main_v91_0, main_v91_1]
    (fun c => (body_obligation4 (Ve4 m) c).loose) (hin4 (Ve4 m)) (hout4 (Ve4 m))

def reg5 : Pipeline.RegionSeg (pcfgs (F := F)) adm (pdats m) () defs₀ 𝒱₀ L lv 5 :=
  regOf m 5 launch5 (V12 m (o11 m)) (V13 m (o13 m)) [main_v105]
    (fun c => (body_obligation5 (Ve5 m) c).loose) (fun _ => .rfl) (fun _ => .rfl)

def reg6 : Pipeline.RegionSeg (pcfgs (F := F)) adm (pdats m) () defs₀ 𝒱₀ L lv 6 :=
  regOf m 6 launch6 (V13 m (o13 m)) (V14 m (o14 m)) [main_v106]
    (fun c => (body_obligation6 (Ve6 m) c).loose) (fun _ => .rfl) (fun _ => .rfl)

def reg7 : Pipeline.RegionSeg (pcfgs (F := F)) adm (pdats m) () defs₀ 𝒱₀ L lv 7 :=
  regOf m 7 launch7 (V15 m (o14 m)) (V16 m (o16 m)) [main_v127_0, main_v127_1]
    (fun c => (body_obligation7 (Ve7 m) c).loose) (hin7 (Ve7 m)) (hout7 (Ve7 m))

def reg8 : Pipeline.RegionSeg (pcfgs (F := F)) adm (pdats m) () defs₀ 𝒱₀ L lv 8 :=
  regOf m 8 launch8 (V17 m (o16 m)) (V18 m (o18 m)) [main_v141]
    (fun c => (body_obligation8 (Ve8 m) c).loose) (fun _ => .rfl) (fun _ => .rfl)

def reg9 : Pipeline.RegionSeg (pcfgs (F := F)) adm (pdats m) () defs₀ 𝒱₀ L lv 9 :=
  regOf m 9 launch9 (V18 m (o18 m)) (V19 m (o19 m)) [main_v142]
    (fun c => (body_obligation9 (Ve9 m) c).loose) (fun _ => .rfl) (fun _ => .rfl)

def reg10 : Pipeline.RegionSeg (pcfgs (F := F)) adm (pdats m) () defs₀ 𝒱₀ L lv 10 :=
  regOf m 10 launch10 (V20 m (o19 m)) (V21 m (o21 m)) [main_v160]
    (fun c => (body_obligation10 (Ve10 m) c).loose) (hin10 (Ve10 m)) (hout10 (Ve10 m))

def reg11 : Pipeline.RegionSeg (pcfgs (F := F)) adm (pdats m) () defs₀ 𝒱₀ L lv 11 :=
  regOf m 11 launch11 (V22 m (o21 m)) (V23 m (o23 m)) [main_v165]
    (fun c => (body_obligation11 (Ve11 m) c).loose) (fun _ => .rfl) (fun _ => .rfl)

theorem agr4_o23_o4 : V4 m (o23 m) = V4 m (o4 m) := rfl
theorem agr5_o23_o4 : V5 m (o23 m) = V5 m (o4 m) := rfl
theorem agr6_o23_o6 : V6 m (o23 m) = V6 m (o6 m) := rfl
theorem agr7_o23_o6 : V7 m (o23 m) = V7 m (o6 m) := rfl
theorem agr8_o23_o8 : V8 m (o23 m) = V8 m (o8 m) := rfl
theorem agr9_o23_o9 : V9 m (o23 m) = V9 m (o9 m) := rfl
theorem agr10_o23_o9 : V10 m (o23 m) = V10 m (o9 m) := rfl
theorem agr11_o23_o11 : V11 m (o23 m) = V11 m (o11 m) := rfl
theorem agr12_o23_o11 : V12 m (o23 m) = V12 m (o11 m) := rfl
theorem agr13_o23_o13 : V13 m (o23 m) = V13 m (o13 m) := rfl
theorem agr14_o23_o14 : V14 m (o23 m) = V14 m (o14 m) := rfl
theorem agr15_o23_o14 : V15 m (o23 m) = V15 m (o14 m) := rfl
theorem agr16_o23_o16 : V16 m (o23 m) = V16 m (o16 m) := rfl
theorem agr17_o23_o16 : V17 m (o23 m) = V17 m (o16 m) := rfl
theorem agr18_o23_o18 : V18 m (o23 m) = V18 m (o18 m) := rfl
theorem agr19_o23_o19 : V19 m (o23 m) = V19 m (o19 m) := rfl
theorem agr20_o23_o19 : V20 m (o23 m) = V20 m (o19 m) := rfl
theorem agr21_o23_o21 : V21 m (o23 m) = V21 m (o21 m) := rfl
theorem agr22_o23_o21 : V22 m (o23 m) = V22 m (o21 m) := rfl

-- A thread state only reads its contents: equal contents, the same state.
theorem heldR {V V' : Dev nD → Valuation τ sig (Elt F)} (h : V = V') (c : Dev nD) :
    iprop(StableHlo.held (c : Thread nD τ) (Pipeline.ucRefs τ sig) (V c) ∗ R c)
      ⊢ iprop(StableHlo.held (c : Thread nD τ) (Pipeline.ucRefs τ sig) (V' c) ∗ R c) := h ▸ .rfl

set_option backward.isDefEq.respectTransparency.types false in
-- The conditional frame over the twelve segments: each boundary's contents read the final table only where it agrees with the region's own.
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  frame_cond (F := F) m (EP := emb₁) (ι := ()) (𝒱₀ := 𝒱₀) (L := L) (lv := lv) (hL := fun _ _ => rfl) (ρ := ρ) (outs := o23 m)
    (pdats := pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE12 := fun c => by iintro ⟨-, H⟩; iexact H)
    (R0 := reg0 m) (hpre0 := fun _ => .rfl) (hpost0 := heldR (agr4_o23_o4 m).symm)
    (R1 := reg1 m) (hpre1 := heldR (agr5_o23_o4 m)) (hpost1 := heldR (agr6_o23_o6 m).symm)
    (R2 := reg2 m) (hpre2 := heldR (agr7_o23_o6 m)) (hpost2 := heldR (agr8_o23_o8 m).symm)
    (R3 := reg3 m) (hpre3 := heldR (agr8_o23_o8 m)) (hpost3 := heldR (agr9_o23_o9 m).symm)
    (R4 := reg4 m) (hpre4 := heldR (agr10_o23_o9 m)) (hpost4 := heldR (agr11_o23_o11 m).symm)
    (R5 := reg5 m) (hpre5 := heldR (agr12_o23_o11 m)) (hpost5 := heldR (agr13_o23_o13 m).symm)
    (R6 := reg6 m) (hpre6 := heldR (agr13_o23_o13 m)) (hpost6 := heldR (agr14_o23_o14 m).symm)
    (R7 := reg7 m) (hpre7 := heldR (agr15_o23_o14 m)) (hpost7 := heldR (agr16_o23_o16 m).symm)
    (R8 := reg8 m) (hpre8 := heldR (agr17_o23_o16 m)) (hpost8 := heldR (agr18_o23_o18 m).symm)
    (R9 := reg9 m) (hpre9 := heldR (agr18_o23_o18 m)) (hpost9 := heldR (agr19_o23_o19 m).symm)
    (R10 := reg10 m) (hpre10 := heldR (agr20_o23_o19 m)) (hpost10 := heldR (agr21_o23_o21 m).symm)
    (R11 := reg11 m) (hpre11 := heldR (agr22_o23_o21 m)) (hpost11 := fun _ => .rfl)

end Cert.Kernel.Hand

end
-- ==== Proof.Reg0.lean ====
import proofs.«419458_j79517024518684_2_alg».proof.Proof.Gen.KernelIdeal.Launch
import proofs.«419458_j79517024518684_2_alg».proof.Proof.Gen.KernelIdeal.Skeleton
import proofs.«419458_j79517024518684_2_alg».proof.Proof.Gen.KernelIdeal.Points
import Idealize.ShloMosaic.Lib.Pipeline.FrameBody
import Idealize.ShloMosaic.Lib.Tactic

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def out0_2 (x0 : Vec F S20000x7 .f32) (x1 : Vec F S7x32 .f32) : Vec F S20000x32 .f32 :=
  View.canon [⟨Rect.unit (s := S20000x32) ![0, 0] S20000x32.size inb_S20000x32_S20000x32_0_0,
    k0_pay1 (View.ld x0 (Rect.unit (s := S20000x7) ![0, 0] S20000x7.size inb_S20000x7_S20000x7_0_0))
      (View.ld x1 (Rect.unit (s := S7x32) ![0, 0] S7x32.size inb_S7x32_S7x32_0_0))⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := rfl

theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d

-- the body leaves the product of the two input blocks in the output tile and keeps everything else as it was
theorem sound_kernel0 (c : Dev nD) {i : grid0.Coords} {arg1 : Memref sig .tc .vmem S20000x7 .f32} {harg1 : arg1.IsWhole}
    {arg2 : Memref sig .tc .vmem S7x32 .f32} {harg2 : arg2.IsWhole} {arg3 : Memref sig .tc .vmem S20000x32 .f32} {harg3 : arg3.IsWhole}
    {x0 : Vec F S20000x7 .f32} {x1 : Vec F S7x32 .f32} {R S : sProp 𝕄} {D0 D1 D2 : Type} {b0 : D0 → Vec F S20000x7 .f32}
    {b1 : D1 → Vec F S7x32 .f32} {b2 : D2 → Vec F S20000x32 .f32} (h0 : ∀ d, b0 d = x0) (h1 : ∀ d, b1 d = x1) :
    iprop(R ∗ S ∗ (∃ d, owns c arg1 fullShare (b0 d)) ∗ (∃ d, owns c arg2 fullShare (b1 d)) ∗ ∃ d, owns c arg3 fullShare (b2 d))
      ⊢ wp frame (wpE (defs₀ (F := F)) Variants.none c none) Set.univ (cc0__linear_kernel i arg1 harg1 arg2 harg2 arg3 harg3) fun _ =>
        iprop(R ∗ S ∗ owns c arg1 fullShare x0 ∗ owns c arg2 fullShare x1 ∗ owns c arg3 fullShare (out0_2 x0 x1)) := by
  simp only [h0, h1, cc0__linear_kernel_eq_skeleton]; unfold cc0__linear_kernel_skel owns
  iintro ⟨HR, HS, ⟨%d0, %f0, %hf0, H0⟩, ⟨%d1, %f1, %hf1, H1⟩, ⟨%d2, %f2, -, H2⟩⟩
  subst hf0 hf1
  sl_exec
  sl_step
  iframe HR HS
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S20000x32.size (by rfl))

theorem body_obligation0 (c : Dev nD) : BodyObligation (dat0 (F := F) V c) (defs₀ (F := F)) Variants.none () Set.univ := fun t => by
  rw [bigSep_W0, bigSep_W0]
  dsimp only [dat0]
  exact (sound_kernel0 c (before0_0 V c t) (before0_1 V c t) : _ ⊢ wp _ _ _ (bodyAt0 t) _)

end Cert.KernelIdeal.Hand

end
-- ==== Proof.Reg1Runs.lean ====
import proofs.«419458_j79517024518684_2_alg».proof.Proof.Gen.KernelIdeal.Launch
import proofs.«419458_j79517024518684_2_alg».proof.Proof.Gen.KernelIdeal.Skeleton
import proofs.«419458_j79517024518684_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI Idealize.SL.BI.BIBase Idealize.SL.ProofMode Idealize.SL.Sem

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 0).val) 0#32)) 0#32) = 1#1

/-- On the 20-point grid the first test holds at point 0 only. -/
theorem hcond1_0 : ∀ t : Fin cfg1.N, cond1_0 (grid1.coords t) ↔ t.val = 0 := by decide +kernel

abbrev cond1_1 (i : grid1.Coords) : Prop := k1_cond2 i = 1#1

/-- The second test holds at point 19 only. -/
theorem hcond1_1 : ∀ t : Fin cfg1.N, cond1_1 (grid1.coords t) ↔ t.val = 19 := by decide +kernel

theorem liveAt1_0 : ∀ t : Fin cfg1.N, cfg1.idle 0 (grid1.coords t) = false := by decide +kernel

theorem idleAt1_1 : ∀ t : Fin cfg1.N, ¬cond1_1 (grid1.coords t) → cfg1.idle 1 (grid1.coords t) = true := by decide +kernel

theorem noFlush1_1 : ∀ t : Fin cfg1.N, ¬cond1_1 (grid1.coords t) → (cfg1.win 1).flush t = false := by decide +kernel

theorem liveAt1_1 : ∀ t : Fin cfg1.N, cond1_1 (grid1.coords t) → cfg1.idle 1 (grid1.coords t) = false := by decide +kernel

theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

abbrev VO1_1 : View sig .tc .vmem S1x32 .f32 := (Memref.whole cc1_stg1_0 : Memref sig .tc .vmem S1x32 .f32).view
abbrev VO1_2 : View sig .tc .vmem S1x32 .f32 := (Memref.whole cc1_stg2_0 : Memref sig .tc .vmem S1x32 .f32).view

abbrev ms1_0 (t : Fin cfg1.N) : Memref sig .tc .vmem S20000x32 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x32 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x32 .f32 := win1_2.stage (cfg1.slots t 2)
abbrev hs1_2 (t : Fin cfg1.N) : (ms1_2 t).IsWhole := hstage1_2 ((cfg1.slots t 2).cast nbuf1_2)

abbrev scM1_0 : Memref sig .tc .vmem S1x32 .f32 := Memref.whole cc1_scratch0
abbrev scM1_1 : Memref sig .tc .vmem S1x32 .f32 := Memref.whole cc1_scratch1

abbrev VS1_0 : View sig .tc .vmem S1x32 .f32 := scM1_0.view
abbrev VS1_1 : View sig .tc .vmem S1x32 .f32 := scM1_1.view

abbrev rest1 (c : Dev nD) : sProp 𝕄 :=
  Pipeline.scopedRestBut (Ix := Unit) (Name := ℕ) (U := UR sig nD τ) (Lvl := ℕ) (Val := Elt F) spec1 c [cc1_scratch0, cc1_scratch1]

theorem PhiA1_eq (c : Dev nD) :
    (Pipeline.ΦA spec1 c : sProp 𝕄)
      = iprop(iprop(iprop((∃ d, owns c scM1_0 fullShare d) ∗ (∃ d, owns c scM1_1 fullShare d)) ∗ rest1 c) ∗ (∃ r, prngReg c r)) := by
  unfold Pipeline.ΦA; rw [scopedRest1_split]; simp only [scM1_0, scM1_1, owns_whole]; try rfl

variable (c : Dev nD) (i : grid1.Coords) (arg1 : Memref sig .tc .vmem S20000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S1x32 .f32) (harg5 : arg5.IsWhole)

set_option maxHeartbeats 1000000 in
/-- The body run whole at the first point: the accumulators end at the pieces the run stored into them. -/
def kernelRun1_A (hc0 : cond1_0 i) (hc1 : ¬cond1_1 i) (x0 : Vec F S20000x32 .f32) :
    Σ' (LS0 : List (View.Piece (Elt F) S1x32 .f32)), { LS1 : List (View.Piece (Elt F) S1x32 .f32) //
      ∀ (xi1 xi2 : Vec F S1x32 .f32) (E : Set ℕ) (K : PUnit → sProp 𝕄),
        iprop(owns c arg1 fullShare x0 ∗ owns c arg2 fullShare xi1 ∗ owns c arg3 fullShare xi2
            ∗ (∃ d, owns c arg4 fullShare d) ∗ (∃ d, owns c arg5 fullShare d)
            ∗ (iprop(owns c arg1 fullShare x0 ∗ owns c arg2 fullShare xi1 ∗ owns c arg3 fullShare xi2
                ∗ (∃ f, arg4.view.loc c ↦[arg4.view.set]{fullShare} arg4.view.writes (Elt F) f LS0)
                ∗ (∃ f, arg5.view.loc c ↦[arg5.view.set]{fullShare} arg5.view.writes (Elt F) f LS1)) -∗ K ⟨⟩))
          ⊢ wp frame (wpE (defs₀ (F := F)) Variants.none c none) E (cc1__bn_stats_kernel i arg1 harg1 arg2 harg2 arg3 harg3 arg4 harg4 arg5 harg5) K } := by
  refine ⟨?_, ?_, fun xi1 xi2 E K => ?run⟩
  case run =>
    simp only [cc1__bn_stats_kernel_eq_skeleton]; unfold cc1__bn_stats_kernel_skel
    unfold owns
    iintro ⟨⟨%f0, %hf0, H0⟩, H1, H2, ⟨%ds0, %fs0, -, HS0⟩, ⟨%ds1, %fs1, -, HS1⟩, Hk⟩
    obtain rfl := harg1.eq_unread hf0
    sl_exec (disch := first | exact hc0 | exact hc1)
    sl_step
    iapply Hk
    iframe H1 H2
    isplitl [H0]
    · iexists _; isplitr; · ipureintro; exact harg1.read_unread _
      iexact H0
    isplitl [HS0]; · iexists _; iexact HS0
    iexists _; iexact HS1

set_option maxHeartbeats 1000000 in
/-- The same at a middle point, the accumulators coming in at given contents. -/
def kernelRun1_B (hc0 : ¬cond1_0 i) (hc1 : ¬cond1_1 i) (x0 : Vec F S20000x32 .f32) (xs0 xs1 : Vec F S1x32 .f32) :
    Σ' (LS0 : List (View.Piece (Elt F) S1x32 .f32)), { LS1 : List (View.Piece (Elt F) S1x32 .f32) //
      ∀ (xi1 xi2 : Vec F S1x32 .f32) (E : Set ℕ) (K : PUnit → sProp 𝕄),
        iprop(owns c arg1 fullShare x0 ∗ owns c arg2 fullShare xi1 ∗ owns c arg3 fullShare xi2
            ∗ owns c arg4 fullShare xs0 ∗ owns c arg5 fullShare xs1
            ∗ (iprop(owns c arg1 fullShare x0 ∗ owns c arg2 fullShare xi1 ∗ owns c arg3 fullShare xi2
                ∗ (∃ f, arg4.view.loc c ↦[arg4.view.set]{fullShare} arg4.view.writes (Elt F) f LS0)
                ∗ (∃ f, arg5.view.loc c ↦[arg5.view.set]{fullShare} arg5.view.writes (Elt F) f LS1)) -∗ K ⟨⟩))
          ⊢ wp frame (wpE (defs₀ (F := F)) Variants.none c none) E (cc1__bn_stats_kernel i arg1 harg1 arg2 harg2 arg3 harg3 arg4 harg4 arg5 harg5) K } := by
  refine ⟨?_, ?_, fun xi1 xi2 E K => ?run⟩
  case run =>
    simp only [cc1__bn_stats_kernel_eq_skeleton]; unfold cc1__bn_stats_kernel_skel
    unfold owns
    iintro ⟨⟨%f0, %hf0, H0⟩, H1, H2, ⟨%fs0, %hfs0, HS0⟩, ⟨%fs1, %hfs1, HS1⟩, Hk⟩
    obtain rfl := harg1.eq_unread hf0; obtain rfl := harg4.eq_unread hfs0; obtain rfl := harg5.eq_unread hfs1
    sl_exec (disch := first | exact hc0 | exact hc1)
    sl_step
    iapply Hk
    iframe H1 H2
    isplitl [H0]
    · iexists _; isplitr; · ipureintro; exact harg1.read_unread _
      iexact H0
    isplitl [HS0]; · iexists _; iexact HS0
    iexists _; iexact HS1

set_option maxHeartbeats 1000000 in
/-- The same at the last point, where the two outputs are stored too. -/
def kernelRun1_C (hc0 : ¬cond1_0 i) (hc1 : cond1_1 i) (x0 : Vec F S20000x32 .f32) (xs0 xs1 : Vec F S1x32 .f32) :
    Σ' (L1 : List (View.Piece (Elt F) S1x32 .f32)) (L2 : List (View.Piece (Elt F) S1x32 .f32)) (LS0 : List (View.Piece (Elt F) S1x32 .f32)), { LS1 : List (View.Piece (Elt F) S1x32 .f32) //
      ∀ (E : Set ℕ) (K : PUnit → sProp 𝕄),
        iprop(owns c arg1 fullShare x0 ∗ (∃ d, owns c arg2 fullShare d) ∗ (∃ d, owns c arg3 fullShare d)
            ∗ owns c arg4 fullShare xs0 ∗ owns c arg5 fullShare xs1
            ∗ (iprop(owns c arg1 fullShare x0
                ∗ (∃ f, arg2.view.loc c ↦[arg2.view.set]{fullShare} arg2.view.writes (Elt F) f L1)
                ∗ (∃ f, arg3.view.loc c ↦[arg3.view.set]{fullShare} arg3.view.writes (Elt F) f L2)
                ∗ (∃ f, arg4.view.loc c ↦[arg4.view.set]{fullShare} arg4.view.writes (Elt F) f LS0)
                ∗ (∃ f, arg5.view.loc c ↦[arg5.view.set]{fullShare} arg5.view.writes (Elt F) f LS1)) -∗ K ⟨⟩))
          ⊢ wp frame (wpE (defs₀ (F := F)) Variants.none c none) E (cc1__bn_stats_kernel i arg1 harg1 arg2 harg2 arg3 harg3 arg4 harg4 arg5 harg5) K } := by
  refine ⟨?_, ?_, ?_, ?_, fun E K => ?run⟩
  case run =>
    simp only [cc1__bn_stats_kernel_eq_skeleton]; unfold cc1__bn_stats_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg1.eq_unread hf0; obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]; · iexists _; iexact H1
    isplitl [H2]; · iexists _; iexact H2
    isplitl [HS0]; · iexists _; iexact HS0
    iexists _; iexact HS1

end Cert.KernelIdeal.Hand

end
-- ==== Proof.Reg1.lean ====
import proofs.«419458_j79517024518684_2_alg».proof.Proof.Reg1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

section
variable (c : Dev nD) (i : grid1.Coords) (arg1 : Memref sig .tc .vmem S20000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S1x32 .f32) (harg5 : arg5.IsWhole)

section
variable (hc0 : cond1_0 i) (hc1 : ¬cond1_1 i) (x0 : Vec F S20000x32 .f32)
/-- The pieces a case stores tile the shape, so every index lies in one of them. -/
theorem scover1_A_0 (y : S1x32.Idx) : ∃ pc ∈ (kernelRun1_A c i arg1 harg1 arg2 harg2 arg3 harg3 arg4 harg4 arg5 harg5 hc0 hc1 x0).1, y ∈ pc.1.set :=
  View.cover_of_tiledL _ S1x32.size (by sl_kernel_rfl) y
def sout1_A_0 : Vec F S1x32 .f32 := VS1_0.read (Elt F) (VS1_0.writes (Elt F) VS1_0.junk (kernelRun1_A c i arg1 harg1 arg2 harg2 arg3 harg3 arg4 harg4 arg5 harg5 hc0 hc1 x0).1)
theorem scover1_A_1 (y : S1x32.Idx) : ∃ pc ∈ (kernelRun1_A c i arg1 harg1 arg2 harg2 arg3 harg3 arg4 harg4 arg5 harg5 hc0 hc1 x0).2.1, y ∈ pc.1.set :=
  View.cover_of_tiledL _ S1x32.size (by sl_kernel_rfl) y
def sout1_A_1 : Vec F S1x32 .f32 := VS1_1.read (Elt F) (VS1_1.writes (Elt F) VS1_1.junk (kernelRun1_A c i arg1 harg1 arg2 harg2 arg3 harg3 arg4 harg4 arg5 harg5 hc0 hc1 x0).2.1)
end

section
variable (hc0 : ¬cond1_0 i) (hc1 : ¬cond1_1 i) (x0 : Vec F S20000x32 .f32) (xs0 xs1 : Vec F S1x32 .f32)
theorem scover1_B_0 (y : S1x32.Idx) : ∃ pc ∈ (kernelRun1_B c i arg1 harg1 arg2 harg2 arg3 harg3 arg4 harg4 arg5 harg5 hc0 hc1 x0 xs0 xs1).1, y ∈ pc.1.set :=
  View.cover_of_tiledL _ S1x32.size (by sl_kernel_rfl) y
def sout1_B_0 : Vec F S1x32 .f32 := VS1_0.read (Elt F) (VS1_0.writes (Elt F) VS1_0.junk (kernelRun1_B c i arg1 harg1 arg2 harg2 arg3 harg3 arg4 harg4 arg5 harg5 hc0 hc1 x0 xs0 xs1).1)
theorem scover1_B_1 (y : S1x32.Idx) : ∃ pc ∈ (kernelRun1_B c i arg1 harg1 arg2 harg2 arg3 harg3 arg4 harg4 arg5 harg5 hc0 hc1 x0 xs0 xs1).2.1, y ∈ pc.1.set :=
  View.cover_of_tiledL _ S1x32.size (by sl_kernel_rfl) y
def sout1_B_1 : Vec F S1x32 .f32 := VS1_1.read (Elt F) (VS1_1.writes (Elt F) VS1_1.junk (kernelRun1_B c i arg1 harg1 arg2 harg2 arg3 harg3 arg4 harg4 arg5 harg5 hc0 hc1 x0 xs0 xs1).2.1)
end

section
variable (hc0 : ¬cond1_0 i) (hc1 : cond1_1 i) (x0 : Vec F S20000x32 .f32) (xs0 xs1 : Vec F S1x32 .f32)
theorem cover1_C_1 (y : S1x32.Idx) : ∃ pc ∈ (kernelRun1_C c i arg1 harg1 arg2 harg2 arg3 harg3 arg4 harg4 arg5 harg5 hc0 hc1 x0 xs0 xs1).1, y ∈ pc.1.set :=
  View.cover_of_tiledL _ S1x32.size (by sl_kernel_rfl) y
def out1_C_1 : Vec F S1x32 .f32 := VO1_1.read (Elt F) (VO1_1.writes (Elt F) VO1_1.junk (kernelRun1_C c i arg1 harg1 arg2 harg2 arg3 harg3 arg4 harg4 arg5 harg5 hc0 hc1 x0 xs0 xs1).1)
theorem cover1_C_2 (y : S1x32.Idx) : ∃ pc ∈ (kernelRun1_C c i arg1 harg1 arg2 harg2 arg3 harg3 arg4 harg4 arg5 harg5 hc0 hc1 x0 xs0 xs1).2.1, y ∈ pc.1.set :=
  View.cover_of_tiledL _ S1x32.size (by sl_kernel_rfl) y
def out1_C_2 : Vec F S1x32 .f32 := VO1_2.read (Elt F) (VO1_2.writes (Elt F) VO1_2.junk (kernelRun1_C c i arg1 harg1 arg2 harg2 arg3 harg3 arg4 harg4 arg5 harg5 hc0 hc1 x0 xs0 xs1).2.1)
theorem scover1_C_0 (y : S1x32.Idx) : ∃ pc ∈ (kernelRun1_C c i arg1 harg1 arg2 harg2 arg3 harg3 arg4 harg4 arg5 harg5 hc0 hc1 x0 xs0 xs1).2.2.1, y ∈ pc.1.set :=
  View.cover_of_tiledL _ S1x32.size (by sl_kernel_rfl) y
def sout1_C_0 : Vec F S1x32 .f32 := VS1_0.read (Elt F) (VS1_0.writes (Elt F) VS1_0.junk (kernelRun1_C c i arg1 harg1 arg2 harg2 arg3 harg3 arg4 harg4 arg5 harg5 hc0 hc1 x0 xs0 xs1).2.2.1)
theorem scover1_C_1 (y : S1x32.Idx) : ∃ pc ∈ (kernelRun1_C c i arg1 harg1 arg2 harg2 arg3 harg3 arg4 harg4 arg5 harg5 hc0 hc1 x0 xs0 xs1).2.2.2.1, y ∈ pc.1.set :=
  View.cover_of_tiledL _ S1x32.size (by sl_kernel_rfl) y
def sout1_C_1 : Vec F S1x32 .f32 := VS1_1.read (Elt F) (VS1_1.writes (Elt F) VS1_1.junk (kernelRun1_C c i arg1 harg1 arg2 harg2 arg3 harg3 arg4 harg4 arg5 harg5 hc0 hc1 x0 xs0 xs1).2.2.2.1)
end

end

def idle1_1 : Vec F S1x32 .f32 := VO1_1.read (Elt F) VO1_1.junk
def idle1_2 : Vec F S1x32 .f32 := VO1_2.read (Elt F) VO1_2.junk

/-- Pieces read back through a view, over arbitrary earlier contents. -/
def out1_read (v : View sig .tc .vmem S1x32 .f32) (L : List (View.Piece (Elt F) S1x32 .f32)) : Vec F S1x32 .f32 :=
  v.read (Elt F) (v.writes (Elt F) v.junk L)

/-- Outputs and accumulators after point `n`: the point's case on its tile and on the accumulators the point before left. -/
def outsAt1 (c : Dev nD) : (n : ℕ) → n < cfg1.N → Vec F S1x32 .f32 × Vec F S1x32 .f32 × Vec F S1x32 .f32 × Vec F S1x32 .f32
  | 0, hn =>
    let t : Fin cfg1.N := ⟨0, hn⟩
    let r := kernelRun1_A c (grid1.coords t) (ms1_0 t) (hs1_0 t) (ms1_1 t) (hs1_1 t) (ms1_2 t) (hs1_2 t) scM1_0 (Memref.isWhole_whole _) scM1_1 (Memref.isWhole_whole _) ((hcond1_0 t).mpr rfl) (mt (hcond1_1 t).mp (by decide : 0 ≠ 19)) (iblk1 V c 0 t)
    (idle1_1, idle1_2, out1_read VS1_0 r.1, out1_read VS1_1 r.2.1)
  | n + 1, hn =>
    let t : Fin cfg1.N := ⟨n + 1, hn⟩
    let p := outsAt1 c n (Nat.lt_of_succ_lt hn)
    have h0 : ¬cond1_0 (grid1.coords t) := mt (hcond1_0 t).mp (Nat.succ_ne_zero n)
    if h1 : n + 1 = 19 then
      let r := kernelRun1_C c (grid1.coords t) (ms1_0 t) (hs1_0 t) (ms1_1 t) (hs1_1 t) (ms1_2 t) (hs1_2 t) scM1_0 (Memref.isWhole_whole _) scM1_1 (Memref.isWhole_whole _) h0 ((hcond1_1 t).mpr h1) (iblk1 V c 0 t) p.2.2.1 p.2.2.2
      (out1_read VO1_1 r.1, out1_read VO1_2 r.2.1, out1_read VS1_0 r.2.2.1, out1_read VS1_1 r.2.2.2.1)
    else
      let r := kernelRun1_B c (grid1.coords t) (ms1_0 t) (hs1_0 t) (ms1_1 t) (hs1_1 t) (ms1_2 t) (hs1_2 t) scM1_0 (Memref.isWhole_whole _) scM1_1 (Memref.isWhole_whole _) h0 (mt (hcond1_1 t).mp h1) (iblk1 V c 0 t) p.2.2.1 p.2.2.2
      (idle1_1, idle1_2, out1_read VS1_0 r.1, out1_read VS1_1 r.2.1)

theorem before1_lt (t : Fin cfg1.N) : t.val - 1 < cfg1.N := Nat.lt_of_le_of_lt (Nat.sub_le _ _) t.isLt

theorem outsAt1_A (c : Dev nD) (t : Fin cfg1.N) (h0 : t.val = 0) :
    outsAt1 V c t.val t.isLt = (idle1_1, idle1_2, sout1_A_0 c (grid1.coords t) (ms1_0 t) (hs1_0 t) (ms1_1 t) (hs1_1 t) (ms1_2 t) (hs1_2 t) scM1_0 (Memref.isWhole_whole _) scM1_1 (Memref.isWhole_whole _) ((hcond1_0 t).mpr h0) (mt (hcond1_1 t).mp (by omega)) (iblk1 V c 0 t), sout1_A_1 c (grid1.coords t) (ms1_0 t) (hs1_0 t) (ms1_1 t) (hs1_1 t) (ms1_2 t) (hs1_2 t) scM1_0 (Memref.isWhole_whole _) scM1_1 (Memref.isWhole_whole _) ((hcond1_0 t).mpr h0) (mt (hcond1_1 t).mp (by omega)) (iblk1 V c 0 t)) := by
  obtain ⟨_ | n, hn⟩ := t
  exacts [rfl, absurd h0 (Nat.succ_ne_zero n)]

theorem outsAt1_B (c : Dev nD) (t : Fin cfg1.N) (h0 : ¬t.val = 0) (h1 : ¬t.val = 19) :
    outsAt1 V c t.val t.isLt = (idle1_1, idle1_2, sout1_B_0 c (grid1.coords t) (ms1_0 t) (hs1_0 t) (ms1_1 t) (hs1_1 t) (ms1_2 t) (hs1_2 t) scM1_0 (Memref.isWhole_whole _) scM1_1 (Memref.isWhole_whole _) (mt (hcond1_0 t).mp h0) (mt (hcond1_1 t).mp h1) (iblk1 V c 0 t) (outsAt1 V c (t.val - 1) (before1_lt t)).2.2.1 (outsAt1 V c (t.val - 1) (before1_lt t)).2.2.2, sout1_B_1 c (grid1.coords t) (ms1_0 t) (hs1_0 t) (ms1_1 t) (hs1_1 t) (ms1_2 t) (hs1_2 t) scM1_0 (Memref.isWhole_whole _) scM1_1 (Memref.isWhole_whole _) (mt (hcond1_0 t).mp h0) (mt (hcond1_1 t).mp h1) (iblk1 V c 0 t) (outsAt1 V c (t.val - 1) (before1_lt t)).2.2.1 (outsAt1 V c (t.val - 1) (before1_lt t)).2.2.2) := by
  obtain ⟨_ | n, hn⟩ := t
  exacts [absurd rfl h0, (dif_neg h1).trans rfl]

theorem outsAt1_C (c : Dev nD) (t : Fin cfg1.N) (h0 : ¬t.val = 0) (h1 : t.val = 19) :
    outsAt1 V c t.val t.isLt = (out1_C_1 c (grid1.coords t) (ms1_0 t) (hs1_0 t) (ms1_1 t) (hs1_1 t) (ms1_2 t) (hs1_2 t) scM1_0 (Memref.isWhole_whole _) scM1_1 (Memref.isWhole_whole _) (mt (hcond1_0 t).mp h0) ((hcond1_1 t).mpr h1) (iblk1 V c 0 t) (outsAt1 V c (t.val - 1) (before1_lt t)).2.2.1 (outsAt1 V c (t.val - 1) (before1_lt t)).2.2.2, out1_C_2 c (grid1.coords t) (ms1_0 t) (hs1_0 t) (ms1_1 t) (hs1_1 t) (ms1_2 t) (hs1_2 t) scM1_0 (Memref.isWhole_whole _) scM1_1 (Memref.isWhole_whole _) (mt (hcond1_0 t).mp h0) ((hcond1_1 t).mpr h1) (iblk1 V c 0 t) (outsAt1 V c (t.val - 1) (before1_lt t)).2.2.1 (outsAt1 V c (t.val - 1) (before1_lt t)).2.2.2, sout1_C_0 c (grid1.coords t) (ms1_0 t) (hs1_0 t) (ms1_1 t) (hs1_1 t) (ms1_2 t) (hs1_2 t) scM1_0 (Memref.isWhole_whole _) scM1_1 (Memref.isWhole_whole _) (mt (hcond1_0 t).mp h0) ((hcond1_1 t).mpr h1) (iblk1 V c 0 t) (outsAt1 V c (t.val - 1) (before1_lt t)).2.2.1 (outsAt1 V c (t.val - 1) (before1_lt t)).2.2.2, sout1_C_1 c (grid1.coords t) (ms1_0 t) (hs1_0 t) (ms1_1 t) (hs1_1 t) (ms1_2 t) (hs1_2 t) scM1_0 (Memref.isWhole_whole _) scM1_1 (Memref.isWhole_whole _) (mt (hcond1_0 t).mp h0) ((hcond1_1 t).mpr h1) (iblk1 V c 0 t) (outsAt1 V c (t.val - 1) (before1_lt t)).2.2.1 (outsAt1 V c (t.val - 1) (before1_lt t)).2.2.2) := by
  obtain ⟨_ | n, hn⟩ := t
  exacts [absurd rfl h0, (dif_pos h1).trans rfl]

/-- The loop invariant: the entry invariant before the first point, afterwards the same with the accumulators at what the point before left. -/
def PhiS1 (c : Dev nD) (n : ℕ) (h : n ≤ cfg1.N) : sProp 𝕄 :=
  if hz : n = 0 then Pipeline.ΦA spec1 c else
    iprop(iprop(iprop(owns c scM1_0 fullShare (outsAt1 V c (n - 1) (by omega)).2.2.1 ∗ owns c scM1_1 fullShare (outsAt1 V c (n - 1) (by omega)).2.2.2) ∗ rest1 c) ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt).1
    | ⟨2, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := rfl

theorem after1_0 (c : Dev nD) (t : Fin cfg1.N) : (dat1 V c).after 0 t = iblk1 V c 0 t := rfl
theorem after1_1 (c : Dev nD) (t : Fin cfg1.N) : (dat1 V c).after 1 t = (outsAt1 V c t.val t.isLt).1 := rfl
theorem after1_2 (c : Dev nD) (t : Fin cfg1.N) : (dat1 V c).after 2 t = (outsAt1 V c t.val t.isLt).2.1 := rfl

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns c (ms1_0 t) fullShare ((dat1 V c).before 0 t d))
    ∗ (∃ d, owns c (ms1_1 t) fullShare ((dat1 V c).before 1 t d))
    ∗ (∃ d, owns c (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

/-- Pieces that cover the shape fix every element, so what is read back depends neither on the view nor on the earlier contents. -/
theorem cover1_owns {c : Dev nD} {M : Memref sig .tc .vmem S1x32 .f32} (v : View sig .tc .vmem S1x32 .f32) {L : List (View.Piece (Elt F) S1x32 .f32)}
    (h : ∀ y, ∃ pc ∈ L, y ∈ pc.1.set) :
    (∃ f, M.view.loc c ↦[M.view.set]{fullShare} M.view.writes (Elt F) f L : sProp 𝕄)
      ⊢ owns c M fullShare (v.read (Elt F) (v.writes (Elt F) v.junk L)) := by
  unfold owns; iintro ⟨%f, H⟩; iexists M.view.writes (Elt F) f L; isplitr
  · ipureintro; exact View.read_writes_of_cover _ _ _ _ _ h
  iexact H

/- At every point the case's run takes the tile and the carried accumulators and leaves what `outsAt1` says; its stores cover what they fill. -/
set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl,
    show (dat1 V c).Φ t.succ = PhiS1 V c (t.val + 1) t.isLt from rfl, PhiS1, dif_neg (Nat.add_one_ne_zero _),
    show (dat1 V c).leavesExact 0 t = owns c (ms1_0 t) fullShare ((dat1 V c).after 0 t) from by
      unfold Dat.leavesExact; rw [liveAt1_0 t], after1_0,
    show (dat1 V c).Φ t.castSucc = PhiS1 V c t.val (Nat.le_of_lt t.isLt) from rfl, PhiS1]
  simp only [Nat.add_sub_cancel]
  by_cases h1 : t.val = 19
  · have h0 : ¬t.val = 0 := by omega
    have hc1 : cond1_1 (grid1.coords t) := (hcond1_1 t).mpr h1
    rw [dif_neg h0, show (dat1 V c).leavesExact 1 t = owns c (ms1_1 t) fullShare ((dat1 V c).after 1 t) from by
        unfold Dat.leavesExact; rw [liveAt1_1 t hc1], after1_1,
      show (dat1 V c).leavesExact 2 t = owns c (ms1_2 t) fullShare ((dat1 V c).after 2 t) from by
        unfold Dat.leavesExact; rw [liveAt1_2 t hc1], after1_2, outsAt1_C V c t h0 h1]
    unfold out1_C_1 out1_C_2 sout1_C_0 sout1_C_1; (try dsimp only)
    iintro ⟨⟨⟨⟨HS0, HS1⟩, Hr⟩, Hg⟩, Ho, ⟨%d0, H0⟩, ⟨%d1, H1⟩, ⟨%d2, H2⟩⟩
    iapply ((kernelRun1_C c (grid1.coords t) _ _ _ _ _ _ _ _ _ _ (mt (hcond1_0 t).mp h0) hc1 (iblk1 V c 0 t) _ _).2.2.2.2 Set.univ _)
    iframe H0 HS0 HS1
    isplitl [H1]; · iexists _; iexact H1
    isplitl [H2]; · iexists _; iexact H2
    iintro ⟨H0, H1, H2, HS0, HS1⟩
    iframe Hr Hg Ho H0
    isplitl [HS0 HS1]
    · isplitl [HS0]
      · iapply cover1_owns _ (fun _ => scover1_C_0 ..); iexact HS0
      iapply cover1_owns _ (fun _ => scover1_C_1 ..); iexact HS1
    isplitl [H1]
    · iapply cover1_owns _ (fun _ => cover1_C_1 ..); iexact H1
    iapply cover1_owns _ (fun _ => cover1_C_2 ..); iexact H2
  have hc1 : ¬cond1_1 (grid1.coords t) := mt (hcond1_1 t).mp h1
  rw [Dat.leavesExact_idle _ 1 t (idleAt1_1 t hc1) (noFlush1_1 t hc1), Dat.leavesExact_idle _ 2 t (idleAt1_2 t hc1) (noFlush1_2 t hc1)]
  by_cases h0 : t.val = 0
  · rw [dif_pos h0, PhiA1_eq, outsAt1_A V c t h0]
    unfold sout1_A_0 sout1_A_1; (try dsimp only)
    iintro ⟨⟨⟨⟨HS0, HS1⟩, Hr⟩, Hg⟩, Ho, ⟨%d0, H0⟩, ⟨%d1, H1⟩, ⟨%d2, H2⟩⟩
    iapply ((kernelRun1_A c (grid1.coords t) _ _ _ _ _ _ _ _ _ _ ((hcond1_0 t).mpr h0) hc1 (iblk1 V c 0 t)).2.2 _ _ Set.univ _)
    iframe H0 H1 H2 HS0 HS1
    iintro ⟨H0, H1, H2, HS0, HS1⟩
    iframe Hr Hg Ho H0
    isplitl [HS0 HS1]
    · isplitl [HS0]
      · iapply cover1_owns _ (fun _ => scover1_A_0 ..); iexact HS0
      iapply cover1_owns _ (fun _ => scover1_A_1 ..); iexact HS1
    isplitl [H1]; · iexists _; iexact H1
    iexists _; iexact H2
  rw [dif_neg h0, outsAt1_B V c t h0 h1]
  unfold sout1_B_0 sout1_B_1; (try dsimp only)
  iintro ⟨⟨⟨⟨HS0, HS1⟩, Hr⟩, Hg⟩, Ho, ⟨%d0, H0⟩, ⟨%d1, H1⟩, ⟨%d2, H2⟩⟩
  iapply ((kernelRun1_B c (grid1.coords t) _ _ _ _ _ _ _ _ _ _ (mt (hcond1_0 t).mp h0) hc1 (iblk1 V c 0 t) _ _).2.2 _ _ Set.univ _)
  iframe H0 H1 H2 HS0 HS1
  iintro ⟨H0, H1, H2, HS0, HS1⟩
  iframe Hr Hg Ho H0
  isplitl [HS0 HS1]
  · isplitl [HS0]
    · iapply cover1_owns _ (fun _ => scover1_B_0 ..); iexact HS0
    iapply cover1_owns _ (fun _ => scover1_B_1 ..); iexact HS1
  isplitl [H1]; · iexists _; iexact H1
  iexists _; iexact H2

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1, dif_pos rfl]

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1, dif_neg ht, PhiA1_eq]
  iintro ⟨⟨⟨HS0, HS1⟩, Hr⟩, Hg⟩
  iframe Hr Hg
  isplitl [HS0]; · iexists _; iexact HS0
  iexists _; iexact HS1

theorem hout1 (c : Dev nD) : (dat1 V c).Φ (Fin.last cfg1.N) ⊢ Pipeline.ΦA spec1 c :=
  Phi_out1 V c _ (by rw [Fin.val_last]; have : cfg1.N = 20 := N_1; omega)

end Cert.KernelIdeal.Hand

end
-- ==== Proof.Reg2.lean ====
import proofs.«419458_j79517024518684_2_alg».proof.Proof.Gen.KernelIdeal.Launch
import proofs.«419458_j79517024518684_2_alg».proof.Proof.Gen.KernelIdeal.Skeleton
import proofs.«419458_j79517024518684_2_alg».proof.Proof.Gen.KernelIdeal.Points
import Idealize.ShloMosaic.Lib.Pipeline.FrameBody
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_t : Rect S20000x32 := Rect.unit (s := S20000x32) ![0, 0] S20000x32.size inb_S20000x32_S20000x32_0_0
abbrev r2_r : Rect S1x32 := Rect.unit (s := S1x32) ![0, 0] S1x32.size inb_S1x32_S1x32_0_0

def out2_5 (x0 : Vec F S20000x32 .f32) (x1 x2 x3 x4 : Vec F S1x32 .f32) : Vec F S20000x32 .f32 :=
  View.canon [⟨r2_t, k2_pay1 (View.ld x0 r2_t) (View.ld x1 r2_r) (View.ld x2 r2_r) (View.ld x3 r2_r) (View.ld x4 r2_r)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := rfl

theorem after2_5 (c : Dev nD) (t : Fin cfg2.N) : (dat2 V c).after 5 t = out2_5 ((dat2 V c).after 0 t) ((dat2 V c).after 1 t) ((dat2 V c).after 2 t) ((dat2 V c).after 3 t) ((dat2 V c).after 4 t) := by dsimp only [dat2]

-- The body writes none of its five inputs.
theorem before2 (c : Dev nD) (t : Fin cfg2.N) : ∀ w : Fin cfg2.W, (cfg2.win w).isOut = false → ∀ d, (dat2 V c).before w t d = (dat2 V c).after w t
  | 0, h | 1, h | 2, h | 3, h | 4, h => (dat2 V c).before_in_eq_fetched _ h (fun _ => rfl) (fun _ _ _ => rfl) (fun _ => rfl) t
  | 5, h => nomatch h

-- At every point the body loads its five inputs, which hold their blocks, and stores the mapped tile over the whole output tile.
theorem body_obligation2 (c : Dev nD) : BodyObligation (dat2 (F := F) V c) (defs₀ (F := F)) Variants.none () Set.univ := fun t => by
  rw [bigSep_W2, bigSep_W2]
  show _ ⊢ wp frame _ _ (bodyAt2 t) _
  have hb := before2 V c t
  simp only [hb 0 rfl, hb 1 rfl, hb 2 rfl, hb 3 rfl, hb 4 rfl, show ∀ w i, cfg2.idle w i = false from fun _ _ => rfl]
  rw [show (dat2 V c).Φ t.succ = (dat2 V c).Φ t.castSucc from rfl, show (dat2 V c).owesAt () t.succ = (dat2 V c).owesAt () t.castSucc from rfl]
  unfold bodyAt2
  simp only [cc2_kernel_eq_skeleton]; unfold cc2_kernel_skel owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩⟩
  sl_exec
  sl_step
  iframe HΦ Ho
  isplitl [H0]; · iexists f0; iframe H0; ipureintro; exact hf0
  isplitl [H1]; · iexists f1; iframe H1; ipureintro; exact hf1
  isplitl [H2]; · iexists f2; iframe H2; ipureintro; exact hf2
  isplitl [H3]; · iexists f3; iframe H3; ipureintro; exact hf3
  isplitl [H4]; · iexists f4; iframe H4; ipureintro; exact hf4
  iexists _; iframe H5; ipureintro
  rw [after2_5, ← hf0, ← hf1, ← hf2, ← hf3, ← hf4]
  exact View.read_writes_eq_canon _ _ _ (View.cover_of_tiled _ S20000x32.size (by rfl))

end Cert.KernelIdeal.Hand

end
-- ==== Proof.Reg3.lean ====
import proofs.«419458_j79517024518684_2_alg».proof.Proof.Gen.KernelIdeal.Launch
import proofs.«419458_j79517024518684_2_alg».proof.Proof.Gen.KernelIdeal.Skeleton
import proofs.«419458_j79517024518684_2_alg».proof.Proof.Gen.KernelIdeal.Points
import Idealize.ShloMosaic.Lib.Pipeline.FrameBody
import Idealize.ShloMosaic.Lib.Tactic

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def out3_2 (x0 : Vec F S20000x32 .f32) (x1 : Vec F S32x32 .f32) : Vec F S20000x32 .f32 :=
  View.canon [⟨Rect.unit (s := S20000x32) ![0, 0] S20000x32.size inb_S20000x32_S20000x32_0_0,
    k3_pay1 (View.ld x0 (Rect.unit (s := S20000x32) ![0, 0] S20000x32.size inb_S20000x32_S20000x32_0_0))
      (View.ld x1 (Rect.unit (s := S32x32) ![0, 0] S32x32.size inb_S32x32_S32x32_0_0))⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := rfl

theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d

-- the body leaves the product of the two input blocks in the output tile and keeps everything else as it was
theorem sound_kernel3 (c : Dev nD) {i : grid3.Coords} {arg1 : Memref sig .tc .vmem S20000x32 .f32} {harg1 : arg1.IsWhole}
    {arg2 : Memref sig .tc .vmem S32x32 .f32} {harg2 : arg2.IsWhole} {arg3 : Memref sig .tc .vmem S20000x32 .f32} {harg3 : arg3.IsWhole}
    {x0 : Vec F S20000x32 .f32} {x1 : Vec F S32x32 .f32} {R S : sProp 𝕄} {D0 D1 D2 : Type} {b0 : D0 → Vec F S20000x32 .f32}
    {b1 : D1 → Vec F S32x32 .f32} {b2 : D2 → Vec F S20000x32 .f32} (h0 : ∀ d, b0 d = x0) (h1 : ∀ d, b1 d = x1) :
    iprop(R ∗ S ∗ (∃ d, owns c arg1 fullShare (b0 d)) ∗ (∃ d, owns c arg2 fullShare (b1 d)) ∗ ∃ d, owns c arg3 fullShare (b2 d))
      ⊢ wp frame (wpE (defs₀ (F := F)) Variants.none c none) Set.univ (cc3__linear_kernel i arg1 harg1 arg2 harg2 arg3 harg3) fun _ =>
        iprop(R ∗ S ∗ owns c arg1 fullShare x0 ∗ owns c arg2 fullShare x1 ∗ owns c arg3 fullShare (out3_2 x0 x1)) := by
  simp only [h0, h1, cc3__linear_kernel_eq_skeleton]; unfold cc3__linear_kernel_skel owns
  iintro ⟨HR, HS, ⟨%d0, %f0, %hf0, H0⟩, ⟨%d1, %f1, %hf1, H1⟩, ⟨%d2, %f2, -, H2⟩⟩
  subst hf0 hf1
  sl_exec
  sl_step
  iframe HR HS
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S20000x32.size (by rfl))

theorem body_obligation3 (c : Dev nD) : BodyObligation (dat3 (F := F) V c) (defs₀ (F := F)) Variants.none () Set.univ := fun t => by
  rw [bigSep_W3, bigSep_W3]
  dsimp only [dat3]
  exact (sound_kernel3 c (before3_0 V c t) (before3_1 V c t) : _ ⊢ wp _ _ _ (bodyAt3 t) _)

end Cert.KernelIdeal.Hand

end
-- ==== Proof.Reg4Runs.lean ====
import proofs.«419458_j79517024518684_2_alg».proof.Proof.Gen.KernelIdeal.Launch
import proofs.«419458_j79517024518684_2_alg».proof.Proof.Gen.KernelIdeal.Skeleton
import proofs.«419458_j79517024518684_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI Idealize.SL.BI.BIBase Idealize.SL.ProofMode Idealize.SL.Sem

variable {F : FTy → Type} [FloatOps F]

local notation "𝕄" => MT nD τ sig Unit (Elt F) ℕ (UR sig nD τ) ℕ

abbrev cond4_0 (i : grid4.Coords) : Prop := (Scalar.cmpi .ne (Scalar.extui (Scalar.cmpi .eq (BitVec.ofNat 32 (i 0).val) 0#32)) 0#32) = 1#1

/-- On the 20-point grid the first test holds at point 0 only. -/
theorem hcond4_0 : ∀ t : Fin cfg4.N, cond4_0 (grid4.coords t) ↔ t.val = 0 := by decide +kernel

abbrev cond4_1 (i : grid4.Coords) : Prop := k4_cond2 i = 1#1

/-- The second test holds at point 19 only. -/
theorem hcond4_1 : ∀ t : Fin cfg4.N, cond4_1 (grid4.coords t) ↔ t.val = 19 := by decide +kernel

theorem liveAt4_0 : ∀ t : Fin cfg4.N, cfg4.idle 0 (grid4.coords t) = false := by decide +kernel

theorem idleAt4_1 : ∀ t : Fin cfg4.N, ¬cond4_1 (grid4.coords t) → cfg4.idle 1 (grid4.coords t) = true := by decide +kernel

theorem noFlush4_1 : ∀ t : Fin cfg4.N, ¬cond4_1 (grid4.coords t) → (cfg4.win 1).flush t = false := by decide +kernel

theorem liveAt4_1 : ∀ t : Fin cfg4.N, cond4_1 (grid4.coords t) → cfg4.idle 1 (grid4.coords t) = false := by decide +kernel

theorem idleAt4_2 : ∀ t : Fin cfg4.N, ¬cond4_1 (grid4.coords t) → cfg4.idle 2 (grid4.coords t) = true := by decide +kernel
theorem noFlush4_2 : ∀ t : Fin cfg4.N, ¬cond4_1 (grid4.coords t) → (cfg4.win 2).flush t = false := by decide +kernel
theorem liveAt4_2 : ∀ t : Fin cfg4.N, cond4_1 (grid4.coords t) → cfg4.idle 2 (grid4.coords t) = false := by decide +kernel

abbrev VO4_1 : View sig .tc .vmem S1x32 .f32 := (Memref.whole cc4_stg1_0 : Memref sig .tc .vmem S1x32 .f32).view
abbrev VO4_2 : View sig .tc .vmem S1x32 .f32 := (Memref.whole cc4_stg2_0 : Memref sig .tc .vmem S1x32 .f32).view

abbrev ms4_0 (t : Fin cfg4.N) : Memref sig .tc .vmem S20000x32 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x32 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x32 .f32 := win4_2.stage (cfg4.slots t 2)
abbrev hs4_2 (t : Fin cfg4.N) : (ms4_2 t).IsWhole := hstage4_2 ((cfg4.slots t 2).cast nbuf4_2)

abbrev scM4_0 : Memref sig .tc .vmem S1x32 .f32 := Memref.whole cc4_scratch0
abbrev scM4_1 : Memref sig .tc .vmem S1x32 .f32 := Memref.whole cc4_scratch1

abbrev VS4_0 : View sig .tc .vmem S1x32 .f32 := scM4_0.view
abbrev VS4_1 : View sig .tc .vmem S1x32 .f32 := scM4_1.view

abbrev rest4 (c : Dev nD) : sProp 𝕄 :=
  Pipeline.scopedRestBut (Ix := Unit) (Name := ℕ) (U := UR sig nD τ) (Lvl := ℕ) (Val := Elt F) spec4 c [cc4_scratch0, cc4_scratch1]

theorem PhiA4_eq (c : Dev nD) :
    (Pipeline.ΦA spec4 c : sProp 𝕄)
      = iprop(iprop(iprop((∃ d, owns c scM4_0 fullShare d) ∗ (∃ d, owns c scM4_1 fullShare d)) ∗ rest4 c) ∗ (∃ r, prngReg c r)) := by
  unfold Pipeline.ΦA; rw [scopedRest4_split]; simp only [scM4_0, scM4_1, owns_whole]; try rfl

variable (c : Dev nD) (i : grid4.Coords) (arg1 : Memref sig .tc .vmem S20000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S1x32 .f32) (harg5 : arg5.IsWhole)

set_option maxHeartbeats 1000000 in
/-- The body run whole at the first point: the accumulators end at the pieces the run stored into them. -/
def kernelRun4_A (hc0 : cond4_0 i) (hc1 : ¬cond4_1 i) (x0 : Vec F S20000x32 .f32) :
    Σ' (LS0 : List (View.Piece (Elt F) S1x32 .f32)), { LS1 : List (View.Piece (Elt F) S1x32 .f32) //
      ∀ (xi1 xi2 : Vec F S1x32 .f32) (E : Set ℕ) (K : PUnit → sProp 𝕄),
        iprop(owns c arg1 fullShare x0 ∗ owns c arg2 fullShare xi1 ∗ owns c arg3 fullShare xi2
            ∗ (∃ d, owns c arg4 fullShare d) ∗ (∃ d, owns c arg5 fullShare d)
            ∗ (iprop(owns c arg1 fullShare x0 ∗ owns c arg2 fullShare xi1 ∗ owns c arg3 fullShare xi2
                ∗ (∃ f, arg4.view.loc c ↦[arg4.view.set]{fullShare} arg4.view.writes (Elt F) f LS0)
                ∗ (∃ f, arg5.view.loc c ↦[arg5.view.set]{fullShare} arg5.view.writes (Elt F) f LS1)) -∗ K ⟨⟩))
          ⊢ wp frame (wpE (defs₀ (F := F)) Variants.none c none) E (cc4__bn_stats_kernel i arg1 harg1 arg2 harg2 arg3 harg3 arg4 harg4 arg5 harg5) K } := by
  refine ⟨?_, ?_, fun xi1 xi2 E K => ?run⟩
  case run =>
    simp only [cc4__bn_stats_kernel_eq_skeleton]; unfold cc4__bn_stats_kernel_skel
    unfold owns
    iintro ⟨⟨%f0, %hf0, H0⟩, H1, H2, ⟨%ds0, %fs0, -, HS0⟩, ⟨%ds1, %fs1, -, HS1⟩, Hk⟩
    obtain rfl := harg1.eq_unread hf0
    sl_exec (disch := first | exact hc0 | exact hc1)
    sl_step
    iapply Hk
    iframe H1 H2
    isplitl [H0]
    · iexists _; isplitr; · ipureintro; exact harg1.read_unread _
      iexact H0
    isplitl [HS0]; · iexists _; iexact HS0
    iexists _; iexact HS1

set_option maxHeartbeats 1000000 in
/-- The same at a middle point, the accumulators coming in at given contents. -/
def kernelRun4_B (hc0 : ¬cond4_0 i) (hc1 : ¬cond4_1 i) (x0 : Vec F S20000x32 .f32) (xs0 xs1 : Vec F S1x32 .f32) :
    Σ' (LS0 : List (View.Piece (Elt F) S1x32 .f32)), { LS1 : List (View.Piece (Elt F) S1x32 .f32) //
      ∀ (xi1 xi2 : Vec F S1x32 .f32) (E : Set ℕ) (K : PUnit → sProp 𝕄),
        iprop(owns c arg1 fullShare x0 ∗ owns c arg2 fullShare xi1 ∗ owns c arg3 fullShare xi2
            ∗ owns c arg4 fullShare xs0 ∗ owns c arg5 fullShare xs1
            ∗ (iprop(owns c arg1 fullShare x0 ∗ owns c arg2 fullShare xi1 ∗ owns c arg3 fullShare xi2
                ∗ (∃ f, arg4.view.loc c ↦[arg4.view.set]{fullShare} arg4.view.writes (Elt F) f LS0)
                ∗ (∃ f, arg5.view.loc c ↦[arg5.view.set]{fullShare} arg5.view.writes (Elt F) f LS1)) -∗ K ⟨⟩))
          ⊢ wp frame (wpE (defs₀ (F := F)) Variants.none c none) E (cc4__bn_stats_kernel i arg1 harg1 arg2 harg2 arg3 harg3 arg4 harg4 arg5 harg5) K } := by
  refine ⟨?_, ?_, fun xi1 xi2 E K => ?run⟩
  case run =>
    simp only [cc4__bn_stats_kernel_eq_skeleton]; unfold cc4__bn_stats_kernel_skel
    unfold owns
    iintro ⟨⟨%f0, %hf0, H0⟩, H1, H2, ⟨%fs0, %hfs0, HS0⟩, ⟨%fs1, %hfs1, HS1⟩, Hk⟩
    obtain rfl := harg1.eq_unread hf0; obtain rfl := harg4.eq_unread hfs0; obtain rfl := harg5.eq_unread hfs1
    sl_exec (disch := first | exact hc0 | exact hc1)
    sl_step
    iapply Hk
    iframe H1 H2
    isplitl [H0]
    · iexists _; isplitr; · ipureintro; exact harg1.read_unread _
      iexact H0
    isplitl [HS0]; · iexists _; iexact HS0
    iexists _; iexact HS1

set_option maxHeartbeats 1000000 in
/-- The same at the last point, where the two outputs are stored too. -/
def kernelRun4_C (hc0 : ¬cond4_0 i) (hc1 : cond4_1 i) (x0 : Vec F S20000x32 .f32) (xs0 xs1 : Vec F S1x32 .f32) :
    Σ' (L1 : List (View.Piece (Elt F) S1x32 .f32)) (L2 : List (View.Piece (Elt F) S1x32 .f32)) (LS0 : List (View.Piece (Elt F) S1x32 .f32)), { LS1 : List (View.Piece (Elt F) S1x32 .f32) //
      ∀ (E : Set ℕ) (K : PUnit → sProp 𝕄),
        iprop(owns c arg1 fullShare x0 ∗ (∃ d, owns c arg2 fullShare d) ∗ (∃ d, owns c arg3 fullShare d)
            ∗ owns c arg4 fullShare xs0 ∗ owns c arg5 fullShare xs1
            ∗ (iprop(owns c arg1 fullShare x0
                ∗ (∃ f, arg2.view.loc c ↦[arg2.view.set]{fullShare} arg2.view.writes (Elt F) f L1)
                ∗ (∃ f, arg3.view.loc c ↦[arg3.view.set]{fullShare} arg3.view.writes (Elt F) f L2)
                ∗ (∃ f, arg4.view.loc c ↦[arg4.view.set]{fullShare} arg4.view.writes (Elt F) f LS0)
                ∗ (∃ f, arg5.view.loc c ↦[arg5.view.set]{fullShare} arg5.view.writes (Elt F) f LS1)) -∗ K ⟨⟩))
          ⊢ wp frame (wpE (defs₀ (F := F)) Variants.none c none) E (cc4__bn_stats_kernel i arg1 harg1 arg2 harg2 arg3 harg3 arg4 harg4 arg5 harg5) K } := by
  refine ⟨?_, ?_, ?_, ?_, fun E K => ?run⟩
  case run =>
    simp only [cc4__bn_stats_kernel_eq_skeleton]; unfold cc4__bn_stats_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg1.eq_unread hf0; obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]; · iexists _; iexact H1
    isplitl [H2]; · iexists _; iexact H2
    isplitl [HS0]; · iexists _; iexact HS0
    iexists _; iexact HS1

end Cert.KernelIdeal.Hand

end
-- ==== Proof.Reg4.lean ====
import proofs.«419458_j79517024518684_2_alg».proof.Proof.Reg4Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

section
variable (c : Dev nD) (i : grid4.Coords) (arg1 : Memref sig .tc .vmem S20000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S1x32 .f32) (harg5 : arg5.IsWhole)

section
variable (hc0 : cond4_0 i) (hc1 : ¬cond4_1 i) (x0 : Vec F S20000x32 .f32)
/-- The pieces a case stores tile the shape, so every index lies in one of them. -/
theorem scover4_A_0 (y : S1x32.Idx) : ∃ pc ∈ (kernelRun4_A c i arg1 harg1 arg2 harg2 arg3 harg3 arg4 harg4 arg5 harg5 hc0 hc1 x0).1, y ∈ pc.1.set :=
  View.cover_of_tiledL _ S1x32.size (by sl_kernel_rfl) y
def sout4_A_0 : Vec F S1x32 .f32 := VS4_0.read (Elt F) (VS4_0.writes (Elt F) VS4_0.junk (kernelRun4_A c i arg1 harg1 arg2 harg2 arg3 harg3 arg4 harg4 arg5 harg5 hc0 hc1 x0).1)
theorem scover4_A_1 (y : S1x32.Idx) : ∃ pc ∈ (kernelRun4_A c i arg1 harg1 arg2 harg2 arg3 harg3 arg4 harg4 arg5 harg5 hc0 hc1 x0).2.1, y ∈ pc.1.set :=
  View.cover_of_tiledL _ S1x32.size (by sl_kernel_rfl) y
def sout4_A_1 : Vec F S1x32 .f32 := VS4_1.read (Elt F) (VS4_1.writes (Elt F) VS4_1.junk (kernelRun4_A c i arg1 harg1 arg2 harg2 arg3 harg3 arg4 harg4 arg5 harg5 hc0 hc1 x0).2.1)
end

section
variable (hc0 : ¬cond4_0 i) (hc1 : ¬cond4_1 i) (x0 : Vec F S20000x32 .f32) (xs0 xs1 : Vec F S1x32 .f32)
theorem scover4_B_0 (y : S1x32.Idx) : ∃ pc ∈ (kernelRun4_B c i arg1 harg1 arg2 harg2 arg3 harg3 arg4 harg4 arg5 harg5 hc0 hc1 x0 xs0 xs1).1, y ∈ pc.1.set :=
  View.cover_of_tiledL _ S1x32.size (by sl_kernel_rfl) y
def sout4_B_0 : Vec F S1x32 .f32 := VS4_0.read (Elt F) (VS4_0.writes (Elt F) VS4_0.junk (kernelRun4_B c i arg1 harg1 arg2 harg2 arg3 harg3 arg4 harg4 arg5 harg5 hc0 hc1 x0 xs0 xs1).1)
theorem scover4_B_1 (y : S1x32.Idx) : ∃ pc ∈ (kernelRun4_B c i arg1 harg1 arg2 harg2 arg3 harg3 arg4 harg4 arg5 harg5 hc0 hc1 x0 xs0 xs1).2.1, y ∈ pc.1.set :=
  View.cover_of_tiledL _ S1x32.size (by sl_kernel_rfl) y
def sout4_B_1 : Vec F S1x32 .f32 := VS4_1.read (Elt F) (VS4_1.writes (Elt F) VS4_1.junk (kernelRun4_B c i arg1 harg1 arg2 harg2 arg3 harg3 arg4 harg4 arg5 harg5 hc0 hc1 x0 xs0 xs1).2.1)
end

section
variable (hc0 : ¬cond4_0 i) (hc1 : cond4_1 i) (x0 : Vec F S20000x32 .f32) (xs0 xs1 : Vec F S1x32 .f32)
theorem cover4_C_1 (y : S1x32.Idx) : ∃ pc ∈ (kernelRun4_C c i arg1 harg1 arg2 harg2 arg3 harg3 arg4 harg4 arg5 harg5 hc0 hc1 x0 xs0 xs1).1, y ∈ pc.1.set :=
  View.cover_of_tiledL _ S1x32.size (by sl_kernel_rfl) y
def out4_C_1 : Vec F S1x32 .f32 := VO4_1.read (Elt F) (VO4_1.writes (Elt F) VO4_1.junk (kernelRun4_C c i arg1 harg1 arg2 harg2 arg3 harg3 arg4 harg4 arg5 harg5 hc0 hc1 x0 xs0 xs1).1)
theorem cover4_C_2 (y : S1x32.Idx) : ∃ pc ∈ (kernelRun4_C c i arg1 harg1 arg2 harg2 arg3 harg3 arg4 harg4 arg5 harg5 hc0 hc1 x0 xs0 xs1).2.1, y ∈ pc.1.set :=
  View.cover_of_tiledL _ S1x32.size (by sl_kernel_rfl) y
def out4_C_2 : Vec F S1x32 .f32 := VO4_2.read (Elt F) (VO4_2.writes (Elt F) VO4_2.junk (kernelRun4_C c i arg1 harg1 arg2 harg2 arg3 harg3 arg4 harg4 arg5 harg5 hc0 hc1 x0 xs0 xs1).2.1)
theorem scover4_C_0 (y : S1x32.Idx) : ∃ pc ∈ (kernelRun4_C c i arg1 harg1 arg2 harg2 arg3 harg3 arg4 harg4 arg5 harg5 hc0 hc1 x0 xs0 xs1).2.2.1, y ∈ pc.1.set :=
  View.cover_of_tiledL _ S1x32.size (by sl_kernel_rfl) y
def sout4_C_0 : Vec F S1x32 .f32 := VS4_0.read (Elt F) (VS4_0.writes (Elt F) VS4_0.junk (kernelRun4_C c i arg1 harg1 arg2 harg2 arg3 harg3 arg4 harg4 arg5 harg5 hc0 hc1 x0 xs0 xs1).2.2.1)
theorem scover4_C_1 (y : S1x32.Idx) : ∃ pc ∈ (kernelRun4_C c i arg1 harg1 arg2 harg2 arg3 harg3 arg4 harg4 arg5 harg5 hc0 hc1 x0 xs0 xs1).2.2.2.1, y ∈ pc.1.set :=
  View.cover_of_tiledL _ S1x32.size (by sl_kernel_rfl) y
def sout4_C_1 : Vec F S1x32 .f32 := VS4_1.read (Elt F) (VS4_1.writes (Elt F) VS4_1.junk (kernelRun4_C c i arg1 harg1 arg2 harg2 arg3 harg3 arg4 harg4 arg5 harg5 hc0 hc1 x0 xs0 xs1).2.2.2.1)
end

end

def idle4_1 : Vec F S1x32 .f32 := VO4_1.read (Elt F) VO4_1.junk
def idle4_2 : Vec F S1x32 .f32 := VO4_2.read (Elt F) VO4_2.junk

/-- Pieces read back through a view, over arbitrary earlier contents. -/
def out4_read (v : View sig .tc .vmem S1x32 .f32) (L : List (View.Piece (Elt F) S1x32 .f32)) : Vec F S1x32 .f32 :=
  v.read (Elt F) (v.writes (Elt F) v.junk L)

/-- Outputs and accumulators after point `n`: the point's case on its tile and on the accumulators the point before left. -/
def outsAt4 (c : Dev nD) : (n : ℕ) → n < cfg4.N → Vec F S1x32 .f32 × Vec F S1x32 .f32 × Vec F S1x32 .f32 × Vec F S1x32 .f32
  | 0, hn =>
    let t : Fin cfg4.N := ⟨0, hn⟩
    let r := kernelRun4_A c (grid4.coords t) (ms4_0 t) (hs4_0 t) (ms4_1 t) (hs4_1 t) (ms4_2 t) (hs4_2 t) scM4_0 (Memref.isWhole_whole _) scM4_1 (Memref.isWhole_whole _) ((hcond4_0 t).mpr rfl) (mt (hcond4_1 t).mp (by decide : 0 ≠ 19)) (iblk4 V c 0 t)
    (idle4_1, idle4_2, out4_read VS4_0 r.1, out4_read VS4_1 r.2.1)
  | n + 1, hn =>
    let t : Fin cfg4.N := ⟨n + 1, hn⟩
    let p := outsAt4 c n (Nat.lt_of_succ_lt hn)
    have h0 : ¬cond4_0 (grid4.coords t) := mt (hcond4_0 t).mp (Nat.succ_ne_zero n)
    if h1 : n + 1 = 19 then
      let r := kernelRun4_C c (grid4.coords t) (ms4_0 t) (hs4_0 t) (ms4_1 t) (hs4_1 t) (ms4_2 t) (hs4_2 t) scM4_0 (Memref.isWhole_whole _) scM4_1 (Memref.isWhole_whole _) h0 ((hcond4_1 t).mpr h1) (iblk4 V c 0 t) p.2.2.1 p.2.2.2
      (out4_read VO4_1 r.1, out4_read VO4_2 r.2.1, out4_read VS4_0 r.2.2.1, out4_read VS4_1 r.2.2.2.1)
    else
      let r := kernelRun4_B c (grid4.coords t) (ms4_0 t) (hs4_0 t) (ms4_1 t) (hs4_1 t) (ms4_2 t) (hs4_2 t) scM4_0 (Memref.isWhole_whole _) scM4_1 (Memref.isWhole_whole _) h0 (mt (hcond4_1 t).mp h1) (iblk4 V c 0 t) p.2.2.1 p.2.2.2
      (idle4_1, idle4_2, out4_read VS4_0 r.1, out4_read VS4_1 r.2.1)

theorem before4_lt (t : Fin cfg4.N) : t.val - 1 < cfg4.N := Nat.lt_of_le_of_lt (Nat.sub_le _ _) t.isLt

theorem outsAt4_A (c : Dev nD) (t : Fin cfg4.N) (h0 : t.val = 0) :
    outsAt4 V c t.val t.isLt = (idle4_1, idle4_2, sout4_A_0 c (grid4.coords t) (ms4_0 t) (hs4_0 t) (ms4_1 t) (hs4_1 t) (ms4_2 t) (hs4_2 t) scM4_0 (Memref.isWhole_whole _) scM4_1 (Memref.isWhole_whole _) ((hcond4_0 t).mpr h0) (mt (hcond4_1 t).mp (by omega)) (iblk4 V c 0 t), sout4_A_1 c (grid4.coords t) (ms4_0 t) (hs4_0 t) (ms4_1 t) (hs4_1 t) (ms4_2 t) (hs4_2 t) scM4_0 (Memref.isWhole_whole _) scM4_1 (Memref.isWhole_whole _) ((hcond4_0 t).mpr h0) (mt (hcond4_1 t).mp (by omega)) (iblk4 V c 0 t)) := by
  obtain ⟨_ | n, hn⟩ := t
  exacts [rfl, absurd h0 (Nat.succ_ne_zero n)]

theorem outsAt4_B (c : Dev nD) (t : Fin cfg4.N) (h0 : ¬t.val = 0) (h1 : ¬t.val = 19) :
    outsAt4 V c t.val t.isLt = (idle4_1, idle4_2, sout4_B_0 c (grid4.coords t) (ms4_0 t) (hs4_0 t) (ms4_1 t) (hs4_1 t) (ms4_2 t) (hs4_2 t) scM4_0 (Memref.isWhole_whole _) scM4_1 (Memref.isWhole_whole _) (mt (hcond4_0 t).mp h0) (mt (hcond4_1 t).mp h1) (iblk4 V c 0 t) (outsAt4 V c (t.val - 1) (before4_lt t)).2.2.1 (outsAt4 V c (t.val - 1) (before4_lt t)).2.2.2, sout4_B_1 c (grid4.coords t) (ms4_0 t) (hs4_0 t) (ms4_1 t) (hs4_1 t) (ms4_2 t) (hs4_2 t) scM4_0 (Memref.isWhole_whole _) scM4_1 (Memref.isWhole_whole _) (mt (hcond4_0 t).mp h0) (mt (hcond4_1 t).mp h1) (iblk4 V c 0 t) (outsAt4 V c (t.val - 1) (before4_lt t)).2.2.1 (outsAt4 V c (t.val - 1) (before4_lt t)).2.2.2) := by
  obtain ⟨_ | n, hn⟩ := t
  exacts [absurd rfl h0, (dif_neg h1).trans rfl]

theorem outsAt4_C (c : Dev nD) (t : Fin cfg4.N) (h0 : ¬t.val = 0) (h1 : t.val = 19) :
    outsAt4 V c t.val t.isLt = (out4_C_1 c (grid4.coords t) (ms4_0 t) (hs4_0 t) (ms4_1 t) (hs4_1 t) (ms4_2 t) (hs4_2 t) scM4_0 (Memref.isWhole_whole _) scM4_1 (Memref.isWhole_whole _) (mt (hcond4_0 t).mp h0) ((hcond4_1 t).mpr h1) (iblk4 V c 0 t) (outsAt4 V c (t.val - 1) (before4_lt t)).2.2.1 (outsAt4 V c (t.val - 1) (before4_lt t)).2.2.2, out4_C_2 c (grid4.coords t) (ms4_0 t) (hs4_0 t) (ms4_1 t) (hs4_1 t) (ms4_2 t) (hs4_2 t) scM4_0 (Memref.isWhole_whole _) scM4_1 (Memref.isWhole_whole _) (mt (hcond4_0 t).mp h0) ((hcond4_1 t).mpr h1) (iblk4 V c 0 t) (outsAt4 V c (t.val - 1) (before4_lt t)).2.2.1 (outsAt4 V c (t.val - 1) (before4_lt t)).2.2.2, sout4_C_0 c (grid4.coords t) (ms4_0 t) (hs4_0 t) (ms4_1 t) (hs4_1 t) (ms4_2 t) (hs4_2 t) scM4_0 (Memref.isWhole_whole _) scM4_1 (Memref.isWhole_whole _) (mt (hcond4_0 t).mp h0) ((hcond4_1 t).mpr h1) (iblk4 V c 0 t) (outsAt4 V c (t.val - 1) (before4_lt t)).2.2.1 (outsAt4 V c (t.val - 1) (before4_lt t)).2.2.2, sout4_C_1 c (grid4.coords t) (ms4_0 t) (hs4_0 t) (ms4_1 t) (hs4_1 t) (ms4_2 t) (hs4_2 t) scM4_0 (Memref.isWhole_whole _) scM4_1 (Memref.isWhole_whole _) (mt (hcond4_0 t).mp h0) ((hcond4_1 t).mpr h1) (iblk4 V c 0 t) (outsAt4 V c (t.val - 1) (before4_lt t)).2.2.1 (outsAt4 V c (t.val - 1) (before4_lt t)).2.2.2) := by
  obtain ⟨_ | n, hn⟩ := t
  exacts [absurd rfl h0, (dif_pos h1).trans rfl]

/-- The loop invariant: the entry invariant before the first point, afterwards the same with the accumulators at what the point before left. -/
def PhiS4 (c : Dev nD) (n : ℕ) (h : n ≤ cfg4.N) : sProp 𝕄 :=
  if hz : n = 0 then Pipeline.ΦA spec4 c else
    iprop(iprop(iprop(owns c scM4_0 fullShare (outsAt4 V c (n - 1) (by omega)).2.2.1 ∗ owns c scM4_1 fullShare (outsAt4 V c (n - 1) (by omega)).2.2.2) ∗ rest4 c) ∗ (∃ r, prngReg c r))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => (outsAt4 V c t.val t.isLt).1
    | ⟨2, _⟩ => (outsAt4 V c t.val t.isLt).2.1
  Φ t := PhiS4 V c t.val (Nat.le_of_lt_succ t.isLt)
  q _ := fullShare
  owed _ := 0

theorem A_eq4 (c : Dev nD) (w : Fin cfg4.W) : (dat4 V c).A w = V c (Pipeline.arrRef spec4 w) := rfl

theorem after4_0 (c : Dev nD) (t : Fin cfg4.N) : (dat4 V c).after 0 t = iblk4 V c 0 t := rfl
theorem after4_1 (c : Dev nD) (t : Fin cfg4.N) : (dat4 V c).after 1 t = (outsAt4 V c t.val t.isLt).1 := rfl
theorem after4_2 (c : Dev nD) (t : Fin cfg4.N) : (dat4 V c).after 2 t = (outsAt4 V c t.val t.isLt).2.1 := rfl

theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)

def bodyPre4 (c : Dev nD) (t : Fin cfg4.N) : sProp 𝕄 :=
  iprop((dat4 V c).Φ t.castSucc ∗ (dat4 V c).owesAt () t.castSucc
    ∗ (∃ d, owns c (ms4_0 t) fullShare ((dat4 V c).before 0 t d))
    ∗ (∃ d, owns c (ms4_1 t) fullShare ((dat4 V c).before 1 t d))
    ∗ (∃ d, owns c (ms4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

/-- Pieces that cover the shape fix every element, so what is read back depends neither on the view nor on the earlier contents. -/
theorem cover4_owns {c : Dev nD} {M : Memref sig .tc .vmem S1x32 .f32} (v : View sig .tc .vmem S1x32 .f32) {L : List (View.Piece (Elt F) S1x32 .f32)}
    (h : ∀ y, ∃ pc ∈ L, y ∈ pc.1.set) :
    (∃ f, M.view.loc c ↦[M.view.set]{fullShare} M.view.writes (Elt F) f L : sProp 𝕄)
      ⊢ owns c M fullShare (v.read (Elt F) (v.writes (Elt F) v.junk L)) := by
  unfold owns; iintro ⟨%f, H⟩; iexists M.view.writes (Elt F) f L; isplitr
  · ipureintro; exact View.read_writes_of_cover _ _ _ _ _ h
  iexact H

/- At every point the case's run takes the tile and the carried accumulators and leaves what `outsAt4` says; its stores cover what they fill. -/
set_option maxHeartbeats 4800000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).owesAt () t.succ = (dat4 V c).owesAt () t.castSucc from rfl,
    show (dat4 V c).Φ t.succ = PhiS4 V c (t.val + 1) t.isLt from rfl, PhiS4, dif_neg (Nat.add_one_ne_zero _),
    show (dat4 V c).leavesExact 0 t = owns c (ms4_0 t) fullShare ((dat4 V c).after 0 t) from by
      unfold Dat.leavesExact; rw [liveAt4_0 t], after4_0,
    show (dat4 V c).Φ t.castSucc = PhiS4 V c t.val (Nat.le_of_lt t.isLt) from rfl, PhiS4]
  simp only [Nat.add_sub_cancel]
  by_cases h1 : t.val = 19
  · have h0 : ¬t.val = 0 := by omega
    have hc1 : cond4_1 (grid4.coords t) := (hcond4_1 t).mpr h1
    rw [dif_neg h0, show (dat4 V c).leavesExact 1 t = owns c (ms4_1 t) fullShare ((dat4 V c).after 1 t) from by
        unfold Dat.leavesExact; rw [liveAt4_1 t hc1], after4_1,
      show (dat4 V c).leavesExact 2 t = owns c (ms4_2 t) fullShare ((dat4 V c).after 2 t) from by
        unfold Dat.leavesExact; rw [liveAt4_2 t hc1], after4_2, outsAt4_C V c t h0 h1]
    unfold out4_C_1 out4_C_2 sout4_C_0 sout4_C_1; (try dsimp only)
    iintro ⟨⟨⟨⟨HS0, HS1⟩, Hr⟩, Hg⟩, Ho, ⟨%d0, H0⟩, ⟨%d1, H1⟩, ⟨%d2, H2⟩⟩
    iapply ((kernelRun4_C c (grid4.coords t) _ _ _ _ _ _ _ _ _ _ (mt (hcond4_0 t).mp h0) hc1 (iblk4 V c 0 t) _ _).2.2.2.2 Set.univ _)
    iframe H0 HS0 HS1
    isplitl [H1]; · iexists _; iexact H1
    isplitl [H2]; · iexists _; iexact H2
    iintro ⟨H0, H1, H2, HS0, HS1⟩
    iframe Hr Hg Ho H0
    isplitl [HS0 HS1]
    · isplitl [HS0]
      · iapply cover4_owns _ (fun _ => scover4_C_0 ..); iexact HS0
      iapply cover4_owns _ (fun _ => scover4_C_1 ..); iexact HS1
    isplitl [H1]
    · iapply cover4_owns _ (fun _ => cover4_C_1 ..); iexact H1
    iapply cover4_owns _ (fun _ => cover4_C_2 ..); iexact H2
  have hc1 : ¬cond4_1 (grid4.coords t) := mt (hcond4_1 t).mp h1
  rw [Dat.leavesExact_idle _ 1 t (idleAt4_1 t hc1) (noFlush4_1 t hc1), Dat.leavesExact_idle _ 2 t (idleAt4_2 t hc1) (noFlush4_2 t hc1)]
  by_cases h0 : t.val = 0
  · rw [dif_pos h0, PhiA4_eq, outsAt4_A V c t h0]
    unfold sout4_A_0 sout4_A_1; (try dsimp only)
    iintro ⟨⟨⟨⟨HS0, HS1⟩, Hr⟩, Hg⟩, Ho, ⟨%d0, H0⟩, ⟨%d1, H1⟩, ⟨%d2, H2⟩⟩
    iapply ((kernelRun4_A c (grid4.coords t) _ _ _ _ _ _ _ _ _ _ ((hcond4_0 t).mpr h0) hc1 (iblk4 V c 0 t)).2.2 _ _ Set.univ _)
    iframe H0 H1 H2 HS0 HS1
    iintro ⟨H0, H1, H2, HS0, HS1⟩
    iframe Hr Hg Ho H0
    isplitl [HS0 HS1]
    · isplitl [HS0]
      · iapply cover4_owns _ (fun _ => scover4_A_0 ..); iexact HS0
      iapply cover4_owns _ (fun _ => scover4_A_1 ..); iexact HS1
    isplitl [H1]; · iexists _; iexact H1
    iexists _; iexact H2
  rw [dif_neg h0, outsAt4_B V c t h0 h1]
  unfold sout4_B_0 sout4_B_1; (try dsimp only)
  iintro ⟨⟨⟨⟨HS0, HS1⟩, Hr⟩, Hg⟩, Ho, ⟨%d0, H0⟩, ⟨%d1, H1⟩, ⟨%d2, H2⟩⟩
  iapply ((kernelRun4_B c (grid4.coords t) _ _ _ _ _ _ _ _ _ _ (mt (hcond4_0 t).mp h0) hc1 (iblk4 V c 0 t) _ _).2.2 _ _ Set.univ _)
  iframe H0 H1 H2 HS0 HS1
  iintro ⟨H0, H1, H2, HS0, HS1⟩
  iframe Hr Hg Ho H0
  isplitl [HS0 HS1]
  · isplitl [HS0]
    · iapply cover4_owns _ (fun _ => scover4_B_0 ..); iexact HS0
    iapply cover4_owns _ (fun _ => scover4_B_1 ..); iexact HS1
  isplitl [H1]; · iexists _; iexact H1
  iexists _; iexact H2

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiS4 V c 0 (Nat.zero_le _) from rfl, PhiS4, dif_pos rfl]

theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4, dif_neg ht, PhiA4_eq]
  iintro ⟨⟨⟨HS0, HS1⟩, Hr⟩, Hg⟩
  iframe Hr Hg
  isplitl [HS0]; · iexists _; iexact HS0
  iexists _; iexact HS1

theorem hout4 (c : Dev nD) : (dat4 V c).Φ (Fin.last cfg4.N) ⊢ Pipeline.ΦA spec4 c :=
  Phi_out4 V c _ (by rw [Fin.val_last]; have : cfg4.N = 20 := N_4; omega)

end Cert.KernelIdeal.Hand

end
-- ==== Proof.Reg5.lean ====
import proofs.«419458_j79517024518684_2_alg».proof.Proof.Gen.KernelIdeal.Launch
import proofs.«419458_j79517024518684_2_alg».proof.Proof.Gen.KernelIdeal.Skeleton
import proofs.«419458_j79517024518684_2_alg».proof.Proof.Gen.KernelIdeal.Points
import Idealize.ShloMosaic.Lib.Pipeline.FrameBody
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_t : Rect S20000x32 := Rect.unit (s := S20000x32) ![0, 0] S20000x32.size inb_S20000x32_S20000x32_0_0
abbrev r5_r : Rect S1x32 := Rect.unit (s := S1x32) ![0, 0] S1x32.size inb_S1x32_S1x32_0_0

def out5_5 (x0 : Vec F S20000x32 .f32) (x1 x2 x3 x4 : Vec F S1x32 .f32) : Vec F S20000x32 .f32 :=
  View.canon [⟨r5_t, k5_pay1 (View.ld x0 r5_t) (View.ld x1 r5_r) (View.ld x2 r5_r) (View.ld x3 r5_r) (View.ld x4 r5_r)⟩]

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := rfl

theorem after5_5 (c : Dev nD) (t : Fin cfg5.N) : (dat5 V c).after 5 t = out5_5 ((dat5 V c).after 0 t) ((dat5 V c).after 1 t) ((dat5 V c).after 2 t) ((dat5 V c).after 3 t) ((dat5 V c).after 4 t) := by dsimp only [dat5]

-- The body writes none of its five inputs.
theorem before5 (c : Dev nD) (t : Fin cfg5.N) : ∀ w : Fin cfg5.W, (cfg5.win w).isOut = false → ∀ d, (dat5 V c).before w t d = (dat5 V c).after w t
  | 0, h | 1, h | 2, h | 3, h | 4, h => (dat5 V c).before_in_eq_fetched _ h (fun _ => rfl) (fun _ _ _ => rfl) (fun _ => rfl) t
  | 5, h => nomatch h

-- At every point the body loads its five inputs, which hold their blocks, and stores the mapped tile over the whole output tile.
theorem body_obligation5 (c : Dev nD) : BodyObligation (dat5 (F := F) V c) (defs₀ (F := F)) Variants.none () Set.univ := fun t => by
  rw [bigSep_W5, bigSep_W5]
  show _ ⊢ wp frame _ _ (bodyAt5 t) _
  have hb := before5 V c t
  simp only [hb 0 rfl, hb 1 rfl, hb 2 rfl, hb 3 rfl, hb 4 rfl, show ∀ w i, cfg5.idle w i = false from fun _ _ => rfl]
  rw [show (dat5 V c).Φ t.succ = (dat5 V c).Φ t.castSucc from rfl, show (dat5 V c).owesAt () t.succ = (dat5 V c).owesAt () t.castSucc from rfl]
  unfold bodyAt5
  simp only [cc5_kernel_eq_skeleton]; unfold cc5_kernel_skel owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩⟩
  sl_exec
  sl_step
  iframe HΦ Ho
  isplitl [H0]; · iexists f0; iframe H0; ipureintro; exact hf0
  isplitl [H1]; · iexists f1; iframe H1; ipureintro; exact hf1
  isplitl [H2]; · iexists f2; iframe H2; ipureintro; exact hf2
  isplitl [H3]; · iexists f3; iframe H3; ipureintro; exact hf3
  isplitl [H4]; · iexists f4; iframe H4; ipureintro; exact hf4
  iexists _; iframe H5; ipureintro
  rw [after5_5, ← hf0, ← hf1, ← hf2, ← hf3, ← hf4]
  exact View.read_writes_eq_canon _ _ _ (View.cover_of_tiled _ S20000x32.size (by rfl))

end Cert.KernelIdeal.Hand

end
-- ==== Proof.Reg6.lean ====
import proofs.«419458_j79517024518684_2_alg».proof.Proof.Gen.KernelIdeal.Launch
import proofs.«419458_j79517024518684_2_alg».proof.Proof.Gen.KernelIdeal.Skeleton
import proofs.«419458_j79517024518684_2_alg».proof.Proof.Gen.KernelIdeal.Points
import Idealize.ShloMosaic.Lib.Pipeline.FrameBody
import Idealize.ShloMosaic.Lib.Tactic

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def out6_2 (x0 : Vec F S20000x32 .f32) (x1 : Vec F S32x32 .f32) : Vec F S20000x32 .f32 :=
  View.canon [⟨Rect.unit (s := S20000x32) ![0, 0] S20000x32.size inb_S20000x32_S20000x32_0_0,
    k6_pay1 (View.ld x0 (Rect.unit (s := S20000x32) ![0, 0] S20000x32.size inb_S20000x32_S20000x32_0_0))
      (View.ld x1 (Rect.unit (s := S32x32) ![0, 0] S32x32.size inb_S32x32_S32x32_0_0))⟩]

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := rfl

theorem after6_2 (c : Dev nD) (t : Fin cfg6.N) : (dat6 V c).after 2 t = out6_2 (iblk6 V c 0 t) (iblk6 V c 1 t) := by dsimp only [dat6]

theorem before6_0 (c : Dev nD) (t : Fin cfg6.N) (d) : (dat6 V c).before 0 t d = iblk6 V c 0 t :=
  (dat6 V c).before_in_eq_fetched 0 rfl (fun _ => rfl) (fun _ _ _ => rfl) (fun _ => rfl) t d
theorem before6_1 (c : Dev nD) (t : Fin cfg6.N) (d) : (dat6 V c).before 1 t d = iblk6 V c 1 t :=
  (dat6 V c).before_in_eq_fetched 1 rfl (fun _ => rfl) (fun _ _ _ => rfl) (fun _ => rfl) t d

-- the body leaves the product of the two input blocks in the output tile and keeps everything else as it was
theorem sound_kernel6 (c : Dev nD) {i : grid6.Coords} {arg1 : Memref sig .tc .vmem S20000x32 .f32} {harg1 : arg1.IsWhole}
    {arg2 : Memref sig .tc .vmem S32x32 .f32} {harg2 : arg2.IsWhole} {arg3 : Memref sig .tc .vmem S20000x32 .f32} {harg3 : arg3.IsWhole}
    {x0 : Vec F S20000x32 .f32} {x1 : Vec F S32x32 .f32} {R S : sProp 𝕄} {D0 D1 D2 : Type} {b0 : D0 → Vec F S20000x32 .f32}
    {b1 : D1 → Vec F S32x32 .f32} {b2 : D2 → Vec F S20000x32 .f32} (h0 : ∀ d, b0 d = x0) (h1 : ∀ d, b1 d = x1) :
    iprop(R ∗ S ∗ (∃ d, owns c arg1 fullShare (b0 d)) ∗ (∃ d, owns c arg2 fullShare (b1 d)) ∗ ∃ d, owns c arg3 fullShare (b2 d))
      ⊢ wp frame (wpE (defs₀ (F := F)) Variants.none c none) Set.univ (cc6__linear_kernel i arg1 harg1 arg2 harg2 arg3 harg3) fun _ =>
        iprop(R ∗ S ∗ owns c arg1 fullShare x0 ∗ owns c arg2 fullShare x1 ∗ owns c arg3 fullShare (out6_2 x0 x1)) := by
  simp only [h0, h1, cc6__linear_kernel_eq_skeleton]; unfold cc6__linear_kernel_skel owns
  iintro ⟨HR, HS, ⟨%d0, %f0, %hf0, H0⟩, ⟨%d1, %f1, %hf1, H1⟩, ⟨%d2, %f2, -, H2⟩⟩
  subst hf0 hf1
  sl_exec
  sl_step
  iframe HR HS
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S20000x32.size (by rfl))

theorem body_obligation6 (c : Dev nD) : BodyObligation (dat6 (F := F) V c) (defs₀ (F := F)) Variants.none () Set.univ := fun t => by
  rw [bigSep_W6, bigSep_W6]
  dsimp only [dat6]
  exact (sound_kernel6 c (before6_0 V c t) (before6_1 V c t) : _ ⊢ wp _ _ _ (bodyAt6 t) _)

end Cert.KernelIdeal.Hand

end
-- ==== Proof.Reg7Runs.lean ====
import proofs.«419458_j79517024518684_2_alg».proof.Proof.Gen.KernelIdeal.Launch
import proofs.«419458_j79517024518684_2_alg».proof.Proof.Gen.KernelIdeal.Skeleton
import proofs.«419458_j79517024518684_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI Idealize.SL.BI.BIBase Idealize.SL.ProofMode Idealize.SL.Sem

variable {F : FTy → Type} [FloatOps F]

local notation "𝕄" => MT nD τ sig Unit (Elt F) ℕ (UR sig nD τ) ℕ

abbrev cond7_0 (i : grid7.Coords) : Prop := (Scalar.cmpi .ne (Scalar.extui (Scalar.cmpi .eq (BitVec.ofNat 32 (i 0).val) 0#32)) 0#32) = 1#1

/-- On the 20-point grid the first test holds at point 0 only. -/
theorem hcond7_0 : ∀ t : Fin cfg7.N, cond7_0 (grid7.coords t) ↔ t.val = 0 := by decide +kernel

abbrev cond7_1 (i : grid7.Coords) : Prop := k7_cond2 i = 1#1

/-- The second test holds at point 19 only. -/
theorem hcond7_1 : ∀ t : Fin cfg7.N, cond7_1 (grid7.coords t) ↔ t.val = 19 := by decide +kernel

theorem liveAt7_0 : ∀ t : Fin cfg7.N, cfg7.idle 0 (grid7.coords t) = false := by decide +kernel

theorem idleAt7_1 : ∀ t : Fin cfg7.N, ¬cond7_1 (grid7.coords t) → cfg7.idle 1 (grid7.coords t) = true := by decide +kernel

theorem noFlush7_1 : ∀ t : Fin cfg7.N, ¬cond7_1 (grid7.coords t) → (cfg7.win 1).flush t = false := by decide +kernel

theorem liveAt7_1 : ∀ t : Fin cfg7.N, cond7_1 (grid7.coords t) → cfg7.idle 1 (grid7.coords t) = false := by decide +kernel

theorem idleAt7_2 : ∀ t : Fin cfg7.N, ¬cond7_1 (grid7.coords t) → cfg7.idle 2 (grid7.coords t) = true := by decide +kernel
theorem noFlush7_2 : ∀ t : Fin cfg7.N, ¬cond7_1 (grid7.coords t) → (cfg7.win 2).flush t = false := by decide +kernel
theorem liveAt7_2 : ∀ t : Fin cfg7.N, cond7_1 (grid7.coords t) → cfg7.idle 2 (grid7.coords t) = false := by decide +kernel

abbrev VO7_1 : View sig .tc .vmem S1x32 .f32 := (Memref.whole cc7_stg1_0 : Memref sig .tc .vmem S1x32 .f32).view
abbrev VO7_2 : View sig .tc .vmem S1x32 .f32 := (Memref.whole cc7_stg2_0 : Memref sig .tc .vmem S1x32 .f32).view

abbrev ms7_0 (t : Fin cfg7.N) : Memref sig .tc .vmem S20000x32 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S1x32 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1x32 .f32 := win7_2.stage (cfg7.slots t 2)
abbrev hs7_2 (t : Fin cfg7.N) : (ms7_2 t).IsWhole := hstage7_2 ((cfg7.slots t 2).cast nbuf7_2)

abbrev scM7_0 : Memref sig .tc .vmem S1x32 .f32 := Memref.whole cc7_scratch0
abbrev scM7_1 : Memref sig .tc .vmem S1x32 .f32 := Memref.whole cc7_scratch1

abbrev VS7_0 : View sig .tc .vmem S1x32 .f32 := scM7_0.view
abbrev VS7_1 : View sig .tc .vmem S1x32 .f32 := scM7_1.view

abbrev rest7 (c : Dev nD) : sProp 𝕄 :=
  Pipeline.scopedRestBut (Ix := Unit) (Name := ℕ) (U := UR sig nD τ) (Lvl := ℕ) (Val := Elt F) spec7 c [cc7_scratch0, cc7_scratch1]

theorem PhiA7_eq (c : Dev nD) :
    (Pipeline.ΦA spec7 c : sProp 𝕄)
      = iprop(iprop(iprop((∃ d, owns c scM7_0 fullShare d) ∗ (∃ d, owns c scM7_1 fullShare d)) ∗ rest7 c) ∗ (∃ r, prngReg c r)) := by
  unfold Pipeline.ΦA; rw [scopedRest7_split]; simp only [scM7_0, scM7_1, owns_whole]; try rfl

variable (c : Dev nD) (i : grid7.Coords) (arg1 : Memref sig .tc .vmem S20000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S1x32 .f32) (harg5 : arg5.IsWhole)

set_option maxHeartbeats 1000000 in
/-- The body run whole at the first point: the accumulators end at the pieces the run stored into them. -/
def kernelRun7_A (hc0 : cond7_0 i) (hc1 : ¬cond7_1 i) (x0 : Vec F S20000x32 .f32) :
    Σ' (LS0 : List (View.Piece (Elt F) S1x32 .f32)), { LS1 : List (View.Piece (Elt F) S1x32 .f32) //
      ∀ (xi1 xi2 : Vec F S1x32 .f32) (E : Set ℕ) (K : PUnit → sProp 𝕄),
        iprop(owns c arg1 fullShare x0 ∗ owns c arg2 fullShare xi1 ∗ owns c arg3 fullShare xi2
            ∗ (∃ d, owns c arg4 fullShare d) ∗ (∃ d, owns c arg5 fullShare d)
            ∗ (iprop(owns c arg1 fullShare x0 ∗ owns c arg2 fullShare xi1 ∗ owns c arg3 fullShare xi2
                ∗ (∃ f, arg4.view.loc c ↦[arg4.view.set]{fullShare} arg4.view.writes (Elt F) f LS0)
                ∗ (∃ f, arg5.view.loc c ↦[arg5.view.set]{fullShare} arg5.view.writes (Elt F) f LS1)) -∗ K ⟨⟩))
          ⊢ wp frame (wpE (defs₀ (F := F)) Variants.none c none) E (cc7__bn_stats_kernel i arg1 harg1 arg2 harg2 arg3 harg3 arg4 harg4 arg5 harg5) K } := by
  refine ⟨?_, ?_, fun xi1 xi2 E K => ?run⟩
  case run =>
    simp only [cc7__bn_stats_kernel_eq_skeleton]; unfold cc7__bn_stats_kernel_skel
    unfold owns
    iintro ⟨⟨%f0, %hf0, H0⟩, H1, H2, ⟨%ds0, %fs0, -, HS0⟩, ⟨%ds1, %fs1, -, HS1⟩, Hk⟩
    obtain rfl := harg1.eq_unread hf0
    sl_exec (disch := first | exact hc0 | exact hc1)
    sl_step
    iapply Hk
    iframe H1 H2
    isplitl [H0]
    · iexists _; isplitr; · ipureintro; exact harg1.read_unread _
      iexact H0
    isplitl [HS0]; · iexists _; iexact HS0
    iexists _; iexact HS1

set_option maxHeartbeats 1000000 in
/-- The same at a middle point, the accumulators coming in at given contents. -/
def kernelRun7_B (hc0 : ¬cond7_0 i) (hc1 : ¬cond7_1 i) (x0 : Vec F S20000x32 .f32) (xs0 xs1 : Vec F S1x32 .f32) :
    Σ' (LS0 : List (View.Piece (Elt F) S1x32 .f32)), { LS1 : List (View.Piece (Elt F) S1x32 .f32) //
      ∀ (xi1 xi2 : Vec F S1x32 .f32) (E : Set ℕ) (K : PUnit → sProp 𝕄),
        iprop(owns c arg1 fullShare x0 ∗ owns c arg2 fullShare xi1 ∗ owns c arg3 fullShare xi2
            ∗ owns c arg4 fullShare xs0 ∗ owns c arg5 fullShare xs1
            ∗ (iprop(owns c arg1 fullShare x0 ∗ owns c arg2 fullShare xi1 ∗ owns c arg3 fullShare xi2
                ∗ (∃ f, arg4.view.loc c ↦[arg4.view.set]{fullShare} arg4.view.writes (Elt F) f LS0)
                ∗ (∃ f, arg5.view.loc c ↦[arg5.view.set]{fullShare} arg5.view.writes (Elt F) f LS1)) -∗ K ⟨⟩))
          ⊢ wp frame (wpE (defs₀ (F := F)) Variants.none c none) E (cc7__bn_stats_kernel i arg1 harg1 arg2 harg2 arg3 harg3 arg4 harg4 arg5 harg5) K } := by
  refine ⟨?_, ?_, fun xi1 xi2 E K => ?run⟩
  case run =>
    simp only [cc7__bn_stats_kernel_eq_skeleton]; unfold cc7__bn_stats_kernel_skel
    unfold owns
    iintro ⟨⟨%f0, %hf0, H0⟩, H1, H2, ⟨%fs0, %hfs0, HS0⟩, ⟨%fs1, %hfs1, HS1⟩, Hk⟩
    obtain rfl := harg1.eq_unread hf0; obtain rfl := harg4.eq_unread hfs0; obtain rfl := harg5.eq_unread hfs1
    sl_exec (disch := first | exact hc0 | exact hc1)
    sl_step
    iapply Hk
    iframe H1 H2
    isplitl [H0]
    · iexists _; isplitr; · ipureintro; exact harg1.read_unread _
      iexact H0
    isplitl [HS0]; · iexists _; iexact HS0
    iexists _; iexact HS1

set_option maxHeartbeats 1000000 in
/-- The same at the last point, where the two outputs are stored too. -/
def kernelRun7_C (hc0 : ¬cond7_0 i) (hc1 : cond7_1 i) (x0 : Vec F S20000x32 .f32) (xs0 xs1 : Vec F S1x32 .f32) :
    Σ' (L1 : List (View.Piece (Elt F) S1x32 .f32)) (L2 : List (View.Piece (Elt F) S1x32 .f32)) (LS0 : List (View.Piece (Elt F) S1x32 .f32)), { LS1 : List (View.Piece (Elt F) S1x32 .f32) //
      ∀ (E : Set ℕ) (K : PUnit → sProp 𝕄),
        iprop(owns c arg1 fullShare x0 ∗ (∃ d, owns c arg2 fullShare d) ∗ (∃ d, owns c arg3 fullShare d)
            ∗ owns c arg4 fullShare xs0 ∗ owns c arg5 fullShare xs1
            ∗ (iprop(owns c arg1 fullShare x0
                ∗ (∃ f, arg2.view.loc c ↦[arg2.view.set]{fullShare} arg2.view.writes (Elt F) f L1)
                ∗ (∃ f, arg3.view.loc c ↦[arg3.view.set]{fullShare} arg3.view.writes (Elt F) f L2)
                ∗ (∃ f, arg4.view.loc c ↦[arg4.view.set]{fullShare} arg4.view.writes (Elt F) f LS0)
                ∗ (∃ f, arg5.view.loc c ↦[arg5.view.set]{fullShare} arg5.view.writes (Elt F) f LS1)) -∗ K ⟨⟩))
          ⊢ wp frame (wpE (defs₀ (F := F)) Variants.none c none) E (cc7__bn_stats_kernel i arg1 harg1 arg2 harg2 arg3 harg3 arg4 harg4 arg5 harg5) K } := by
  refine ⟨?_, ?_, ?_, ?_, fun E K => ?run⟩
  case run =>
    simp only [cc7__bn_stats_kernel_eq_skeleton]; unfold cc7__bn_stats_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg1.eq_unread hf0; obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]; · iexists _; iexact H1
    isplitl [H2]; · iexists _; iexact H2
    isplitl [HS0]; · iexists _; iexact HS0
    iexists _; iexact HS1

end Cert.KernelIdeal.Hand

end
-- ==== Proof.Reg7.lean ====
import proofs.«419458_j79517024518684_2_alg».proof.Proof.Reg7Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

section
variable (c : Dev nD) (i : grid7.Coords) (arg1 : Memref sig .tc .vmem S20000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S1x32 .f32) (harg5 : arg5.IsWhole)

section
variable (hc0 : cond7_0 i) (hc1 : ¬cond7_1 i) (x0 : Vec F S20000x32 .f32)
/-- The pieces a case stores tile the shape, so every index lies in one of them. -/
theorem scover7_A_0 (y : S1x32.Idx) : ∃ pc ∈ (kernelRun7_A c i arg1 harg1 arg2 harg2 arg3 harg3 arg4 harg4 arg5 harg5 hc0 hc1 x0).1, y ∈ pc.1.set :=
  View.cover_of_tiledL _ S1x32.size (by sl_kernel_rfl) y
def sout7_A_0 : Vec F S1x32 .f32 := VS7_0.read (Elt F) (VS7_0.writes (Elt F) VS7_0.junk (kernelRun7_A c i arg1 harg1 arg2 harg2 arg3 harg3 arg4 harg4 arg5 harg5 hc0 hc1 x0).1)
theorem scover7_A_1 (y : S1x32.Idx) : ∃ pc ∈ (kernelRun7_A c i arg1 harg1 arg2 harg2 arg3 harg3 arg4 harg4 arg5 harg5 hc0 hc1 x0).2.1, y ∈ pc.1.set :=
  View.cover_of_tiledL _ S1x32.size (by sl_kernel_rfl) y
def sout7_A_1 : Vec F S1x32 .f32 := VS7_1.read (Elt F) (VS7_1.writes (Elt F) VS7_1.junk (kernelRun7_A c i arg1 harg1 arg2 harg2 arg3 harg3 arg4 harg4 arg5 harg5 hc0 hc1 x0).2.1)
end

section
variable (hc0 : ¬cond7_0 i) (hc1 : ¬cond7_1 i) (x0 : Vec F S20000x32 .f32) (xs0 xs1 : Vec F S1x32 .f32)
theorem scover7_B_0 (y : S1x32.Idx) : ∃ pc ∈ (kernelRun7_B c i arg1 harg1 arg2 harg2 arg3 harg3 arg4 harg4 arg5 harg5 hc0 hc1 x0 xs0 xs1).1, y ∈ pc.1.set :=
  View.cover_of_tiledL _ S1x32.size (by sl_kernel_rfl) y
def sout7_B_0 : Vec F S1x32 .f32 := VS7_0.read (Elt F) (VS7_0.writes (Elt F) VS7_0.junk (kernelRun7_B c i arg1 harg1 arg2 harg2 arg3 harg3 arg4 harg4 arg5 harg5 hc0 hc1 x0 xs0 xs1).1)
theorem scover7_B_1 (y : S1x32.Idx) : ∃ pc ∈ (kernelRun7_B c i arg1 harg1 arg2 harg2 arg3 harg3 arg4 harg4 arg5 harg5 hc0 hc1 x0 xs0 xs1).2.1, y ∈ pc.1.set :=
  View.cover_of_tiledL _ S1x32.size (by sl_kernel_rfl) y
def sout7_B_1 : Vec F S1x32 .f32 := VS7_1.read (Elt F) (VS7_1.writes (Elt F) VS7_1.junk (kernelRun7_B c i arg1 harg1 arg2 harg2 arg3 harg3 arg4 harg4 arg5 harg5 hc0 hc1 x0 xs0 xs1).2.1)
end

section
variable (hc0 : ¬cond7_0 i) (hc1 : cond7_1 i) (x0 : Vec F S20000x32 .f32) (xs0 xs1 : Vec F S1x32 .f32)
theorem cover7_C_1 (y : S1x32.Idx) : ∃ pc ∈ (kernelRun7_C c i arg1 harg1 arg2 harg2 arg3 harg3 arg4 harg4 arg5 harg5 hc0 hc1 x0 xs0 xs1).1, y ∈ pc.1.set :=
  View.cover_of_tiledL _ S1x32.size (by sl_kernel_rfl) y
def out7_C_1 : Vec F S1x32 .f32 := VO7_1.read (Elt F) (VO7_1.writes (Elt F) VO7_1.junk (kernelRun7_C c i arg1 harg1 arg2 harg2 arg3 harg3 arg4 harg4 arg5 harg5 hc0 hc1 x0 xs0 xs1).1)
theorem cover7_C_2 (y : S1x32.Idx) : ∃ pc ∈ (kernelRun7_C c i arg1 harg1 arg2 harg2 arg3 harg3 arg4 harg4 arg5 harg5 hc0 hc1 x0 xs0 xs1).2.1, y ∈ pc.1.set :=
  View.cover_of_tiledL _ S1x32.size (by sl_kernel_rfl) y
def out7_C_2 : Vec F S1x32 .f32 := VO7_2.read (Elt F) (VO7_2.writes (Elt F) VO7_2.junk (kernelRun7_C c i arg1 harg1 arg2 harg2 arg3 harg3 arg4 harg4 arg5 harg5 hc0 hc1 x0 xs0 xs1).2.1)
theorem scover7_C_0 (y : S1x32.Idx) : ∃ pc ∈ (kernelRun7_C c i arg1 harg1 arg2 harg2 arg3 harg3 arg4 harg4 arg5 harg5 hc0 hc1 x0 xs0 xs1).2.2.1, y ∈ pc.1.set :=
  View.cover_of_tiledL _ S1x32.size (by sl_kernel_rfl) y
def sout7_C_0 : Vec F S1x32 .f32 := VS7_0.read (Elt F) (VS7_0.writes (Elt F) VS7_0.junk (kernelRun7_C c i arg1 harg1 arg2 harg2 arg3 harg3 arg4 harg4 arg5 harg5 hc0 hc1 x0 xs0 xs1).2.2.1)
theorem scover7_C_1 (y : S1x32.Idx) : ∃ pc ∈ (kernelRun7_C c i arg1 harg1 arg2 harg2 arg3 harg3 arg4 harg4 arg5 harg5 hc0 hc1 x0 xs0 xs1).2.2.2.1, y ∈ pc.1.set :=
  View.cover_of_tiledL _ S1x32.size (by sl_kernel_rfl) y
def sout7_C_1 : Vec F S1x32 .f32 := VS7_1.read (Elt F) (VS7_1.writes (Elt F) VS7_1.junk (kernelRun7_C c i arg1 harg1 arg2 harg2 arg3 harg3 arg4 harg4 arg5 harg5 hc0 hc1 x0 xs0 xs1).2.2.2.1)
end

end

def idle7_1 : Vec F S1x32 .f32 := VO7_1.read (Elt F) VO7_1.junk
def idle7_2 : Vec F S1x32 .f32 := VO7_2.read (Elt F) VO7_2.junk

/-- Pieces read back through a view, over arbitrary earlier contents. -/
def out7_read (v : View sig .tc .vmem S1x32 .f32) (L : List (View.Piece (Elt F) S1x32 .f32)) : Vec F S1x32 .f32 :=
  v.read (Elt F) (v.writes (Elt F) v.junk L)

/-- Outputs and accumulators after point `n`: the point's case on its tile and on the accumulators the point before left. -/
def outsAt7 (c : Dev nD) : (n : ℕ) → n < cfg7.N → Vec F S1x32 .f32 × Vec F S1x32 .f32 × Vec F S1x32 .f32 × Vec F S1x32 .f32
  | 0, hn =>
    let t : Fin cfg7.N := ⟨0, hn⟩
    let r := kernelRun7_A c (grid7.coords t) (ms7_0 t) (hs7_0 t) (ms7_1 t) (hs7_1 t) (ms7_2 t) (hs7_2 t) scM7_0 (Memref.isWhole_whole _) scM7_1 (Memref.isWhole_whole _) ((hcond7_0 t).mpr rfl) (mt (hcond7_1 t).mp (by decide : 0 ≠ 19)) (iblk7 V c 0 t)
    (idle7_1, idle7_2, out7_read VS7_0 r.1, out7_read VS7_1 r.2.1)
  | n + 1, hn =>
    let t : Fin cfg7.N := ⟨n + 1, hn⟩
    let p := outsAt7 c n (Nat.lt_of_succ_lt hn)
    have h0 : ¬cond7_0 (grid7.coords t) := mt (hcond7_0 t).mp (Nat.succ_ne_zero n)
    if h1 : n + 1 = 19 then
      let r := kernelRun7_C c (grid7.coords t) (ms7_0 t) (hs7_0 t) (ms7_1 t) (hs7_1 t) (ms7_2 t) (hs7_2 t) scM7_0 (Memref.isWhole_whole _) scM7_1 (Memref.isWhole_whole _) h0 ((hcond7_1 t).mpr h1) (iblk7 V c 0 t) p.2.2.1 p.2.2.2
      (out7_read VO7_1 r.1, out7_read VO7_2 r.2.1, out7_read VS7_0 r.2.2.1, out7_read VS7_1 r.2.2.2.1)
    else
      let r := kernelRun7_B c (grid7.coords t) (ms7_0 t) (hs7_0 t) (ms7_1 t) (hs7_1 t) (ms7_2 t) (hs7_2 t) scM7_0 (Memref.isWhole_whole _) scM7_1 (Memref.isWhole_whole _) h0 (mt (hcond7_1 t).mp h1) (iblk7 V c 0 t) p.2.2.1 p.2.2.2
      (idle7_1, idle7_2, out7_read VS7_0 r.1, out7_read VS7_1 r.2.1)

theorem before7_lt (t : Fin cfg7.N) : t.val - 1 < cfg7.N := Nat.lt_of_le_of_lt (Nat.sub_le _ _) t.isLt

theorem outsAt7_A (c : Dev nD) (t : Fin cfg7.N) (h0 : t.val = 0) :
    outsAt7 V c t.val t.isLt = (idle7_1, idle7_2, sout7_A_0 c (grid7.coords t) (ms7_0 t) (hs7_0 t) (ms7_1 t) (hs7_1 t) (ms7_2 t) (hs7_2 t) scM7_0 (Memref.isWhole_whole _) scM7_1 (Memref.isWhole_whole _) ((hcond7_0 t).mpr h0) (mt (hcond7_1 t).mp (by omega)) (iblk7 V c 0 t), sout7_A_1 c (grid7.coords t) (ms7_0 t) (hs7_0 t) (ms7_1 t) (hs7_1 t) (ms7_2 t) (hs7_2 t) scM7_0 (Memref.isWhole_whole _) scM7_1 (Memref.isWhole_whole _) ((hcond7_0 t).mpr h0) (mt (hcond7_1 t).mp (by omega)) (iblk7 V c 0 t)) := by
  obtain ⟨_ | n, hn⟩ := t
  exacts [rfl, absurd h0 (Nat.succ_ne_zero n)]

theorem outsAt7_B (c : Dev nD) (t : Fin cfg7.N) (h0 : ¬t.val = 0) (h1 : ¬t.val = 19) :
    outsAt7 V c t.val t.isLt = (idle7_1, idle7_2, sout7_B_0 c (grid7.coords t) (ms7_0 t) (hs7_0 t) (ms7_1 t) (hs7_1 t) (ms7_2 t) (hs7_2 t) scM7_0 (Memref.isWhole_whole _) scM7_1 (Memref.isWhole_whole _) (mt (hcond7_0 t).mp h0) (mt (hcond7_1 t).mp h1) (iblk7 V c 0 t) (outsAt7 V c (t.val - 1) (before7_lt t)).2.2.1 (outsAt7 V c (t.val - 1) (before7_lt t)).2.2.2, sout7_B_1 c (grid7.coords t) (ms7_0 t) (hs7_0 t) (ms7_1 t) (hs7_1 t) (ms7_2 t) (hs7_2 t) scM7_0 (Memref.isWhole_whole _) scM7_1 (Memref.isWhole_whole _) (mt (hcond7_0 t).mp h0) (mt (hcond7_1 t).mp h1) (iblk7 V c 0 t) (outsAt7 V c (t.val - 1) (before7_lt t)).2.2.1 (outsAt7 V c (t.val - 1) (before7_lt t)).2.2.2) := by
  obtain ⟨_ | n, hn⟩ := t
  exacts [absurd rfl h0, (dif_neg h1).trans rfl]

theorem outsAt7_C (c : Dev nD) (t : Fin cfg7.N) (h0 : ¬t.val = 0) (h1 : t.val = 19) :
    outsAt7 V c t.val t.isLt = (out7_C_1 c (grid7.coords t) (ms7_0 t) (hs7_0 t) (ms7_1 t) (hs7_1 t) (ms7_2 t) (hs7_2 t) scM7_0 (Memref.isWhole_whole _) scM7_1 (Memref.isWhole_whole _) (mt (hcond7_0 t).mp h0) ((hcond7_1 t).mpr h1) (iblk7 V c 0 t) (outsAt7 V c (t.val - 1) (before7_lt t)).2.2.1 (outsAt7 V c (t.val - 1) (before7_lt t)).2.2.2, out7_C_2 c (grid7.coords t) (ms7_0 t) (hs7_0 t) (ms7_1 t) (hs7_1 t) (ms7_2 t) (hs7_2 t) scM7_0 (Memref.isWhole_whole _) scM7_1 (Memref.isWhole_whole _) (mt (hcond7_0 t).mp h0) ((hcond7_1 t).mpr h1) (iblk7 V c 0 t) (outsAt7 V c (t.val - 1) (before7_lt t)).2.2.1 (outsAt7 V c (t.val - 1) (before7_lt t)).2.2.2, sout7_C_0 c (grid7.coords t) (ms7_0 t) (hs7_0 t) (ms7_1 t) (hs7_1 t) (ms7_2 t) (hs7_2 t) scM7_0 (Memref.isWhole_whole _) scM7_1 (Memref.isWhole_whole _) (mt (hcond7_0 t).mp h0) ((hcond7_1 t).mpr h1) (iblk7 V c 0 t) (outsAt7 V c (t.val - 1) (before7_lt t)).2.2.1 (outsAt7 V c (t.val - 1) (before7_lt t)).2.2.2, sout7_C_1 c (grid7.coords t) (ms7_0 t) (hs7_0 t) (ms7_1 t) (hs7_1 t) (ms7_2 t) (hs7_2 t) scM7_0 (Memref.isWhole_whole _) scM7_1 (Memref.isWhole_whole _) (mt (hcond7_0 t).mp h0) ((hcond7_1 t).mpr h1) (iblk7 V c 0 t) (outsAt7 V c (t.val - 1) (before7_lt t)).2.2.1 (outsAt7 V c (t.val - 1) (before7_lt t)).2.2.2) := by
  obtain ⟨_ | n, hn⟩ := t
  exacts [absurd rfl h0, (dif_pos h1).trans rfl]

/-- The loop invariant: the entry invariant before the first point, afterwards the same with the accumulators at what the point before left. -/
def PhiS7 (c : Dev nD) (n : ℕ) (h : n ≤ cfg7.N) : sProp 𝕄 :=
  if hz : n = 0 then Pipeline.ΦA spec7 c else
    iprop(iprop(iprop(owns c scM7_0 fullShare (outsAt7 V c (n - 1) (by omega)).2.2.1 ∗ owns c scM7_1 fullShare (outsAt7 V c (n - 1) (by omega)).2.2.2) ∗ rest7 c) ∗ (∃ r, prngReg c r))

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => (outsAt7 V c t.val t.isLt).1
    | ⟨2, _⟩ => (outsAt7 V c t.val t.isLt).2.1
  Φ t := PhiS7 V c t.val (Nat.le_of_lt_succ t.isLt)
  q _ := fullShare
  owed _ := 0

theorem A_eq7 (c : Dev nD) (w : Fin cfg7.W) : (dat7 V c).A w = V c (Pipeline.arrRef spec7 w) := rfl

theorem after7_0 (c : Dev nD) (t : Fin cfg7.N) : (dat7 V c).after 0 t = iblk7 V c 0 t := rfl
theorem after7_1 (c : Dev nD) (t : Fin cfg7.N) : (dat7 V c).after 1 t = (outsAt7 V c t.val t.isLt).1 := rfl
theorem after7_2 (c : Dev nD) (t : Fin cfg7.N) : (dat7 V c).after 2 t = (outsAt7 V c t.val t.isLt).2.1 := rfl

theorem before7_0 (c : Dev nD) (t : Fin cfg7.N) (d) : (dat7 V c).before 0 t d = iblk7 V c 0 t :=
  ((dat7 V c).before_in_eq_fetched 0 rfl (fun _ => rfl) (fun _ _ _ => rfl) (fun t => by rw [after7_0]; unfold Dat.blockOf iblk7; rw [A_eq7]; try rfl) t d).trans
    (by unfold Dat.fetched Dat.blockOf iblk7; rw [A_eq7]; try rfl)

def bodyPre7 (c : Dev nD) (t : Fin cfg7.N) : sProp 𝕄 :=
  iprop((dat7 V c).Φ t.castSucc ∗ (dat7 V c).owesAt () t.castSucc
    ∗ (∃ d, owns c (ms7_0 t) fullShare ((dat7 V c).before 0 t d))
    ∗ (∃ d, owns c (ms7_1 t) fullShare ((dat7 V c).before 1 t d))
    ∗ (∃ d, owns c (ms7_2 t) fullShare ((dat7 V c).before 2 t d)))

def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t)

/-- Pieces that cover the shape fix every element, so what is read back depends neither on the view nor on the earlier contents. -/
theorem cover7_owns {c : Dev nD} {M : Memref sig .tc .vmem S1x32 .f32} (v : View sig .tc .vmem S1x32 .f32) {L : List (View.Piece (Elt F) S1x32 .f32)}
    (h : ∀ y, ∃ pc ∈ L, y ∈ pc.1.set) :
    (∃ f, M.view.loc c ↦[M.view.set]{fullShare} M.view.writes (Elt F) f L : sProp 𝕄)
      ⊢ owns c M fullShare (v.read (Elt F) (v.writes (Elt F) v.junk L)) := by
  unfold owns; iintro ⟨%f, H⟩; iexists M.view.writes (Elt F) f L; isplitr
  · ipureintro; exact View.read_writes_of_cover _ _ _ _ _ h
  iexact H

/- At every point the case's run takes the tile and the carried accumulators and leaves what `outsAt7` says; its stores cover what they fill. -/
set_option maxHeartbeats 4800000 in
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0]
  rw [show (dat7 V c).owesAt () t.succ = (dat7 V c).owesAt () t.castSucc from rfl,
    show (dat7 V c).Φ t.succ = PhiS7 V c (t.val + 1) t.isLt from rfl, PhiS7, dif_neg (Nat.add_one_ne_zero _),
    show (dat7 V c).leavesExact 0 t = owns c (ms7_0 t) fullShare ((dat7 V c).after 0 t) from by
      unfold Dat.leavesExact; rw [liveAt7_0 t], after7_0,
    show (dat7 V c).Φ t.castSucc = PhiS7 V c t.val (Nat.le_of_lt t.isLt) from rfl, PhiS7]
  simp only [Nat.add_sub_cancel]
  by_cases h1 : t.val = 19
  · have h0 : ¬t.val = 0 := by omega
    have hc1 : cond7_1 (grid7.coords t) := (hcond7_1 t).mpr h1
    rw [dif_neg h0, show (dat7 V c).leavesExact 1 t = owns c (ms7_1 t) fullShare ((dat7 V c).after 1 t) from by
        unfold Dat.leavesExact; rw [liveAt7_1 t hc1], after7_1,
      show (dat7 V c).leavesExact 2 t = owns c (ms7_2 t) fullShare ((dat7 V c).after 2 t) from by
        unfold Dat.leavesExact; rw [liveAt7_2 t hc1], after7_2, outsAt7_C V c t h0 h1]
    unfold out7_C_1 out7_C_2 sout7_C_0 sout7_C_1; (try dsimp only)
    iintro ⟨⟨⟨⟨HS0, HS1⟩, Hr⟩, Hg⟩, Ho, ⟨%d0, H0⟩, ⟨%d1, H1⟩, ⟨%d2, H2⟩⟩
    iapply ((kernelRun7_C c (grid7.coords t) _ _ _ _ _ _ _ _ _ _ (mt (hcond7_0 t).mp h0) hc1 (iblk7 V c 0 t) _ _).2.2.2.2 Set.univ _)
    iframe H0 HS0 HS1
    isplitl [H1]; · iexists _; iexact H1
    isplitl [H2]; · iexists _; iexact H2
    iintro ⟨H0, H1, H2, HS0, HS1⟩
    iframe Hr Hg Ho H0
    isplitl [HS0 HS1]
    · isplitl [HS0]
      · iapply cover7_owns _ (fun _ => scover7_C_0 ..); iexact HS0
      iapply cover7_owns _ (fun _ => scover7_C_1 ..); iexact HS1
    isplitl [H1]
    · iapply cover7_owns _ (fun _ => cover7_C_1 ..); iexact H1
    iapply cover7_owns _ (fun _ => cover7_C_2 ..); iexact H2
  have hc1 : ¬cond7_1 (grid7.coords t) := mt (hcond7_1 t).mp h1
  rw [Dat.leavesExact_idle _ 1 t (idleAt7_1 t hc1) (noFlush7_1 t hc1), Dat.leavesExact_idle _ 2 t (idleAt7_2 t hc1) (noFlush7_2 t hc1)]
  by_cases h0 : t.val = 0
  · rw [dif_pos h0, PhiA7_eq, outsAt7_A V c t h0]
    unfold sout7_A_0 sout7_A_1; (try dsimp only)
    iintro ⟨⟨⟨⟨HS0, HS1⟩, Hr⟩, Hg⟩, Ho, ⟨%d0, H0⟩, ⟨%d1, H1⟩, ⟨%d2, H2⟩⟩
    iapply ((kernelRun7_A c (grid7.coords t) _ _ _ _ _ _ _ _ _ _ ((hcond7_0 t).mpr h0) hc1 (iblk7 V c 0 t)).2.2 _ _ Set.univ _)
    iframe H0 H1 H2 HS0 HS1
    iintro ⟨H0, H1, H2, HS0, HS1⟩
    iframe Hr Hg Ho H0
    isplitl [HS0 HS1]
    · isplitl [HS0]
      · iapply cover7_owns _ (fun _ => scover7_A_0 ..); iexact HS0
      iapply cover7_owns _ (fun _ => scover7_A_1 ..); iexact HS1
    isplitl [H1]; · iexists _; iexact H1
    iexists _; iexact H2
  rw [dif_neg h0, outsAt7_B V c t h0 h1]
  unfold sout7_B_0 sout7_B_1; (try dsimp only)
  iintro ⟨⟨⟨⟨HS0, HS1⟩, Hr⟩, Hg⟩, Ho, ⟨%d0, H0⟩, ⟨%d1, H1⟩, ⟨%d2, H2⟩⟩
  iapply ((kernelRun7_B c (grid7.coords t) _ _ _ _ _ _ _ _ _ _ (mt (hcond7_0 t).mp h0) hc1 (iblk7 V c 0 t) _ _).2.2 _ _ Set.univ _)
  iframe H0 H1 H2 HS0 HS1
  iintro ⟨H0, H1, H2, HS0, HS1⟩
  iframe Hr Hg Ho H0
  isplitl [HS0 HS1]
  · isplitl [HS0]
    · iapply cover7_owns _ (fun _ => scover7_B_0 ..); iexact HS0
    iapply cover7_owns _ (fun _ => scover7_B_1 ..); iexact HS1
  isplitl [H1]; · iexists _; iexact H1
  iexists _; iexact H2

theorem body_obligation7 (c : Dev nD) : BodyObligation (dat7 (F := F) V c) (defs₀ (F := F)) Variants.none () Set.univ := fun t => by
  rw [bigSep_W7, bigSep_W7]
  exact sound_body7 V c t

theorem hin7 (c : Dev nD) : Pipeline.ΦA spec7 c ⊢ (dat7 V c).Φ 0 := by
  rw [show (dat7 V c).Φ 0 = PhiS7 V c 0 (Nat.zero_le _) from rfl, PhiS7, dif_pos rfl]

theorem Phi_out7 (c : Dev nD) (t : Fin (cfg7.N + 1)) (ht : t.val ≠ 0) : (dat7 V c).Φ t ⊢ Pipeline.ΦA spec7 c := by
  rw [show (dat7 V c).Φ t = PhiS7 V c t.val (Nat.le_of_lt_succ t.isLt) from rfl, PhiS7, dif_neg ht, PhiA7_eq]
  iintro ⟨⟨⟨HS0, HS1⟩, Hr⟩, Hg⟩
  iframe Hr Hg
  isplitl [HS0]; · iexists _; iexact HS0
  iexists _; iexact HS1

theorem hout7 (c : Dev nD) : (dat7 V c).Φ (Fin.last cfg7.N) ⊢ Pipeline.ΦA spec7 c :=
  Phi_out7 V c _ (by rw [Fin.val_last]; have : cfg7.N = 20 := N_7; omega)

end Cert.KernelIdeal.Hand

end
-- ==== Proof.Reg8.lean ====
import proofs.«419458_j79517024518684_2_alg».proof.Proof.Gen.KernelIdeal.Launch
import proofs.«419458_j79517024518684_2_alg».proof.Proof.Gen.KernelIdeal.Skeleton
import proofs.«419458_j79517024518684_2_alg».proof.Proof.Gen.KernelIdeal.Points
import Idealize.ShloMosaic.Lib.Pipeline.FrameBody
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev r8_t : Rect S20000x32 := Rect.unit (s := S20000x32) ![0, 0] S20000x32.size inb_S20000x32_S20000x32_0_0
abbrev r8_r : Rect S1x32 := Rect.unit (s := S1x32) ![0, 0] S1x32.size inb_S1x32_S1x32_0_0

def out8_5 (x0 : Vec F S20000x32 .f32) (x1 x2 x3 x4 : Vec F S1x32 .f32) : Vec F S20000x32 .f32 :=
  View.canon [⟨r8_t, k8_pay1 (View.ld x0 r8_t) (View.ld x1 r8_r) (View.ld x2 r8_r) (View.ld x3 r8_r) (View.ld x4 r8_r)⟩]

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

theorem A_eq8 (c : Dev nD) (w : Fin cfg8.W) : (dat8 V c).A w = V c (Pipeline.arrRef spec8 w) := rfl

theorem after8_5 (c : Dev nD) (t : Fin cfg8.N) : (dat8 V c).after 5 t = out8_5 ((dat8 V c).after 0 t) ((dat8 V c).after 1 t) ((dat8 V c).after 2 t) ((dat8 V c).after 3 t) ((dat8 V c).after 4 t) := by dsimp only [dat8]

-- The body writes none of its five inputs.
theorem before8 (c : Dev nD) (t : Fin cfg8.N) : ∀ w : Fin cfg8.W, (cfg8.win w).isOut = false → ∀ d, (dat8 V c).before w t d = (dat8 V c).after w t
  | 0, h | 1, h | 2, h | 3, h | 4, h => (dat8 V c).before_in_eq_fetched _ h (fun _ => rfl) (fun _ _ _ => rfl) (fun _ => rfl) t
  | 5, h => nomatch h

-- At every point the body loads its five inputs, which hold their blocks, and stores the mapped tile over the whole output tile.
theorem body_obligation8 (c : Dev nD) : BodyObligation (dat8 (F := F) V c) (defs₀ (F := F)) Variants.none () Set.univ := fun t => by
  rw [bigSep_W8, bigSep_W8]
  show _ ⊢ wp frame _ _ (bodyAt8 t) _
  have hb := before8 V c t
  simp only [hb 0 rfl, hb 1 rfl, hb 2 rfl, hb 3 rfl, hb 4 rfl, show ∀ w i, cfg8.idle w i = false from fun _ _ => rfl]
  rw [show (dat8 V c).Φ t.succ = (dat8 V c).Φ t.castSucc from rfl, show (dat8 V c).owesAt () t.succ = (dat8 V c).owesAt () t.castSucc from rfl]
  unfold bodyAt8
  simp only [cc8_kernel_eq_skeleton]; unfold cc8_kernel_skel owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩⟩
  sl_exec
  sl_step
  iframe HΦ Ho
  isplitl [H0]; · iexists f0; iframe H0; ipureintro; exact hf0
  isplitl [H1]; · iexists f1; iframe H1; ipureintro; exact hf1
  isplitl [H2]; · iexists f2; iframe H2; ipureintro; exact hf2
  isplitl [H3]; · iexists f3; iframe H3; ipureintro; exact hf3
  isplitl [H4]; · iexists f4; iframe H4; ipureintro; exact hf4
  iexists _; iframe H5; ipureintro
  rw [after8_5, ← hf0, ← hf1, ← hf2, ← hf3, ← hf4]
  exact View.read_writes_eq_canon _ _ _ (View.cover_of_tiled _ S20000x32.size (by rfl))

end Cert.KernelIdeal.Hand

end
-- ==== Proof.Reg9.lean ====
import proofs.«419458_j79517024518684_2_alg».proof.Proof.Gen.KernelIdeal.Launch
import proofs.«419458_j79517024518684_2_alg».proof.Proof.Gen.KernelIdeal.Skeleton
import proofs.«419458_j79517024518684_2_alg».proof.Proof.Gen.KernelIdeal.Points
import Idealize.ShloMosaic.Lib.Pipeline.FrameBody
import Idealize.ShloMosaic.Lib.Tactic

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

def out9_2 (x0 : Vec F S20000x32 .f32) (x1 : Vec F S32x32 .f32) : Vec F S20000x32 .f32 :=
  View.canon [⟨Rect.unit (s := S20000x32) ![0, 0] S20000x32.size inb_S20000x32_S20000x32_0_0,
    k9_pay1 (View.ld x0 (Rect.unit (s := S20000x32) ![0, 0] S20000x32.size inb_S20000x32_S20000x32_0_0))
      (View.ld x1 (Rect.unit (s := S32x32) ![0, 0] S32x32.size inb_S32x32_S32x32_0_0))⟩]

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => out9_2 (iblk9 V c 0 t) (iblk9 V c 1 t)
  Φ _ := Pipeline.ΦA spec9 c
  q _ := fullShare
  owed _ := 0

theorem A_eq9 (c : Dev nD) (w : Fin cfg9.W) : (dat9 V c).A w = V c (Pipeline.arrRef spec9 w) := rfl

theorem after9_2 (c : Dev nD) (t : Fin cfg9.N) : (dat9 V c).after 2 t = out9_2 (iblk9 V c 0 t) (iblk9 V c 1 t) := by dsimp only [dat9]

theorem before9_0 (c : Dev nD) (t : Fin cfg9.N) (d) : (dat9 V c).before 0 t d = iblk9 V c 0 t :=
  (dat9 V c).before_in_eq_fetched 0 rfl (fun _ => rfl) (fun _ _ _ => rfl) (fun _ => rfl) t d
theorem before9_1 (c : Dev nD) (t : Fin cfg9.N) (d) : (dat9 V c).before 1 t d = iblk9 V c 1 t :=
  (dat9 V c).before_in_eq_fetched 1 rfl (fun _ => rfl) (fun _ _ _ => rfl) (fun _ => rfl) t d

-- the body leaves the product of the two input blocks in the output tile and keeps everything else as it was
theorem sound_kernel9 (c : Dev nD) {i : grid9.Coords} {arg1 : Memref sig .tc .vmem S20000x32 .f32} {harg1 : arg1.IsWhole}
    {arg2 : Memref sig .tc .vmem S32x32 .f32} {harg2 : arg2.IsWhole} {arg3 : Memref sig .tc .vmem S20000x32 .f32} {harg3 : arg3.IsWhole}
    {x0 : Vec F S20000x32 .f32} {x1 : Vec F S32x32 .f32} {R S : sProp 𝕄} {D0 D1 D2 : Type} {b0 : D0 → Vec F S20000x32 .f32}
    {b1 : D1 → Vec F S32x32 .f32} {b2 : D2 → Vec F S20000x32 .f32} (h0 : ∀ d, b0 d = x0) (h1 : ∀ d, b1 d = x1) :
    iprop(R ∗ S ∗ (∃ d, owns c arg1 fullShare (b0 d)) ∗ (∃ d, owns c arg2 fullShare (b1 d)) ∗ ∃ d, owns c arg3 fullShare (b2 d))
      ⊢ wp frame (wpE (defs₀ (F := F)) Variants.none c none) Set.univ (cc9__linear_kernel i arg1 harg1 arg2 harg2 arg3 harg3) fun _ =>
        iprop(R ∗ S ∗ owns c arg1 fullShare x0 ∗ owns c arg2 fullShare x1 ∗ owns c arg3 fullShare (out9_2 x0 x1)) := by
  simp only [h0, h1, cc9__linear_kernel_eq_skeleton]; unfold cc9__linear_kernel_skel owns
  iintro ⟨HR, HS, ⟨%d0, %f0, %hf0, H0⟩, ⟨%d1, %f1, %hf1, H1⟩, ⟨%d2, %f2, -, H2⟩⟩
  subst hf0 hf1
  sl_exec
  sl_step
  iframe HR HS
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S20000x32.size (by rfl))

theorem body_obligation9 (c : Dev nD) : BodyObligation (dat9 (F := F) V c) (defs₀ (F := F)) Variants.none () Set.univ := fun t => by
  rw [bigSep_W9, bigSep_W9]
  dsimp only [dat9]
  exact (sound_kernel9 c (before9_0 V c t) (before9_1 V c t) : _ ⊢ wp _ _ _ (bodyAt9 t) _)

end Cert.KernelIdeal.Hand

end
-- ==== Proof.Reg10Runs.lean ====
import proofs.«419458_j79517024518684_2_alg».proof.Proof.Gen.KernelIdeal.Launch
import proofs.«419458_j79517024518684_2_alg».proof.Proof.Gen.KernelIdeal.Skeleton
import proofs.«419458_j79517024518684_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off the array the region finds. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

abbrev cond10_0 (i : grid10.Coords) : Prop := (Scalar.cmpi .ne (Scalar.extui (Scalar.cmpi .eq (BitVec.ofNat 32 (i 0).val) 0#32)) 0#32) = 1#1

/-- The first condition holds at the first point only, the second at the last point only. -/
theorem hcond10_0 : ∀ t : Fin cfg10.N, cond10_0 (grid10.coords t) ↔ t.val = 0 :=
  (by decide +kernel : ∀ t : Fin grid10.N, cond10_0 (grid10.coords t) ↔ t.val = 0)

abbrev cond10_1 (i : grid10.Coords) : Prop := k10_cond2 i = 1#1

theorem hcond10_1 : ∀ t : Fin cfg10.N, cond10_1 (grid10.coords t) ↔ t.val = 49 :=
  (by decide +kernel : ∀ t : Fin grid10.N, cond10_1 (grid10.coords t) ↔ t.val = 49)

theorem idleAt10_2 : ∀ t : Fin cfg10.N, ¬cond10_1 (grid10.coords t) → cfg10.idle 2 (grid10.coords t) = true := by decide +kernel

theorem noFlush10_2 : ∀ t : Fin cfg10.N, ¬cond10_1 (grid10.coords t) → (cfg10.win 2).flush t = false := by decide +kernel

theorem liveAt10_2 : ∀ t : Fin cfg10.N, cond10_1 (grid10.coords t) → cfg10.idle 2 (grid10.coords t) = false := by decide +kernel

abbrev ms10_0 (t : Fin cfg10.N) : Memref sig .tc .vmem S8000x32 .f32 := win10_0.stage (cfg10.slots t 0)
abbrev ms10_1 (t : Fin cfg10.N) : Memref sig .tc .vmem S8000x1 .i32 := win10_1.stage (cfg10.slots t 1)
abbrev ms10_2 (t : Fin cfg10.N) : Memref sig .tc .vmem S512x32 .f32 := win10_2.stage (cfg10.slots t 2)

abbrev scM10_0 : Memref sig .tc .vmem S512x32 .f32 := Memref.whole cc10_scratch0

abbrev rest10 (c : Dev nD) : sProp 𝕄 :=
  Pipeline.scopedRestBut (Ix := Unit) (Name := ℕ) (U := UR sig nD τ) (Lvl := ℕ) (Val := Elt F) spec10 c [cc10_scratch0]

/-- The region's invariant with the accumulator split off, owned at some contents. -/
theorem PhiA10_eq (c : Dev nD) :
    (Pipeline.ΦA spec10 c : sProp 𝕄)
      = iprop(iprop(iprop((∃ d, owns (c : Thread nD τ) scM10_0 fullShare d)) ∗ rest10 c) ∗ (∃ r, prngReg c r)) := by
  unfold Pipeline.ΦA; rw [scopedRest10_split]; simp only [scM10_0, owns_whole]; try rfl

theorem hz10 : (![0, 0] : Fin 2 → Nat) = fun _ => 0 := funext fun a => by fin_cases a <;> rfl

/-- One point's update of the accumulator: the tile's one-hot product added to what it held. -/
abbrev step10 (x0 : Vec F S8000x32 .f32) (x1 : Vec F S8000x1 .i32) (xs : Vec F S512x32 .f32) : Vec F S512x32 .f32 :=
  k10_pay2 x1 x0 xs

variable (c : Dev nD) (i : grid10.Coords) (arg1 : Memref sig .tc .vmem S8000x32 .f32) (harg1 : arg1.IsWhole) (arg2 : Memref sig .tc .vmem S8000x1 .i32) (harg2 : arg2.IsWhole)
  (arg3 : Memref sig .tc .vmem S512x32 .f32) (harg3 : arg3.IsWhole) (arg4 : Memref sig .tc .vmem S512x32 .f32) (harg4 : arg4.IsWhole)
  (x0 : Vec F S8000x32 .f32) (x1 : Vec F S8000x1 .i32)

/-- First point: the accumulator, found at anything, is zeroed and ends at the update of the zero block; a covering store reads back as its payload. -/
theorem kernelRun10_A (hc0 : cond10_0 i) (hc1 : ¬cond10_1 i) (xi2 : Vec F S512x32 .f32) (E : Set ℕ) (K : PUnit → sProp 𝕄) :
    iprop(owns (c : Thread nD τ) arg1 fullShare x0 ∗ owns (c : Thread nD τ) arg2 fullShare x1 ∗ owns (c : Thread nD τ) arg3 fullShare xi2 ∗ (∃ d, owns (c : Thread nD τ) arg4 fullShare d)
        ∗ (iprop(owns (c : Thread nD τ) arg1 fullShare x0 ∗ owns (c : Thread nD τ) arg2 fullShare x1 ∗ owns (c : Thread nD τ) arg3 fullShare xi2 ∗ owns (c : Thread nD τ) arg4 fullShare (step10 x0 x1 (k10_pay1 (F := F)))) -∗ K ⟨⟩))
      ⊢ wp frame (wpE (defs₀ (F := F)) Variants.none c none) E (cc10__pool_kernel i arg1 harg1 arg2 harg2 arg3 harg3 arg4 harg4) K := by
  simp only [cc10__pool_kernel_eq_skeleton]; unfold cc10__pool_kernel_skel
  unfold owns
  iintro ⟨⟨%f0, %hf0, H0⟩, ⟨%f1, %hf1, H1⟩, ⟨%f2, %hf2, H2⟩, ⟨%ds0, %fs0, -, HS0⟩, Hk⟩
  obtain rfl := harg1.eq_unread hf0; obtain rfl := harg2.eq_unread hf1; obtain rfl := harg3.eq_unread hf2
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact HS0
  ipureintro
  refine (View.read_writes_eq_canon _ _ _ (View.cover_of_tiledL _ S512x32.size ?_)).trans ?_
  · sl_kernel_rfl
  sl_unfold_words
  rw [View.canon_cons_unit_zero (S := S512x32) hz10, View.readCov_unit_zero (S := S512x32) _ hz10]
  simp only [View.readAt_eq_ld, harg1.read_unread, harg2.read_unread, View.ld_unit_zero (S := S8000x32) hz10, View.ld_unit_zero (S := S8000x1) hz10]

/-- A middle point: the accumulator ends at the update of what it held. -/
theorem kernelRun10_B (hc0 : ¬cond10_0 i) (hc1 : ¬cond10_1 i) (xs0 xi2 : Vec F S512x32 .f32) (E : Set ℕ) (K : PUnit → sProp 𝕄) :
    iprop(owns (c : Thread nD τ) arg1 fullShare x0 ∗ owns (c : Thread nD τ) arg2 fullShare x1 ∗ owns (c : Thread nD τ) arg3 fullShare xi2 ∗ owns (c : Thread nD τ) arg4 fullShare xs0
        ∗ (iprop(owns (c : Thread nD τ) arg1 fullShare x0 ∗ owns (c : Thread nD τ) arg2 fullShare x1 ∗ owns (c : Thread nD τ) arg3 fullShare xi2 ∗ owns (c : Thread nD τ) arg4 fullShare (step10 x0 x1 xs0)) -∗ K ⟨⟩))
      ⊢ wp frame (wpE (defs₀ (F := F)) Variants.none c none) E (cc10__pool_kernel i arg1 harg1 arg2 harg2 arg3 harg3 arg4 harg4) K := by
  simp only [cc10__pool_kernel_eq_skeleton]; unfold cc10__pool_kernel_skel
  unfold owns
  iintro ⟨⟨%f0, %hf0, H0⟩, ⟨%f1, %hf1, H1⟩, ⟨%f2, %hf2, H2⟩, ⟨%fs0, %hfs0, HS0⟩, Hk⟩
  obtain rfl := harg1.eq_unread hf0; obtain rfl := harg2.eq_unread hf1; obtain rfl := harg3.eq_unread hf2; obtain rfl := harg4.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact HS0
  ipureintro
  refine (View.read_writes_eq_canon _ _ _ (View.cover_of_tiledL _ S512x32.size ?_)).trans ?_
  · sl_kernel_rfl
  try sl_unfold_words
  rw [View.canon_unit_zero hz10]
  simp only [View.readAt_eq_ld, harg1.read_unread, harg2.read_unread, harg4.read_unread, View.ld_unit_zero (S := S8000x32) hz10, View.ld_unit_zero (S := S8000x1) hz10, View.ld_unit_zero (S := S512x32) hz10]

/-- Last point: as at a middle point, and the output window ends at the same contents. -/
theorem kernelRun10_C (hc0 : ¬cond10_0 i) (hc1 : cond10_1 i) (xs0 : Vec F S512x32 .f32) (E : Set ℕ) (K : PUnit → sProp 𝕄) :
    iprop(owns (c : Thread nD τ) arg1 fullShare x0 ∗ owns (c : Thread nD τ) arg2 fullShare x1 ∗ (∃ d, owns (c : Thread nD τ) arg3 fullShare d) ∗ owns (c : Thread nD τ) arg4 fullShare xs0
        ∗ (iprop(owns (c : Thread nD τ) arg1 fullShare x0 ∗ owns (c : Thread nD τ) arg2 fullShare x1 ∗ owns (c : Thread nD τ) arg3 fullShare (step10 x0 x1 xs0) ∗ owns (c : Thread nD τ) arg4 fullShare (step10 x0 x1 xs0)) -∗ K ⟨⟩))
      ⊢ wp frame (wpE (defs₀ (F := F)) Variants.none c none) E (cc10__pool_kernel i arg1 harg1 arg2 harg2 arg3 harg3 arg4 harg4) K := by
  simp only [cc10__pool_kernel_eq_skeleton]; unfold cc10__pool_kernel_skel
  unfold owns
  iintro ⟨⟨%f0, %hf0, H0⟩, ⟨%f1, %hf1, H1⟩, ⟨%d2, %f2, -, H2⟩, ⟨%fs0, %hfs0, HS0⟩, Hk⟩
  obtain rfl := harg1.eq_unread hf0; obtain rfl := harg2.eq_unread hf1; obtain rfl := harg4.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    refine (View.read_writes_eq_canon _ _ _ (View.cover_of_tiledL _ S512x32.size ?_)).trans ?_
    · sl_kernel_rfl
    sl_unfold_words
    rw [View.canon_unit_zero hz10, View.readCov_unit_zero (S := S512x32) _ hz10]
    simp only [View.readAt_eq_ld, harg1.read_unread, harg2.read_unread, harg4.read_unread, View.ld_unit_zero (S := S8000x32) hz10, View.ld_unit_zero (S := S8000x1) hz10, View.ld_unit_zero (S := S512x32) hz10]
  iexists _; isplitr
  swap; · iexact HS0
  ipureintro
  refine (View.read_writes_eq_canon _ _ _ (View.cover_of_tiledL _ S512x32.size ?_)).trans ?_
  · sl_kernel_rfl
  try sl_unfold_words
  rw [View.canon_unit_zero hz10]
  simp only [View.readAt_eq_ld, harg1.read_unread, harg2.read_unread, harg4.read_unread, View.ld_unit_zero (S := S8000x32) hz10, View.ld_unit_zero (S := S8000x1) hz10, View.ld_unit_zero (S := S512x32) hz10]

end Cert.KernelIdeal.Hand

end
-- ==== Proof.Reg10.lean ====
import proofs.«419458_j79517024518684_2_alg».proof.Proof.Reg10Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The accumulator after point `n`: the first tile's update of the zero block, then each tile's update of what the point before left. -/
def acc10 (c : Dev nD) : (n : ℕ) → n < cfg10.N → Vec F S512x32 .f32
  | 0, hn => step10 (iblk10 V c 0 ⟨0, hn⟩) (iblk10 V c 1 ⟨0, hn⟩) (k10_pay1 (F := F))
  | n + 1, hn => step10 (iblk10 V c 0 ⟨n + 1, hn⟩) (iblk10 V c 1 ⟨n + 1, hn⟩) (acc10 c n (Nat.lt_of_succ_lt hn))

theorem acc10_zero (c : Dev nD) (t : Fin cfg10.N) (h0 : t.val = 0) :
    acc10 V c t.val t.isLt = step10 (iblk10 V c 0 t) (iblk10 V c 1 t) (k10_pay1 (F := F)) := by
  obtain ⟨n, hn⟩ := t
  cases n with
  | zero => rfl
  | succ n => exact absurd h0 (Nat.succ_ne_zero n)

theorem acc10_pos (c : Dev nD) (t : Fin cfg10.N) (h0 : t.val ≠ 0) :
    acc10 V c t.val t.isLt = step10 (iblk10 V c 0 t) (iblk10 V c 1 t) (acc10 V c (t.val - 1) (Nat.lt_of_le_of_lt (Nat.sub_le _ _) t.isLt)) := by
  obtain ⟨n, hn⟩ := t
  cases n with
  | zero => exact absurd rfl h0
  | succ n => rfl

/-- Before the first point the accumulator is at anything; afterwards the invariant keeps it at what the point before left. -/
def PhiS10 (c : Dev nD) (n : ℕ) (h : n ≤ cfg10.N) : sProp 𝕄 :=
  if hz : n = 0 then Pipeline.ΦA spec10 c
  else iprop(iprop(owns (c : Thread nD τ) scM10_0 fullShare (acc10 V c (n - 1) (by omega)) ∗ rest10 c) ∗ (∃ r, prngReg c r))

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => acc10 V c t.val t.isLt
  Φ t := PhiS10 V c t.val (Nat.le_of_lt_succ t.isLt)
  q _ := fullShare
  owed _ := 0

theorem A_eq10 (c : Dev nD) (w : Fin cfg10.W) : (dat10 V c).A w = V c (Pipeline.arrRef spec10 w) := by
  dsimp only [dat10]

theorem after10_2 (c : Dev nD) (t : Fin cfg10.N) : (dat10 V c).after 2 t = acc10 V c t.val t.isLt := by dsimp only [dat10]

theorem before10 (c : Dev nD) (t : Fin cfg10.N) : ∀ w : Fin cfg10.W, w ≠ 2 → ∀ d, (dat10 V c).before w t d = (dat10 V c).fetched w t d := by
  intro w; fin_cases w <;> intro hw d
  on_goal 3 => exact absurd rfl hw
  all_goals exact (dat10 V c).before_in_eq_fetched _ rfl (fun _ => rfl) (fun _ _ _ => rfl) (fun _ => rfl) t d

/-- The point is the last, the first or a middle one, and that case's run applies; the invariant hands the accumulator over and takes it back at this point's contents. -/
theorem sound_body10 (c : Dev nD) (t : Fin cfg10.N) :
    iprop(PhiS10 V c t.val (Nat.le_of_lt t.isLt) ∗ (dat10 V c).owesAt () t.castSucc
      ∗ (∃ d, owns (c : Thread nD τ) (ms10_0 t) fullShare ((dat10 V c).before 0 t d))
      ∗ (∃ d, owns (c : Thread nD τ) (ms10_1 t) fullShare ((dat10 V c).before 1 t d))
      ∗ (∃ d, owns (c : Thread nD τ) (ms10_2 t) fullShare ((dat10 V c).before 2 t d)))
    ⊢ wp frame (wpE (defs₀ (F := F)) Variants.none c none) Set.univ (bodyAt10 t) (fun _ =>
      iprop(iprop(iprop(owns (c : Thread nD τ) scM10_0 fullShare (acc10 V c t.val t.isLt) ∗ rest10 c) ∗ (∃ r, prngReg c r)) ∗ (dat10 V c).owesAt () t.castSucc
        ∗ owns (c : Thread nD τ) (ms10_0 t) fullShare (iblk10 V c 0 t)
        ∗ owns (c : Thread nD τ) (ms10_1 t) fullShare (iblk10 V c 1 t)
        ∗ (dat10 V c).leavesExact 2 t)) := by
  unfold bodyAt10
  simp (disch := decide) only [before10 V c t]
  by_cases h1 : t.val = 49
  · have h0 : t.val ≠ 0 := by omega
    have hc1 := (hcond10_1 t).mpr h1
    rw [show (dat10 V c).leavesExact 2 t = owns (c : Thread nD τ) (ms10_2 t) fullShare ((dat10 V c).after 2 t) from by
      unfold Dat.leavesExact; rw [liveAt10_2 t hc1], after10_2, acc10_pos V c t h0, PhiS10, dif_neg h0]
    iintro ⟨⟨⟨HS0, Hr⟩, Hg⟩, Ho, ⟨%d0, H0⟩, ⟨%d1, H1⟩, ⟨%d2, H2⟩⟩
    iapply (kernelRun10_C c (grid10.coords t) _ _ _ _ _ _ _ _ (iblk10 V c 0 t) (iblk10 V c 1 t) (mt (hcond10_0 t).mp h0) hc1 _ Set.univ _)
    isplitl [H0]; · iexact H0
    isplitl [H1]; · iexact H1
    isplitl [H2]; · iexists _; iexact H2
    isplitl [HS0]; · iexact HS0
    iintro ⟨H0, H1, H2, HS0⟩
    iframe
  have hc1 := mt (hcond10_1 t).mp h1
  rw [Dat.leavesExact_idle (dat10 V c) 2 t (idleAt10_2 t hc1) (noFlush10_2 t hc1)]
  by_cases h0 : t.val = 0
  on_goal 1 => rw [acc10_zero V c t h0, PhiS10, dif_pos h0, PhiA10_eq]
  on_goal 2 => rw [acc10_pos V c t h0, PhiS10, dif_neg h0]
  all_goals
    iintro ⟨⟨⟨HS0, Hr⟩, Hg⟩, Ho, ⟨%d0, H0⟩, ⟨%d1, H1⟩, ⟨%d2, H2⟩⟩
    first
      | iapply (kernelRun10_A c (grid10.coords t) _ _ _ _ _ _ _ _ (iblk10 V c 0 t) (iblk10 V c 1 t) ((hcond10_0 t).mpr h0) hc1 _ Set.univ _)
      | iapply (kernelRun10_B c (grid10.coords t) _ _ _ _ _ _ _ _ (iblk10 V c 0 t) (iblk10 V c 1 t) (mt (hcond10_0 t).mp h0) hc1 _ _ Set.univ _)
    isplitl [H0]; · iexact H0
    isplitl [H1]; · iexact H1
    isplitl [H2]; · iexact H2
    isplitl [HS0]; · iexact HS0
    iintro ⟨H0, H1, H2, HS0⟩
    iframe HS0 Hr Hg Ho H0 H1
    iexists _; iexact H2

theorem body_obligation10 (c : Dev nD) : BodyObligation (dat10 (F := F) V c) (defs₀ (F := F)) Variants.none () Set.univ := fun t => by
  rw [bigSep_W10, bigSep_W10]
  exact sound_body10 V c t

theorem hin10 (c : Dev nD) : Pipeline.ΦA spec10 c ⊢ (dat10 V c).Φ 0 := Idealize.SL.BI.Entails.refl _

/-- After the last point the accumulator's contents are forgotten. -/
theorem hout10 (c : Dev nD) : (dat10 V c).Φ (Fin.last cfg10.N) ⊢ Pipeline.ΦA spec10 c := by
  rw [show (dat10 V c).Φ (Fin.last cfg10.N) = PhiS10 V c cfg10.N (Nat.le_refl _) from rfl, PhiS10, dif_neg (by decide), PhiA10_eq]
  iintro ⟨⟨HS0, Hr⟩, Hg⟩
  iframe Hr Hg
  iexists _; iexact HS0

end Cert.KernelIdeal.Hand

end
-- ==== Proof.Reg11.lean ====
import proofs.«419458_j79517024518684_2_alg».proof.Proof.Gen.KernelIdeal.Launch
import proofs.«419458_j79517024518684_2_alg».proof.Proof.Gen.KernelIdeal.Skeleton
import proofs.«419458_j79517024518684_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off the array the region finds. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

theorem hz11 : (![0, 0] : Fin 2 → Nat) = fun _ => 0 := funext fun a => by fin_cases a <;> rfl

/-- The head's result: the payload applied to the seven inputs. -/
def out11_7 (x0 : Vec F S512x32 .f32) (x1 : Vec F S32x32 .f32) (x2 : Vec F S1x32 .f32) (x3 : Vec F S1x32 .f32) (x4 : Vec F S1x32 .f32) (x5 : Vec F S32x2 .f32) (x6 : Vec F S1x2 .f32) : Vec F S512x2 .f32 :=
  k11_pay1 (k11_pay2 x0 x1 x2 x3 x4) (k11_pay3 x5) (constant S512x2 .f32 0x00000000#32) x6

/-- The body leaves every input as found and the output at `out11_7` of them: one covering store reads back as its payload, and a load of a whole array is the array. -/
theorem sound_kernel11 (c : Dev nD) (E : Set ℕ) (i : grid11.Coords)
    (arg1 : Memref sig .tc .vmem S512x32 .f32) (harg1 : arg1.IsWhole)
    (arg2 : Memref sig .tc .vmem S32x32 .f32) (harg2 : arg2.IsWhole)
    (arg3 : Memref sig .tc .vmem S1x32 .f32) (harg3 : arg3.IsWhole)
    (arg4 : Memref sig .tc .vmem S1x32 .f32) (harg4 : arg4.IsWhole)
    (arg5 : Memref sig .tc .vmem S1x32 .f32) (harg5 : arg5.IsWhole)
    (arg6 : Memref sig .tc .vmem S32x2 .f32) (harg6 : arg6.IsWhole)
    (arg7 : Memref sig .tc .vmem S1x2 .f32) (harg7 : arg7.IsWhole)
    (arg8 : Memref sig .tc .vmem S512x2 .f32) (harg8 : arg8.IsWhole)
    (x0 : Vec F S512x32 .f32) (x1 : Vec F S32x32 .f32) (x2 : Vec F S1x32 .f32) (x3 : Vec F S1x32 .f32) (x4 : Vec F S1x32 .f32) (x5 : Vec F S32x2 .f32) (x6 : Vec F S1x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out11_7 x0 x1 x2 x3 x4 x5 x6)) -∗ K ⟨⟩))
      ⊢ wp frame (wpE (defs₀ (F := F)) Variants.none c none) E (cc11__mlp_head_kernel i arg1 harg1 arg2 harg2 arg3 harg3 arg4 harg4 arg5 harg5 arg6 harg6 arg7 harg7 arg8 harg8) K := by
  simp only [cc11__mlp_head_kernel_eq_skeleton]; unfold cc11__mlp_head_kernel_skel
  simp only [k11_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  refine (View.read_writes_eq_canon _ _ _ (View.cover_of_tiled _ S512x2.size (by rfl))).trans ?_
  sl_unfold_words
  rw [View.canon_unit_zero hz11]
  simp only [out11_7, View.readAt_eq_ld, View.ld_unit_zero (S := S512x32) hz11, View.ld_unit_zero (S := S32x32) hz11,
    View.ld_unit_zero (S := S1x32) hz11, View.ld_unit_zero (S := S32x2) hz11, View.ld_unit_zero (S := S1x2) hz11]

def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => iblk11 V c 5 t
    | ⟨6, _⟩ => iblk11 V c 6 t
    | ⟨7, _⟩ => out11_7 (iblk11 V c 0 t) (iblk11 V c 1 t) (iblk11 V c 2 t) (iblk11 V c 3 t) (iblk11 V c 4 t) (iblk11 V c 5 t) (iblk11 V c 6 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_7 (c : Dev nD) (t : Fin cfg11.N) :
    (dat11 V c).after 7 t = out11_7 (iblk11 V c 0 t) (iblk11 V c 1 t) (iblk11 V c 2 t) (iblk11 V c 3 t) (iblk11 V c 4 t) (iblk11 V c 5 t) (iblk11 V c 6 t) := by dsimp only [dat11]

theorem before11 (c : Dev nD) (t : Fin cfg11.N) : ∀ w : Fin cfg11.W, w ≠ 7 → ∀ d, (dat11 V c).before w t d = (dat11 V c).fetched w t d := by
  intro w; fin_cases w <;> intro hw d
  on_goal 8 => exact absurd rfl hw
  all_goals exact (dat11 V c).before_in_eq_fetched _ rfl (fun _ => rfl) (fun _ _ _ => rfl) (fun _ => rfl) t d

theorem sound_body11 (c : Dev nD) (t : Fin cfg11.N) :
    iprop((dat11 V c).Φ t.castSucc ∗ (dat11 V c).owesAt () t.castSucc
      ∗ (∃ d, owns (c : Thread nD τ) (st11_0 t) fullShare ((dat11 V c).before 0 t d))
      ∗ (∃ d, owns (c : Thread nD τ) (st11_1 t) fullShare ((dat11 V c).before 1 t d))
      ∗ (∃ d, owns (c : Thread nD τ) (st11_2 t) fullShare ((dat11 V c).before 2 t d))
      ∗ (∃ d, owns (c : Thread nD τ) (st11_3 t) fullShare ((dat11 V c).before 3 t d))
      ∗ (∃ d, owns (c : Thread nD τ) (st11_4 t) fullShare ((dat11 V c).before 4 t d))
      ∗ (∃ d, owns (c : Thread nD τ) (st11_5 t) fullShare ((dat11 V c).before 5 t d))
      ∗ (∃ d, owns (c : Thread nD τ) (st11_6 t) fullShare ((dat11 V c).before 6 t d))
      ∗ (∃ d, owns (c : Thread nD τ) (st11_7 t) fullShare ((dat11 V c).before 7 t d)))
    ⊢ wp frame (wpE (defs₀ (F := F)) Variants.none c none) Set.univ (bodyAt11 t) (fun _ => iprop((dat11 V c).Φ t.castSucc ∗ (dat11 V c).owesAt () t.castSucc
      ∗ owns (c : Thread nD τ) (st11_0 t) fullShare (iblk11 V c 0 t)
      ∗ owns (c : Thread nD τ) (st11_1 t) fullShare (iblk11 V c 1 t)
      ∗ owns (c : Thread nD τ) (st11_2 t) fullShare (iblk11 V c 2 t)
      ∗ owns (c : Thread nD τ) (st11_3 t) fullShare (iblk11 V c 3 t)
      ∗ owns (c : Thread nD τ) (st11_4 t) fullShare (iblk11 V c 4 t)
      ∗ owns (c : Thread nD τ) (st11_5 t) fullShare (iblk11 V c 5 t)
      ∗ owns (c : Thread nD τ) (st11_6 t) fullShare (iblk11 V c 6 t)
      ∗ owns (c : Thread nD τ) (st11_7 t) fullShare ((dat11 V c).after 7 t))) := by
  unfold bodyAt11
  simp (disch := decide) only [before11 V c t]
  rw [after11_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel11 c Set.univ _ _ _ _ _ _ _ _ _ _ _ _ _ _ _ _ _ (iblk11 V c 0 t) (iblk11 V c 1 t) (iblk11 V c 2 t) (iblk11 V c 3 t) (iblk11 V c 4 t) (iblk11 V c 5 t) (iblk11 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  iframe

theorem body_obligation11 (c : Dev nD) : BodyObligation (dat11 (F := F) V c) (defs₀ (F := F)) Variants.none () Set.univ := fun t => by
  rw [bigSep_W11, bigSep_W11]
  exact sound_body11 V c t

end Cert.KernelIdeal.Hand

end
-- ==== Proof.KRun.lean ====
import proofs.«419458_j79517024518684_2_alg».proof.Proof.Gen.KernelIdeal.Regions
import proofs.«419458_j79517024518684_2_alg».proof.Proof.Reg0
import proofs.«419458_j79517024518684_2_alg».proof.Proof.Reg1
import proofs.«419458_j79517024518684_2_alg».proof.Proof.Reg2
import proofs.«419458_j79517024518684_2_alg».proof.Proof.Reg3
import proofs.«419458_j79517024518684_2_alg».proof.Proof.Reg4
import proofs.«419458_j79517024518684_2_alg».proof.Proof.Reg5
import proofs.«419458_j79517024518684_2_alg».proof.Proof.Reg6
import proofs.«419458_j79517024518684_2_alg».proof.Proof.Reg7
import proofs.«419458_j79517024518684_2_alg».proof.Proof.Reg8
import proofs.«419458_j79517024518684_2_alg».proof.Proof.Reg9
import proofs.«419458_j79517024518684_2_alg».proof.Proof.Reg10
import proofs.«419458_j79517024518684_2_alg».proof.Proof.Reg11
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Mathlib.Tactic.IntervalCases

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev Ve0 : (c : Dev nD) → (b : Ref sig .tc) → Buf (Elt F) ((c : Thread nD τ).loc b) := fun c b => V3 m c b

def X0 (c : Dev nD) : Valuation τ sig (Elt F) :=
  Pipeline.withArrays spec0 c (V3 m c) fun w => (dat0 (Ve0 m) c).arrAt w cfg0.N

theorem X0_arr (c : Dev nD) (w : Fin cfg0.W) :
    X0 m c (Proc.devRef .tc (Pipeline.arrRef spec0 w)) = (dat0 (Ve0 m) c).arrAt w cfg0.N :=
  Pipeline.withArrays_arr spec0 launch0.win.arr_inj c _ _ w

def o4 : Outs (F := F) := fun J r c => match J with | 4 => X0 m c r | _ => m ((c : Thread nD τ).loc r)

abbrev Ve1 : (c : Dev nD) → (b : Ref sig .tc) → Buf (Elt F) ((c : Thread nD τ).loc b) := fun c b => V5 m (o4 m) c b

def X1 (c : Dev nD) : Valuation τ sig (Elt F) :=
  Pipeline.withArrays spec1 c (V5 m (o4 m) c) fun w => (dat1 (Ve1 m) c).arrAt w cfg1.N

theorem X1_arr (c : Dev nD) (w : Fin cfg1.W) :
    X1 m c (Proc.devRef .tc (Pipeline.arrRef spec1 w)) = (dat1 (Ve1 m) c).arrAt w cfg1.N :=
  Pipeline.withArrays_arr spec1 launch1.win.arr_inj c _ _ w

def o6 : Outs (F := F) := fun J r c => match J with | 6 => X1 m c r | _ => o4 m J r c

abbrev Ve2 : (c : Dev nD) → (b : Ref sig .tc) → Buf (Elt F) ((c : Thread nD τ).loc b) := fun c b => V7 m (o6 m) c b

def X2 (c : Dev nD) : Valuation τ sig (Elt F) :=
  Pipeline.withArrays spec2 c (V7 m (o6 m) c) fun w => (dat2 (Ve2 m) c).arrAt w cfg2.N

theorem X2_arr (c : Dev nD) (w : Fin cfg2.W) :
    X2 m c (Proc.devRef .tc (Pipeline.arrRef spec2 w)) = (dat2 (Ve2 m) c).arrAt w cfg2.N :=
  Pipeline.withArrays_arr spec2 launch2.win.arr_inj c _ _ w

def o8 : Outs (F := F) := fun J r c => match J with | 8 => X2 m c r | _ => o6 m J r c

abbrev Ve3 : (c : Dev nD) → (b : Ref sig .tc) → Buf (Elt F) ((c : Thread nD τ).loc b) := fun c b => V8 m (o8 m) c b

def X3 (c : Dev nD) : Valuation τ sig (Elt F) :=
  Pipeline.withArrays spec3 c (V8 m (o8 m) c) fun w => (dat3 (Ve3 m) c).arrAt w cfg3.N

theorem X3_arr (c : Dev nD) (w : Fin cfg3.W) :
    X3 m c (Proc.devRef .tc (Pipeline.arrRef spec3 w)) = (dat3 (Ve3 m) c).arrAt w cfg3.N :=
  Pipeline.withArrays_arr spec3 launch3.win.arr_inj c _ _ w

def o9 : Outs (F := F) := fun J r c => match J with | 9 => X3 m c r | _ => o8 m J r c

abbrev Ve4 : (c : Dev nD) → (b : Ref sig .tc) → Buf (Elt F) ((c : Thread nD τ).loc b) := fun c b => V10 m (o9 m) c b

def X4 (c : Dev nD) : Valuation τ sig (Elt F) :=
  Pipeline.withArrays spec4 c (V10 m (o9 m) c) fun w => (dat4 (Ve4 m) c).arrAt w cfg4.N

theorem X4_arr (c : Dev nD) (w : Fin cfg4.W) :
    X4 m c (Proc.devRef .tc (Pipeline.arrRef spec4 w)) = (dat4 (Ve4 m) c).arrAt w cfg4.N :=
  Pipeline.withArrays_arr spec4 launch4.win.arr_inj c _ _ w

def o11 : Outs (F := F) := fun J r c => match J with | 11 => X4 m c r | _ => o9 m J r c

abbrev Ve5 : (c : Dev nD) → (b : Ref sig .tc) → Buf (Elt F) ((c : Thread nD τ).loc b) := fun c b => V12 m (o11 m) c b

def X5 (c : Dev nD) : Valuation τ sig (Elt F) :=
  Pipeline.withArrays spec5 c (V12 m (o11 m) c) fun w => (dat5 (Ve5 m) c).arrAt w cfg5.N

theorem X5_arr (c : Dev nD) (w : Fin cfg5.W) :
    X5 m c (Proc.devRef .tc (Pipeline.arrRef spec5 w)) = (dat5 (Ve5 m) c).arrAt w cfg5.N :=
  Pipeline.withArrays_arr spec5 launch5.win.arr_inj c _ _ w

def o13 : Outs (F := F) := fun J r c => match J with | 13 => X5 m c r | _ => o11 m J r c

abbrev Ve6 : (c : Dev nD) → (b : Ref sig .tc) → Buf (Elt F) ((c : Thread nD τ).loc b) := fun c b => V13 m (o13 m) c b

def X6 (c : Dev nD) : Valuation τ sig (Elt F) :=
  Pipeline.withArrays spec6 c (V13 m (o13 m) c) fun w => (dat6 (Ve6 m) c).arrAt w cfg6.N

theorem X6_arr (c : Dev nD) (w : Fin cfg6.W) :
    X6 m c (Proc.devRef .tc (Pipeline.arrRef spec6 w)) = (dat6 (Ve6 m) c).arrAt w cfg6.N :=
  Pipeline.withArrays_arr spec6 launch6.win.arr_inj c _ _ w

def o14 : Outs (F := F) := fun J r c => match J with | 14 => X6 m c r | _ => o13 m J r c

abbrev Ve7 : (c : Dev nD) → (b : Ref sig .tc) → Buf (Elt F) ((c : Thread nD τ).loc b) := fun c b => V15 m (o14 m) c b

def X7 (c : Dev nD) : Valuation τ sig (Elt F) :=
  Pipeline.withArrays spec7 c (V15 m (o14 m) c) fun w => (dat7 (Ve7 m) c).arrAt w cfg7.N

theorem X7_arr (c : Dev nD) (w : Fin cfg7.W) :
    X7 m c (Proc.devRef .tc (Pipeline.arrRef spec7 w)) = (dat7 (Ve7 m) c).arrAt w cfg7.N :=
  Pipeline.withArrays_arr spec7 launch7.win.arr_inj c _ _ w

def o16 : Outs (F := F) := fun J r c => match J with | 16 => X7 m c r | _ => o14 m J r c

abbrev Ve8 : (c : Dev nD) → (b : Ref sig .tc) → Buf (Elt F) ((c : Thread nD τ).loc b) := fun c b => V17 m (o16 m) c b

def X8 (c : Dev nD) : Valuation τ sig (Elt F) :=
  Pipeline.withArrays spec8 c (V17 m (o16 m) c) fun w => (dat8 (Ve8 m) c).arrAt w cfg8.N

theorem X8_arr (c : Dev nD) (w : Fin cfg8.W) :
    X8 m c (Proc.devRef .tc (Pipeline.arrRef spec8 w)) = (dat8 (Ve8 m) c).arrAt w cfg8.N :=
  Pipeline.withArrays_arr spec8 launch8.win.arr_inj c _ _ w

def o18 : Outs (F := F) := fun J r c => match J with | 18 => X8 m c r | _ => o16 m J r c

abbrev Ve9 : (c : Dev nD) → (b : Ref sig .tc) → Buf (Elt F) ((c : Thread nD τ).loc b) := fun c b => V18 m (o18 m) c b

def X9 (c : Dev nD) : Valuation τ sig (Elt F) :=
  Pipeline.withArrays spec9 c (V18 m (o18 m) c) fun w => (dat9 (Ve9 m) c).arrAt w cfg9.N

theorem X9_arr (c : Dev nD) (w : Fin cfg9.W) :
    X9 m c (Proc.devRef .tc (Pipeline.arrRef spec9 w)) = (dat9 (Ve9 m) c).arrAt w cfg9.N :=
  Pipeline.withArrays_arr spec9 launch9.win.arr_inj c _ _ w

def o19 : Outs (F := F) := fun J r c => match J with | 19 => X9 m c r | _ => o18 m J r c

abbrev Ve10 : (c : Dev nD) → (b : Ref sig .tc) → Buf (Elt F) ((c : Thread nD τ).loc b) := fun c b => V20 m (o19 m) c b

def X10 (c : Dev nD) : Valuation τ sig (Elt F) :=
  Pipeline.withArrays spec10 c (V20 m (o19 m) c) fun w => (dat10 (Ve10 m) c).arrAt w cfg10.N

theorem X10_arr (c : Dev nD) (w : Fin cfg10.W) :
    X10 m c (Proc.devRef .tc (Pipeline.arrRef spec10 w)) = (dat10 (Ve10 m) c).arrAt w cfg10.N :=
  Pipeline.withArrays_arr spec10 launch10.win.arr_inj c _ _ w

def o21 : Outs (F := F) := fun J r c => match J with | 21 => X10 m c r | _ => o19 m J r c

abbrev Ve11 : (c : Dev nD) → (b : Ref sig .tc) → Buf (Elt F) ((c : Thread nD τ).loc b) := fun c b => V22 m (o21 m) c b

def X11 (c : Dev nD) : Valuation τ sig (Elt F) :=
  Pipeline.withArrays spec11 c (V22 m (o21 m) c) fun w => (dat11 (Ve11 m) c).arrAt w cfg11.N

theorem X11_arr (c : Dev nD) (w : Fin cfg11.W) :
    X11 m c (Proc.devRef .tc (Pipeline.arrRef spec11 w)) = (dat11 (Ve11 m) c).arrAt w cfg11.N :=
  Pipeline.withArrays_arr spec11 launch11.win.arr_inj c _ _ w

def o23 : Outs (F := F) := fun J r c => match J with | 23 => X11 m c r | _ => o21 m J r c

def pdats : (p : Fin 12) → (c : Dev nD) → Dat τ (Elt F) Unit ℕ (UR sig nD τ) ℕ (cfgs p) c
  | ⟨0, _⟩ => fun c => dat0 (Ve0 m) c
  | ⟨1, _⟩ => fun c => dat1 (Ve1 m) c
  | ⟨2, _⟩ => fun c => dat2 (Ve2 m) c
  | ⟨3, _⟩ => fun c => dat3 (Ve3 m) c
  | ⟨4, _⟩ => fun c => dat4 (Ve4 m) c
  | ⟨5, _⟩ => fun c => dat5 (Ve5 m) c
  | ⟨6, _⟩ => fun c => dat6 (Ve6 m) c
  | ⟨7, _⟩ => fun c => dat7 (Ve7 m) c
  | ⟨8, _⟩ => fun c => dat8 (Ve8 m) c
  | ⟨9, _⟩ => fun c => dat9 (Ve9 m) c
  | ⟨10, _⟩ => fun c => dat10 (Ve10 m) c
  | ⟨11, _⟩ => fun c => dat11 (Ve11 m) c

theorem pdats_facts (p : Fin 12) (c : Dev nD) : (∀ w, (pdats m p c).q w = fullShare) ∧ (∀ t, (pdats m p c).owed t = 0)
    ∧ (pdats m p c).recorded 0 = Set.univ := by
  fin_cases p <;> exact ⟨fun _ => rfl, fun _ => rfl, rfl⟩

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

theorem perm_in (c : Dev nD) (P Q : sProp 𝕄) : iprop((∃ r, prngReg c r) ∗ P ∗ Q) ⊢ iprop(Q ∗ ∃ r, prngReg c r) := by
  iintro ⟨Hp, -, Hr⟩
  isplitl [Hr]; · iexact Hr
  iexact Hp

theorem perm_out (c : Dev nD) (Q : sProp 𝕄) : iprop(Q ∗ ∃ r, prngReg c r) ⊢ iprop((∃ r, prngReg c r) ∗ BI.emp ∗ Q) := by
  iintro ⟨Hr, Hp⟩
  isplitl [Hp]; · iexact Hp
  isplitr; · iempintro
  iexact Hr

-- Setting a valuation to `X` along a list of references gives `X` on the list and leaves the rest.
theorem foldl_update (X : Valuation τ sig (Elt F)) (b : Ref sig .tc) (O : List (Ref sig .tc)) : ∀ V : Valuation τ sig (Elt F),
    (b ∈ O → O.foldl (fun V r => Function.update V r (X r)) V b = X b)
      ∧ (b ∉ O → O.foldl (fun V r => Function.update V r (X r)) V b = V b) := by
  induction O with
  | nil => exact fun V => ⟨fun h => absurd h List.not_mem_nil, fun _ => rfl⟩
  | cons r O ih =>
    intro V
    obtain ⟨h1, h2⟩ := ih (Function.update V r (X r))
    by_cases hb : b ∈ O
    · exact ⟨fun _ => h1 hb, fun h => absurd (List.mem_cons_of_mem _ hb) h⟩
    · refine ⟨fun h => ?_, fun h => (h2 hb).trans (Function.update_of_ne (StableHlo.devRef_ne_of_ne fun e => h (List.mem_cons.mpr (Or.inl e))) ..)⟩
      obtain rfl : b = r := (List.mem_cons.mp h).resolve_right hb
      exact (h2 hb).trans (Function.update_self ..)

set_option backward.isDefEq.respectTransparency.types false in
-- A region as a segment between the thread states at contents `Vi` and `Vo`, when `Vo` is `Vi` with the output arrays set to their final contents: an input array's final contents are its initial ones.
def regOf (p : Fin 12)
    (lf : Pipeline.LaunchFacts (nD := nD) (τ := τ) cfgs p) (Vi Vo : Dev nD → Valuation τ sig (Elt F)) (O : List (Ref sig .tc))
    (hbody : ∀ c, Pipeline.BodyObligationLoose (pdats m p c) defs₀ 𝒱₀ () Set.univ)
    (hin : ∀ c, Pipeline.ΦA (cfgs p).spec c ⊢ (pdats m p c).Φ 0)
    (hout : ∀ c, (pdats m p c).Φ (Fin.last _) ⊢ Pipeline.ΦA (cfgs p).spec c)
    (hA : ∀ c w, (pdats m p c).A w = Vi c (Pipeline.arrRef (cfgs p).spec w) := by exact fun _ _ => rfl)
    (hVo : ∀ c, Vo c = O.foldl (fun V r => Function.update V r
      (Pipeline.withArrays (cfgs p).spec c (Vi c) (fun w => (pdats m p c).arrAt w (cfgs p).N) r)) (Vi c) := by exact fun _ => rfl)
    (hO : (∀ w, Pipeline.arrRef (cfgs p).spec w ∈ O ∨ ((cfgs p).win w).isOut = false)
      ∧ ∀ b ∈ O, ∃ w, Pipeline.arrRef (cfgs p).spec w = b := by decide) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L lv p fun c => (pdats_facts m p c).2.1
  pre c := iprop(StableHlo.held (c : Thread nD τ) (Pipeline.ucRefs τ sig) (Vi c) ∗ R c)
  post c := iprop(StableHlo.held (c : Thread nD τ) (Pipeline.ucRefs τ sig) (Vo c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Vi c b)
  hentry c := by
    rw [Pipeline.ownSems0_none]
    have hsplit := Pipeline.arrays_of_unscopedBufs (p := p) (pcfgs (F := F)) adm (pdats m) lf.win lf.arr_whole c
      ((pdats m p c).share_full (pdats_facts m p c).1) (fun b => Vi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [(pdats_facts m p c).2.1 0]
      icases HO with ⟨%W, HO⟩; iexists W; isplitr; · ipureintro; exact fun _ _ => Or.inl ((pdats_facts m p c).2.2 ▸ trivial)
      iexact HO
    isplitl [Hp]; · iexact Hp
    iexact Hrest
  hin c := (perm_in c _ _).trans (hin c)
  hout c := by
    rw [Pipeline.ownSems0_none]
    exact (hout c).trans (perm_out c _)
  hexit c := by
    have hV := fun b : Ref sig .tc => foldl_update (Pipeline.withArrays (cfgs p).spec c (Vi c) fun w => (pdats m p c).arrAt w (cfgs p).N) b O (Vi c)
    have hjoin := Pipeline.unscopedBufs_of_arrays (p := p) (pcfgs (F := F)) adm (Ix := Unit) (Name := ℕ) (U := UR sig nD τ) (Lvl := ℕ)
      lf.win lf.arr_whole c (pdats m) ((pdats m p c).share_full (pdats_facts m p c).1)
      (fun b => Vi c b) (fun b => Vo c b) ((pdats m p c).arrAt · (cfgs p).N)
      (fun w => by
        rw [hVo c]
        by_cases h : Pipeline.arrRef (cfgs p).spec w ∈ O
        · exact (((hV _).1 h).trans (Pipeline.withArrays_arr _ lf.win.arr_inj c _ _ w)).symm
        · exact ((pdats m p c).arrAt_in w ((hO.1 w).resolve_left h) _).trans ((hA c w).trans ((hV _).2 h).symm))
      (fun b hb => by rw [hVo c]; exact (hV b).2 fun h => hb (Finset.mem_image.mpr ((hO.2 b h).imp fun _ e => ⟨Finset.mem_univ _, e⟩)))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [(pdats_facts m p c).2.1 (Fin.last _)]
    icases HO with ⟨%W, -, HO⟩; iexists W; iexact HO

def reg0 : Pipeline.RegionSeg (pcfgs (F := F)) adm (pdats m) () defs₀ 𝒱₀ L lv 0 :=
  regOf m 0 launch0 (V3 m) (V4 m (o4 m)) [main_v34]
    (fun c => (body_obligation0 (Ve0 m) c).loose) (fun _ => .rfl) (fun _ => .rfl)

def reg1 : Pipeline.RegionSeg (pcfgs (F := F)) adm (pdats m) () defs₀ 𝒱₀ L lv 1 :=
  regOf m 1 launch1 (V5 m (o4 m)) (V6 m (o6 m)) [main_v55_0, main_v55_1]
    (fun c => (body_obligation1 (Ve1 m) c).loose) (hin1 (Ve1 m)) (hout1 (Ve1 m))

def reg2 : Pipeline.RegionSeg (pcfgs (F := F)) adm (pdats m) () defs₀ 𝒱₀ L lv 2 :=
  regOf m 2 launch2 (V7 m (o6 m)) (V8 m (o8 m)) [main_v69]
    (fun c => (body_obligation2 (Ve2 m) c).loose) (fun _ => .rfl) (fun _ => .rfl)

def reg3 : Pipeline.RegionSeg (pcfgs (F := F)) adm (pdats m) () defs₀ 𝒱₀ L lv 3 :=
  regOf m 3 launch3 (V8 m (o8 m)) (V9 m (o9 m)) [main_v70]
    (fun c => (body_obligation3 (Ve3 m) c).loose) (fun _ => .rfl) (fun _ => .rfl)

def reg4 : Pipeline.RegionSeg (pcfgs (F := F)) adm (pdats m) () defs₀ 𝒱₀ L lv 4 :=
  regOf m 4 launch4 (V10 m (o9 m)) (V11 m (o11 m)) [main_v91_0, main_v91_1]
    (fun c => (body_obligation4 (Ve4 m) c).loose) (hin4 (Ve4 m)) (hout4 (Ve4 m))

def reg5 : Pipeline.RegionSeg (pcfgs (F := F)) adm (pdats m) () defs₀ 𝒱₀ L lv 5 :=
  regOf m 5 launch5 (V12 m (o11 m)) (V13 m (o13 m)) [main_v105]
    (fun c => (body_obligation5 (Ve5 m) c).loose) (fun _ => .rfl) (fun _ => .rfl)

def reg6 : Pipeline.RegionSeg (pcfgs (F := F)) adm (pdats m) () defs₀ 𝒱₀ L lv 6 :=
  regOf m 6 launch6 (V13 m (o13 m)) (V14 m (o14 m)) [main_v106]
    (fun c => (body_obligation6 (Ve6 m) c).loose) (fun _ => .rfl) (fun _ => .rfl)

def reg7 : Pipeline.RegionSeg (pcfgs (F := F)) adm (pdats m) () defs₀ 𝒱₀ L lv 7 :=
  regOf m 7 launch7 (V15 m (o14 m)) (V16 m (o16 m)) [main_v127_0, main_v127_1]
    (fun c => (body_obligation7 (Ve7 m) c).loose) (hin7 (Ve7 m)) (hout7 (Ve7 m))

def reg8 : Pipeline.RegionSeg (pcfgs (F := F)) adm (pdats m) () defs₀ 𝒱₀ L lv 8 :=
  regOf m 8 launch8 (V17 m (o16 m)) (V18 m (o18 m)) [main_v141]
    (fun c => (body_obligation8 (Ve8 m) c).loose) (fun _ => .rfl) (fun _ => .rfl)

def reg9 : Pipeline.RegionSeg (pcfgs (F := F)) adm (pdats m) () defs₀ 𝒱₀ L lv 9 :=
  regOf m 9 launch9 (V18 m (o18 m)) (V19 m (o19 m)) [main_v142]
    (fun c => (body_obligation9 (Ve9 m) c).loose) (fun _ => .rfl) (fun _ => .rfl)

def reg10 : Pipeline.RegionSeg (pcfgs (F := F)) adm (pdats m) () defs₀ 𝒱₀ L lv 10 :=
  regOf m 10 launch10 (V20 m (o19 m)) (V21 m (o21 m)) [main_v160]
    (fun c => (body_obligation10 (Ve10 m) c).loose) (hin10 (Ve10 m)) (hout10 (Ve10 m))

def reg11 : Pipeline.RegionSeg (pcfgs (F := F)) adm (pdats m) () defs₀ 𝒱₀ L lv 11 :=
  regOf m 11 launch11 (V22 m (o21 m)) (V23 m (o23 m)) [main_v165]
    (fun c => (body_obligation11 (Ve11 m) c).loose) (fun _ => .rfl) (fun _ => .rfl)

theorem agr4_o23_o4 : V4 m (o23 m) = V4 m (o4 m) := rfl
theorem agr5_o23_o4 : V5 m (o23 m) = V5 m (o4 m) := rfl
theorem agr6_o23_o6 : V6 m (o23 m) = V6 m (o6 m) := rfl
theorem agr7_o23_o6 : V7 m (o23 m) = V7 m (o6 m) := rfl
theorem agr8_o23_o8 : V8 m (o23 m) = V8 m (o8 m) := rfl
theorem agr9_o23_o9 : V9 m (o23 m) = V9 m (o9 m) := rfl
theorem agr10_o23_o9 : V10 m (o23 m) = V10 m (o9 m) := rfl
theorem agr11_o23_o11 : V11 m (o23 m) = V11 m (o11 m) := rfl
theorem agr12_o23_o11 : V12 m (o23 m) = V12 m (o11 m) := rfl
theorem agr13_o23_o13 : V13 m (o23 m) = V13 m (o13 m) := rfl
theorem agr14_o23_o14 : V14 m (o23 m) = V14 m (o14 m) := rfl
theorem agr15_o23_o14 : V15 m (o23 m) = V15 m (o14 m) := rfl
theorem agr16_o23_o16 : V16 m (o23 m) = V16 m (o16 m) := rfl
theorem agr17_o23_o16 : V17 m (o23 m) = V17 m (o16 m) := rfl
theorem agr18_o23_o18 : V18 m (o23 m) = V18 m (o18 m) := rfl
theorem agr19_o23_o19 : V19 m (o23 m) = V19 m (o19 m) := rfl
theorem agr20_o23_o19 : V20 m (o23 m) = V20 m (o19 m) := rfl
theorem agr21_o23_o21 : V21 m (o23 m) = V21 m (o21 m) := rfl
theorem agr22_o23_o21 : V22 m (o23 m) = V22 m (o21 m) := rfl

-- A thread state only reads its contents: equal contents, the same state.
theorem heldR {V V' : Dev nD → Valuation τ sig (Elt F)} (h : V = V') (c : Dev nD) :
    iprop(StableHlo.held (c : Thread nD τ) (Pipeline.ucRefs τ sig) (V c) ∗ R c)
      ⊢ iprop(StableHlo.held (c : Thread nD τ) (Pipeline.ucRefs τ sig) (V' c) ∗ R c) := h ▸ .rfl

set_option backward.isDefEq.respectTransparency.types false in
-- The conditional frame over the twelve segments: each boundary's contents read the final table only where it agrees with the region's own.
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  frame_cond (F := F) m (EP := emb₁) (ι := ()) (𝒱₀ := 𝒱₀) (L := L) (lv := lv) (hL := fun _ _ => rfl) (ρ := ρ) (outs := o23 m)
    (pdats := pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE12 := fun c => by iintro ⟨-, H⟩; iexact H)
    (R0 := reg0 m) (hpre0 := fun _ => .rfl) (hpost0 := heldR (agr4_o23_o4 m).symm)
    (R1 := reg1 m) (hpre1 := heldR (agr5_o23_o4 m)) (hpost1 := heldR (agr6_o23_o6 m).symm)
    (R2 := reg2 m) (hpre2 := heldR (agr7_o23_o6 m)) (hpost2 := heldR (agr8_o23_o8 m).symm)
    (R3 := reg3 m) (hpre3 := heldR (agr8_o23_o8 m)) (hpost3 := heldR (agr9_o23_o9 m).symm)
    (R4 := reg4 m) (hpre4 := heldR (agr10_o23_o9 m)) (hpost4 := heldR (agr11_o23_o11 m).symm)
    (R5 := reg5 m) (hpre5 := heldR (agr12_o23_o11 m)) (hpost5 := heldR (agr13_o23_o13 m).symm)
    (R6 := reg6 m) (hpre6 := heldR (agr13_o23_o13 m)) (hpost6 := heldR (agr14_o23_o14 m).symm)
    (R7 := reg7 m) (hpre7 := heldR (agr15_o23_o14 m)) (hpost7 := heldR (agr16_o23_o16 m).symm)
    (R8 := reg8 m) (hpre8 := heldR (agr17_o23_o16 m)) (hpost8 := heldR (agr18_o23_o18 m).symm)
    (R9 := reg9 m) (hpre9 := heldR (agr18_o23_o18 m)) (hpost9 := heldR (agr19_o23_o19 m).symm)
    (R10 := reg10 m) (hpre10 := heldR (agr20_o23_o19 m)) (hpost10 := heldR (agr21_o23_o21 m).symm)
    (R11 := reg11 m) (hpre11 := heldR (agr22_o23_o21 m)) (hpost11 := fun _ => .rfl)

end Cert.KernelIdeal.Hand

end
-- ==== Proof.Spec.lean ====
import proofs.«419458_j79517024518684_2_alg».proof.KernelIdeal
import Idealize.ShloMosaic.PureOps.Ideal
import Idealize.ShloMosaic.Lib.ValueIdx

noncomputable section

namespace Cert.KernelIdeal.Hand

open Cert.KernelIdeal
open Idealize.ShloMosaic Idealize.ShloMosaic.ValueIdx

def lin7 (x : Vec Ideal S400000x7 .f32) (w : Vec Ideal S7x32 .f32) : Vec Ideal S400000x32 .f32 :=
  fun i => ∑ k : Fin 7, x (ix2 (i 0) k) * w (ix2 k (i 1))

def lin32 (x : Vec Ideal S400000x32 .f32) (w : Vec Ideal S32x32 .f32) : Vec Ideal S400000x32 .f32 :=
  fun i => ∑ k : Fin 32, x (ix2 (i 0) k) * w (ix2 k (i 1))

def colSum (h : Vec Ideal S400000x32 .f32) : Vec Ideal S1x32 .f32 :=
  fun j => ∑ i : Fin 400000, h (ix2 i (j 1))

def colSumSq (h : Vec Ideal S400000x32 .f32) : Vec Ideal S1x32 .f32 :=
  fun j => ∑ i : Fin 400000, h (ix2 i (j 1)) * h (ix2 i (j 1))

def bnApply (h : Vec Ideal S400000x32 .f32) (mean invstd g b : Vec Ideal S1x32 .f32) : Vec Ideal S400000x32 .f32 :=
  fun i => max ((h i - mean (ix2 0 (i 1))) * invstd (ix2 0 (i 1)) * g (ix2 0 (i 1)) + b (ix2 0 (i 1))) 0

def poolSum (h : Vec Ideal S400000x32 .f32) (batch : Vec Ideal S400000x1 .i32) : Vec Ideal S512x32 .f32 :=
  fun j => ∑ i : Fin 400000, if batch (ix2 i 0) = BitVec.ofNat 32 (j 0).val then h (ix2 i (j 1)) else 0

end Cert.KernelIdeal.Hand

end
-- ==== Proof.KTerms.lean ====
import proofs.«419458_j79517024518684_2_alg».proof.Proof.Spec
import proofs.«419458_j79517024518684_2_alg».proof.Proof.Gen.KernelIdeal.Skeleton

set_option maxRecDepth 4096

noncomputable section

namespace Cert.KernelIdeal.Hand

open Cert.KernelIdeal
open Idealize.ShloMosaic

variable [Cert.KernelIdeal.Facts]
open Cert.KernelIdeal.Facts₀ Cert.KernelIdeal.Facts

def kV5 (ei : IVec S2x2500000 32) : IVec S2900000 32 :=
  concatenate S2900000 0 [⟨S2500000, shapeCast S2500000 (extractStridedSlice S1x2500000 ![0, 0] (ei) slices_S2x2500000_S1x2500000_0_0) shapeCasts_S1x2500000_S2500000⟩, ⟨S400000, iotaInDim S400000 32 0⟩] concatenates_S2500000_S400000_S2900000_d0

def kV6 (ei : IVec S2x2500000 32) : IVec S2900000 32 :=
  concatenate S2900000 0 [⟨S2500000, shapeCast S2500000 (extractStridedSlice S1x2500000 ![1, 0] (ei) slices_S2x2500000_S1x2500000_1_0) shapeCasts_S1x2500000_S2500000⟩, ⟨S400000, iotaInDim S400000 32 0⟩] concatenates_S2500000_S400000_S2900000_d0

def kV8 (ea : FVec Ideal S2500000 .f32) : FVec Ideal S2900000 .f32 :=
  concatenate S2900000 0 [⟨S2500000, ea⟩, ⟨S400000, broadcastInDim S400000 ![] bcast_S_S400000 (constant (F := Ideal) S_ .f32 0x3F800000#32)⟩] concatenates_S2500000_S400000_S2900000_d0

def kDinv (v6 : IVec S2900000 32) (v8 : FVec Ideal S2900000 .f32) : FVec Ideal S400000 .f32 :=
  select (cmpf .ogt (Host.scatterAdd scatter_S400000_S2900000x1_S2900000_n_0_0_1 (broadcastInDim S400000 ![] bcast_S_S400000 (constant (F := Ideal) S_ .f32 0x00000000#32)) (broadcastInDim S2900000x1 ![0] bcast_S2900000_S2900000x1_0 (v6)) (v8)) (broadcastInDim S400000 ![] bcast_S_S400000 (constant (F := Ideal) S_ .f32 0x00000000#32))) (Host.rsqrt (maximumf (Host.scatterAdd scatter_S400000_S2900000x1_S2900000_n_0_0_1 (broadcastInDim S400000 ![] bcast_S_S400000 (constant (F := Ideal) S_ .f32 0x00000000#32)) (broadcastInDim S2900000x1 ![0] bcast_S2900000_S2900000x1_0 (v6)) (v8)) (broadcastInDim S400000 ![] bcast_S_S400000 (constant (F := Ideal) S_ .f32 0x3727C5AC#32)))) (broadcastInDim S400000 ![] bcast_S_S400000 (constant (F := Ideal) S_ .f32 0x00000000#32))

def kV33 (v5 v6 : IVec S2900000 32) (v8 : FVec Ideal S2900000 .f32) (dinv : FVec Ideal S400000 .f32) : FVec Ideal S2900000 .f32 :=
  mulf (mulf (Host.gather gather_S400000_S2900000x1_S2900000_n_0_n_n_0_1_1 (dinv) (broadcastInDim S2900000x1 ![0] bcast_S2900000_S2900000x1_0 (select (cmpi .slt (v5) (broadcastInDim S2900000 ![] bcast_S_S2900000 (constantI S_ 32 0#32))) (addi (v5) (broadcastInDim S2900000 ![] bcast_S_S2900000 (constantI S_ 32 400000#32))) (v5)))) (v8)) (Host.gather gather_S400000_S2900000x1_S2900000_n_0_n_n_0_1_1 (dinv) (broadcastInDim S2900000x1 ![0] bcast_S2900000_S2900000x1_0 (select (cmpi .slt (v6) (broadcastInDim S2900000 ![] bcast_S_S2900000 (constantI S_ 32 0#32))) (addi (v6) (broadcastInDim S2900000 ![] bcast_S_S2900000 (constantI S_ 32 400000#32))) (v6))))

def kAgg (hw : FVec Ideal S400000x32 .f32) (v5 v6 : IVec S2900000 32) (v33 : FVec Ideal S2900000 .f32) (b : FVec Ideal S32 .f32) : FVec Ideal S400000x32 .f32 :=
  addf (Host.scatterAdd scatter_S400000x32_S2900000x1_S2900000x32_1_0_0_1 (broadcastInDim S400000x32 ![] bcast_S_S400000x32 (constant (F := Ideal) S_ .f32 0x00000000#32)) (broadcastInDim S2900000x1 ![0] bcast_S2900000_S2900000x1_0 (v6)) (mulf (broadcastInDim S2900000x32 ![0, 1] bcast_S2900000x1_S2900000x32_0_1 (broadcastInDim S2900000x1 ![0] bcast_S2900000_S2900000x1_0 (v33))) (Host.gather gather_S400000x32_S2900000x1_S2900000x32_1_0_n_n_0_1_132 (hw) (broadcastInDim S2900000x1 ![0] bcast_S2900000_S2900000x1_0 (select (cmpi .slt (v5) (broadcastInDim S2900000 ![] bcast_S_S2900000 (constantI S_ 32 0#32))) (addi (v5) (broadcastInDim S2900000 ![] bcast_S_S2900000 (constantI S_ 32 400000#32))) (v5)))))) (broadcastInDim S400000x32 ![0, 1] bcast_S1x32_S400000x32_0_1 (broadcastInDim S1x32 ![1] bcast_S32_S1x32_1 (b)))

def kRow0 (p : FVec Ideal S3x32 .f32) : FVec Ideal S32 .f32 := shapeCast S32 (extractStridedSlice S1x32 ![0, 0] (p) slices_S3x32_S1x32_0_0) shapeCasts_S1x32_S32
def kRow1 (p : FVec Ideal S3x32 .f32) : FVec Ideal S32 .f32 := shapeCast S32 (extractStridedSlice S1x32 ![1, 0] (p) slices_S3x32_S1x32_1_0) shapeCasts_S1x32_S32
def kRow2 (p : FVec Ideal S3x32 .f32) : FVec Ideal S32 .f32 := shapeCast S32 (extractStridedSlice S1x32 ![2, 0] (p) slices_S3x32_S1x32_2_0) shapeCasts_S1x32_S32

def kRow1x32 (p : FVec Ideal S32 .f32) : FVec Ideal S1x32 .f32 := shapeCast S1x32 (p) shapeCasts_S32_S1x32
def kRow1x2 (p : FVec Ideal S2 .f32) : FVec Ideal S1x2 .f32 := shapeCast S1x2 (p) shapeCasts_S2_S1x2
def kBatchCol (b : IVec S400000 32) : IVec S400000x1 32 := shapeCast S400000x1 (b) shapeCasts_S400000_S400000x1

def kMean (s : FVec Ideal S1x32 .f32) : FVec Ideal S1x32 .f32 :=
  Host.divf (s) (broadcastInDim S1x32 ![] bcast_S_S1x32 (constant (F := Ideal) S_ .f32 0x48C35000#32))

def kInvstd (s ss : FVec Ideal S1x32 .f32) : FVec Ideal S1x32 .f32 :=
  Host.rsqrt (addf (maximumf (subf (Host.divf (ss) (broadcastInDim S1x32 ![] bcast_S_S1x32 (constant (F := Ideal) S_ .f32 0x48C35000#32))) (mulf (Host.divf (s) (broadcastInDim S1x32 ![] bcast_S_S1x32 (constant (F := Ideal) S_ .f32 0x48C35000#32))) (Host.divf (s) (broadcastInDim S1x32 ![] bcast_S_S1x32 (constant (F := Ideal) S_ .f32 0x48C35000#32))))) (broadcastInDim S1x32 ![] bcast_S_S1x32 (constant (F := Ideal) S_ .f32 0x00000000#32))) (broadcastInDim S1x32 ![] bcast_S_S1x32 (constant (F := Ideal) S_ .f32 0x3727C5AC#32)))

def kBN (h : FVec Ideal S400000x32 .f32) (g b : FVec Ideal S32 .f32) : FVec Ideal S400000x32 .f32 :=
  bnApply h (kMean (colSum h)) (kInvstd (colSum h) (colSumSq h)) (kRow1x32 g) (kRow1x32 b)

def mlpOut (g : FVec Ideal S512x32 .f32) (w0 : FVec Ideal S32x32 .f32) (b0 gg gb : FVec Ideal S1x32 .f32) (w1 : FVec Ideal S32x2 .f32) (b1 : FVec Ideal S1x2 .f32) : FVec Ideal S512x2 .f32 :=
  Gen.k11_pay1 (F := Ideal) (Gen.k11_pay2 (F := Ideal) g w0 b0 gg gb) (Gen.k11_pay3 (F := Ideal) w1) (constant (F := Ideal) S512x2 .f32 0x00000000#32) b1

def kernOut (a0 : FVec Ideal S400000x7 .f32) (a1 : IVec S2x2500000 32) (a2 : FVec Ideal S2500000 .f32) (a3 : IVec S400000 32)
    (a4 : FVec Ideal S7x32 .f32) (a5 : FVec Ideal S32 .f32) (a6 : FVec Ideal S32x32 .f32) (a7 : FVec Ideal S32 .f32) (a8 : FVec Ideal S32x32 .f32) (a9 : FVec Ideal S32 .f32)
    (a10 : FVec Ideal S32x32 .f32) (a11 : FVec Ideal S32 .f32) (a12 a13 : FVec Ideal S3x32 .f32) (a14 : FVec Ideal S32x32 .f32) (a15 a16 a17 : FVec Ideal S32 .f32)
    (a18 : FVec Ideal S32x2 .f32) (a19 : FVec Ideal S2 .f32) : FVec Ideal S512x2 .f32 :=
  let v5 := kV5 a1; let v6 := kV6 a1; let v8 := kV8 a2
  let v33 := kV33 v5 v6 v8 (kDinv v6 v8)
  let h0 := kAgg (lin7 a0 a4) v5 v6 v33 a5
  let h1 := kAgg (lin32 (kBN h0 (kRow0 a12) (kRow0 a13)) a6) v5 v6 v33 a7
  let h2 := kAgg (lin32 (kBN h1 (kRow1 a12) (kRow1 a13)) a8) v5 v6 v33 a9
  let h3 := kAgg (lin32 (kBN h2 (kRow2 a12) (kRow2 a13)) a10) v5 v6 v33 a11
  mlpOut (poolSum h3 (kBatchCol a3)) a14 (kRow1x32 a15) (kRow1x32 a16) (kRow1x32 a17) a18 (kRow1x2 a19)

end Cert.KernelIdeal.Hand

end
-- ==== Proof.KHost.lean ====
import proofs.«419458_j79517024518684_2_alg».proof.Proof.Gen.KernelIdeal.Launch
import proofs.«419458_j79517024518684_2_alg».proof.Proof.Gen.KernelIdeal.Skeleton
import proofs.«419458_j79517024518684_2_alg».proof.Proof.Gen.KernelIdeal.Regions
import proofs.«419458_j79517024518684_2_alg».proof.Proof.KTerms
import Idealize.ShloMosaic.Lib.StableHlo.Run
import Idealize.ShloMosaic.PureOps.Ideal

noncomputable section

namespace Cert.KernelIdeal.Hand

open Cert.KernelIdeal Cert.KernelIdeal.Gen
open Idealize.ShloMosaic Idealize.ShloMosaic.TcCoe
open Idealize.SL.Sem
open Idealize.ShloMosaic.StableHlo (after_cons after_nil)

variable (m : (ℓ : Loc nD τ sig) → Buf (Elt Ideal) ℓ) (outs : Outs (F := Ideal)) (c : Dev nD)

-- Every buffer a host stretch writes, read as a function of the buffers the stretch finds: each operation's result at its own buffer, the others passed by.
theorem hs0_v5 : V3 m c main_v5 = kV5 (V0 m c main_arg1) := by
  after_results_simp
  rfl

theorem hs0_v6 : V3 m c main_v6 = kV6 (V0 m c main_arg1) := by
  after_results_simp
  rfl

theorem hs0_v8 : V3 m c main_v8 = kV8 (V0 m c main_arg2) := by
  after_results_simp
  rfl

theorem hs0_v33 : V3 m c main_v33 = kV33 (V3 m c main_v5) (V3 m c main_v6) (V3 m c main_v8) (V3 m c main_v17) := by
  rw [V3_of m c main_v5 (by decide), V3_of m c main_v6 (by decide), V3_of m c main_v8 (by decide), V3_of m c main_v17 (by decide)]
  unfold V3; generalize V2 m c = W
  after_results_simp
  rfl

theorem hs1_v50 : V5 m outs c main_v50 = kAgg (V4 m outs c main_v34) (V4 m outs c main_v5) (V4 m outs c main_v6) (V4 m outs c main_v33) (V4 m outs c main_arg5) := by
  after_results_simp
  rfl

theorem hs1_v52 : V5 m outs c main_v52 = kRow0 (V4 m outs c main_arg12) := by
  after_results_simp
  rfl

theorem hs1_v54 : V5 m outs c main_v54 = kRow0 (V4 m outs c main_arg13) := by
  after_results_simp
  rfl

theorem hs2_v57 : V7 m outs c main_v57 = kMean (V6 m outs c main_v55_0) := by
  after_results_simp
  rfl

theorem hs2_v66 : V7 m outs c main_v66 = kInvstd (V6 m outs c main_v55_0) (V6 m outs c main_v55_1) := by
  after_results_simp
  rfl

theorem hs2_v67 : V7 m outs c main_v67 = kRow1x32 (V6 m outs c main_v52) := by
  after_results_simp
  rfl

theorem hs2_v68 : V7 m outs c main_v68 = kRow1x32 (V6 m outs c main_v54) := by
  after_results_simp
  rfl

theorem hs4_v86 : V10 m outs c main_v86 = kAgg (V9 m outs c main_v70) (V9 m outs c main_v5) (V9 m outs c main_v6) (V9 m outs c main_v33) (V9 m outs c main_arg7) := by
  after_results_simp
  rfl

theorem hs4_v88 : V10 m outs c main_v88 = kRow1 (V9 m outs c main_arg12) := by
  after_results_simp
  rfl

theorem hs4_v90 : V10 m outs c main_v90 = kRow1 (V9 m outs c main_arg13) := by
  after_results_simp
  rfl

theorem hs5_v93 : V12 m outs c main_v93 = kMean (V11 m outs c main_v91_0) := by
  after_results_simp
  rfl

theorem hs5_v102 : V12 m outs c main_v102 = kInvstd (V11 m outs c main_v91_0) (V11 m outs c main_v91_1) := by
  after_results_simp
  rfl

theorem hs5_v103 : V12 m outs c main_v103 = kRow1x32 (V11 m outs c main_v88) := by
  after_results_simp
  rfl

theorem hs5_v104 : V12 m outs c main_v104 = kRow1x32 (V11 m outs c main_v90) := by
  after_results_simp
  rfl

theorem hs7_v122 : V15 m outs c main_v122 = kAgg (V14 m outs c main_v106) (V14 m outs c main_v5) (V14 m outs c main_v6) (V14 m outs c main_v33) (V14 m outs c main_arg9) := by
  after_results_simp
  rfl

theorem hs7_v124 : V15 m outs c main_v124 = kRow2 (V14 m outs c main_arg12) := by
  after_results_simp
  rfl

theorem hs7_v126 : V15 m outs c main_v126 = kRow2 (V14 m outs c main_arg13) := by
  after_results_simp
  rfl

theorem hs8_v129 : V17 m outs c main_v129 = kMean (V16 m outs c main_v127_0) := by
  after_results_simp
  rfl

theorem hs8_v138 : V17 m outs c main_v138 = kInvstd (V16 m outs c main_v127_0) (V16 m outs c main_v127_1) := by
  after_results_simp
  rfl

theorem hs8_v139 : V17 m outs c main_v139 = kRow1x32 (V16 m outs c main_v124) := by
  after_results_simp
  rfl

theorem hs8_v140 : V17 m outs c main_v140 = kRow1x32 (V16 m outs c main_v126) := by
  after_results_simp
  rfl

theorem hs10_v158 : V20 m outs c main_v158 = kAgg (V19 m outs c main_v142) (V19 m outs c main_v5) (V19 m outs c main_v6) (V19 m outs c main_v33) (V19 m outs c main_arg11) := by
  after_results_simp
  rfl

theorem hs10_v159 : V20 m outs c main_v159 = kBatchCol (V19 m outs c main_arg3) := by
  after_results_simp
  rfl

theorem hs11_v161 : V22 m outs c main_v161 = kRow1x32 (V21 m outs c main_arg15) := by
  after_results_simp
  rfl

theorem hs11_v162 : V22 m outs c main_v162 = kRow1x32 (V21 m outs c main_arg16) := by
  after_results_simp
  rfl

theorem hs11_v163 : V22 m outs c main_v163 = kRow1x32 (V21 m outs c main_arg17) := by
  after_results_simp
  rfl

theorem hs11_v164 : V22 m outs c main_v164 = kRow1x2 (V21 m outs c main_arg19) := by
  after_results_simp
  rfl

end Cert.KernelIdeal.Hand

end
-- ==== Proof.KHostDinv.lean ====
import proofs.«419458_j79517024518684_2_alg».proof.Proof.KHost
import Idealize.ShloMosaic.Lib.Pipeline.Frame

noncomputable section

namespace Cert.KernelIdeal.Hand

open Cert.KernelIdeal Cert.KernelIdeal.Gen
open Idealize.ShloMosaic Idealize.ShloMosaic.TcCoe
open Idealize.SL.Sem
open Idealize.ShloMosaic.StableHlo (after_cons after_nil)

local notation "Valn" => Valuation τ sig (Elt Ideal)

variable (m : (ℓ : Loc nD τ sig) → Buf (Elt Ideal) ℓ) (outs : Outs (F := Ideal)) (c : Dev nD)

def kDeg (v6 : IVec S2900000 32) (v8 : FVec Ideal S2900000 .f32) : FVec Ideal S400000 .f32 :=
  Host.scatterAdd scatter_S400000_S2900000x1_S2900000_n_0_0_1 (broadcastInDim S400000 ![] bcast_S_S400000 (constant (F := Ideal) S_ .f32 0x00000000#32)) (broadcastInDim S2900000x1 ![0] bcast_S2900000_S2900000x1_0 (v6)) (v8)

theorem after0a_v6 (W : Valn) :
    StableHlo.after (hostOps0.take 10) W (Proc.devRef .tc main_v6) = kV6 (W main_arg1) := by
  simp only [hostOps0, List.take_succ_cons, List.take_zero]
  after_results
  rfl

theorem after0a_v8 (W : Valn) :
    StableHlo.after (hostOps0.take 10) W (Proc.devRef .tc main_v8) = kV8 (W main_arg2) := by
  simp only [hostOps0, List.take_succ_cons, List.take_zero]
  after_results
  rfl

theorem after0b_v13 (X : Valn) :
    StableHlo.after (hostOps0.drop 10) X (Proc.devRef .tc main_v13) =
      cmpf .ogt (kDeg (X main_v6) (X main_v8)) (broadcastInDim S400000 ![] bcast_S_S400000 (constant (F := Ideal) S_ .f32 0x00000000#32)) := by
  simp only [hostOps0, List.drop_succ_cons, List.drop_zero]
  after_results_simp
  rfl

theorem after0b_v16 (X : Valn) :
    StableHlo.after (hostOps0.drop 10) X (Proc.devRef .tc main_v16) =
      Host.rsqrt (maximumf (kDeg (X main_v6) (X main_v8)) (broadcastInDim S400000 ![] bcast_S_S400000 (constant (F := Ideal) S_ .f32 0x3727C5AC#32))) := by
  simp only [hostOps0, List.drop_succ_cons, List.drop_zero]
  after_results_simp
  rfl

theorem after0b_cst_3 (X : Valn) :
    StableHlo.after (hostOps0.drop 10) X (Proc.devRef .tc main_cst_3) = constant (F := Ideal) S_ .f32 0x00000000#32 := by
  simp only [hostOps0, List.drop_succ_cons, List.drop_zero]
  after_results_simp

theorem after1s_v17 (Y : Valn) :
    StableHlo.after hostOps0_1 Y (Proc.devRef .tc main_v17) =
      select (Y main_v13) (Y main_v16) (broadcastInDim S400000 ![] bcast_S_S400000 (Y main_cst_3 : FVec Ideal S_ .f32)) := by
  after_results_simp
  rfl

-- The first list cut after its tenth operation: the first ten write the two buffers the rest and the second list read.
theorem after01_v17 (W : Valn) :
    StableHlo.after hostOps0_1 (StableHlo.after hostOps0 W) (Proc.devRef .tc main_v17) =
      kDinv (kV6 (W main_arg1)) (kV8 (W main_arg2)) := by
  have e : (hostOps0 : List (HloOp τ sig (Elt Ideal))) = hostOps0.take 10 ++ hostOps0.drop 10 :=
    (List.take_append_drop 10 _).symm
  rw [e, StableHlo.after_append, after1s_v17, after0b_v13, after0b_v16, after0b_cst_3, after0a_v6, after0a_v8]
  rfl

theorem hs0_v17 : V3 m c main_v17 = kDinv (V3 m c main_v6) (V3 m c main_v8) := by
  rw [hs0_v6, hs0_v8]
  exact (V3_of m c main_v17 (by decide)).trans (after01_v17 (V0 m c))

end Cert.KernelIdeal.Hand

end
-- ==== Proof.Val0.lean ====
import proofs.«419458_j79517024518684_2_alg».proof.Proof.Reg0
import proofs.«419458_j79517024518684_2_alg».proof.Proof.Spec
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem offsets_zero2 : (![0, 0] : Fin 2 → Nat) = fun _ => 0 := funext fun a => by fin_cases a <;> rfl

-- an M×K by K×N product into the zero accumulator, at an index: the sum over the K contracted positions
theorem plain_matmul_apply {M K N : Nat} (x : FVec Ideal ⟨2, ![M, K]⟩ .bf16) (w : FVec Ideal ⟨2, ![K, N]⟩ .bf16)
    (j : (⟨2, ![M, N]⟩ : Shape).Idx) :
    FloatOps.matmul (DotDims.plain M K N) none x w (constant ⟨2, ![M, N]⟩ .f32 0x00000000#32) j
      = ∑ k : Fin K, x (ix2 (j 0) k) * w (ix2 k (j 1)) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  exact congrArg₂ (· * ·) (congrArg x (Shape.idx_ext₂ rfl (((DotDims.plain M K N).lhsIdx_val_of_single rfl _ _).trans hk)))
    (congrArg w (Shape.idx_ext₂ (((DotDims.plain M K N).rhsIdx_val_of_single rfl _ _).trans hk) rfl))

theorem index_maps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem flushed0_eq (c : Dev nD) (t : Fin cfg0.N) :
    (dat0 (F := Ideal) V c).flushed 2 t = ((cfg0.win 2).blk t).view.read (Elt Ideal) (lin7 (V c main_arg0) (V c main_arg4)) := by
  obtain ⟨a0, a1, b0, b1, e0, e1⟩ := index_maps0 t
  show (cfg0.win 2).cut (grid0.coords t) ((dat0 V c).after 2 t) = _
  rw [after0_2]
  unfold out0_2
  rw [View.canon_unit_zero offsets_zero2]
  simp only [View.ld_unit_zero (S := S20000x7) offsets_zero2, View.ld_unit_zero (S := S7x32) offsets_zero2]
  funext j
  refine (plain_matmul_apply (iblk0 V c 0 t) (iblk0 V c 1 t) j).trans
    (Finset.sum_congr rfl fun k _ => ?_ : _ = lin7 _ _ (((cfg0.win 2).blk t).view.emb j))
  refine congrArg₂ (fun a b : EReal => a * b) (congrArg (V c main_arg0) ?_) (congrArg (V c main_arg4) ?_) <;> apply Shape.idx_ext₂
  · show win0_0.index t 0 * 20000 + 1 * (j 0).val = win0_2.index t 0 * 20000 + 1 * (j 0).val; omega
  · show win0_0.index t 1 * 7 + 1 * k.val = k.val; omega
  · show win0_1.index t 0 * 7 + 1 * k.val = k.val; omega
  · show win0_1.index t 1 * 32 + 1 * (j 1).val = win0_2.index t 1 * 32 + 1 * (j 1).val; omega

-- the twenty blocks of 20000 rows cover all 400000 rows
theorem cover0 (i : S400000x32.Idx) : ∃ t : Fin cfg0.N, (cfg0.win 2).flush t = true ∧ i ∈ ((cfg0.win 2).blk t).view.set := by
  have hi0 : (i 0).val < 400000 := (i 0).isLt
  have hi1 : (i 1).val < 32 := (i 1).isLt
  have ht : (i 0).val / 20000 < cfg0.N := by rw [show cfg0.N = 20 from N_0]; omega
  obtain ⟨-, -, -, -, e0, e1⟩ := index_maps0 ⟨_, ht⟩
  refine ⟨⟨_, ht⟩, flush0_2 _, ?_⟩
  show i ∈ ((View.whole main_v34).slice (win0_2.rect ⟨_, ht⟩)).set
  rw [View.set_slice_whole, Rect.mem_set_unit]
  intro a
  match a with
  | ⟨0, _⟩ => show win0_2.index _ (0 : Fin 2) * 20000 ≤ (i 0).val ∧ (i 0).val < win0_2.index _ (0 : Fin 2) * 20000 + 20000; rw [e0]; show (i 0).val / 20000 * 20000 ≤ _ ∧ _ < (i 0).val / 20000 * 20000 + 20000; omega
  | ⟨1, _⟩ => show win0_2.index _ (1 : Fin 2) * 32 ≤ (i 1).val ∧ (i 1).val < win0_2.index _ (1 : Fin 2) * 32 + 32; rw [e1]; omega

theorem final0 (c : Dev nD) : (dat0 (F := Ideal) V c).arrAt 2 cfg0.N = lin7 (V c main_arg0) (V c main_arg4) :=
  (dat0 V c).arrAt_eq_of_cover 2 (lin7 (V c main_arg0) (V c main_arg4)) (fun t _ => flushed0_eq V c t) cover0

end Cert.KernelIdeal.Hand

end
-- ==== Proof.Val1.lean ====
import proofs.«419458_j79517024518684_2_alg».proof.Proof.Reg1
import proofs.«419458_j79517024518684_2_alg».proof.Proof.Spec
import Idealize.ShloMosaic.Lib.Pipeline.Value
import Idealize.ShloMosaic.PureOps.Ideal
import Idealize.ShloMosaic.PureOps.Ideal.Laws
import Idealize.ShloMosaic.Lib.ValueIdx
import Mathlib.Algebra.BigOperators.Fin

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

theorem hz1 : (![0, 0] : Fin 2 → Nat) = fun _ => 0 := funext fun a => by fin_cases a <;> rfl

section stores
variable (c : Dev nD) (i : grid1.Coords) (arg1 : Memref sig .tc .vmem S20000x32 .f32) (harg1 : arg1.IsWhole)
  (arg2 : Memref sig .tc .vmem S1x32 .f32) (harg2 : arg2.IsWhole) (arg3 : Memref sig .tc .vmem S1x32 .f32) (harg3 : arg3.IsWhole)
  (arg4 : Memref sig .tc .vmem S1x32 .f32) (harg4 : arg4.IsWhole) (arg5 : Memref sig .tc .vmem S1x32 .f32) (harg5 : arg5.IsWhole)
  (x0 : Vec F S20000x32 .f32) (xs0 xs1 : Vec F S1x32 .f32)

theorem sout1_A_0_eq (hc0 : cond1_0 i) (hc1 : ¬cond1_1 i) : sout1_A_0 c i arg1 harg1 arg2 harg2 arg3 harg3 arg4 harg4 arg5 harg5 hc0 hc1 x0 = k1_pay4 x0 k1_pay1 := by
  unfold sout1_A_0
  rw [View.read_writes_eq_canon _ _ _ (scover1_A_0 c i arg1 harg1 arg2 harg2 arg3 harg3 arg4 harg4 arg5 harg5 hc0 hc1 x0)]
  unfold kernelRun1_A
  dsimp only
  sl_unfold_words
  rw [View.canon_cons_unit_zero (S := S1x32) hz1, View.readCov_unit_zero (S := S1x32) _ hz1]
  simp only [View.readAt_eq_ld, harg1.read_unread, harg4.read_unread, harg5.read_unread, View.ld_unit_zero (S := S20000x32) hz1, View.ld_unit_zero (S := S1x32) hz1]

theorem sout1_A_1_eq (hc0 : cond1_0 i) (hc1 : ¬cond1_1 i) : sout1_A_1 c i arg1 harg1 arg2 harg2 arg3 harg3 arg4 harg4 arg5 harg5 hc0 hc1 x0 = k1_pay5 x0 k1_pay2 := by
  unfold sout1_A_1
  rw [View.read_writes_eq_canon _ _ _ (scover1_A_1 c i arg1 harg1 arg2 harg2 arg3 harg3 arg4 harg4 arg5 harg5 hc0 hc1 x0)]
  unfold kernelRun1_A
  dsimp only
  sl_unfold_words
  rw [View.canon_cons_unit_zero (S := S1x32) hz1, View.readCov_unit_zero (S := S1x32) _ hz1]
  simp only [View.readAt_eq_ld, harg1.read_unread, harg4.read_unread, harg5.read_unread, View.ld_unit_zero (S := S20000x32) hz1, View.ld_unit_zero (S := S1x32) hz1]

theorem sout1_B_0_eq (hc0 : ¬cond1_0 i) (hc1 : ¬cond1_1 i) : sout1_B_0 c i arg1 harg1 arg2 harg2 arg3 harg3 arg4 harg4 arg5 harg5 hc0 hc1 x0 xs0 xs1 = k1_pay4 x0 xs0 := by
  unfold sout1_B_0
  rw [View.read_writes_eq_canon _ _ _ (scover1_B_0 c i arg1 harg1 arg2 harg2 arg3 harg3 arg4 harg4 arg5 harg5 hc0 hc1 x0 xs0 xs1)]
  unfold kernelRun1_B
  dsimp only
  sl_unfold_words
  rw [View.canon_unit_zero (S := S1x32) hz1]
  simp only [View.readAt_eq_ld, harg1.read_unread, harg4.read_unread, harg5.read_unread, View.ld_unit_zero (S := S20000x32) hz1, View.ld_unit_zero (S := S1x32) hz1]

theorem sout1_B_1_eq (hc0 : ¬cond1_0 i) (hc1 : ¬cond1_1 i) : sout1_B_1 c i arg1 harg1 arg2 harg2 arg3 harg3 arg4 harg4 arg5 harg5 hc0 hc1 x0 xs0 xs1 = k1_pay5 x0 xs1 := by
  unfold sout1_B_1
  rw [View.read_writes_eq_canon _ _ _ (scover1_B_1 c i arg1 harg1 arg2 harg2 arg3 harg3 arg4 harg4 arg5 harg5 hc0 hc1 x0 xs0 xs1)]
  unfold kernelRun1_B
  dsimp only
  sl_unfold_words
  rw [View.canon_unit_zero (S := S1x32) hz1]
  simp only [View.readAt_eq_ld, harg1.read_unread, harg4.read_unread, harg5.read_unread, View.ld_unit_zero (S := S20000x32) hz1, View.ld_unit_zero (S := S1x32) hz1]

theorem sout1_C_0_eq (hc0 : ¬cond1_0 i) (hc1 : cond1_1 i) : sout1_C_0 c i arg1 harg1 arg2 harg2 arg3 harg3 arg4 harg4 arg5 harg5 hc0 hc1 x0 xs0 xs1 = k1_pay4 x0 xs0 := by
  unfold sout1_C_0
  rw [View.read_writes_eq_canon _ _ _ (scover1_C_0 c i arg1 harg1 arg2 harg2 arg3 harg3 arg4 harg4 arg5 harg5 hc0 hc1 x0 xs0 xs1)]
  unfold kernelRun1_C
  dsimp only
  sl_unfold_words
  rw [View.canon_unit_zero (S := S1x32) hz1]
  simp only [View.readAt_eq_ld, harg1.read_unread, harg4.read_unread, harg5.read_unread, View.ld_unit_zero (S := S20000x32) hz1, View.ld_unit_zero (S := S1x32) hz1]

theorem sout1_C_1_eq (hc0 : ¬cond1_0 i) (hc1 : cond1_1 i) : sout1_C_1 c i arg1 harg1 arg2 harg2 arg3 harg3 arg4 harg4 arg5 harg5 hc0 hc1 x0 xs0 xs1 = k1_pay5 x0 xs1 := by
  unfold sout1_C_1
  rw [View.read_writes_eq_canon _ _ _ (scover1_C_1 c i arg1 harg1 arg2 harg2 arg3 harg3 arg4 harg4 arg5 harg5 hc0 hc1 x0 xs0 xs1)]
  unfold kernelRun1_C
  dsimp only
  sl_unfold_words
  rw [View.canon_unit_zero (S := S1x32) hz1]
  simp only [View.readAt_eq_ld, harg1.read_unread, harg4.read_unread, harg5.read_unread, View.ld_unit_zero (S := S20000x32) hz1, View.ld_unit_zero (S := S1x32) hz1]

theorem out1_C_1_eq (hc0 : ¬cond1_0 i) (hc1 : cond1_1 i) : out1_C_1 c i arg1 harg1 arg2 harg2 arg3 harg3 arg4 harg4 arg5 harg5 hc0 hc1 x0 xs0 xs1 = k1_pay4 x0 xs0 := by
  unfold out1_C_1
  rw [View.read_writes_eq_canon _ _ _ (cover1_C_1 c i arg1 harg1 arg2 harg2 arg3 harg3 arg4 harg4 arg5 harg5 hc0 hc1 x0 xs0 xs1)]
  unfold kernelRun1_C
  dsimp only
  sl_unfold_words
  rw [View.canon_unit_zero (S := S1x32) hz1, View.readCov_unit_zero (S := S1x32) _ hz1]
  simp only [View.readAt_eq_ld, harg1.read_unread, harg4.read_unread, harg5.read_unread, View.ld_unit_zero (S := S20000x32) hz1, View.ld_unit_zero (S := S1x32) hz1]

theorem out1_C_2_eq (hc0 : ¬cond1_0 i) (hc1 : cond1_1 i) : out1_C_2 c i arg1 harg1 arg2 harg2 arg3 harg3 arg4 harg4 arg5 harg5 hc0 hc1 x0 xs0 xs1 = k1_pay5 x0 xs1 := by
  unfold out1_C_2
  rw [View.read_writes_eq_canon _ _ _ (cover1_C_2 c i arg1 harg1 arg2 harg2 arg3 harg3 arg4 harg4 arg5 harg5 hc0 hc1 x0 xs0 xs1)]
  unfold kernelRun1_C
  dsimp only
  sl_unfold_words
  rw [View.canon_unit_zero (S := S1x32) hz1, View.readCov_unit_zero (S := S1x32) _ hz1]
  simp only [View.readAt_eq_ld, harg1.read_unread, harg4.read_unread, harg5.read_unread, View.ld_unit_zero (S := S20000x32) hz1, View.ld_unit_zero (S := S1x32) hz1]

end stores

section chain
variable (V : (c : Dev nD) → (b : Ref sig .tc) → Buf (Elt F) ((c : Thread nD τ).loc b))

abbrev tile1 (c : Dev nD) (t : Fin cfg1.N) : Vec F S20000x32 .f32 := iblk1 V c 0 t

/-- An accumulator after point `n`: the update `p` folded over the tiles up to `n`, starting from `z`. -/
def acc1 (p : Vec F S20000x32 .f32 → Vec F S1x32 .f32 → Vec F S1x32 .f32) (z : Vec F S1x32 .f32) (c : Dev nD) : (n : ℕ) → n < cfg1.N → Vec F S1x32 .f32
  | 0, h => p (tile1 V c ⟨0, h⟩) z
  | n + 1, h => p (tile1 V c ⟨n + 1, h⟩) (acc1 p z c n (Nat.lt_of_succ_lt h))

/-- The first case at the first point, the middle or the last case (which update alike) afterwards. -/
theorem outsAt1_acc (c : Dev nD) : ∀ (n : ℕ) (h : n < cfg1.N),
    (outsAt1 V c n h).2.2.1 = acc1 V k1_pay4 k1_pay1 c n h ∧ (outsAt1 V c n h).2.2.2 = acc1 V k1_pay5 k1_pay2 c n h
  | 0, h => by
    rw [outsAt1_A V c ⟨0, h⟩ rfl]
    dsimp only
    rw [sout1_A_0_eq, sout1_A_1_eq]
    exact ⟨rfl, rfl⟩
  | n + 1, h => by
    have ih := outsAt1_acc c n (Nat.lt_of_succ_lt h)
    by_cases h1 : n + 1 = 19
    · rw [outsAt1_C V c ⟨n + 1, h⟩ (Nat.succ_ne_zero n) h1]
      dsimp only
      rw [sout1_C_0_eq, sout1_C_1_eq]
      exact ⟨congrArg (k1_pay4 _) ih.1, congrArg (k1_pay5 _) ih.2⟩
    · rw [outsAt1_B V c ⟨n + 1, h⟩ (Nat.succ_ne_zero n) h1]
      dsimp only
      rw [sout1_B_0_eq, sout1_B_1_eq]
      exact ⟨congrArg (k1_pay4 _) ih.1, congrArg (k1_pay5 _) ih.2⟩

theorem outsAt1_last (c : Dev nD) (h : 19 < cfg1.N) :
    (outsAt1 V c 19 h).1 = acc1 V k1_pay4 k1_pay1 c 19 h ∧ (outsAt1 V c 19 h).2.1 = acc1 V k1_pay5 k1_pay2 c 19 h := by
  have ih := outsAt1_acc V c 18 (Nat.lt_of_succ_lt h)
  rw [outsAt1_C V c ⟨18 + 1, h⟩ (Nat.succ_ne_zero 18) rfl]
  dsimp only
  rw [out1_C_1_eq, out1_C_2_eq]
  exact ⟨congrArg (k1_pay4 _) ih.1, congrArg (k1_pay5 _) ih.2⟩

end chain

section ideal
variable (V : (c : Dev nD) → (b : Ref sig .tc) → Buf (Elt Ideal) ((c : Thread nD τ).loc b))

abbrev harr1 (c : Dev nD) : Vec Ideal S400000x32 .f32 := V c main_v50

abbrev tlast1 : Fin cfg1.N := ⟨19, by decide +kernel⟩

theorem zeroA1_apply (j : S1x32.Idx) : k1_pay1 (F := Ideal) j = 0 := by
  show shapeCast S1x32 (broadcast S1x32 (Scalar.ofBits (F := Ideal) .f32 0x00000000#32)) shapeCasts_S1x32_S1x32 j = 0
  rw [shapeCast_self]
  exact Ideal.ofBits_zero_f32

theorem zeroB1_apply (j : S1x32.Idx) : k1_pay2 (F := Ideal) j = 0 := zeroA1_apply j

/-- Entry (0, col) of a 1×32 row and entry col of a vector of 32 sit at the same row-major position. -/
theorem castRow1_apply (v : Vec Ideal S32 .f32) (col : Fin 32) :
    shapeCast S1x32 v shapeCasts_S32_S1x32 (ix2 (0 : Fin 1) col) = v (ix1 col) :=
  shapeCast_apply v shapeCasts_S32_S1x32 (ix2 (0 : Fin 1) col) (ix1 col) (by
    rw [Shape.rowMajor_val_one, Shape.rowMajor_val_two]; simp)

theorem colsum1_apply (x : Vec Ideal S20000x32 .f32) (col : Fin 32) :
    multiReduction (F := Ideal) .add [0] S32 x 0x00000000#32 reduces_S20000x32_S32 (.inl rfl) rfl (ix1 col) = ∑ r : Fin 20000, x (ix2 r col) := by
  refine (Ideal.multiReduction_add_single x _ reduces_S20000x32_S32 _ _ (ix1 col)).trans ?_
  exact Finset.sum_congr rfl fun r _ => congrArg x (funext fun a => Fin.ext (by
    match a with
    | ⟨0, _⟩ => rfl
    | ⟨1, _⟩ => rfl))

theorem updS1_apply (x : Vec Ideal S20000x32 .f32) (a : Vec Ideal S1x32 .f32) (col : Fin 32) :
    k1_pay4 (F := Ideal) x a (ix2 (0 : Fin 1) col) = a (ix2 (0 : Fin 1) col) + ∑ r : Fin 20000, x (ix2 r col) := by
  show shapeCast S1x32 (addf (F := Ideal) a (shapeCast S1x32 (multiReduction (F := Ideal) .add [0] S32 (shapeCast S20000x32 x shapeCasts_S20000x32_S20000x32) 0x00000000#32 reduces_S20000x32_S32 (.inl rfl) rfl) shapeCasts_S32_S1x32)) shapeCasts_S1x32_S1x32 (ix2 (0 : Fin 1) col) = _
  rw [shapeCast_self, addf_apply, castRow1_apply, shapeCast_self, colsum1_apply]

theorem updQ1_apply (x : Vec Ideal S20000x32 .f32) (a : Vec Ideal S1x32 .f32) (col : Fin 32) :
    k1_pay5 (F := Ideal) x a (ix2 (0 : Fin 1) col) = a (ix2 (0 : Fin 1) col) + ∑ r : Fin 20000, x (ix2 r col) * x (ix2 r col) := by
  show shapeCast S1x32 (addf (F := Ideal) a (shapeCast S1x32 (multiReduction (F := Ideal) .add [0] S32 (mulf (F := Ideal) (shapeCast S20000x32 x shapeCasts_S20000x32_S20000x32) (shapeCast S20000x32 x shapeCasts_S20000x32_S20000x32)) 0x00000000#32 reduces_S20000x32_S32 (.inl rfl) rfl) shapeCasts_S32_S1x32)) shapeCasts_S1x32_S1x32 (ix2 (0 : Fin 1) col) = _
  rw [shapeCast_self, addf_apply, castRow1_apply, shapeCast_self, colsum1_apply]
  rfl

theorem index1_0 : ∀ t : Fin cfg1.N, win1_0.index t 0 = t.val ∧ win1_0.index t 1 = 0 := by decide +kernel

/-- Row `r` of tile `t` is row 20000·t + r of the array. -/
theorem tile1_apply (c : Dev nD) (t : Fin cfg1.N) (r : Fin 20000) (col : Fin 32) (hlt : 20000 * t.val + r.val < 400000) :
    tile1 V c t (ix2 r col) = harr1 V c (ix2 ⟨20000 * t.val + r.val, hlt⟩ col) := by
  show iblk1 V c 0 t (ix2 r col) = _
  unfold iblk1
  rw [View.read_apply]
  show V c main_v50 _ = V c main_v50 _
  congr 1
  funext a
  apply Fin.ext
  match a with
  | ⟨0, _⟩ => show win1_0.index t 0 * 20000 + 1 * r.val = 20000 * t.val + r.val; rw [(index1_0 t).1]; omega
  | ⟨1, _⟩ => show win1_0.index t 1 * 32 + 1 * col.val = col.val; rw [(index1_0 t).2]; omega

def tsum1 (f : Ideal .f32 → Ideal .f32) (c : Dev nD) (col : Fin 32) (t : Fin cfg1.N) : Ideal .f32 := ∑ r : Fin 20000, f (tile1 V c t (ix2 r col))

/-- Row i of the array is row i mod 20000 of tile i div 20000; addition is commutative and associative. -/
theorem sum_tiles1 (g : Fin 400000 → Ideal .f32) :
    ∑ i : Fin 400000, g i = ∑ t : Fin 20, ∑ r : Fin 20000, g ⟨20000 * t.val + r.val, by have := t.isLt; have := r.isLt; omega⟩ := by
  refine (Equiv.sum_comp (finProdFinEquiv (m := 20) (n := 20000)) (fun i : Fin (20 * 20000) => g i)).symm.trans ?_
  rw [Fintype.sum_prod_type]
  exact Finset.sum_congr rfl fun t _ => Finset.sum_congr rfl fun r _ => congrArg g (Fin.ext (by
    show r.val + 20000 * t.val = 20000 * t.val + r.val; omega))

theorem row_idx1 (j : S1x32.Idx) : j = ix2 (0 : Fin 1) (j 1) := by
  funext a
  match a with
  | ⟨0, _⟩ => exact Fin.ext (Nat.lt_one_iff.mp (j 0).isLt)
  | ⟨1, _⟩ => rfl

section fold
variable (p : Vec Ideal S20000x32 .f32 → Vec Ideal S1x32 .f32 → Vec Ideal S1x32 .f32) (z : Vec Ideal S1x32 .f32) (f : Ideal .f32 → Ideal .f32)
  (hp : ∀ x a col, p x a (ix2 (0 : Fin 1) col) = a (ix2 (0 : Fin 1) col) + ∑ r : Fin 20000, f (x (ix2 r col))) (h0 : ∀ j, z j = 0)
include hp h0

/-- If `p` adds to each column the sum of `f` over that column of the tile and `z` is zero, the accumulator after point `n` holds the sum over the tiles up to `n`. -/
theorem acc1_apply (c : Dev nD) (col : Fin 32) : ∀ (n : ℕ) (h : n < cfg1.N),
    acc1 V p z c n h (ix2 (0 : Fin 1) col) = ∑ t : Fin (n + 1), tsum1 V f c col ⟨t.val, Nat.lt_of_lt_of_le t.isLt h⟩
  | 0, h => by
    rw [acc1, Fin.sum_univ_one, hp, h0, zero_add]
    rfl
  | n + 1, h => by
    rw [acc1, Fin.sum_univ_castSucc, hp, acc1_apply c col n]
    rfl

theorem acc1_final (c : Dev nD) (h : 19 < cfg1.N) (j : S1x32.Idx) :
    acc1 V p z c 19 h j = ∑ i : Fin 400000, f (harr1 V c (ix2 i (j 1))) := by
  have key (col : Fin 32) : acc1 V p z c 19 h (ix2 (0 : Fin 1) col) = ∑ i : Fin 400000, f (harr1 V c (ix2 i col)) := by
    rw [acc1_apply V p z f hp h0, sum_tiles1]
    refine Finset.sum_congr rfl fun t _ => ?_
    show ∑ r : Fin 20000, f (tile1 V c ⟨t.val, _⟩ (ix2 r col)) = _
    exact Finset.sum_congr rfl fun r _ => congrArg f (tile1_apply V c ⟨t.val, _⟩ r col _)
  exact (congrArg (acc1 V p z c 19 h) (row_idx1 j)).trans (key (j 1))

end fold

theorem result1_1 (c : Dev nD) (h : 19 < cfg1.N) : (outsAt1 V c 19 h).1 = colSum (V c main_v50) := by
  rw [(outsAt1_last V c h).1]
  exact funext (acc1_final V (k1_pay4 (F := Ideal)) (k1_pay1 (F := Ideal)) (fun y => y) updS1_apply zeroA1_apply c h)

theorem result1_2 (c : Dev nD) (h : 19 < cfg1.N) : (outsAt1 V c 19 h).2.1 = colSumSq (V c main_v50) := by
  rw [(outsAt1_last V c h).2]
  exact funext (acc1_final V (k1_pay5 (F := Ideal)) (k1_pay2 (F := Ideal)) (fun y => y * y) updQ1_apply zeroB1_apply c h)

theorem final1_1 (c : Dev nD) : (dat1 (F := Ideal) V c).arrAt 1 cfg1.N = colSum (V c main_v50) :=
  (dat1 V c).arrAt_eq_of_cover 1 (colSum (V c main_v50)) (fun t hf => by
    obtain rfl : t = tlast1 := Fin.ext (show t.val = 19 by have := (flush1_1 t).mp hf; have := lt_of_lt_of_eq t.isLt N_1; omega)
    show (cfg1.win 1).cut (grid1.coords tlast1) ((dat1 V c).after 1 tlast1) = _
    rw [after1_1, result1_1]
    have hz' : (fun a => win1_1.index tlast1 a * main_v55_0.ty.shape.size a) = fun _ => 0 := funext fun a => by fin_cases a <;> decide +kernel
    exact (Memref.read_access_unit_zero (Elt Ideal) main_v55_0 hz' (fun a => by rw [congrFun hz' a]; simp) (colSum (V c main_v50))).symm) fun i =>
    ⟨tlast1, (flush1_1 tlast1).mpr rfl, by
      show i ∈ ((View.whole main_v55_0).slice (win1_1.rect tlast1)).set
      rw [View.set_slice_whole, Rect.mem_set_unit]
      intro a
      have h0 : (i 0 : Nat) < 1 := (i 0).isLt
      have h1 : (i 1 : Nat) < 32 := (i 1).isLt
      match a with
      | ⟨0, _⟩ => show win1_1.index tlast1 0 * win1_1.size 0 ≤ (i 0 : Nat) ∧ (i 0 : Nat) < win1_1.index tlast1 0 * win1_1.size 0 + win1_1.xsize (grid1.coords tlast1) 0
                  rw [show win1_1.index tlast1 0 * win1_1.size 0 = 0 from by decide +kernel, show win1_1.xsize (grid1.coords tlast1) 0 = 1 from by decide +kernel]; omega
      | ⟨1, _⟩ => show win1_1.index tlast1 1 * win1_1.size 1 ≤ (i 1 : Nat) ∧ (i 1 : Nat) < win1_1.index tlast1 1 * win1_1.size 1 + win1_1.xsize (grid1.coords tlast1) 1
                  rw [show win1_1.index tlast1 1 * win1_1.size 1 = 0 from by decide +kernel, show win1_1.xsize (grid1.coords tlast1) 1 = 32 from by decide +kernel]; omega⟩

theorem final1_2 (c : Dev nD) : (dat1 (F := Ideal) V c).arrAt 2 cfg1.N = colSumSq (V c main_v50) :=
  (dat1 V c).arrAt_eq_of_cover 2 (colSumSq (V c main_v50)) (fun t hf => by
    obtain rfl : t = tlast1 := Fin.ext (show t.val = 19 by have := (flush1_2 t).mp hf; have := lt_of_lt_of_eq t.isLt N_1; omega)
    show (cfg1.win 2).cut (grid1.coords tlast1) ((dat1 V c).after 2 tlast1) = _
    rw [after1_2, result1_2]
    have hz' : (fun a => win1_2.index tlast1 a * main_v55_1.ty.shape.size a) = fun _ => 0 := funext fun a => by fin_cases a <;> decide +kernel
    exact (Memref.read_access_unit_zero (Elt Ideal) main_v55_1 hz' (fun a => by rw [congrFun hz' a]; simp) (colSumSq (V c main_v50))).symm) fun i =>
    ⟨tlast1, (flush1_2 tlast1).mpr rfl, by
      show i ∈ ((View.whole main_v55_1).slice (win1_2.rect tlast1)).set
      rw [View.set_slice_whole, Rect.mem_set_unit]
      intro a
      have h0 : (i 0 : Nat) < 1 := (i 0).isLt
      have h1 : (i 1 : Nat) < 32 := (i 1).isLt
      match a with
      | ⟨0, _⟩ => show win1_2.index tlast1 0 * win1_2.size 0 ≤ (i 0 : Nat) ∧ (i 0 : Nat) < win1_2.index tlast1 0 * win1_2.size 0 + win1_2.xsize (grid1.coords tlast1) 0
                  rw [show win1_2.index tlast1 0 * win1_2.size 0 = 0 from by decide +kernel, show win1_2.xsize (grid1.coords tlast1) 0 = 1 from by decide +kernel]; omega
      | ⟨1, _⟩ => show win1_2.index tlast1 1 * win1_2.size 1 ≤ (i 1 : Nat) ∧ (i 1 : Nat) < win1_2.index tlast1 1 * win1_2.size 1 + win1_2.xsize (grid1.coords tlast1) 1
                  rw [show win1_2.index tlast1 1 * win1_2.size 1 = 0 from by decide +kernel, show win1_2.xsize (grid1.coords tlast1) 1 = 32 from by decide +kernel]; omega⟩

end ideal

end Cert.KernelIdeal.Hand

end
-- ==== Proof.Val2.lean ====
import proofs.«419458_j79517024518684_2_alg».proof.Proof.Reg2
import proofs.«419458_j79517024518684_2_alg».proof.Proof.Spec
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx

variable (V : (c : Dev nD) → (b : Ref sig .tc) → Buf (Elt Ideal) ((c : Thread nD τ).loc b))

theorem offsets_zero_r2 : (![0, 0] : Fin 2 → Nat) = fun _ => 0 := by decide

-- A row broadcast over the tile reads, at any entry, the row at that entry's column.
theorem row_along_r2 (r : FVec Ideal S1x32 .f32) (j : S20000x32.Idx) :
    broadcastTo S20000x32 r broadcasts_S1x32_S20000x32 j = r (ix2 0 (j 1)) :=
  (congrArg _ (eq_ix2 j)).trans (broadcastTo_1b_ab_apply r _ (j 0) (j 1))

-- The body's map at an entry: centre, scale twice, shift, clamp at zero.
theorem pay2_apply (x0 : Vec Ideal S20000x32 .f32) (x1 x2 x3 x4 : Vec Ideal S1x32 .f32) (j : S20000x32.Idx) :
    k2_pay1 x0 x1 x2 x3 x4 j
      = max ((x0 j - x1 (ix2 0 (j 1))) * x2 (ix2 0 (j 1)) * x3 (ix2 0 (j 1)) + x4 (ix2 0 (j 1))) 0 := by
  unfold k2_pay1
  simp only [shapeCast_self, maximumf_apply, addf_apply, mulf_apply, subf_apply, row_along_r2]
  exact congrArg _ Ideal.ofBits_zero_f32

-- Block t of the output window is the t-th band of rows, all columns.
theorem index_maps2 : ∀ t : Fin cfg2.N, win2_5.index t (0 : Fin 2) = t.val ∧ win2_5.index t (1 : Fin 2) = 0 :=
  (by decide +kernel : ∀ t : Fin grid2.N, _)

-- The two tile windows cut the same band and a row window's block is its whole row, so the map of the blocks is the block of the map.
theorem flushed2_eq (c : Dev nD) (t : Fin cfg2.N) :
    (dat2 (F := Ideal) V c).flushed 5 t = ((cfg2.win 5).blk t).view.read (Elt Ideal) (bnApply (V c main_v50) (V c main_v57) (V c main_v66) (V c main_v67) (V c main_v68)) := by
  show (cfg2.win 5).cut (grid2.coords t) ((dat2 V c).after 5 t) = _
  rw [after2_5]
  unfold out2_5
  rw [View.canon_unit_zero offsets_zero_r2]
  simp only [View.ld_unit_zero (S := S20000x32) offsets_zero_r2, View.ld_unit_zero (S := S1x32) offsets_zero_r2]
  refine funext fun (j : S20000x32.Idx) => ?_
  have hq : (((cfg2.win 1).blk t).view.emb (ix2 0 (j 1)) : S1x32.Idx) = ix2 0 ((((cfg2.win 5).blk t).view.emb j : S400000x32.Idx) 1) :=
    funext fun a => by fin_cases a <;> rfl
  refine (pay2_apply _ _ _ _ _ j).trans ?_
  show _ = bnApply _ _ _ _ _ (((cfg2.win 5).blk t).view.emb j)
  unfold bnApply
  congr 5 <;> exact congrArg _ hq

-- The twenty bands of 20000 rows exhaust the 400000 rows.
theorem cover2 (i : S400000x32.Idx) : ∃ t : Fin cfg2.N, (cfg2.win 5).flush t = true ∧ i ∈ ((cfg2.win 5).blk t).view.set := by
  have hi0 : (i 0).val < 400000 := (i 0).isLt
  have hi1 : (i 1).val < 32 := (i 1).isLt
  obtain ⟨t, ht⟩ : ∃ t : Fin cfg2.N, t.val = (i 0).val / 20000 := ⟨⟨_, by rw [show cfg2.N = 20 from N_2]; omega⟩, rfl⟩
  obtain ⟨e0, e1⟩ := index_maps2 t
  refine ⟨t, flush2_5 t, ?_⟩
  show i ∈ ((View.whole main_v69).slice (win2_5.rect t)).set
  rw [View.set_slice_whole, Rect.mem_set_unit]
  intro a
  match a with
  | ⟨0, _⟩ => show win2_5.index t (0 : Fin 2) * 20000 ≤ (i 0).val ∧ (i 0).val < win2_5.index t (0 : Fin 2) * 20000 + 20000; rw [e0, ht]; omega
  | ⟨1, _⟩ => show win2_5.index t (1 : Fin 2) * 32 ≤ (i 1).val ∧ (i 1).val < win2_5.index t (1 : Fin 2) * 32 + 32; rw [e1]; omega

theorem final2 (c : Dev nD) : (dat2 (F := Ideal) V c).arrAt 5 cfg2.N
    = bnApply (V c main_v50) (V c main_v57) (V c main_v66) (V c main_v67) (V c main_v68) :=
  (dat2 V c).arrAt_eq_of_cover 5 _ (fun t _ => flushed2_eq V c t) cover2

end Cert.KernelIdeal.Hand

end
-- ==== Proof.Val3.lean ====
import proofs.«419458_j79517024518684_2_alg».proof.Proof.Reg3
import proofs.«419458_j79517024518684_2_alg».proof.Proof.Val0

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem index_maps3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem flushed3_eq (c : Dev nD) (t : Fin cfg3.N) :
    (dat3 (F := Ideal) V c).flushed 2 t = ((cfg3.win 2).blk t).view.read (Elt Ideal) (lin32 (V c main_v69) (V c main_arg6)) := by
  obtain ⟨a0, a1, b0, b1, e0, e1⟩ := index_maps3 t
  show (cfg3.win 2).cut (grid3.coords t) ((dat3 V c).after 2 t) = _
  rw [after3_2]
  unfold out3_2
  rw [View.canon_unit_zero offsets_zero2]
  simp only [View.ld_unit_zero (S := S20000x32) offsets_zero2, View.ld_unit_zero (S := S32x32) offsets_zero2]
  unfold k3_pay1
  rw [shapeCast_self]
  funext j
  refine (plain_matmul_apply (iblk3 V c 0 t) (iblk3 V c 1 t) j).trans
    (Finset.sum_congr rfl fun k _ => ?_ : _ = lin32 _ _ (((cfg3.win 2).blk t).view.emb j))
  refine congrArg₂ (fun a b : EReal => a * b) (congrArg (V c main_v69) ?_) (congrArg (V c main_arg6) ?_) <;> apply Shape.idx_ext₂
  · show win3_0.index t 0 * 20000 + 1 * (j 0).val = win3_2.index t 0 * 20000 + 1 * (j 0).val; omega
  · show win3_0.index t 1 * 32 + 1 * k.val = k.val; omega
  · show win3_1.index t 0 * 32 + 1 * k.val = k.val; omega
  · show win3_1.index t 1 * 32 + 1 * (j 1).val = win3_2.index t 1 * 32 + 1 * (j 1).val; omega

-- the twenty blocks of 20000 rows cover all 400000 rows
theorem cover3 (i : S400000x32.Idx) : ∃ t : Fin cfg3.N, (cfg3.win 2).flush t = true ∧ i ∈ ((cfg3.win 2).blk t).view.set := by
  have hi0 : (i 0).val < 400000 := (i 0).isLt
  have hi1 : (i 1).val < 32 := (i 1).isLt
  have ht : (i 0).val / 20000 < cfg3.N := by rw [show cfg3.N = 20 from N_3]; omega
  obtain ⟨-, -, -, -, e0, e1⟩ := index_maps3 ⟨_, ht⟩
  refine ⟨⟨_, ht⟩, flush3_2 _, ?_⟩
  show i ∈ ((View.whole main_v70).slice (win3_2.rect ⟨_, ht⟩)).set
  rw [View.set_slice_whole, Rect.mem_set_unit]
  intro a
  match a with
  | ⟨0, _⟩ => show win3_2.index _ (0 : Fin 2) * 20000 ≤ (i 0).val ∧ (i 0).val < win3_2.index _ (0 : Fin 2) * 20000 + 20000; rw [e0]; show (i 0).val / 20000 * 20000 ≤ _ ∧ _ < (i 0).val / 20000 * 20000 + 20000; omega
  | ⟨1, _⟩ => show win3_2.index _ (1 : Fin 2) * 32 ≤ (i 1).val ∧ (i 1).val < win3_2.index _ (1 : Fin 2) * 32 + 32; rw [e1]; omega

theorem final3 (c : Dev nD) : (dat3 (F := Ideal) V c).arrAt 2 cfg3.N = lin32 (V c main_v69) (V c main_arg6) :=
  (dat3 V c).arrAt_eq_of_cover 2 (lin32 (V c main_v69) (V c main_arg6)) (fun t _ => flushed3_eq V c t) cover3

end Cert.KernelIdeal.Hand

end
-- ==== Proof.Val4.lean ====
import proofs.«419458_j79517024518684_2_alg».proof.Proof.Reg4
import proofs.«419458_j79517024518684_2_alg».proof.Proof.Spec
import Idealize.ShloMosaic.Lib.Pipeline.Value
import Idealize.ShloMosaic.PureOps.Ideal
import Idealize.ShloMosaic.PureOps.Ideal.Laws
import Idealize.ShloMosaic.Lib.ValueIdx
import Mathlib.Algebra.BigOperators.Fin

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

theorem hz4 : (![0, 0] : Fin 2 → Nat) = fun _ => 0 := funext fun a => by fin_cases a <;> rfl

section stores
variable (c : Dev nD) (i : grid4.Coords) (arg1 : Memref sig .tc .vmem S20000x32 .f32) (harg1 : arg1.IsWhole)
  (arg2 : Memref sig .tc .vmem S1x32 .f32) (harg2 : arg2.IsWhole) (arg3 : Memref sig .tc .vmem S1x32 .f32) (harg3 : arg3.IsWhole)
  (arg4 : Memref sig .tc .vmem S1x32 .f32) (harg4 : arg4.IsWhole) (arg5 : Memref sig .tc .vmem S1x32 .f32) (harg5 : arg5.IsWhole)
  (x0 : Vec F S20000x32 .f32) (xs0 xs1 : Vec F S1x32 .f32)

theorem sout4_A_0_eq (hc0 : cond4_0 i) (hc1 : ¬cond4_1 i) : sout4_A_0 c i arg1 harg1 arg2 harg2 arg3 harg3 arg4 harg4 arg5 harg5 hc0 hc1 x0 = k4_pay4 x0 k4_pay1 := by
  unfold sout4_A_0
  rw [View.read_writes_eq_canon _ _ _ (scover4_A_0 c i arg1 harg1 arg2 harg2 arg3 harg3 arg4 harg4 arg5 harg5 hc0 hc1 x0)]
  unfold kernelRun4_A
  dsimp only
  sl_unfold_words
  rw [View.canon_cons_unit_zero (S := S1x32) hz4, View.readCov_unit_zero (S := S1x32) _ hz4]
  simp only [View.readAt_eq_ld, harg1.read_unread, harg4.read_unread, harg5.read_unread, View.ld_unit_zero (S := S20000x32) hz4, View.ld_unit_zero (S := S1x32) hz4]

theorem sout4_A_1_eq (hc0 : cond4_0 i) (hc1 : ¬cond4_1 i) : sout4_A_1 c i arg1 harg1 arg2 harg2 arg3 harg3 arg4 harg4 arg5 harg5 hc0 hc1 x0 = k4_pay5 x0 k4_pay2 := by
  unfold sout4_A_1
  rw [View.read_writes_eq_canon _ _ _ (scover4_A_1 c i arg1 harg1 arg2 harg2 arg3 harg3 arg4 harg4 arg5 harg5 hc0 hc1 x0)]
  unfold kernelRun4_A
  dsimp only
  sl_unfold_words
  rw [View.canon_cons_unit_zero (S := S1x32) hz4, View.readCov_unit_zero (S := S1x32) _ hz4]
  simp only [View.readAt_eq_ld, harg1.read_unread, harg4.read_unread, harg5.read_unread, View.ld_unit_zero (S := S20000x32) hz4, View.ld_unit_zero (S := S1x32) hz4]

theorem sout4_B_0_eq (hc0 : ¬cond4_0 i) (hc1 : ¬cond4_1 i) : sout4_B_0 c i arg1 harg1 arg2 harg2 arg3 harg3 arg4 harg4 arg5 harg5 hc0 hc1 x0 xs0 xs1 = k4_pay4 x0 xs0 := by
  unfold sout4_B_0
  rw [View.read_writes_eq_canon _ _ _ (scover4_B_0 c i arg1 harg1 arg2 harg2 arg3 harg3 arg4 harg4 arg5 harg5 hc0 hc1 x0 xs0 xs1)]
  unfold kernelRun4_B
  dsimp only
  sl_unfold_words
  rw [View.canon_unit_zero (S := S1x32) hz4]
  simp only [View.readAt_eq_ld, harg1.read_unread, harg4.read_unread, harg5.read_unread, View.ld_unit_zero (S := S20000x32) hz4, View.ld_unit_zero (S := S1x32) hz4]

theorem sout4_B_1_eq (hc0 : ¬cond4_0 i) (hc1 : ¬cond4_1 i) : sout4_B_1 c i arg1 harg1 arg2 harg2 arg3 harg3 arg4 harg4 arg5 harg5 hc0 hc1 x0 xs0 xs1 = k4_pay5 x0 xs1 := by
  unfold sout4_B_1
  rw [View.read_writes_eq_canon _ _ _ (scover4_B_1 c i arg1 harg1 arg2 harg2 arg3 harg3 arg4 harg4 arg5 harg5 hc0 hc1 x0 xs0 xs1)]
  unfold kernelRun4_B
  dsimp only
  sl_unfold_words
  rw [View.canon_unit_zero (S := S1x32) hz4]
  simp only [View.readAt_eq_ld, harg1.read_unread, harg4.read_unread, harg5.read_unread, View.ld_unit_zero (S := S20000x32) hz4, View.ld_unit_zero (S := S1x32) hz4]

theorem sout4_C_0_eq (hc0 : ¬cond4_0 i) (hc1 : cond4_1 i) : sout4_C_0 c i arg1 harg1 arg2 harg2 arg3 harg3 arg4 harg4 arg5 harg5 hc0 hc1 x0 xs0 xs1 = k4_pay4 x0 xs0 := by
  unfold sout4_C_0
  rw [View.read_writes_eq_canon _ _ _ (scover4_C_0 c i arg1 harg1 arg2 harg2 arg3 harg3 arg4 harg4 arg5 harg5 hc0 hc1 x0 xs0 xs1)]
  unfold kernelRun4_C
  dsimp only
  sl_unfold_words
  rw [View.canon_unit_zero (S := S1x32) hz4]
  simp only [View.readAt_eq_ld, harg1.read_unread, harg4.read_unread, harg5.read_unread, View.ld_unit_zero (S := S20000x32) hz4, View.ld_unit_zero (S := S1x32) hz4]

theorem sout4_C_1_eq (hc0 : ¬cond4_0 i) (hc1 : cond4_1 i) : sout4_C_1 c i arg1 harg1 arg2 harg2 arg3 harg3 arg4 harg4 arg5 harg5 hc0 hc1 x0 xs0 xs1 = k4_pay5 x0 xs1 := by
  unfold sout4_C_1
  rw [View.read_writes_eq_canon _ _ _ (scover4_C_1 c i arg1 harg1 arg2 harg2 arg3 harg3 arg4 harg4 arg5 harg5 hc0 hc1 x0 xs0 xs1)]
  unfold kernelRun4_C
  dsimp only
  sl_unfold_words
  rw [View.canon_unit_zero (S := S1x32) hz4]
  simp only [View.readAt_eq_ld, harg1.read_unread, harg4.read_unread, harg5.read_unread, View.ld_unit_zero (S := S20000x32) hz4, View.ld_unit_zero (S := S1x32) hz4]

theorem out4_C_1_eq (hc0 : ¬cond4_0 i) (hc1 : cond4_1 i) : out4_C_1 c i arg1 harg1 arg2 harg2 arg3 harg3 arg4 harg4 arg5 harg5 hc0 hc1 x0 xs0 xs1 = k4_pay4 x0 xs0 := by
  unfold out4_C_1
  rw [View.read_writes_eq_canon _ _ _ (cover4_C_1 c i arg1 harg1 arg2 harg2 arg3 harg3 arg4 harg4 arg5 harg5 hc0 hc1 x0 xs0 xs1)]
  unfold kernelRun4_C
  dsimp only
  sl_unfold_words
  rw [View.canon_unit_zero (S := S1x32) hz4, View.readCov_unit_zero (S := S1x32) _ hz4]
  simp only [View.readAt_eq_ld, harg1.read_unread, harg4.read_unread, harg5.read_unread, View.ld_unit_zero (S := S20000x32) hz4, View.ld_unit_zero (S := S1x32) hz4]

theorem out4_C_2_eq (hc0 : ¬cond4_0 i) (hc1 : cond4_1 i) : out4_C_2 c i arg1 harg1 arg2 harg2 arg3 harg3 arg4 harg4 arg5 harg5 hc0 hc1 x0 xs0 xs1 = k4_pay5 x0 xs1 := by
  unfold out4_C_2
  rw [View.read_writes_eq_canon _ _ _ (cover4_C_2 c i arg1 harg1 arg2 harg2 arg3 harg3 arg4 harg4 arg5 harg5 hc0 hc1 x0 xs0 xs1)]
  unfold kernelRun4_C
  dsimp only
  sl_unfold_words
  rw [View.canon_unit_zero (S := S1x32) hz4, View.readCov_unit_zero (S := S1x32) _ hz4]
  simp only [View.readAt_eq_ld, harg1.read_unread, harg4.read_unread, harg5.read_unread, View.ld_unit_zero (S := S20000x32) hz4, View.ld_unit_zero (S := S1x32) hz4]

end stores

section chain
variable (V : (c : Dev nD) → (b : Ref sig .tc) → Buf (Elt F) ((c : Thread nD τ).loc b))

abbrev tile4 (c : Dev nD) (t : Fin cfg4.N) : Vec F S20000x32 .f32 := iblk4 V c 0 t

/-- An accumulator after point `n`: the update `p` folded over the tiles up to `n`, starting from `z`. -/
def acc4 (p : Vec F S20000x32 .f32 → Vec F S1x32 .f32 → Vec F S1x32 .f32) (z : Vec F S1x32 .f32) (c : Dev nD) : (n : ℕ) → n < cfg4.N → Vec F S1x32 .f32
  | 0, h => p (tile4 V c ⟨0, h⟩) z
  | n + 1, h => p (tile4 V c ⟨n + 1, h⟩) (acc4 p z c n (Nat.lt_of_succ_lt h))

/-- The first case at the first point, the middle or the last case (which update alike) afterwards. -/
theorem outsAt4_acc (c : Dev nD) : ∀ (n : ℕ) (h : n < cfg4.N),
    (outsAt4 V c n h).2.2.1 = acc4 V k4_pay4 k4_pay1 c n h ∧ (outsAt4 V c n h).2.2.2 = acc4 V k4_pay5 k4_pay2 c n h
  | 0, h => by
    rw [outsAt4_A V c ⟨0, h⟩ rfl]
    dsimp only
    rw [sout4_A_0_eq, sout4_A_1_eq]
    exact ⟨rfl, rfl⟩
  | n + 1, h => by
    have ih := outsAt4_acc c n (Nat.lt_of_succ_lt h)
    by_cases h1 : n + 1 = 19
    · rw [outsAt4_C V c ⟨n + 1, h⟩ (Nat.succ_ne_zero n) h1]
      dsimp only
      rw [sout4_C_0_eq, sout4_C_1_eq]
      exact ⟨congrArg (k4_pay4 _) ih.1, congrArg (k4_pay5 _) ih.2⟩
    · rw [outsAt4_B V c ⟨n + 1, h⟩ (Nat.succ_ne_zero n) h1]
      dsimp only
      rw [sout4_B_0_eq, sout4_B_1_eq]
      exact ⟨congrArg (k4_pay4 _) ih.1, congrArg (k4_pay5 _) ih.2⟩

theorem outsAt4_last (c : Dev nD) (h : 19 < cfg4.N) :
    (outsAt4 V c 19 h).1 = acc4 V k4_pay4 k4_pay1 c 19 h ∧ (outsAt4 V c 19 h).2.1 = acc4 V k4_pay5 k4_pay2 c 19 h := by
  have ih := outsAt4_acc V c 18 (Nat.lt_of_succ_lt h)
  rw [outsAt4_C V c ⟨18 + 1, h⟩ (Nat.succ_ne_zero 18) rfl]
  dsimp only
  rw [out4_C_1_eq, out4_C_2_eq]
  exact ⟨congrArg (k4_pay4 _) ih.1, congrArg (k4_pay5 _) ih.2⟩

end chain

section ideal
variable (V : (c : Dev nD) → (b : Ref sig .tc) → Buf (Elt Ideal) ((c : Thread nD τ).loc b))

abbrev harr4 (c : Dev nD) : Vec Ideal S400000x32 .f32 := V c main_v86

abbrev tlast4 : Fin cfg4.N := ⟨19, by decide +kernel⟩

theorem zeroA4_apply (j : S1x32.Idx) : k4_pay1 (F := Ideal) j = 0 := by
  show shapeCast S1x32 (broadcast S1x32 (Scalar.ofBits (F := Ideal) .f32 0x00000000#32)) shapeCasts_S1x32_S1x32 j = 0
  rw [shapeCast_self]
  exact Ideal.ofBits_zero_f32

theorem zeroB4_apply (j : S1x32.Idx) : k4_pay2 (F := Ideal) j = 0 := zeroA4_apply j

/-- Entry (0, col) of a 1×32 row and entry col of a vector of 32 sit at the same row-major position. -/
theorem castRow4_apply (v : Vec Ideal S32 .f32) (col : Fin 32) :
    shapeCast S1x32 v shapeCasts_S32_S1x32 (ix2 (0 : Fin 1) col) = v (ix1 col) :=
  shapeCast_apply v shapeCasts_S32_S1x32 (ix2 (0 : Fin 1) col) (ix1 col) (by
    rw [Shape.rowMajor_val_one, Shape.rowMajor_val_two]; simp)

theorem colsum4_apply (x : Vec Ideal S20000x32 .f32) (col : Fin 32) :
    multiReduction (F := Ideal) .add [0] S32 x 0x00000000#32 reduces_S20000x32_S32 (.inl rfl) rfl (ix1 col) = ∑ r : Fin 20000, x (ix2 r col) := by
  refine (Ideal.multiReduction_add_single x _ reduces_S20000x32_S32 _ _ (ix1 col)).trans ?_
  exact Finset.sum_congr rfl fun r _ => congrArg x (funext fun a => Fin.ext (by
    match a with
    | ⟨0, _⟩ => rfl
    | ⟨1, _⟩ => rfl))

theorem updS4_apply (x : Vec Ideal S20000x32 .f32) (a : Vec Ideal S1x32 .f32) (col : Fin 32) :
    k4_pay4 (F := Ideal) x a (ix2 (0 : Fin 1) col) = a (ix2 (0 : Fin 1) col) + ∑ r : Fin 20000, x (ix2 r col) := by
  show shapeCast S1x32 (addf (F := Ideal) a (shapeCast S1x32 (multiReduction (F := Ideal) .add [0] S32 (shapeCast S20000x32 x shapeCasts_S20000x32_S20000x32) 0x00000000#32 reduces_S20000x32_S32 (.inl rfl) rfl) shapeCasts_S32_S1x32)) shapeCasts_S1x32_S1x32 (ix2 (0 : Fin 1) col) = _
  rw [shapeCast_self, addf_apply, castRow4_apply, shapeCast_self, colsum4_apply]

theorem updQ4_apply (x : Vec Ideal S20000x32 .f32) (a : Vec Ideal S1x32 .f32) (col : Fin 32) :
    k4_pay5 (F := Ideal) x a (ix2 (0 : Fin 1) col) = a (ix2 (0 : Fin 1) col) + ∑ r : Fin 20000, x (ix2 r col) * x (ix2 r col) := by
  show shapeCast S1x32 (addf (F := Ideal) a (shapeCast S1x32 (multiReduction (F := Ideal) .add [0] S32 (mulf (F := Ideal) (shapeCast S20000x32 x shapeCasts_S20000x32_S20000x32) (shapeCast S20000x32 x shapeCasts_S20000x32_S20000x32)) 0x00000000#32 reduces_S20000x32_S32 (.inl rfl) rfl) shapeCasts_S32_S1x32)) shapeCasts_S1x32_S1x32 (ix2 (0 : Fin 1) col) = _
  rw [shapeCast_self, addf_apply, castRow4_apply, shapeCast_self, colsum4_apply]
  rfl

theorem index4_0 : ∀ t : Fin cfg4.N, win4_0.index t 0 = t.val ∧ win4_0.index t 1 = 0 := by decide +kernel

/-- Row `r` of tile `t` is row 20000·t + r of the array. -/
theorem tile4_apply (c : Dev nD) (t : Fin cfg4.N) (r : Fin 20000) (col : Fin 32) (hlt : 20000 * t.val + r.val < 400000) :
    tile4 V c t (ix2 r col) = harr4 V c (ix2 ⟨20000 * t.val + r.val, hlt⟩ col) := by
  show iblk4 V c 0 t (ix2 r col) = _
  unfold iblk4
  rw [View.read_apply]
  show V c main_v86 _ = V c main_v86 _
  congr 1
  funext a
  apply Fin.ext
  match a with
  | ⟨0, _⟩ => show win4_0.index t 0 * 20000 + 1 * r.val = 20000 * t.val + r.val; rw [(index4_0 t).1]; omega
  | ⟨1, _⟩ => show win4_0.index t 1 * 32 + 1 * col.val = col.val; rw [(index4_0 t).2]; omega

def tsum4 (f : Ideal .f32 → Ideal .f32) (c : Dev nD) (col : Fin 32) (t : Fin cfg4.N) : Ideal .f32 := ∑ r : Fin 20000, f (tile4 V c t (ix2 r col))

/-- Row i of the array is row i mod 20000 of tile i div 20000; addition is commutative and associative. -/
theorem sum_tiles4 (g : Fin 400000 → Ideal .f32) :
    ∑ i : Fin 400000, g i = ∑ t : Fin 20, ∑ r : Fin 20000, g ⟨20000 * t.val + r.val, by have := t.isLt; have := r.isLt; omega⟩ := by
  refine (Equiv.sum_comp (finProdFinEquiv (m := 20) (n := 20000)) (fun i : Fin (20 * 20000) => g i)).symm.trans ?_
  rw [Fintype.sum_prod_type]
  exact Finset.sum_congr rfl fun t _ => Finset.sum_congr rfl fun r _ => congrArg g (Fin.ext (by
    show r.val + 20000 * t.val = 20000 * t.val + r.val; omega))

theorem row_idx4 (j : S1x32.Idx) : j = ix2 (0 : Fin 1) (j 1) := by
  funext a
  match a with
  | ⟨0, _⟩ => exact Fin.ext (Nat.lt_one_iff.mp (j 0).isLt)
  | ⟨1, _⟩ => rfl

section fold
variable (p : Vec Ideal S20000x32 .f32 → Vec Ideal S1x32 .f32 → Vec Ideal S1x32 .f32) (z : Vec Ideal S1x32 .f32) (f : Ideal .f32 → Ideal .f32)
  (hp : ∀ x a col, p x a (ix2 (0 : Fin 1) col) = a (ix2 (0 : Fin 1) col) + ∑ r : Fin 20000, f (x (ix2 r col))) (h0 : ∀ j, z j = 0)
include hp h0

/-- If `p` adds to each column the sum of `f` over that column of the tile and `z` is zero, the accumulator after point `n` holds the sum over the tiles up to `n`. -/
theorem acc4_apply (c : Dev nD) (col : Fin 32) : ∀ (n : ℕ) (h : n < cfg4.N),
    acc4 V p z c n h (ix2 (0 : Fin 1) col) = ∑ t : Fin (n + 1), tsum4 V f c col ⟨t.val, Nat.lt_of_lt_of_le t.isLt h⟩
  | 0, h => by
    rw [acc4, Fin.sum_univ_one, hp, h0, zero_add]
    rfl
  | n + 1, h => by
    rw [acc4, Fin.sum_univ_castSucc, hp, acc4_apply c col n]
    rfl

theorem acc4_final (c : Dev nD) (h : 19 < cfg4.N) (j : S1x32.Idx) :
    acc4 V p z c 19 h j = ∑ i : Fin 400000, f (harr4 V c (ix2 i (j 1))) := by
  have key (col : Fin 32) : acc4 V p z c 19 h (ix2 (0 : Fin 1) col) = ∑ i : Fin 400000, f (harr4 V c (ix2 i col)) := by
    rw [acc4_apply V p z f hp h0, sum_tiles4]
    refine Finset.sum_congr rfl fun t _ => ?_
    show ∑ r : Fin 20000, f (tile4 V c ⟨t.val, _⟩ (ix2 r col)) = _
    exact Finset.sum_congr rfl fun r _ => congrArg f (tile4_apply V c ⟨t.val, _⟩ r col _)
  exact (congrArg (acc4 V p z c 19 h) (row_idx4 j)).trans (key (j 1))

end fold

theorem result4_1 (c : Dev nD) (h : 19 < cfg4.N) : (outsAt4 V c 19 h).1 = colSum (V c main_v86) := by
  rw [(outsAt4_last V c h).1]
  exact funext (acc4_final V (k4_pay4 (F := Ideal)) (k4_pay1 (F := Ideal)) (fun y => y) updS4_apply zeroA4_apply c h)

theorem result4_2 (c : Dev nD) (h : 19 < cfg4.N) : (outsAt4 V c 19 h).2.1 = colSumSq (V c main_v86) := by
  rw [(outsAt4_last V c h).2]
  exact funext (acc4_final V (k4_pay5 (F := Ideal)) (k4_pay2 (F := Ideal)) (fun y => y * y) updQ4_apply zeroB4_apply c h)

theorem final4_1 (c : Dev nD) : (dat4 (F := Ideal) V c).arrAt 1 cfg4.N = colSum (V c main_v86) :=
  (dat4 V c).arrAt_eq_of_cover 1 (colSum (V c main_v86)) (fun t hf => by
    obtain rfl : t = tlast4 := Fin.ext (show t.val = 19 by have := (flush4_1 t).mp hf; have := lt_of_lt_of_eq t.isLt N_4; omega)
    show (cfg4.win 1).cut (grid4.coords tlast4) ((dat4 V c).after 1 tlast4) = _
    rw [after4_1, result4_1]
    have hz' : (fun a => win4_1.index tlast4 a * main_v91_0.ty.shape.size a) = fun _ => 0 := funext fun a => by fin_cases a <;> decide +kernel
    exact (Memref.read_access_unit_zero (Elt Ideal) main_v91_0 hz' (fun a => by rw [congrFun hz' a]; simp) (colSum (V c main_v86))).symm) fun i =>
    ⟨tlast4, (flush4_1 tlast4).mpr rfl, by
      show i ∈ ((View.whole main_v91_0).slice (win4_1.rect tlast4)).set
      rw [View.set_slice_whole, Rect.mem_set_unit]
      intro a
      have h0 : (i 0 : Nat) < 1 := (i 0).isLt
      have h1 : (i 1 : Nat) < 32 := (i 1).isLt
      match a with
      | ⟨0, _⟩ => show win4_1.index tlast4 0 * win4_1.size 0 ≤ (i 0 : Nat) ∧ (i 0 : Nat) < win4_1.index tlast4 0 * win4_1.size 0 + win4_1.xsize (grid4.coords tlast4) 0
                  rw [show win4_1.index tlast4 0 * win4_1.size 0 = 0 from by decide +kernel, show win4_1.xsize (grid4.coords tlast4) 0 = 1 from by decide +kernel]; omega
      | ⟨1, _⟩ => show win4_1.index tlast4 1 * win4_1.size 1 ≤ (i 1 : Nat) ∧ (i 1 : Nat) < win4_1.index tlast4 1 * win4_1.size 1 + win4_1.xsize (grid4.coords tlast4) 1
                  rw [show win4_1.index tlast4 1 * win4_1.size 1 = 0 from by decide +kernel, show win4_1.xsize (grid4.coords tlast4) 1 = 32 from by decide +kernel]; omega⟩

theorem final4_2 (c : Dev nD) : (dat4 (F := Ideal) V c).arrAt 2 cfg4.N = colSumSq (V c main_v86) :=
  (dat4 V c).arrAt_eq_of_cover 2 (colSumSq (V c main_v86)) (fun t hf => by
    obtain rfl : t = tlast4 := Fin.ext (show t.val = 19 by have := (flush4_2 t).mp hf; have := lt_of_lt_of_eq t.isLt N_4; omega)
    show (cfg4.win 2).cut (grid4.coords tlast4) ((dat4 V c).after 2 tlast4) = _
    rw [after4_2, result4_2]
    have hz' : (fun a => win4_2.index tlast4 a * main_v91_1.ty.shape.size a) = fun _ => 0 := funext fun a => by fin_cases a <;> decide +kernel
    exact (Memref.read_access_unit_zero (Elt Ideal) main_v91_1 hz' (fun a => by rw [congrFun hz' a]; simp) (colSumSq (V c main_v86))).symm) fun i =>
    ⟨tlast4, (flush4_2 tlast4).mpr rfl, by
      show i ∈ ((View.whole main_v91_1).slice (win4_2.rect tlast4)).set
      rw [View.set_slice_whole, Rect.mem_set_unit]
      intro a
      have h0 : (i 0 : Nat) < 1 := (i 0).isLt
      have h1 : (i 1 : Nat) < 32 := (i 1).isLt
      match a with
      | ⟨0, _⟩ => show win4_2.index tlast4 0 * win4_2.size 0 ≤ (i 0 : Nat) ∧ (i 0 : Nat) < win4_2.index tlast4 0 * win4_2.size 0 + win4_2.xsize (grid4.coords tlast4) 0
                  rw [show win4_2.index tlast4 0 * win4_2.size 0 = 0 from by decide +kernel, show win4_2.xsize (grid4.coords tlast4) 0 = 1 from by decide +kernel]; omega
      | ⟨1, _⟩ => show win4_2.index tlast4 1 * win4_2.size 1 ≤ (i 1 : Nat) ∧ (i 1 : Nat) < win4_2.index tlast4 1 * win4_2.size 1 + win4_2.xsize (grid4.coords tlast4) 1
                  rw [show win4_2.index tlast4 1 * win4_2.size 1 = 0 from by decide +kernel, show win4_2.xsize (grid4.coords tlast4) 1 = 32 from by decide +kernel]; omega⟩

end ideal

end Cert.KernelIdeal.Hand

end
-- ==== Proof.Val5.lean ====
import proofs.«419458_j79517024518684_2_alg».proof.Proof.Reg5
import proofs.«419458_j79517024518684_2_alg».proof.Proof.Spec
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx

variable (V : (c : Dev nD) → (b : Ref sig .tc) → Buf (Elt Ideal) ((c : Thread nD τ).loc b))

theorem offsets_zero_r5 : (![0, 0] : Fin 2 → Nat) = fun _ => 0 := by decide

-- A row broadcast over the tile reads, at any entry, the row at that entry's column.
theorem row_along_r5 (r : FVec Ideal S1x32 .f32) (j : S20000x32.Idx) :
    broadcastTo S20000x32 r broadcasts_S1x32_S20000x32 j = r (ix2 0 (j 1)) :=
  (congrArg _ (eq_ix2 j)).trans (broadcastTo_1b_ab_apply r _ (j 0) (j 1))

-- The body's map at an entry: centre, scale twice, shift, clamp at zero.
theorem pay5_apply (x0 : Vec Ideal S20000x32 .f32) (x1 x2 x3 x4 : Vec Ideal S1x32 .f32) (j : S20000x32.Idx) :
    k5_pay1 x0 x1 x2 x3 x4 j
      = max ((x0 j - x1 (ix2 0 (j 1))) * x2 (ix2 0 (j 1)) * x3 (ix2 0 (j 1)) + x4 (ix2 0 (j 1))) 0 := by
  unfold k5_pay1
  simp only [shapeCast_self, maximumf_apply, addf_apply, mulf_apply, subf_apply, row_along_r5]
  exact congrArg _ Ideal.ofBits_zero_f32

-- Block t of the output window is the t-th band of rows, all columns.
theorem index_maps5 : ∀ t : Fin cfg5.N, win5_5.index t (0 : Fin 2) = t.val ∧ win5_5.index t (1 : Fin 2) = 0 :=
  (by decide +kernel : ∀ t : Fin grid5.N, _)

-- The two tile windows cut the same band and a row window's block is its whole row, so the map of the blocks is the block of the map.
theorem flushed5_eq (c : Dev nD) (t : Fin cfg5.N) :
    (dat5 (F := Ideal) V c).flushed 5 t = ((cfg5.win 5).blk t).view.read (Elt Ideal) (bnApply (V c main_v86) (V c main_v93) (V c main_v102) (V c main_v103) (V c main_v104)) := by
  show (cfg5.win 5).cut (grid5.coords t) ((dat5 V c).after 5 t) = _
  rw [after5_5]
  unfold out5_5
  rw [View.canon_unit_zero offsets_zero_r5]
  simp only [View.ld_unit_zero (S := S20000x32) offsets_zero_r5, View.ld_unit_zero (S := S1x32) offsets_zero_r5]
  refine funext fun (j : S20000x32.Idx) => ?_
  have hq : (((cfg5.win 1).blk t).view.emb (ix2 0 (j 1)) : S1x32.Idx) = ix2 0 ((((cfg5.win 5).blk t).view.emb j : S400000x32.Idx) 1) :=
    funext fun a => by fin_cases a <;> rfl
  refine (pay5_apply _ _ _ _ _ j).trans ?_
  show _ = bnApply _ _ _ _ _ (((cfg5.win 5).blk t).view.emb j)
  unfold bnApply
  congr 5 <;> exact congrArg _ hq

-- The twenty bands of 20000 rows exhaust the 400000 rows.
theorem cover5 (i : S400000x32.Idx) : ∃ t : Fin cfg5.N, (cfg5.win 5).flush t = true ∧ i ∈ ((cfg5.win 5).blk t).view.set := by
  have hi0 : (i 0).val < 400000 := (i 0).isLt
  have hi1 : (i 1).val < 32 := (i 1).isLt
  obtain ⟨t, ht⟩ : ∃ t : Fin cfg5.N, t.val = (i 0).val / 20000 := ⟨⟨_, by rw [show cfg5.N = 20 from N_5]; omega⟩, rfl⟩
  obtain ⟨e0, e1⟩ := index_maps5 t
  refine ⟨t, flush5_5 t, ?_⟩
  show i ∈ ((View.whole main_v105).slice (win5_5.rect t)).set
  rw [View.set_slice_whole, Rect.mem_set_unit]
  intro a
  match a with
  | ⟨0, _⟩ => show win5_5.index t (0 : Fin 2) * 20000 ≤ (i 0).val ∧ (i 0).val < win5_5.index t (0 : Fin 2) * 20000 + 20000; rw [e0, ht]; omega
  | ⟨1, _⟩ => show win5_5.index t (1 : Fin 2) * 32 ≤ (i 1).val ∧ (i 1).val < win5_5.index t (1 : Fin 2) * 32 + 32; rw [e1]; omega

theorem final5 (c : Dev nD) : (dat5 (F := Ideal) V c).arrAt 5 cfg5.N
    = bnApply (V c main_v86) (V c main_v93) (V c main_v102) (V c main_v103) (V c main_v104) :=
  (dat5 V c).arrAt_eq_of_cover 5 _ (fun t _ => flushed5_eq V c t) cover5

end Cert.KernelIdeal.Hand

end
-- ==== Proof.Val6.lean ====
import proofs.«419458_j79517024518684_2_alg».proof.Proof.Reg6
import proofs.«419458_j79517024518684_2_alg».proof.Proof.Val0

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem index_maps6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

theorem flushed6_eq (c : Dev nD) (t : Fin cfg6.N) :
    (dat6 (F := Ideal) V c).flushed 2 t = ((cfg6.win 2).blk t).view.read (Elt Ideal) (lin32 (V c main_v105) (V c main_arg8)) := by
  obtain ⟨a0, a1, b0, b1, e0, e1⟩ := index_maps6 t
  show (cfg6.win 2).cut (grid6.coords t) ((dat6 V c).after 2 t) = _
  rw [after6_2]
  unfold out6_2
  rw [View.canon_unit_zero offsets_zero2]
  simp only [View.ld_unit_zero (S := S20000x32) offsets_zero2, View.ld_unit_zero (S := S32x32) offsets_zero2]
  unfold k6_pay1
  rw [shapeCast_self]
  funext j
  refine (plain_matmul_apply (iblk6 V c 0 t) (iblk6 V c 1 t) j).trans
    (Finset.sum_congr rfl fun k _ => ?_ : _ = lin32 _ _ (((cfg6.win 2).blk t).view.emb j))
  refine congrArg₂ (fun a b : EReal => a * b) (congrArg (V c main_v105) ?_) (congrArg (V c main_arg8) ?_) <;> apply Shape.idx_ext₂
  · show win6_0.index t 0 * 20000 + 1 * (j 0).val = win6_2.index t 0 * 20000 + 1 * (j 0).val; omega
  · show win6_0.index t 1 * 32 + 1 * k.val = k.val; omega
  · show win6_1.index t 0 * 32 + 1 * k.val = k.val; omega
  · show win6_1.index t 1 * 32 + 1 * (j 1).val = win6_2.index t 1 * 32 + 1 * (j 1).val; omega

-- the twenty blocks of 20000 rows cover all 400000 rows
theorem cover6 (i : S400000x32.Idx) : ∃ t : Fin cfg6.N, (cfg6.win 2).flush t = true ∧ i ∈ ((cfg6.win 2).blk t).view.set := by
  have hi0 : (i 0).val < 400000 := (i 0).isLt
  have hi1 : (i 1).val < 32 := (i 1).isLt
  have ht : (i 0).val / 20000 < cfg6.N := by rw [show cfg6.N = 20 from N_6]; omega
  obtain ⟨-, -, -, -, e0, e1⟩ := index_maps6 ⟨_, ht⟩
  refine ⟨⟨_, ht⟩, flush6_2 _, ?_⟩
  show i ∈ ((View.whole main_v106).slice (win6_2.rect ⟨_, ht⟩)).set
  rw [View.set_slice_whole, Rect.mem_set_unit]
  intro a
  match a with
  | ⟨0, _⟩ => show win6_2.index _ (0 : Fin 2) * 20000 ≤ (i 0).val ∧ (i 0).val < win6_2.index _ (0 : Fin 2) * 20000 + 20000; rw [e0]; show (i 0).val / 20000 * 20000 ≤ _ ∧ _ < (i 0).val / 20000 * 20000 + 20000; omega
  | ⟨1, _⟩ => show win6_2.index _ (1 : Fin 2) * 32 ≤ (i 1).val ∧ (i 1).val < win6_2.index _ (1 : Fin 2) * 32 + 32; rw [e1]; omega

theorem final6 (c : Dev nD) : (dat6 (F := Ideal) V c).arrAt 2 cfg6.N = lin32 (V c main_v105) (V c main_arg8) :=
  (dat6 V c).arrAt_eq_of_cover 2 (lin32 (V c main_v105) (V c main_arg8)) (fun t _ => flushed6_eq V c t) cover6

end Cert.KernelIdeal.Hand

end
-- ==== Proof.Val7.lean ====
import proofs.«419458_j79517024518684_2_alg».proof.Proof.Reg7
import proofs.«419458_j79517024518684_2_alg».proof.Proof.Spec
import Idealize.ShloMosaic.Lib.Pipeline.Value
import Idealize.ShloMosaic.PureOps.Ideal
import Idealize.ShloMosaic.PureOps.Ideal.Laws
import Idealize.ShloMosaic.Lib.ValueIdx
import Mathlib.Algebra.BigOperators.Fin

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

theorem hz7 : (![0, 0] : Fin 2 → Nat) = fun _ => 0 := funext fun a => by fin_cases a <;> rfl

section stores
variable (c : Dev nD) (i : grid7.Coords) (arg1 : Memref sig .tc .vmem S20000x32 .f32) (harg1 : arg1.IsWhole)
  (arg2 : Memref sig .tc .vmem S1x32 .f32) (harg2 : arg2.IsWhole) (arg3 : Memref sig .tc .vmem S1x32 .f32) (harg3 : arg3.IsWhole)
  (arg4 : Memref sig .tc .vmem S1x32 .f32) (harg4 : arg4.IsWhole) (arg5 : Memref sig .tc .vmem S1x32 .f32) (harg5 : arg5.IsWhole)
  (x0 : Vec F S20000x32 .f32) (xs0 xs1 : Vec F S1x32 .f32)

theorem sout7_A_0_eq (hc0 : cond7_0 i) (hc1 : ¬cond7_1 i) : sout7_A_0 c i arg1 harg1 arg2 harg2 arg3 harg3 arg4 harg4 arg5 harg5 hc0 hc1 x0 = k7_pay4 x0 k7_pay1 := by
  unfold sout7_A_0
  rw [View.read_writes_eq_canon _ _ _ (scover7_A_0 c i arg1 harg1 arg2 harg2 arg3 harg3 arg4 harg4 arg5 harg5 hc0 hc1 x0)]
  unfold kernelRun7_A
  dsimp only
  sl_unfold_words
  rw [View.canon_cons_unit_zero (S := S1x32) hz7, View.readCov_unit_zero (S := S1x32) _ hz7]
  simp only [View.readAt_eq_ld, harg1.read_unread, harg4.read_unread, harg5.read_unread, View.ld_unit_zero (S := S20000x32) hz7, View.ld_unit_zero (S := S1x32) hz7]

theorem sout7_A_1_eq (hc0 : cond7_0 i) (hc1 : ¬cond7_1 i) : sout7_A_1 c i arg1 harg1 arg2 harg2 arg3 harg3 arg4 harg4 arg5 harg5 hc0 hc1 x0 = k7_pay5 x0 k7_pay2 := by
  unfold sout7_A_1
  rw [View.read_writes_eq_canon _ _ _ (scover7_A_1 c i arg1 harg1 arg2 harg2 arg3 harg3 arg4 harg4 arg5 harg5 hc0 hc1 x0)]
  unfold kernelRun7_A
  dsimp only
  sl_unfold_words
  rw [View.canon_cons_unit_zero (S := S1x32) hz7, View.readCov_unit_zero (S := S1x32) _ hz7]
  simp only [View.readAt_eq_ld, harg1.read_unread, harg4.read_unread, harg5.read_unread, View.ld_unit_zero (S := S20000x32) hz7, View.ld_unit_zero (S := S1x32) hz7]

theorem sout7_B_0_eq (hc0 : ¬cond7_0 i) (hc1 : ¬cond7_1 i) : sout7_B_0 c i arg1 harg1 arg2 harg2 arg3 harg3 arg4 harg4 arg5 harg5 hc0 hc1 x0 xs0 xs1 = k7_pay4 x0 xs0 := by
  unfold sout7_B_0
  rw [View.read_writes_eq_canon _ _ _ (scover7_B_0 c i arg1 harg1 arg2 harg2 arg3 harg3 arg4 harg4 arg5 harg5 hc0 hc1 x0 xs0 xs1)]
  unfold kernelRun7_B
  dsimp only
  sl_unfold_words
  rw [View.canon_unit_zero (S := S1x32) hz7]
  simp only [View.readAt_eq_ld, harg1.read_unread, harg4.read_unread, harg5.read_unread, View.ld_unit_zero (S := S20000x32) hz7, View.ld_unit_zero (S := S1x32) hz7]

theorem sout7_B_1_eq (hc0 : ¬cond7_0 i) (hc1 : ¬cond7_1 i) : sout7_B_1 c i arg1 harg1 arg2 harg2 arg3 harg3 arg4 harg4 arg5 harg5 hc0 hc1 x0 xs0 xs1 = k7_pay5 x0 xs1 := by
  unfold sout7_B_1
  rw [View.read_writes_eq_canon _ _ _ (scover7_B_1 c i arg1 harg1 arg2 harg2 arg3 harg3 arg4 harg4 arg5 harg5 hc0 hc1 x0 xs0 xs1)]
  unfold kernelRun7_B
  dsimp only
  sl_unfold_words
  rw [View.canon_unit_zero (S := S1x32) hz7]
  simp only [View.readAt_eq_ld, harg1.read_unread, harg4.read_unread, harg5.read_unread, View.ld_unit_zero (S := S20000x32) hz7, View.ld_unit_zero (S := S1x32) hz7]

theorem sout7_C_0_eq (hc0 : ¬cond7_0 i) (hc1 : cond7_1 i) : sout7_C_0 c i arg1 harg1 arg2 harg2 arg3 harg3 arg4 harg4 arg5 harg5 hc0 hc1 x0 xs0 xs1 = k7_pay4 x0 xs0 := by
  unfold sout7_C_0
  rw [View.read_writes_eq_canon _ _ _ (scover7_C_0 c i arg1 harg1 arg2 harg2 arg3 harg3 arg4 harg4 arg5 harg5 hc0 hc1 x0 xs0 xs1)]
  unfold kernelRun7_C
  dsimp only
  sl_unfold_words
  rw [View.canon_unit_zero (S := S1x32) hz7]
  simp only [View.readAt_eq_ld, harg1.read_unread, harg4.read_unread, harg5.read_unread, View.ld_unit_zero (S := S20000x32) hz7, View.ld_unit_zero (S := S1x32) hz7]

theorem sout7_C_1_eq (hc0 : ¬cond7_0 i) (hc1 : cond7_1 i) : sout7_C_1 c i arg1 harg1 arg2 harg2 arg3 harg3 arg4 harg4 arg5 harg5 hc0 hc1 x0 xs0 xs1 = k7_pay5 x0 xs1 := by
  unfold sout7_C_1
  rw [View.read_writes_eq_canon _ _ _ (scover7_C_1 c i arg1 harg1 arg2 harg2 arg3 harg3 arg4 harg4 arg5 harg5 hc0 hc1 x0 xs0 xs1)]
  unfold kernelRun7_C
  dsimp only
  sl_unfold_words
  rw [View.canon_unit_zero (S := S1x32) hz7]
  simp only [View.readAt_eq_ld, harg1.read_unread, harg4.read_unread, harg5.read_unread, View.ld_unit_zero (S := S20000x32) hz7, View.ld_unit_zero (S := S1x32) hz7]

theorem out7_C_1_eq (hc0 : ¬cond7_0 i) (hc1 : cond7_1 i) : out7_C_1 c i arg1 harg1 arg2 harg2 arg3 harg3 arg4 harg4 arg5 harg5 hc0 hc1 x0 xs0 xs1 = k7_pay4 x0 xs0 := by
  unfold out7_C_1
  rw [View.read_writes_eq_canon _ _ _ (cover7_C_1 c i arg1 harg1 arg2 harg2 arg3 harg3 arg4 harg4 arg5 harg5 hc0 hc1 x0 xs0 xs1)]
  unfold kernelRun7_C
  dsimp only
  sl_unfold_words
  rw [View.canon_unit_zero (S := S1x32) hz7, View.readCov_unit_zero (S := S1x32) _ hz7]
  simp only [View.readAt_eq_ld, harg1.read_unread, harg4.read_unread, harg5.read_unread, View.ld_unit_zero (S := S20000x32) hz7, View.ld_unit_zero (S := S1x32) hz7]

theorem out7_C_2_eq (hc0 : ¬cond7_0 i) (hc1 : cond7_1 i) : out7_C_2 c i arg1 harg1 arg2 harg2 arg3 harg3 arg4 harg4 arg5 harg5 hc0 hc1 x0 xs0 xs1 = k7_pay5 x0 xs1 := by
  unfold out7_C_2
  rw [View.read_writes_eq_canon _ _ _ (cover7_C_2 c i arg1 harg1 arg2 harg2 arg3 harg3 arg4 harg4 arg5 harg5 hc0 hc1 x0 xs0 xs1)]
  unfold kernelRun7_C
  dsimp only
  sl_unfold_words
  rw [View.canon_unit_zero (S := S1x32) hz7, View.readCov_unit_zero (S := S1x32) _ hz7]
  simp only [View.readAt_eq_ld, harg1.read_unread, harg4.read_unread, harg5.read_unread, View.ld_unit_zero (S := S20000x32) hz7, View.ld_unit_zero (S := S1x32) hz7]

end stores

section chain
variable (V : (c : Dev nD) → (b : Ref sig .tc) → Buf (Elt F) ((c : Thread nD τ).loc b))

abbrev tile7 (c : Dev nD) (t : Fin cfg7.N) : Vec F S20000x32 .f32 := iblk7 V c 0 t

/-- An accumulator after point `n`: the update `p` folded over the tiles up to `n`, starting from `z`. -/
def acc7 (p : Vec F S20000x32 .f32 → Vec F S1x32 .f32 → Vec F S1x32 .f32) (z : Vec F S1x32 .f32) (c : Dev nD) : (n : ℕ) → n < cfg7.N → Vec F S1x32 .f32
  | 0, h => p (tile7 V c ⟨0, h⟩) z
  | n + 1, h => p (tile7 V c ⟨n + 1, h⟩) (acc7 p z c n (Nat.lt_of_succ_lt h))

/-- The first case at the first point, the middle or the last case (which update alike) afterwards. -/
theorem outsAt7_acc (c : Dev nD) : ∀ (n : ℕ) (h : n < cfg7.N),
    (outsAt7 V c n h).2.2.1 = acc7 V k7_pay4 k7_pay1 c n h ∧ (outsAt7 V c n h).2.2.2 = acc7 V k7_pay5 k7_pay2 c n h
  | 0, h => by
    rw [outsAt7_A V c ⟨0, h⟩ rfl]
    dsimp only
    rw [sout7_A_0_eq, sout7_A_1_eq]
    exact ⟨rfl, rfl⟩
  | n + 1, h => by
    have ih := outsAt7_acc c n (Nat.lt_of_succ_lt h)
    by_cases h1 : n + 1 = 19
    · rw [outsAt7_C V c ⟨n + 1, h⟩ (Nat.succ_ne_zero n) h1]
      dsimp only
      rw [sout7_C_0_eq, sout7_C_1_eq]
      exact ⟨congrArg (k7_pay4 _) ih.1, congrArg (k7_pay5 _) ih.2⟩
    · rw [outsAt7_B V c ⟨n + 1, h⟩ (Nat.succ_ne_zero n) h1]
      dsimp only
      rw [sout7_B_0_eq, sout7_B_1_eq]
      exact ⟨congrArg (k7_pay4 _) ih.1, congrArg (k7_pay5 _) ih.2⟩

theorem outsAt7_last (c : Dev nD) (h : 19 < cfg7.N) :
    (outsAt7 V c 19 h).1 = acc7 V k7_pay4 k7_pay1 c 19 h ∧ (outsAt7 V c 19 h).2.1 = acc7 V k7_pay5 k7_pay2 c 19 h := by
  have ih := outsAt7_acc V c 18 (Nat.lt_of_succ_lt h)
  rw [outsAt7_C V c ⟨18 + 1, h⟩ (Nat.succ_ne_zero 18) rfl]
  dsimp only
  rw [out7_C_1_eq, out7_C_2_eq]
  exact ⟨congrArg (k7_pay4 _) ih.1, congrArg (k7_pay5 _) ih.2⟩

end chain

section ideal
variable (V : (c : Dev nD) → (b : Ref sig .tc) → Buf (Elt Ideal) ((c : Thread nD τ).loc b))

abbrev harr7 (c : Dev nD) : Vec Ideal S400000x32 .f32 := V c main_v122

abbrev tlast7 : Fin cfg7.N := ⟨19, by decide +kernel⟩

theorem zeroA7_apply (j : S1x32.Idx) : k7_pay1 (F := Ideal) j = 0 := by
  show shapeCast S1x32 (broadcast S1x32 (Scalar.ofBits (F := Ideal) .f32 0x00000000#32)) shapeCasts_S1x32_S1x32 j = 0
  rw [shapeCast_self]
  exact Ideal.ofBits_zero_f32

theorem zeroB7_apply (j : S1x32.Idx) : k7_pay2 (F := Ideal) j = 0 := zeroA7_apply j

/-- Entry (0, col) of a 1×32 row and entry col of a vector of 32 sit at the same row-major position. -/
theorem castRow7_apply (v : Vec Ideal S32 .f32) (col : Fin 32) :
    shapeCast S1x32 v shapeCasts_S32_S1x32 (ix2 (0 : Fin 1) col) = v (ix1 col) :=
  shapeCast_apply v shapeCasts_S32_S1x32 (ix2 (0 : Fin 1) col) (ix1 col) (by
    rw [Shape.rowMajor_val_one, Shape.rowMajor_val_two]; simp)

theorem colsum7_apply (x : Vec Ideal S20000x32 .f32) (col : Fin 32) :
    multiReduction (F := Ideal) .add [0] S32 x 0x00000000#32 reduces_S20000x32_S32 (.inl rfl) rfl (ix1 col) = ∑ r : Fin 20000, x (ix2 r col) := by
  refine (Ideal.multiReduction_add_single x _ reduces_S20000x32_S32 _ _ (ix1 col)).trans ?_
  exact Finset.sum_congr rfl fun r _ => congrArg x (funext fun a => Fin.ext (by
    match a with
    | ⟨0, _⟩ => rfl
    | ⟨1, _⟩ => rfl))

theorem updS7_apply (x : Vec Ideal S20000x32 .f32) (a : Vec Ideal S1x32 .f32) (col : Fin 32) :
    k7_pay4 (F := Ideal) x a (ix2 (0 : Fin 1) col) = a (ix2 (0 : Fin 1) col) + ∑ r : Fin 20000, x (ix2 r col) := by
  show shapeCast S1x32 (addf (F := Ideal) a (shapeCast S1x32 (multiReduction (F := Ideal) .add [0] S32 (shapeCast S20000x32 x shapeCasts_S20000x32_S20000x32) 0x00000000#32 reduces_S20000x32_S32 (.inl rfl) rfl) shapeCasts_S32_S1x32)) shapeCasts_S1x32_S1x32 (ix2 (0 : Fin 1) col) = _
  rw [shapeCast_self, addf_apply, castRow7_apply, shapeCast_self, colsum7_apply]

theorem updQ7_apply (x : Vec Ideal S20000x32 .f32) (a : Vec Ideal S1x32 .f32) (col : Fin 32) :
    k7_pay5 (F := Ideal) x a (ix2 (0 : Fin 1) col) = a (ix2 (0 : Fin 1) col) + ∑ r : Fin 20000, x (ix2 r col) * x (ix2 r col) := by
  show shapeCast S1x32 (addf (F := Ideal) a (shapeCast S1x32 (multiReduction (F := Ideal) .add [0] S32 (mulf (F := Ideal) (shapeCast S20000x32 x shapeCasts_S20000x32_S20000x32) (shapeCast S20000x32 x shapeCasts_S20000x32_S20000x32)) 0x00000000#32 reduces_S20000x32_S32 (.inl rfl) rfl) shapeCasts_S32_S1x32)) shapeCasts_S1x32_S1x32 (ix2 (0 : Fin 1) col) = _
  rw [shapeCast_self, addf_apply, castRow7_apply, shapeCast_self, colsum7_apply]
  rfl

theorem index7_0 : ∀ t : Fin cfg7.N, win7_0.index t 0 = t.val ∧ win7_0.index t 1 = 0 := by decide +kernel

/-- Row `r` of tile `t` is row 20000·t + r of the array. -/
theorem tile7_apply (c : Dev nD) (t : Fin cfg7.N) (r : Fin 20000) (col : Fin 32) (hlt : 20000 * t.val + r.val < 400000) :
    tile7 V c t (ix2 r col) = harr7 V c (ix2 ⟨20000 * t.val + r.val, hlt⟩ col) := by
  show iblk7 V c 0 t (ix2 r col) = _
  unfold iblk7
  rw [View.read_apply]
  show V c main_v122 _ = V c main_v122 _
  congr 1
  funext a
  apply Fin.ext
  match a with
  | ⟨0, _⟩ => show win7_0.index t 0 * 20000 + 1 * r.val = 20000 * t.val + r.val; rw [(index7_0 t).1]; omega
  | ⟨1, _⟩ => show win7_0.index t 1 * 32 + 1 * col.val = col.val; rw [(index7_0 t).2]; omega

def tsum7 (f : Ideal .f32 → Ideal .f32) (c : Dev nD) (col : Fin 32) (t : Fin cfg7.N) : Ideal .f32 := ∑ r : Fin 20000, f (tile7 V c t (ix2 r col))

/-- Row i of the array is row i mod 20000 of tile i div 20000; addition is commutative and associative. -/
theorem sum_tiles7 (g : Fin 400000 → Ideal .f32) :
    ∑ i : Fin 400000, g i = ∑ t : Fin 20, ∑ r : Fin 20000, g ⟨20000 * t.val + r.val, by have := t.isLt; have := r.isLt; omega⟩ := by
  refine (Equiv.sum_comp (finProdFinEquiv (m := 20) (n := 20000)) (fun i : Fin (20 * 20000) => g i)).symm.trans ?_
  rw [Fintype.sum_prod_type]
  exact Finset.sum_congr rfl fun t _ => Finset.sum_congr rfl fun r _ => congrArg g (Fin.ext (by
    show r.val + 20000 * t.val = 20000 * t.val + r.val; omega))

theorem row_idx7 (j : S1x32.Idx) : j = ix2 (0 : Fin 1) (j 1) := by
  funext a
  match a with
  | ⟨0, _⟩ => exact Fin.ext (Nat.lt_one_iff.mp (j 0).isLt)
  | ⟨1, _⟩ => rfl

section fold
variable (p : Vec Ideal S20000x32 .f32 → Vec Ideal S1x32 .f32 → Vec Ideal S1x32 .f32) (z : Vec Ideal S1x32 .f32) (f : Ideal .f32 → Ideal .f32)
  (hp : ∀ x a col, p x a (ix2 (0 : Fin 1) col) = a (ix2 (0 : Fin 1) col) + ∑ r : Fin 20000, f (x (ix2 r col))) (h0 : ∀ j, z j = 0)
include hp h0

/-- If `p` adds to each column the sum of `f` over that column of the tile and `z` is zero, the accumulator after point `n` holds the sum over the tiles up to `n`. -/
theorem acc7_apply (c : Dev nD) (col : Fin 32) : ∀ (n : ℕ) (h : n < cfg7.N),
    acc7 V p z c n h (ix2 (0 : Fin 1) col) = ∑ t : Fin (n + 1), tsum7 V f c col ⟨t.val, Nat.lt_of_lt_of_le t.isLt h⟩
  | 0, h => by
    rw [acc7, Fin.sum_univ_one, hp, h0, zero_add]
    rfl
  | n + 1, h => by
    rw [acc7, Fin.sum_univ_castSucc, hp, acc7_apply c col n]
    rfl

theorem acc7_final (c : Dev nD) (h : 19 < cfg7.N) (j : S1x32.Idx) :
    acc7 V p z c 19 h j = ∑ i : Fin 400000, f (harr7 V c (ix2 i (j 1))) := by
  have key (col : Fin 32) : acc7 V p z c 19 h (ix2 (0 : Fin 1) col) = ∑ i : Fin 400000, f (harr7 V c (ix2 i col)) := by
    rw [acc7_apply V p z f hp h0, sum_tiles7]
    refine Finset.sum_congr rfl fun t _ => ?_
    show ∑ r : Fin 20000, f (tile7 V c ⟨t.val, _⟩ (ix2 r col)) = _
    exact Finset.sum_congr rfl fun r _ => congrArg f (tile7_apply V c ⟨t.val, _⟩ r col _)
  exact (congrArg (acc7 V p z c 19 h) (row_idx7 j)).trans (key (j 1))

end fold

theorem result7_1 (c : Dev nD) (h : 19 < cfg7.N) : (outsAt7 V c 19 h).1 = colSum (V c main_v122) := by
  rw [(outsAt7_last V c h).1]
  exact funext (acc7_final V (k7_pay4 (F := Ideal)) (k7_pay1 (F := Ideal)) (fun y => y) updS7_apply zeroA7_apply c h)

theorem result7_2 (c : Dev nD) (h : 19 < cfg7.N) : (outsAt7 V c 19 h).2.1 = colSumSq (V c main_v122) := by
  rw [(outsAt7_last V c h).2]
  exact funext (acc7_final V (k7_pay5 (F := Ideal)) (k7_pay2 (F := Ideal)) (fun y => y * y) updQ7_apply zeroB7_apply c h)

theorem final7_1 (c : Dev nD) : (dat7 (F := Ideal) V c).arrAt 1 cfg7.N = colSum (V c main_v122) :=
  (dat7 V c).arrAt_eq_of_cover 1 (colSum (V c main_v122)) (fun t hf => by
    obtain rfl : t = tlast7 := Fin.ext (show t.val = 19 by have := (flush7_1 t).mp hf; have := lt_of_lt_of_eq t.isLt N_7; omega)
    show (cfg7.win 1).cut (grid7.coords tlast7) ((dat7 V c).after 1 tlast7) = _
    rw [after7_1, result7_1]
    have hz' : (fun a => win7_1.index tlast7 a * main_v127_0.ty.shape.size a) = fun _ => 0 := funext fun a => by fin_cases a <;> decide +kernel
    exact (Memref.read_access_unit_zero (Elt Ideal) main_v127_0 hz' (fun a => by rw [congrFun hz' a]; simp) (colSum (V c main_v122))).symm) fun i =>
    ⟨tlast7, (flush7_1 tlast7).mpr rfl, by
      show i ∈ ((View.whole main_v127_0).slice (win7_1.rect tlast7)).set
      rw [View.set_slice_whole, Rect.mem_set_unit]
      intro a
      have h0 : (i 0 : Nat) < 1 := (i 0).isLt
      have h1 : (i 1 : Nat) < 32 := (i 1).isLt
      match a with
      | ⟨0, _⟩ => show win7_1.index tlast7 0 * win7_1.size 0 ≤ (i 0 : Nat) ∧ (i 0 : Nat) < win7_1.index tlast7 0 * win7_1.size 0 + win7_1.xsize (grid7.coords tlast7) 0
                  rw [show win7_1.index tlast7 0 * win7_1.size 0 = 0 from by decide +kernel, show win7_1.xsize (grid7.coords tlast7) 0 = 1 from by decide +kernel]; omega
      | ⟨1, _⟩ => show win7_1.index tlast7 1 * win7_1.size 1 ≤ (i 1 : Nat) ∧ (i 1 : Nat) < win7_1.index tlast7 1 * win7_1.size 1 + win7_1.xsize (grid7.coords tlast7) 1
                  rw [show win7_1.index tlast7 1 * win7_1.size 1 = 0 from by decide +kernel, show win7_1.xsize (grid7.coords tlast7) 1 = 32 from by decide +kernel]; omega⟩

theorem final7_2 (c : Dev nD) : (dat7 (F := Ideal) V c).arrAt 2 cfg7.N = colSumSq (V c main_v122) :=
  (dat7 V c).arrAt_eq_of_cover 2 (colSumSq (V c main_v122)) (fun t hf => by
    obtain rfl : t = tlast7 := Fin.ext (show t.val = 19 by have := (flush7_2 t).mp hf; have := lt_of_lt_of_eq t.isLt N_7; omega)
    show (cfg7.win 2).cut (grid7.coords tlast7) ((dat7 V c).after 2 tlast7) = _
    rw [after7_2, result7_2]
    have hz' : (fun a => win7_2.index tlast7 a * main_v127_1.ty.shape.size a) = fun _ => 0 := funext fun a => by fin_cases a <;> decide +kernel
    exact (Memref.read_access_unit_zero (Elt Ideal) main_v127_1 hz' (fun a => by rw [congrFun hz' a]; simp) (colSumSq (V c main_v122))).symm) fun i =>
    ⟨tlast7, (flush7_2 tlast7).mpr rfl, by
      show i ∈ ((View.whole main_v127_1).slice (win7_2.rect tlast7)).set
      rw [View.set_slice_whole, Rect.mem_set_unit]
      intro a
      have h0 : (i 0 : Nat) < 1 := (i 0).isLt
      have h1 : (i 1 : Nat) < 32 := (i 1).isLt
      match a with
      | ⟨0, _⟩ => show win7_2.index tlast7 0 * win7_2.size 0 ≤ (i 0 : Nat) ∧ (i 0 : Nat) < win7_2.index tlast7 0 * win7_2.size 0 + win7_2.xsize (grid7.coords tlast7) 0
                  rw [show win7_2.index tlast7 0 * win7_2.size 0 = 0 from by decide +kernel, show win7_2.xsize (grid7.coords tlast7) 0 = 1 from by decide +kernel]; omega
      | ⟨1, _⟩ => show win7_2.index tlast7 1 * win7_2.size 1 ≤ (i 1 : Nat) ∧ (i 1 : Nat) < win7_2.index tlast7 1 * win7_2.size 1 + win7_2.xsize (grid7.coords tlast7) 1
                  rw [show win7_2.index tlast7 1 * win7_2.size 1 = 0 from by decide +kernel, show win7_2.xsize (grid7.coords tlast7) 1 = 32 from by decide +kernel]; omega⟩

end ideal

end Cert.KernelIdeal.Hand

end
-- ==== Proof.Val8.lean ====
import proofs.«419458_j79517024518684_2_alg».proof.Proof.Reg8
import proofs.«419458_j79517024518684_2_alg».proof.Proof.Spec
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx

variable (V : (c : Dev nD) → (b : Ref sig .tc) → Buf (Elt Ideal) ((c : Thread nD τ).loc b))

theorem offsets_zero_r8 : (![0, 0] : Fin 2 → Nat) = fun _ => 0 := by decide

-- A row broadcast over the tile reads, at any entry, the row at that entry's column.
theorem row_along_r8 (r : FVec Ideal S1x32 .f32) (j : S20000x32.Idx) :
    broadcastTo S20000x32 r broadcasts_S1x32_S20000x32 j = r (ix2 0 (j 1)) :=
  (congrArg _ (eq_ix2 j)).trans (broadcastTo_1b_ab_apply r _ (j 0) (j 1))

-- The body's map at an entry: centre, scale twice, shift, clamp at zero.
theorem pay8_apply (x0 : Vec Ideal S20000x32 .f32) (x1 x2 x3 x4 : Vec Ideal S1x32 .f32) (j : S20000x32.Idx) :
    k8_pay1 x0 x1 x2 x3 x4 j
      = max ((x0 j - x1 (ix2 0 (j 1))) * x2 (ix2 0 (j 1)) * x3 (ix2 0 (j 1)) + x4 (ix2 0 (j 1))) 0 := by
  unfold k8_pay1
  simp only [shapeCast_self, maximumf_apply, addf_apply, mulf_apply, subf_apply, row_along_r8]
  exact congrArg _ Ideal.ofBits_zero_f32

-- Block t of the output window is the t-th band of rows, all columns.
theorem index_maps8 : ∀ t : Fin cfg8.N, win8_5.index t (0 : Fin 2) = t.val ∧ win8_5.index t (1 : Fin 2) = 0 :=
  (by decide +kernel : ∀ t : Fin grid8.N, _)

-- The two tile windows cut the same band and a row window's block is its whole row, so the map of the blocks is the block of the map.
theorem flushed8_eq (c : Dev nD) (t : Fin cfg8.N) :
    (dat8 (F := Ideal) V c).flushed 5 t = ((cfg8.win 5).blk t).view.read (Elt Ideal) (bnApply (V c main_v122) (V c main_v129) (V c main_v138) (V c main_v139) (V c main_v140)) := by
  show (cfg8.win 5).cut (grid8.coords t) ((dat8 V c).after 5 t) = _
  rw [after8_5]
  unfold out8_5
  rw [View.canon_unit_zero offsets_zero_r8]
  simp only [View.ld_unit_zero (S := S20000x32) offsets_zero_r8, View.ld_unit_zero (S := S1x32) offsets_zero_r8]
  refine funext fun (j : S20000x32.Idx) => ?_
  have hq : (((cfg8.win 1).blk t).view.emb (ix2 0 (j 1)) : S1x32.Idx) = ix2 0 ((((cfg8.win 5).blk t).view.emb j : S400000x32.Idx) 1) :=
    funext fun a => by fin_cases a <;> rfl
  refine (pay8_apply _ _ _ _ _ j).trans ?_
  show _ = bnApply _ _ _ _ _ (((cfg8.win 5).blk t).view.emb j)
  unfold bnApply
  congr 5 <;> exact congrArg _ hq

-- The twenty bands of 20000 rows exhaust the 400000 rows.
theorem cover8 (i : S400000x32.Idx) : ∃ t : Fin cfg8.N, (cfg8.win 5).flush t = true ∧ i ∈ ((cfg8.win 5).blk t).view.set := by
  have hi0 : (i 0).val < 400000 := (i 0).isLt
  have hi1 : (i 1).val < 32 := (i 1).isLt
  obtain ⟨t, ht⟩ : ∃ t : Fin cfg8.N, t.val = (i 0).val / 20000 := ⟨⟨_, by rw [show cfg8.N = 20 from N_8]; omega⟩, rfl⟩
  obtain ⟨e0, e1⟩ := index_maps8 t
  refine ⟨t, flush8_5 t, ?_⟩
  show i ∈ ((View.whole main_v141).slice (win8_5.rect t)).set
  rw [View.set_slice_whole, Rect.mem_set_unit]
  intro a
  match a with
  | ⟨0, _⟩ => show win8_5.index t (0 : Fin 2) * 20000 ≤ (i 0).val ∧ (i 0).val < win8_5.index t (0 : Fin 2) * 20000 + 20000; rw [e0, ht]; omega
  | ⟨1, _⟩ => show win8_5.index t (1 : Fin 2) * 32 ≤ (i 1).val ∧ (i 1).val < win8_5.index t (1 : Fin 2) * 32 + 32; rw [e1]; omega

theorem final8 (c : Dev nD) : (dat8 (F := Ideal) V c).arrAt 5 cfg8.N
    = bnApply (V c main_v122) (V c main_v129) (V c main_v138) (V c main_v139) (V c main_v140) :=
  (dat8 V c).arrAt_eq_of_cover 5 _ (fun t _ => flushed8_eq V c t) cover8

end Cert.KernelIdeal.Hand

end
-- ==== Proof.Val9.lean ====
import proofs.«419458_j79517024518684_2_alg».proof.Proof.Reg9
import proofs.«419458_j79517024518684_2_alg».proof.Proof.Val0

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem index_maps9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = t.val ∧ win9_2.index t (1 : Fin 2) = 0 :=
  (by decide +kernel : ∀ t : Fin grid9.N, _)

theorem flushed9_eq (c : Dev nD) (t : Fin cfg9.N) :
    (dat9 (F := Ideal) V c).flushed 2 t = ((cfg9.win 2).blk t).view.read (Elt Ideal) (lin32 (V c main_v141) (V c main_arg10)) := by
  obtain ⟨a0, a1, b0, b1, e0, e1⟩ := index_maps9 t
  show (cfg9.win 2).cut (grid9.coords t) ((dat9 V c).after 2 t) = _
  rw [after9_2]
  unfold out9_2
  rw [View.canon_unit_zero offsets_zero2]
  simp only [View.ld_unit_zero (S := S20000x32) offsets_zero2, View.ld_unit_zero (S := S32x32) offsets_zero2]
  unfold k9_pay1
  rw [shapeCast_self]
  funext j
  refine (plain_matmul_apply (iblk9 V c 0 t) (iblk9 V c 1 t) j).trans
    (Finset.sum_congr rfl fun k _ => ?_ : _ = lin32 _ _ (((cfg9.win 2).blk t).view.emb j))
  refine congrArg₂ (fun a b : EReal => a * b) (congrArg (V c main_v141) ?_) (congrArg (V c main_arg10) ?_) <;> apply Shape.idx_ext₂
  · show win9_0.index t 0 * 20000 + 1 * (j 0).val = win9_2.index t 0 * 20000 + 1 * (j 0).val; omega
  · show win9_0.index t 1 * 32 + 1 * k.val = k.val; omega
  · show win9_1.index t 0 * 32 + 1 * k.val = k.val; omega
  · show win9_1.index t 1 * 32 + 1 * (j 1).val = win9_2.index t 1 * 32 + 1 * (j 1).val; omega

-- the twenty blocks of 20000 rows cover all 400000 rows
theorem cover9 (i : S400000x32.Idx) : ∃ t : Fin cfg9.N, (cfg9.win 2).flush t = true ∧ i ∈ ((cfg9.win 2).blk t).view.set := by
  have hi0 : (i 0).val < 400000 := (i 0).isLt
  have hi1 : (i 1).val < 32 := (i 1).isLt
  have ht : (i 0).val / 20000 < cfg9.N := by rw [show cfg9.N = 20 from N_9]; omega
  obtain ⟨-, -, -, -, e0, e1⟩ := index_maps9 ⟨_, ht⟩
  refine ⟨⟨_, ht⟩, flush9_2 _, ?_⟩
  show i ∈ ((View.whole main_v142).slice (win9_2.rect ⟨_, ht⟩)).set
  rw [View.set_slice_whole, Rect.mem_set_unit]
  intro a
  match a with
  | ⟨0, _⟩ => show win9_2.index _ (0 : Fin 2) * 20000 ≤ (i 0).val ∧ (i 0).val < win9_2.index _ (0 : Fin 2) * 20000 + 20000; rw [e0]; show (i 0).val / 20000 * 20000 ≤ _ ∧ _ < (i 0).val / 20000 * 20000 + 20000; omega
  | ⟨1, _⟩ => show win9_2.index _ (1 : Fin 2) * 32 ≤ (i 1).val ∧ (i 1).val < win9_2.index _ (1 : Fin 2) * 32 + 32; rw [e1]; omega

theorem final9 (c : Dev nD) : (dat9 (F := Ideal) V c).arrAt 2 cfg9.N = lin32 (V c main_v141) (V c main_arg10) :=
  (dat9 V c).arrAt_eq_of_cover 2 (lin32 (V c main_v141) (V c main_arg10)) (fun t _ => flushed9_eq V c t) cover9

end Cert.KernelIdeal.Hand

end
-- ==== Proof.Val10Tile.lean ====
import proofs.«419458_j79517024518684_2_alg».proof.Proof.Gen.KernelIdeal.Skeleton
import Idealize.ShloMosaic.PureOps.Ideal
import Idealize.ShloMosaic.PureOps.Ideal.Laws
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.ValueIdx

abbrev D10 : DotDims S8000x512 S8000x32 S512x32 := dot_S8000x512_S8000x32_S512x32_0_0_1_1_n_n

theorem lhs10 (g : Fin 512) (k : Fin 32) (r : Fin 8000) : D10.lhsIdx (ix2 g k) ((contrEquiv1 D10 8000 rfl rfl).symm r) = ix2 r g :=
  Shape.idx_ext₂ ((D10.lhsIdx_val_of_single rfl _ _).trans (contrEquiv1_symm_val D10 8000 rfl rfl r)) rfl
theorem rhs10 (g : Fin 512) (k : Fin 32) (r : Fin 8000) : D10.rhsIdx (ix2 g k) ((contrEquiv1 D10 8000 rfl rfl).symm r) = ix2 r k :=
  Shape.idx_ext₂ ((D10.rhsIdx_val_of_single rfl _ _).trans (contrEquiv1_symm_val D10 8000 rfl rfl r)) rfl

-- the column number compared with the row's graph id, read as a number: 1 where they agree, else 0
theorem onehot10_apply (x1 : Vec Ideal S8000x1 .i32) (r : Fin 8000) (g : Fin 512) :
    (truncf .bf16 (sitofp (F := Ideal) .f32 (extui 32 (cmpi .eq (iota .tc S8000x512 32 [1] iota_S8000x512_d1_w32)
        (broadcastTo S8000x512 (shapeCast S8000x1 x1 shapeCasts_S8000x1_S8000x1) broadcasts_S8000x1_S8000x512)) natLt_1_32)) bitsLt_bf16_f32
      : FVec Ideal S8000x512 .bf16) (ix2 r g)
      = if x1 (ix2 r 0) = BitVec.ofNat 32 g.val then 1 else 0 := by
  rw [truncf_apply, sitofp_apply, extui_apply, shapeCast_self]
  rw [show ∀ A B : IVec S8000x512 32, cmpi .eq A B (ix2 r g) = IntOp.cmpi .eq (A (ix2 r g)) (B (ix2 r g)) from fun _ _ => rfl,
    iota_single_apply, broadcastTo_apply x1 _ _ (ix2 r 0) fun a => by match a with | ⟨0, _⟩ => rfl | ⟨1, _⟩ => rfl]
  by_cases h : x1 (ix2 r 0) = BitVec.ofNat 32 g.val
  · rw [if_pos h, h]
    show ((((BitVec.ofBool (BitVec.ofNat 32 g.val == BitVec.ofNat 32 g.val)).setWidth 32).toInt : ℝ) : EReal) = 1
    rw [beq_self_eq_true, show ((BitVec.ofBool true).setWidth 32).toInt = 1 from by decide, Int.cast_one, EReal.coe_one]
  · rw [if_neg h]
    show ((((BitVec.ofBool (BitVec.ofNat 32 g.val == x1 (ix2 r 0))).setWidth 32).toInt : ℝ) : EReal) = 0
    rw [show (BitVec.ofNat 32 g.val == x1 (ix2 r 0)) = false from beq_false_of_ne (fun e => h e.symm),
      show ((BitVec.ofBool false).setWidth 32).toInt = 0 from by decide, Int.cast_zero, EReal.coe_zero]

def tileSum (x0 : Vec Ideal S8000x32 .f32) (x1 : Vec Ideal S8000x1 .i32) : Vec Ideal S512x32 .f32 :=
  fun j => ∑ r : Fin 8000, if x1 (ix2 r 0) = BitVec.ofNat 32 (j 0).val then x0 (ix2 r (j 1)) else 0

theorem k10_pay1_apply (j : S512x32.Idx) : k10_pay1 (F := Ideal) j = 0 := by
  unfold k10_pay1
  simp only [shapeCast_self]
  show Ideal.ofBits .f32 0x00000000#32 = 0
  exact Ideal.ofBits_zero_f32

-- multiplying by that 0/1 factor keeps, for column g, exactly the rows whose id is g
theorem k10_pay2_apply (x1 : Vec Ideal S8000x1 .i32) (x0 : Vec Ideal S8000x32 .f32) (xs : Vec Ideal S512x32 .f32) (j : S512x32.Idx) :
    k10_pay2 (F := Ideal) x1 x0 xs j = xs j + tileSum x0 x1 j := by
  obtain ⟨g, k, rfl⟩ : ∃ (g : Fin 512) (k : Fin 32), j = ix2 g k := ⟨j 0, j 1, eq_ix2 j⟩
  unfold k10_pay2 tileSum
  simp only [matmul, shapeCast_self (s := S512x32), shapeCast_self (s := S8000x32)]
  rw [addf_apply, Ideal.matmul_constant_zero_apply, ← Equiv.sum_comp (contrEquiv1 D10 8000 rfl rfl).symm]
  congr 1
  refine Finset.sum_congr rfl fun r _ => ?_
  rw [lhs10, rhs10, onehot10_apply, truncf_apply]
  show _ = if x1 (ix2 r 0) = BitVec.ofNat 32 g.val then x0 (ix2 r k) else 0
  by_cases h : x1 (ix2 r 0) = BitVec.ofNat 32 g.val
  · rw [if_pos h, if_pos h, one_mul]
  · rw [if_neg h, if_neg h, zero_mul]

end Cert.KernelIdeal.Hand

end
-- ==== Proof.Val10.lean ====
import proofs.«419458_j79517024518684_2_alg».proof.Proof.Reg10
import proofs.«419458_j79517024518684_2_alg».proof.Proof.Spec
import proofs.«419458_j79517024518684_2_alg».proof.Proof.Val10Tile
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem idx10 : ∀ t : Fin cfg10.N, win10_0.index t 0 = t.val ∧ win10_0.index t 1 = 0 ∧ win10_1.index t 0 = t.val ∧ win10_1.index t 1 = 0 :=
  (by decide +kernel : ∀ t : Fin grid10.N, _)

theorem iblk10_0_apply (c : Dev nD) (t : Fin 50) (ht : t.val < cfg10.N) (r : Fin 8000) (k : Fin 32) :
    (iblk10 V c 0 ⟨t.val, ht⟩ : Vec Ideal S8000x32 .f32) (ix2 r k)
      = (V c main_v158 : Vec Ideal S400000x32 .f32) (ix2 (finProdFinEquiv (t, r)) k) := by
  have e0 : win10_0.index ⟨t.val, ht⟩ 0 = t.val := (idx10 _).1
  have e1 := (idx10 ⟨t.val, ht⟩).2.1
  refine congrArg (V c main_v158) (Shape.idx_ext₂ ?_ ?_)
  · show win10_0.index ⟨t.val, ht⟩ 0 * 8000 + 1 * r.val = r.val + 8000 * t.val; omega
  · show win10_0.index ⟨t.val, ht⟩ 1 * 32 + 1 * k.val = k.val; omega

theorem iblk10_1_apply (c : Dev nD) (t : Fin 50) (ht : t.val < cfg10.N) (r : Fin 8000) :
    (iblk10 V c 1 ⟨t.val, ht⟩ : Vec Ideal S8000x1 .i32) (ix2 r 0)
      = (V c main_v159 : Vec Ideal S400000x1 .i32) (ix2 (finProdFinEquiv (t, r)) 0) := by
  have e0 : win10_1.index ⟨t.val, ht⟩ 0 = t.val := (idx10 _).2.2.1
  have e1 := (idx10 ⟨t.val, ht⟩).2.2.2
  refine congrArg (V c main_v159) (Shape.idx_ext₂ ?_ ?_)
  · show win10_1.index ⟨t.val, ht⟩ 0 * 8000 + 1 * r.val = r.val + 8000 * t.val; omega
  · show win10_1.index ⟨t.val, ht⟩ 1 * 1 + 1 * 0 = 0; omega

def tileAt (c : Dev nD) (j : S512x32.Idx) (n : ℕ) : EReal :=
  if h : n < cfg10.N then tileSum (iblk10 V c 0 ⟨n, h⟩) (iblk10 V c 1 ⟨n, h⟩) j else 0

-- by induction on the point: each point adds its own tile's sums
theorem acc10_eq (c : Dev nD) (j : S512x32.Idx) : ∀ (n : ℕ) (hn : n < cfg10.N),
    acc10 V c n hn j = ∑ t ∈ Finset.range (n + 1), tileAt V c j t
  | 0, hn => by
    rw [Finset.sum_range_one]
    unfold tileAt
    rw [dif_pos hn]
    show k10_pay2 (F := Ideal) _ _ _ j = _
    rw [k10_pay2_apply, k10_pay1_apply, zero_add]
  | n + 1, hn => by
    rw [Finset.sum_range_succ, ← acc10_eq c j n (Nat.lt_of_succ_lt hn)]
    show k10_pay2 (F := Ideal) _ _ (acc10 V c n _) j = _
    rw [k10_pay2_apply]
    unfold tileAt
    rw [dif_pos hn]

theorem poolSum_tiles (h : Vec Ideal S400000x32 .f32) (batch : Vec Ideal S400000x1 .i32) (j : S512x32.Idx) :
    poolSum h batch j = ∑ t : Fin 50, ∑ r : Fin 8000,
      if batch (ix2 (finProdFinEquiv (t, r)) 0) = BitVec.ofNat 32 (j 0).val then h (ix2 (finProdFinEquiv (t, r)) (j 1)) else 0 := by
  unfold poolSum
  rw [← Equiv.sum_comp (finProdFinEquiv (m := 50) (n := 8000))
    (fun i : Fin 400000 => if batch (ix2 i 0) = BitVec.ofNat 32 (j 0).val then h (ix2 i (j 1)) else 0), Fintype.sum_prod_type]

abbrev tLast10 : Fin cfg10.N := ⟨49, by rw [show cfg10.N = 50 from N_10]; decide⟩

theorem acc10_last (c : Dev nD) :
    acc10 V c tLast10.val tLast10.isLt = poolSum (V c main_v158) (V c main_v159) := by
  funext j
  rw [acc10_eq V c j 49 tLast10.isLt, Finset.sum_range, poolSum_tiles]
  refine Finset.sum_congr rfl fun t _ => ?_
  have ht : t.val < cfg10.N := by rw [show cfg10.N = 50 from N_10]; exact t.isLt
  unfold tileAt
  rw [dif_pos ht]
  unfold tileSum
  refine Finset.sum_congr rfl fun r _ => ?_
  rw [iblk10_0_apply V c t ht r (j 1), iblk10_1_apply V c t ht r]

theorem hz10' : (fun a => win10_2.index tLast10 a * main_v160.ty.shape.size a) = fun _ => 0 :=
  funext fun a => by fin_cases a <;> decide +kernel

theorem flushed10_eq (c : Dev nD) (t : Fin cfg10.N) (hf : (cfg10.win 2).flush t = true) :
    (dat10 V c).flushed 2 t = ((cfg10.win 2).blk t).view.read (Elt Ideal) (poolSum (V c main_v158) (V c main_v159)) := by
  have hN : cfg10.N = 50 := N_10
  have h49 : t.val = 49 := by have := (flush10_2 t).mp hf; have := t.isLt; omega
  obtain rfl : t = tLast10 := Fin.ext h49
  show (cfg10.win 2).cut (grid10.coords tLast10) ((dat10 V c).after 2 tLast10) = _
  rw [after10_2, acc10_last]
  exact (Memref.read_access_unit_zero (Elt Ideal) main_v160 hz10' (fun a => by rw [congrFun hz10' a]; simp) (poolSum (V c main_v158) (V c main_v159))).symm

theorem final10 (c : Dev nD) : (dat10 (F := Ideal) V c).arrAt 2 cfg10.N = poolSum (V c main_v158) (V c main_v159) :=
  (dat10 V c).arrAt_eq_of_cover 2 (poolSum (V c main_v158) (V c main_v159)) (flushed10_eq V c) fun i =>
    ⟨tLast10, (flush10_2 tLast10).mpr rfl, by
      show i ∈ ((View.whole main_v160).slice (win10_2.rect tLast10)).set
      rw [View.set_slice_whole]
      exact View.mem_set_unit_zero hz10' _ i⟩

end Cert.KernelIdeal.Hand

end
-- ==== Proof.Val11.lean ====
import proofs.«419458_j79517024518684_2_alg».proof.Proof.Reg11
import proofs.«419458_j79517024518684_2_alg».proof.Proof.KTerms
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- At the one grid point every window's block starts at offset zero on every axis. -/
theorem off11 : ∀ t : Fin cfg11.N,
    (∀ a, win11_0.index t a * main_v160.ty.shape.size a = 0)
    ∧ (∀ a, win11_1.index t a * main_arg14.ty.shape.size a = 0)
    ∧ (∀ a, win11_2.index t a * main_v161.ty.shape.size a = 0)
    ∧ (∀ a, win11_3.index t a * main_v162.ty.shape.size a = 0)
    ∧ (∀ a, win11_4.index t a * main_v163.ty.shape.size a = 0)
    ∧ (∀ a, win11_5.index t a * main_arg18.ty.shape.size a = 0)
    ∧ (∀ a, win11_6.index t a * main_v164.ty.shape.size a = 0)
    ∧ (∀ a, win11_7.index t a * S512x2.size a = 0) :=
  (by decide +kernel : ∀ t : Fin grid11.N, _)

-- a block at offset zero on every axis that spans its whole array reads the array
theorem read_blk11 (b : Ref sig .tc) {off : Fin b.ty.shape.rank → Nat} (h : ∀ a, off a = 0) {inb} (f : b.ty.Contents (Elt Ideal)) :
    ((Memref.whole b).access (Rect.unit off b.ty.shape.size inb) : View sig .tc _ _ _).read (Elt Ideal) f = f :=
  Memref.read_access_unit_zero _ b (funext h) inb f

theorem iblk11_0_eq (c : Dev nD) (t : Fin cfg11.N) : (iblk11 V c 0 t : Vec Ideal S512x32 .f32) = V c main_v160 :=
  read_blk11 main_v160 (off11 t).1 (V c main_v160)
theorem iblk11_1_eq (c : Dev nD) (t : Fin cfg11.N) : (iblk11 V c 1 t : Vec Ideal S32x32 .f32) = V c main_arg14 :=
  read_blk11 main_arg14 (off11 t).2.1 (V c main_arg14)
theorem iblk11_2_eq (c : Dev nD) (t : Fin cfg11.N) : (iblk11 V c 2 t : Vec Ideal S1x32 .f32) = V c main_v161 :=
  read_blk11 main_v161 (off11 t).2.2.1 (V c main_v161)
theorem iblk11_3_eq (c : Dev nD) (t : Fin cfg11.N) : (iblk11 V c 3 t : Vec Ideal S1x32 .f32) = V c main_v162 :=
  read_blk11 main_v162 (off11 t).2.2.2.1 (V c main_v162)
theorem iblk11_4_eq (c : Dev nD) (t : Fin cfg11.N) : (iblk11 V c 4 t : Vec Ideal S1x32 .f32) = V c main_v163 :=
  read_blk11 main_v163 (off11 t).2.2.2.2.1 (V c main_v163)
theorem iblk11_5_eq (c : Dev nD) (t : Fin cfg11.N) : (iblk11 V c 5 t : Vec Ideal S32x2 .f32) = V c main_arg18 :=
  read_blk11 main_arg18 (off11 t).2.2.2.2.2.1 (V c main_arg18)
theorem iblk11_6_eq (c : Dev nD) (t : Fin cfg11.N) : (iblk11 V c 6 t : Vec Ideal S1x2 .f32) = V c main_v164 :=
  read_blk11 main_v164 (off11 t).2.2.2.2.2.2.1 (V c main_v164)

theorem flushed11_eq (c : Dev nD) (t : Fin cfg11.N) :
    (dat11 (F := Ideal) V c).flushed 7 t = ((cfg11.win 7).blk t).view.read (Elt Ideal)
      (mlpOut (V c main_v160) (V c main_arg14) (V c main_v161) (V c main_v162) (V c main_v163) (V c main_arg18) (V c main_v164)) := by
  show (cfg11.win 7).cut (grid11.coords t) ((dat11 V c).after 7 t) = _
  rw [after11_7, iblk11_0_eq, iblk11_1_eq, iblk11_2_eq, iblk11_3_eq, iblk11_4_eq, iblk11_5_eq, iblk11_6_eq]
  exact (read_blk11 main_v165 (off11 t).2.2.2.2.2.2.2 _).symm

theorem mem_blk11 (t : Fin cfg11.N) (i : S512x2.Idx) :
    i ∈ ((cfg11.win 7).blk t).view.set ↔ ∀ a : Fin 2, win11_7.index t a * S512x2.size a ≤ (i a).val ∧ (i a).val < win11_7.index t a * S512x2.size a + S512x2.size a := by
  show i ∈ ((View.whole main_v165).slice (win11_7.rect t)).set ↔ _
  rw [View.set_slice_whole, Rect.mem_set_unit]
  exact Iff.rfl

theorem cover11 (i : S512x2.Idx) : ∃ t : Fin cfg11.N, (cfg11.win 7).flush t = true ∧ i ∈ ((cfg11.win 7).blk t).view.set :=
  ⟨⟨0, by rw [show cfg11.N = 1 from N_11]; omega⟩, flush11_7 _, (mem_blk11 _ i).mpr fun a => by
    rw [(off11 _).2.2.2.2.2.2.2 a, Nat.zero_add]; exact ⟨Nat.zero_le _, (i a).isLt⟩⟩

theorem final11 (c : Dev nD) : (dat11 (F := Ideal) V c).arrAt 7 cfg11.N
    = mlpOut (V c main_v160) (V c main_arg14) (V c main_v161) (V c main_v162) (V c main_v163) (V c main_arg18) (V c main_v164) :=
  (dat11 V c).arrAt_eq_of_cover 7 (mlpOut (V c main_v160) (V c main_arg14) (V c main_v161) (V c main_v162) (V c main_v163) (V c main_arg18) (V c main_v164))
    (fun t _ => flushed11_eq V c t) cover11

end Cert.KernelIdeal.Hand

end
-- ==== Proof.KVal.lean ====
import proofs.«419458_j79517024518684_2_alg».proof.Proof.KRun
import proofs.«419458_j79517024518684_2_alg».proof.Proof.KHost
import proofs.«419458_j79517024518684_2_alg».proof.Proof.KHostDinv
import proofs.«419458_j79517024518684_2_alg».proof.Proof.Val0
import proofs.«419458_j79517024518684_2_alg».proof.Proof.Val1
import proofs.«419458_j79517024518684_2_alg».proof.Proof.Val2
import proofs.«419458_j79517024518684_2_alg».proof.Proof.Val3
import proofs.«419458_j79517024518684_2_alg».proof.Proof.Val4
import proofs.«419458_j79517024518684_2_alg».proof.Proof.Val5
import proofs.«419458_j79517024518684_2_alg».proof.Proof.Val6
import proofs.«419458_j79517024518684_2_alg».proof.Proof.Val7
import proofs.«419458_j79517024518684_2_alg».proof.Proof.Val8
import proofs.«419458_j79517024518684_2_alg».proof.Proof.Val9
import proofs.«419458_j79517024518684_2_alg».proof.Proof.Val10
import proofs.«419458_j79517024518684_2_alg».proof.Proof.Val11
import Mathlib.Tactic.IntervalCases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window BodyObligation cellOf)

variable (m : (ℓ : Loc nD τ sig) → Buf (Elt Ideal) ℓ)

abbrev O : Outs (F := Ideal) := o23 m

abbrev A0 (c : Dev nD) : FVec Ideal S400000x7 .f32 := m ((c.tc : Thread nD τ).loc main_arg0)
abbrev A1 (c : Dev nD) : IVec S2x2500000 32 := m ((c.tc : Thread nD τ).loc main_arg1)
abbrev A2 (c : Dev nD) : FVec Ideal S2500000 .f32 := m ((c.tc : Thread nD τ).loc main_arg2)
abbrev A3 (c : Dev nD) : IVec S400000 32 := m ((c.tc : Thread nD τ).loc main_arg3)
abbrev A4 (c : Dev nD) : FVec Ideal S7x32 .f32 := m ((c.tc : Thread nD τ).loc main_arg4)
abbrev A5 (c : Dev nD) : FVec Ideal S32 .f32 := m ((c.tc : Thread nD τ).loc main_arg5)
abbrev A6 (c : Dev nD) : FVec Ideal S32x32 .f32 := m ((c.tc : Thread nD τ).loc main_arg6)
abbrev A7 (c : Dev nD) : FVec Ideal S32 .f32 := m ((c.tc : Thread nD τ).loc main_arg7)
abbrev A8 (c : Dev nD) : FVec Ideal S32x32 .f32 := m ((c.tc : Thread nD τ).loc main_arg8)
abbrev A9 (c : Dev nD) : FVec Ideal S32 .f32 := m ((c.tc : Thread nD τ).loc main_arg9)
abbrev A10 (c : Dev nD) : FVec Ideal S32x32 .f32 := m ((c.tc : Thread nD τ).loc main_arg10)
abbrev A11 (c : Dev nD) : FVec Ideal S32 .f32 := m ((c.tc : Thread nD τ).loc main_arg11)
abbrev A12 (c : Dev nD) : FVec Ideal S3x32 .f32 := m ((c.tc : Thread nD τ).loc main_arg12)
abbrev A13 (c : Dev nD) : FVec Ideal S3x32 .f32 := m ((c.tc : Thread nD τ).loc main_arg13)
abbrev A14 (c : Dev nD) : FVec Ideal S32x32 .f32 := m ((c.tc : Thread nD τ).loc main_arg14)
abbrev A15 (c : Dev nD) : FVec Ideal S32 .f32 := m ((c.tc : Thread nD τ).loc main_arg15)
abbrev A16 (c : Dev nD) : FVec Ideal S32 .f32 := m ((c.tc : Thread nD τ).loc main_arg16)
abbrev A17 (c : Dev nD) : FVec Ideal S32 .f32 := m ((c.tc : Thread nD τ).loc main_arg17)
abbrev A18 (c : Dev nD) : FVec Ideal S32x2 .f32 := m ((c.tc : Thread nD τ).loc main_arg18)
abbrev A19 (c : Dev nD) : FVec Ideal S2 .f32 := m ((c.tc : Thread nD τ).loc main_arg19)

theorem Ve1_O (c : Dev nD) (b : Ref sig .tc) : V5 m (O m) c b = Ve1 m c b :=
  congrFun (congrFun (agr5_o23_o4 m) c) _
theorem Ve2_O (c : Dev nD) (b : Ref sig .tc) : V7 m (O m) c b = Ve2 m c b :=
  congrFun (congrFun (agr7_o23_o6 m) c) _
theorem Ve3_O (c : Dev nD) (b : Ref sig .tc) : V8 m (O m) c b = Ve3 m c b :=
  congrFun (congrFun (agr8_o23_o8 m) c) _
theorem Ve4_O (c : Dev nD) (b : Ref sig .tc) : V10 m (O m) c b = Ve4 m c b :=
  congrFun (congrFun (agr10_o23_o9 m) c) _
theorem Ve5_O (c : Dev nD) (b : Ref sig .tc) : V12 m (O m) c b = Ve5 m c b :=
  congrFun (congrFun (agr12_o23_o11 m) c) _
theorem Ve6_O (c : Dev nD) (b : Ref sig .tc) : V13 m (O m) c b = Ve6 m c b :=
  congrFun (congrFun (agr13_o23_o13 m) c) _
theorem Ve7_O (c : Dev nD) (b : Ref sig .tc) : V15 m (O m) c b = Ve7 m c b :=
  congrFun (congrFun (agr15_o23_o14 m) c) _
theorem Ve8_O (c : Dev nD) (b : Ref sig .tc) : V17 m (O m) c b = Ve8 m c b :=
  congrFun (congrFun (agr17_o23_o16 m) c) _
theorem Ve9_O (c : Dev nD) (b : Ref sig .tc) : V18 m (O m) c b = Ve9 m c b :=
  congrFun (congrFun (agr18_o23_o18 m) c) _
theorem Ve10_O (c : Dev nD) (b : Ref sig .tc) : V20 m (O m) c b = Ve10 m c b :=
  congrFun (congrFun (agr20_o23_o19 m) c) _
theorem Ve11_O (c : Dev nD) (b : Ref sig .tc) : V22 m (O m) c b = Ve11 m c b :=
  congrFun (congrFun (agr22_o23_o21 m) c) _

theorem val_v34_4 (c : Dev nD) : V4 m (O m) c main_v34 = lin7 (A0 m c) (A4 m c) := by
  have e : V4 m (O m) c main_v34 = (dat0 (F := Ideal) (Ve0 m) c).arrAt 2 cfg0.N := by
    unfold V4; rw [Function.update_self]; exact X0_arr m c 2
  rw [e, final0 (Ve0 m) c]
  show lin7 (V3 m c main_arg0) (V3 m c main_arg4) = _
  rw [V3_of, V2_of, V1_of,
    V3_of, V2_of, V1_of] <;> first | rfl | decide

theorem val_arg1_0 (c : Dev nD) : V0 m c main_arg1 = A1 m c := rfl

def edgeSrc (c : Dev nD) : IVec S2900000 32 := kV5 (A1 m c)

theorem val_v5_3 (c : Dev nD) : V3 m c main_v5 = edgeSrc m c := by rw [hs0_v5 m c, val_arg1_0 m c]; rfl

def edgeDst (c : Dev nD) : IVec S2900000 32 := kV6 (A1 m c)

theorem val_v6_3 (c : Dev nD) : V3 m c main_v6 = edgeDst m c := by rw [hs0_v6 m c, val_arg1_0 m c]; rfl

theorem val_arg2_0 (c : Dev nD) : V0 m c main_arg2 = A2 m c := rfl

def edgeW (c : Dev nD) : FVec Ideal S2900000 .f32 := kV8 (A2 m c)

theorem val_v8_3 (c : Dev nD) : V3 m c main_v8 = edgeW m c := by rw [hs0_v8 m c, val_arg2_0 m c]; rfl

def degInv (c : Dev nD) : FVec Ideal S400000 .f32 := kDinv (edgeDst m c) (edgeW m c)

theorem val_v17_3 (c : Dev nD) : V3 m c main_v17 = degInv m c := by rw [hs0_v17 m c, val_v6_3 m c, val_v8_3 m c]; rfl

def edgeNorm (c : Dev nD) : FVec Ideal S2900000 .f32 := kV33 (edgeSrc m c) (edgeDst m c) (edgeW m c) (degInv m c)

theorem val_v33_3 (c : Dev nD) : V3 m c main_v33 = edgeNorm m c := by rw [hs0_v33 m c, val_v5_3 m c, val_v6_3 m c, val_v8_3 m c, val_v17_3 m c]; rfl

def lay0 (c : Dev nD) : FVec Ideal S400000x32 .f32 := kAgg (lin7 (A0 m c) (A4 m c)) (edgeSrc m c) (edgeDst m c) (edgeNorm m c) (A5 m c)

theorem val_v50_5 (c : Dev nD) : V5 m (O m) c main_v50 = lay0 m c := by
  rw [hs1_v50 m (O m) c, val_v34_4 m c,
    V4_of, val_v5_3 m c,
    V4_of, val_v6_3 m c,
    V4_of, val_v33_3 m c,
    V4_of, V3_of, V2_of, V1_of] <;> first | rfl | decide

theorem val_v55_0_6 (c : Dev nD) : V6 m (O m) c main_v55_0 = colSum (lay0 m c) := by
  have e : V6 m (O m) c main_v55_0 = (dat1 (F := Ideal) (Ve1 m) c).arrAt 1 cfg1.N := by
    unfold V6; rw [Function.update_of_ne (show (Proc.devRef .tc main_v55_0 : DevRef τ sig) ≠ Proc.devRef .tc main_v55_1 from StableHlo.devRef_ne_of_ne (by decide)), Function.update_self]; exact X1_arr m c 1
  rw [e, final1_1 (Ve1 m) c, ← Ve1_O m c main_v50, val_v50_5 m c]

theorem val_v55_1_6 (c : Dev nD) : V6 m (O m) c main_v55_1 = colSumSq (lay0 m c) := by
  have e : V6 m (O m) c main_v55_1 = (dat1 (F := Ideal) (Ve1 m) c).arrAt 2 cfg1.N := by
    unfold V6; rw [Function.update_self]; exact X1_arr m c 2
  rw [e, final1_2 (Ve1 m) c, ← Ve1_O m c main_v50, val_v50_5 m c]

def nrm1 (c : Dev nD) : FVec Ideal S400000x32 .f32 := bnApply (lay0 m c) (kMean (colSum (lay0 m c))) (kInvstd (colSum (lay0 m c)) (colSumSq (lay0 m c))) (kRow1x32 (kRow0 (A12 m c))) (kRow1x32 (kRow0 (A13 m c)))

theorem val_v69_8 (c : Dev nD) : V8 m (O m) c main_v69 = nrm1 m c := by
  have e : V8 m (O m) c main_v69 = (dat2 (F := Ideal) (Ve2 m) c).arrAt 5 cfg2.N := by
    unfold V8; rw [Function.update_self]; exact X2_arr m c 5
  rw [e, final2 (Ve2 m) c, ← Ve2_O m c main_v50, ← Ve2_O m c main_v57, ← Ve2_O m c main_v66, ← Ve2_O m c main_v67, ← Ve2_O m c main_v68, hs2_v57 m (O m) c, val_v55_0_6 m c, hs2_v66 m (O m) c, val_v55_0_6 m c, val_v55_1_6 m c,
    V7_of, V6_of, val_v50_5 m c,
    hs2_v67 m (O m) c, V6_of, hs1_v52 m (O m) c, V4_of, V3_of, V2_of, V1_of,
    hs2_v68 m (O m) c, V6_of, hs1_v54 m (O m) c, V4_of, V3_of, V2_of, V1_of] <;> first | rfl | decide

theorem val_v70_9 (c : Dev nD) : V9 m (O m) c main_v70 = lin32 (nrm1 m c) (A6 m c) := by
  have e : V9 m (O m) c main_v70 = (dat3 (F := Ideal) (Ve3 m) c).arrAt 2 cfg3.N := by
    unfold V9; rw [Function.update_self]; exact X3_arr m c 2
  rw [e, final3 (Ve3 m) c, ← Ve3_O m c main_v69, ← Ve3_O m c main_arg6, val_v69_8 m c,
    V8_of, V7_of, V6_of, V5_of, V4_of, V3_of, V2_of, V1_of] <;> first | rfl | decide

def lay1 (c : Dev nD) : FVec Ideal S400000x32 .f32 := kAgg (lin32 (nrm1 m c) (A6 m c)) (edgeSrc m c) (edgeDst m c) (edgeNorm m c) (A7 m c)

theorem val_v86_10 (c : Dev nD) : V10 m (O m) c main_v86 = lay1 m c := by
  rw [hs4_v86 m (O m) c, val_v70_9 m c,
    V9_of, V8_of, V7_of, V6_of, V5_of, V4_of, val_v5_3 m c,
    V9_of, V8_of, V7_of, V6_of, V5_of, V4_of, val_v6_3 m c,
    V9_of, V8_of, V7_of, V6_of, V5_of, V4_of, val_v33_3 m c,
    V9_of, V8_of, V7_of, V6_of, V5_of, V4_of, V3_of, V2_of, V1_of] <;> first | rfl | decide

theorem val_v91_0_11 (c : Dev nD) : V11 m (O m) c main_v91_0 = colSum (lay1 m c) := by
  have e : V11 m (O m) c main_v91_0 = (dat4 (F := Ideal) (Ve4 m) c).arrAt 1 cfg4.N := by
    unfold V11; rw [Function.update_of_ne (show (Proc.devRef .tc main_v91_0 : DevRef τ sig) ≠ Proc.devRef .tc main_v91_1 from StableHlo.devRef_ne_of_ne (by decide)), Function.update_self]; exact X4_arr m c 1
  rw [e, final4_1 (Ve4 m) c, ← Ve4_O m c main_v86, val_v86_10 m c]

theorem val_v91_1_11 (c : Dev nD) : V11 m (O m) c main_v91_1 = colSumSq (lay1 m c) := by
  have e : V11 m (O m) c main_v91_1 = (dat4 (F := Ideal) (Ve4 m) c).arrAt 2 cfg4.N := by
    unfold V11; rw [Function.update_self]; exact X4_arr m c 2
  rw [e, final4_2 (Ve4 m) c, ← Ve4_O m c main_v86, val_v86_10 m c]

def nrm2 (c : Dev nD) : FVec Ideal S400000x32 .f32 := bnApply (lay1 m c) (kMean (colSum (lay1 m c))) (kInvstd (colSum (lay1 m c)) (colSumSq (lay1 m c))) (kRow1x32 (kRow1 (A12 m c))) (kRow1x32 (kRow1 (A13 m c)))

theorem val_v105_13 (c : Dev nD) : V13 m (O m) c main_v105 = nrm2 m c := by
  have e : V13 m (O m) c main_v105 = (dat5 (F := Ideal) (Ve5 m) c).arrAt 5 cfg5.N := by
    unfold V13; rw [Function.update_self]; exact X5_arr m c 5
  rw [e, final5 (Ve5 m) c, ← Ve5_O m c main_v86, ← Ve5_O m c main_v93, ← Ve5_O m c main_v102, ← Ve5_O m c main_v103, ← Ve5_O m c main_v104, hs5_v93 m (O m) c, val_v91_0_11 m c, hs5_v102 m (O m) c, val_v91_0_11 m c, val_v91_1_11 m c,
    V12_of, V11_of, val_v86_10 m c,
    hs5_v103 m (O m) c, V11_of, hs4_v88 m (O m) c, V9_of, V8_of, V7_of, V6_of, V5_of, V4_of, V3_of, V2_of, V1_of,
    hs5_v104 m (O m) c, V11_of, hs4_v90 m (O m) c, V9_of, V8_of, V7_of, V6_of, V5_of, V4_of, V3_of, V2_of, V1_of] <;> first | rfl | decide

theorem val_v106_14 (c : Dev nD) : V14 m (O m) c main_v106 = lin32 (nrm2 m c) (A8 m c) := by
  have e : V14 m (O m) c main_v106 = (dat6 (F := Ideal) (Ve6 m) c).arrAt 2 cfg6.N := by
    unfold V14; rw [Function.update_self]; exact X6_arr m c 2
  rw [e, final6 (Ve6 m) c, ← Ve6_O m c main_v105, ← Ve6_O m c main_arg8, val_v105_13 m c,
    V13_of, V12_of, V11_of, V10_of, V9_of, V8_of, V7_of, V6_of, V5_of, V4_of, V3_of, V2_of, V1_of] <;> first | rfl | decide

def lay2 (c : Dev nD) : FVec Ideal S400000x32 .f32 := kAgg (lin32 (nrm2 m c) (A8 m c)) (edgeSrc m c) (edgeDst m c) (edgeNorm m c) (A9 m c)

theorem val_v122_15 (c : Dev nD) : V15 m (O m) c main_v122 = lay2 m c := by
  rw [hs7_v122 m (O m) c, val_v106_14 m c,
    V14_of, V13_of, V12_of, V11_of, V10_of, V9_of, V8_of, V7_of, V6_of, V5_of, V4_of, val_v5_3 m c,
    V14_of, V13_of, V12_of, V11_of, V10_of, V9_of, V8_of, V7_of, V6_of, V5_of, V4_of, val_v6_3 m c,
    V14_of, V13_of, V12_of, V11_of, V10_of, V9_of, V8_of, V7_of, V6_of, V5_of, V4_of, val_v33_3 m c,
    V14_of, V13_of, V12_of, V11_of, V10_of, V9_of, V8_of, V7_of, V6_of, V5_of, V4_of, V3_of, V2_of, V1_of] <;> first | rfl | decide

theorem val_v127_0_16 (c : Dev nD) : V16 m (O m) c main_v127_0 = colSum (lay2 m c) := by
  have e : V16 m (O m) c main_v127_0 = (dat7 (F := Ideal) (Ve7 m) c).arrAt 1 cfg7.N := by
    unfold V16; rw [Function.update_of_ne (show (Proc.devRef .tc main_v127_0 : DevRef τ sig) ≠ Proc.devRef .tc main_v127_1 from StableHlo.devRef_ne_of_ne (by decide)), Function.update_self]; exact X7_arr m c 1
  rw [e, final7_1 (Ve7 m) c, ← Ve7_O m c main_v122, val_v122_15 m c]

theorem val_v127_1_16 (c : Dev nD) : V16 m (O m) c main_v127_1 = colSumSq (lay2 m c) := by
  have e : V16 m (O m) c main_v127_1 = (dat7 (F := Ideal) (Ve7 m) c).arrAt 2 cfg7.N := by
    unfold V16; rw [Function.update_self]; exact X7_arr m c 2
  rw [e, final7_2 (Ve7 m) c, ← Ve7_O m c main_v122, val_v122_15 m c]

def nrm3 (c : Dev nD) : FVec Ideal S400000x32 .f32 := bnApply (lay2 m c) (kMean (colSum (lay2 m c))) (kInvstd (colSum (lay2 m c)) (colSumSq (lay2 m c))) (kRow1x32 (kRow2 (A12 m c))) (kRow1x32 (kRow2 (A13 m c)))

theorem val_v141_18 (c : Dev nD) : V18 m (O m) c main_v141 = nrm3 m c := by
  have e : V18 m (O m) c main_v141 = (dat8 (F := Ideal) (Ve8 m) c).arrAt 5 cfg8.N := by
    unfold V18; rw [Function.update_self]; exact X8_arr m c 5
  rw [e, final8 (Ve8 m) c, ← Ve8_O m c main_v122, ← Ve8_O m c main_v129, ← Ve8_O m c main_v138, ← Ve8_O m c main_v139, ← Ve8_O m c main_v140, hs8_v129 m (O m) c, val_v127_0_16 m c, hs8_v138 m (O m) c, val_v127_0_16 m c, val_v127_1_16 m c,
    V17_of, V16_of, val_v122_15 m c,
    hs8_v139 m (O m) c, V16_of, hs7_v124 m (O m) c, V14_of, V13_of, V12_of, V11_of, V10_of, V9_of, V8_of, V7_of, V6_of, V5_of, V4_of, V3_of, V2_of, V1_of,
    hs8_v140 m (O m) c, V16_of, hs7_v126 m (O m) c, V14_of, V13_of, V12_of, V11_of, V10_of, V9_of, V8_of, V7_of, V6_of, V5_of, V4_of, V3_of, V2_of, V1_of] <;> first | rfl | decide

theorem val_v142_19 (c : Dev nD) : V19 m (O m) c main_v142 = lin32 (nrm3 m c) (A10 m c) := by
  have e : V19 m (O m) c main_v142 = (dat9 (F := Ideal) (Ve9 m) c).arrAt 2 cfg9.N := by
    unfold V19; rw [Function.update_self]; exact X9_arr m c 2
  rw [e, final9 (Ve9 m) c, ← Ve9_O m c main_v141, ← Ve9_O m c main_arg10, val_v141_18 m c,
    V18_of, V17_of, V16_of, V15_of, V14_of, V13_of, V12_of, V11_of, V10_of, V9_of, V8_of, V7_of, V6_of, V5_of, V4_of, V3_of, V2_of, V1_of] <;> first | rfl | decide

def lay3 (c : Dev nD) : FVec Ideal S400000x32 .f32 := kAgg (lin32 (nrm3 m c) (A10 m c)) (edgeSrc m c) (edgeDst m c) (edgeNorm m c) (A11 m c)

theorem val_v158_20 (c : Dev nD) : V20 m (O m) c main_v158 = lay3 m c := by
  rw [hs10_v158 m (O m) c, val_v142_19 m c,
    V19_of, V18_of, V17_of, V16_of, V15_of, V14_of, V13_of, V12_of, V11_of, V10_of, V9_of, V8_of, V7_of, V6_of, V5_of, V4_of, val_v5_3 m c,
    V19_of, V18_of, V17_of, V16_of, V15_of, V14_of, V13_of, V12_of, V11_of, V10_of, V9_of, V8_of, V7_of, V6_of, V5_of, V4_of, val_v6_3 m c,
    V19_of, V18_of, V17_of, V16_of, V15_of, V14_of, V13_of, V12_of, V11_of, V10_of, V9_of, V8_of, V7_of, V6_of, V5_of, V4_of, val_v33_3 m c,
    V19_of, V18_of, V17_of, V16_of, V15_of, V14_of, V13_of, V12_of, V11_of, V10_of, V9_of, V8_of, V7_of, V6_of, V5_of, V4_of, V3_of, V2_of, V1_of] <;> first | rfl | decide

theorem val_v160_21 (c : Dev nD) : V21 m (O m) c main_v160 = poolSum (lay3 m c) (kBatchCol (A3 m c)) := by
  have e : V21 m (O m) c main_v160 = (dat10 (F := Ideal) (Ve10 m) c).arrAt 2 cfg10.N := by
    unfold V21; rw [Function.update_self]; exact X10_arr m c 2
  rw [e, final10 (Ve10 m) c, ← Ve10_O m c main_v158, ← Ve10_O m c main_v159, val_v158_20 m c,
    hs10_v159 m (O m) c, V19_of, V18_of, V17_of, V16_of, V15_of, V14_of, V13_of, V12_of, V11_of, V10_of, V9_of, V8_of, V7_of, V6_of, V5_of, V4_of, V3_of, V2_of, V1_of] <;> first | rfl | decide

theorem val_v165_23 (c : Dev nD) : V23 m (O m) c main_v165 = mlpOut (poolSum (lay3 m c) (kBatchCol (A3 m c))) (A14 m c) (kRow1x32 (A15 m c)) (kRow1x32 (A16 m c)) (kRow1x32 (A17 m c)) (A18 m c) (kRow1x2 (A19 m c)) := by
  have e : V23 m (O m) c main_v165 = (dat11 (F := Ideal) (Ve11 m) c).arrAt 7 cfg11.N := by
    unfold V23; rw [Function.update_self]; exact X11_arr m c 7
  rw [e, final11 (Ve11 m) c, ← Ve11_O m c main_v160, ← Ve11_O m c main_arg14, ← Ve11_O m c main_v161, ← Ve11_O m c main_v162, ← Ve11_O m c main_v163, ← Ve11_O m c main_arg18, ← Ve11_O m c main_v164,
    V22_of, val_v160_21 m c,
    V22_of, V21_of, V20_of, V19_of, V18_of, V17_of, V16_of, V15_of, V14_of, V13_of, V12_of, V11_of, V10_of, V9_of, V8_of, V7_of, V6_of, V5_of, V4_of, V3_of, V2_of, V1_of,
    hs11_v161 m (O m) c, V21_of, V20_of, V19_of, V18_of, V17_of, V16_of, V15_of, V14_of, V13_of, V12_of, V11_of, V10_of, V9_of, V8_of, V7_of, V6_of, V5_of, V4_of, V3_of, V2_of, V1_of,
    hs11_v162 m (O m) c, V21_of, V20_of, V19_of, V18_of, V17_of, V16_of, V15_of, V14_of, V13_of, V12_of, V11_of, V10_of, V9_of, V8_of, V7_of, V6_of, V5_of, V4_of, V3_of, V2_of, V1_of,
    hs11_v163 m (O m) c, V21_of, V20_of, V19_of, V18_of, V17_of, V16_of, V15_of, V14_of, V13_of, V12_of, V11_of, V10_of, V9_of, V8_of, V7_of, V6_of, V5_of, V4_of, V3_of, V2_of, V1_of,
    V22_of, V21_of, V20_of, V19_of, V18_of, V17_of, V16_of, V15_of, V14_of, V13_of, V12_of, V11_of, V10_of, V9_of, V8_of, V7_of, V6_of, V5_of, V4_of, V3_of, V2_of, V1_of,
    hs11_v164 m (O m) c, V21_of, V20_of, V19_of, V18_of, V17_of, V16_of, V15_of, V14_of, V13_of, V12_of, V11_of, V10_of, V9_of, V8_of, V7_of, V6_of, V5_of, V4_of, V3_of, V2_of, V1_of] <;> first | rfl | decide

set_option maxRecDepth 400000 in
theorem kval (c : Dev nD) : V23 m (O m) c (Proc.devRef .tc main_v165) =
    kernOut (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c) (A19 m c) :=
  (val_v165_23 m c).trans rfl

end Cert.KernelIdeal.Hand

end
-- ==== Proof.KRunVal.lean ====
import proofs.«419458_j79517024518684_2_alg».proof.Proof.KRun
import proofs.«419458_j79517024518684_2_alg».proof.Proof.KRegionsVal

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ)

-- every argument array holds in m' what it holds in m
def argsKept (m' : (ℓ : Loc nD τ sig) → Buf (Elt F) ℓ) (c : Dev nD) : Prop :=
  m' ((c.tc : Thread nD τ).loc main_arg0) = m ((c.tc : Thread nD τ).loc main_arg0)
    ∧ m' ((c.tc : Thread nD τ).loc main_arg1) = m ((c.tc : Thread nD τ).loc main_arg1)
    ∧ m' ((c.tc : Thread nD τ).loc main_arg2) = m ((c.tc : Thread nD τ).loc main_arg2)
    ∧ m' ((c.tc : Thread nD τ).loc main_arg3) = m ((c.tc : Thread nD τ).loc main_arg3)
    ∧ m' ((c.tc : Thread nD τ).loc main_arg4) = m ((c.tc : Thread nD τ).loc main_arg4)
    ∧ m' ((c.tc : Thread nD τ).loc main_arg5) = m ((c.tc : Thread nD τ).loc main_arg5)
    ∧ m' ((c.tc : Thread nD τ).loc main_arg6) = m ((c.tc : Thread nD τ).loc main_arg6)
    ∧ m' ((c.tc : Thread nD τ).loc main_arg7) = m ((c.tc : Thread nD τ).loc main_arg7)
    ∧ m' ((c.tc : Thread nD τ).loc main_arg8) = m ((c.tc : Thread nD τ).loc main_arg8)
    ∧ m' ((c.tc : Thread nD τ).loc main_arg9) = m ((c.tc : Thread nD τ).loc main_arg9)
    ∧ m' ((c.tc : Thread nD τ).loc main_arg10) = m ((c.tc : Thread nD τ).loc main_arg10)
    ∧ m' ((c.tc : Thread nD τ).loc main_arg11) = m ((c.tc : Thread nD τ).loc main_arg11)
    ∧ m' ((c.tc : Thread nD τ).loc main_arg12) = m ((c.tc : Thread nD τ).loc main_arg12)
    ∧ m' ((c.tc : Thread nD τ).loc main_arg13) = m ((c.tc : Thread nD τ).loc main_arg13)
    ∧ m' ((c.tc : Thread nD τ).loc main_arg14) = m ((c.tc : Thread nD τ).loc main_arg14)
    ∧ m' ((c.tc : Thread nD τ).loc main_arg15) = m ((c.tc : Thread nD τ).loc main_arg15)
    ∧ m' ((c.tc : Thread nD τ).loc main_arg16) = m ((c.tc : Thread nD τ).loc main_arg16)
    ∧ m' ((c.tc : Thread nD τ).loc main_arg17) = m ((c.tc : Thread nD τ).loc main_arg17)
    ∧ m' ((c.tc : Thread nD τ).loc main_arg18) = m ((c.tc : Thread nD τ).loc main_arg18)
    ∧ m' ((c.tc : Thread nD τ).loc main_arg19) = m ((c.tc : Thread nD τ).loc main_arg19)

set_option backward.isDefEq.respectTransparency.types false in
theorem frame_val (ρ : Dev nD → PrngReg) :
    θ_run defs (onTc (τ := τ) (main (F := F))) ⟨m, fun _ => 0, ρ⟩ (fun r => ∀ c : Dev nD,
      r.2.mem ((c.tc : Thread nD τ).loc main_v165) = V23 m (o23 m) c (Proc.devRef .tc main_v165) ∧ argsKept m r.2.mem c) :=
  frame_cond_val (F := F) m (EP := emb₁) (ι := ()) (𝒱₀ := 𝒱₀) (L := L) (lv := lv) (hL := fun _ _ => rfl) (ρ := ρ) (outs := o23 m)
    (pdats := pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE12 := fun c => by iintro ⟨-, H⟩; iexact H)
    (R0 := reg0 m) (hpre0 := fun c => .rfl)
    (hpost0 := fun c => by rw [congrFun (agr4_o23_o4 m) c]; exact .rfl)
    (R1 := reg1 m) (hpre1 := fun c => by rw [congrFun (agr5_o23_o4 m) c]; exact .rfl)
    (hpost1 := fun c => by rw [congrFun (agr6_o23_o6 m) c]; exact .rfl)
    (R2 := reg2 m) (hpre2 := fun c => by rw [congrFun (agr7_o23_o6 m) c]; exact .rfl)
    (hpost2 := fun c => by rw [congrFun (agr8_o23_o8 m) c]; exact .rfl)
    (R3 := reg3 m) (hpre3 := fun c => by rw [congrFun (agr8_o23_o8 m) c]; exact .rfl)
    (hpost3 := fun c => by rw [congrFun (agr9_o23_o9 m) c]; exact .rfl)
    (R4 := reg4 m) (hpre4 := fun c => by rw [congrFun (agr10_o23_o9 m) c]; exact .rfl)
    (hpost4 := fun c => by rw [congrFun (agr11_o23_o11 m) c]; exact .rfl)
    (R5 := reg5 m) (hpre5 := fun c => by rw [congrFun (agr12_o23_o11 m) c]; exact .rfl)
    (hpost5 := fun c => by rw [congrFun (agr13_o23_o13 m) c]; exact .rfl)
    (R6 := reg6 m) (hpre6 := fun c => by rw [congrFun (agr13_o23_o13 m) c]; exact .rfl)
    (hpost6 := fun c => by rw [congrFun (agr14_o23_o14 m) c]; exact .rfl)
    (R7 := reg7 m) (hpre7 := fun c => by rw [congrFun (agr15_o23_o14 m) c]; exact .rfl)
    (hpost7 := fun c => by rw [congrFun (agr16_o23_o16 m) c]; exact .rfl)
    (R8 := reg8 m) (hpre8 := fun c => by rw [congrFun (agr17_o23_o16 m) c]; exact .rfl)
    (hpost8 := fun c => by rw [congrFun (agr18_o23_o18 m) c]; exact .rfl)
    (R9 := reg9 m) (hpre9 := fun c => by rw [congrFun (agr18_o23_o18 m) c]; exact .rfl)
    (hpost9 := fun c => by rw [congrFun (agr19_o23_o19 m) c]; exact .rfl)
    (R10 := reg10 m) (hpre10 := fun c => by rw [congrFun (agr20_o23_o19 m) c]; exact .rfl)
    (hpost10 := fun c => by rw [congrFun (agr21_o23_o21 m) c]; exact .rfl)
    (R11 := reg11 m) (hpre11 := fun c => by rw [congrFun (agr22_o23_o21 m) c]; exact .rfl)
    (hpost11 := fun c => .rfl)

end Cert.KernelIdeal.Hand

end
-- ==== Proof.KFinal.lean ====
import proofs.«419458_j79517024518684_2_alg».proof.Proof.KVal
import proofs.«419458_j79517024518684_2_alg».proof.Proof.KRunVal

noncomputable section

namespace Cert.KernelIdeal.Hand

open Cert.KernelIdeal Cert.KernelIdeal.Gen
open Idealize.ShloMosaic Idealize.ShloMosaic.TcCoe
open Idealize.SL Idealize.SL.Sem

theorem run_val (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v165) = kernOut (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c) (A19 m c) ∧ argsKept m r.2.mem c) :=
  (θ_run _ _ _).mono (fun r h c => ⟨(h c).1.trans (kval m c), (h c).2⟩) (frame_val (F := Ideal) m ρ)

end Cert.KernelIdeal.Hand

end
-- ==== Proof.RefOps.lean ====
import proofs.«419458_j79517024518684_2_alg».proof.ReferenceIdeal
import Idealize.ShloMosaic.Lib.StableHlo.Run

set_option maxRecDepth 8192

noncomputable section

namespace Cert.ReferenceIdeal.Hand

open Cert.ReferenceIdeal Idealize.ShloMosaic Idealize.ShloMosaic.TcCoe Idealize.SL.Sem Idealize.ShloMosaic.StableHlo

variable [Cert.ReferenceIdeal.Facts]
open Cert.ReferenceIdeal.Facts₀ Cert.ReferenceIdeal.Facts

variable {F : FTy → Type} [FloatOps F]

-- The reference's host operations in order, by stage; a reference outside a stage's written list keeps its contents through it.
def oIdx : List (HloOp τ sig (Elt F)) :=
  [ unary main_arg1 main_v0 (extractStridedSlice S1x2500000 ![0, 0] · slices_S2x2500000_S1x2500000_0_0),
    reshape main_v0 main_v1 rfl shapeCasts_S1x2500000_S2500000,
    unary main_arg1 main_v2 (extractStridedSlice S1x2500000 ![1, 0] · slices_S2x2500000_S1x2500000_1_0),
    reshape main_v2 main_v3 rfl shapeCasts_S1x2500000_S2500000,
    nullary main_v4 (iotaInDim S400000 32 0),
    binary main_v1 main_v4 main_v5 (fun a b => concatenate S2900000 0 [⟨S2500000, a⟩, ⟨S400000, b⟩] concatenates_S2500000_S400000_S2900000_d0),
    binary main_v3 main_v4 main_v6 (fun a b => concatenate S2900000 0 [⟨S2500000, a⟩, ⟨S400000, b⟩] concatenates_S2500000_S400000_S2900000_d0),
    nullary main_cst (constant S_ .f32 0x3F800000#32),
    unary main_cst main_v7 (broadcastInDim S400000 ![] bcast_S_S400000),
    binary main_arg2 main_v7 main_v8 (fun a b => concatenate S2900000 0 [⟨S2500000, a⟩, ⟨S400000, b⟩] concatenates_S2500000_S400000_S2900000_d0) ]

abbrev oIdx_W : List (Ref sig .tc) := [main_v0, main_v1, main_v2, main_v3, main_v4, main_v5, main_v6, main_cst, main_v7, main_v8]

theorem oIdx_writes : (oIdx : List (HloOp τ sig (Elt F))).Forall fun op => op.writes ⊆ (oIdx_W.map (Proc.devRef (τ := τ) .tc)).toFinset := by
  unfold oIdx
  simp only [List.Forall, nullary_writes, unary_writes, binary_writes, ternary_writes, quaternary_writes, reshape_writes, Finset.singleton_subset_iff, List.mem_toFinset]
  repeat' refine And.intro ?_ ?_
  all_goals exact List.mem_map_of_mem (by decide)

theorem oIdx_keep (W : Valuation τ sig (Elt F)) (r : Ref sig .tc) (h : r ∉ oIdx_W) :
    after oIdx W (no_index (Proc.devRef .tc r)) = W (Proc.devRef .tc r) :=
  after_of_writes_sub oIdx W oIdx_writes h

def oDinv : List (HloOp τ sig (Elt F)) :=
  [ nullary main_cst_0 (constant S_ .f32 0x00000000#32),
    unary main_cst_0 main_v9 (broadcastInDim S400000 ![] bcast_S_S400000),
    unary main_v6 main_v10 (broadcastInDim S2900000x1 ![0] bcast_S2900000_S2900000x1_0),
    ternary main_v9 main_v10 main_v8 main_v11 (fun x i u => Host.scatterAdd scatter_S400000_S2900000x1_S2900000_n_0_0_1 x i u),
    nullary main_cst_1 (constant S_ .f32 0x00000000#32),
    unary main_cst_1 main_v12 (broadcastInDim S400000 ![] bcast_S_S400000),
    binary main_v11 main_v12 main_v13 (cmpf .ogt),
    nullary main_cst_2 (constant S_ .f32 0x3727C5AC#32),
    unary main_cst_2 main_v14 (broadcastInDim S400000 ![] bcast_S_S400000),
    binary main_v11 main_v14 main_v15 (maximumf),
    unary main_v15 main_v16 (Host.rsqrt),
    nullary main_cst_3 (constant S_ .f32 0x00000000#32),
    unary main_cst_3 main_call0_v0 (id),
    unary main_call0_v0 main_call0_v1 (broadcastInDim S400000 ![] bcast_S_S400000),
    ternary main_v13 main_v16 main_call0_v1 main_v17 (select) ]

abbrev oDinv_W : List (Ref sig .tc) := [main_cst_0, main_v9, main_v10, main_v11, main_cst_1, main_v12, main_v13, main_cst_2, main_v14, main_v15, main_v16, main_cst_3, main_call0_v0, main_call0_v1, main_v17]

theorem oDinv_writes : (oDinv : List (HloOp τ sig (Elt F))).Forall fun op => op.writes ⊆ (oDinv_W.map (Proc.devRef (τ := τ) .tc)).toFinset := by
  unfold oDinv
  simp only [List.Forall, nullary_writes, unary_writes, binary_writes, ternary_writes, quaternary_writes, reshape_writes, Finset.singleton_subset_iff, List.mem_toFinset]
  repeat' refine And.intro ?_ ?_
  all_goals exact List.mem_map_of_mem (by decide)

theorem oDinv_keep (W : Valuation τ sig (Elt F)) (r : Ref sig .tc) (h : r ∉ oDinv_W) :
    after oDinv W (no_index (Proc.devRef .tc r)) = W (Proc.devRef .tc r) :=
  after_of_writes_sub oDinv W oDinv_writes h

def oNorm : List (HloOp τ sig (Elt F)) :=
  [ nullary main_c (constantI S_ 32 0#32),
    unary main_c main_v18 (broadcastInDim S2900000 ![] bcast_S_S2900000),
    binary main_v5 main_v18 main_v19 (cmpi .slt),
    nullary main_c_4 (constantI S_ 32 400000#32),
    unary main_c_4 main_v20 (broadcastInDim S2900000 ![] bcast_S_S2900000),
    binary main_v5 main_v20 main_v21 (addi),
    ternary main_v19 main_v21 main_v5 main_v22 (select),
    unary main_v22 main_v23 (broadcastInDim S2900000x1 ![0] bcast_S2900000_S2900000x1_0),
    binary main_v17 main_v23 main_v24 (fun x i => Host.gather gather_S400000_S2900000x1_S2900000_n_0_n_n_0_1_1 x i),
    binary main_v24 main_v8 main_v25 (mulf),
    nullary main_c_5 (constantI S_ 32 0#32),
    unary main_c_5 main_v26 (broadcastInDim S2900000 ![] bcast_S_S2900000),
    binary main_v6 main_v26 main_v27 (cmpi .slt),
    nullary main_c_6 (constantI S_ 32 400000#32),
    unary main_c_6 main_v28 (broadcastInDim S2900000 ![] bcast_S_S2900000),
    binary main_v6 main_v28 main_v29 (addi),
    ternary main_v27 main_v29 main_v6 main_v30 (select),
    unary main_v30 main_v31 (broadcastInDim S2900000x1 ![0] bcast_S2900000_S2900000x1_0),
    binary main_v17 main_v31 main_v32 (fun x i => Host.gather gather_S400000_S2900000x1_S2900000_n_0_n_n_0_1_1 x i),
    binary main_v25 main_v32 main_v33 (mulf) ]

abbrev oNorm_W : List (Ref sig .tc) := [main_c, main_v18, main_v19, main_c_4, main_v20, main_v21, main_v22, main_v23, main_v24, main_v25, main_c_5, main_v26, main_v27, main_c_6, main_v28, main_v29, main_v30, main_v31, main_v32, main_v33]

theorem oNorm_writes : (oNorm : List (HloOp τ sig (Elt F))).Forall fun op => op.writes ⊆ (oNorm_W.map (Proc.devRef (τ := τ) .tc)).toFinset := by
  unfold oNorm
  simp only [List.Forall, nullary_writes, unary_writes, binary_writes, ternary_writes, quaternary_writes, reshape_writes, Finset.singleton_subset_iff, List.mem_toFinset]
  repeat' refine And.intro ?_ ?_
  all_goals exact List.mem_map_of_mem (by decide)

theorem oNorm_keep (W : Valuation τ sig (Elt F)) (r : Ref sig .tc) (h : r ∉ oNorm_W) :
    after oNorm W (no_index (Proc.devRef .tc r)) = W (Proc.devRef .tc r) :=
  after_of_writes_sub oNorm W oNorm_writes h

def oLin0 : List (HloOp τ sig (Elt F)) :=
  [ binary main_arg0 main_arg4 main_v34 (fun l r => Host.dotGeneral dot_S400000x7_S7x32_S400000x32_1_0_0_1_n_n none l r) ]

abbrev oLin0_W : List (Ref sig .tc) := [main_v34]

theorem oLin0_writes : (oLin0 : List (HloOp τ sig (Elt F))).Forall fun op => op.writes ⊆ (oLin0_W.map (Proc.devRef (τ := τ) .tc)).toFinset := by
  unfold oLin0
  simp only [List.Forall, nullary_writes, unary_writes, binary_writes, ternary_writes, quaternary_writes, reshape_writes, Finset.singleton_subset_iff, List.mem_toFinset]
  repeat' refine And.intro ?_ ?_
  all_goals exact List.mem_map_of_mem (by decide)

theorem oLin0_keep (W : Valuation τ sig (Elt F)) (r : Ref sig .tc) (h : r ∉ oLin0_W) :
    after oLin0 W (no_index (Proc.devRef .tc r)) = W (Proc.devRef .tc r) :=
  after_of_writes_sub oLin0 W oLin0_writes h

def oAgg0a : List (HloOp τ sig (Elt F)) :=
  [ unary main_v33 main_v35 (broadcastInDim S2900000x1 ![0] bcast_S2900000_S2900000x1_0),
    nullary main_c_7 (constantI S_ 32 0#32),
    unary main_c_7 main_v36 (broadcastInDim S2900000 ![] bcast_S_S2900000),
    binary main_v5 main_v36 main_v37 (cmpi .slt),
    nullary main_c_8 (constantI S_ 32 400000#32),
    unary main_c_8 main_v38 (broadcastInDim S2900000 ![] bcast_S_S2900000),
    binary main_v5 main_v38 main_v39 (addi),
    ternary main_v37 main_v39 main_v5 main_v40 (select),
    unary main_v40 main_v41 (broadcastInDim S2900000x1 ![0] bcast_S2900000_S2900000x1_0),
    binary main_v34 main_v41 main_v42 (fun x i => Host.gather gather_S400000x32_S2900000x1_S2900000x32_1_0_n_n_0_1_132 x i),
    unary main_v35 main_v43 (broadcastInDim S2900000x32 ![0, 1] bcast_S2900000x1_S2900000x32_0_1),
    binary main_v43 main_v42 main_v44 (mulf),
    nullary main_cst_9 (constant S_ .f32 0x00000000#32),
    unary main_cst_9 main_v45 (broadcastInDim S400000x32 ![] bcast_S_S400000x32),
    unary main_v6 main_v46 (broadcastInDim S2900000x1 ![0] bcast_S2900000_S2900000x1_0),
    ternary main_v45 main_v46 main_v44 main_v47 (fun x i u => Host.scatterAdd scatter_S400000x32_S2900000x1_S2900000x32_1_0_0_1 x i u) ]

abbrev oAgg0a_W : List (Ref sig .tc) := [main_v35, main_c_7, main_v36, main_v37, main_c_8, main_v38, main_v39, main_v40, main_v41, main_v42, main_v43, main_v44, main_cst_9, main_v45, main_v46, main_v47]

theorem oAgg0a_writes : (oAgg0a : List (HloOp τ sig (Elt F))).Forall fun op => op.writes ⊆ (oAgg0a_W.map (Proc.devRef (τ := τ) .tc)).toFinset := by
  unfold oAgg0a
  simp only [List.Forall, nullary_writes, unary_writes, binary_writes, ternary_writes, quaternary_writes, reshape_writes, Finset.singleton_subset_iff, List.mem_toFinset]
  repeat' refine And.intro ?_ ?_
  all_goals exact List.mem_map_of_mem (by decide)

theorem oAgg0a_keep (W : Valuation τ sig (Elt F)) (r : Ref sig .tc) (h : r ∉ oAgg0a_W) :
    after oAgg0a W (no_index (Proc.devRef .tc r)) = W (Proc.devRef .tc r) :=
  after_of_writes_sub oAgg0a W oAgg0a_writes h

def oAgg0b : List (HloOp τ sig (Elt F)) :=
  [ unary main_arg5 main_v48 (broadcastInDim S1x32 ![1] bcast_S32_S1x32_1),
    unary main_v48 main_v49 (broadcastInDim S400000x32 ![0, 1] bcast_S1x32_S400000x32_0_1),
    binary main_v47 main_v49 main_v50 (addf) ]

abbrev oAgg0b_W : List (Ref sig .tc) := [main_v48, main_v49, main_v50]

theorem oAgg0b_writes : (oAgg0b : List (HloOp τ sig (Elt F))).Forall fun op => op.writes ⊆ (oAgg0b_W.map (Proc.devRef (τ := τ) .tc)).toFinset := by
  unfold oAgg0b
  simp only [List.Forall, nullary_writes, unary_writes, binary_writes, ternary_writes, quaternary_writes, reshape_writes, Finset.singleton_subset_iff, List.mem_toFinset]
  repeat' refine And.intro ?_ ?_
  all_goals exact List.mem_map_of_mem (by decide)

theorem oAgg0b_keep (W : Valuation τ sig (Elt F)) (r : Ref sig .tc) (h : r ∉ oAgg0b_W) :
    after oAgg0b W (no_index (Proc.devRef .tc r)) = W (Proc.devRef .tc r) :=
  after_of_writes_sub oAgg0b W oAgg0b_writes h

def oRow0 : List (HloOp τ sig (Elt F)) :=
  [ unary main_arg12 main_v51 (extractStridedSlice S1x32 ![0, 0] · slices_S3x32_S1x32_0_0),
    reshape main_v51 main_v52 rfl shapeCasts_S1x32_S32,
    unary main_arg13 main_v53 (extractStridedSlice S1x32 ![0, 0] · slices_S3x32_S1x32_0_0),
    reshape main_v53 main_v54 rfl shapeCasts_S1x32_S32 ]

abbrev oRow0_W : List (Ref sig .tc) := [main_v51, main_v52, main_v53, main_v54]

theorem oRow0_writes : (oRow0 : List (HloOp τ sig (Elt F))).Forall fun op => op.writes ⊆ (oRow0_W.map (Proc.devRef (τ := τ) .tc)).toFinset := by
  unfold oRow0
  simp only [List.Forall, nullary_writes, unary_writes, binary_writes, ternary_writes, quaternary_writes, reshape_writes, Finset.singleton_subset_iff, List.mem_toFinset]
  repeat' refine And.intro ?_ ?_
  all_goals exact List.mem_map_of_mem (by decide)

theorem oRow0_keep (W : Valuation τ sig (Elt F)) (r : Ref sig .tc) (h : r ∉ oRow0_W) :
    after oRow0 W (no_index (Proc.devRef .tc r)) = W (Proc.devRef .tc r) :=
  after_of_writes_sub oRow0 W oRow0_writes h

def oMean0 : List (HloOp τ sig (Elt F)) :=
  [ nullary main_cst_10 (constant S_ .f32 0x00000000#32),
    binary main_v50 main_cst_10 main_v55 (fun x v => Host.reduceAdd x v reducesTo_S400000x32_S32_d0 h_S_),
    nullary main_cst_11 (constant S_ .f32 0x48C35000#32),
    unary main_cst_11 main_v56 (broadcastInDim S32 ![] bcast_S_S32),
    binary main_v55 main_v56 main_v57 (Host.divf) ]

abbrev oMean0_W : List (Ref sig .tc) := [main_cst_10, main_v55, main_cst_11, main_v56, main_v57]

theorem oMean0_writes : (oMean0 : List (HloOp τ sig (Elt F))).Forall fun op => op.writes ⊆ (oMean0_W.map (Proc.devRef (τ := τ) .tc)).toFinset := by
  unfold oMean0
  simp only [List.Forall, nullary_writes, unary_writes, binary_writes, ternary_writes, quaternary_writes, reshape_writes, Finset.singleton_subset_iff, List.mem_toFinset]
  repeat' refine And.intro ?_ ?_
  all_goals exact List.mem_map_of_mem (by decide)

theorem oMean0_keep (W : Valuation τ sig (Elt F)) (r : Ref sig .tc) (h : r ∉ oMean0_W) :
    after oMean0 W (no_index (Proc.devRef .tc r)) = W (Proc.devRef .tc r) :=
  after_of_writes_sub oMean0 W oMean0_writes h

def oVar0 : List (HloOp τ sig (Elt F)) :=
  [ nullary main_c_12 (constantI S_ 32 0#32),
    nullary main_call1_cst (constant S_ .f32 0x00000000#32),
    binary main_v50 main_call1_cst main_call1_v0 (fun x v => Host.reduceAdd x v reducesTo_S400000x32_S32_d0 h_S_),
    unary main_call1_v0 main_call1_v1 (broadcastInDim S1x32 ![1] bcast_S32_S1x32_1),
    nullary main_call1_cst_0 (constant S_ .f32 0x48C35000#32),
    unary main_call1_cst_0 main_call1_v2 (broadcastInDim S1x32 ![] bcast_S_S1x32),
    binary main_call1_v1 main_call1_v2 main_call1_v3 (Host.divf),
    unary main_call1_v3 main_call1_v4 (broadcastInDim S400000x32 ![0, 1] bcast_S1x32_S400000x32_0_1),
    binary main_v50 main_call1_v4 main_call1_v5 (subf),
    binary main_call1_v5 main_call1_v5 main_call1_v6 (mulf),
    unary main_c_12 main_call1_v7 (sitofp .f32),
    nullary main_call1_cst_1 (constant S_ .f32 0x48C35000#32),
    binary main_call1_cst_1 main_call1_v7 main_call1_v8 (subf),
    nullary main_call1_cst_2 (constant S_ .f32 0x00000000#32),
    binary main_call1_v6 main_call1_cst_2 main_call1_v9 (fun x v => Host.reduceAdd x v reducesTo_S400000x32_S32_d0 h_S_),
    unary main_call1_v8 main_call1_v10 (broadcastInDim S32 ![] bcast_S_S32),
    binary main_call1_v9 main_call1_v10 main_call1_v11 (Host.divf),
    nullary main_call1_cst_3 (constant S_ .f32 0x00000000#32),
    binary main_call1_v8 main_call1_cst_3 main_call1_v12 (cmpf .ogt),
    nullary main_call1_cst_4 (constant S_ .f32 0x7FC00000#32),
    unary main_call1_cst_4 main_call1_call0_v0 (id),
    unary main_call1_call0_v0 main_call1_call0_v1 (broadcastInDim S32 ![] bcast_S_S32),
    ternary main_call1_v12 main_call1_v11 main_call1_call0_v1 main_v58 (fun p a b => select (broadcastInDim S32 ![] bcast_S_S32 p) a b) ]

abbrev oVar0_W : List (Ref sig .tc) := [main_c_12, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v58]

theorem oVar0_writes : (oVar0 : List (HloOp τ sig (Elt F))).Forall fun op => op.writes ⊆ (oVar0_W.map (Proc.devRef (τ := τ) .tc)).toFinset := by
  unfold oVar0
  simp only [List.Forall, nullary_writes, unary_writes, binary_writes, ternary_writes, quaternary_writes, reshape_writes, Finset.singleton_subset_iff, List.mem_toFinset]
  repeat' refine And.intro ?_ ?_
  all_goals exact List.mem_map_of_mem (by decide)

theorem oVar0_keep (W : Valuation τ sig (Elt F)) (r : Ref sig .tc) (h : r ∉ oVar0_W) :
    after oVar0 W (no_index (Proc.devRef .tc r)) = W (Proc.devRef .tc r) :=
  after_of_writes_sub oVar0 W oVar0_writes h

def oBn0a : List (HloOp τ sig (Elt F)) :=
  [ unary main_v57 main_v59 (broadcastInDim S1x32 ![1] bcast_S32_S1x32_1),
    unary main_v59 main_v60 (broadcastInDim S400000x32 ![0, 1] bcast_S1x32_S400000x32_0_1),
    binary main_v50 main_v60 main_v61 (subf),
    nullary main_cst_13 (constant S_ .f32 0x3727C5AC#32),
    unary main_cst_13 main_v62 (broadcastInDim S32 ![] bcast_S_S32),
    binary main_v58 main_v62 main_v63 (addf),
    unary main_v63 main_v64 (Host.rsqrt),
    unary main_v64 main_v65 (broadcastInDim S1x32 ![1] bcast_S32_S1x32_1),
    unary main_v65 main_v66 (broadcastInDim S400000x32 ![0, 1] bcast_S1x32_S400000x32_0_1),
    binary main_v61 main_v66 main_v67 (mulf) ]

abbrev oBn0a_W : List (Ref sig .tc) := [main_v59, main_v60, main_v61, main_cst_13, main_v62, main_v63, main_v64, main_v65, main_v66, main_v67]

theorem oBn0a_writes : (oBn0a : List (HloOp τ sig (Elt F))).Forall fun op => op.writes ⊆ (oBn0a_W.map (Proc.devRef (τ := τ) .tc)).toFinset := by
  unfold oBn0a
  simp only [List.Forall, nullary_writes, unary_writes, binary_writes, ternary_writes, quaternary_writes, reshape_writes, Finset.singleton_subset_iff, List.mem_toFinset]
  repeat' refine And.intro ?_ ?_
  all_goals exact List.mem_map_of_mem (by decide)

theorem oBn0a_keep (W : Valuation τ sig (Elt F)) (r : Ref sig .tc) (h : r ∉ oBn0a_W) :
    after oBn0a W (no_index (Proc.devRef .tc r)) = W (Proc.devRef .tc r) :=
  after_of_writes_sub oBn0a W oBn0a_writes h

def oBn0b : List (HloOp τ sig (Elt F)) :=
  [ unary main_v52 main_v68 (broadcastInDim S1x32 ![1] bcast_S32_S1x32_1),
    unary main_v68 main_v69 (broadcastInDim S400000x32 ![0, 1] bcast_S1x32_S400000x32_0_1),
    binary main_v67 main_v69 main_v70 (mulf),
    unary main_v54 main_v71 (broadcastInDim S1x32 ![1] bcast_S32_S1x32_1),
    unary main_v71 main_v72 (broadcastInDim S400000x32 ![0, 1] bcast_S1x32_S400000x32_0_1),
    binary main_v70 main_v72 main_v73 (addf),
    nullary main_call2_cst (constant S_ .f32 0x00000000#32),
    unary main_call2_cst main_call2_v0 (broadcastInDim S400000x32 ![] bcast_S_S400000x32),
    binary main_v73 main_call2_v0 main_v74 (maximumf) ]

abbrev oBn0b_W : List (Ref sig .tc) := [main_v68, main_v69, main_v70, main_v71, main_v72, main_v73, main_call2_cst, main_call2_v0, main_v74]

theorem oBn0b_writes : (oBn0b : List (HloOp τ sig (Elt F))).Forall fun op => op.writes ⊆ (oBn0b_W.map (Proc.devRef (τ := τ) .tc)).toFinset := by
  unfold oBn0b
  simp only [List.Forall, nullary_writes, unary_writes, binary_writes, ternary_writes, quaternary_writes, reshape_writes, Finset.singleton_subset_iff, List.mem_toFinset]
  repeat' refine And.intro ?_ ?_
  all_goals exact List.mem_map_of_mem (by decide)

theorem oBn0b_keep (W : Valuation τ sig (Elt F)) (r : Ref sig .tc) (h : r ∉ oBn0b_W) :
    after oBn0b W (no_index (Proc.devRef .tc r)) = W (Proc.devRef .tc r) :=
  after_of_writes_sub oBn0b W oBn0b_writes h

def oLin1 : List (HloOp τ sig (Elt F)) :=
  [ binary main_v74 main_arg6 main_v75 (fun l r => Host.dotGeneral dot_S400000x32_S32x32_S400000x32_1_0_0_1_n_n none l r) ]

abbrev oLin1_W : List (Ref sig .tc) := [main_v75]

theorem oLin1_writes : (oLin1 : List (HloOp τ sig (Elt F))).Forall fun op => op.writes ⊆ (oLin1_W.map (Proc.devRef (τ := τ) .tc)).toFinset := by
  unfold oLin1
  simp only [List.Forall, nullary_writes, unary_writes, binary_writes, ternary_writes, quaternary_writes, reshape_writes, Finset.singleton_subset_iff, List.mem_toFinset]
  repeat' refine And.intro ?_ ?_
  all_goals exact List.mem_map_of_mem (by decide)

theorem oLin1_keep (W : Valuation τ sig (Elt F)) (r : Ref sig .tc) (h : r ∉ oLin1_W) :
    after oLin1 W (no_index (Proc.devRef .tc r)) = W (Proc.devRef .tc r) :=
  after_of_writes_sub oLin1 W oLin1_writes h

def oAgg1a : List (HloOp τ sig (Elt F)) :=
  [ unary main_v33 main_v76 (broadcastInDim S2900000x1 ![0] bcast_S2900000_S2900000x1_0),
    nullary main_c_14 (constantI S_ 32 0#32),
    unary main_c_14 main_v77 (broadcastInDim S2900000 ![] bcast_S_S2900000),
    binary main_v5 main_v77 main_v78 (cmpi .slt),
    nullary main_c_15 (constantI S_ 32 400000#32),
    unary main_c_15 main_v79 (broadcastInDim S2900000 ![] bcast_S_S2900000),
    binary main_v5 main_v79 main_v80 (addi),
    ternary main_v78 main_v80 main_v5 main_v81 (select),
    unary main_v81 main_v82 (broadcastInDim S2900000x1 ![0] bcast_S2900000_S2900000x1_0),
    binary main_v75 main_v82 main_v83 (fun x i => Host.gather gather_S400000x32_S2900000x1_S2900000x32_1_0_n_n_0_1_132 x i),
    unary main_v76 main_v84 (broadcastInDim S2900000x32 ![0, 1] bcast_S2900000x1_S2900000x32_0_1),
    binary main_v84 main_v83 main_v85 (mulf),
    nullary main_cst_16 (constant S_ .f32 0x00000000#32),
    unary main_cst_16 main_v86 (broadcastInDim S400000x32 ![] bcast_S_S400000x32),
    unary main_v6 main_v87 (broadcastInDim S2900000x1 ![0] bcast_S2900000_S2900000x1_0),
    ternary main_v86 main_v87 main_v85 main_v88 (fun x i u => Host.scatterAdd scatter_S400000x32_S2900000x1_S2900000x32_1_0_0_1 x i u) ]

abbrev oAgg1a_W : List (Ref sig .tc) := [main_v76, main_c_14, main_v77, main_v78, main_c_15, main_v79, main_v80, main_v81, main_v82, main_v83, main_v84, main_v85, main_cst_16, main_v86, main_v87, main_v88]

theorem oAgg1a_writes : (oAgg1a : List (HloOp τ sig (Elt F))).Forall fun op => op.writes ⊆ (oAgg1a_W.map (Proc.devRef (τ := τ) .tc)).toFinset := by
  unfold oAgg1a
  simp only [List.Forall, nullary_writes, unary_writes, binary_writes, ternary_writes, quaternary_writes, reshape_writes, Finset.singleton_subset_iff, List.mem_toFinset]
  repeat' refine And.intro ?_ ?_
  all_goals exact List.mem_map_of_mem (by decide)

theorem oAgg1a_keep (W : Valuation τ sig (Elt F)) (r : Ref sig .tc) (h : r ∉ oAgg1a_W) :
    after oAgg1a W (no_index (Proc.devRef .tc r)) = W (Proc.devRef .tc r) :=
  after_of_writes_sub oAgg1a W oAgg1a_writes h

def oAgg1b : List (HloOp τ sig (Elt F)) :=
  [ unary main_arg7 main_v89 (broadcastInDim S1x32 ![1] bcast_S32_S1x32_1),
    unary main_v89 main_v90 (broadcastInDim S400000x32 ![0, 1] bcast_S1x32_S400000x32_0_1),
    binary main_v88 main_v90 main_v91 (addf) ]

abbrev oAgg1b_W : List (Ref sig .tc) := [main_v89, main_v90, main_v91]

theorem oAgg1b_writes : (oAgg1b : List (HloOp τ sig (Elt F))).Forall fun op => op.writes ⊆ (oAgg1b_W.map (Proc.devRef (τ := τ) .tc)).toFinset := by
  unfold oAgg1b
  simp only [List.Forall, nullary_writes, unary_writes, binary_writes, ternary_writes, quaternary_writes, reshape_writes, Finset.singleton_subset_iff, List.mem_toFinset]
  repeat' refine And.intro ?_ ?_
  all_goals exact List.mem_map_of_mem (by decide)

theorem oAgg1b_keep (W : Valuation τ sig (Elt F)) (r : Ref sig .tc) (h : r ∉ oAgg1b_W) :
    after oAgg1b W (no_index (Proc.devRef .tc r)) = W (Proc.devRef .tc r) :=
  after_of_writes_sub oAgg1b W oAgg1b_writes h

def oRow1 : List (HloOp τ sig (Elt F)) :=
  [ unary main_arg12 main_v92 (extractStridedSlice S1x32 ![1, 0] · slices_S3x32_S1x32_1_0),
    reshape main_v92 main_v93 rfl shapeCasts_S1x32_S32,
    unary main_arg13 main_v94 (extractStridedSlice S1x32 ![1, 0] · slices_S3x32_S1x32_1_0),
    reshape main_v94 main_v95 rfl shapeCasts_S1x32_S32 ]

abbrev oRow1_W : List (Ref sig .tc) := [main_v92, main_v93, main_v94, main_v95]

theorem oRow1_writes : (oRow1 : List (HloOp τ sig (Elt F))).Forall fun op => op.writes ⊆ (oRow1_W.map (Proc.devRef (τ := τ) .tc)).toFinset := by
  unfold oRow1
  simp only [List.Forall, nullary_writes, unary_writes, binary_writes, ternary_writes, quaternary_writes, reshape_writes, Finset.singleton_subset_iff, List.mem_toFinset]
  repeat' refine And.intro ?_ ?_
  all_goals exact List.mem_map_of_mem (by decide)

theorem oRow1_keep (W : Valuation τ sig (Elt F)) (r : Ref sig .tc) (h : r ∉ oRow1_W) :
    after oRow1 W (no_index (Proc.devRef .tc r)) = W (Proc.devRef .tc r) :=
  after_of_writes_sub oRow1 W oRow1_writes h

def oMean1 : List (HloOp τ sig (Elt F)) :=
  [ nullary main_cst_17 (constant S_ .f32 0x00000000#32),
    binary main_v91 main_cst_17 main_v96 (fun x v => Host.reduceAdd x v reducesTo_S400000x32_S32_d0 h_S_),
    nullary main_cst_18 (constant S_ .f32 0x48C35000#32),
    unary main_cst_18 main_v97 (broadcastInDim S32 ![] bcast_S_S32),
    binary main_v96 main_v97 main_v98 (Host.divf) ]

abbrev oMean1_W : List (Ref sig .tc) := [main_cst_17, main_v96, main_cst_18, main_v97, main_v98]

theorem oMean1_writes : (oMean1 : List (HloOp τ sig (Elt F))).Forall fun op => op.writes ⊆ (oMean1_W.map (Proc.devRef (τ := τ) .tc)).toFinset := by
  unfold oMean1
  simp only [List.Forall, nullary_writes, unary_writes, binary_writes, ternary_writes, quaternary_writes, reshape_writes, Finset.singleton_subset_iff, List.mem_toFinset]
  repeat' refine And.intro ?_ ?_
  all_goals exact List.mem_map_of_mem (by decide)

theorem oMean1_keep (W : Valuation τ sig (Elt F)) (r : Ref sig .tc) (h : r ∉ oMean1_W) :
    after oMean1 W (no_index (Proc.devRef .tc r)) = W (Proc.devRef .tc r) :=
  after_of_writes_sub oMean1 W oMean1_writes h

def oVar1 : List (HloOp τ sig (Elt F)) :=
  [ nullary main_c_19 (constantI S_ 32 0#32),
    nullary main_call3_cst (constant S_ .f32 0x00000000#32),
    binary main_v91 main_call3_cst main_call3_v0 (fun x v => Host.reduceAdd x v reducesTo_S400000x32_S32_d0 h_S_),
    unary main_call3_v0 main_call3_v1 (broadcastInDim S1x32 ![1] bcast_S32_S1x32_1),
    nullary main_call3_cst_0 (constant S_ .f32 0x48C35000#32),
    unary main_call3_cst_0 main_call3_v2 (broadcastInDim S1x32 ![] bcast_S_S1x32),
    binary main_call3_v1 main_call3_v2 main_call3_v3 (Host.divf),
    unary main_call3_v3 main_call3_v4 (broadcastInDim S400000x32 ![0, 1] bcast_S1x32_S400000x32_0_1),
    binary main_v91 main_call3_v4 main_call3_v5 (subf),
    binary main_call3_v5 main_call3_v5 main_call3_v6 (mulf),
    unary main_c_19 main_call3_v7 (sitofp .f32),
    nullary main_call3_cst_1 (constant S_ .f32 0x48C35000#32),
    binary main_call3_cst_1 main_call3_v7 main_call3_v8 (subf),
    nullary main_call3_cst_2 (constant S_ .f32 0x00000000#32),
    binary main_call3_v6 main_call3_cst_2 main_call3_v9 (fun x v => Host.reduceAdd x v reducesTo_S400000x32_S32_d0 h_S_),
    unary main_call3_v8 main_call3_v10 (broadcastInDim S32 ![] bcast_S_S32),
    binary main_call3_v9 main_call3_v10 main_call3_v11 (Host.divf),
    nullary main_call3_cst_3 (constant S_ .f32 0x00000000#32),
    binary main_call3_v8 main_call3_cst_3 main_call3_v12 (cmpf .ogt),
    nullary main_call3_cst_4 (constant S_ .f32 0x7FC00000#32),
    unary main_call3_cst_4 main_call3_call0_v0 (id),
    unary main_call3_call0_v0 main_call3_call0_v1 (broadcastInDim S32 ![] bcast_S_S32),
    ternary main_call3_v12 main_call3_v11 main_call3_call0_v1 main_v99 (fun p a b => select (broadcastInDim S32 ![] bcast_S_S32 p) a b) ]

abbrev oVar1_W : List (Ref sig .tc) := [main_c_19, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v99]

theorem oVar1_writes : (oVar1 : List (HloOp τ sig (Elt F))).Forall fun op => op.writes ⊆ (oVar1_W.map (Proc.devRef (τ := τ) .tc)).toFinset := by
  unfold oVar1
  simp only [List.Forall, nullary_writes, unary_writes, binary_writes, ternary_writes, quaternary_writes, reshape_writes, Finset.singleton_subset_iff, List.mem_toFinset]
  repeat' refine And.intro ?_ ?_
  all_goals exact List.mem_map_of_mem (by decide)

theorem oVar1_keep (W : Valuation τ sig (Elt F)) (r : Ref sig .tc) (h : r ∉ oVar1_W) :
    after oVar1 W (no_index (Proc.devRef .tc r)) = W (Proc.devRef .tc r) :=
  after_of_writes_sub oVar1 W oVar1_writes h

def oBn1a : List (HloOp τ sig (Elt F)) :=
  [ unary main_v98 main_v100 (broadcastInDim S1x32 ![1] bcast_S32_S1x32_1),
    unary main_v100 main_v101 (broadcastInDim S400000x32 ![0, 1] bcast_S1x32_S400000x32_0_1),
    binary main_v91 main_v101 main_v102 (subf),
    nullary main_cst_20 (constant S_ .f32 0x3727C5AC#32),
    unary main_cst_20 main_v103 (broadcastInDim S32 ![] bcast_S_S32),
    binary main_v99 main_v103 main_v104 (addf),
    unary main_v104 main_v105 (Host.rsqrt),
    unary main_v105 main_v106 (broadcastInDim S1x32 ![1] bcast_S32_S1x32_1),
    unary main_v106 main_v107 (broadcastInDim S400000x32 ![0, 1] bcast_S1x32_S400000x32_0_1),
    binary main_v102 main_v107 main_v108 (mulf) ]

abbrev oBn1a_W : List (Ref sig .tc) := [main_v100, main_v101, main_v102, main_cst_20, main_v103, main_v104, main_v105, main_v106, main_v107, main_v108]

theorem oBn1a_writes : (oBn1a : List (HloOp τ sig (Elt F))).Forall fun op => op.writes ⊆ (oBn1a_W.map (Proc.devRef (τ := τ) .tc)).toFinset := by
  unfold oBn1a
  simp only [List.Forall, nullary_writes, unary_writes, binary_writes, ternary_writes, quaternary_writes, reshape_writes, Finset.singleton_subset_iff, List.mem_toFinset]
  repeat' refine And.intro ?_ ?_
  all_goals exact List.mem_map_of_mem (by decide)

theorem oBn1a_keep (W : Valuation τ sig (Elt F)) (r : Ref sig .tc) (h : r ∉ oBn1a_W) :
    after oBn1a W (no_index (Proc.devRef .tc r)) = W (Proc.devRef .tc r) :=
  after_of_writes_sub oBn1a W oBn1a_writes h

def oBn1b : List (HloOp τ sig (Elt F)) :=
  [ unary main_v93 main_v109 (broadcastInDim S1x32 ![1] bcast_S32_S1x32_1),
    unary main_v109 main_v110 (broadcastInDim S400000x32 ![0, 1] bcast_S1x32_S400000x32_0_1),
    binary main_v108 main_v110 main_v111 (mulf),
    unary main_v95 main_v112 (broadcastInDim S1x32 ![1] bcast_S32_S1x32_1),
    unary main_v112 main_v113 (broadcastInDim S400000x32 ![0, 1] bcast_S1x32_S400000x32_0_1),
    binary main_v111 main_v113 main_v114 (addf),
    nullary main_call4_cst (constant S_ .f32 0x00000000#32),
    unary main_call4_cst main_call4_v0 (broadcastInDim S400000x32 ![] bcast_S_S400000x32),
    binary main_v114 main_call4_v0 main_v115 (maximumf) ]

abbrev oBn1b_W : List (Ref sig .tc) := [main_v109, main_v110, main_v111, main_v112, main_v113, main_v114, main_call4_cst, main_call4_v0, main_v115]

theorem oBn1b_writes : (oBn1b : List (HloOp τ sig (Elt F))).Forall fun op => op.writes ⊆ (oBn1b_W.map (Proc.devRef (τ := τ) .tc)).toFinset := by
  unfold oBn1b
  simp only [List.Forall, nullary_writes, unary_writes, binary_writes, ternary_writes, quaternary_writes, reshape_writes, Finset.singleton_subset_iff, List.mem_toFinset]
  repeat' refine And.intro ?_ ?_
  all_goals exact List.mem_map_of_mem (by decide)

theorem oBn1b_keep (W : Valuation τ sig (Elt F)) (r : Ref sig .tc) (h : r ∉ oBn1b_W) :
    after oBn1b W (no_index (Proc.devRef .tc r)) = W (Proc.devRef .tc r) :=
  after_of_writes_sub oBn1b W oBn1b_writes h

def oLin2 : List (HloOp τ sig (Elt F)) :=
  [ binary main_v115 main_arg8 main_v116 (fun l r => Host.dotGeneral dot_S400000x32_S32x32_S400000x32_1_0_0_1_n_n none l r) ]

abbrev oLin2_W : List (Ref sig .tc) := [main_v116]

theorem oLin2_writes : (oLin2 : List (HloOp τ sig (Elt F))).Forall fun op => op.writes ⊆ (oLin2_W.map (Proc.devRef (τ := τ) .tc)).toFinset := by
  unfold oLin2
  simp only [List.Forall, nullary_writes, unary_writes, binary_writes, ternary_writes, quaternary_writes, reshape_writes, Finset.singleton_subset_iff, List.mem_toFinset]
  repeat' refine And.intro ?_ ?_
  all_goals exact List.mem_map_of_mem (by decide)

theorem oLin2_keep (W : Valuation τ sig (Elt F)) (r : Ref sig .tc) (h : r ∉ oLin2_W) :
    after oLin2 W (no_index (Proc.devRef .tc r)) = W (Proc.devRef .tc r) :=
  after_of_writes_sub oLin2 W oLin2_writes h

def oAgg2a : List (HloOp τ sig (Elt F)) :=
  [ unary main_v33 main_v117 (broadcastInDim S2900000x1 ![0] bcast_S2900000_S2900000x1_0),
    nullary main_c_21 (constantI S_ 32 0#32),
    unary main_c_21 main_v118 (broadcastInDim S2900000 ![] bcast_S_S2900000),
    binary main_v5 main_v118 main_v119 (cmpi .slt),
    nullary main_c_22 (constantI S_ 32 400000#32),
    unary main_c_22 main_v120 (broadcastInDim S2900000 ![] bcast_S_S2900000),
    binary main_v5 main_v120 main_v121 (addi),
    ternary main_v119 main_v121 main_v5 main_v122 (select),
    unary main_v122 main_v123 (broadcastInDim S2900000x1 ![0] bcast_S2900000_S2900000x1_0),
    binary main_v116 main_v123 main_v124 (fun x i => Host.gather gather_S400000x32_S2900000x1_S2900000x32_1_0_n_n_0_1_132 x i),
    unary main_v117 main_v125 (broadcastInDim S2900000x32 ![0, 1] bcast_S2900000x1_S2900000x32_0_1),
    binary main_v125 main_v124 main_v126 (mulf),
    nullary main_cst_23 (constant S_ .f32 0x00000000#32),
    unary main_cst_23 main_v127 (broadcastInDim S400000x32 ![] bcast_S_S400000x32),
    unary main_v6 main_v128 (broadcastInDim S2900000x1 ![0] bcast_S2900000_S2900000x1_0),
    ternary main_v127 main_v128 main_v126 main_v129 (fun x i u => Host.scatterAdd scatter_S400000x32_S2900000x1_S2900000x32_1_0_0_1 x i u) ]

abbrev oAgg2a_W : List (Ref sig .tc) := [main_v117, main_c_21, main_v118, main_v119, main_c_22, main_v120, main_v121, main_v122, main_v123, main_v124, main_v125, main_v126, main_cst_23, main_v127, main_v128, main_v129]

theorem oAgg2a_writes : (oAgg2a : List (HloOp τ sig (Elt F))).Forall fun op => op.writes ⊆ (oAgg2a_W.map (Proc.devRef (τ := τ) .tc)).toFinset := by
  unfold oAgg2a
  simp only [List.Forall, nullary_writes, unary_writes, binary_writes, ternary_writes, quaternary_writes, reshape_writes, Finset.singleton_subset_iff, List.mem_toFinset]
  repeat' refine And.intro ?_ ?_
  all_goals exact List.mem_map_of_mem (by decide)

theorem oAgg2a_keep (W : Valuation τ sig (Elt F)) (r : Ref sig .tc) (h : r ∉ oAgg2a_W) :
    after oAgg2a W (no_index (Proc.devRef .tc r)) = W (Proc.devRef .tc r) :=
  after_of_writes_sub oAgg2a W oAgg2a_writes h

def oAgg2b : List (HloOp τ sig (Elt F)) :=
  [ unary main_arg9 main_v130 (broadcastInDim S1x32 ![1] bcast_S32_S1x32_1),
    unary main_v130 main_v131 (broadcastInDim S400000x32 ![0, 1] bcast_S1x32_S400000x32_0_1),
    binary main_v129 main_v131 main_v132 (addf) ]

abbrev oAgg2b_W : List (Ref sig .tc) := [main_v130, main_v131, main_v132]

theorem oAgg2b_writes : (oAgg2b : List (HloOp τ sig (Elt F))).Forall fun op => op.writes ⊆ (oAgg2b_W.map (Proc.devRef (τ := τ) .tc)).toFinset := by
  unfold oAgg2b
  simp only [List.Forall, nullary_writes, unary_writes, binary_writes, ternary_writes, quaternary_writes, reshape_writes, Finset.singleton_subset_iff, List.mem_toFinset]
  repeat' refine And.intro ?_ ?_
  all_goals exact List.mem_map_of_mem (by decide)

theorem oAgg2b_keep (W : Valuation τ sig (Elt F)) (r : Ref sig .tc) (h : r ∉ oAgg2b_W) :
    after oAgg2b W (no_index (Proc.devRef .tc r)) = W (Proc.devRef .tc r) :=
  after_of_writes_sub oAgg2b W oAgg2b_writes h

def oRow2 : List (HloOp τ sig (Elt F)) :=
  [ unary main_arg12 main_v133 (extractStridedSlice S1x32 ![2, 0] · slices_S3x32_S1x32_2_0),
    reshape main_v133 main_v134 rfl shapeCasts_S1x32_S32,
    unary main_arg13 main_v135 (extractStridedSlice S1x32 ![2, 0] · slices_S3x32_S1x32_2_0),
    reshape main_v135 main_v136 rfl shapeCasts_S1x32_S32 ]

abbrev oRow2_W : List (Ref sig .tc) := [main_v133, main_v134, main_v135, main_v136]

theorem oRow2_writes : (oRow2 : List (HloOp τ sig (Elt F))).Forall fun op => op.writes ⊆ (oRow2_W.map (Proc.devRef (τ := τ) .tc)).toFinset := by
  unfold oRow2
  simp only [List.Forall, nullary_writes, unary_writes, binary_writes, ternary_writes, quaternary_writes, reshape_writes, Finset.singleton_subset_iff, List.mem_toFinset]
  repeat' refine And.intro ?_ ?_
  all_goals exact List.mem_map_of_mem (by decide)

theorem oRow2_keep (W : Valuation τ sig (Elt F)) (r : Ref sig .tc) (h : r ∉ oRow2_W) :
    after oRow2 W (no_index (Proc.devRef .tc r)) = W (Proc.devRef .tc r) :=
  after_of_writes_sub oRow2 W oRow2_writes h

def oMean2 : List (HloOp τ sig (Elt F)) :=
  [ nullary main_cst_24 (constant S_ .f32 0x00000000#32),
    binary main_v132 main_cst_24 main_v137 (fun x v => Host.reduceAdd x v reducesTo_S400000x32_S32_d0 h_S_),
    nullary main_cst_25 (constant S_ .f32 0x48C35000#32),
    unary main_cst_25 main_v138 (broadcastInDim S32 ![] bcast_S_S32),
    binary main_v137 main_v138 main_v139 (Host.divf) ]

abbrev oMean2_W : List (Ref sig .tc) := [main_cst_24, main_v137, main_cst_25, main_v138, main_v139]

theorem oMean2_writes : (oMean2 : List (HloOp τ sig (Elt F))).Forall fun op => op.writes ⊆ (oMean2_W.map (Proc.devRef (τ := τ) .tc)).toFinset := by
  unfold oMean2
  simp only [List.Forall, nullary_writes, unary_writes, binary_writes, ternary_writes, quaternary_writes, reshape_writes, Finset.singleton_subset_iff, List.mem_toFinset]
  repeat' refine And.intro ?_ ?_
  all_goals exact List.mem_map_of_mem (by decide)

theorem oMean2_keep (W : Valuation τ sig (Elt F)) (r : Ref sig .tc) (h : r ∉ oMean2_W) :
    after oMean2 W (no_index (Proc.devRef .tc r)) = W (Proc.devRef .tc r) :=
  after_of_writes_sub oMean2 W oMean2_writes h

def oVar2 : List (HloOp τ sig (Elt F)) :=
  [ nullary main_c_26 (constantI S_ 32 0#32),
    nullary main_call5_cst (constant S_ .f32 0x00000000#32),
    binary main_v132 main_call5_cst main_call5_v0 (fun x v => Host.reduceAdd x v reducesTo_S400000x32_S32_d0 h_S_),
    unary main_call5_v0 main_call5_v1 (broadcastInDim S1x32 ![1] bcast_S32_S1x32_1),
    nullary main_call5_cst_0 (constant S_ .f32 0x48C35000#32),
    unary main_call5_cst_0 main_call5_v2 (broadcastInDim S1x32 ![] bcast_S_S1x32),
    binary main_call5_v1 main_call5_v2 main_call5_v3 (Host.divf),
    unary main_call5_v3 main_call5_v4 (broadcastInDim S400000x32 ![0, 1] bcast_S1x32_S400000x32_0_1),
    binary main_v132 main_call5_v4 main_call5_v5 (subf),
    binary main_call5_v5 main_call5_v5 main_call5_v6 (mulf),
    unary main_c_26 main_call5_v7 (sitofp .f32),
    nullary main_call5_cst_1 (constant S_ .f32 0x48C35000#32),
    binary main_call5_cst_1 main_call5_v7 main_call5_v8 (subf),
    nullary main_call5_cst_2 (constant S_ .f32 0x00000000#32),
    binary main_call5_v6 main_call5_cst_2 main_call5_v9 (fun x v => Host.reduceAdd x v reducesTo_S400000x32_S32_d0 h_S_),
    unary main_call5_v8 main_call5_v10 (broadcastInDim S32 ![] bcast_S_S32),
    binary main_call5_v9 main_call5_v10 main_call5_v11 (Host.divf),
    nullary main_call5_cst_3 (constant S_ .f32 0x00000000#32),
    binary main_call5_v8 main_call5_cst_3 main_call5_v12 (cmpf .ogt),
    nullary main_call5_cst_4 (constant S_ .f32 0x7FC00000#32),
    unary main_call5_cst_4 main_call5_call0_v0 (id),
    unary main_call5_call0_v0 main_call5_call0_v1 (broadcastInDim S32 ![] bcast_S_S32),
    ternary main_call5_v12 main_call5_v11 main_call5_call0_v1 main_v140 (fun p a b => select (broadcastInDim S32 ![] bcast_S_S32 p) a b) ]

abbrev oVar2_W : List (Ref sig .tc) := [main_c_26, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v140]

theorem oVar2_writes : (oVar2 : List (HloOp τ sig (Elt F))).Forall fun op => op.writes ⊆ (oVar2_W.map (Proc.devRef (τ := τ) .tc)).toFinset := by
  unfold oVar2
  simp only [List.Forall, nullary_writes, unary_writes, binary_writes, ternary_writes, quaternary_writes, reshape_writes, Finset.singleton_subset_iff, List.mem_toFinset]
  repeat' refine And.intro ?_ ?_
  all_goals exact List.mem_map_of_mem (by decide)

theorem oVar2_keep (W : Valuation τ sig (Elt F)) (r : Ref sig .tc) (h : r ∉ oVar2_W) :
    after oVar2 W (no_index (Proc.devRef .tc r)) = W (Proc.devRef .tc r) :=
  after_of_writes_sub oVar2 W oVar2_writes h

def oBn2a : List (HloOp τ sig (Elt F)) :=
  [ unary main_v139 main_v141 (broadcastInDim S1x32 ![1] bcast_S32_S1x32_1),
    unary main_v141 main_v142 (broadcastInDim S400000x32 ![0, 1] bcast_S1x32_S400000x32_0_1),
    binary main_v132 main_v142 main_v143 (subf),
    nullary main_cst_27 (constant S_ .f32 0x3727C5AC#32),
    unary main_cst_27 main_v144 (broadcastInDim S32 ![] bcast_S_S32),
    binary main_v140 main_v144 main_v145 (addf),
    unary main_v145 main_v146 (Host.rsqrt),
    unary main_v146 main_v147 (broadcastInDim S1x32 ![1] bcast_S32_S1x32_1),
    unary main_v147 main_v148 (broadcastInDim S400000x32 ![0, 1] bcast_S1x32_S400000x32_0_1),
    binary main_v143 main_v148 main_v149 (mulf) ]

abbrev oBn2a_W : List (Ref sig .tc) := [main_v141, main_v142, main_v143, main_cst_27, main_v144, main_v145, main_v146, main_v147, main_v148, main_v149]

theorem oBn2a_writes : (oBn2a : List (HloOp τ sig (Elt F))).Forall fun op => op.writes ⊆ (oBn2a_W.map (Proc.devRef (τ := τ) .tc)).toFinset := by
  unfold oBn2a
  simp only [List.Forall, nullary_writes, unary_writes, binary_writes, ternary_writes, quaternary_writes, reshape_writes, Finset.singleton_subset_iff, List.mem_toFinset]
  repeat' refine And.intro ?_ ?_
  all_goals exact List.mem_map_of_mem (by decide)

theorem oBn2a_keep (W : Valuation τ sig (Elt F)) (r : Ref sig .tc) (h : r ∉ oBn2a_W) :
    after oBn2a W (no_index (Proc.devRef .tc r)) = W (Proc.devRef .tc r) :=
  after_of_writes_sub oBn2a W oBn2a_writes h

def oBn2b : List (HloOp τ sig (Elt F)) :=
  [ unary main_v134 main_v150 (broadcastInDim S1x32 ![1] bcast_S32_S1x32_1),
    unary main_v150 main_v151 (broadcastInDim S400000x32 ![0, 1] bcast_S1x32_S400000x32_0_1),
    binary main_v149 main_v151 main_v152 (mulf),
    unary main_v136 main_v153 (broadcastInDim S1x32 ![1] bcast_S32_S1x32_1),
    unary main_v153 main_v154 (broadcastInDim S400000x32 ![0, 1] bcast_S1x32_S400000x32_0_1),
    binary main_v152 main_v154 main_v155 (addf),
    nullary main_call6_cst (constant S_ .f32 0x00000000#32),
    unary main_call6_cst main_call6_v0 (broadcastInDim S400000x32 ![] bcast_S_S400000x32),
    binary main_v155 main_call6_v0 main_v156 (maximumf) ]

abbrev oBn2b_W : List (Ref sig .tc) := [main_v150, main_v151, main_v152, main_v153, main_v154, main_v155, main_call6_cst, main_call6_v0, main_v156]

theorem oBn2b_writes : (oBn2b : List (HloOp τ sig (Elt F))).Forall fun op => op.writes ⊆ (oBn2b_W.map (Proc.devRef (τ := τ) .tc)).toFinset := by
  unfold oBn2b
  simp only [List.Forall, nullary_writes, unary_writes, binary_writes, ternary_writes, quaternary_writes, reshape_writes, Finset.singleton_subset_iff, List.mem_toFinset]
  repeat' refine And.intro ?_ ?_
  all_goals exact List.mem_map_of_mem (by decide)

theorem oBn2b_keep (W : Valuation τ sig (Elt F)) (r : Ref sig .tc) (h : r ∉ oBn2b_W) :
    after oBn2b W (no_index (Proc.devRef .tc r)) = W (Proc.devRef .tc r) :=
  after_of_writes_sub oBn2b W oBn2b_writes h

def oLin3 : List (HloOp τ sig (Elt F)) :=
  [ binary main_v156 main_arg10 main_v157 (fun l r => Host.dotGeneral dot_S400000x32_S32x32_S400000x32_1_0_0_1_n_n none l r) ]

abbrev oLin3_W : List (Ref sig .tc) := [main_v157]

theorem oLin3_writes : (oLin3 : List (HloOp τ sig (Elt F))).Forall fun op => op.writes ⊆ (oLin3_W.map (Proc.devRef (τ := τ) .tc)).toFinset := by
  unfold oLin3
  simp only [List.Forall, nullary_writes, unary_writes, binary_writes, ternary_writes, quaternary_writes, reshape_writes, Finset.singleton_subset_iff, List.mem_toFinset]
  repeat' refine And.intro ?_ ?_
  all_goals exact List.mem_map_of_mem (by decide)

theorem oLin3_keep (W : Valuation τ sig (Elt F)) (r : Ref sig .tc) (h : r ∉ oLin3_W) :
    after oLin3 W (no_index (Proc.devRef .tc r)) = W (Proc.devRef .tc r) :=
  after_of_writes_sub oLin3 W oLin3_writes h

def oAgg3a : List (HloOp τ sig (Elt F)) :=
  [ unary main_v33 main_v158 (broadcastInDim S2900000x1 ![0] bcast_S2900000_S2900000x1_0),
    nullary main_c_28 (constantI S_ 32 0#32),
    unary main_c_28 main_v159 (broadcastInDim S2900000 ![] bcast_S_S2900000),
    binary main_v5 main_v159 main_v160 (cmpi .slt),
    nullary main_c_29 (constantI S_ 32 400000#32),
    unary main_c_29 main_v161 (broadcastInDim S2900000 ![] bcast_S_S2900000),
    binary main_v5 main_v161 main_v162 (addi),
    ternary main_v160 main_v162 main_v5 main_v163 (select),
    unary main_v163 main_v164 (broadcastInDim S2900000x1 ![0] bcast_S2900000_S2900000x1_0),
    binary main_v157 main_v164 main_v165 (fun x i => Host.gather gather_S400000x32_S2900000x1_S2900000x32_1_0_n_n_0_1_132 x i),
    unary main_v158 main_v166 (broadcastInDim S2900000x32 ![0, 1] bcast_S2900000x1_S2900000x32_0_1),
    binary main_v166 main_v165 main_v167 (mulf),
    nullary main_cst_30 (constant S_ .f32 0x00000000#32),
    unary main_cst_30 main_v168 (broadcastInDim S400000x32 ![] bcast_S_S400000x32),
    unary main_v6 main_v169 (broadcastInDim S2900000x1 ![0] bcast_S2900000_S2900000x1_0),
    ternary main_v168 main_v169 main_v167 main_v170 (fun x i u => Host.scatterAdd scatter_S400000x32_S2900000x1_S2900000x32_1_0_0_1 x i u) ]

abbrev oAgg3a_W : List (Ref sig .tc) := [main_v158, main_c_28, main_v159, main_v160, main_c_29, main_v161, main_v162, main_v163, main_v164, main_v165, main_v166, main_v167, main_cst_30, main_v168, main_v169, main_v170]

theorem oAgg3a_writes : (oAgg3a : List (HloOp τ sig (Elt F))).Forall fun op => op.writes ⊆ (oAgg3a_W.map (Proc.devRef (τ := τ) .tc)).toFinset := by
  unfold oAgg3a
  simp only [List.Forall, nullary_writes, unary_writes, binary_writes, ternary_writes, quaternary_writes, reshape_writes, Finset.singleton_subset_iff, List.mem_toFinset]
  repeat' refine And.intro ?_ ?_
  all_goals exact List.mem_map_of_mem (by decide)

theorem oAgg3a_keep (W : Valuation τ sig (Elt F)) (r : Ref sig .tc) (h : r ∉ oAgg3a_W) :
    after oAgg3a W (no_index (Proc.devRef .tc r)) = W (Proc.devRef .tc r) :=
  after_of_writes_sub oAgg3a W oAgg3a_writes h

def oAgg3b : List (HloOp τ sig (Elt F)) :=
  [ unary main_arg11 main_v171 (broadcastInDim S1x32 ![1] bcast_S32_S1x32_1),
    unary main_v171 main_v172 (broadcastInDim S400000x32 ![0, 1] bcast_S1x32_S400000x32_0_1),
    binary main_v170 main_v172 main_v173 (addf) ]

abbrev oAgg3b_W : List (Ref sig .tc) := [main_v171, main_v172, main_v173]

theorem oAgg3b_writes : (oAgg3b : List (HloOp τ sig (Elt F))).Forall fun op => op.writes ⊆ (oAgg3b_W.map (Proc.devRef (τ := τ) .tc)).toFinset := by
  unfold oAgg3b
  simp only [List.Forall, nullary_writes, unary_writes, binary_writes, ternary_writes, quaternary_writes, reshape_writes, Finset.singleton_subset_iff, List.mem_toFinset]
  repeat' refine And.intro ?_ ?_
  all_goals exact List.mem_map_of_mem (by decide)

theorem oAgg3b_keep (W : Valuation τ sig (Elt F)) (r : Ref sig .tc) (h : r ∉ oAgg3b_W) :
    after oAgg3b W (no_index (Proc.devRef .tc r)) = W (Proc.devRef .tc r) :=
  after_of_writes_sub oAgg3b W oAgg3b_writes h

def oPool : List (HloOp τ sig (Elt F)) :=
  [ nullary main_cst_31 (constant S_ .f32 0x00000000#32),
    unary main_cst_31 main_v174 (broadcastInDim S512x32 ![] bcast_S_S512x32),
    unary main_arg3 main_v175 (broadcastInDim S400000x1 ![0] bcast_S400000_S400000x1_0),
    ternary main_v174 main_v175 main_v173 main_v176 (fun x i u => Host.scatterAdd scatter_S512x32_S400000x1_S400000x32_1_0_0_1 x i u) ]

abbrev oPool_W : List (Ref sig .tc) := [main_cst_31, main_v174, main_v175, main_v176]

theorem oPool_writes : (oPool : List (HloOp τ sig (Elt F))).Forall fun op => op.writes ⊆ (oPool_W.map (Proc.devRef (τ := τ) .tc)).toFinset := by
  unfold oPool
  simp only [List.Forall, nullary_writes, unary_writes, binary_writes, ternary_writes, quaternary_writes, reshape_writes, Finset.singleton_subset_iff, List.mem_toFinset]
  repeat' refine And.intro ?_ ?_
  all_goals exact List.mem_map_of_mem (by decide)

theorem oPool_keep (W : Valuation τ sig (Elt F)) (r : Ref sig .tc) (h : r ∉ oPool_W) :
    after oPool W (no_index (Proc.devRef .tc r)) = W (Proc.devRef .tc r) :=
  after_of_writes_sub oPool W oPool_writes h

def oHLin : List (HloOp τ sig (Elt F)) :=
  [ binary main_v176 main_arg14 main_v177 (fun l r => Host.dotGeneral dot_S512x32_S32x32_S512x32_1_0_0_1_n_n none l r),
    unary main_arg15 main_v178 (broadcastInDim S1x32 ![1] bcast_S32_S1x32_1),
    unary main_v178 main_v179 (broadcastInDim S512x32 ![0, 1] bcast_S1x32_S512x32_0_1),
    binary main_v177 main_v179 main_v180 (addf) ]

abbrev oHLin_W : List (Ref sig .tc) := [main_v177, main_v178, main_v179, main_v180]

theorem oHLin_writes : (oHLin : List (HloOp τ sig (Elt F))).Forall fun op => op.writes ⊆ (oHLin_W.map (Proc.devRef (τ := τ) .tc)).toFinset := by
  unfold oHLin
  simp only [List.Forall, nullary_writes, unary_writes, binary_writes, ternary_writes, quaternary_writes, reshape_writes, Finset.singleton_subset_iff, List.mem_toFinset]
  repeat' refine And.intro ?_ ?_
  all_goals exact List.mem_map_of_mem (by decide)

theorem oHLin_keep (W : Valuation τ sig (Elt F)) (r : Ref sig .tc) (h : r ∉ oHLin_W) :
    after oHLin W (no_index (Proc.devRef .tc r)) = W (Proc.devRef .tc r) :=
  after_of_writes_sub oHLin W oHLin_writes h

def oHMean : List (HloOp τ sig (Elt F)) :=
  [ nullary main_cst_32 (constant S_ .f32 0x00000000#32),
    binary main_v180 main_cst_32 main_v181 (fun x v => Host.reduceAdd x v reducesTo_S512x32_S32_d0 h_S_),
    nullary main_cst_33 (constant S_ .f32 0x44000000#32),
    unary main_cst_33 main_v182 (broadcastInDim S32 ![] bcast_S_S32),
    binary main_v181 main_v182 main_v183 (Host.divf) ]

abbrev oHMean_W : List (Ref sig .tc) := [main_cst_32, main_v181, main_cst_33, main_v182, main_v183]

theorem oHMean_writes : (oHMean : List (HloOp τ sig (Elt F))).Forall fun op => op.writes ⊆ (oHMean_W.map (Proc.devRef (τ := τ) .tc)).toFinset := by
  unfold oHMean
  simp only [List.Forall, nullary_writes, unary_writes, binary_writes, ternary_writes, quaternary_writes, reshape_writes, Finset.singleton_subset_iff, List.mem_toFinset]
  repeat' refine And.intro ?_ ?_
  all_goals exact List.mem_map_of_mem (by decide)

theorem oHMean_keep (W : Valuation τ sig (Elt F)) (r : Ref sig .tc) (h : r ∉ oHMean_W) :
    after oHMean W (no_index (Proc.devRef .tc r)) = W (Proc.devRef .tc r) :=
  after_of_writes_sub oHMean W oHMean_writes h

def oHVar : List (HloOp τ sig (Elt F)) :=
  [ nullary main_c_34 (constantI S_ 32 0#32),
    nullary main_call7_cst (constant S_ .f32 0x00000000#32),
    binary main_v180 main_call7_cst main_call7_v0 (fun x v => Host.reduceAdd x v reducesTo_S512x32_S32_d0 h_S_),
    unary main_call7_v0 main_call7_v1 (broadcastInDim S1x32 ![1] bcast_S32_S1x32_1),
    nullary main_call7_cst_0 (constant S_ .f32 0x44000000#32),
    unary main_call7_cst_0 main_call7_v2 (broadcastInDim S1x32 ![] bcast_S_S1x32),
    binary main_call7_v1 main_call7_v2 main_call7_v3 (Host.divf),
    unary main_call7_v3 main_call7_v4 (broadcastInDim S512x32 ![0, 1] bcast_S1x32_S512x32_0_1),
    binary main_v180 main_call7_v4 main_call7_v5 (subf),
    binary main_call7_v5 main_call7_v5 main_call7_v6 (mulf),
    unary main_c_34 main_call7_v7 (sitofp .f32),
    nullary main_call7_cst_1 (constant S_ .f32 0x44000000#32),
    binary main_call7_cst_1 main_call7_v7 main_call7_v8 (subf),
    nullary main_call7_cst_2 (constant S_ .f32 0x00000000#32),
    binary main_call7_v6 main_call7_cst_2 main_call7_v9 (fun x v => Host.reduceAdd x v reducesTo_S512x32_S32_d0 h_S_),
    unary main_call7_v8 main_call7_v10 (broadcastInDim S32 ![] bcast_S_S32),
    binary main_call7_v9 main_call7_v10 main_call7_v11 (Host.divf),
    nullary main_call7_cst_3 (constant S_ .f32 0x00000000#32),
    binary main_call7_v8 main_call7_cst_3 main_call7_v12 (cmpf .ogt),
    nullary main_call7_cst_4 (constant S_ .f32 0x7FC00000#32),
    unary main_call7_cst_4 main_call7_call0_v0 (id),
    unary main_call7_call0_v0 main_call7_call0_v1 (broadcastInDim S32 ![] bcast_S_S32),
    ternary main_call7_v12 main_call7_v11 main_call7_call0_v1 main_v184 (fun p a b => select (broadcastInDim S32 ![] bcast_S_S32 p) a b) ]

abbrev oHVar_W : List (Ref sig .tc) := [main_c_34, main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_cst_3, main_call7_v12, main_call7_cst_4, main_call7_call0_v0, main_call7_call0_v1, main_v184]

theorem oHVar_writes : (oHVar : List (HloOp τ sig (Elt F))).Forall fun op => op.writes ⊆ (oHVar_W.map (Proc.devRef (τ := τ) .tc)).toFinset := by
  unfold oHVar
  simp only [List.Forall, nullary_writes, unary_writes, binary_writes, ternary_writes, quaternary_writes, reshape_writes, Finset.singleton_subset_iff, List.mem_toFinset]
  repeat' refine And.intro ?_ ?_
  all_goals exact List.mem_map_of_mem (by decide)

theorem oHVar_keep (W : Valuation τ sig (Elt F)) (r : Ref sig .tc) (h : r ∉ oHVar_W) :
    after oHVar W (no_index (Proc.devRef .tc r)) = W (Proc.devRef .tc r) :=
  after_of_writes_sub oHVar W oHVar_writes h

def oHBna : List (HloOp τ sig (Elt F)) :=
  [ unary main_v183 main_v185 (broadcastInDim S1x32 ![1] bcast_S32_S1x32_1),
    unary main_v185 main_v186 (broadcastInDim S512x32 ![0, 1] bcast_S1x32_S512x32_0_1),
    binary main_v180 main_v186 main_v187 (subf),
    nullary main_cst_35 (constant S_ .f32 0x3727C5AC#32),
    unary main_cst_35 main_v188 (broadcastInDim S32 ![] bcast_S_S32),
    binary main_v184 main_v188 main_v189 (addf),
    unary main_v189 main_v190 (Host.rsqrt),
    unary main_v190 main_v191 (broadcastInDim S1x32 ![1] bcast_S32_S1x32_1),
    unary main_v191 main_v192 (broadcastInDim S512x32 ![0, 1] bcast_S1x32_S512x32_0_1),
    binary main_v187 main_v192 main_v193 (mulf) ]

abbrev oHBna_W : List (Ref sig .tc) := [main_v185, main_v186, main_v187, main_cst_35, main_v188, main_v189, main_v190, main_v191, main_v192, main_v193]

theorem oHBna_writes : (oHBna : List (HloOp τ sig (Elt F))).Forall fun op => op.writes ⊆ (oHBna_W.map (Proc.devRef (τ := τ) .tc)).toFinset := by
  unfold oHBna
  simp only [List.Forall, nullary_writes, unary_writes, binary_writes, ternary_writes, quaternary_writes, reshape_writes, Finset.singleton_subset_iff, List.mem_toFinset]
  repeat' refine And.intro ?_ ?_
  all_goals exact List.mem_map_of_mem (by decide)

theorem oHBna_keep (W : Valuation τ sig (Elt F)) (r : Ref sig .tc) (h : r ∉ oHBna_W) :
    after oHBna W (no_index (Proc.devRef .tc r)) = W (Proc.devRef .tc r) :=
  after_of_writes_sub oHBna W oHBna_writes h

def oHBnb : List (HloOp τ sig (Elt F)) :=
  [ unary main_arg16 main_v194 (broadcastInDim S1x32 ![1] bcast_S32_S1x32_1),
    unary main_v194 main_v195 (broadcastInDim S512x32 ![0, 1] bcast_S1x32_S512x32_0_1),
    binary main_v193 main_v195 main_v196 (mulf),
    unary main_arg17 main_v197 (broadcastInDim S1x32 ![1] bcast_S32_S1x32_1),
    unary main_v197 main_v198 (broadcastInDim S512x32 ![0, 1] bcast_S1x32_S512x32_0_1),
    binary main_v196 main_v198 main_v199 (addf),
    nullary main_call8_cst (constant S_ .f32 0x00000000#32),
    unary main_call8_cst main_call8_v0 (broadcastInDim S512x32 ![] bcast_S_S512x32),
    binary main_v199 main_call8_v0 main_v200 (maximumf) ]

abbrev oHBnb_W : List (Ref sig .tc) := [main_v194, main_v195, main_v196, main_v197, main_v198, main_v199, main_call8_cst, main_call8_v0, main_v200]

theorem oHBnb_writes : (oHBnb : List (HloOp τ sig (Elt F))).Forall fun op => op.writes ⊆ (oHBnb_W.map (Proc.devRef (τ := τ) .tc)).toFinset := by
  unfold oHBnb
  simp only [List.Forall, nullary_writes, unary_writes, binary_writes, ternary_writes, quaternary_writes, reshape_writes, Finset.singleton_subset_iff, List.mem_toFinset]
  repeat' refine And.intro ?_ ?_
  all_goals exact List.mem_map_of_mem (by decide)

theorem oHBnb_keep (W : Valuation τ sig (Elt F)) (r : Ref sig .tc) (h : r ∉ oHBnb_W) :
    after oHBnb W (no_index (Proc.devRef .tc r)) = W (Proc.devRef .tc r) :=
  after_of_writes_sub oHBnb W oHBnb_writes h

def oOut1 : List (HloOp τ sig (Elt F)) :=
  [ binary main_v200 main_arg18 main_v201 (fun l r => Host.dotGeneral dot_S512x32_S32x2_S512x2_1_0_0_1_n_n none l r) ]

abbrev oOut1_W : List (Ref sig .tc) := [main_v201]

theorem oOut1_writes : (oOut1 : List (HloOp τ sig (Elt F))).Forall fun op => op.writes ⊆ (oOut1_W.map (Proc.devRef (τ := τ) .tc)).toFinset := by
  unfold oOut1
  simp only [List.Forall, nullary_writes, unary_writes, binary_writes, ternary_writes, quaternary_writes, reshape_writes, Finset.singleton_subset_iff, List.mem_toFinset]
  repeat' refine And.intro ?_ ?_
  all_goals exact List.mem_map_of_mem (by decide)

theorem oOut1_keep (W : Valuation τ sig (Elt F)) (r : Ref sig .tc) (h : r ∉ oOut1_W) :
    after oOut1 W (no_index (Proc.devRef .tc r)) = W (Proc.devRef .tc r) :=
  after_of_writes_sub oOut1 W oOut1_writes h

def oOut2 : List (HloOp τ sig (Elt F)) :=
  [ unary main_arg19 main_v202 (broadcastInDim S1x2 ![1] bcast_S2_S1x2_1),
    unary main_v202 main_v203 (broadcastInDim S512x2 ![0, 1] bcast_S1x2_S512x2_0_1),
    binary main_v201 main_v203 main_v204 (addf) ]

abbrev oOut2_W : List (Ref sig .tc) := [main_v202, main_v203, main_v204]

theorem oOut2_writes : (oOut2 : List (HloOp τ sig (Elt F))).Forall fun op => op.writes ⊆ (oOut2_W.map (Proc.devRef (τ := τ) .tc)).toFinset := by
  unfold oOut2
  simp only [List.Forall, nullary_writes, unary_writes, binary_writes, ternary_writes, quaternary_writes, reshape_writes, Finset.singleton_subset_iff, List.mem_toFinset]
  repeat' refine And.intro ?_ ?_
  all_goals exact List.mem_map_of_mem (by decide)

theorem oOut2_keep (W : Valuation τ sig (Elt F)) (r : Ref sig .tc) (h : r ∉ oOut2_W) :
    after oOut2 W (no_index (Proc.devRef .tc r)) = W (Proc.devRef .tc r) :=
  after_of_writes_sub oOut2 W oOut2_writes h

def opsP0 : List (HloOp τ sig (Elt F)) := oIdx ++ (oDinv ++ (oNorm ++ (oLin0 ++ (oAgg0a))))

def opsP1 : List (HloOp τ sig (Elt F)) := oAgg0b ++ (oRow0 ++ (oMean0 ++ (oVar0 ++ (oBn0a ++ (oBn0b ++ (oLin1 ++ (oAgg1a ++ (oAgg1b ++ (oRow1 ++ (oMean1))))))))))

def opsP2 : List (HloOp τ sig (Elt F)) := oVar1 ++ (oBn1a ++ (oBn1b ++ (oLin2 ++ (oAgg2a ++ (oAgg2b ++ (oRow2 ++ (oMean2 ++ (oVar2 ++ (oBn2a)))))))))

def opsP3 : List (HloOp τ sig (Elt F)) := oBn2b ++ (oLin3 ++ (oAgg3a ++ (oAgg3b ++ (oPool ++ (oHLin ++ (oHMean ++ (oHVar ++ (oHBna ++ (oHBnb ++ (oOut1))))))))))

def opsP4 : List (HloOp τ sig (Elt F)) := oOut2

def ops : List (HloOp τ sig (Elt F)) := opsP0 ++ (opsP1 ++ (opsP2 ++ (opsP3 ++ (opsP4))))

end Cert.ReferenceIdeal.Hand

end
-- ==== Proof.RefRunMain.lean ====
import proofs.«419458_j79517024518684_2_alg».proof.Proof.RefOps

set_option maxRecDepth 16384

noncomputable section

namespace Cert.ReferenceIdeal.Hand

open Cert.ReferenceIdeal Idealize.ShloMosaic Idealize.ShloMosaic.TcCoe Idealize.SL.Sem Idealize.ShloMosaic.StableHlo

variable [Cert.ReferenceIdeal.Facts]
open Cert.ReferenceIdeal.Facts₀ Cert.ReferenceIdeal.Facts

variable {F : FTy → Type} [FloatOps F]

set_option maxHeartbeats 4000000 in
theorem main_part0_eq (c : Dev nD) : main_part0 (F := F) c = seq opsP0 := rfl
set_option maxHeartbeats 4000000 in
theorem main_part1_eq (c : Dev nD) : main_part1 (F := F) c = seq opsP1 := rfl
set_option maxHeartbeats 4000000 in
theorem main_part2_eq (c : Dev nD) : main_part2 (F := F) c = seq opsP2 := rfl
set_option maxHeartbeats 4000000 in
theorem main_part3_eq (c : Dev nD) : main_part3 (F := F) c = seq opsP3 := rfl
set_option maxHeartbeats 4000000 in
theorem main_part4_eq (c : Dev nD) : main_part4 (F := F) c = seq opsP4 := rfl

theorem main_eq (c : Dev nD) : main (F := F) c = seq ops := by
  simp only [ops, seq_append, ← main_part0_eq c, ← main_part1_eq c, ← main_part2_eq c, ← main_part3_eq c,
    ← main_part4_eq c]
  rfl

theorem scopedRefs_eq : (Finset.univ.filter fun b : Ref sig .tc => b.isScoped) = ∅ := by decide
theorem scopedSems_eq : (Finset.univ.filter fun sm : SemLoc sig => sm.isScoped .tc) = ∅ := by decide

-- Every operation touches TensorCore references only: read off the literal list, builder by builder.
theorem ops_sub : (ops : List (HloOp τ sig (Elt F))).Forall fun op => op.bufs ⊆ tcRefs τ sig := by
  simp only [ops, opsP0, opsP1, opsP2, opsP3, opsP4, oIdx, oDinv, oNorm, oLin0, oAgg0a, oAgg0b, oRow0, oMean0, oVar0, oBn0a, oBn0b, oLin1, oAgg1a, oAgg1b, oRow1, oMean1, oVar1, oBn1a, oBn1b, oLin2, oAgg2a, oAgg2b, oRow2, oMean2, oVar2, oBn2a, oBn2b, oLin3, oAgg3a, oAgg3b, oPool, oHLin, oHMean, oHVar, oHBna, oHBnb, oOut1, oOut2, List.cons_append, List.nil_append, List.Forall,
    nullary_bufs_sub, unary_bufs_sub, binary_bufs_sub, ternary_bufs_sub, quaternary_bufs_sub, reshape_bufs_sub, and_self]

-- No operation allocates.
theorem ops_fresh : ∀ op ∈ (ops : List (HloOp τ sig (Elt F))), op.fresh = ∅ := by
  refine List.forall_iff_forall_mem.mp ?_
  simp only [ops, opsP0, opsP1, opsP2, opsP3, opsP4, oIdx, oDinv, oNorm, oLin0, oAgg0a, oAgg0b, oRow0, oMean0, oVar0, oBn0a, oBn0b, oLin1, oAgg1a, oAgg1b, oRow1, oMean1, oVar1, oBn1a, oBn1b, oLin2, oAgg2a, oAgg2b, oRow2, oMean2, oVar2, oBn2a, oBn2b, oLin3, oAgg3a, oAgg3b, oPool, oHLin, oHMean, oHVar, oHBna, oHBnb, oOut1, oOut2, List.cons_append, List.nil_append, List.Forall]
  repeat' refine And.intro ?_ ?_
  all_goals rfl

end Cert.ReferenceIdeal.Hand

end
-- ==== Proof.RefTerms.lean ====
import proofs.«419458_j79517024518684_2_alg».proof.ReferenceIdeal
import Idealize.ShloMosaic.PureOps.Ideal

set_option maxRecDepth 4096

noncomputable section

namespace Cert.ReferenceIdeal.Hand

open Cert.ReferenceIdeal
open Idealize.ShloMosaic

variable [Cert.ReferenceIdeal.Facts]
open Cert.ReferenceIdeal.Facts₀ Cert.ReferenceIdeal.Facts

def rV5 (ei : IVec S2x2500000 32) : IVec S2900000 32 :=
  concatenate S2900000 0 [⟨S2500000, shapeCast S2500000 (extractStridedSlice S1x2500000 ![0, 0] (ei) slices_S2x2500000_S1x2500000_0_0) shapeCasts_S1x2500000_S2500000⟩, ⟨S400000, iotaInDim S400000 32 0⟩] concatenates_S2500000_S400000_S2900000_d0

def rV6 (ei : IVec S2x2500000 32) : IVec S2900000 32 :=
  concatenate S2900000 0 [⟨S2500000, shapeCast S2500000 (extractStridedSlice S1x2500000 ![1, 0] (ei) slices_S2x2500000_S1x2500000_1_0) shapeCasts_S1x2500000_S2500000⟩, ⟨S400000, iotaInDim S400000 32 0⟩] concatenates_S2500000_S400000_S2900000_d0

def rV8 (ea : FVec Ideal S2500000 .f32) : FVec Ideal S2900000 .f32 :=
  concatenate S2900000 0 [⟨S2500000, ea⟩, ⟨S400000, broadcastInDim S400000 ![] bcast_S_S400000 (constant (F := Ideal) S_ .f32 0x3F800000#32)⟩] concatenates_S2500000_S400000_S2900000_d0

def rDinv (v6 : IVec S2900000 32) (v8 : FVec Ideal S2900000 .f32) : FVec Ideal S400000 .f32 :=
  select (cmpf .ogt (Host.scatterAdd scatter_S400000_S2900000x1_S2900000_n_0_0_1 (broadcastInDim S400000 ![] bcast_S_S400000 (constant (F := Ideal) S_ .f32 0x00000000#32)) (broadcastInDim S2900000x1 ![0] bcast_S2900000_S2900000x1_0 (v6)) (v8)) (broadcastInDim S400000 ![] bcast_S_S400000 (constant (F := Ideal) S_ .f32 0x00000000#32))) (Host.rsqrt (maximumf (Host.scatterAdd scatter_S400000_S2900000x1_S2900000_n_0_0_1 (broadcastInDim S400000 ![] bcast_S_S400000 (constant (F := Ideal) S_ .f32 0x00000000#32)) (broadcastInDim S2900000x1 ![0] bcast_S2900000_S2900000x1_0 (v6)) (v8)) (broadcastInDim S400000 ![] bcast_S_S400000 (constant (F := Ideal) S_ .f32 0x3727C5AC#32)))) (broadcastInDim S400000 ![] bcast_S_S400000 (constant (F := Ideal) S_ .f32 0x00000000#32))

def rV33 (v5 v6 : IVec S2900000 32) (v8 : FVec Ideal S2900000 .f32) (dinv : FVec Ideal S400000 .f32) : FVec Ideal S2900000 .f32 :=
  mulf (mulf (Host.gather gather_S400000_S2900000x1_S2900000_n_0_n_n_0_1_1 (dinv) (broadcastInDim S2900000x1 ![0] bcast_S2900000_S2900000x1_0 (select (cmpi .slt (v5) (broadcastInDim S2900000 ![] bcast_S_S2900000 (constantI S_ 32 0#32))) (addi (v5) (broadcastInDim S2900000 ![] bcast_S_S2900000 (constantI S_ 32 400000#32))) (v5)))) (v8)) (Host.gather gather_S400000_S2900000x1_S2900000_n_0_n_n_0_1_1 (dinv) (broadcastInDim S2900000x1 ![0] bcast_S2900000_S2900000x1_0 (select (cmpi .slt (v6) (broadcastInDim S2900000 ![] bcast_S_S2900000 (constantI S_ 32 0#32))) (addi (v6) (broadcastInDim S2900000 ![] bcast_S_S2900000 (constantI S_ 32 400000#32))) (v6))))

def rAgg (hw : FVec Ideal S400000x32 .f32) (v5 v6 : IVec S2900000 32) (v33 : FVec Ideal S2900000 .f32) (b : FVec Ideal S32 .f32) : FVec Ideal S400000x32 .f32 :=
  addf (Host.scatterAdd scatter_S400000x32_S2900000x1_S2900000x32_1_0_0_1 (broadcastInDim S400000x32 ![] bcast_S_S400000x32 (constant (F := Ideal) S_ .f32 0x00000000#32)) (broadcastInDim S2900000x1 ![0] bcast_S2900000_S2900000x1_0 (v6)) (mulf (broadcastInDim S2900000x32 ![0, 1] bcast_S2900000x1_S2900000x32_0_1 (broadcastInDim S2900000x1 ![0] bcast_S2900000_S2900000x1_0 (v33))) (Host.gather gather_S400000x32_S2900000x1_S2900000x32_1_0_n_n_0_1_132 (hw) (broadcastInDim S2900000x1 ![0] bcast_S2900000_S2900000x1_0 (select (cmpi .slt (v5) (broadcastInDim S2900000 ![] bcast_S_S2900000 (constantI S_ 32 0#32))) (addi (v5) (broadcastInDim S2900000 ![] bcast_S_S2900000 (constantI S_ 32 400000#32))) (v5)))))) (broadcastInDim S400000x32 ![0, 1] bcast_S1x32_S400000x32_0_1 (broadcastInDim S1x32 ![1] bcast_S32_S1x32_1 (b)))

def rVar (h : FVec Ideal S400000x32 .f32) : FVec Ideal S32 .f32 :=
  select (broadcastInDim S32 ![] bcast_S_S32 (cmpf .ogt (subf (constant (F := Ideal) S_ .f32 0x48C35000#32) (sitofp .f32 (constantI S_ 32 0#32))) (constant (F := Ideal) S_ .f32 0x00000000#32))) (Host.divf (Host.reduceAdd (mulf (subf (h) (broadcastInDim S400000x32 ![0, 1] bcast_S1x32_S400000x32_0_1 (Host.divf (broadcastInDim S1x32 ![1] bcast_S32_S1x32_1 (Host.reduceAdd (h) (constant (F := Ideal) S_ .f32 0x00000000#32) reducesTo_S400000x32_S32_d0 h_S_)) (broadcastInDim S1x32 ![] bcast_S_S1x32 (constant (F := Ideal) S_ .f32 0x48C35000#32))))) (subf (h) (broadcastInDim S400000x32 ![0, 1] bcast_S1x32_S400000x32_0_1 (Host.divf (broadcastInDim S1x32 ![1] bcast_S32_S1x32_1 (Host.reduceAdd (h) (constant (F := Ideal) S_ .f32 0x00000000#32) reducesTo_S400000x32_S32_d0 h_S_)) (broadcastInDim S1x32 ![] bcast_S_S1x32 (constant (F := Ideal) S_ .f32 0x48C35000#32)))))) (constant (F := Ideal) S_ .f32 0x00000000#32) reducesTo_S400000x32_S32_d0 h_S_) (broadcastInDim S32 ![] bcast_S_S32 (subf (constant (F := Ideal) S_ .f32 0x48C35000#32) (sitofp .f32 (constantI S_ 32 0#32))))) (broadcastInDim S32 ![] bcast_S_S32 (constant (F := Ideal) S_ .f32 0x7FC00000#32))

def rRelu (x : FVec Ideal S400000x32 .f32) : FVec Ideal S400000x32 .f32 :=
  maximumf (x) (broadcastInDim S400000x32 ![] bcast_S_S400000x32 (constant (F := Ideal) S_ .f32 0x00000000#32))

def rBN (h : FVec Ideal S400000x32 .f32) (g b : FVec Ideal S32 .f32) : FVec Ideal S400000x32 .f32 :=
  rRelu (addf (mulf (mulf (subf (h) (broadcastInDim S400000x32 ![0, 1] bcast_S1x32_S400000x32_0_1 (broadcastInDim S1x32 ![1] bcast_S32_S1x32_1 (Host.divf (Host.reduceAdd (h) (constant (F := Ideal) S_ .f32 0x00000000#32) reducesTo_S400000x32_S32_d0 h_S_) (broadcastInDim S32 ![] bcast_S_S32 (constant (F := Ideal) S_ .f32 0x48C35000#32)))))) (broadcastInDim S400000x32 ![0, 1] bcast_S1x32_S400000x32_0_1 (broadcastInDim S1x32 ![1] bcast_S32_S1x32_1 (Host.rsqrt (addf (rVar (h)) (broadcastInDim S32 ![] bcast_S_S32 (constant (F := Ideal) S_ .f32 0x3727C5AC#32))))))) (broadcastInDim S400000x32 ![0, 1] bcast_S1x32_S400000x32_0_1 (broadcastInDim S1x32 ![1] bcast_S32_S1x32_1 (g)))) (broadcastInDim S400000x32 ![0, 1] bcast_S1x32_S400000x32_0_1 (broadcastInDim S1x32 ![1] bcast_S32_S1x32_1 (b))))

def rRow0 (p : FVec Ideal S3x32 .f32) : FVec Ideal S32 .f32 := shapeCast S32 (extractStridedSlice S1x32 ![0, 0] (p) slices_S3x32_S1x32_0_0) shapeCasts_S1x32_S32
def rRow1 (p : FVec Ideal S3x32 .f32) : FVec Ideal S32 .f32 := shapeCast S32 (extractStridedSlice S1x32 ![1, 0] (p) slices_S3x32_S1x32_1_0) shapeCasts_S1x32_S32
def rRow2 (p : FVec Ideal S3x32 .f32) : FVec Ideal S32 .f32 := shapeCast S32 (extractStridedSlice S1x32 ![2, 0] (p) slices_S3x32_S1x32_2_0) shapeCasts_S1x32_S32

def rLin7 (x : FVec Ideal S400000x7 .f32) (w : FVec Ideal S7x32 .f32) : FVec Ideal S400000x32 .f32 :=
  Host.dotGeneral dot_S400000x7_S7x32_S400000x32_1_0_0_1_n_n none (x) (w)
def rLin32 (x : FVec Ideal S400000x32 .f32) (w : FVec Ideal S32x32 .f32) : FVec Ideal S400000x32 .f32 :=
  Host.dotGeneral dot_S400000x32_S32x32_S400000x32_1_0_0_1_n_n none (x) (w)

def rPool (h : FVec Ideal S400000x32 .f32) (batch : IVec S400000 32) : FVec Ideal S512x32 .f32 :=
  Host.scatterAdd scatter_S512x32_S400000x1_S400000x32_1_0_0_1 (broadcastInDim S512x32 ![] bcast_S_S512x32 (constant (F := Ideal) S_ .f32 0x00000000#32)) (broadcastInDim S400000x1 ![0] bcast_S400000_S400000x1_0 (batch)) (h)

def rVar512 (h : FVec Ideal S512x32 .f32) : FVec Ideal S32 .f32 :=
  select (broadcastInDim S32 ![] bcast_S_S32 (cmpf .ogt (subf (constant (F := Ideal) S_ .f32 0x44000000#32) (sitofp .f32 (constantI S_ 32 0#32))) (constant (F := Ideal) S_ .f32 0x00000000#32))) (Host.divf (Host.reduceAdd (mulf (subf (h) (broadcastInDim S512x32 ![0, 1] bcast_S1x32_S512x32_0_1 (Host.divf (broadcastInDim S1x32 ![1] bcast_S32_S1x32_1 (Host.reduceAdd (h) (constant (F := Ideal) S_ .f32 0x00000000#32) reducesTo_S512x32_S32_d0 h_S_)) (broadcastInDim S1x32 ![] bcast_S_S1x32 (constant (F := Ideal) S_ .f32 0x44000000#32))))) (subf (h) (broadcastInDim S512x32 ![0, 1] bcast_S1x32_S512x32_0_1 (Host.divf (broadcastInDim S1x32 ![1] bcast_S32_S1x32_1 (Host.reduceAdd (h) (constant (F := Ideal) S_ .f32 0x00000000#32) reducesTo_S512x32_S32_d0 h_S_)) (broadcastInDim S1x32 ![] bcast_S_S1x32 (constant (F := Ideal) S_ .f32 0x44000000#32)))))) (constant (F := Ideal) S_ .f32 0x00000000#32) reducesTo_S512x32_S32_d0 h_S_) (broadcastInDim S32 ![] bcast_S_S32 (subf (constant (F := Ideal) S_ .f32 0x44000000#32) (sitofp .f32 (constantI S_ 32 0#32))))) (broadcastInDim S32 ![] bcast_S_S32 (constant (F := Ideal) S_ .f32 0x7FC00000#32))

def rRelu512 (x : FVec Ideal S512x32 .f32) : FVec Ideal S512x32 .f32 :=
  maximumf (x) (broadcastInDim S512x32 ![] bcast_S_S512x32 (constant (F := Ideal) S_ .f32 0x00000000#32))

def rHead (g : FVec Ideal S512x32 .f32) (w0 : FVec Ideal S32x32 .f32) (b0 gg gb : FVec Ideal S32 .f32) (w1 : FVec Ideal S32x2 .f32) (b1 : FVec Ideal S2 .f32) : FVec Ideal S512x2 .f32 :=
  addf (Host.dotGeneral dot_S512x32_S32x2_S512x2_1_0_0_1_n_n none (rRelu512 (addf (mulf (mulf (subf (addf (Host.dotGeneral dot_S512x32_S32x32_S512x32_1_0_0_1_n_n none (g) (w0)) (broadcastInDim S512x32 ![0, 1] bcast_S1x32_S512x32_0_1 (broadcastInDim S1x32 ![1] bcast_S32_S1x32_1 (b0)))) (broadcastInDim S512x32 ![0, 1] bcast_S1x32_S512x32_0_1 (broadcastInDim S1x32 ![1] bcast_S32_S1x32_1 (Host.divf (Host.reduceAdd (addf (Host.dotGeneral dot_S512x32_S32x32_S512x32_1_0_0_1_n_n none (g) (w0)) (broadcastInDim S512x32 ![0, 1] bcast_S1x32_S512x32_0_1 (broadcastInDim S1x32 ![1] bcast_S32_S1x32_1 (b0)))) (constant (F := Ideal) S_ .f32 0x00000000#32) reducesTo_S512x32_S32_d0 h_S_) (broadcastInDim S32 ![] bcast_S_S32 (constant (F := Ideal) S_ .f32 0x44000000#32)))))) (broadcastInDim S512x32 ![0, 1] bcast_S1x32_S512x32_0_1 (broadcastInDim S1x32 ![1] bcast_S32_S1x32_1 (Host.rsqrt (addf (rVar512 (addf (Host.dotGeneral dot_S512x32_S32x32_S512x32_1_0_0_1_n_n none (g) (w0)) (broadcastInDim S512x32 ![0, 1] bcast_S1x32_S512x32_0_1 (broadcastInDim S1x32 ![1] bcast_S32_S1x32_1 (b0))))) (broadcastInDim S32 ![] bcast_S_S32 (constant (F := Ideal) S_ .f32 0x3727C5AC#32))))))) (broadcastInDim S512x32 ![0, 1] bcast_S1x32_S512x32_0_1 (broadcastInDim S1x32 ![1] bcast_S32_S1x32_1 (gg)))) (broadcastInDim S512x32 ![0, 1] bcast_S1x32_S512x32_0_1 (broadcastInDim S1x32 ![1] bcast_S32_S1x32_1 (gb))))) (w1)) (broadcastInDim S512x2 ![0, 1] bcast_S1x2_S512x2_0_1 (broadcastInDim S1x2 ![1] bcast_S2_S1x2_1 (b1)))

def refOut (a0 : FVec Ideal S400000x7 .f32) (a1 : IVec S2x2500000 32) (a2 : FVec Ideal S2500000 .f32) (a3 : IVec S400000 32)
    (a4 : FVec Ideal S7x32 .f32) (a5 : FVec Ideal S32 .f32) (a6 : FVec Ideal S32x32 .f32) (a7 : FVec Ideal S32 .f32) (a8 : FVec Ideal S32x32 .f32) (a9 : FVec Ideal S32 .f32)
    (a10 : FVec Ideal S32x32 .f32) (a11 : FVec Ideal S32 .f32) (a12 a13 : FVec Ideal S3x32 .f32) (a14 : FVec Ideal S32x32 .f32) (a15 a16 a17 : FVec Ideal S32 .f32)
    (a18 : FVec Ideal S32x2 .f32) (a19 : FVec Ideal S2 .f32) : FVec Ideal S512x2 .f32 :=
  let v5 := rV5 a1; let v6 := rV6 a1; let v8 := rV8 a2
  let v33 := rV33 v5 v6 v8 (rDinv v6 v8)
  let h0 := rAgg (rLin7 a0 a4) v5 v6 v33 a5
  let h1 := rAgg (rLin32 (rBN h0 (rRow0 a12) (rRow0 a13)) a6) v5 v6 v33 a7
  let h2 := rAgg (rLin32 (rBN h1 (rRow1 a12) (rRow1 a13)) a8) v5 v6 v33 a9
  let h3 := rAgg (rLin32 (rBN h2 (rRow2 a12) (rRow2 a13)) a10) v5 v6 v33 a11
  rHead (rPool h3 a3) a14 a15 a16 a17 a18 a19

end Cert.ReferenceIdeal.Hand

end
-- ==== Proof.RefRunVal.lean ====
import proofs.«419458_j79517024518684_2_alg».proof.Proof.RefOps
import proofs.«419458_j79517024518684_2_alg».proof.Proof.RefTerms

noncomputable section

namespace Cert.ReferenceIdeal.Hand

open Cert.ReferenceIdeal Idealize.ShloMosaic Idealize.ShloMosaic.TcCoe Idealize.SL.Sem Idealize.ShloMosaic.StableHlo

variable [Cert.ReferenceIdeal.Facts]
open Cert.ReferenceIdeal.Facts₀ Cert.ReferenceIdeal.Facts

def rAggPre (hw : FVec Ideal S400000x32 .f32) (v5 v6 : IVec S2900000 32) (v33 : FVec Ideal S2900000 .f32) : FVec Ideal S400000x32 .f32 :=
  Host.scatterAdd scatter_S400000x32_S2900000x1_S2900000x32_1_0_0_1 (broadcastInDim S400000x32 ![] bcast_S_S400000x32 (constant (F := Ideal) S_ .f32 0x00000000#32)) (broadcastInDim S2900000x1 ![0] bcast_S2900000_S2900000x1_0 (v6)) (mulf (broadcastInDim S2900000x32 ![0, 1] bcast_S2900000x1_S2900000x32_0_1 (broadcastInDim S2900000x1 ![0] bcast_S2900000_S2900000x1_0 (v33))) (Host.gather gather_S400000x32_S2900000x1_S2900000x32_1_0_n_n_0_1_132 (hw) (broadcastInDim S2900000x1 ![0] bcast_S2900000_S2900000x1_0 (select (cmpi .slt (v5) (broadcastInDim S2900000 ![] bcast_S_S2900000 (constantI S_ 32 0#32))) (addi (v5) (broadcastInDim S2900000 ![] bcast_S_S2900000 (constantI S_ 32 400000#32))) (v5)))))

def rAggFin (pre : FVec Ideal S400000x32 .f32) (b : FVec Ideal S32 .f32) : FVec Ideal S400000x32 .f32 :=
  addf (pre) (broadcastInDim S400000x32 ![0, 1] bcast_S1x32_S400000x32_0_1 (broadcastInDim S1x32 ![1] bcast_S32_S1x32_1 (b)))

theorem rAgg_eq (hw : FVec Ideal S400000x32 .f32) (v5 v6 : IVec S2900000 32) (v33 : FVec Ideal S2900000 .f32) (b : FVec Ideal S32 .f32) :
    rAgg hw v5 v6 v33 b = rAggFin (rAggPre hw v5 v6 v33) b := rfl

def rMean (h : FVec Ideal S400000x32 .f32) : FVec Ideal S32 .f32 :=
  Host.divf (Host.reduceAdd (h) (constant (F := Ideal) S_ .f32 0x00000000#32) reducesTo_S400000x32_S32_d0 h_S_) (broadcastInDim S32 ![] bcast_S_S32 (constant (F := Ideal) S_ .f32 0x48C35000#32))

def rBNpre (h : FVec Ideal S400000x32 .f32) (mean var : FVec Ideal S32 .f32) : FVec Ideal S400000x32 .f32 :=
  mulf (subf (h) (broadcastInDim S400000x32 ![0, 1] bcast_S1x32_S400000x32_0_1 (broadcastInDim S1x32 ![1] bcast_S32_S1x32_1 (mean)))) (broadcastInDim S400000x32 ![0, 1] bcast_S1x32_S400000x32_0_1 (broadcastInDim S1x32 ![1] bcast_S32_S1x32_1 (Host.rsqrt (addf (var) (broadcastInDim S32 ![] bcast_S_S32 (constant (F := Ideal) S_ .f32 0x3727C5AC#32))))))

def rBNfin (y : FVec Ideal S400000x32 .f32) (g b : FVec Ideal S32 .f32) : FVec Ideal S400000x32 .f32 :=
  rRelu (addf (mulf (y) (broadcastInDim S400000x32 ![0, 1] bcast_S1x32_S400000x32_0_1 (broadcastInDim S1x32 ![1] bcast_S32_S1x32_1 (g)))) (broadcastInDim S400000x32 ![0, 1] bcast_S1x32_S400000x32_0_1 (broadcastInDim S1x32 ![1] bcast_S32_S1x32_1 (b))))

theorem rBN_eq (h : FVec Ideal S400000x32 .f32) (g b : FVec Ideal S32 .f32) :
    rBN h g b = rBNfin (rBNpre h (rMean h) (rVar h)) g b := rfl

def rHLin (g : FVec Ideal S512x32 .f32) (w0 : FVec Ideal S32x32 .f32) (b0 : FVec Ideal S32 .f32) : FVec Ideal S512x32 .f32 :=
  addf (Host.dotGeneral dot_S512x32_S32x32_S512x32_1_0_0_1_n_n none (g) (w0)) (broadcastInDim S512x32 ![0, 1] bcast_S1x32_S512x32_0_1 (broadcastInDim S1x32 ![1] bcast_S32_S1x32_1 (b0)))

def rMean512 (x : FVec Ideal S512x32 .f32) : FVec Ideal S32 .f32 :=
  Host.divf (Host.reduceAdd (x) (constant (F := Ideal) S_ .f32 0x00000000#32) reducesTo_S512x32_S32_d0 h_S_) (broadcastInDim S32 ![] bcast_S_S32 (constant (F := Ideal) S_ .f32 0x44000000#32))

def rHBNpre (x : FVec Ideal S512x32 .f32) (mean var : FVec Ideal S32 .f32) : FVec Ideal S512x32 .f32 :=
  mulf (subf (x) (broadcastInDim S512x32 ![0, 1] bcast_S1x32_S512x32_0_1 (broadcastInDim S1x32 ![1] bcast_S32_S1x32_1 (mean)))) (broadcastInDim S512x32 ![0, 1] bcast_S1x32_S512x32_0_1 (broadcastInDim S1x32 ![1] bcast_S32_S1x32_1 (Host.rsqrt (addf (var) (broadcastInDim S32 ![] bcast_S_S32 (constant (F := Ideal) S_ .f32 0x3727C5AC#32))))))

def rHBNfin (y : FVec Ideal S512x32 .f32) (gg gb : FVec Ideal S32 .f32) : FVec Ideal S512x32 .f32 :=
  rRelu512 (addf (mulf (y) (broadcastInDim S512x32 ![0, 1] bcast_S1x32_S512x32_0_1 (broadcastInDim S1x32 ![1] bcast_S32_S1x32_1 (gg)))) (broadcastInDim S512x32 ![0, 1] bcast_S1x32_S512x32_0_1 (broadcastInDim S1x32 ![1] bcast_S32_S1x32_1 (gb))))

def rOut1 (y : FVec Ideal S512x32 .f32) (w1 : FVec Ideal S32x2 .f32) : FVec Ideal S512x2 .f32 :=
  Host.dotGeneral dot_S512x32_S32x2_S512x2_1_0_0_1_n_n none (y) (w1)

def rOut2 (z : FVec Ideal S512x2 .f32) (b1 : FVec Ideal S2 .f32) : FVec Ideal S512x2 .f32 :=
  addf (z) (broadcastInDim S512x2 ![0, 1] bcast_S1x2_S512x2_0_1 (broadcastInDim S1x2 ![1] bcast_S2_S1x2_1 (b1)))

theorem rHead_eq (g : FVec Ideal S512x32 .f32) (w0 : FVec Ideal S32x32 .f32) (b0 gg gb : FVec Ideal S32 .f32) (w1 : FVec Ideal S32x2 .f32) (b1 : FVec Ideal S2 .f32) :
    rHead g w0 b0 gg gb w1 b1
      = rOut2 (rOut1 (rHBNfin (rHBNpre (rHLin g w0 b0) (rMean512 (rHLin g w0 b0)) (rVar512 (rHLin g w0 b0))) gg gb) w1) b1 := rfl

local notation "⟪" W ", " r "⟫" => W (Proc.devRef (τ := τ) Proc.tc r)

local macro "stage_value" s:ident : tactic => `(tactic| (unfold $s; after_results_simp; all_goals rfl))

variable (W : Valuation τ sig (Elt Ideal))

-- Each stage's buffer after the stage alone, from any contents: the operations' results composed in order.
theorem oIdx_v5 : after oIdx W (no_index (Proc.devRef .tc main_v5)) = rV5 ⟪W, main_arg1⟫ := by stage_value oIdx
theorem oIdx_v6 : after oIdx W (no_index (Proc.devRef .tc main_v6)) = rV6 ⟪W, main_arg1⟫ := by stage_value oIdx
theorem oIdx_v8 : after oIdx W (no_index (Proc.devRef .tc main_v8)) = rV8 ⟪W, main_arg2⟫ := by stage_value oIdx

theorem oDinv_v17 : after oDinv W (no_index (Proc.devRef .tc main_v17)) = rDinv ⟪W, main_v6⟫ ⟪W, main_v8⟫ := by
  stage_value oDinv

theorem oNorm_v33 : after oNorm W (no_index (Proc.devRef .tc main_v33))
    = rV33 ⟪W, main_v5⟫ ⟪W, main_v6⟫ ⟪W, main_v8⟫ ⟪W, main_v17⟫ := by stage_value oNorm

theorem oLin0_v34 : after oLin0 W (no_index (Proc.devRef .tc main_v34)) = rLin7 ⟪W, main_arg0⟫ ⟪W, main_arg4⟫ := by
  stage_value oLin0
theorem oAgg0a_v47 : after oAgg0a W (no_index (Proc.devRef .tc main_v47))
    = rAggPre ⟪W, main_v34⟫ ⟪W, main_v5⟫ ⟪W, main_v6⟫ ⟪W, main_v33⟫ := by stage_value oAgg0a
theorem oAgg0b_v50 : after oAgg0b W (no_index (Proc.devRef .tc main_v50)) = rAggFin ⟪W, main_v47⟫ ⟪W, main_arg5⟫ := by
  stage_value oAgg0b

theorem oRow0_v52 : after oRow0 W (no_index (Proc.devRef .tc main_v52)) = rRow0 ⟪W, main_arg12⟫ := by stage_value oRow0
theorem oRow0_v54 : after oRow0 W (no_index (Proc.devRef .tc main_v54)) = rRow0 ⟪W, main_arg13⟫ := by stage_value oRow0
theorem oMean0_v57 : after oMean0 W (no_index (Proc.devRef .tc main_v57)) = rMean ⟪W, main_v50⟫ := by stage_value oMean0
theorem oVar0_v58 : after oVar0 W (no_index (Proc.devRef .tc main_v58)) = rVar ⟪W, main_v50⟫ := by stage_value oVar0
theorem oBn0a_v67 : after oBn0a W (no_index (Proc.devRef .tc main_v67))
    = rBNpre ⟪W, main_v50⟫ ⟪W, main_v57⟫ ⟪W, main_v58⟫ := by stage_value oBn0a
theorem oBn0b_v74 : after oBn0b W (no_index (Proc.devRef .tc main_v74))
    = rBNfin ⟪W, main_v67⟫ ⟪W, main_v52⟫ ⟪W, main_v54⟫ := by stage_value oBn0b
theorem oLin1_v75 : after oLin1 W (no_index (Proc.devRef .tc main_v75)) = rLin32 ⟪W, main_v74⟫ ⟪W, main_arg6⟫ := by
  stage_value oLin1
theorem oAgg1a_v88 : after oAgg1a W (no_index (Proc.devRef .tc main_v88))
    = rAggPre ⟪W, main_v75⟫ ⟪W, main_v5⟫ ⟪W, main_v6⟫ ⟪W, main_v33⟫ := by stage_value oAgg1a
theorem oAgg1b_v91 : after oAgg1b W (no_index (Proc.devRef .tc main_v91)) = rAggFin ⟪W, main_v88⟫ ⟪W, main_arg7⟫ := by
  stage_value oAgg1b

theorem oRow1_v93 : after oRow1 W (no_index (Proc.devRef .tc main_v93)) = rRow1 ⟪W, main_arg12⟫ := by stage_value oRow1
theorem oRow1_v95 : after oRow1 W (no_index (Proc.devRef .tc main_v95)) = rRow1 ⟪W, main_arg13⟫ := by stage_value oRow1
theorem oMean1_v98 : after oMean1 W (no_index (Proc.devRef .tc main_v98)) = rMean ⟪W, main_v91⟫ := by stage_value oMean1
theorem oVar1_v99 : after oVar1 W (no_index (Proc.devRef .tc main_v99)) = rVar ⟪W, main_v91⟫ := by stage_value oVar1
theorem oBn1a_v108 : after oBn1a W (no_index (Proc.devRef .tc main_v108))
    = rBNpre ⟪W, main_v91⟫ ⟪W, main_v98⟫ ⟪W, main_v99⟫ := by stage_value oBn1a
theorem oBn1b_v115 : after oBn1b W (no_index (Proc.devRef .tc main_v115))
    = rBNfin ⟪W, main_v108⟫ ⟪W, main_v93⟫ ⟪W, main_v95⟫ := by stage_value oBn1b
theorem oLin2_v116 : after oLin2 W (no_index (Proc.devRef .tc main_v116)) = rLin32 ⟪W, main_v115⟫ ⟪W, main_arg8⟫ := by
  stage_value oLin2
theorem oAgg2a_v129 : after oAgg2a W (no_index (Proc.devRef .tc main_v129))
    = rAggPre ⟪W, main_v116⟫ ⟪W, main_v5⟫ ⟪W, main_v6⟫ ⟪W, main_v33⟫ := by stage_value oAgg2a
theorem oAgg2b_v132 : after oAgg2b W (no_index (Proc.devRef .tc main_v132)) = rAggFin ⟪W, main_v129⟫ ⟪W, main_arg9⟫ := by
  stage_value oAgg2b

theorem oRow2_v134 : after oRow2 W (no_index (Proc.devRef .tc main_v134)) = rRow2 ⟪W, main_arg12⟫ := by stage_value oRow2
theorem oRow2_v136 : after oRow2 W (no_index (Proc.devRef .tc main_v136)) = rRow2 ⟪W, main_arg13⟫ := by stage_value oRow2
theorem oMean2_v139 : after oMean2 W (no_index (Proc.devRef .tc main_v139)) = rMean ⟪W, main_v132⟫ := by stage_value oMean2
theorem oVar2_v140 : after oVar2 W (no_index (Proc.devRef .tc main_v140)) = rVar ⟪W, main_v132⟫ := by stage_value oVar2
theorem oBn2a_v149 : after oBn2a W (no_index (Proc.devRef .tc main_v149))
    = rBNpre ⟪W, main_v132⟫ ⟪W, main_v139⟫ ⟪W, main_v140⟫ := by stage_value oBn2a
theorem oBn2b_v156 : after oBn2b W (no_index (Proc.devRef .tc main_v156))
    = rBNfin ⟪W, main_v149⟫ ⟪W, main_v134⟫ ⟪W, main_v136⟫ := by stage_value oBn2b
theorem oLin3_v157 : after oLin3 W (no_index (Proc.devRef .tc main_v157)) = rLin32 ⟪W, main_v156⟫ ⟪W, main_arg10⟫ := by
  stage_value oLin3
theorem oAgg3a_v170 : after oAgg3a W (no_index (Proc.devRef .tc main_v170))
    = rAggPre ⟪W, main_v157⟫ ⟪W, main_v5⟫ ⟪W, main_v6⟫ ⟪W, main_v33⟫ := by stage_value oAgg3a
theorem oAgg3b_v173 : after oAgg3b W (no_index (Proc.devRef .tc main_v173)) = rAggFin ⟪W, main_v170⟫ ⟪W, main_arg11⟫ := by
  stage_value oAgg3b

theorem oPool_v176 : after oPool W (no_index (Proc.devRef .tc main_v176)) = rPool ⟪W, main_v173⟫ ⟪W, main_arg3⟫ := by
  stage_value oPool
theorem oHLin_v180 : after oHLin W (no_index (Proc.devRef .tc main_v180))
    = rHLin ⟪W, main_v176⟫ ⟪W, main_arg14⟫ ⟪W, main_arg15⟫ := by stage_value oHLin
theorem oHMean_v183 : after oHMean W (no_index (Proc.devRef .tc main_v183)) = rMean512 ⟪W, main_v180⟫ := by
  stage_value oHMean
theorem oHVar_v184 : after oHVar W (no_index (Proc.devRef .tc main_v184)) = rVar512 ⟪W, main_v180⟫ := by
  stage_value oHVar
theorem oHBna_v193 : after oHBna W (no_index (Proc.devRef .tc main_v193))
    = rHBNpre ⟪W, main_v180⟫ ⟪W, main_v183⟫ ⟪W, main_v184⟫ := by stage_value oHBna
theorem oHBnb_v200 : after oHBnb W (no_index (Proc.devRef .tc main_v200))
    = rHBNfin ⟪W, main_v193⟫ ⟪W, main_arg16⟫ ⟪W, main_arg17⟫ := by stage_value oHBnb
theorem oOut1_v201 : after oOut1 W (no_index (Proc.devRef .tc main_v201)) = rOut1 ⟪W, main_v200⟫ ⟪W, main_arg18⟫ := by
  stage_value oOut1
theorem oOut2_v204 : after oOut2 W (no_index (Proc.devRef .tc main_v204)) = rOut2 ⟪W, main_v201⟫ ⟪W, main_arg19⟫ := by
  stage_value oOut2

theorem after_app {F : FTy → Type} [FloatOps F] : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

local macro "read_stages" : tactic => `(tactic| (
  simp only [ops, opsP0, opsP1, opsP2, opsP3, opsP4, after_app]
  simp (disch := decide) only [oIdx_v5, oIdx_v6, oIdx_v8, oDinv_v17, oNorm_v33, oLin0_v34, oAgg0a_v47, oAgg0b_v50,
    oRow0_v52, oRow0_v54, oMean0_v57, oVar0_v58, oBn0a_v67, oBn0b_v74, oLin1_v75, oAgg1a_v88, oAgg1b_v91,
    oRow1_v93, oRow1_v95, oMean1_v98, oVar1_v99, oBn1a_v108, oBn1b_v115, oLin2_v116, oAgg2a_v129, oAgg2b_v132,
    oRow2_v134, oRow2_v136, oMean2_v139, oVar2_v140, oBn2a_v149, oBn2b_v156, oLin3_v157, oAgg3a_v170, oAgg3b_v173,
    oPool_v176, oHLin_v180, oHMean_v183, oHVar_v184, oHBna_v193, oHBnb_v200, oOut1_v201, oOut2_v204,
    oIdx_keep, oDinv_keep, oNorm_keep, oLin0_keep, oAgg0a_keep, oAgg0b_keep, oRow0_keep, oMean0_keep,
    oVar0_keep, oBn0a_keep, oBn0b_keep, oLin1_keep, oAgg1a_keep, oAgg1b_keep, oRow1_keep, oMean1_keep,
    oVar1_keep, oBn1a_keep, oBn1b_keep, oLin2_keep, oAgg2a_keep, oAgg2b_keep, oRow2_keep, oMean2_keep,
    oVar2_keep, oBn2a_keep, oBn2b_keep, oLin3_keep, oAgg3a_keep, oAgg3b_keep, oPool_keep, oHLin_keep,
    oHMean_keep, oHVar_keep, oHBna_keep, oHBnb_keep, oOut1_keep, oOut2_keep]))

variable (V : Valuation τ sig (Elt Ideal))

-- The stages in order: each buffer is read at the stage that writes it and passed by at every other.
theorem out_eq : ⟪after ops V, main_v204⟫
    = refOut ⟪V, main_arg0⟫ ⟪V, main_arg1⟫ ⟪V, main_arg2⟫ ⟪V, main_arg3⟫ ⟪V, main_arg4⟫ ⟪V, main_arg5⟫ ⟪V, main_arg6⟫
        ⟪V, main_arg7⟫ ⟪V, main_arg8⟫ ⟪V, main_arg9⟫ ⟪V, main_arg10⟫ ⟪V, main_arg11⟫ ⟪V, main_arg12⟫ ⟪V, main_arg13⟫
        ⟪V, main_arg14⟫ ⟪V, main_arg15⟫ ⟪V, main_arg16⟫ ⟪V, main_arg17⟫ ⟪V, main_arg18⟫ ⟪V, main_arg19⟫ := by
  read_stages
  simp only [← rAgg_eq, ← rBN_eq, ← rHead_eq]
  rfl

theorem arg0_eq : ⟪after ops V, main_arg0⟫ = ⟪V, main_arg0⟫ := by read_stages
theorem arg1_eq : ⟪after ops V, main_arg1⟫ = ⟪V, main_arg1⟫ := by read_stages
theorem arg2_eq : ⟪after ops V, main_arg2⟫ = ⟪V, main_arg2⟫ := by read_stages
theorem arg3_eq : ⟪after ops V, main_arg3⟫ = ⟪V, main_arg3⟫ := by read_stages
theorem arg4_eq : ⟪after ops V, main_arg4⟫ = ⟪V, main_arg4⟫ := by read_stages
theorem arg5_eq : ⟪after ops V, main_arg5⟫ = ⟪V, main_arg5⟫ := by read_stages
theorem arg6_eq : ⟪after ops V, main_arg6⟫ = ⟪V, main_arg6⟫ := by read_stages
theorem arg7_eq : ⟪after ops V, main_arg7⟫ = ⟪V, main_arg7⟫ := by read_stages
theorem arg8_eq : ⟪after ops V, main_arg8⟫ = ⟪V, main_arg8⟫ := by read_stages
theorem arg9_eq : ⟪after ops V, main_arg9⟫ = ⟪V, main_arg9⟫ := by read_stages
theorem arg10_eq : ⟪after ops V, main_arg10⟫ = ⟪V, main_arg10⟫ := by read_stages
theorem arg11_eq : ⟪after ops V, main_arg11⟫ = ⟪V, main_arg11⟫ := by read_stages
theorem arg12_eq : ⟪after ops V, main_arg12⟫ = ⟪V, main_arg12⟫ := by read_stages
theorem arg13_eq : ⟪after ops V, main_arg13⟫ = ⟪V, main_arg13⟫ := by read_stages
theorem arg14_eq : ⟪after ops V, main_arg14⟫ = ⟪V, main_arg14⟫ := by read_stages
theorem arg15_eq : ⟪after ops V, main_arg15⟫ = ⟪V, main_arg15⟫ := by read_stages
theorem arg16_eq : ⟪after ops V, main_arg16⟫ = ⟪V, main_arg16⟫ := by read_stages
theorem arg17_eq : ⟪after ops V, main_arg17⟫ = ⟪V, main_arg17⟫ := by read_stages
theorem arg18_eq : ⟪after ops V, main_arg18⟫ = ⟪V, main_arg18⟫ := by read_stages
theorem arg19_eq : ⟪after ops V, main_arg19⟫ = ⟪V, main_arg19⟫ := by read_stages

end Cert.ReferenceIdeal.Hand

end
-- ==== Proof.RefRun.lean ====
import proofs.«419458_j79517024518684_2_alg».proof.Proof.RefRunMain
import proofs.«419458_j79517024518684_2_alg».proof.Proof.RefRunVal

set_option maxRecDepth 16384

noncomputable section

namespace Cert.ReferenceIdeal.Hand

open Cert.ReferenceIdeal Idealize.ShloMosaic Idealize.ShloMosaic.TcCoe Idealize.SL.Sem Idealize.ShloMosaic.StableHlo

variable [Cert.ReferenceIdeal.Facts]
open Cert.ReferenceIdeal.Facts₀ Cert.ReferenceIdeal.Facts

-- The reference is a straight line of host operations: it ends with the result at `refOut` of the arguments, which it never writes.
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v204)
        = refOut (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
            (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))
            (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))
            (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))
            (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)) :=
  (θ_run (Cert.ReferenceIdeal.defs (F := Ideal)) _ _).mono
    (fun _ h c => ⟨(h c main_v204).trans (out_eq (launchContents m c)),
      (h c main_arg0).trans (arg0_eq (launchContents m c)), (h c main_arg1).trans (arg1_eq (launchContents m c)),
      (h c main_arg2).trans (arg2_eq (launchContents m c)), (h c main_arg3).trans (arg3_eq (launchContents m c)),
      (h c main_arg4).trans (arg4_eq (launchContents m c)), (h c main_arg5).trans (arg5_eq (launchContents m c)),
      (h c main_arg6).trans (arg6_eq (launchContents m c)), (h c main_arg7).trans (arg7_eq (launchContents m c)),
      (h c main_arg8).trans (arg8_eq (launchContents m c)), (h c main_arg9).trans (arg9_eq (launchContents m c)),
      (h c main_arg10).trans (arg10_eq (launchContents m c)), (h c main_arg11).trans (arg11_eq (launchContents m c)),
      (h c main_arg12).trans (arg12_eq (launchContents m c)), (h c main_arg13).trans (arg13_eq (launchContents m c)),
      (h c main_arg14).trans (arg14_eq (launchContents m c)), (h c main_arg15).trans (arg15_eq (launchContents m c)),
      (h c main_arg16).trans (arg16_eq (launchContents m c)), (h c main_arg17).trans (arg17_eq (launchContents m c)),
      (h c main_arg18).trans (arg18_eq (launchContents m c)), (h c main_arg19).trans (arg19_eq (launchContents m c))⟩)
    (run_seq scopedRefs_eq scopedSems_eq (Cert.ReferenceIdeal.defs (F := Ideal)) (Cert.ReferenceIdeal.main (F := Ideal))
      (fun _ => ops) main_eq (fun _ => ops_sub) m ρ (fun _ => ops_fresh))

end Cert.ReferenceIdeal.Hand

end
-- ==== Proof.FinV.lean ====
import Idealize.ShloMosaic.PureOps.Ideal

noncomputable section

namespace Cert.Fin

open Idealize.ShloMosaic

def FinV {S : Shape} (v : FVec Ideal S .f32) : Prop := ∀ i, ∃ r : ℝ, v i = (r : EReal)

end Cert.Fin

end
-- ==== Proof.FinAgg.lean ====
import proofs.«419458_j79517024518684_2_alg».proof.Proof.RefTerms
import proofs.«419458_j79517024518684_2_alg».proof.Proof.FinV
import Idealize.ShloMosaic.Lib.Pipeline.Value
import Idealize.ShloMosaic.Lib.IdealHost

set_option maxRecDepth 16384

noncomputable section

namespace Cert.ReferenceIdeal.Hand

open Cert.ReferenceIdeal
open Idealize.ShloMosaic Idealize.ShloMosaic.ValueIdx
open Cert.Fin (FinV)
open scoped BigOperators

/-- Sums, products and finite sums of reals are reals. -/
theorem real_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy; exact ⟨a + b, (EReal.coe_add a b).symm⟩

theorem real_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy; exact ⟨a * b, (EReal.coe_mul a b).symm⟩

theorem real_sum {ι : Type} (s : Finset ι) (f : ι → EReal) (hf : ∀ j, ∃ r : ℝ, f j = (r : EReal)) :
    ∃ r : ℝ, ∑ j ∈ s, f j = (r : EReal) :=
  Finset.sum_induction f (fun x => ∃ r : ℝ, x = (r : EReal)) (fun _ _ => real_add) ⟨0, EReal.coe_zero.symm⟩
    (fun j _ => hf j)

theorem real_zero_word : ∃ r : ℝ, Ideal.ofBits .f32 0x00000000#32 = (r : EReal) :=
  ⟨0, by rw [Ideal.ofBits_zero_f32, EReal.coe_zero]⟩

theorem real_one_word : ∃ r : ℝ, Ideal.ofBits .f32 0x3F800000#32 = (r : EReal) :=
  ⟨1, by rw [Ideal.ofBits_one_f32, EReal.coe_one]⟩

theorem real_eps_word : ∃ r : ℝ, 0 < r ∧ Ideal.ofBits .f32 0x3727C5AC#32 = (r : EReal) := by
  simp [Ideal.ofBits, Ideal.ieee, -EReal.coe_mul]

/-- The larger of a real and a positive real is a positive real, whose inverse square root is a real. -/
theorem real_rsqrt_max {x e : EReal} (hx : ∃ r : ℝ, x = (r : EReal)) (he : ∃ r : ℝ, 0 < r ∧ e = (r : EReal)) :
    ∃ r : ℝ, Ideal.rsqrt (max x e) = (r : EReal) := by
  obtain ⟨a, rfl⟩ := hx
  obtain ⟨b, hb, rfl⟩ := he
  have hpos : 0 < max a b := lt_max_of_lt_right hb
  have hmax : max (a : EReal) (b : EReal) = ((max a b : ℝ) : EReal) := (EReal.coe_strictMono.monotone.map_max).symm
  rw [hmax, Ideal.rsqrt_coe, if_neg (not_lt.mpr hpos.le), if_neg (ne_of_gt hpos)]
  exact ⟨_, rfl⟩

section Arrays
variable {S T : Shape}

/-- A broadcast and a gather read entries of their operand. -/
theorem fin_broadcast (dims : Fin S.rank → Fin T.rank) (hb : S.BroadcastsInDim T dims) (x : FVec Ideal S .f32)
    (hx : FinV x) : FinV (broadcastInDim T dims hb x) := fun _ => hx _

theorem fin_gather {si : Shape} (d : GatherDims S si T) (x : FVec Ideal S .f32) (idx : IVec si 32) (hx : FinV x) :
    FinV (Host.gather d x idx) := fun _ => hx _

theorem fin_zeros (hb : S_.BroadcastsInDim T (![] : Fin 0 → Fin T.rank)) :
    FinV (broadcastInDim T ![] hb (constant (F := Ideal) S_ .f32 0x00000000#32)) := fun _ => real_zero_word

theorem fin_mulf (x y : FVec Ideal S .f32) (hx : FinV x) (hy : FinV y) : FinV (mulf x y) :=
  fun i => real_mul (hx i) (hy i)

theorem fin_addf (x y : FVec Ideal S .f32) (hx : FinV x) (hy : FinV y) : FinV (addf x y) :=
  fun i => real_add (hx i) (hy i)

/-- Each entry of a scatter-add is the operand's entry plus a finite sum of update entries. -/
theorem fin_scatterAdd {si U : Shape} (d : ScatterDims S si U) (x : FVec Ideal S .f32) (idx : IVec si 32)
    (u : FVec Ideal U .f32) (hx : FinV x) (hu : FinV u) : FinV (Host.scatterAdd d x idx u) := fun i =>
  real_add (hx i) (real_sum _ u hu)

theorem fin_rsqrt_max_eps (hb : S_.BroadcastsInDim T (![] : Fin 0 → Fin T.rank)) (x : FVec Ideal T .f32) (hx : FinV x) :
    FinV (Host.rsqrt (maximumf x (broadcastInDim T ![] hb (constant (F := Ideal) S_ .f32 0x3727C5AC#32)))) := by
  intro i
  show ∃ r : ℝ, Ideal.rsqrt (max (x i) (Ideal.ofBits .f32 0x3727C5AC#32)) = (r : EReal)
  exact real_rsqrt_max (hx i) real_eps_word

theorem fin_select (c : IVec S 1) (a b : FVec Ideal S .f32) (ha : FinV a) (hb : FinV b) : FinV (select c a b) := by
  intro i
  show ∃ r : ℝ, (if c i = 1 then a i else b i) = (r : EReal)
  split
  · exact ha i
  · exact hb i

end Arrays

variable [Cert.ReferenceIdeal.Facts]
open Cert.ReferenceIdeal.Facts₀ Cert.ReferenceIdeal.Facts

/-- The edge weights: the given reals, then the word of one for every self loop. -/
theorem fin_rV8 (ea : FVec Ideal S2500000 .f32) (h : FinV ea) : FinV (rV8 ea) := by
  intro j
  obtain ⟨e, rfl⟩ : ∃ e : Fin 2900000, j = ix1 e := ⟨j 0, eq_ix1 j⟩
  unfold rV8
  by_cases he : e.val < 2500000
  · rw [concatenate_pair_apply_left (0 : Fin 1) ea _ concatenates_S2500000_S400000_S2900000_d0 (ix1 e) rfl
      (ix1 ⟨e.val, he⟩) (fun b => by match b with | ⟨0, _⟩ => rfl)]
    exact h _
  · have he' : e.val - 2500000 < 400000 := by have := e.isLt; omega
    rw [concatenate_pair_apply_right (s₂ := S400000) (0 : Fin 1) ea _ concatenates_S2500000_S400000_S2900000_d0 (ix1 e) rfl rfl
      (ix1 (⟨e.val - 2500000, he'⟩ : Fin 400000)) (fun b hb => absurd (Subsingleton.elim _ _) hb)
      (by show e.val - 2500000 + 2500000 = e.val; omega)]
    exact real_one_word

/-- The degree normalisation, the per-edge normalisation and one aggregation compose the operations above. -/
theorem fin_rDinv (v6 : IVec S2900000 32) (v8 : FVec Ideal S2900000 .f32) (h : FinV v8) : FinV (rDinv v6 v8) := by
  unfold rDinv
  exact fin_select _ _ _ (fin_rsqrt_max_eps _ _ (fin_scatterAdd _ _ _ _ (fin_zeros _) h)) (fin_zeros _)

theorem fin_rV33 (v5 v6 : IVec S2900000 32) (v8 : FVec Ideal S2900000 .f32) (dinv : FVec Ideal S400000 .f32)
    (h8 : FinV v8) (hd : FinV dinv) : FinV (rV33 v5 v6 v8 dinv) := by
  unfold rV33
  exact fin_mulf _ _ (fin_mulf _ _ (fin_gather _ _ _ hd) h8) (fin_gather _ _ _ hd)

theorem fin_rAgg (hw : FVec Ideal S400000x32 .f32) (v5 v6 : IVec S2900000 32) (v33 : FVec Ideal S2900000 .f32)
    (b : FVec Ideal S32 .f32) (hh : FinV hw) (h33 : FinV v33) (hb : FinV b) : FinV (rAgg hw v5 v6 v33 b) := by
  unfold rAgg
  refine fin_addf _ _ (fin_scatterAdd _ _ _ _ (fin_zeros _) ?_) (fin_broadcast _ _ _ (fin_broadcast _ _ _ hb))
  exact fin_mulf _ _ (fin_broadcast _ _ _ (fin_broadcast _ _ _ h33)) (fin_gather _ _ _ hh)

end Cert.ReferenceIdeal.Hand

end
-- ==== Proof.AlgLin.lean ====
import proofs.«419458_j79517024518684_2_alg».proof.Proof.KTerms
import proofs.«419458_j79517024518684_2_alg».proof.Proof.RefTerms
import proofs.«419458_j79517024518684_2_alg».proof.Proof.FinAgg
import Idealize.ShloMosaic.Lib.StackMember
import Idealize.ShloMosaic.Lib.ValueIdx
import Mathlib.Algebra.BigOperators.Group.Finset.Defs
import Mathlib.Data.EReal.Basic

set_option maxRecDepth 4096

noncomputable section

namespace Cert.Alg

open Idealize.ShloMosaic Idealize.ShloMosaic.ValueIdx
open Cert.Fin (FinV)

/-- A plain matrix product of arrays of reals is an array of reals: each entry is a finite sum of products of reals. -/
theorem fin_dot {m k n : Nat} (A : FVec Ideal ⟨2, ![m, k]⟩ .f32) (B : FVec Ideal ⟨2, ![k, n]⟩ .f32) (hA : FinV A) (hB : FinV B) :
    FinV (Host.dotGeneral (DotDims.plain m k n) none A B) := fun i => by
  obtain ⟨a, b, rfl⟩ : ∃ (a : Fin m) (b : Fin n), i = ix2 a b := ⟨i 0, i 1, eq_ix2 i⟩
  rw [StackMember.dotGeneral_plain_apply]
  exact Cert.ReferenceIdeal.Hand.real_sum _ _ fun c => Cert.ReferenceIdeal.Hand.real_mul (hA _) (hB _)

/-- An array whose entries are the sums over the contracted coordinate is the plain matrix product. -/
theorem dot_eq {m k n : Nat} (A : FVec Ideal ⟨2, ![m, k]⟩ .f32) (B : FVec Ideal ⟨2, ![k, n]⟩ .f32) (f : FVec Ideal ⟨2, ![m, n]⟩ .f32)
    (h : ∀ a b, f (ix2 a b) = ∑ c : Fin k, A (ix2 a c) * B (ix2 c b)) : f = Host.dotGeneral (DotDims.plain m k n) none A B := by
  funext i
  obtain ⟨a, b, rfl⟩ : ∃ (a : Fin m) (b : Fin n), i = ix2 a b := ⟨i 0, i 1, eq_ix2 i⟩
  rw [h, StackMember.dotGeneral_plain_apply]

section Reference
variable [Cert.ReferenceIdeal.Facts]

theorem fin_rLin7 (x : FVec Ideal Cert.ReferenceIdeal.S400000x7 .f32) (w : FVec Ideal Cert.ReferenceIdeal.S7x32 .f32)
    (hx : FinV x) (hw : FinV w) : FinV (Cert.ReferenceIdeal.Hand.rLin7 x w) := fin_dot (m := 400000) (k := 7) (n := 32) x w hx hw

theorem fin_rLin32 (x : FVec Ideal Cert.ReferenceIdeal.S400000x32 .f32) (w : FVec Ideal Cert.ReferenceIdeal.S32x32 .f32)
    (hx : FinV x) (hw : FinV w) : FinV (Cert.ReferenceIdeal.Hand.rLin32 x w) := fin_dot (m := 400000) (k := 32) (n := 32) x w hx hw

/-- A row cut out of an array of reals is an array of reals: each entry is an entry of the array. -/
theorem fin_rRow0 (p : FVec Ideal Cert.ReferenceIdeal.S3x32 .f32) (hp : FinV p) : FinV (Cert.ReferenceIdeal.Hand.rRow0 p) := fun _ => hp _

theorem fin_rRow1 (p : FVec Ideal Cert.ReferenceIdeal.S3x32 .f32) (hp : FinV p) : FinV (Cert.ReferenceIdeal.Hand.rRow1 p) := fun _ => hp _

end Reference

section Both
variable [Cert.KernelIdeal.Facts] [Cert.ReferenceIdeal.Facts]

/-- The kernel side's dense transforms are written as the sums the reference's products are, entry by entry. -/
theorem lin7_eq (x : FVec Ideal Cert.KernelIdeal.S400000x7 .f32) (w : FVec Ideal Cert.KernelIdeal.S7x32 .f32) :
    Cert.KernelIdeal.Hand.lin7 x w = Cert.ReferenceIdeal.Hand.rLin7 x w := dot_eq (m := 400000) (k := 7) (n := 32) x w _ fun _ _ => rfl

theorem lin32_eq (x : FVec Ideal Cert.KernelIdeal.S400000x32 .f32) (w : FVec Ideal Cert.KernelIdeal.S32x32 .f32) :
    Cert.KernelIdeal.Hand.lin32 x w = Cert.ReferenceIdeal.Hand.rLin32 x w := dot_eq (m := 400000) (k := 32) (n := 32) x w _ fun _ _ => rfl

/-- The host stretches are the reference's: the same operations applied to the same arguments. -/
theorem kV5_eq (ei : IVec Cert.KernelIdeal.S2x2500000 32) :
    Cert.KernelIdeal.Hand.kV5 ei = Cert.ReferenceIdeal.Hand.rV5 ei := rfl

theorem kV6_eq (ei : IVec Cert.KernelIdeal.S2x2500000 32) :
    Cert.KernelIdeal.Hand.kV6 ei = Cert.ReferenceIdeal.Hand.rV6 ei := rfl

theorem kV8_eq (ea : FVec Ideal Cert.KernelIdeal.S2500000 .f32) :
    Cert.KernelIdeal.Hand.kV8 ea = Cert.ReferenceIdeal.Hand.rV8 ea := rfl

theorem kDinv_eq (v6 : IVec Cert.KernelIdeal.S2900000 32) (v8 : FVec Ideal Cert.KernelIdeal.S2900000 .f32) :
    Cert.KernelIdeal.Hand.kDinv v6 v8 = Cert.ReferenceIdeal.Hand.rDinv v6 v8 := rfl

theorem kV33_eq (v5 v6 : IVec Cert.KernelIdeal.S2900000 32) (v8 : FVec Ideal Cert.KernelIdeal.S2900000 .f32)
    (dinv : FVec Ideal Cert.KernelIdeal.S400000 .f32) :
    Cert.KernelIdeal.Hand.kV33 v5 v6 v8 dinv = Cert.ReferenceIdeal.Hand.rV33 v5 v6 v8 dinv := rfl

theorem kAgg_eq (hw : FVec Ideal Cert.KernelIdeal.S400000x32 .f32) (v5 v6 : IVec Cert.KernelIdeal.S2900000 32)
    (v33 : FVec Ideal Cert.KernelIdeal.S2900000 .f32) (b : FVec Ideal Cert.KernelIdeal.S32 .f32) :
    Cert.KernelIdeal.Hand.kAgg hw v5 v6 v33 b = Cert.ReferenceIdeal.Hand.rAgg hw v5 v6 v33 b := rfl

theorem kRow0_eq (p : FVec Ideal Cert.KernelIdeal.S3x32 .f32) :
    Cert.KernelIdeal.Hand.kRow0 p = Cert.ReferenceIdeal.Hand.rRow0 p := rfl
theorem kRow1_eq (p : FVec Ideal Cert.KernelIdeal.S3x32 .f32) :
    Cert.KernelIdeal.Hand.kRow1 p = Cert.ReferenceIdeal.Hand.rRow1 p := rfl
theorem kRow2_eq (p : FVec Ideal Cert.KernelIdeal.S3x32 .f32) :
    Cert.KernelIdeal.Hand.kRow2 p = Cert.ReferenceIdeal.Hand.rRow2 p := rfl

end Both

end Cert.Alg

end
-- ==== Proof.LibGatherScatter.lean ====
import Idealize.ShloMosaic.PureOps.Ideal
import Idealize.ShloMosaic.Lib.ValueIdx
import Idealize.ShloMosaic.Lib.StableHlo.Predicate

noncomputable section

open scoped BigOperators

namespace Cert.LibGS

open Idealize.ShloMosaic Idealize.ShloMosaic.ValueIdx

abbrev Sh (N C : Nat) : Shape := ⟨2, ![N, C]⟩

abbrev RArr (N C : Nat) : Type := (Sh N C).Idx → EReal

theorem idx2_val_congr {a b : Nat} (j : (Sh a b).Idx) (X Y : Fin 2) (h : X = Y) : (j X).val = (j Y).val := by
  subst h; rfl

section ScatterRows
variable {N n C : Nat} (d : ScatterDims (Sh N C) (Sh n 1) (Sh n C))

theorem srows_scatter_mem (huw : d.updateWindowDims = [1]) (X : Fin (Sh n C).rank) (hX : X ∈ d.uScatter) : X = (0 : Fin 2) := by
  have h1 : X ∉ d.updateWindowDims := by
    have := (List.mem_filter.1 hX).2
    simpa using this
  rw [huw] at h1
  match X with
  | ⟨0, _⟩ => rfl
  | ⟨1, _⟩ => exact absurd (List.mem_singleton.mpr rfl) h1

theorem srows_siIdx (huw : d.updateWindowDims = [1]) (hsd : d.scatterDimsToOperandDims = [0]) (hivd : d.indexVectorDim = 1)
    (j : (Sh n C).Idx) (k : Fin d.scatterDimsToOperandDims.length) : d.siIdx j k = ix2 (j 0) 0 := by
  funext b
  match b with
  | ⟨0, _⟩ =>
    unfold ScatterDims.siIdx
    rw [dif_neg (by rw [hivd]; exact Nat.zero_ne_one)]
    unfold ScatterDims.siCoord
    apply Fin.ext
    simp only [Fin.val_cast]
    exact idx2_val_congr j _ 0 (srows_scatter_mem d huw _ (List.getElem_mem _))
  | ⟨1, _⟩ =>
    unfold ScatterDims.siIdx
    rw [dif_pos (by rw [hivd])]
    apply Fin.ext
    have hlen : d.scatterDimsToOperandDims.length = 1 := by rw [hsd]; rfl
    have hk : k.val < d.scatterDimsToOperandDims.length := k.isLt
    show k.val = 0
    omega

theorem srows_start_zero (huw : d.updateWindowDims = [1]) (hsd : d.scatterDimsToOperandDims = [0]) (hivd : d.indexVectorDim = 1)
    (idx : IVec (Sh n 1) 32) (j : (Sh n C).Idx) : d.start j idx (0 : Fin 2) = (idx (ix2 (j 0) 0)).toInt := by
  have hm : (0 : Fin 2) ∈ d.scatterDimsToOperandDims := by rw [hsd]; exact List.mem_singleton.mpr rfl
  unfold ScatterDims.start
  rw [dif_pos hm, srows_siIdx d huw hsd hivd]
  rfl

theorem srows_start_one (hsd : d.scatterDimsToOperandDims = [0])
    (idx : IVec (Sh n 1) 32) (j : (Sh n C).Idx) : d.start j idx (1 : Fin 2) = 0 := by
  have hm : (1 : Fin 2) ∉ d.scatterDimsToOperandDims := by rw [hsd]; show (1 : Fin 2) ∉ [(0 : Fin 2)]; decide
  unfold ScatterDims.start
  rw [dif_neg hm]

theorem srows_window_zero (hiw : d.insertedWindowDims = [0]) (j : (Sh n C).Idx) : d.window j (0 : Fin 2) = 0 := by
  have hk : (0 : Fin 2) ∉ d.sKept := by
    intro h
    have := (List.mem_filter.1 h).2
    rw [hiw] at this
    simp at this
  unfold ScatterDims.window
  rw [dif_neg hk]

theorem srows_window_one (huw : d.updateWindowDims = [1]) (hiw : d.insertedWindowDims = [0]) (j : (Sh n C).Idx) :
    d.window j (1 : Fin 2) = (j 1).val := by
  have hk : (1 : Fin 2) ∈ d.sKept := by
    refine List.mem_filter.2 ⟨List.mem_finRange _, ?_⟩
    rw [hiw]
    show decide ((1 : Fin 2) ∉ [(0 : Fin 2)]) = true
    decide
  have hall : ∀ X ∈ d.updateWindowDims, X = (1 : Fin 2) := by rw [huw]; simp
  unfold ScatterDims.window
  rw [dif_pos hk]
  exact idx2_val_congr j _ 1 (hall _ (List.getElem_mem _))

theorem srows_resultIdx_iff (huw : d.updateWindowDims = [1]) (hiw : d.insertedWindowDims = [0])
    (hsd : d.scatterDimsToOperandDims = [0]) (hivd : d.indexVectorDim = 1)
    (idx : IVec (Sh n 1) 32) (j : (Sh n C).Idx) (t : (Sh N C).Idx) :
    d.resultIdx? j idx = some t ↔ (idx (ix2 (j 0) 0)).toInt = ((t 0).val : ℤ) ∧ (j 1).val = (t 1).val := by
  have hs0 := srows_start_zero d huw hsd hivd idx j
  have hs1 := srows_start_one d hsd idx j
  have hw0 := srows_window_zero d hiw j
  have hw1 := srows_window_one d huw hiw j
  have ht0 : (t 0).val < N := idx2_lt0 t
  have ht1 : (t 1).val < C := idx2_lt1 t
  constructor
  · intro h
    unfold ScatterDims.resultIdx? at h
    split at h
    · rename_i hh
      have hf := Option.some.inj h
      have h0 : (d.start j idx (0 : Fin 2) + d.window j (0 : Fin 2)).toNat = (t 0).val :=
        congrArg (fun f : (Sh N C).Idx => (f 0).val) hf
      have h1 : (d.start j idx (1 : Fin 2) + d.window j (1 : Fin 2)).toNat = (t 1).val :=
        congrArg (fun f : (Sh N C).Idx => (f 1).val) hf
      have hh0 := (hh (0 : Fin 2)).1
      rw [hs0, hw0] at h0 hh0
      rw [hs1, hw1] at h1
      constructor <;> omega
    · exact absurd h (by simp)
  · rintro ⟨h0, h1⟩
    have hh : ∀ a, 0 ≤ d.start j idx a + d.window j a ∧ d.start j idx a + d.window j a < (Sh N C).size a := by
      intro a
      match a with
      | ⟨0, _⟩ =>
        show 0 ≤ d.start j idx (0 : Fin 2) + d.window j (0 : Fin 2) ∧ d.start j idx (0 : Fin 2) + d.window j (0 : Fin 2) < (N : ℤ)
        rw [hs0, hw0, h0]
        omega
      | ⟨1, _⟩ =>
        show 0 ≤ d.start j idx (1 : Fin 2) + d.window j (1 : Fin 2) ∧ d.start j idx (1 : Fin 2) + d.window j (1 : Fin 2) < (C : ℤ)
        rw [hs1, hw1, h1]
        omega
    unfold ScatterDims.resultIdx?
    rw [dif_pos hh]
    congr 1
    funext a
    apply Fin.ext
    match a with
    | ⟨0, _⟩ =>
      show (d.start j idx (0 : Fin 2) + d.window j (0 : Fin 2)).toNat = (t 0).val
      rw [hs0, hw0, h0]
      omega
    | ⟨1, _⟩ =>
      show (d.start j idx (1 : Fin 2) + d.window j (1 : Fin 2)).toNat = (t 1).val
      rw [hs1, hw1, h1]
      omega

theorem scatterAdd_rows_gen (huw : d.updateWindowDims = [1]) (hiw : d.insertedWindowDims = [0])
    (hsd : d.scatterDimsToOperandDims = [0]) (hivd : d.indexVectorDim = 1)
    (x : RArr N C) (idx : IVec (Sh n 1) 32) (u : RArr n C) (i : Fin N) (c : Fin C) :
    Ideal.hostScatterAdd d x idx u (ix2 i c)
      = x (ix2 i c) + ∑ e ∈ Finset.univ.filter (fun e : Fin n => (idx (ix2 e 0)).toInt = (i.val : ℤ)), u (ix2 e c) := by
  have key := fun j => srows_resultIdx_iff d huw hiw hsd hivd idx j (ix2 i c)
  have back : ∀ j : (Sh n C).Idx, (j 1).val = c.val → ix2 (j 0) c = j := by
    intro j hj
    funext a
    match a with
    | ⟨0, _⟩ => rfl
    | ⟨1, _⟩ => exact Fin.ext hj.symm
  unfold Ideal.hostScatterAdd
  congr 1
  refine Finset.sum_bij' (fun j _ => j 0) (fun e _ => ix2 e c) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (key (ix2 e c)).2 ⟨(Finset.mem_filter.1 he).2, rfl⟩⟩
  · intro j hj
    exact back j ((key j).1 (Finset.mem_filter.1 hj).2).2
  · intro e he
    rfl
  · intro j hj
    exact congrArg u (back j ((key j).1 (Finset.mem_filter.1 hj).2).2).symm

end ScatterRows

end Cert.LibGS

end
-- ==== Proof.AlgPool.lean ====
import proofs.«419458_j79517024518684_2_alg».proof.Proof.KTerms
import proofs.«419458_j79517024518684_2_alg».proof.Proof.RefTerms
import proofs.«419458_j79517024518684_2_alg».proof.Proof.LibGatherScatter
import Idealize.ShloMosaic.Lib.Pipeline.Value
import Idealize.ShloMosaic.Lib.IdealHost

set_option maxRecDepth 4096

noncomputable section

namespace Cert.KernelIdeal.Hand

open Idealize.ShloMosaic Idealize.ShloMosaic.ValueIdx
open scoped BigOperators

/-- A 32-bit word is the word of a number below 512 exactly when its signed value is that number. -/
theorem word_eq_ofNat_iff (w : BitVec 32) (r : Nat) (hr : r < 512) : w = BitVec.ofNat 32 r ↔ w.toInt = (r : ℤ) := by
  have hw := w.isLt
  rw [← BitVec.toNat_inj, BitVec.toNat_ofNat, BitVec.toInt_eq_toNat_cond, Nat.mod_eq_of_lt (by omega)]
  split <;> omega

/-- A vector recast, or broadcast along the first axis, to a column holds entry i in row i. -/
theorem column_of_cast {n : Nat} {α : Type} (b : (⟨1, ![n]⟩ : Shape).Idx → α)
    (hc : (⟨1, ![n]⟩ : Shape).ShapeCasts ⟨2, ![n, 1]⟩) (i : Fin n) :
    shapeCast ⟨2, ![n, 1]⟩ b hc (ix2 i 0) = b (ix1 i) := by
  refine shapeCast_apply b hc (ix2 i 0) (ix1 i) ?_
  rw [Shape.rowMajor_val_one, Shape.rowMajor_val_two]
  show i.val = i.val * 1 + 0
  omega

theorem column_of_broadcast {n : Nat} {α : Type} (b : (⟨1, ![n]⟩ : Shape).Idx → α)
    (hb : (⟨1, ![n]⟩ : Shape).BroadcastsInDim ⟨2, ![n, 1]⟩ ![0]) (i : Fin n) :
    broadcastInDim ⟨2, ![n, 1]⟩ ![0] hb b (ix2 i 0) = b (ix1 i) := by
  refine broadcastInDim_apply ![0] hb b (ix2 i 0) (ix1 i) fun a => ?_
  match a with
  | ⟨0, _⟩ =>
    show i.val = if n = 1 then 0 else i.val
    split
    · have := i.isLt; omega
    · rfl

/-- The kernel program's pooled sums are the reference's scatter-add of the node rows by graph id: zero plus the rows whose id, read signed, is the output row's number. -/
theorem pool_eq [Cert.KernelIdeal.Facts] [Cert.ReferenceIdeal.Facts] (h : FVec Ideal Cert.KernelIdeal.S400000x32 .f32)
    (batch : IVec Cert.KernelIdeal.S400000 32) :
    Cert.KernelIdeal.Hand.poolSum h (Cert.KernelIdeal.Hand.kBatchCol batch) = Cert.ReferenceIdeal.Hand.rPool h batch := by
  funext j
  obtain ⟨r, c, rfl⟩ : ∃ (r : Fin 512) (c : Fin 32), j = ix2 r c := ⟨j 0, j 1, eq_ix2 j⟩

  unfold Cert.ReferenceIdeal.Hand.rPool Host.scatterAdd
  rw [Ideal.hostScatterAdd_def,
    Cert.LibGS.scatterAdd_rows_gen (N := 512) (n := 400000) (C := 32) _ rfl rfl rfl rfl,
    broadcastInDim_scalar_apply]
  show _ = Ideal.ofBits .f32 0x00000000#32 + _
  rw [Ideal.ofBits_zero_f32, zero_add, Finset.sum_filter]

  show (∑ i : Fin 400000, if kBatchCol batch (ix2 i 0) = BitVec.ofNat 32 r.val then h (ix2 i c) else 0) = _
  refine Finset.sum_congr rfl fun e _ => ?_
  unfold kBatchCol
  rw [column_of_cast, column_of_broadcast]
  exact if_congr (word_eq_ofNat_iff _ _ r.isLt) rfl rfl

end Cert.KernelIdeal.Hand

end
-- ==== Proof.AlgHead.lean ====
import proofs.«419458_j79517024518684_2_alg».proof.Proof.KTerms
import proofs.«419458_j79517024518684_2_alg».proof.Proof.RefTerms
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost

set_option maxRecDepth 16384

noncomputable section

namespace Cert.KernelIdeal.Hand

open Cert.KernelIdeal
open Idealize.ShloMosaic Idealize.ShloMosaic.ValueIdx

section Layout
variable {α : Type}

theorem rowOver_eq {a b : ℕ} (r : (⟨2, ![1, b]⟩ : Shape).Idx → α)
    (h : (⟨2, ![1, b]⟩ : Shape).Broadcasts ⟨2, ![a, b]⟩)
    (h' : (⟨2, ![1, b]⟩ : Shape).BroadcastsInDim ⟨2, ![a, b]⟩ (![0, 1] : Fin 2 → Fin (⟨2, ![a, b]⟩ : Shape).rank)) :
    broadcastTo ⟨2, ![a, b]⟩ r h = broadcastInDim ⟨2, ![a, b]⟩ ![0, 1] h' r := by
  funext i
  obtain ⟨p, q, rfl⟩ : ∃ (p : Fin a) (q : Fin b), i = ix2 p q := ⟨i 0, i 1, eq_ix2 i⟩
  rw [broadcastTo_1b_ab_apply, broadcastInDim_oneRow_apply]

theorem vecRow_eq {b : ℕ} (v : (⟨1, ![b]⟩ : Shape).Idx → α)
    (h : (⟨1, ![b]⟩ : Shape).ShapeCasts ⟨2, ![1, b]⟩)
    (h' : (⟨1, ![b]⟩ : Shape).BroadcastsInDim ⟨2, ![1, b]⟩ (![1] : Fin 1 → Fin (⟨2, ![1, b]⟩ : Shape).rank)) :
    shapeCast ⟨2, ![1, b]⟩ v h = broadcastInDim ⟨2, ![1, b]⟩ ![1] h' v := by
  funext i
  obtain ⟨u, q, rfl⟩ : ∃ (u : Fin 1) (q : Fin b), i = ix2 u q := ⟨i 0, i 1, eq_ix2 i⟩
  rw [shapeCast_a_1a_apply]
  refine (broadcastInDim_apply _ h' v (ix2 u q) (ix1 q) fun ax => ?_).symm
  match ax with
  | ⟨0, _⟩ =>
    show q.val = if b = 1 then 0 else q.val
    split
    · have := q.isLt; omega
    · rfl

theorem splat_eq {t : Shape} (x : (⟨0, ![]⟩ : Shape).Idx → α)
    (h : (⟨0, ![]⟩ : Shape).BroadcastsInDim t (![] : Fin 0 → Fin t.rank)) :
    broadcastInDim t ![] h x = broadcast t (x ix0) := by
  funext i
  exact broadcastInDim_apply _ h x i ix0 fun ax => ax.elim0

end Layout

end Cert.KernelIdeal.Hand

namespace Cert.ReferenceIdeal.Hand

open Cert.ReferenceIdeal
open Idealize.ShloMosaic

variable [Cert.ReferenceIdeal.Facts]
open Cert.ReferenceIdeal.Facts₀ Cert.ReferenceIdeal.Facts

def rOver (v : FVec Ideal S32 .f32) : FVec Ideal S512x32 .f32 :=
  broadcastInDim S512x32 ![0, 1] bcast_S1x32_S512x32_0_1 (broadcastInDim S1x32 ![1] bcast_S32_S1x32_1 v)

def rDense (g : FVec Ideal S512x32 .f32) (w0 : FVec Ideal S32x32 .f32) (b0 : FVec Ideal S32 .f32) : FVec Ideal S512x32 .f32 :=
  addf (Host.dotGeneral dot_S512x32_S32x32_S512x32_1_0_0_1_n_n none g w0) (rOver b0)

def rColSum (h : FVec Ideal S512x32 .f32) : FVec Ideal S32 .f32 :=
  Host.reduceAdd h (constant (F := Ideal) S_ .f32 0x00000000#32) reducesTo_S512x32_S32_d0 h_S_

def rMeanOver (h : FVec Ideal S512x32 .f32) : FVec Ideal S512x32 .f32 :=
  rOver (Host.divf (rColSum h) (broadcastInDim S32 ![] bcast_S_S32 (constant (F := Ideal) S_ .f32 0x44000000#32)))

def rMeanOver' (h : FVec Ideal S512x32 .f32) : FVec Ideal S512x32 .f32 :=
  broadcastInDim S512x32 ![0, 1] bcast_S1x32_S512x32_0_1 (Host.divf (broadcastInDim S1x32 ![1] bcast_S32_S1x32_1 (rColSum h)) (broadcastInDim S1x32 ![] bcast_S_S1x32 (constant (F := Ideal) S_ .f32 0x44000000#32)))

theorem rVar512_stages (h : FVec Ideal S512x32 .f32) :
    rVar512 h = select (broadcastInDim S32 ![] bcast_S_S32 (cmpf .ogt (subf (constant (F := Ideal) S_ .f32 0x44000000#32) (sitofp .f32 (constantI S_ 32 0#32))) (constant (F := Ideal) S_ .f32 0x00000000#32)))
      (Host.divf (rColSum (mulf (subf h (rMeanOver' h)) (subf h (rMeanOver' h)))) (broadcastInDim S32 ![] bcast_S_S32 (subf (constant (F := Ideal) S_ .f32 0x44000000#32) (sitofp .f32 (constantI S_ 32 0#32)))))
      (broadcastInDim S32 ![] bcast_S_S32 (constant (F := Ideal) S_ .f32 0x7FC00000#32)) := rfl

def rInvOver (h : FVec Ideal S512x32 .f32) : FVec Ideal S512x32 .f32 :=
  rOver (Host.rsqrt (addf (rVar512 h) (broadcastInDim S32 ![] bcast_S_S32 (constant (F := Ideal) S_ .f32 0x3727C5AC#32))))

def rNorm (h : FVec Ideal S512x32 .f32) (gg gb : FVec Ideal S32 .f32) : FVec Ideal S512x32 .f32 :=
  rRelu512 (addf (mulf (mulf (subf h (rMeanOver h)) (rInvOver h)) (rOver gg)) (rOver gb))

def rOut (x : FVec Ideal S512x32 .f32) (w1 : FVec Ideal S32x2 .f32) (b1 : FVec Ideal S2 .f32) : FVec Ideal S512x2 .f32 :=
  addf (Host.dotGeneral dot_S512x32_S32x2_S512x2_1_0_0_1_n_n none x w1) (broadcastInDim S512x2 ![0, 1] bcast_S1x2_S512x2_0_1 (broadcastInDim S1x2 ![1] bcast_S2_S1x2_1 b1))

theorem rHead_stages (g : FVec Ideal S512x32 .f32) (w0 : FVec Ideal S32x32 .f32) (b0 gg gb : FVec Ideal S32 .f32)
    (w1 : FVec Ideal S32x2 .f32) (b1 : FVec Ideal S2 .f32) :
    rHead g w0 b0 gg gb w1 b1 = rOut (rNorm (rDense g w0 b0) gg gb) w1 b1 := rfl

end Cert.ReferenceIdeal.Hand

namespace Cert.KernelIdeal.Hand

open Cert.KernelIdeal
open Idealize.ShloMosaic Idealize.ShloMosaic.ValueIdx

section Stages
variable [Cert.KernelIdeal.Facts]
open Cert.KernelIdeal.Facts₀ Cert.KernelIdeal.Facts

def kOver (r : FVec Ideal S1x32 .f32) : FVec Ideal S512x32 .f32 := broadcastTo S512x32 r broadcasts_S1x32_S512x32

def kDense (g : FVec Ideal S512x32 .f32) (w0 : FVec Ideal S32x32 .f32) (b0 : FVec Ideal S1x32 .f32) : FVec Ideal S512x32 .f32 :=
  addf (matmul dot_S512x32_S32x32_S512x32_1_0_0_1_n_n none (truncf .bf16 (shapeCast S512x32 g shapeCasts_S512x32_S512x32) bitsLt_bf16_f32)
    (truncf .bf16 w0 bitsLt_bf16_f32) (constant (F := Ideal) S512x32 .f32 0x00000000#32)) (kOver (shapeCast S1x32 b0 shapeCasts_S1x32_S1x32))

def kColSumRow (h : FVec Ideal S512x32 .f32) : FVec Ideal S1x32 .f32 :=
  shapeCast S1x32 (multiReduction .add [0] S32 h 0x00000000#32 reduces_S512x32_S32 (.inl rfl) rfl) shapeCasts_S32_S1x32

def kMeanRow (h : FVec Ideal S512x32 .f32) : FVec Ideal S1x32 .f32 :=
  divf (kColSumRow h) (broadcast S1x32 (Scalar.ofBits (F := Ideal) .f32 0x44000000#32))

def kCentre (h : FVec Ideal S512x32 .f32) : FVec Ideal S512x32 .f32 := subf h (kOver (kMeanRow h))

def kInvRow (d : FVec Ideal S512x32 .f32) : FVec Ideal S1x32 .f32 :=
  rsqrt (addf (kMeanRow (mulf d d)) (broadcast S1x32 (Scalar.ofBits (F := Ideal) .f32 0x3727C5AC#32)))

def kNorm (h : FVec Ideal S512x32 .f32) (gg gb : FVec Ideal S1x32 .f32) : FVec Ideal S512x32 .f32 :=
  maximumf (addf (mulf (mulf (kCentre h) (kOver (kInvRow (kCentre h)))) (kOver (shapeCast S1x32 gg shapeCasts_S1x32_S1x32)))
    (kOver (shapeCast S1x32 gb shapeCasts_S1x32_S1x32))) (broadcast S512x32 (Scalar.ofBits (F := Ideal) .f32 0x00000000#32))

def kOut (x : FVec Ideal S512x32 .f32) (w1 : FVec Ideal S32x2 .f32) (b1 : FVec Ideal S1x2 .f32) : FVec Ideal S512x2 .f32 :=
  addf (matmul dot_S512x32_S32x2_S512x2_1_0_0_1_n_n none (truncf .bf16 x bitsLt_bf16_f32) (truncf .bf16 w1 bitsLt_bf16_f32)
    (constant (F := Ideal) S512x2 .f32 0x00000000#32)) (broadcastTo S512x2 (shapeCast S1x2 b1 shapeCasts_S1x2_S1x2) broadcasts_S1x2_S512x2)

theorem mlpOut_stages (g : FVec Ideal S512x32 .f32) (w0 : FVec Ideal S32x32 .f32) (b0 gg gb : FVec Ideal S1x32 .f32)
    (w1 : FVec Ideal S32x2 .f32) (b1 : FVec Ideal S1x2 .f32) :
    mlpOut g w0 b0 gg gb w1 b1 = kOut (kNorm (kDense g w0 b0) gg gb) w1 b1 := rfl

end Stages

open Cert.ReferenceIdeal.Hand (rOver rDense rColSum rMeanOver rMeanOver' rInvOver rNorm rOut rVar512 rRelu512 rHead)

section Bridge
variable [Cert.KernelIdeal.Facts] [Cert.ReferenceIdeal.Facts]

theorem kOver_eq (r : FVec Ideal S1x32 .f32) :
    kOver r = broadcastInDim Cert.ReferenceIdeal.S512x32 ![0, 1] Cert.ReferenceIdeal.Facts₀.bcast_S1x32_S512x32_0_1 r :=
  rowOver_eq r _ _

/-- A row that reads a vector's entries, repeated down the rows, is the vector laid over the rows. -/
theorem kOver_row (r : FVec Ideal S1x32 .f32) (v : FVec Ideal S32 .f32) (h : ∀ (u : Fin 1) (q : Fin 32), r (ix2 u q) = v (ix1 q)) :
    kOver r = rOver v := by
  rw [kOver_eq]
  unfold rOver
  refine congrArg _ (funext fun i => ?_)
  obtain ⟨u, q, rfl⟩ : ∃ (u : Fin 1) (q : Fin 32), i = ix2 u q := ⟨i 0, i 1, eq_ix2 i⟩
  rw [← vecRow_eq _ Cert.KernelIdeal.Facts₀.shapeCasts_S32_S1x32, shapeCast_a_1a_apply]
  exact h u q

theorem kOver_vec (v : FVec Ideal S32 .f32) :
    kOver (shapeCast S1x32 (kRow1x32 v) Cert.KernelIdeal.Facts₀.shapeCasts_S1x32_S1x32) = rOver v :=
  kOver_row _ v fun u q => by rw [shapeCast_self]; exact shapeCast_a_1a_apply v _ u q

theorem kDense_eq (g : FVec Ideal S512x32 .f32) (w0 : FVec Ideal S32x32 .f32) (b0 : FVec Ideal S32 .f32) :
    kDense g w0 (kRow1x32 b0) = rDense g w0 b0 := by
  unfold kDense rDense
  rw [kOver_vec, shapeCast_self]
  refine congrArg (fun z => addf z (rOver b0)) ?_
  funext j
  exact (Ideal.matmul_constant_zero_apply _ none _ _ j).trans (Ideal.dotGeneral_apply _ none .single g w0 j).symm

theorem kColSumRow_apply (h : FVec Ideal S512x32 .f32) (u : Fin 1) (q : Fin 32) :
    kColSumRow h (ix2 u q) = rColSum h (ix1 q) := by
  unfold kColSumRow rColSum
  rw [shapeCast_a_1a_apply]
  refine (Ideal.multiReduction_add_single h _ Cert.KernelIdeal.Facts₀.reduces_S512x32_S32 _ _ (ix1 q)).trans ?_
  refine Eq.symm ((Ideal.hostReduceAdd_single _ Cert.KernelIdeal.Facts₀.reduces_S512x32_S32 h _ (ix1 q)).trans ?_)
  show Ideal.ofBits .f32 0x00000000#32 + _ = _
  rw [Ideal.ofBits_zero_f32, zero_add]

theorem kMeanOver_eq (h : FVec Ideal S512x32 .f32) : kOver (kMeanRow h) = rMeanOver h := kOver_row _ _ fun u q => by
  show Ideal.div (kColSumRow h (ix2 u q)) _ = Ideal.div (rColSum h (ix1 q)) _
  rw [kColSumRow_apply, splat_eq]
  rfl

theorem rMeanOver'_eq (h : FVec Ideal S512x32 .f32) : rMeanOver' h = rMeanOver h := (kOver_eq _).symm.trans <| kOver_row _ _ fun u q => by
  rw [← vecRow_eq _ Cert.KernelIdeal.Facts₀.shapeCasts_S32_S1x32]
  show Ideal.div (shapeCast _ (rColSum h) _ (ix2 u q)) _ = Ideal.div (rColSum h (ix1 q)) _
  rw [shapeCast_a_1a_apply, splat_eq, splat_eq]
  rfl

theorem ofBits_512 : Ideal.ofBits .f32 0x44000000#32 = ((512 : ℝ) : EReal) := by
  simp [Ideal.ofBits, Ideal.ieee, -EReal.coe_mul]; norm_num

theorem sub_sitofp_zero (x : EReal) : x - (((0#32 : BitVec 32).toInt : ℝ) : EReal) = x := by
  simp

theorem guard_512 : Ideal.cmp .ogt (Ideal.ofBits .f32 0x44000000#32) (Ideal.ofBits .f32 0x00000000#32) = 1#1 := by
  rw [Ideal.ofBits_zero_f32, ofBits_512]
  have h : (0 : EReal) < ((512 : ℝ) : EReal) := by exact_mod_cast (by norm_num : (0 : ℝ) < 512)
  simp [Ideal.cmp, h]

theorem rVar512_apply (h : FVec Ideal S512x32 .f32) (q : Fin 32) :
    rVar512 h (ix1 q) = Ideal.div (rColSum (mulf (subf h (rMeanOver h)) (subf h (rMeanOver h))) (ix1 q)) (Ideal.ofBits .f32 0x44000000#32) := by
  rw [Cert.ReferenceIdeal.Hand.rVar512_stages, rMeanOver'_eq, select_apply, splat_eq, splat_eq]
  show Scalar.select (Ideal.cmp .ogt (Ideal.ofBits .f32 0x44000000#32 - (((0#32 : BitVec 32).toInt : ℝ) : EReal)) (Ideal.ofBits .f32 0x00000000#32))
      (Ideal.div (rColSum _ (ix1 q)) (Ideal.ofBits .f32 0x44000000#32 - (((0#32 : BitVec 32).toInt : ℝ) : EReal))) _ = _
  rw [sub_sitofp_zero, guard_512, select_one]

theorem kInvOver_eq (h : FVec Ideal S512x32 .f32) : kOver (kInvRow (subf h (rMeanOver h))) = rInvOver h := kOver_row _ _ fun u q => by
  show Ideal.rsqrt (Ideal.div (kColSumRow _ (ix2 u q)) _ + _) = Ideal.rsqrt (rVar512 h (ix1 q) + _)
  rw [kColSumRow_apply, rVar512_apply, splat_eq]
  rfl

theorem kNorm_eq (h : FVec Ideal S512x32 .f32) (gg gb : FVec Ideal S32 .f32) :
    kNorm h (kRow1x32 gg) (kRow1x32 gb) = rNorm h gg gb := by
  unfold kNorm rNorm kCentre rRelu512
  rw [kMeanOver_eq, kInvOver_eq, kOver_vec, kOver_vec, splat_eq]
  rfl

theorem kOut_eq (x : FVec Ideal S512x32 .f32) (w1 : FVec Ideal S32x2 .f32) (b1 : FVec Ideal S2 .f32) :
    kOut x w1 (kRow1x2 b1) = rOut x w1 b1 := by
  unfold kOut rOut kRow1x2
  rw [shapeCast_self, vecRow_eq b1 _ Cert.ReferenceIdeal.Facts₀.bcast_S2_S1x2_1,
    rowOver_eq _ _ Cert.ReferenceIdeal.Facts₀.bcast_S1x2_S512x2_0_1]
  refine congrArg (fun z => addf z _) ?_
  funext j
  exact (Ideal.matmul_constant_zero_apply _ none _ _ j).trans (Ideal.dotGeneral_apply _ none .single x w1 j).symm

/-- Stage by stage the kernel's head is the reference's: the dense layer, the normalisation over the 512 rows, the output layer. -/
theorem head_eq (g : FVec Ideal S512x32 .f32) (w0 : FVec Ideal S32x32 .f32) (b0 gg gb : FVec Ideal S32 .f32) (w1 : FVec Ideal S32x2 .f32)
    (b1 : FVec Ideal S2 .f32) : mlpOut g w0 (kRow1x32 b0) (kRow1x32 gg) (kRow1x32 gb) w1 (kRow1x2 b1) = rHead g w0 b0 gg gb w1 b1 := by
  rw [mlpOut_stages, Cert.ReferenceIdeal.Hand.rHead_stages, kDense_eq, kNorm_eq, kOut_eq]

end Bridge

end Cert.KernelIdeal.Hand

end
-- ==== Proof.AlgBNReal.lean ====
import Idealize.ShloMosaic.PureOps.Ideal
import Mathlib.Algebra.BigOperators.Ring.Finset
import Mathlib.Algebra.Order.BigOperators.Group.Finset
import Mathlib.Tactic.Ring
import Mathlib.Tactic.FieldSimp
import Mathlib.Tactic.Positivity

noncomputable section

namespace Cert.AlgBN

open Idealize.ShloMosaic

theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

-- Expand the square and sum term by term; the constant term sums to n times itself.
theorem var_identity {ι : Type} [Fintype ι] (x : ι → ℝ) (n : ℝ) (hn : (Fintype.card ι : ℝ) = n) (hpos : 0 < n) :
    (∑ i, (x i - (∑ i, x i) * (1 / n)) * (x i - (∑ i, x i) * (1 / n))) * (1 / n)
      = (∑ i, x i * x i) * (1 / n) - (∑ i, x i) * (1 / n) * ((∑ i, x i) * (1 / n)) := by
  have hne : n ≠ 0 := ne_of_gt hpos
  simp only [sub_mul, mul_sub, Finset.sum_sub_distrib, ← Finset.sum_mul, ← Finset.mul_sum, Finset.sum_const, Finset.card_univ, nsmul_eq_mul, hn]
  field_simp
  ring

theorem var_nonneg {ι : Type} [Fintype ι] (x : ι → ℝ) (n : ℝ) (hn : (Fintype.card ι : ℝ) = n) (hpos : 0 < n) :
    0 ≤ (∑ i, x i * x i) * (1 / n) - (∑ i, x i) * (1 / n) * ((∑ i, x i) * (1 / n)) := by
  rw [← var_identity x n hn hpos]
  exact mul_nonneg (Finset.sum_nonneg fun i _ => mul_self_nonneg _) (by positivity)

theorem var_forms {ι : Type} [Fintype ι] (x : ι → ℝ) (n : ℝ) (hn : (Fintype.card ι : ℝ) = n) (hpos : 0 < n)
    (N Z : EReal) (hN : N = (n : EReal)) (hZ : Z = 0) :
    ∃ m v : ℝ, 0 ≤ v ∧ Ideal.div (∑ i, (x i : EReal)) N = (m : EReal) ∧ Ideal.div (Z + ∑ i, (x i : EReal)) N = (m : EReal)
      ∧ max (Ideal.div (∑ i, (x i : EReal) * (x i : EReal)) N
              - Ideal.div (∑ i, (x i : EReal)) N * Ideal.div (∑ i, (x i : EReal)) N) Z = (v : EReal)
      ∧ Ideal.div (Z + ∑ i, ((x i : EReal) - Ideal.div (Z + ∑ i, (x i : EReal)) N)
                              * ((x i : EReal) - Ideal.div (Z + ∑ i, (x i : EReal)) N)) N = (v : EReal) := by
  have hne : n ≠ 0 := ne_of_gt hpos
  subst hN hZ
  have hmean : Ideal.div (∑ i, (x i : EReal)) (n : EReal) = (((∑ i, x i) * (1 / n) : ℝ) : EReal) := by
    rw [Ideal.div_coe hne, coe_sum, ← EReal.coe_mul]
  refine ⟨_, _, var_nonneg x n hn hpos, hmean, by rw [zero_add, hmean], ?_, ?_⟩
  · rw [hmean, Ideal.div_coe hne]
    simp only [← EReal.coe_mul]
    rw [coe_sum, ← EReal.coe_mul, ← EReal.coe_sub]
    exact max_eq_left (EReal.coe_nonneg.mpr (var_nonneg x n hn hpos))
  · rw [zero_add, zero_add, hmean, Ideal.div_coe hne]
    simp only [← EReal.coe_sub, ← EReal.coe_mul]
    rw [coe_sum, ← EReal.coe_mul, var_identity x n hn hpos]

end Cert.AlgBN

end
-- ==== Proof.AlgBN.lean ====
import proofs.«419458_j79517024518684_2_alg».proof.Proof.KTerms
import proofs.«419458_j79517024518684_2_alg».proof.Proof.RefTerms
import proofs.«419458_j79517024518684_2_alg».proof.Proof.FinV
import proofs.«419458_j79517024518684_2_alg».proof.Proof.AlgBNReal
import Idealize.ShloMosaic.PureOps.Ideal.Laws
import Idealize.ShloMosaic.Lib.ValueIdx
import Idealize.ShloMosaic.Lib.ValueLayout
import Idealize.ShloMosaic.Lib.IdealHost
import Idealize.ShloMosaic.Lib.KernelVsHost

noncomputable section

namespace Cert.AlgBN

open Idealize.ShloMosaic Idealize.ShloMosaic.ValueIdx

/-- The words of the row count and of zero. -/
abbrev cN := Ideal.ofBits .f32 0x48C35000#32
abbrev cZ := Ideal.ofBits .f32 0x00000000#32
abbrev cI := FloatOps.sitofp (F := Ideal) .f32 (0#32 : BitVec 32)

theorem cZ_eq : cZ = 0 := Ideal.ofBits_zero_f32

theorem ofBits_count : cN = ((400000 : ℝ) : EReal) := by
  simp [cN, Ideal.ofBits, Ideal.ieee, -EReal.coe_mul]; norm_num

theorem ofBits_eps : ∃ e : ℝ, 0 < e ∧ Ideal.ofBits .f32 0x3727C5AC#32 = (e : EReal) := by
  refine ⟨((2 ^ 23 + 0x27C5AC : ℕ) : ℝ) * (2 : ℝ) ^ ((110 : ℤ) - 127 - 23), by positivity, ?_⟩
  simp [Ideal.ofBits, Ideal.ieee, -EReal.coe_mul]

theorem count_sub_zero : cN - cI = cN := by
  show cN - ((((0#32 : BitVec 32).toInt : ℤ) : ℝ) : EReal) = cN
  simp

theorem count_pos_bit : FloatOps.cmpf (F := Ideal) .ogt cN cZ = 1#1 := by
  rw [ofBits_count, cZ_eq]
  show BitVec.ofBool (decide ((0 : EReal) < ((400000 : ℝ) : EReal))) = 1#1
  rw [decide_eq_true (EReal.coe_pos.mpr (by norm_num))]
  rfl

theorem broadcastInDim_vecRow_apply {α : Type} {n : ℕ} (hb : (⟨1, ![n]⟩ : Shape).BroadcastsInDim ⟨2, ![1, n]⟩ ![1])
    (v : (⟨1, ![n]⟩ : Shape).Idx → α) (u : Fin 1) (q : Fin n) :
    broadcastInDim ⟨2, ![1, n]⟩ ![1] hb v (ix2 u q) = v (ix1 q) := by
  refine broadcastInDim_apply ![1] hb v (ix2 u q) (ix1 q) fun a => ?_
  match a with
  | ⟨0, _⟩ =>
    show q.val = if n = 1 then 0 else q.val
    split_ifs with hn
    · have := q.isLt; omega
    · rfl

theorem hostReduceAdd_rows {n : ℕ} (hR' : (⟨2, ![n, 32]⟩ : Shape).ReducesTo [0] ⟨1, ![32]⟩)
    (x : (⟨2, ![n, 32]⟩ : Shape).Idx → EReal) (init : EReal) (q : Fin 32) :
    Ideal.hostReduceAdd hR' x init (ix1 q) = init + ∑ k : Fin n, x (ix2 k q) := by
  have hR : (⟨2, ![n, 32]⟩ : Shape).Reduces [0] ⟨1, ![32]⟩ := ⟨hR'.1, Nat.one_pos, hR'.2⟩
  rw [Ideal.hostReduceAdd_single hR' hR]
  refine congrArg (init + ·) (Finset.sum_congr rfl fun k _ => congrArg x ?_)
  funext c
  refine Fin.ext ?_
  match c with
  | ⟨0, _⟩ => rfl
  | ⟨1, _⟩ => rfl

theorem hostRsqrt_apply {s : Shape} (x : FVec Ideal s .f32) (i : s.Idx) : Host.rsqrt x i = Ideal.rsqrt (x i) := rfl

section Readings
variable [Cert.KernelIdeal.Facts] [Cert.ReferenceIdeal.Facts]

theorem kBN_apply (h : FVec Ideal Cert.KernelIdeal.S400000x32 .f32) (g b : FVec Ideal Cert.KernelIdeal.S32 .f32)
    (p : Fin 400000) (q : Fin 32) :
    Cert.KernelIdeal.Hand.kBN h g b (ix2 p q)
      = max ((h (ix2 p q) - Ideal.div (∑ i : Fin 400000, h (ix2 i q)) cN)
          * Ideal.rsqrt (max (Ideal.div (∑ i : Fin 400000, h (ix2 i q) * h (ix2 i q)) cN
                - Ideal.div (∑ i : Fin 400000, h (ix2 i q)) cN
                  * Ideal.div (∑ i : Fin 400000, h (ix2 i q)) cN)
              cZ + Ideal.ofBits .f32 0x3727C5AC#32)
          * g (ix1 q) + b (ix1 q)) 0 := by
  rw [← shapeCast_a_1a_apply g Cert.KernelIdeal.Facts₀.shapeCasts_S32_S1x32 0 q, ← shapeCast_a_1a_apply b Cert.KernelIdeal.Facts₀.shapeCasts_S32_S1x32 0 q]
  rfl

open Cert.ReferenceIdeal

theorem rMean_apply (h : FVec Ideal S400000x32 .f32) (hR : S400000x32.ReducesTo [0] S32)
    (hu : 0 < S_.numel) (hb : S_.BroadcastsInDim S32 ![]) (q : Fin 32) :
    Host.divf (Host.reduceAdd h (constant (F := Ideal) S_ .f32 0x00000000#32) hR hu)
        (broadcastInDim S32 ![] hb (constant (F := Ideal) S_ .f32 0x48C35000#32)) (ix1 q)
      = Ideal.div (cZ + ∑ i : Fin 400000, h (ix2 i q)) cN := by
  rw [hostDivf_apply, hostReduceAdd_apply, hostReduceAdd_rows, broadcastInDim_scalar_apply]
  rfl

theorem rMeanRows_apply (h : FVec Ideal S400000x32 .f32) (hR : S400000x32.ReducesTo [0] S32)
    (hu : 0 < S_.numel) (hb : S_.BroadcastsInDim S1x32 ![])
    (hv : S32.BroadcastsInDim S1x32 ![1])
    (hr : S1x32.BroadcastsInDim S400000x32 ![0, 1]) (k : Fin 400000) (q : Fin 32) :
    broadcastInDim S400000x32 ![0, 1] hr
        (Host.divf (broadcastInDim S1x32 ![1] hv
            (Host.reduceAdd h (constant (F := Ideal) S_ .f32 0x00000000#32) hR hu))
          (broadcastInDim S1x32 ![] hb (constant (F := Ideal) S_ .f32 0x48C35000#32))) (ix2 k q)
      = Ideal.div (cZ + ∑ i : Fin 400000, h (ix2 i q)) cN := by
  rw [broadcastInDim_oneRow_apply, hostDivf_apply, broadcastInDim_vecRow_apply, hostReduceAdd_apply, hostReduceAdd_rows,
    broadcastInDim_scalar_apply]
  rfl

theorem sqDevSum_apply (h Mb : FVec Ideal S400000x32 .f32) (init : S_.Idx → EReal)
    (hR : S400000x32.ReducesTo [0] S32) (hu : 0 < S_.numel)
    (M : EReal) (q : Fin 32) (hM : ∀ k : Fin 400000, Mb (ix2 k q) = M) :
    Host.reduceAdd (mulf (subf h Mb) (subf h Mb)) init hR hu (ix1 q)
      = init (Shape.Idx.first hu) + ∑ k : Fin 400000, (h (ix2 k q) - M) * (h (ix2 k q) - M) := by
  rw [hostReduceAdd_apply, hostReduceAdd_rows]
  refine congrArg (init (Shape.Idx.first hu) + ·) (Finset.sum_congr rfl fun k _ => ?_)
  rw [mulf_apply, subf_apply, hM k]

theorem rVar_apply (h : FVec Ideal S400000x32 .f32) (q : Fin 32) :
    Hand.rVar h (ix1 q)
      = Scalar.select (FloatOps.cmpf (F := Ideal) .ogt
            (cN - cI) cZ)
          (Ideal.div (cZ + ∑ k : Fin 400000,
              (h (ix2 k q) - Ideal.div (cZ + ∑ i : Fin 400000, h (ix2 i q)) cN)
              * (h (ix2 k q) - Ideal.div (cZ + ∑ i : Fin 400000, h (ix2 i q)) cN))
            (cN - cI))
          (Ideal.ofBits .f32 0x7FC00000#32) := by
  unfold Hand.rVar
  rw [select_apply, hostDivf_apply, sqDevSum_apply (hM := fun k => rMeanRows_apply h _ _ _ _ _ k q),
    broadcastInDim_scalar_apply, broadcastInDim_scalar_apply, broadcastInDim_scalar_apply]
  rfl

theorem rBN_apply (h : FVec Ideal S400000x32 .f32) (g b : FVec Ideal S32 .f32)
    (p : Fin 400000) (q : Fin 32) :
    Hand.rBN h g b (ix2 p q)
      = max ((h (ix2 p q) - Ideal.div (cZ + ∑ i : Fin 400000, h (ix2 i q)) cN)
          * Ideal.rsqrt (Hand.rVar h (ix1 q) + Ideal.ofBits .f32 0x3727C5AC#32)
          * g (ix1 q) + b (ix1 q)) cZ := by
  unfold Hand.rBN Hand.rRelu
  rw [maximumf_apply, addf_apply, mulf_apply, mulf_apply, subf_apply,
    broadcastInDim_oneRow_apply, broadcastInDim_oneRow_apply, broadcastInDim_oneRow_apply, broadcastInDim_oneRow_apply,
    broadcastInDim_vecRow_apply, broadcastInDim_vecRow_apply, broadcastInDim_vecRow_apply, broadcastInDim_vecRow_apply,
    rMean_apply, hostRsqrt_apply, addf_apply, broadcastInDim_scalar_apply, broadcastInDim_scalar_apply]
  rfl

end Readings

end Cert.AlgBN

namespace Cert.KernelIdeal.Hand

open Idealize.ShloMosaic Idealize.ShloMosaic.ValueIdx Cert.AlgBN

/-- For a column of reals the mean is one real either way, and the mean of squares less the squared mean is the mean of squared deviations: the two normalisations agree entry by entry. -/
theorem bn_eq [Facts] [Cert.ReferenceIdeal.Facts] (h : FVec Ideal S400000x32 .f32) (g b : FVec Ideal S32 .f32) (hh : Cert.Fin.FinV h) :
    kBN h g b = Cert.ReferenceIdeal.Hand.rBN h g b := by
  funext i
  obtain ⟨p, q, rfl⟩ : ∃ (p : Fin 400000) (q : Fin 32), i = ix2 p q := ⟨i 0, i 1, eq_ix2 i⟩
  choose f hf using hh
  obtain rfl : h = fun i => ((f i : ℝ) : EReal) := funext hf
  obtain ⟨m, v, -, hm1, hm2, hv1, hv2⟩ := var_forms (fun k : Fin 400000 => f (ix2 k q)) 400000 (by rw [Fintype.card_fin]; norm_num) (by norm_num) _ _ ofBits_count cZ_eq
  rw [kBN_apply, rBN_apply, rVar_apply, count_sub_zero, count_pos_bit, select_one, hv1, hv2, hm1, hm2, cZ_eq]

end Cert.KernelIdeal.Hand

namespace Cert.ReferenceIdeal.Hand

open Idealize.ShloMosaic Idealize.ShloMosaic.ValueIdx Cert.AlgBN

/-- Mean and variance are real, the variance not negative and the epsilon positive, so the inverse square root is a positive real and every entry is real. -/
theorem fin_rBN [Facts] (h : FVec Ideal S400000x32 .f32) (g b : FVec Ideal S32 .f32)
    (hh : Cert.Fin.FinV h) (hg : Cert.Fin.FinV g) (hb : Cert.Fin.FinV b) : Cert.Fin.FinV (rBN h g b) := by
  intro i
  obtain ⟨p, q, rfl⟩ : ∃ (p : Fin 400000) (q : Fin 32), i = ix2 p q := ⟨i 0, i 1, eq_ix2 i⟩
  obtain ⟨gq, hgq⟩ := hg (ix1 q)
  obtain ⟨bq, hbq⟩ := hb (ix1 q)
  choose f hf using hh
  obtain rfl : h = fun i => ((f i : ℝ) : EReal) := funext hf
  obtain ⟨e, he, hE⟩ := ofBits_eps
  obtain ⟨m, v, hv, -, hm2, -, hv2⟩ := var_forms (fun k : Fin 400000 => f (ix2 k q)) 400000 (by rw [Fintype.card_fin]; norm_num) (by norm_num) _ _ ofBits_count cZ_eq
  have hpos : 0 < v + e := by linarith
  rw [rBN_apply, rVar_apply, count_sub_zero, count_pos_bit, select_one, hv2, hm2, hgq, hbq, hE, cZ_eq,
    ← EReal.coe_add, Ideal.rsqrt_coe, if_neg (not_lt.mpr hpos.le), if_neg hpos.ne', ← EReal.coe_sub, ← EReal.coe_mul,
    ← EReal.coe_mul, ← EReal.coe_add, ← EReal.coe_zero, ← EReal.coe_strictMono.monotone.map_max]
  exact ⟨_, rfl⟩

end Cert.ReferenceIdeal.Hand

end
-- ==== Proof.AlgAll.lean ====
import proofs.«419458_j79517024518684_2_alg».proof.Proof.AlgLin
import proofs.«419458_j79517024518684_2_alg».proof.Proof.AlgPool
import proofs.«419458_j79517024518684_2_alg».proof.Proof.FinAgg
import proofs.«419458_j79517024518684_2_alg».proof.Proof.AlgHead
import proofs.«419458_j79517024518684_2_alg».proof.Proof.AlgBN

set_option maxRecDepth 8192

noncomputable section

namespace Cert.Alg

open Idealize.ShloMosaic
open Cert.Fin (FinV)
open Cert.KernelIdeal.Hand Cert.ReferenceIdeal.Hand

-- Layer by layer the same operations; a batch normalisation agrees once its input is finite, and finiteness is carried along.
theorem kernOut_eq_refOut [Cert.KernelIdeal.Facts] [Cert.ReferenceIdeal.Facts]
    (a0 : FVec Ideal Cert.KernelIdeal.S400000x7 .f32) (a1 : IVec Cert.KernelIdeal.S2x2500000 32) (a2 : FVec Ideal Cert.KernelIdeal.S2500000 .f32) (a3 : IVec Cert.KernelIdeal.S400000 32)
    (a4 : FVec Ideal Cert.KernelIdeal.S7x32 .f32) (a5 : FVec Ideal Cert.KernelIdeal.S32 .f32) (a6 : FVec Ideal Cert.KernelIdeal.S32x32 .f32) (a7 : FVec Ideal Cert.KernelIdeal.S32 .f32)
    (a8 : FVec Ideal Cert.KernelIdeal.S32x32 .f32) (a9 : FVec Ideal Cert.KernelIdeal.S32 .f32) (a10 : FVec Ideal Cert.KernelIdeal.S32x32 .f32) (a11 : FVec Ideal Cert.KernelIdeal.S32 .f32)
    (a12 a13 : FVec Ideal Cert.KernelIdeal.S3x32 .f32) (a14 : FVec Ideal Cert.KernelIdeal.S32x32 .f32) (a15 a16 a17 : FVec Ideal Cert.KernelIdeal.S32 .f32)
    (a18 : FVec Ideal Cert.KernelIdeal.S32x2 .f32) (a19 : FVec Ideal Cert.KernelIdeal.S2 .f32)
    (h0 : FinV a0) (h2 : FinV a2) (h4 : FinV a4) (h5 : FinV a5) (h6 : FinV a6) (h7 : FinV a7) (h8 : FinV a8) (h9 : FinV a9)
    (h10 : FinV a10) (h11 : FinV a11) (h12 : FinV a12) (h13 : FinV a13) :
    kernOut a0 a1 a2 a3 a4 a5 a6 a7 a8 a9 a10 a11 a12 a13 a14 a15 a16 a17 a18 a19
      = refOut a0 a1 a2 a3 a4 a5 a6 a7 a8 a9 a10 a11 a12 a13 a14 a15 a16 a17 a18 a19 := by
  have f8 := fin_rV8 a2 h2
  have f33 := fin_rV33 (rV5 a1) (rV6 a1) _ _ f8 (fin_rDinv (rV6 a1) _ f8)
  have F0 := fin_rAgg _ (rV5 a1) (rV6 a1) _ a5 (fin_rLin7 a0 a4 h0 h4) f33 h5
  have F1 := fin_rAgg _ (rV5 a1) (rV6 a1) _ a7
    (fin_rLin32 _ a6 (fin_rBN _ _ _ F0 (fin_rRow0 a12 h12) (fin_rRow0 a13 h13)) h6) f33 h7
  have F2 := fin_rAgg _ (rV5 a1) (rV6 a1) _ a9
    (fin_rLin32 _ a8 (fin_rBN _ _ _ F1 (fin_rRow1 a12 h12) (fin_rRow1 a13 h13)) h8) f33 h9
  simp only [kernOut, refOut, kV5_eq, kV6_eq, kV8_eq, kDinv_eq, kV33_eq, kAgg_eq, kRow0_eq, kRow1_eq, kRow2_eq,
    lin7_eq, lin32_eq, bn_eq _ _ _ F0, bn_eq _ _ _ F1, bn_eq _ _ _ F2, pool_eq, head_eq]

end Cert.Alg

end
-- ==== Proof.PreFin.lean ====
import proofs.«419458_j79517024518684_2_alg».proof.Defs
import proofs.«419458_j79517024518684_2_alg».proof.Proof.FinV
import Idealize.ShloMosaic.PureOps.Ideal
import Idealize.ShloMosaic.PureOps.Ideal.Laws
import Idealize.ShloMosaic.Lib.ReduceAll
import Idealize.ShloMosaic.Lib.ValueIdx
import Idealize.ShloMosaic.Lib.StableHlo.Predicate

noncomputable section

namespace Cert.KernelIdeal.Hand

open Idealize.ShloMosaic Idealize.SL.Sem
open Cert.Fin (FinV)

theorem preFin_inf_word : Ideal.ofBits .f32 0x7F800000#32 = (⊤ : EReal) := by
  simp [Ideal.ofBits, Ideal.ieee]

theorem preFin_real_of_abs_lt_top (x : EReal) (h : max x (-x) < ⊤) : ∃ r : ℝ, x = (r : EReal) := by
  induction x using EReal.rec with
  | bot => simp at h
  | coe r => exact ⟨r, rfl⟩
  | top => simp at h

theorem finV_of_all {S : Shape} {axes : List (Fin S.rank)} (hb : (⟨0, ![]⟩ : Shape).BroadcastsInDim S (![] : Fin 0 → Fin S.rank))
    (hr : S.ReducesTo axes (⟨0, ![]⟩ : Shape)) (h0 : 0 < (⟨0, ![]⟩ : Shape).numel) (a : FVec Ideal S .f32)
    (h : Host.reduce IntOp.andi
          (cmpf .olt (Host.absf a) (broadcastInDim S ![] hb (constant (F := Ideal) (⟨0, ![]⟩ : Shape) .f32 0x7F800000#32)))
          (constantI (⟨0, ![]⟩ : Shape) 1 1#1) hr h0 ValueIdx.ix0 = 1#1) : FinV a := by
  intro i
  haveI : Subsingleton (⟨0, ![]⟩ : Shape).Idx := ⟨fun a b => funext fun d => d.elim0⟩
  have hi := Host.reduce_andi_all _ _ hr h0 ValueIdx.ix0 h i
  simp only [cmpf, Host.absf, broadcastInDim, constant, Ideal.hostAbsf_def, Ideal.absf_def, Ideal.cmpf_def, Ideal.ofBits_def,
    preFin_inf_word, Ideal.cmp, StableHlo.Predicate.ofBool_eq_one_iff, decide_eq_true_eq] at hi
  exact preFin_real_of_abs_lt_top _ hi

theorem fin_of_pre [Cert.KernelIdeal.Facts] [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    FinV (S := Cert.KernelIdeal.S400000x7) (m ((c.tc : Thread Cert.KernelIdeal.nD Cert.KernelIdeal.τ).loc Cert.KernelIdeal.main_arg0))
      ∧ FinV (S := Cert.KernelIdeal.S2500000) (m ((c.tc : Thread Cert.KernelIdeal.nD Cert.KernelIdeal.τ).loc Cert.KernelIdeal.main_arg2))
      ∧ FinV (S := Cert.KernelIdeal.S7x32) (m ((c.tc : Thread Cert.KernelIdeal.nD Cert.KernelIdeal.τ).loc Cert.KernelIdeal.main_arg4))
      ∧ FinV (S := Cert.KernelIdeal.S32) (m ((c.tc : Thread Cert.KernelIdeal.nD Cert.KernelIdeal.τ).loc Cert.KernelIdeal.main_arg5))
      ∧ FinV (S := Cert.KernelIdeal.S32x32) (m ((c.tc : Thread Cert.KernelIdeal.nD Cert.KernelIdeal.τ).loc Cert.KernelIdeal.main_arg6))
      ∧ FinV (S := Cert.KernelIdeal.S32) (m ((c.tc : Thread Cert.KernelIdeal.nD Cert.KernelIdeal.τ).loc Cert.KernelIdeal.main_arg7))
      ∧ FinV (S := Cert.KernelIdeal.S32x32) (m ((c.tc : Thread Cert.KernelIdeal.nD Cert.KernelIdeal.τ).loc Cert.KernelIdeal.main_arg8))
      ∧ FinV (S := Cert.KernelIdeal.S32) (m ((c.tc : Thread Cert.KernelIdeal.nD Cert.KernelIdeal.τ).loc Cert.KernelIdeal.main_arg9))
      ∧ FinV (S := Cert.KernelIdeal.S32x32) (m ((c.tc : Thread Cert.KernelIdeal.nD Cert.KernelIdeal.τ).loc Cert.KernelIdeal.main_arg10))
      ∧ FinV (S := Cert.KernelIdeal.S32) (m ((c.tc : Thread Cert.KernelIdeal.nD Cert.KernelIdeal.τ).loc Cert.KernelIdeal.main_arg11))
      ∧ FinV (S := Cert.KernelIdeal.S3x32) (m ((c.tc : Thread Cert.KernelIdeal.nD Cert.KernelIdeal.τ).loc Cert.KernelIdeal.main_arg12))
      ∧ FinV (S := Cert.KernelIdeal.S3x32) (m ((c.tc : Thread Cert.KernelIdeal.nD Cert.KernelIdeal.τ).loc Cert.KernelIdeal.main_arg13))
      ∧ FinV (S := Cert.KernelIdeal.S32x32) (m ((c.tc : Thread Cert.KernelIdeal.nD Cert.KernelIdeal.τ).loc Cert.KernelIdeal.main_arg14))
      ∧ FinV (S := Cert.KernelIdeal.S32) (m ((c.tc : Thread Cert.KernelIdeal.nD Cert.KernelIdeal.τ).loc Cert.KernelIdeal.main_arg15))
      ∧ FinV (S := Cert.KernelIdeal.S32) (m ((c.tc : Thread Cert.KernelIdeal.nD Cert.KernelIdeal.τ).loc Cert.KernelIdeal.main_arg16))
      ∧ FinV (S := Cert.KernelIdeal.S32) (m ((c.tc : Thread Cert.KernelIdeal.nD Cert.KernelIdeal.τ).loc Cert.KernelIdeal.main_arg17))
      ∧ FinV (S := Cert.KernelIdeal.S32x2) (m ((c.tc : Thread Cert.KernelIdeal.nD Cert.KernelIdeal.τ).loc Cert.KernelIdeal.main_arg18))
      ∧ FinV (S := Cert.KernelIdeal.S2) (m ((c.tc : Thread Cert.KernelIdeal.nD Cert.KernelIdeal.τ).loc Cert.KernelIdeal.main_arg19)) := by
  have h := congrFun (hpre c) ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5] at h
  simp only [andi, IntOp.andi_eq_one, and_assoc] at h
  repeat (refine ⟨finV_of_all _ _ _ _ h.1, ?_⟩; replace h := h.2)
  exact finV_of_all _ _ _ _ h

end Cert.KernelIdeal.Hand

end
-- ==== Proof.lean ====
import proofs.«419458_j79517024518684_2_alg».proof.Defs
import proofs.«419458_j79517024518684_2_alg».proof.Proof.Gen.Kernel
import proofs.«419458_j79517024518684_2_alg».proof.Proof.Gen.KernelIdeal
import proofs.«419458_j79517024518684_2_alg».proof.Proof.Gen.ReferenceIdeal
import proofs.«419458_j79517024518684_2_alg».proof.Proof.Gen.Pre_finite_inputs
import proofs.«419458_j79517024518684_2_alg».proof.Proof.BKRun
import proofs.«419458_j79517024518684_2_alg».proof.Proof.KFinal
import proofs.«419458_j79517024518684_2_alg».proof.Proof.RefRun
import proofs.«419458_j79517024518684_2_alg».proof.Proof.AlgAll
import proofs.«419458_j79517024518684_2_alg».proof.Proof.PreFin
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

-- The reference's frame is its run with the result dropped.
theorem frame_ri : Cert.frame_ReferenceIdeal := fun m ρ _ =>
  (θ_run Cert.ReferenceIdeal.defs _ _).mono (fun _ h c => (h c).2) (Cert.ReferenceIdeal.Hand.run m ρ)

-- Both programs end at one function of the twenty arguments; the two functions agree once the float arguments are finite.
theorem algebraic : Cert.algebraic_KernelIdeal_ReferenceIdeal := by
  intro m g m' g' hpre hagree
  refine ⟨fun c => Cert.KernelIdeal.Hand.kernOut (Cert.KernelIdeal.Hand.A0 m c) (Cert.KernelIdeal.Hand.A1 m c) (Cert.KernelIdeal.Hand.A2 m c) (Cert.KernelIdeal.Hand.A3 m c) (Cert.KernelIdeal.Hand.A4 m c) (Cert.KernelIdeal.Hand.A5 m c) (Cert.KernelIdeal.Hand.A6 m c) (Cert.KernelIdeal.Hand.A7 m c) (Cert.KernelIdeal.Hand.A8 m c) (Cert.KernelIdeal.Hand.A9 m c) (Cert.KernelIdeal.Hand.A10 m c) (Cert.KernelIdeal.Hand.A11 m c) (Cert.KernelIdeal.Hand.A12 m c) (Cert.KernelIdeal.Hand.A13 m c) (Cert.KernelIdeal.Hand.A14 m c) (Cert.KernelIdeal.Hand.A15 m c) (Cert.KernelIdeal.Hand.A16 m c) (Cert.KernelIdeal.Hand.A17 m c) (Cert.KernelIdeal.Hand.A18 m c) (Cert.KernelIdeal.Hand.A19 m c), Cert.KernelIdeal.Hand.run_val m g, ?_⟩
  refine (θ_run Cert.ReferenceIdeal.defs _ _).mono (fun r h c => ⟨(h c).1.trans ?_, (h c).2⟩) (Cert.ReferenceIdeal.Hand.run m' g')
  obtain ⟨e0, e1, e2, e3, e4, e5, e6, e7, e8, e9, e10, e11, e12, e13, e14, e15, e16, e17, e18, e19⟩ := hagree c
  obtain ⟨f0, f2, f4, f5, f6, f7, f8, f9, f10, f11, f12, f13, f14, f15, f16, f17, f18, f19⟩ := Cert.KernelIdeal.Hand.fin_of_pre m hpre c
  rw [e0, e1, e2, e3, e4, e5, e6, e7, e8, e9, e10, e11, e12, e13, e14, e15, e16, e17, e18, e19]
  exact (Cert.Alg.kernOut_eq_refOut _ _ _ _ _ _ _ _ _ _ _ _ _ _ _ _ _ _ _ _ f0 f2 f4 f5 f6 f7 f8 f9 f10 f11 f12 f13).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
